-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v205)) (v1 : (c : Dev Cert.KernelIdeal.nD) → Buf (Elt Ideal) ((c.tc : Thread Cert.KernelIdeal.nD Cert.KernelIdeal.τ).loc Cert.KernelIdeal.main_v282_1)) (v2 : (c : Dev Cert.KernelIdeal.nD) → Buf (Elt Ideal) ((c.tc : Thread Cert.KernelIdeal.nD Cert.KernelIdeal.τ).loc Cert.KernelIdeal.main_v283)) (v3 : (c : Dev Cert.KernelIdeal.nD) → Buf (Elt Ideal) ((c.tc : Thread Cert.KernelIdeal.nD Cert.KernelIdeal.τ).loc Cert.KernelIdeal.main_v284)) (v4 : (c : Dev Cert.KernelIdeal.nD) → Buf (Elt Ideal) ((c.tc : Thread Cert.KernelIdeal.nD Cert.KernelIdeal.τ).loc Cert.KernelIdeal.main_v285)) (v5 : (c : Dev Cert.KernelIdeal.nD) → Buf (Elt Ideal) ((c.tc : Thread Cert.KernelIdeal.nD Cert.KernelIdeal.τ).loc Cert.KernelIdeal.main_v77_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_v282_1) = v1 c
          ∧ r.2.mem ((c.tc : Thread Cert.KernelIdeal.nD Cert.KernelIdeal.τ).loc Cert.KernelIdeal.main_v283) = v2 c
          ∧ r.2.mem ((c.tc : Thread Cert.KernelIdeal.nD Cert.KernelIdeal.τ).loc Cert.KernelIdeal.main_v284) = v3 c
          ∧ r.2.mem ((c.tc : Thread Cert.KernelIdeal.nD Cert.KernelIdeal.τ).loc Cert.KernelIdeal.main_v285) = v4 c
          ∧ r.2.mem ((c.tc : Thread Cert.KernelIdeal.nD Cert.KernelIdeal.τ).loc Cert.KernelIdeal.main_v77_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_v449) = v1 c
          ∧ r.2.mem ((c.tc : Thread Cert.ReferenceIdeal.nD Cert.ReferenceIdeal.τ).loc Cert.ReferenceIdeal.main_v450) = v2 c
          ∧ r.2.mem ((c.tc : Thread Cert.ReferenceIdeal.nD Cert.ReferenceIdeal.τ).loc Cert.ReferenceIdeal.main_v451) = v3 c
          ∧ r.2.mem ((c.tc : Thread Cert.ReferenceIdeal.nD Cert.ReferenceIdeal.τ).loc Cert.ReferenceIdeal.main_v452) = v4 c
          ∧ r.2.mem ((c.tc : Thread Cert.ReferenceIdeal.nD Cert.ReferenceIdeal.τ).loc Cert.ReferenceIdeal.main_v121) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S15000x128 : Shape := ⟨2, ![15000, 128]⟩
abbrev S5000x128 : Shape := ⟨2, ![5000, 128]⟩
abbrev S2x600000 : Shape := ⟨2, ![2, 600000]⟩
abbrev S600000 : Shape := ⟨1, ![600000]⟩
abbrev S2x100000 : Shape := ⟨2, ![2, 100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S15000x128 : S_.BroadcastsInDim S15000x128 (![] : Fin 0 → Fin S15000x128.rank)
  reducesTo_S15000x128_S_d0_1 : S15000x128.ReducesTo [0, 1] S_
  bcast_S_S5000x128 : S_.BroadcastsInDim S5000x128 (![] : Fin 0 → Fin S5000x128.rank)
  reducesTo_S5000x128_S_d0_1 : S5000x128.ReducesTo [0, 1] S_
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S2x128 .f32) (main_arg15 : FVec F S2x128x128 .f32) (main_arg16 : FVec F S2x128 .f32) (main_v48 : IVec S_ 1) (main_v49 : FVec F S2x128x128 .f32) (main_v50 : FVec F S2x128x128 .f32) : IVec S_ 1 :=
  let main_v51 : IVec S2x128x128 1 := cmpf .olt main_v49 main_v50
  let main_c_19 : IVec S_ 1 := constantI S_ 1 1#1
  let main_v52 : IVec S_ 1 := (fun x v => Host.reduce IntOp.andi x v reducesTo_S2x128x128_S_d0_1_2 h_S_) main_v51 main_c_19
  let main_v53 : IVec S_ 1 := andi main_v48 main_v52
  let main_v54 : FVec F S2x128 .f32 := Host.absf main_arg14
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128x128 .f32 := Host.absf main_arg15
  let main_cst_22 : FVec F S_ .f32 := constant S_ .f32 0x7F800000#32
  let main_v60 : FVec F S2x128x128 .f32 := broadcastInDim S2x128x128 ![] bcast_S_S2x128x128 main_cst_22
  let main_v61 : IVec S2x128x128 1 := cmpf .olt main_v59 main_v60
  let main_c_23 : IVec S_ 1 := constantI S_ 1 1#1
  let main_v62 : IVec S_ 1 := (fun x v => Host.reduce IntOp.andi x v reducesTo_S2x128x128_S_d0_1_2 h_S_) main_v61 main_c_23
  let main_v63 : IVec S_ 1 := andi main_v58 main_v62
  let main_v64 : FVec F S2x128 .f32 := Host.absf main_arg16
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_v63 main_v67

def fn_part2 {F : FTy → Type} [FloatOps F] (main_arg10 : FVec F S128 .f32) (main_arg11 : FVec F S2x128x128 .f32) (main_arg12 : FVec F S2x128 .f32) (main_arg13 : FVec F S2x128x128 .f32) (main_arg14 : FVec F S2x128 .f32) (main_arg15 : FVec F S2x128x128 .f32) (main_arg16 : FVec F S2x128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2x128x128 .f32 := Host.absf main_arg11
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg12
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128x128 .f32 := Host.absf main_arg13
  let main_cst_18 : FVec F S_ .f32 := constant S_ .f32 0x7F800000#32
  let main_v50 : FVec F S2x128x128 .f32 := broadcastInDim S2x128x128 ![] bcast_S_S2x128x128 main_cst_18
  fn_part3 (F := F) main_arg14 main_arg15 main_arg16 main_v48 main_v49 main_v50

def fn_part1 {F : FTy → Type} [FloatOps F] (main_arg7 : FVec F S128x128 .f32) (main_arg8 : FVec F S128 .f32) (main_arg9 : FVec F S128x128 .f32) (main_arg10 : FVec F S128 .f32) (main_arg11 : FVec F S2x128x128 .f32) (main_arg12 : FVec F S2x128 .f32) (main_arg13 : FVec F S2x128x128 .f32) (main_arg14 : FVec F S2x128 .f32) (main_arg15 : FVec F S2x128x128 .f32) (main_arg16 : FVec F S2x128 .f32) (main_v13 : IVec S_ 1) (main_v16 : IVec S600000 1) : IVec S_ 1 :=
  let main_c_5 : IVec S_ 1 := constantI S_ 1 1#1
  let main_v17 : IVec S_ 1 := (fun x v => Host.reduce IntOp.andi x v reducesTo_S600000_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S20000x128 .f32) (main_arg1 : FVec F S15000x128 .f32) (main_arg2 : FVec F S5000x128 .f32) (main_arg3 : IVec S2x600000 32) (main_arg4 : IVec S2x600000 32) (main_arg5 : FVec F S600000 .f32) (main_arg6 : IVec S2x100000 32) (main_arg7 : FVec F S128x128 .f32) (main_arg8 : FVec F S128 .f32) (main_arg9 : FVec F S128x128 .f32) (main_arg10 : FVec F S128 .f32) (main_arg11 : FVec F S2x128x128 .f32) (main_arg12 : FVec F S2x128 .f32) (main_arg13 : FVec F S2x128x128 .f32) (main_arg14 : FVec F S2x128 .f32) (main_arg15 : FVec F S2x128x128 .f32) (main_arg16 : FVec F S2x128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S15000x128 .f32 := Host.absf main_arg1
  let main_cst_0 : FVec F S_ .f32 := constant S_ .f32 0x7F800000#32
  let main_v5 : FVec F S15000x128 .f32 := broadcastInDim S15000x128 ![] bcast_S_S15000x128 main_cst_0
  let main_v6 : IVec S15000x128 1 := cmpf .olt main_v4 main_v5
  let main_c_1 : IVec S_ 1 := constantI S_ 1 1#1
  let main_v7 : IVec S_ 1 := (fun x v => Host.reduce IntOp.andi x v reducesTo_S15000x128_S_d0_1 h_S_) main_v6 main_c_1
  let main_v8 : IVec S_ 1 := andi main_v3 main_v7
  let main_v9 : FVec F S5000x128 .f32 := Host.absf main_arg2
  let main_cst_2 : FVec F S_ .f32 := constant S_ .f32 0x7F800000#32
  let main_v10 : FVec F S5000x128 .f32 := broadcastInDim S5000x128 ![] bcast_S_S5000x128 main_cst_2
  let main_v11 : IVec S5000x128 1 := cmpf .olt main_v9 main_v10
  let main_c_3 : IVec S_ 1 := constantI S_ 1 1#1
  let main_v12 : IVec S_ 1 := (fun x v => Host.reduce IntOp.andi x v reducesTo_S5000x128_S_d0_1 h_S_) main_v11 main_c_3
  let main_v13 : IVec S_ 1 := andi main_v8 main_v12
  let main_v14 : FVec F S600000 .f32 := Host.absf main_arg5
  let main_cst_4 : FVec F S_ .f32 := constant S_ .f32 0x7F800000#32
  let main_v15 : FVec F S600000 .f32 := broadcastInDim S600000 ![] bcast_S_S600000 main_cst_4
  let main_v16 : IVec S600000 1 := cmpf .olt main_v14 main_v15
  fn_part1 (F := F) main_arg7 main_arg8 main_arg9 main_arg10 main_arg11 main_arg12 main_arg13 main_arg14 main_arg15 main_arg16 main_v13 main_v16
-- ==== Kernel.lean ====
abbrev S20000x128 : Shape := ⟨2, ![20000, 128]⟩
abbrev S15000x128 : Shape := ⟨2, ![15000, 128]⟩
abbrev S5000x128 : Shape := ⟨2, ![5000, 128]⟩
abbrev S2x600000 : Shape := ⟨2, ![2, 600000]⟩
abbrev S600000 : Shape := ⟨1, ![600000]⟩
abbrev S2x100000 : Shape := ⟨2, ![2, 100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S40000x128 : Shape := ⟨2, ![40000, 128]⟩
abbrev S_ : Shape := ⟨0, ![]⟩
abbrev S100000 : Shape := ⟨1, ![100000]⟩
abbrev S1x100000 : Shape := ⟨2, ![1, 100000]⟩
abbrev S5000 : Shape := ⟨1, ![5000]⟩
abbrev S105000 : Shape := ⟨1, ![105000]⟩
abbrev S105000x1 : Shape := ⟨2, ![105000, 1]⟩
abbrev S1x128x128 : Shape := ⟨3, ![1, 128, 128]⟩
abbrev S1000x128 : Shape := ⟨2, ![1000, 128]⟩
abbrev S105000x128 : Shape := ⟨2, ![105000, 128]⟩
abbrev S1x128 : Shape := ⟨2, ![1, 128]⟩
abbrev S128x256 : Shape := ⟨2, ![128, 256]⟩
abbrev S256 : Shape := ⟨1, ![256]⟩
abbrev S1x256 : Shape := ⟨2, ![1, 256]⟩
abbrev S1000x256 : Shape := ⟨2, ![1000, 256]⟩
abbrev S1x600000 : Shape := ⟨2, ![1, 600000]⟩
abbrev S40000 : Shape := ⟨1, ![40000]⟩
abbrev S600000x1 : Shape := ⟨2, ![600000, 1]⟩
abbrev S30000 : Shape := ⟨1, ![30000]⟩
abbrev S600000x128 : Shape := ⟨2, ![600000, 128]⟩
abbrev S30000x128 : Shape := ⟨2, ![30000, 128]⟩
abbrev S30000x1 : Shape := ⟨2, ![30000, 1]⟩
abbrev S40000x1 : Shape := ⟨2, ![40000, 1]⟩
abbrev S40000x256 : Shape := ⟨2, ![40000, 256]⟩
abbrev S600000x256 : Shape := ⟨2, ![600000, 256]⟩
abbrev S30000x256 : Shape := ⟨2, ![30000, 256]⟩
abbrev S630000 : Shape := ⟨1, ![630000]⟩
abbrev S630000x1 : Shape := ⟨2, ![630000, 1]⟩
abbrev S630000x128 : Shape := ⟨2, ![630000, 128]⟩

abbrev nBuf : Space → Nat
  | .hbm => 400
  | .vmem => 104
  | .smem => 0
  | _ => 0

abbrev hbmTy0_0 (i : Nat) : BufTy := match i % 128 with
  | 0 => ⟨S20000x128, .f32⟩
  | 1 => ⟨S15000x128, .f32⟩
  | 2 => ⟨S5000x128, .f32⟩
  | 3 => ⟨S2x600000, .i32⟩
  | 4 => ⟨S2x600000, .i32⟩
  | 5 => ⟨S600000, .f32⟩
  | 6 => ⟨S2x100000, .i32⟩
  | 7 => ⟨S128x128, .f32⟩
  | 8 => ⟨S128, .f32⟩
  | 9 => ⟨S128x128, .f32⟩
  | 10 => ⟨S128, .f32⟩
  | 11 => ⟨S2x128x128, .f32⟩
  | 12 => ⟨S2x128, .f32⟩
  | 13 => ⟨S2x128x128, .f32⟩
  | 14 => ⟨S2x128, .f32⟩
  | 15 => ⟨S2x128x128, .f32⟩
  | 16 => ⟨S2x128, .f32⟩
  | 17 => ⟨S40000x128, .f32⟩
  | 18 => ⟨S_, .f32⟩
  | 19 => ⟨S100000, .f32⟩
  | 20 => ⟨S1x100000, .i32⟩
  | 21 => ⟨S100000, .i32⟩
  | 22 => ⟨S1x100000, .i32⟩
  | 23 => ⟨S100000, .i32⟩
  | 24 => ⟨S5000, .i32⟩
  | 25 => ⟨S105000, .i32⟩
  | 26 => ⟨S105000, .i32⟩
  | 27 => ⟨S_, .f32⟩
  | 28 => ⟨S5000, .f32⟩
  | 29 => ⟨S105000, .f32⟩
  | 30 => ⟨S_, .f32⟩
  | 31 => ⟨S5000, .f32⟩
  | 32 => ⟨S105000x1, .i32⟩
  | 33 => ⟨S5000, .f32⟩
  | 34 => ⟨S_, .f32⟩
  | 35 => ⟨S5000, .f32⟩
  | 36 => ⟨S5000, .i1⟩
  | 37 => ⟨S_, .f32⟩
  | 38 => ⟨S5000, .f32⟩
  | 39 => ⟨S5000, .i1⟩
  | 40 => ⟨S_, .f32⟩
  | 41 => ⟨S_, .f32⟩
  | 42 => ⟨S5000, .f32⟩
  | 43 => ⟨S5000, .f32⟩
  | 44 => ⟨S_, .f32⟩
  | 45 => ⟨S5000, .f32⟩
  | 46 => ⟨S5000, .f32⟩
  | 47 => ⟨S_, .f32⟩
  | 48 => ⟨S_, .f32⟩
  | 49 => ⟨S5000, .f32⟩
  | 50 => ⟨S5000, .f32⟩
  | 51 => ⟨S_, .i32⟩
  | 52 => ⟨S105000, .i32⟩
  | 53 => ⟨S105000, .i1⟩
  | 54 => ⟨S_, .i32⟩
  | 55 => ⟨S105000, .i32⟩
  | 56 => ⟨S105000, .i32⟩
  | 57 => ⟨S105000, .i32⟩
  | 58 => ⟨S105000x1, .i32⟩
  | 59 => ⟨S105000, .f32⟩
  | 60 => ⟨S105000, .f32⟩
  | 61 => ⟨S_, .i32⟩
  | 62 => ⟨S105000, .i32⟩
  | 63 => ⟨S105000, .i1⟩
  | 64 => ⟨S_, .i32⟩
  | 65 => ⟨S105000, .i32⟩
  | 66 => ⟨S105000, .i32⟩
  | 67 => ⟨S105000, .i32⟩
  | 68 => ⟨S105000x1, .i32⟩
  | 69 => ⟨S105000, .f32⟩
  | 70 => ⟨S105000, .f32⟩
  | 71 => ⟨S1x128x128, .f32⟩
  | 72 => ⟨S128x128, .f32⟩
  | 73 => ⟨S5000x128, .f32⟩
  | 74 => ⟨S_, .i32⟩
  | 75 => ⟨S105000, .i32⟩
  | 76 => ⟨S105000, .i1⟩
  | 77 => ⟨S_, .i32⟩
  | 78 => ⟨S105000, .i32⟩
  | 79 => ⟨S105000, .i32⟩
  | 80 => ⟨S105000, .i32⟩
  | 81 => ⟨S105000x1, .i32⟩
  | 82 => ⟨S105000x128, .f32⟩
  | 83 => ⟨S105000x1, .f32⟩
  | 84 => ⟨S105000x128, .f32⟩
  | 85 => ⟨S105000x128, .f32⟩
  | 86 => ⟨S_, .f32⟩
  | 87 => ⟨S5000x128, .f32⟩
  | 88 => ⟨S105000x1, .i32⟩
  | 89 => ⟨S5000x128, .f32⟩
  | 90 => ⟨S1x128, .f32⟩
  | 91 => ⟨S128, .f32⟩
  | 92 => ⟨S1x128, .f32⟩
  | 93 => ⟨S5000x128, .f32⟩
  | 94 => ⟨S5000x128, .f32⟩
  | 95 => ⟨S1x128x128, .f32⟩
  | 96 => ⟨S128x128, .f32⟩
  | 97 => ⟨S5000x128, .f32⟩
  | 98 => ⟨S_, .i32⟩
  | 99 => ⟨S105000, .i32⟩
  | 100 => ⟨S105000, .i1⟩
  | 101 => ⟨S_, .i32⟩
  | 102 => ⟨S105000, .i32⟩
  | 103 => ⟨S105000, .i32⟩
  | 104 => ⟨S105000, .i32⟩
  | 105 => ⟨S105000x1, .i32⟩
  | 106 => ⟨S105000x128, .f32⟩
  | 107 => ⟨S105000x1, .f32⟩
  | 108 => ⟨S105000x128, .f32⟩
  | 109 => ⟨S105000x128, .f32⟩
  | 110 => ⟨S_, .f32⟩
  | 111 => ⟨S5000x128, .f32⟩
  | 112 => ⟨S105000x1, .i32⟩
  | 113 => ⟨S5000x128, .f32⟩
  | 114 => ⟨S1x128, .f32⟩
  | 115 => ⟨S128, .f32⟩
  | 116 => ⟨S1x128, .f32⟩
  | 117 => ⟨S5000x128, .f32⟩
  | 118 => ⟨S5000x128, .f32⟩
  | 119 => ⟨S128x256, .f32⟩
  | 120 => ⟨S256, .f32⟩
  | 121 => ⟨S1x256, .f32⟩
  | 122 => ⟨S40000x128, .f32⟩
  | 123 => ⟨S40000x128, .f32⟩
  | 124 => ⟨S1x600000, .i32⟩
  | 125 => ⟨S600000, .i32⟩
  | 126 => ⟨S1x600000, .i32⟩
  | 127 => ⟨S600000, .i32⟩
  | _ => ⟨S20000x128, .f32⟩

abbrev hbmTy0_1 (i : Nat) : BufTy := match i % 128 with
  | 0 => ⟨S_, .f32⟩
  | 1 => ⟨S600000, .f32⟩
  | 2 => ⟨S_, .f32⟩
  | 3 => ⟨S40000, .f32⟩
  | 4 => ⟨S600000x1, .i32⟩
  | 5 => ⟨S40000, .f32⟩
  | 6 => ⟨S_, .f32⟩
  | 7 => ⟨S40000, .f32⟩
  | 8 => ⟨S40000, .i1⟩
  | 9 => ⟨S_, .f32⟩
  | 10 => ⟨S40000, .f32⟩
  | 11 => ⟨S40000, .i1⟩
  | 12 => ⟨S_, .f32⟩
  | 13 => ⟨S_, .f32⟩
  | 14 => ⟨S40000, .f32⟩
  | 15 => ⟨S40000, .f32⟩
  | 16 => ⟨S_, .f32⟩
  | 17 => ⟨S40000, .f32⟩
  | 18 => ⟨S40000, .f32⟩
  | 19 => ⟨S_, .f32⟩
  | 20 => ⟨S_, .f32⟩
  | 21 => ⟨S40000, .f32⟩
  | 22 => ⟨S40000, .f32⟩
  | 23 => ⟨S_, .f32⟩
  | 24 => ⟨S30000, .f32⟩
  | 25 => ⟨S600000x1, .i32⟩
  | 26 => ⟨S30000, .f32⟩
  | 27 => ⟨S_, .f32⟩
  | 28 => ⟨S30000, .f32⟩
  | 29 => ⟨S30000, .i1⟩
  | 30 => ⟨S_, .f32⟩
  | 31 => ⟨S30000, .f32⟩
  | 32 => ⟨S30000, .i1⟩
  | 33 => ⟨S_, .f32⟩
  | 34 => ⟨S_, .f32⟩
  | 35 => ⟨S30000, .f32⟩
  | 36 => ⟨S30000, .f32⟩
  | 37 => ⟨S_, .f32⟩
  | 38 => ⟨S30000, .f32⟩
  | 39 => ⟨S30000, .f32⟩
  | 40 => ⟨S_, .f32⟩
  | 41 => ⟨S_, .f32⟩
  | 42 => ⟨S30000, .f32⟩
  | 43 => ⟨S30000, .f32⟩
  | 44 => ⟨S1x128x128, .f32⟩
  | 45 => ⟨S128x128, .f32⟩
  | 46 => ⟨S40000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S_, .f32⟩
  | 57 => ⟨S30000x128, .f32⟩
  | 58 => ⟨S600000x1, .i32⟩
  | 59 => ⟨S30000x128, .f32⟩
  | 60 => ⟨S30000x1, .f32⟩
  | 61 => ⟨S30000x128, .f32⟩
  | 62 => ⟨S30000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S40000x128, .f32⟩
  | 74 => ⟨S600000x1, .i32⟩
  | 75 => ⟨S40000x128, .f32⟩
  | 76 => ⟨S40000x1, .f32⟩
  | 77 => ⟨S40000x128, .f32⟩
  | 78 => ⟨S40000x128, .f32⟩
  | 79 => ⟨S1x128, .f32⟩
  | 80 => ⟨S128, .f32⟩
  | 81 => ⟨S1x128, .f32⟩
  | 82 => ⟨S40000x128, .f32⟩
  | 83 => ⟨S40000x128, .f32⟩
  | 84 => ⟨S1x128x128, .f32⟩
  | 85 => ⟨S128x128, .f32⟩
  | 86 => ⟨S40000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S_, .f32⟩
  | 97 => ⟨S30000x128, .f32⟩
  | 98 => ⟨S600000x1, .i32⟩
  | 99 => ⟨S30000x128, .f32⟩
  | 100 => ⟨S30000x1, .f32⟩
  | 101 => ⟨S30000x128, .f32⟩
  | 102 => ⟨S30000x128, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S_, .f32⟩
  | 113 => ⟨S40000x128, .f32⟩
  | 114 => ⟨S600000x1, .i32⟩
  | 115 => ⟨S40000x128, .f32⟩
  | 116 => ⟨S40000x1, .f32⟩
  | 117 => ⟨S40000x128, .f32⟩
  | 118 => ⟨S40000x128, .f32⟩
  | 119 => ⟨S1x128, .f32⟩
  | 120 => ⟨S128, .f32⟩
  | 121 => ⟨S1x128, .f32⟩
  | 122 => ⟨S40000x128, .f32⟩
  | 123 => ⟨S40000x128, .f32⟩
  | 124 => ⟨S1x600000, .i32⟩
  | 125 => ⟨S600000, .i32⟩
  | 126 => ⟨S1x600000, .i32⟩
  | 127 => ⟨S600000, .i32⟩
  | _ => ⟨S20000x128, .f32⟩

abbrev hbmTy0_2 (i : Nat) : BufTy := match i % 128 with
  | 0 => ⟨S40000x256, .f32⟩
  | 1 => ⟨S_, .f32⟩
  | 2 => ⟨S600000, .f32⟩
  | 3 => ⟨S_, .f32⟩
  | 4 => ⟨S30000, .f32⟩
  | 5 => ⟨S600000x1, .i32⟩
  | 6 => ⟨S30000, .f32⟩
  | 7 => ⟨S_, .f32⟩
  | 8 => ⟨S30000, .f32⟩
  | 9 => ⟨S30000, .i1⟩
  | 10 => ⟨S_, .f32⟩
  | 11 => ⟨S30000, .f32⟩
  | 12 => ⟨S30000, .i1⟩
  | 13 => ⟨S_, .f32⟩
  | 14 => ⟨S_, .f32⟩
  | 15 => ⟨S30000, .f32⟩
  | 16 => ⟨S30000, .f32⟩
  | 17 => ⟨S_, .f32⟩
  | 18 => ⟨S30000, .f32⟩
  | 19 => ⟨S30000, .f32⟩
  | 20 => ⟨S_, .f32⟩
  | 21 => ⟨S_, .f32⟩
  | 22 => ⟨S30000, .f32⟩
  | 23 => ⟨S30000, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x256, .f32⟩
  | 33 => ⟨S_, .f32⟩
  | 34 => ⟨S30000x256, .f32⟩
  | 35 => ⟨S600000x1, .i32⟩
  | 36 => ⟨S30000x256, .f32⟩
  | 37 => ⟨S30000x1, .f32⟩
  | 38 => ⟨S30000x256, .f32⟩
  | 39 => ⟨S30000x256, .f32⟩
  | 40 => ⟨S30000x128, .f32⟩
  | 41 => ⟨S30000x128, .f32⟩
  | 42 => ⟨S1x600000, .i32⟩
  | 43 => ⟨S600000, .i32⟩
  | 44 => ⟨S1x600000, .i32⟩
  | 45 => ⟨S600000, .i32⟩
  | 46 => ⟨S30000, .i32⟩
  | 47 => ⟨S630000, .i32⟩
  | 48 => ⟨S630000, .i32⟩
  | 49 => ⟨S_, .f32⟩
  | 50 => ⟨S30000, .f32⟩
  | 51 => ⟨S630000, .f32⟩
  | 52 => ⟨S_, .f32⟩
  | 53 => ⟨S30000, .f32⟩
  | 54 => ⟨S630000x1, .i32⟩
  | 55 => ⟨S30000, .f32⟩
  | 56 => ⟨S_, .f32⟩
  | 57 => ⟨S30000, .f32⟩
  | 58 => ⟨S30000, .i1⟩
  | 59 => ⟨S_, .f32⟩
  | 60 => ⟨S30000, .f32⟩
  | 61 => ⟨S30000, .i1⟩
  | 62 => ⟨S_, .f32⟩
  | 63 => ⟨S_, .f32⟩
  | 64 => ⟨S30000, .f32⟩
  | 65 => ⟨S30000, .f32⟩
  | 66 => ⟨S_, .f32⟩
  | 67 => ⟨S30000, .f32⟩
  | 68 => ⟨S30000, .f32⟩
  | 69 => ⟨S_, .f32⟩
  | 70 => ⟨S_, .f32⟩
  | 71 => ⟨S30000, .f32⟩
  | 72 => ⟨S30000, .f32⟩
  | 73 => ⟨S_, .i32⟩
  | 74 => ⟨S630000, .i32⟩
  | 75 => ⟨S630000, .i1⟩
  | 76 => ⟨S_, .i32⟩
  | 77 => ⟨S630000, .i32⟩
  | 78 => ⟨S630000, .i32⟩
  | 79 => ⟨S630000, .i32⟩
  | 80 => ⟨S630000x1, .i32⟩
  | 81 => ⟨S630000, .f32⟩
  | 82 => ⟨S630000, .f32⟩
  | 83 => ⟨S_, .i32⟩
  | 84 => ⟨S630000, .i32⟩
  | 85 => ⟨S630000, .i1⟩
  | 86 => ⟨S_, .i32⟩
  | 87 => ⟨S630000, .i32⟩
  | 88 => ⟨S630000, .i32⟩
  | 89 => ⟨S630000, .i32⟩
  | 90 => ⟨S630000x1, .i32⟩
  | 91 => ⟨S630000, .f32⟩
  | 92 => ⟨S630000, .f32⟩
  | 93 => ⟨S1x128x128, .f32⟩
  | 94 => ⟨S128x128, .f32⟩
  | 95 => ⟨S30000x128, .f32⟩
  | 96 => ⟨S_, .i32⟩
  | 97 => ⟨S630000, .i32⟩
  | 98 => ⟨S630000, .i1⟩
  | 99 => ⟨S_, .i32⟩
  | 100 => ⟨S630000, .i32⟩
  | 101 => ⟨S630000, .i32⟩
  | 102 => ⟨S630000, .i32⟩
  | 103 => ⟨S630000x1, .i32⟩
  | 104 => ⟨S630000x128, .f32⟩
  | 105 => ⟨S630000x1, .f32⟩
  | 106 => ⟨S630000x128, .f32⟩
  | 107 => ⟨S630000x128, .f32⟩
  | 108 => ⟨S_, .f32⟩
  | 109 => ⟨S30000x128, .f32⟩
  | 110 => ⟨S630000x1, .i32⟩
  | 111 => ⟨S30000x128, .f32⟩
  | 112 => ⟨S1x128, .f32⟩
  | 113 => ⟨S128, .f32⟩
  | 114 => ⟨S1x128, .f32⟩
  | 115 => ⟨S30000x128, .f32⟩
  | 116 => ⟨S30000x128, .f32⟩
  | 117 => ⟨S1x128x128, .f32⟩
  | 118 => ⟨S128x128, .f32⟩
  | 119 => ⟨S30000x128, .f32⟩
  | 120 => ⟨S_, .i32⟩
  | 121 => ⟨S630000, .i32⟩
  | 122 => ⟨S630000, .i1⟩
  | 123 => ⟨S_, .i32⟩
  | 124 => ⟨S630000, .i32⟩
  | 125 => ⟨S630000, .i32⟩
  | 126 => ⟨S630000, .i32⟩
  | 127 => ⟨S630000x1, .i32⟩
  | _ => ⟨S20000x128, .f32⟩

abbrev hbmTy0_3 (i : Nat) : BufTy := match i % 128 with
  | 0 => ⟨S630000x128, .f32⟩
  | 1 => ⟨S630000x1, .f32⟩
  | 2 => ⟨S630000x128, .f32⟩
  | 3 => ⟨S630000x128, .f32⟩
  | 4 => ⟨S_, .f32⟩
  | 5 => ⟨S30000x128, .f32⟩
  | 6 => ⟨S630000x1, .i32⟩
  | 7 => ⟨S30000x128, .f32⟩
  | 8 => ⟨S1x128, .f32⟩
  | 9 => ⟨S128, .f32⟩
  | 10 => ⟨S1x128, .f32⟩
  | 11 => ⟨S30000x128, .f32⟩
  | 12 => ⟨S30000x128, .f32⟩
  | 13 => ⟨S20000x128, .f32⟩
  | 14 => ⟨S15000x128, .f32⟩
  | 15 => ⟨S5000x128, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | _ => ⟨S20000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S128x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S128x256, .f32⟩
  | .local _ .vmem, ⟨35, _⟩ => ⟨S1x256, .f32⟩
  | .local _ .vmem, ⟨36, _⟩ => ⟨S1000x128, .f32⟩
  | .local _ .vmem, ⟨37, _⟩ => ⟨S1000x128, .f32⟩
  | .local _ .vmem, ⟨38, _⟩ => ⟨S1000x128, .f32⟩
  | .local _ .vmem, ⟨39, _⟩ => ⟨S1000x128, .f32⟩
  | .local _ .vmem, ⟨40, _⟩ => ⟨S1000x128, .f32⟩
  | .local _ .vmem, ⟨41, _⟩ => ⟨S1000x128, .f32⟩
  | .local _ .vmem, ⟨42, _⟩ => ⟨S128x128, .f32⟩
  | .local _ .vmem, ⟨43, _⟩ => ⟨S1000x128, .f32⟩
  | .local _ .vmem, ⟨44, _⟩ => ⟨S1000x128, .f32⟩
  | .local _ .vmem, ⟨45, _⟩ => ⟨S1000x128, .f32⟩
  | .local _ .vmem, ⟨46, _⟩ => ⟨S1000x128, .f32⟩
  | .local _ .vmem, ⟨47, _⟩ => ⟨S1x128, .f32⟩
  | .local _ .vmem, ⟨48, _⟩ => ⟨S1000x128, .f32⟩
  | .local _ .vmem, ⟨49, _⟩ => ⟨S1000x128, .f32⟩
  | .local _ .vmem, ⟨50, _⟩ => ⟨S1000x128, .f32⟩
  | .local _ .vmem, ⟨51, _⟩ => ⟨S1000x128, .f32⟩
  | .local _ .vmem, ⟨52, _⟩ => ⟨S1000x128, .f32⟩
  | .local _ .vmem, ⟨53, _⟩ => ⟨S1000x128, .f32⟩
  | .local _ .vmem, ⟨54, _⟩ => ⟨S1000x128, .f32⟩
  | .local _ .vmem, ⟨55, _⟩ => ⟨S1000x128, .f32⟩
  | .local _ .vmem, ⟨56, _⟩ => ⟨S1000x128, .f32⟩
  | .local _ .vmem, ⟨57, _⟩ => ⟨S1000x128, .f32⟩
  | .local _ .vmem, ⟨58, _⟩ => ⟨S128x128, .f32⟩
  | .local _ .vmem, ⟨59, _⟩ => ⟨S1000x128, .f32⟩
  | .local _ .vmem, ⟨60, _⟩ => ⟨S1000x128, .f32⟩
  | .local _ .vmem, ⟨61, _⟩ => ⟨S1000x128, .f32⟩
  | .local _ .vmem, ⟨62, _⟩ => ⟨S1000x128, .f32⟩
  | .local _ .vmem, ⟨63, _⟩ => ⟨S1x128, .f32⟩
  | .local _ .vmem, ⟨64, _⟩ => ⟨S1000x128, .f32⟩
  | .local _ .vmem, ⟨65, _⟩ => ⟨S1000x128, .f32⟩
  | .local _ .vmem, ⟨66, _⟩ => ⟨S1000x128, .f32⟩
  | .local _ .vmem, ⟨67, _⟩ => ⟨S1000x128, .f32⟩
  | .local _ .vmem, ⟨68, _⟩ => ⟨S1000x128, .f32⟩
  | .local _ .vmem, ⟨69, _⟩ => ⟨S1000x128, .f32⟩
  | .local _ .vmem, ⟨70, _⟩ => ⟨S1000x128, .f32⟩
  | .local _ .vmem, ⟨71, _⟩ => ⟨S1000x128, .f32⟩
  | .local _ .vmem, ⟨72, _⟩ => ⟨S1000x128, .f32⟩
  | .local _ .vmem, ⟨73, _⟩ => ⟨S1000x128, .f32⟩
  | .local _ .vmem, ⟨74, _⟩ => ⟨S128x128, .f32⟩
  | .local _ .vmem, ⟨75, _⟩ => ⟨S1000x128, .f32⟩
  | .local _ .vmem, ⟨76, _⟩ => ⟨S1000x128, .f32⟩
  | .local _ .vmem, ⟨77, _⟩ => ⟨S1000x128, .f32⟩
  | .local _ .vmem, ⟨78, _⟩ => ⟨S1000x128, .f32⟩
  | .local _ .vmem, ⟨79, _⟩ => ⟨S1x128, .f32⟩
  | .local _ .vmem, ⟨80, _⟩ => ⟨S1000x128, .f32⟩
  | .local _ .vmem, ⟨81, _⟩ => ⟨S1000x128, .f32⟩
  | .local _ .vmem, ⟨82, _⟩ => ⟨S1000x128, .f32⟩
  | .local _ .vmem, ⟨83, _⟩ => ⟨S1000x128, .f32⟩
  | .local _ .vmem, ⟨84, _⟩ => ⟨S1000x128, .f32⟩
  | .local _ .vmem, ⟨85, _⟩ => ⟨S1000x128, .f32⟩
  | .local _ .vmem, ⟨86, _⟩ => ⟨S1000x128, .f32⟩
  | .local _ .vmem, ⟨87, _⟩ => ⟨S1000x128, .f32⟩
  | .local _ .vmem, ⟨88, _⟩ => ⟨S1000x128, .f32⟩
  | .local _ .vmem, ⟨89, _⟩ => ⟨S1000x128, .f32⟩
  | .local _ .vmem, ⟨90, _⟩ => ⟨S128x128, .f32⟩
  | .local _ .vmem, ⟨91, _⟩ => ⟨S1000x128, .f32⟩
  | .local _ .vmem, ⟨92, _⟩ => ⟨S1000x128, .f32⟩
  | .local _ .vmem, ⟨93, _⟩ => ⟨S1000x128, .f32⟩
  | .local _ .vmem, ⟨94, _⟩ => ⟨S1000x128, .f32⟩
  | .local _ .vmem, ⟨95, _⟩ => ⟨S1x128, .f32⟩
  | .local _ .vmem, ⟨96, _⟩ => ⟨S1000x128, .f32⟩
  | .local _ .vmem, ⟨97, _⟩ => ⟨S1000x128, .f32⟩
  | .local _ .vmem, ⟨98, _⟩ => ⟨S1000x128, .f32⟩
  | .local _ .vmem, ⟨99, _⟩ => ⟨S1000x128, .f32⟩
  | .local _ .vmem, ⟨100, _⟩ => ⟨S1000x128, .f32⟩
  | .local _ .vmem, ⟨101, _⟩ => ⟨S1000x128, .f32⟩
  | .local _ .vmem, ⟨102, _⟩ => ⟨S1000x128, .f32⟩
  | .local _ .vmem, ⟨103, _⟩ => ⟨S1000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v18 : Ref sig .tc := ⟨.hbm, 43, rfl⟩
abbrev main_cst_5 : Ref sig .tc := ⟨.hbm, 44, rfl⟩
abbrev main_v19 : Ref sig .tc := ⟨.hbm, 45, rfl⟩
abbrev main_v20 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_v21 : Ref sig .tc := ⟨.hbm, 50, rfl⟩
abbrev main_c : Ref sig .tc := ⟨.hbm, 51, rfl⟩
abbrev main_v22 : Ref sig .tc := ⟨.hbm, 52, rfl⟩
abbrev main_v23 : Ref sig .tc := ⟨.hbm, 53, rfl⟩
abbrev main_c_7 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_8 : Ref sig .tc := ⟨.hbm, 61, rfl⟩
abbrev main_v30 : Ref sig .tc := ⟨.hbm, 62, rfl⟩
abbrev main_v31 : Ref sig .tc := ⟨.hbm, 63, rfl⟩
abbrev main_c_9 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_10 : Ref sig .tc := ⟨.hbm, 74, rfl⟩
abbrev main_v41 : Ref sig .tc := ⟨.hbm, 75, rfl⟩
abbrev main_v42 : Ref sig .tc := ⟨.hbm, 76, rfl⟩
abbrev main_c_11 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57_0 : Ref sig .tc := ⟨.hbm, 93, rfl⟩
abbrev main_v57_1 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_13 : Ref sig .tc := ⟨.hbm, 98, rfl⟩
abbrev main_v61 : Ref sig .tc := ⟨.hbm, 99, rfl⟩
abbrev main_v62 : Ref sig .tc := ⟨.hbm, 100, rfl⟩
abbrev main_c_14 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_15 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77_0 : Ref sig .tc := ⟨.hbm, 117, rfl⟩
abbrev main_v77_1 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81_0 : Ref sig .tc := ⟨.hbm, 122, rfl⟩
abbrev main_v81_1 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_cst_17 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_18 : Ref sig .tc := ⟨.hbm, 134, rfl⟩
abbrev main_v90 : Ref sig .tc := ⟨.hbm, 135, rfl⟩
abbrev main_v91 : Ref sig .tc := ⟨.hbm, 136, rfl⟩
abbrev main_cst_19 : Ref sig .tc := ⟨.hbm, 137, rfl⟩
abbrev main_v92 : Ref sig .tc := ⟨.hbm, 138, rfl⟩
abbrev main_v93 : Ref sig .tc := ⟨.hbm, 139, rfl⟩
abbrev main_cst_20 : Ref sig .tc := ⟨.hbm, 140, rfl⟩
abbrev main_call2_v0 : Ref sig .tc := ⟨.hbm, 141, rfl⟩
abbrev main_call2_v1 : Ref sig .tc := ⟨.hbm, 142, rfl⟩
abbrev main_v94 : Ref sig .tc := ⟨.hbm, 143, rfl⟩
abbrev main_cst_21 : Ref sig .tc := ⟨.hbm, 144, rfl⟩
abbrev main_v95 : Ref sig .tc := ⟨.hbm, 145, rfl⟩
abbrev main_v96 : Ref sig .tc := ⟨.hbm, 146, rfl⟩
abbrev main_cst_22 : Ref sig .tc := ⟨.hbm, 147, rfl⟩
abbrev main_call3_v0 : Ref sig .tc := ⟨.hbm, 148, rfl⟩
abbrev main_call3_v1 : Ref sig .tc := ⟨.hbm, 149, rfl⟩
abbrev main_v97 : Ref sig .tc := ⟨.hbm, 150, rfl⟩
abbrev main_cst_23 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_24 : Ref sig .tc := ⟨.hbm, 155, rfl⟩
abbrev main_v101 : Ref sig .tc := ⟨.hbm, 156, rfl⟩
abbrev main_v102 : Ref sig .tc := ⟨.hbm, 157, rfl⟩
abbrev main_cst_25 : Ref sig .tc := ⟨.hbm, 158, rfl⟩
abbrev main_v103 : Ref sig .tc := ⟨.hbm, 159, rfl⟩
abbrev main_v104 : Ref sig .tc := ⟨.hbm, 160, rfl⟩
abbrev main_cst_26 : Ref sig .tc := ⟨.hbm, 161, rfl⟩
abbrev main_call4_v0 : Ref sig .tc := ⟨.hbm, 162, rfl⟩
abbrev main_call4_v1 : Ref sig .tc := ⟨.hbm, 163, rfl⟩
abbrev main_v105 : Ref sig .tc := ⟨.hbm, 164, rfl⟩
abbrev main_cst_27 : Ref sig .tc := ⟨.hbm, 165, rfl⟩
abbrev main_v106 : Ref sig .tc := ⟨.hbm, 166, rfl⟩
abbrev main_v107 : Ref sig .tc := ⟨.hbm, 167, rfl⟩
abbrev main_cst_28 : Ref sig .tc := ⟨.hbm, 168, rfl⟩
abbrev main_call5_v0 : Ref sig .tc := ⟨.hbm, 169, rfl⟩
abbrev main_call5_v1 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_c_29 : Ref sig .tc := ⟨.hbm, 175, rfl⟩
abbrev main_v112 : Ref sig .tc := ⟨.hbm, 176, rfl⟩
abbrev main_v113 : Ref sig .tc := ⟨.hbm, 177, rfl⟩
abbrev main_c_30 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_31 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_c_32 : Ref sig .tc := ⟨.hbm, 191, rfl⟩
abbrev main_v125 : Ref sig .tc := ⟨.hbm, 192, rfl⟩
abbrev main_v126 : Ref sig .tc := ⟨.hbm, 193, rfl⟩
abbrev main_c_33 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_cst_34 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141_0 : Ref sig .tc := ⟨.hbm, 210, rfl⟩
abbrev main_v141_1 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_c_35 : Ref sig .tc := ⟨.hbm, 215, rfl⟩
abbrev main_v145 : Ref sig .tc := ⟨.hbm, 216, rfl⟩
abbrev main_v146 : Ref sig .tc := ⟨.hbm, 217, rfl⟩
abbrev main_c_36 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_cst_37 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_c_38 : Ref sig .tc := ⟨.hbm, 231, rfl⟩
abbrev main_v158 : Ref sig .tc := ⟨.hbm, 232, rfl⟩
abbrev main_v159 : Ref sig .tc := ⟨.hbm, 233, rfl⟩
abbrev main_c_39 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_cst_40 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174_0 : Ref sig .tc := ⟨.hbm, 250, rfl⟩
abbrev main_v174_1 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_cst_41 : Ref sig .tc := ⟨.hbm, 257, rfl⟩
abbrev main_v180 : Ref sig .tc := ⟨.hbm, 258, rfl⟩
abbrev main_cst_42 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_cst_43 : Ref sig .tc := ⟨.hbm, 263, rfl⟩
abbrev main_v184 : Ref sig .tc := ⟨.hbm, 264, rfl⟩
abbrev main_v185 : Ref sig .tc := ⟨.hbm, 265, rfl⟩
abbrev main_cst_44 : Ref sig .tc := ⟨.hbm, 266, rfl⟩
abbrev main_v186 : Ref sig .tc := ⟨.hbm, 267, rfl⟩
abbrev main_v187 : Ref sig .tc := ⟨.hbm, 268, rfl⟩
abbrev main_cst_45 : Ref sig .tc := ⟨.hbm, 269, rfl⟩
abbrev main_call6_v0 : Ref sig .tc := ⟨.hbm, 270, rfl⟩
abbrev main_call6_v1 : Ref sig .tc := ⟨.hbm, 271, rfl⟩
abbrev main_v188 : Ref sig .tc := ⟨.hbm, 272, rfl⟩
abbrev main_cst_46 : Ref sig .tc := ⟨.hbm, 273, rfl⟩
abbrev main_v189 : Ref sig .tc := ⟨.hbm, 274, rfl⟩
abbrev main_v190 : Ref sig .tc := ⟨.hbm, 275, rfl⟩
abbrev main_cst_47 : Ref sig .tc := ⟨.hbm, 276, rfl⟩
abbrev main_call7_v0 : Ref sig .tc := ⟨.hbm, 277, rfl⟩
abbrev main_call7_v1 : Ref sig .tc := ⟨.hbm, 278, rfl⟩
abbrev main_v191 : Ref sig .tc := ⟨.hbm, 279, rfl⟩
abbrev main_c_48 : Ref sig .tc := ⟨.hbm, 280, rfl⟩
abbrev main_v192 : Ref sig .tc := ⟨.hbm, 281, rfl⟩
abbrev main_v193 : Ref sig .tc := ⟨.hbm, 282, rfl⟩
abbrev main_c_49 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_cst_50 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_v213 : Ref sig .tc := ⟨.hbm, 304, rfl⟩
abbrev main_cst_51 : Ref sig .tc := ⟨.hbm, 305, rfl⟩
abbrev main_v214 : Ref sig .tc := ⟨.hbm, 306, rfl⟩
abbrev main_v215 : Ref sig .tc := ⟨.hbm, 307, rfl⟩
abbrev main_cst_52 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_cst_53 : Ref sig .tc := ⟨.hbm, 312, rfl⟩
abbrev main_v219 : Ref sig .tc := ⟨.hbm, 313, rfl⟩
abbrev main_v220 : Ref sig .tc := ⟨.hbm, 314, rfl⟩
abbrev main_cst_54 : Ref sig .tc := ⟨.hbm, 315, rfl⟩
abbrev main_v221 : Ref sig .tc := ⟨.hbm, 316, rfl⟩
abbrev main_v222 : Ref sig .tc := ⟨.hbm, 317, rfl⟩
abbrev main_cst_55 : Ref sig .tc := ⟨.hbm, 318, rfl⟩
abbrev main_call8_v0 : Ref sig .tc := ⟨.hbm, 319, rfl⟩
abbrev main_call8_v1 : Ref sig .tc := ⟨.hbm, 320, rfl⟩
abbrev main_v223 : Ref sig .tc := ⟨.hbm, 321, rfl⟩
abbrev main_cst_56 : Ref sig .tc := ⟨.hbm, 322, rfl⟩
abbrev main_v224 : Ref sig .tc := ⟨.hbm, 323, rfl⟩
abbrev main_v225 : Ref sig .tc := ⟨.hbm, 324, rfl⟩
abbrev main_cst_57 : Ref sig .tc := ⟨.hbm, 325, rfl⟩
abbrev main_call9_v0 : Ref sig .tc := ⟨.hbm, 326, rfl⟩
abbrev main_call9_v1 : Ref sig .tc := ⟨.hbm, 327, rfl⟩
abbrev main_v226 : Ref sig .tc := ⟨.hbm, 328, rfl⟩
abbrev main_c_58 : Ref sig .tc := ⟨.hbm, 329, rfl⟩
abbrev main_v227 : Ref sig .tc := ⟨.hbm, 330, rfl⟩
abbrev main_v228 : Ref sig .tc := ⟨.hbm, 331, rfl⟩
abbrev main_c_59 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_v234 : Ref sig .tc := ⟨.hbm, 338, rfl⟩
abbrev main_c_60 : Ref sig .tc := ⟨.hbm, 339, rfl⟩
abbrev main_v235 : Ref sig .tc := ⟨.hbm, 340, rfl⟩
abbrev main_v236 : Ref sig .tc := ⟨.hbm, 341, rfl⟩
abbrev main_c_61 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_c_62 : Ref sig .tc := ⟨.hbm, 352, rfl⟩
abbrev main_v246 : Ref sig .tc := ⟨.hbm, 353, rfl⟩
abbrev main_v247 : Ref sig .tc := ⟨.hbm, 354, rfl⟩
abbrev main_c_63 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_v255 : Ref sig .tc := ⟨.hbm, 363, rfl⟩
abbrev main_cst_64 : Ref sig .tc := ⟨.hbm, 364, rfl⟩
abbrev main_v256 : Ref sig .tc := ⟨.hbm, 365, rfl⟩
abbrev main_v257 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_v262_0 : Ref sig .tc := ⟨.hbm, 371, rfl⟩
abbrev main_v262_1 : Ref sig .tc := ⟨.hbm, 372, rfl⟩
abbrev main_v263 : Ref sig .tc := ⟨.hbm, 373, rfl⟩
abbrev main_v264 : Ref sig .tc := ⟨.hbm, 374, rfl⟩
abbrev main_v265 : Ref sig .tc := ⟨.hbm, 375, rfl⟩
abbrev main_c_65 : Ref sig .tc := ⟨.hbm, 376, rfl⟩
abbrev main_v266 : Ref sig .tc := ⟨.hbm, 377, rfl⟩
abbrev main_v267 : Ref sig .tc := ⟨.hbm, 378, rfl⟩
abbrev main_c_66 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_cst_67 : Ref sig .tc := ⟨.hbm, 388, rfl⟩
abbrev main_v276 : Ref sig .tc := ⟨.hbm, 389, rfl⟩
abbrev main_v277 : Ref sig .tc := ⟨.hbm, 390, rfl⟩
abbrev main_v278 : Ref sig .tc := ⟨.hbm, 391, rfl⟩
abbrev main_v279 : Ref sig .tc := ⟨.hbm, 392, rfl⟩
abbrev main_v280 : Ref sig .tc := ⟨.hbm, 393, rfl⟩
abbrev main_v281 : Ref sig .tc := ⟨.hbm, 394, rfl⟩
abbrev main_v282_0 : Ref sig .tc := ⟨.hbm, 395, rfl⟩
abbrev main_v282_1 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg4_1 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg2_1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg2_1 : Ref sig .tc := ⟨.vmem, 65, rfl⟩
abbrev cc8_stg3_0 : Ref sig .tc := ⟨.vmem, 66, rfl⟩
abbrev cc8_stg3_1 : Ref sig .tc := ⟨.vmem, 67, rfl⟩
abbrev cc8_stg4_0 : Ref sig .tc := ⟨.vmem, 68, rfl⟩
abbrev cc8_stg4_1 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg2_1 : Ref sig .tc := ⟨.vmem, 76, rfl⟩
abbrev cc10_stg0_0 : Ref sig .tc := ⟨.vmem, 77, rfl⟩
abbrev cc10_stg0_1 : Ref sig .tc := ⟨.vmem, 78, rfl⟩
abbrev cc10_stg1_0 : Ref sig .tc := ⟨.vmem, 79, rfl⟩
abbrev cc10_stg2_0 : Ref sig .tc := ⟨.vmem, 80, rfl⟩
abbrev cc10_stg2_1 : Ref sig .tc := ⟨.vmem, 81, rfl⟩
abbrev cc10_stg3_0 : Ref sig .tc := ⟨.vmem, 82, rfl⟩
abbrev cc10_stg3_1 : Ref sig .tc := ⟨.vmem, 83, rfl⟩
abbrev cc10_stg4_0 : Ref sig .tc := ⟨.vmem, 84, rfl⟩
abbrev cc10_stg4_1 : Ref sig .tc := ⟨.vmem, 85, rfl⟩
abbrev cc10_stg5_0 : Ref sig .tc := ⟨.vmem, 86, rfl⟩
abbrev cc10_stg5_1 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg2_1 : Ref sig .tc := ⟨.vmem, 92, rfl⟩
abbrev cc12_stg0_0 : Ref sig .tc := ⟨.vmem, 93, rfl⟩
abbrev cc12_stg0_1 : Ref sig .tc := ⟨.vmem, 94, rfl⟩
abbrev cc12_stg1_0 : Ref sig .tc := ⟨.vmem, 95, rfl⟩
abbrev cc12_stg2_0 : Ref sig .tc := ⟨.vmem, 96, rfl⟩
abbrev cc12_stg2_1 : Ref sig .tc := ⟨.vmem, 97, rfl⟩
abbrev cc12_stg3_0 : Ref sig .tc := ⟨.vmem, 98, rfl⟩
abbrev cc12_stg3_1 : Ref sig .tc := ⟨.vmem, 99, rfl⟩
abbrev cc12_stg4_0 : Ref sig .tc := ⟨.vmem, 100, rfl⟩
abbrev cc12_stg4_1 : Ref sig .tc := ⟨.vmem, 101, rfl⟩
abbrev cc12_stg5_0 : Ref sig .tc := ⟨.vmem, 102, rfl⟩
abbrev cc12_stg5_1 : Ref sig .tc := ⟨.vmem, 103, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc6_sem3_0 : DmaSem sig := 50
abbrev cc6_sem3_1 : DmaSem sig := 51
abbrev cc6_sem4_0 : DmaSem sig := 52
abbrev cc6_sem4_1 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem2_1 : DmaSem sig := 60
abbrev cc8_sem0_0 : DmaSem sig := 61
abbrev cc8_sem0_1 : DmaSem sig := 62
abbrev cc8_sem1_0 : DmaSem sig := 63
abbrev cc8_sem2_0 : DmaSem sig := 64
abbrev cc8_sem2_1 : DmaSem sig := 65
abbrev cc8_sem3_0 : DmaSem sig := 66
abbrev cc8_sem3_1 : DmaSem sig := 67
abbrev cc8_sem4_0 : DmaSem sig := 68
abbrev cc8_sem4_1 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem2_1 : DmaSem sig := 76
abbrev cc10_sem0_0 : DmaSem sig := 77
abbrev cc10_sem0_1 : DmaSem sig := 78
abbrev cc10_sem1_0 : DmaSem sig := 79
abbrev cc10_sem2_0 : DmaSem sig := 80
abbrev cc10_sem2_1 : DmaSem sig := 81
abbrev cc10_sem3_0 : DmaSem sig := 82
abbrev cc10_sem3_1 : DmaSem sig := 83
abbrev cc10_sem4_0 : DmaSem sig := 84
abbrev cc10_sem4_1 : DmaSem sig := 85
abbrev cc10_sem5_0 : DmaSem sig := 86
abbrev cc10_sem5_1 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem2_1 : DmaSem sig := 92
abbrev cc12_sem0_0 : DmaSem sig := 93
abbrev cc12_sem0_1 : DmaSem sig := 94
abbrev cc12_sem1_0 : DmaSem sig := 95
abbrev cc12_sem2_0 : DmaSem sig := 96
abbrev cc12_sem2_1 : DmaSem sig := 97
abbrev cc12_sem3_0 : DmaSem sig := 98
abbrev cc12_sem3_1 : DmaSem sig := 99
abbrev cc12_sem4_0 : DmaSem sig := 100
abbrev cc12_sem4_1 : DmaSem sig := 101
abbrev cc12_sem5_0 : DmaSem sig := 102
abbrev cc12_sem5_1 : DmaSem sig := 103

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S1000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![30], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![30], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S1000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S1000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S1000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![30], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S1000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![30], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S1000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S1000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S1000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

class Facts₀ : Prop where
  concatenates_S20000x128_S15000x128_S5000x128_S40000x128_d0 : Shape.Concatenates [S20000x128, S15000x128, S5000x128] S40000x128 0
  bcast_S_S100000 : S_.BroadcastsInDim S100000 (![] : Fin 0 → Fin S100000.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  concatenates_S100000_S5000_S105000_d0 : Shape.Concatenates [S100000, S5000] S105000 0
  bcast_S_S5000 : S_.BroadcastsInDim S5000 (![] : Fin 0 → Fin S5000.rank)
  bcast_S105000_S105000x1_0 : S105000.BroadcastsInDim S105000x1 (![0] : Fin 1 → Fin S105000x1.rank)
  bcast_S_S105000 : S_.BroadcastsInDim S105000 (![] : Fin 0 → Fin S105000.rank)
  slices_S2x128x128_S1x128x128_0_0_0 : S2x128x128.Slices ![0, 0, 0] S1x128x128
  shapeCasts_S1x128x128_S128x128 : S1x128x128.ShapeCasts S128x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S105000x1_S105000x128_0_1 : S105000x1.BroadcastsInDim S105000x128 (![0, 1] : Fin 2 → Fin S105000x128.rank)
  bcast_S_S5000x128 : S_.BroadcastsInDim S5000x128 (![] : Fin 0 → Fin S5000x128.rank)
  slices_S2x128_S1x128_0_0 : S2x128.Slices ![0, 0] S1x128
  shapeCasts_S1x128_S128 : S1x128.ShapeCasts S128
  shapeCasts_S128_S1x128 : S128.ShapeCasts S1x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S2x128x128_S1x128x128_1_0_0 : S2x128x128.Slices ![1, 0, 0] S1x128x128
  slices_S2x128_S1x128_1_0 : S2x128.Slices ![1, 0] S1x128
  concatenates_S128x128_S128x128_S128x256_d1 : Shape.Concatenates [S128x128, S128x128] S128x256 1
  concatenates_S128_S128_S256_d0 : Shape.Concatenates [S128, S128] S256 0
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  slices_S1000x256_o0_0_S1000x128 : S1000x256.Slices ![0, 0] S1000x128
  slices_S1000x256_o0_128_S1000x128 : S1000x256.Slices ![0, 128] S1000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S40000 : S_.BroadcastsInDim S40000 (![] : Fin 0 → Fin S40000.rank)
  bcast_S600000_S600000x1_0 : S600000.BroadcastsInDim S600000x1 (![0] : Fin 1 → Fin S600000x1.rank)
  bcast_S_S30000 : S_.BroadcastsInDim S30000 (![] : Fin 0 → Fin S30000.rank)
  bcast_S_S30000x128 : S_.BroadcastsInDim S30000x128 (![] : Fin 0 → Fin S30000x128.rank)
  bcast_S30000_S30000x1_0 : S30000.BroadcastsInDim S30000x1 (![0] : Fin 1 → Fin S30000x1.rank)
  bcast_S30000x1_S30000x128_0_1 : S30000x1.BroadcastsInDim S30000x128 (![0, 1] : Fin 2 → Fin S30000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  concatenates_S40000x128_S40000x128_S40000x256_d1 : Shape.Concatenates [S40000x128, S40000x128] S40000x256 1
  bcast_S_S30000x256 : S_.BroadcastsInDim S30000x256 (![] : Fin 0 → Fin S30000x256.rank)
  bcast_S30000x1_S30000x256_0_1 : S30000x1.BroadcastsInDim S30000x256 (![0, 1] : Fin 2 → Fin S30000x256.rank)
  slices_S30000x256_S30000x128_0_0 : S30000x256.Slices ![0, 0] S30000x128
  slices_S30000x256_S30000x128_0_128 : S30000x256.Slices ![0, 128] S30000x128
  concatenates_S600000_S30000_S630000_d0 : Shape.Concatenates [S600000, S30000] S630000 0
  bcast_S630000_S630000x1_0 : S630000.BroadcastsInDim S630000x1 (![0] : Fin 1 → Fin S630000x1.rank)
  bcast_S_S630000 : S_.BroadcastsInDim S630000 (![] : Fin 0 → Fin S630000.rank)
  bcast_S630000x1_S630000x128_0_1 : S630000x1.BroadcastsInDim S630000x128 (![0, 1] : Fin 2 → Fin S630000x128.rank)
  slices_S40000x128_S20000x128_0_0 : S40000x128.Slices ![0, 0] S20000x128
  slices_S40000x128_S15000x128_20000_0 : S40000x128.Slices ![20000, 0] S15000x128
  slices_S40000x128_S5000x128_35000_0 : S40000x128.Slices ![35000, 0] S5000x128
  scatter_S5000_S105000x1_S105000_n_0_0_1_wf : ScatterDims.WF S5000 S105000x1 S105000 [] [0] [0] 1
  gather_S5000_S105000x1_S105000_n_0_n_n_0_1_1_wf : GatherDims.WF S5000 S105000x1 S105000 [] [0] [] [0] [] 1 ![1]
  dot_S1000x128_S128x128_S1000x128_1_0_0_1_n_n_wf : DotDims.WF S1000x128 S128x128 S1000x128 [1] [0] [0] [1] [] []
  gather_S5000x128_S105000x1_S105000x128_1_0_n_n_0_1_1128_wf : GatherDims.WF S5000x128 S105000x1 S105000x128 [1] [0] [] [0] [] 1 ![1, 128]
  scatter_S5000x128_S105000x1_S105000x128_1_0_0_1_wf : ScatterDims.WF S5000x128 S105000x1 S105000x128 [1] [0] [0] 1
  dot_S1000x128_S128x256_S1000x256_1_0_0_1_n_n_wf : DotDims.WF S1000x128 S128x256 S1000x256 [1] [0] [0] [1] [] []
  scatter_S40000_S600000x1_S600000_n_0_0_1_wf : ScatterDims.WF S40000 S600000x1 S600000 [] [0] [0] 1
  scatter_S30000_S600000x1_S600000_n_0_0_1_wf : ScatterDims.WF S30000 S600000x1 S600000 [] [0] [0] 1
  gather_S40000x128_S600000x1_S600000x128_1_0_n_n_0_1_1128_wf : GatherDims.WF S40000x128 S600000x1 S600000x128 [1] [0] [] [0] [] 1 ![1, 128]
  scatter_S30000x128_S600000x1_S600000x128_1_0_0_1_wf : ScatterDims.WF S30000x128 S600000x1 S600000x128 [1] [0] [0] 1
  gather_S30000x128_S600000x1_S600000x128_1_0_n_n_0_1_1128_wf : GatherDims.WF S30000x128 S600000x1 S600000x128 [1] [0] [] [0] [] 1 ![1, 128]
  scatter_S40000x128_S600000x1_S600000x128_1_0_0_1_wf : ScatterDims.WF S40000x128 S600000x1 S600000x128 [1] [0] [0] 1
  gather_S40000x256_S600000x1_S600000x256_1_0_n_n_0_1_1256_wf : GatherDims.WF S40000x256 S600000x1 S600000x256 [1] [0] [] [0] [] 1 ![1, 256]
  scatter_S30000x256_S600000x1_S600000x256_1_0_0_1_wf : ScatterDims.WF S30000x256 S600000x1 S600000x256 [1] [0] [0] 1
  scatter_S30000_S630000x1_S630000_n_0_0_1_wf : ScatterDims.WF S30000 S630000x1 S630000 [] [0] [0] 1
  gather_S30000_S630000x1_S630000_n_0_n_n_0_1_1_wf : GatherDims.WF S30000 S630000x1 S630000 [] [0] [] [0] [] 1 ![1]
  gather_S30000x128_S630000x1_S630000x128_1_0_n_n_0_1_1128_wf : GatherDims.WF S30000x128 S630000x1 S630000x128 [1] [0] [] [0] [] 1 ![1, 128]
  scatter_S30000x128_S630000x1_S630000x128_1_0_0_1_wf : ScatterDims.WF S30000x128 S630000x1 S630000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S5000x128.size a
  hwx0_0 : ∀ i : grid0.Coords, EltTy.bits .f32 = 32 ∨ (Rect.block (s := S5000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S5000x128.size a
  hwx0_2 : ∀ i : grid0.Coords, EltTy.bits .f32 = 32 ∨ (Rect.block (s := S5000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S5000x128.size a
  hwx1_0 : ∀ i : grid1.Coords, EltTy.bits .f32 = 32 ∨ (Rect.block (s := S5000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S5000x128.size a
  hwx1_2 : ∀ i : grid1.Coords, EltTy.bits .f32 = 32 ∨ (Rect.block (s := S5000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S5000x128.size a
  hwx1_3 : ∀ i : grid1.Coords, EltTy.bits .f32 = 32 ∨ (Rect.block (s := S5000x128) S1000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S5000x128.size a
  hwx1_4 : ∀ i : grid1.Coords, EltTy.bits .f32 = 32 ∨ (Rect.block (s := S5000x128) S1000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S5000x128.size a
  hwx1_5 : ∀ i : grid1.Coords, EltTy.bits .f32 = 32 ∨ (Rect.block (s := S5000x128) S1000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S5000x128.size a
  hwx2_0 : ∀ i : grid2.Coords, EltTy.bits .f32 = 32 ∨ (Rect.block (s := S5000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S5000x128.size a
  hwx2_2 : ∀ i : grid2.Coords, EltTy.bits .f32 = 32 ∨ (Rect.block (s := S5000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S5000x128.size a
  hwx3_0 : ∀ i : grid3.Coords, EltTy.bits .f32 = 32 ∨ (Rect.block (s := S5000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S5000x128.size a
  hwx3_2 : ∀ i : grid3.Coords, EltTy.bits .f32 = 32 ∨ (Rect.block (s := S5000x128) S1000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S5000x128.size a
  hwx3_3 : ∀ i : grid3.Coords, EltTy.bits .f32 = 32 ∨ (Rect.block (s := S5000x128) S1000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x128.size a ≤ S5000x128.size a
  hwx3_4 : ∀ i : grid3.Coords, EltTy.bits .f32 = 32 ∨ (Rect.block (s := S5000x128) S1000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S5000x128.size a
  hwx3_5 : ∀ i : grid3.Coords, EltTy.bits .f32 = 32 ∨ (Rect.block (s := S5000x128) S1000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S40000x128.size a
  hwx4_0 : ∀ i : grid4.Coords, EltTy.bits .f32 = 32 ∨ (Rect.block (s := S40000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S40000x128.size a
  hwx4_3 : ∀ i : grid4.Coords, EltTy.bits .f32 = 32 ∨ (Rect.block (s := S40000x128) S1000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x128.size a ≤ S40000x128.size a
  hwx4_4 : ∀ i : grid4.Coords, EltTy.bits .f32 = 32 ∨ (Rect.block (s := S40000x128) S1000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S40000x128.size a
  hwx5_0 : ∀ i : grid5.Coords, EltTy.bits .f32 = 32 ∨ (Rect.block (s := S40000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x128.size a ≤ S40000x128.size a
  hwx5_2 : ∀ i : grid5.Coords, EltTy.bits .f32 = 32 ∨ (Rect.block (s := S40000x128) S1000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S40000x128.size a
  hwx6_0 : ∀ i : grid6.Coords, EltTy.bits .f32 = 32 ∨ (Rect.block (s := S40000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x128.size a ≤ S40000x128.size a
  hwx6_2 : ∀ i : grid6.Coords, EltTy.bits .f32 = 32 ∨ (Rect.block (s := S40000x128) S1000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x128.size a ≤ S40000x128.size a
  hwx6_3 : ∀ i : grid6.Coords, EltTy.bits .f32 = 32 ∨ (Rect.block (s := S40000x128) S1000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1000x128.size a ≤ S40000x128.size a
  hwx6_4 : ∀ i : grid6.Coords, EltTy.bits .f32 = 32 ∨ (Rect.block (s := S40000x128) S1000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1000x128.size a ≤ S40000x128.size a
  hwx6_5 : ∀ i : grid6.Coords, EltTy.bits .f32 = 32 ∨ (Rect.block (s := S40000x128) S1000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S40000x128.size a
  hwx7_0 : ∀ i : grid7.Coords, EltTy.bits .f32 = 32 ∨ (Rect.block (s := S40000x128) S1000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x128.size a ≤ S40000x128.size a
  hwx7_2 : ∀ i : grid7.Coords, EltTy.bits .f32 = 32 ∨ (Rect.block (s := S40000x128) S1000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x128.size a ≤ S40000x128.size a
  hwx8_0 : ∀ i : grid8.Coords, EltTy.bits .f32 = 32 ∨ (Rect.block (s := S40000x128) S1000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x128.size a ≤ S40000x128.size a
  hwx8_2 : ∀ i : grid8.Coords, EltTy.bits .f32 = 32 ∨ (Rect.block (s := S40000x128) S1000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1000x128.size a ≤ S40000x128.size a
  hwx8_3 : ∀ i : grid8.Coords, EltTy.bits .f32 = 32 ∨ (Rect.block (s := S40000x128) S1000x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1000x128.size a ≤ S40000x128.size a
  hwx8_4 : ∀ i : grid8.Coords, EltTy.bits .f32 = 32 ∨ (Rect.block (s := S40000x128) S1000x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1000x128.size a ≤ S40000x128.size a
  hwx8_5 : ∀ i : grid8.Coords, EltTy.bits .f32 = 32 ∨ (Rect.block (s := S40000x128) S1000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x128.size a ≤ S30000x128.size a
  hwx9_0 : ∀ i : grid9.Coords, EltTy.bits .f32 = 32 ∨ (Rect.block (s := S30000x128) S1000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1000x128.size a ≤ S30000x128.size a
  hwx9_2 : ∀ i : grid9.Coords, EltTy.bits .f32 = 32 ∨ (Rect.block (s := S30000x128) S1000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x128.size a ≤ S30000x128.size a
  hwx10_0 : ∀ i : grid10.Coords, EltTy.bits .f32 = 32 ∨ (Rect.block (s := S30000x128) S1000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1000x128.size a ≤ S30000x128.size a
  hwx10_2 : ∀ i : grid10.Coords, EltTy.bits .f32 = 32 ∨ (Rect.block (s := S30000x128) S1000x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1000x128.size a ≤ S30000x128.size a
  hwx10_3 : ∀ i : grid10.Coords, EltTy.bits .f32 = 32 ∨ (Rect.block (s := S30000x128) S1000x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1000x128.size a ≤ S30000x128.size a
  hwx10_4 : ∀ i : grid10.Coords, EltTy.bits .f32 = 32 ∨ (Rect.block (s := S30000x128) S1000x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1000x128.size a ≤ S30000x128.size a
  hwx10_5 : ∀ i : grid10.Coords, EltTy.bits .f32 = 32 ∨ (Rect.block (s := S30000x128) S1000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1000x128.size a ≤ S30000x128.size a
  hwx11_0 : ∀ i : grid11.Coords, EltTy.bits .f32 = 32 ∨ (Rect.block (s := S30000x128) S1000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1000x128.size a ≤ S30000x128.size a
  hwx11_2 : ∀ i : grid11.Coords, EltTy.bits .f32 = 32 ∨ (Rect.block (s := S30000x128) S1000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1000x128.size a ≤ S30000x128.size a
  hwx12_0 : ∀ i : grid12.Coords, EltTy.bits .f32 = 32 ∨ (Rect.block (s := S30000x128) S1000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1000x128.size a ≤ S30000x128.size a
  hwx12_2 : ∀ i : grid12.Coords, EltTy.bits .f32 = 32 ∨ (Rect.block (s := S30000x128) S1000x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S1000x128.size a ≤ S30000x128.size a
  hwx12_3 : ∀ i : grid12.Coords, EltTy.bits .f32 = 32 ∨ (Rect.block (s := S30000x128) S1000x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1000x128.size a ≤ S30000x128.size a
  hwx12_4 : ∀ i : grid12.Coords, EltTy.bits .f32 = 32 ∨ (Rect.block (s := S30000x128) S1000x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S1000x128.size a ≤ S30000x128.size a
  hwx12_5 : ∀ i : grid12.Coords, EltTy.bits .f32 = 32 ∨ (Rect.block (s := S30000x128) S1000x128.size (cc12_transform_5 i) (hinb12_5 i)).WholeWords (EltTy.packing .f32)

variable [Facts₀]

def scatter_S5000_S105000x1_S105000_n_0_0_1 : ScatterDims S5000 S105000x1 S105000 where
  updateWindowDims := []
  insertedWindowDims := [0]
  scatterDimsToOperandDims := [0]
  indexVectorDim := 1
  wf := scatter_S5000_S105000x1_S105000_n_0_0_1_wf
def gather_S5000_S105000x1_S105000_n_0_n_n_0_1_1 : GatherDims S5000 S105000x1 S105000 where
  offsetDims := []
  collapsedSliceDims := [0]
  operandBatchingDims := []
  startIndicesBatchingDims := []
  startIndexMap := [0]
  indexVectorDim := 1
  sliceSizes := ![1]
  wf := gather_S5000_S105000x1_S105000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S5000x128_S105000x1_S105000x128_1_0_n_n_0_1_1128 : GatherDims S5000x128 S105000x1 S105000x128 where
  offsetDims := [1]
  collapsedSliceDims := [0]
  operandBatchingDims := []
  startIndicesBatchingDims := []
  startIndexMap := [0]
  indexVectorDim := 1
  sliceSizes := ![1, 128]
  wf := gather_S5000x128_S105000x1_S105000x128_1_0_n_n_0_1_1128_wf
def scatter_S5000x128_S105000x1_S105000x128_1_0_0_1 : ScatterDims S5000x128 S105000x1 S105000x128 where
  updateWindowDims := [1]
  insertedWindowDims := [0]
  scatterDimsToOperandDims := [0]
  indexVectorDim := 1
  wf := scatter_S5000x128_S105000x1_S105000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def scatter_S40000_S600000x1_S600000_n_0_0_1 : ScatterDims S40000 S600000x1 S600000 where
  updateWindowDims := []
  insertedWindowDims := [0]
  scatterDimsToOperandDims := [0]
  indexVectorDim := 1
  wf := scatter_S40000_S600000x1_S600000_n_0_0_1_wf
def scatter_S30000_S600000x1_S600000_n_0_0_1 : ScatterDims S30000 S600000x1 S600000 where
  updateWindowDims := []
  insertedWindowDims := [0]
  scatterDimsToOperandDims := [0]
  indexVectorDim := 1
  wf := scatter_S30000_S600000x1_S600000_n_0_0_1_wf
def gather_S40000x128_S600000x1_S600000x128_1_0_n_n_0_1_1128 : GatherDims S40000x128 S600000x1 S600000x128 where
  offsetDims := [1]
  collapsedSliceDims := [0]
  operandBatchingDims := []
  startIndicesBatchingDims := []
  startIndexMap := [0]
  indexVectorDim := 1
  sliceSizes := ![1, 128]
  wf := gather_S40000x128_S600000x1_S600000x128_1_0_n_n_0_1_1128_wf
def scatter_S30000x128_S600000x1_S600000x128_1_0_0_1 : ScatterDims S30000x128 S600000x1 S600000x128 where
  updateWindowDims := [1]
  insertedWindowDims := [0]
  scatterDimsToOperandDims := [0]
  indexVectorDim := 1
  wf := scatter_S30000x128_S600000x1_S600000x128_1_0_0_1_wf
def gather_S30000x128_S600000x1_S600000x128_1_0_n_n_0_1_1128 : GatherDims S30000x128 S600000x1 S600000x128 where
  offsetDims := [1]
  collapsedSliceDims := [0]
  operandBatchingDims := []
  startIndicesBatchingDims := []
  startIndexMap := [0]
  indexVectorDim := 1
  sliceSizes := ![1, 128]
  wf := gather_S30000x128_S600000x1_S600000x128_1_0_n_n_0_1_1128_wf
def scatter_S40000x128_S600000x1_S600000x128_1_0_0_1 : ScatterDims S40000x128 S600000x1 S600000x128 where
  updateWindowDims := [1]
  insertedWindowDims := [0]
  scatterDimsToOperandDims := [0]
  indexVectorDim := 1
  wf := scatter_S40000x128_S600000x1_S600000x128_1_0_0_1_wf
def gather_S40000x256_S600000x1_S600000x256_1_0_n_n_0_1_1256 : GatherDims S40000x256 S600000x1 S600000x256 where
  offsetDims := [1]
  collapsedSliceDims := [0]
  operandBatchingDims := []
  startIndicesBatchingDims := []
  startIndexMap := [0]
  indexVectorDim := 1
  sliceSizes := ![1, 256]
  wf := gather_S40000x256_S600000x1_S600000x256_1_0_n_n_0_1_1256_wf
def scatter_S30000x256_S600000x1_S600000x256_1_0_0_1 : ScatterDims S30000x256 S600000x1 S600000x256 where
  updateWindowDims := [1]
  insertedWindowDims := [0]
  scatterDimsToOperandDims := [0]
  indexVectorDim := 1
  wf := scatter_S30000x256_S600000x1_S600000x256_1_0_0_1_wf
def scatter_S30000_S630000x1_S630000_n_0_0_1 : ScatterDims S30000 S630000x1 S630000 where
  updateWindowDims := []
  insertedWindowDims := [0]
  scatterDimsToOperandDims := [0]
  indexVectorDim := 1
  wf := scatter_S30000_S630000x1_S630000_n_0_0_1_wf
def gather_S30000_S630000x1_S630000_n_0_n_n_0_1_1 : GatherDims S30000 S630000x1 S630000 where
  offsetDims := []
  collapsedSliceDims := [0]
  operandBatchingDims := []
  startIndicesBatchingDims := []
  startIndexMap := [0]
  indexVectorDim := 1
  sliceSizes := ![1]
  wf := gather_S30000_S630000x1_S630000_n_0_n_n_0_1_1_wf
def gather_S30000x128_S630000x1_S630000x128_1_0_n_n_0_1_1128 : GatherDims S30000x128 S630000x1 S630000x128 where
  offsetDims := [1]
  collapsedSliceDims := [0]
  operandBatchingDims := []
  startIndicesBatchingDims := []
  startIndexMap := [0]
  indexVectorDim := 1
  sliceSizes := ![1, 128]
  wf := gather_S30000x128_S630000x1_S630000x128_1_0_n_n_0_1_1128_wf
def scatter_S30000x128_S630000x1_S630000x128_1_0_0_1 : ScatterDims S30000x128 S630000x1 S630000x128 where
  updateWindowDims := [1]
  insertedWindowDims := [0]
  scatterDimsToOperandDims := [0]
  indexVectorDim := 1
  wf := scatter_S30000x128_S630000x1_S630000x128_1_0_0_1_wf

abbrev win0_0 : Pipeline.Window sig grid0 :=
  Pipeline.Window.ofSpec (Memref.whole main_arg2) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v57_0) S1000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v57_1) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57_0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57_0) S1000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57_1) S1000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v77_0) S1000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v77_1) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v0) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81_0) S1000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v81_1) S1000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v81_0) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v110) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v111) S1000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v137) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v140) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81_0) S1000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v81_0) S1000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v141_0) S1000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v141_1) S1000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v141_0) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v143) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v144) S1000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v170) S1000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v173) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v141_0) S1000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v141_1) S1000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v174_0) S1000x128.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v174_1) S1000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v206) S1000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v244) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v245) S1000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v258) S1000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v261) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v206) S1000x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v206) S1000x128.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v262_0) S1000x128.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v262_1) S1000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v262_0) S1000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v264) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v265) S1000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v278) S1000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v281) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v262_0) S1000x128.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v262_1) S1000x128.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v282_0) S1000x128.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v282_1) S1000x128.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S20000x128 : Shape := ⟨2, ![20000, 128]⟩
abbrev S15000x128 : Shape := ⟨2, ![15000, 128]⟩
abbrev S5000x128 : Shape := ⟨2, ![5000, 128]⟩
abbrev S2x600000 : Shape := ⟨2, ![2, 600000]⟩
abbrev S600000 : Shape := ⟨1, ![600000]⟩
abbrev S2x100000 : Shape := ⟨2, ![2, 100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S40000x128 : Shape := ⟨2, ![40000, 128]⟩
abbrev S_ : Shape := ⟨0, ![]⟩
abbrev S100000 : Shape := ⟨1, ![100000]⟩
abbrev S1x100000 : Shape := ⟨2, ![1, 100000]⟩
abbrev S1x128x128 : Shape := ⟨3, ![1, 128, 128]⟩
abbrev S1x128 : Shape := ⟨2, ![1, 128]⟩
abbrev S5000 : Shape := ⟨1, ![5000]⟩
abbrev S105000 : Shape := ⟨1, ![105000]⟩
abbrev S105000x1 : Shape := ⟨2, ![105000, 1]⟩
abbrev S105000x128 : Shape := ⟨2, ![105000, 128]⟩
abbrev S1x600000 : Shape := ⟨2, ![1, 600000]⟩
abbrev S40000 : Shape := ⟨1, ![40000]⟩
abbrev S600000x1 : Shape := ⟨2, ![600000, 1]⟩
abbrev S30000 : Shape := ⟨1, ![30000]⟩
abbrev S600000x128 : Shape := ⟨2, ![600000, 128]⟩
abbrev S30000x128 : Shape := ⟨2, ![30000, 128]⟩
abbrev S30000x1 : Shape := ⟨2, ![30000, 1]⟩
abbrev S40000x1 : Shape := ⟨2, ![40000, 1]⟩
abbrev S630000 : Shape := ⟨1, ![630000]⟩
abbrev S630000x1 : Shape := ⟨2, ![630000, 1]⟩
abbrev S630000x128 : Shape := ⟨2, ![630000, 128]⟩

abbrev nBuf : Space → Nat
  | .hbm => 671
  | .vmem => 0
  | .smem => 0
  | _ => 0

abbrev hbmTy0_0 (i : Nat) : BufTy := match i % 128 with
  | 0 => ⟨S20000x128, .f32⟩
  | 1 => ⟨S15000x128, .f32⟩
  | 2 => ⟨S5000x128, .f32⟩
  | 3 => ⟨S2x600000, .i32⟩
  | 4 => ⟨S2x600000, .i32⟩
  | 5 => ⟨S600000, .f32⟩
  | 6 => ⟨S2x100000, .i32⟩
  | 7 => ⟨S128x128, .f32⟩
  | 8 => ⟨S128, .f32⟩
  | 9 => ⟨S128x128, .f32⟩
  | 10 => ⟨S128, .f32⟩
  | 11 => ⟨S2x128x128, .f32⟩
  | 12 => ⟨S2x128, .f32⟩
  | 13 => ⟨S2x128x128, .f32⟩
  | 14 => ⟨S2x128, .f32⟩
  | 15 => ⟨S2x128x128, .f32⟩
  | 16 => ⟨S2x128, .f32⟩
  | 17 => ⟨S40000x128, .f32⟩
  | 18 => ⟨S_, .f32⟩
  | 19 => ⟨S100000, .f32⟩
  | 20 => ⟨S1x100000, .i32⟩
  | 21 => ⟨S100000, .i32⟩
  | 22 => ⟨S1x100000, .i32⟩
  | 23 => ⟨S100000, .i32⟩
  | 24 => ⟨S1x128x128, .f32⟩
  | 25 => ⟨S128x128, .f32⟩
  | 26 => ⟨S1x128, .f32⟩
  | 27 => ⟨S128, .f32⟩
  | 28 => ⟨S5000x128, .f32⟩
  | 29 => ⟨S5000, .i32⟩
  | 30 => ⟨S105000, .i32⟩
  | 31 => ⟨S105000, .i32⟩
  | 32 => ⟨S_, .f32⟩
  | 33 => ⟨S5000, .f32⟩
  | 34 => ⟨S105000, .f32⟩
  | 35 => ⟨S_, .f32⟩
  | 36 => ⟨S5000, .f32⟩
  | 37 => ⟨S105000x1, .i32⟩
  | 38 => ⟨S5000, .f32⟩
  | 39 => ⟨S_, .f32⟩
  | 40 => ⟨S5000, .f32⟩
  | 41 => ⟨S5000, .i1⟩
  | 42 => ⟨S_, .f32⟩
  | 43 => ⟨S5000, .f32⟩
  | 44 => ⟨S5000, .i1⟩
  | 45 => ⟨S_, .f32⟩
  | 46 => ⟨S_, .f32⟩
  | 47 => ⟨S5000, .f32⟩
  | 48 => ⟨S5000, .f32⟩
  | 49 => ⟨S_, .f32⟩
  | 50 => ⟨S5000, .f32⟩
  | 51 => ⟨S5000, .f32⟩
  | 52 => ⟨S_, .f32⟩
  | 53 => ⟨S_, .f32⟩
  | 54 => ⟨S5000, .f32⟩
  | 55 => ⟨S5000, .f32⟩
  | 56 => ⟨S_, .i32⟩
  | 57 => ⟨S105000, .i32⟩
  | 58 => ⟨S105000, .i1⟩
  | 59 => ⟨S_, .i32⟩
  | 60 => ⟨S105000, .i32⟩
  | 61 => ⟨S105000, .i32⟩
  | 62 => ⟨S105000, .i32⟩
  | 63 => ⟨S105000x1, .i32⟩
  | 64 => ⟨S105000, .f32⟩
  | 65 => ⟨S105000, .f32⟩
  | 66 => ⟨S_, .i32⟩
  | 67 => ⟨S105000, .i32⟩
  | 68 => ⟨S105000, .i1⟩
  | 69 => ⟨S_, .i32⟩
  | 70 => ⟨S105000, .i32⟩
  | 71 => ⟨S105000, .i32⟩
  | 72 => ⟨S105000, .i32⟩
  | 73 => ⟨S105000x1, .i32⟩
  | 74 => ⟨S105000, .f32⟩
  | 75 => ⟨S105000, .f32⟩
  | 76 => ⟨S_, .i32⟩
  | 77 => ⟨S105000, .i32⟩
  | 78 => ⟨S105000, .i1⟩
  | 79 => ⟨S_, .i32⟩
  | 80 => ⟨S105000, .i32⟩
  | 81 => ⟨S105000, .i32⟩
  | 82 => ⟨S105000, .i32⟩
  | 83 => ⟨S105000x1, .i32⟩
  | 84 => ⟨S105000x128, .f32⟩
  | 85 => ⟨S105000x1, .f32⟩
  | 86 => ⟨S105000x128, .f32⟩
  | 87 => ⟨S105000x128, .f32⟩
  | 88 => ⟨S_, .f32⟩
  | 89 => ⟨S5000x128, .f32⟩
  | 90 => ⟨S105000x1, .i32⟩
  | 91 => ⟨S5000x128, .f32⟩
  | 92 => ⟨S1x128, .f32⟩
  | 93 => ⟨S5000x128, .f32⟩
  | 94 => ⟨S5000x128, .f32⟩
  | 95 => ⟨S_, .f32⟩
  | 96 => ⟨S5000x128, .f32⟩
  | 97 => ⟨S5000x128, .i1⟩
  | 98 => ⟨S_, .f32⟩
  | 99 => ⟨S5000x128, .f32⟩
  | 100 => ⟨S5000x128, .f32⟩
  | 101 => ⟨S5000x128, .f32⟩
  | 102 => ⟨S5000x128, .f32⟩
  | 103 => ⟨S_, .f32⟩
  | 104 => ⟨S5000x128, .f32⟩
  | 105 => ⟨S5000x128, .f32⟩
  | 106 => ⟨S5000x128, .f32⟩
  | 107 => ⟨S1x128x128, .f32⟩
  | 108 => ⟨S128x128, .f32⟩
  | 109 => ⟨S1x128, .f32⟩
  | 110 => ⟨S128, .f32⟩
  | 111 => ⟨S5000x128, .f32⟩
  | 112 => ⟨S5000, .i32⟩
  | 113 => ⟨S105000, .i32⟩
  | 114 => ⟨S105000, .i32⟩
  | 115 => ⟨S_, .f32⟩
  | 116 => ⟨S5000, .f32⟩
  | 117 => ⟨S105000, .f32⟩
  | 118 => ⟨S_, .f32⟩
  | 119 => ⟨S5000, .f32⟩
  | 120 => ⟨S105000x1, .i32⟩
  | 121 => ⟨S5000, .f32⟩
  | 122 => ⟨S_, .f32⟩
  | 123 => ⟨S5000, .f32⟩
  | 124 => ⟨S5000, .i1⟩
  | 125 => ⟨S_, .f32⟩
  | 126 => ⟨S5000, .f32⟩
  | 127 => ⟨S5000, .i1⟩
  | _ => ⟨S20000x128, .f32⟩

abbrev hbmTy0_1 (i : Nat) : BufTy := match i % 128 with
  | 0 => ⟨S_, .f32⟩
  | 1 => ⟨S_, .f32⟩
  | 2 => ⟨S5000, .f32⟩
  | 3 => ⟨S5000, .f32⟩
  | 4 => ⟨S_, .f32⟩
  | 5 => ⟨S5000, .f32⟩
  | 6 => ⟨S5000, .f32⟩
  | 7 => ⟨S_, .f32⟩
  | 8 => ⟨S_, .f32⟩
  | 9 => ⟨S5000, .f32⟩
  | 10 => ⟨S5000, .f32⟩
  | 11 => ⟨S_, .i32⟩
  | 12 => ⟨S105000, .i32⟩
  | 13 => ⟨S105000, .i1⟩
  | 14 => ⟨S_, .i32⟩
  | 15 => ⟨S105000, .i32⟩
  | 16 => ⟨S105000, .i32⟩
  | 17 => ⟨S105000, .i32⟩
  | 18 => ⟨S105000x1, .i32⟩
  | 19 => ⟨S105000, .f32⟩
  | 20 => ⟨S105000, .f32⟩
  | 21 => ⟨S_, .i32⟩
  | 22 => ⟨S105000, .i32⟩
  | 23 => ⟨S105000, .i1⟩
  | 24 => ⟨S_, .i32⟩
  | 25 => ⟨S105000, .i32⟩
  | 26 => ⟨S105000, .i32⟩
  | 27 => ⟨S105000, .i32⟩
  | 28 => ⟨S105000x1, .i32⟩
  | 29 => ⟨S105000, .f32⟩
  | 30 => ⟨S105000, .f32⟩
  | 31 => ⟨S_, .i32⟩
  | 32 => ⟨S105000, .i32⟩
  | 33 => ⟨S105000, .i1⟩
  | 34 => ⟨S_, .i32⟩
  | 35 => ⟨S105000, .i32⟩
  | 36 => ⟨S105000, .i32⟩
  | 37 => ⟨S105000, .i32⟩
  | 38 => ⟨S105000x1, .i32⟩
  | 39 => ⟨S105000x128, .f32⟩
  | 40 => ⟨S105000x1, .f32⟩
  | 41 => ⟨S105000x128, .f32⟩
  | 42 => ⟨S105000x128, .f32⟩
  | 43 => ⟨S_, .f32⟩
  | 44 => ⟨S5000x128, .f32⟩
  | 45 => ⟨S105000x1, .i32⟩
  | 46 => ⟨S5000x128, .f32⟩
  | 47 => ⟨S1x128, .f32⟩
  | 48 => ⟨S5000x128, .f32⟩
  | 49 => ⟨S5000x128, .f32⟩
  | 50 => ⟨S_, .f32⟩
  | 51 => ⟨S5000x128, .f32⟩
  | 52 => ⟨S5000x128, .i1⟩
  | 53 => ⟨S_, .f32⟩
  | 54 => ⟨S5000x128, .f32⟩
  | 55 => ⟨S5000x128, .f32⟩
  | 56 => ⟨S5000x128, .f32⟩
  | 57 => ⟨S5000x128, .f32⟩
  | 58 => ⟨S_, .f32⟩
  | 59 => ⟨S5000x128, .f32⟩
  | 60 => ⟨S5000x128, .f32⟩
  | 61 => ⟨S5000x128, .f32⟩
  | 62 => ⟨S40000x128, .f32⟩
  | 63 => ⟨S1x128, .f32⟩
  | 64 => ⟨S40000x128, .f32⟩
  | 65 => ⟨S40000x128, .f32⟩
  | 66 => ⟨S40000x128, .f32⟩
  | 67 => ⟨S40000x128, .f32⟩
  | 68 => ⟨S_, .f32⟩
  | 69 => ⟨S40000x128, .f32⟩
  | 70 => ⟨S40000x128, .f32⟩
  | 71 => ⟨S_, .f32⟩
  | 72 => ⟨S40000x128, .f32⟩
  | 73 => ⟨S40000x128, .f32⟩
  | 74 => ⟨S40000x128, .f32⟩
  | 75 => ⟨S40000x128, .f32⟩
  | 76 => ⟨S1x128, .f32⟩
  | 77 => ⟨S40000x128, .f32⟩
  | 78 => ⟨S40000x128, .f32⟩
  | 79 => ⟨S40000x128, .f32⟩
  | 80 => ⟨S40000x128, .f32⟩
  | 81 => ⟨S_, .f32⟩
  | 82 => ⟨S40000x128, .f32⟩
  | 83 => ⟨S40000x128, .f32⟩
  | 84 => ⟨S_, .f32⟩
  | 85 => ⟨S40000x128, .f32⟩
  | 86 => ⟨S40000x128, .f32⟩
  | 87 => ⟨S40000x128, .f32⟩
  | 88 => ⟨S1x600000, .i32⟩
  | 89 => ⟨S600000, .i32⟩
  | 90 => ⟨S1x600000, .i32⟩
  | 91 => ⟨S600000, .i32⟩
  | 92 => ⟨S1x128x128, .f32⟩
  | 93 => ⟨S128x128, .f32⟩
  | 94 => ⟨S1x128, .f32⟩
  | 95 => ⟨S128, .f32⟩
  | 96 => ⟨S40000x128, .f32⟩
  | 97 => ⟨S_, .f32⟩
  | 98 => ⟨S600000, .f32⟩
  | 99 => ⟨S_, .f32⟩
  | 100 => ⟨S40000, .f32⟩
  | 101 => ⟨S600000x1, .i32⟩
  | 102 => ⟨S40000, .f32⟩
  | 103 => ⟨S_, .f32⟩
  | 104 => ⟨S40000, .f32⟩
  | 105 => ⟨S40000, .i1⟩
  | 106 => ⟨S_, .f32⟩
  | 107 => ⟨S40000, .f32⟩
  | 108 => ⟨S40000, .i1⟩
  | 109 => ⟨S_, .f32⟩
  | 110 => ⟨S_, .f32⟩
  | 111 => ⟨S40000, .f32⟩
  | 112 => ⟨S40000, .f32⟩
  | 113 => ⟨S_, .f32⟩
  | 114 => ⟨S40000, .f32⟩
  | 115 => ⟨S40000, .f32⟩
  | 116 => ⟨S_, .f32⟩
  | 117 => ⟨S_, .f32⟩
  | 118 => ⟨S40000, .f32⟩
  | 119 => ⟨S40000, .f32⟩
  | 120 => ⟨S_, .f32⟩
  | 121 => ⟨S30000, .f32⟩
  | 122 => ⟨S600000x1, .i32⟩
  | 123 => ⟨S30000, .f32⟩
  | 124 => ⟨S_, .f32⟩
  | 125 => ⟨S30000, .f32⟩
  | 126 => ⟨S30000, .i1⟩
  | 127 => ⟨S_, .f32⟩
  | _ => ⟨S20000x128, .f32⟩

abbrev hbmTy0_2 (i : Nat) : BufTy := match i % 128 with
  | 0 => ⟨S30000, .f32⟩
  | 1 => ⟨S30000, .i1⟩
  | 2 => ⟨S_, .f32⟩
  | 3 => ⟨S_, .f32⟩
  | 4 => ⟨S30000, .f32⟩
  | 5 => ⟨S30000, .f32⟩
  | 6 => ⟨S_, .f32⟩
  | 7 => ⟨S30000, .f32⟩
  | 8 => ⟨S30000, .f32⟩
  | 9 => ⟨S_, .f32⟩
  | 10 => ⟨S_, .f32⟩
  | 11 => ⟨S30000, .f32⟩
  | 12 => ⟨S30000, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000x128, .f32⟩
  | 22 => ⟨S_, .f32⟩
  | 23 => ⟨S30000x128, .f32⟩
  | 24 => ⟨S600000x1, .i32⟩
  | 25 => ⟨S30000x128, .f32⟩
  | 26 => ⟨S30000x1, .f32⟩
  | 27 => ⟨S30000x128, .f32⟩
  | 28 => ⟨S30000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S_, .f32⟩
  | 39 => ⟨S40000x128, .f32⟩
  | 40 => ⟨S600000x1, .i32⟩
  | 41 => ⟨S40000x128, .f32⟩
  | 42 => ⟨S40000x1, .f32⟩
  | 43 => ⟨S40000x128, .f32⟩
  | 44 => ⟨S40000x128, .f32⟩
  | 45 => ⟨S1x128, .f32⟩
  | 46 => ⟨S40000x128, .f32⟩
  | 47 => ⟨S40000x128, .f32⟩
  | 48 => ⟨S_, .f32⟩
  | 49 => ⟨S40000x128, .f32⟩
  | 50 => ⟨S40000x128, .i1⟩
  | 51 => ⟨S_, .f32⟩
  | 52 => ⟨S40000x128, .f32⟩
  | 53 => ⟨S40000x128, .f32⟩
  | 54 => ⟨S40000x128, .f32⟩
  | 55 => ⟨S40000x128, .f32⟩
  | 56 => ⟨S_, .f32⟩
  | 57 => ⟨S40000x128, .f32⟩
  | 58 => ⟨S40000x128, .f32⟩
  | 59 => ⟨S40000x128, .f32⟩
  | 60 => ⟨S1x128x128, .f32⟩
  | 61 => ⟨S128x128, .f32⟩
  | 62 => ⟨S1x128, .f32⟩
  | 63 => ⟨S128, .f32⟩
  | 64 => ⟨S40000x128, .f32⟩
  | 65 => ⟨S_, .f32⟩
  | 66 => ⟨S600000, .f32⟩
  | 67 => ⟨S_, .f32⟩
  | 68 => ⟨S40000, .f32⟩
  | 69 => ⟨S600000x1, .i32⟩
  | 70 => ⟨S40000, .f32⟩
  | 71 => ⟨S_, .f32⟩
  | 72 => ⟨S40000, .f32⟩
  | 73 => ⟨S40000, .i1⟩
  | 74 => ⟨S_, .f32⟩
  | 75 => ⟨S40000, .f32⟩
  | 76 => ⟨S40000, .i1⟩
  | 77 => ⟨S_, .f32⟩
  | 78 => ⟨S_, .f32⟩
  | 79 => ⟨S40000, .f32⟩
  | 80 => ⟨S40000, .f32⟩
  | 81 => ⟨S_, .f32⟩
  | 82 => ⟨S40000, .f32⟩
  | 83 => ⟨S40000, .f32⟩
  | 84 => ⟨S_, .f32⟩
  | 85 => ⟨S_, .f32⟩
  | 86 => ⟨S40000, .f32⟩
  | 87 => ⟨S40000, .f32⟩
  | 88 => ⟨S_, .f32⟩
  | 89 => ⟨S30000, .f32⟩
  | 90 => ⟨S600000x1, .i32⟩
  | 91 => ⟨S30000, .f32⟩
  | 92 => ⟨S_, .f32⟩
  | 93 => ⟨S30000, .f32⟩
  | 94 => ⟨S30000, .i1⟩
  | 95 => ⟨S_, .f32⟩
  | 96 => ⟨S30000, .f32⟩
  | 97 => ⟨S30000, .i1⟩
  | 98 => ⟨S_, .f32⟩
  | 99 => ⟨S_, .f32⟩
  | 100 => ⟨S30000, .f32⟩
  | 101 => ⟨S30000, .f32⟩
  | 102 => ⟨S_, .f32⟩
  | 103 => ⟨S30000, .f32⟩
  | 104 => ⟨S30000, .f32⟩
  | 105 => ⟨S_, .f32⟩
  | 106 => ⟨S_, .f32⟩
  | 107 => ⟨S30000, .f32⟩
  | 108 => ⟨S30000, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .f32⟩
  | 118 => ⟨S_, .f32⟩
  | 119 => ⟨S30000x128, .f32⟩
  | 120 => ⟨S600000x1, .i32⟩
  | 121 => ⟨S30000x128, .f32⟩
  | 122 => ⟨S30000x1, .f32⟩
  | 123 => ⟨S30000x128, .f32⟩
  | 124 => ⟨S30000x128, .f32⟩
  | 125 => ⟨S_, .i32⟩
  | 126 => ⟨S600000, .i32⟩
  | 127 => ⟨S600000, .i1⟩
  | _ => ⟨S20000x128, .f32⟩

abbrev hbmTy0_3 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .f32⟩
  | 6 => ⟨S_, .f32⟩
  | 7 => ⟨S40000x128, .f32⟩
  | 8 => ⟨S600000x1, .i32⟩
  | 9 => ⟨S40000x128, .f32⟩
  | 10 => ⟨S40000x1, .f32⟩
  | 11 => ⟨S40000x128, .f32⟩
  | 12 => ⟨S40000x128, .f32⟩
  | 13 => ⟨S1x128, .f32⟩
  | 14 => ⟨S40000x128, .f32⟩
  | 15 => ⟨S40000x128, .f32⟩
  | 16 => ⟨S_, .f32⟩
  | 17 => ⟨S40000x128, .f32⟩
  | 18 => ⟨S40000x128, .i1⟩
  | 19 => ⟨S_, .f32⟩
  | 20 => ⟨S40000x128, .f32⟩
  | 21 => ⟨S40000x128, .f32⟩
  | 22 => ⟨S40000x128, .f32⟩
  | 23 => ⟨S40000x128, .f32⟩
  | 24 => ⟨S_, .f32⟩
  | 25 => ⟨S40000x128, .f32⟩
  | 26 => ⟨S40000x128, .f32⟩
  | 27 => ⟨S40000x128, .f32⟩
  | 28 => ⟨S1x600000, .i32⟩
  | 29 => ⟨S600000, .i32⟩
  | 30 => ⟨S1x600000, .i32⟩
  | 31 => ⟨S600000, .i32⟩
  | 32 => ⟨S_, .f32⟩
  | 33 => ⟨S600000, .f32⟩
  | 34 => ⟨S_, .f32⟩
  | 35 => ⟨S30000, .f32⟩
  | 36 => ⟨S600000x1, .i32⟩
  | 37 => ⟨S30000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S30000x128, .f32⟩
  | 49 => ⟨S600000x1, .i32⟩
  | 50 => ⟨S30000x128, .f32⟩
  | 51 => ⟨S_, .f32⟩
  | 52 => ⟨S30000, .f32⟩
  | 53 => ⟨S30000, .i1⟩
  | 54 => ⟨S_, .f32⟩
  | 55 => ⟨S30000, .f32⟩
  | 56 => ⟨S30000, .i1⟩
  | 57 => ⟨S_, .f32⟩
  | 58 => ⟨S_, .f32⟩
  | 59 => ⟨S30000, .f32⟩
  | 60 => ⟨S30000, .f32⟩
  | 61 => ⟨S_, .f32⟩
  | 62 => ⟨S30000, .f32⟩
  | 63 => ⟨S30000, .f32⟩
  | 64 => ⟨S_, .f32⟩
  | 65 => ⟨S_, .f32⟩
  | 66 => ⟨S30000, .f32⟩
  | 67 => ⟨S30000, .f32⟩
  | 68 => ⟨S30000x1, .f32⟩
  | 69 => ⟨S30000x128, .f32⟩
  | 70 => ⟨S30000x128, .f32⟩
  | 71 => ⟨S1x600000, .i32⟩
  | 72 => ⟨S600000, .i32⟩
  | 73 => ⟨S1x600000, .i32⟩
  | 74 => ⟨S600000, .i32⟩
  | 75 => ⟨S_, .f32⟩
  | 76 => ⟨S600000, .f32⟩
  | 77 => ⟨S_, .f32⟩
  | 78 => ⟨S30000, .f32⟩
  | 79 => ⟨S600000x1, .i32⟩
  | 80 => ⟨S30000, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S_, .f32⟩
  | 91 => ⟨S30000x128, .f32⟩
  | 92 => ⟨S600000x1, .i32⟩
  | 93 => ⟨S30000x128, .f32⟩
  | 94 => ⟨S_, .f32⟩
  | 95 => ⟨S30000, .f32⟩
  | 96 => ⟨S30000, .i1⟩
  | 97 => ⟨S_, .f32⟩
  | 98 => ⟨S30000, .f32⟩
  | 99 => ⟨S30000, .i1⟩
  | 100 => ⟨S_, .f32⟩
  | 101 => ⟨S_, .f32⟩
  | 102 => ⟨S30000, .f32⟩
  | 103 => ⟨S30000, .f32⟩
  | 104 => ⟨S_, .f32⟩
  | 105 => ⟨S30000, .f32⟩
  | 106 => ⟨S30000, .f32⟩
  | 107 => ⟨S_, .f32⟩
  | 108 => ⟨S_, .f32⟩
  | 109 => ⟨S30000, .f32⟩
  | 110 => ⟨S30000, .f32⟩
  | 111 => ⟨S30000x1, .f32⟩
  | 112 => ⟨S30000x128, .f32⟩
  | 113 => ⟨S30000x128, .f32⟩
  | 114 => ⟨S1x600000, .i32⟩
  | 115 => ⟨S600000, .i32⟩
  | 116 => ⟨S1x600000, .i32⟩
  | 117 => ⟨S600000, .i32⟩
  | 118 => ⟨S1x128x128, .f32⟩
  | 119 => ⟨S128x128, .f32⟩
  | 120 => ⟨S1x128, .f32⟩
  | 121 => ⟨S128, .f32⟩
  | 122 => ⟨S30000x128, .f32⟩
  | 123 => ⟨S30000, .i32⟩
  | 124 => ⟨S630000, .i32⟩
  | 125 => ⟨S630000, .i32⟩
  | 126 => ⟨S_, .f32⟩
  | 127 => ⟨S30000, .f32⟩
  | _ => ⟨S20000x128, .f32⟩

abbrev hbmTy0_4 (i : Nat) : BufTy := match i % 128 with
  | 0 => ⟨S630000, .f32⟩
  | 1 => ⟨S_, .f32⟩
  | 2 => ⟨S30000, .f32⟩
  | 3 => ⟨S630000x1, .i32⟩
  | 4 => ⟨S30000, .f32⟩
  | 5 => ⟨S_, .f32⟩
  | 6 => ⟨S30000, .f32⟩
  | 7 => ⟨S30000, .i1⟩
  | 8 => ⟨S_, .f32⟩
  | 9 => ⟨S30000, .f32⟩
  | 10 => ⟨S30000, .i1⟩
  | 11 => ⟨S_, .f32⟩
  | 12 => ⟨S_, .f32⟩
  | 13 => ⟨S30000, .f32⟩
  | 14 => ⟨S30000, .f32⟩
  | 15 => ⟨S_, .f32⟩
  | 16 => ⟨S30000, .f32⟩
  | 17 => ⟨S30000, .f32⟩
  | 18 => ⟨S_, .f32⟩
  | 19 => ⟨S_, .f32⟩
  | 20 => ⟨S30000, .f32⟩
  | 21 => ⟨S30000, .f32⟩
  | 22 => ⟨S_, .i32⟩
  | 23 => ⟨S630000, .i32⟩
  | 24 => ⟨S630000, .i1⟩
  | 25 => ⟨S_, .i32⟩
  | 26 => ⟨S630000, .i32⟩
  | 27 => ⟨S630000, .i32⟩
  | 28 => ⟨S630000, .i32⟩
  | 29 => ⟨S630000x1, .i32⟩
  | 30 => ⟨S630000, .f32⟩
  | 31 => ⟨S630000, .f32⟩
  | 32 => ⟨S_, .i32⟩
  | 33 => ⟨S630000, .i32⟩
  | 34 => ⟨S630000, .i1⟩
  | 35 => ⟨S_, .i32⟩
  | 36 => ⟨S630000, .i32⟩
  | 37 => ⟨S630000, .i32⟩
  | 38 => ⟨S630000, .i32⟩
  | 39 => ⟨S630000x1, .i32⟩
  | 40 => ⟨S630000, .f32⟩
  | 41 => ⟨S630000, .f32⟩
  | 42 => ⟨S_, .i32⟩
  | 43 => ⟨S630000, .i32⟩
  | 44 => ⟨S630000, .i1⟩
  | 45 => ⟨S_, .i32⟩
  | 46 => ⟨S630000, .i32⟩
  | 47 => ⟨S630000, .i32⟩
  | 48 => ⟨S630000, .i32⟩
  | 49 => ⟨S630000x1, .i32⟩
  | 50 => ⟨S630000x128, .f32⟩
  | 51 => ⟨S630000x1, .f32⟩
  | 52 => ⟨S630000x128, .f32⟩
  | 53 => ⟨S630000x128, .f32⟩
  | 54 => ⟨S_, .f32⟩
  | 55 => ⟨S30000x128, .f32⟩
  | 56 => ⟨S630000x1, .i32⟩
  | 57 => ⟨S30000x128, .f32⟩
  | 58 => ⟨S1x128, .f32⟩
  | 59 => ⟨S30000x128, .f32⟩
  | 60 => ⟨S30000x128, .f32⟩
  | 61 => ⟨S_, .f32⟩
  | 62 => ⟨S30000x128, .f32⟩
  | 63 => ⟨S30000x128, .i1⟩
  | 64 => ⟨S_, .f32⟩
  | 65 => ⟨S30000x128, .f32⟩
  | 66 => ⟨S30000x128, .f32⟩
  | 67 => ⟨S30000x128, .f32⟩
  | 68 => ⟨S30000x128, .f32⟩
  | 69 => ⟨S_, .f32⟩
  | 70 => ⟨S30000x128, .f32⟩
  | 71 => ⟨S30000x128, .f32⟩
  | 72 => ⟨S30000x128, .f32⟩
  | 73 => ⟨S1x128x128, .f32⟩
  | 74 => ⟨S128x128, .f32⟩
  | 75 => ⟨S1x128, .f32⟩
  | 76 => ⟨S128, .f32⟩
  | 77 => ⟨S30000x128, .f32⟩
  | 78 => ⟨S30000, .i32⟩
  | 79 => ⟨S630000, .i32⟩
  | 80 => ⟨S630000, .i32⟩
  | 81 => ⟨S_, .f32⟩
  | 82 => ⟨S30000, .f32⟩
  | 83 => ⟨S630000, .f32⟩
  | 84 => ⟨S_, .f32⟩
  | 85 => ⟨S30000, .f32⟩
  | 86 => ⟨S630000x1, .i32⟩
  | 87 => ⟨S30000, .f32⟩
  | 88 => ⟨S_, .f32⟩
  | 89 => ⟨S30000, .f32⟩
  | 90 => ⟨S30000, .i1⟩
  | 91 => ⟨S_, .f32⟩
  | 92 => ⟨S30000, .f32⟩
  | 93 => ⟨S30000, .i1⟩
  | 94 => ⟨S_, .f32⟩
  | 95 => ⟨S_, .f32⟩
  | 96 => ⟨S30000, .f32⟩
  | 97 => ⟨S30000, .f32⟩
  | 98 => ⟨S_, .f32⟩
  | 99 => ⟨S30000, .f32⟩
  | 100 => ⟨S30000, .f32⟩
  | 101 => ⟨S_, .f32⟩
  | 102 => ⟨S_, .f32⟩
  | 103 => ⟨S30000, .f32⟩
  | 104 => ⟨S30000, .f32⟩
  | 105 => ⟨S_, .i32⟩
  | 106 => ⟨S630000, .i32⟩
  | 107 => ⟨S630000, .i1⟩
  | 108 => ⟨S_, .i32⟩
  | 109 => ⟨S630000, .i32⟩
  | 110 => ⟨S630000, .i32⟩
  | 111 => ⟨S630000, .i32⟩
  | 112 => ⟨S630000x1, .i32⟩
  | 113 => ⟨S630000, .f32⟩
  | 114 => ⟨S630000, .f32⟩
  | 115 => ⟨S_, .i32⟩
  | 116 => ⟨S630000, .i32⟩
  | 117 => ⟨S630000, .i1⟩
  | 118 => ⟨S_, .i32⟩
  | 119 => ⟨S630000, .i32⟩
  | 120 => ⟨S630000, .i32⟩
  | 121 => ⟨S630000, .i32⟩
  | 122 => ⟨S630000x1, .i32⟩
  | 123 => ⟨S630000, .f32⟩
  | 124 => ⟨S630000, .f32⟩
  | 125 => ⟨S_, .i32⟩
  | 126 => ⟨S630000, .i32⟩
  | 127 => ⟨S630000, .i1⟩
  | _ => ⟨S20000x128, .f32⟩

abbrev hbmTy0_5 (i : Nat) : BufTy := match i % 128 with
  | 0 => ⟨S_, .i32⟩
  | 1 => ⟨S630000, .i32⟩
  | 2 => ⟨S630000, .i32⟩
  | 3 => ⟨S630000, .i32⟩
  | 4 => ⟨S630000x1, .i32⟩
  | 5 => ⟨S630000x128, .f32⟩
  | 6 => ⟨S630000x1, .f32⟩
  | 7 => ⟨S630000x128, .f32⟩
  | 8 => ⟨S630000x128, .f32⟩
  | 9 => ⟨S_, .f32⟩
  | 10 => ⟨S30000x128, .f32⟩
  | 11 => ⟨S630000x1, .i32⟩
  | 12 => ⟨S30000x128, .f32⟩
  | 13 => ⟨S1x128, .f32⟩
  | 14 => ⟨S30000x128, .f32⟩
  | 15 => ⟨S30000x128, .f32⟩
  | 16 => ⟨S_, .f32⟩
  | 17 => ⟨S30000x128, .f32⟩
  | 18 => ⟨S30000x128, .i1⟩
  | 19 => ⟨S_, .f32⟩
  | 20 => ⟨S30000x128, .f32⟩
  | 21 => ⟨S30000x128, .f32⟩
  | 22 => ⟨S30000x128, .f32⟩
  | 23 => ⟨S30000x128, .f32⟩
  | 24 => ⟨S_, .f32⟩
  | 25 => ⟨S30000x128, .f32⟩
  | 26 => ⟨S30000x128, .f32⟩
  | 27 => ⟨S30000x128, .f32⟩
  | 28 => ⟨S20000x128, .f32⟩
  | 29 => ⟨S15000x128, .f32⟩
  | 30 => ⟨S5000x128, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_v23 : Ref sig .tc := ⟨.hbm, 48, rfl⟩
abbrev main_cst_5 : Ref sig .tc := ⟨.hbm, 49, rfl⟩
abbrev main_v24 : Ref sig .tc := ⟨.hbm, 50, rfl⟩
abbrev main_v25 : Ref sig .tc := ⟨.hbm, 51, rfl⟩
abbrev main_cst_6 : Ref sig .tc := ⟨.hbm, 52, rfl⟩
abbrev main_call1_v0 : Ref sig .tc := ⟨.hbm, 53, rfl⟩
abbrev main_call1_v1 : Ref sig .tc := ⟨.hbm, 54, rfl⟩
abbrev main_v26 : Ref sig .tc := ⟨.hbm, 55, rfl⟩
abbrev main_c : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_8 : Ref sig .tc := ⟨.hbm, 66, rfl⟩
abbrev main_v35 : Ref sig .tc := ⟨.hbm, 67, rfl⟩
abbrev main_v36 : Ref sig .tc := ⟨.hbm, 68, rfl⟩
abbrev main_c_9 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_10 : Ref sig .tc := ⟨.hbm, 76, rfl⟩
abbrev main_v43 : Ref sig .tc := ⟨.hbm, 77, rfl⟩
abbrev main_v44 : Ref sig .tc := ⟨.hbm, 78, rfl⟩
abbrev main_c_11 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_12 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_cst_0 : Ref sig .tc := ⟨.hbm, 98, rfl⟩
abbrev main_call2_v2 : Ref sig .tc := ⟨.hbm, 99, rfl⟩
abbrev main_call2_v3 : Ref sig .tc := ⟨.hbm, 100, rfl⟩
abbrev main_v59 : Ref sig .tc := ⟨.hbm, 101, rfl⟩
abbrev main_v60 : Ref sig .tc := ⟨.hbm, 102, rfl⟩
abbrev main_cst_13 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_14 : Ref sig .tc := ⟨.hbm, 115, rfl⟩
abbrev main_v72 : Ref sig .tc := ⟨.hbm, 116, rfl⟩
abbrev main_v73 : Ref sig .tc := ⟨.hbm, 117, rfl⟩
abbrev main_cst_15 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_16 : Ref sig .tc := ⟨.hbm, 122, rfl⟩
abbrev main_v77 : Ref sig .tc := ⟨.hbm, 123, rfl⟩
abbrev main_v78 : Ref sig .tc := ⟨.hbm, 124, rfl⟩
abbrev main_cst_17 : Ref sig .tc := ⟨.hbm, 125, rfl⟩
abbrev main_v79 : Ref sig .tc := ⟨.hbm, 126, rfl⟩
abbrev main_v80 : Ref sig .tc := ⟨.hbm, 127, rfl⟩
abbrev main_cst_18 : Ref sig .tc := ⟨.hbm, 128, rfl⟩
abbrev main_call3_v0 : Ref sig .tc := ⟨.hbm, 129, rfl⟩
abbrev main_call3_v1 : Ref sig .tc := ⟨.hbm, 130, rfl⟩
abbrev main_v81 : Ref sig .tc := ⟨.hbm, 131, rfl⟩
abbrev main_cst_19 : Ref sig .tc := ⟨.hbm, 132, rfl⟩
abbrev main_v82 : Ref sig .tc := ⟨.hbm, 133, rfl⟩
abbrev main_v83 : Ref sig .tc := ⟨.hbm, 134, rfl⟩
abbrev main_cst_20 : Ref sig .tc := ⟨.hbm, 135, rfl⟩
abbrev main_call4_v0 : Ref sig .tc := ⟨.hbm, 136, rfl⟩
abbrev main_call4_v1 : Ref sig .tc := ⟨.hbm, 137, rfl⟩
abbrev main_v84 : Ref sig .tc := ⟨.hbm, 138, rfl⟩
abbrev main_c_21 : Ref sig .tc := ⟨.hbm, 139, rfl⟩
abbrev main_v85 : Ref sig .tc := ⟨.hbm, 140, rfl⟩
abbrev main_v86 : Ref sig .tc := ⟨.hbm, 141, rfl⟩
abbrev main_c_22 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_23 : Ref sig .tc := ⟨.hbm, 149, rfl⟩
abbrev main_v93 : Ref sig .tc := ⟨.hbm, 150, rfl⟩
abbrev main_v94 : Ref sig .tc := ⟨.hbm, 151, rfl⟩
abbrev main_c_24 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_c_25 : Ref sig .tc := ⟨.hbm, 159, rfl⟩
abbrev main_v101 : Ref sig .tc := ⟨.hbm, 160, rfl⟩
abbrev main_v102 : Ref sig .tc := ⟨.hbm, 161, rfl⟩
abbrev main_c_26 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_cst_27 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_call5_cst : Ref sig .tc := ⟨.hbm, 178, rfl⟩
abbrev main_call5_v0 : Ref sig .tc := ⟨.hbm, 179, rfl⟩
abbrev main_call5_v1 : Ref sig .tc := ⟨.hbm, 180, rfl⟩
abbrev main_call5_cst_0 : Ref sig .tc := ⟨.hbm, 181, rfl⟩
abbrev main_call5_v2 : Ref sig .tc := ⟨.hbm, 182, rfl⟩
abbrev main_call5_v3 : Ref sig .tc := ⟨.hbm, 183, rfl⟩
abbrev main_v117 : Ref sig .tc := ⟨.hbm, 184, rfl⟩
abbrev main_v118 : Ref sig .tc := ⟨.hbm, 185, rfl⟩
abbrev main_cst_28 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_cst_29 : Ref sig .tc := ⟨.hbm, 196, rfl⟩
abbrev main_v128 : Ref sig .tc := ⟨.hbm, 197, rfl⟩
abbrev main_v129 : Ref sig .tc := ⟨.hbm, 198, rfl⟩
abbrev main_cst_30 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_cst_31 : Ref sig .tc := ⟨.hbm, 209, rfl⟩
abbrev main_v139 : Ref sig .tc := ⟨.hbm, 210, rfl⟩
abbrev main_v140 : Ref sig .tc := ⟨.hbm, 211, rfl⟩
abbrev main_cst_32 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_cst_33 : Ref sig .tc := ⟨.hbm, 225, rfl⟩
abbrev main_v153 : Ref sig .tc := ⟨.hbm, 226, rfl⟩
abbrev main_cst_34 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_cst_35 : Ref sig .tc := ⟨.hbm, 231, rfl⟩
abbrev main_v157 : Ref sig .tc := ⟨.hbm, 232, rfl⟩
abbrev main_v158 : Ref sig .tc := ⟨.hbm, 233, rfl⟩
abbrev main_cst_36 : Ref sig .tc := ⟨.hbm, 234, rfl⟩
abbrev main_v159 : Ref sig .tc := ⟨.hbm, 235, rfl⟩
abbrev main_v160 : Ref sig .tc := ⟨.hbm, 236, rfl⟩
abbrev main_cst_37 : Ref sig .tc := ⟨.hbm, 237, rfl⟩
abbrev main_call6_v0 : Ref sig .tc := ⟨.hbm, 238, rfl⟩
abbrev main_call6_v1 : Ref sig .tc := ⟨.hbm, 239, rfl⟩
abbrev main_v161 : Ref sig .tc := ⟨.hbm, 240, rfl⟩
abbrev main_cst_38 : Ref sig .tc := ⟨.hbm, 241, rfl⟩
abbrev main_v162 : Ref sig .tc := ⟨.hbm, 242, rfl⟩
abbrev main_v163 : Ref sig .tc := ⟨.hbm, 243, rfl⟩
abbrev main_cst_39 : Ref sig .tc := ⟨.hbm, 244, rfl⟩
abbrev main_call7_v0 : Ref sig .tc := ⟨.hbm, 245, rfl⟩
abbrev main_call7_v1 : Ref sig .tc := ⟨.hbm, 246, rfl⟩
abbrev main_v164 : Ref sig .tc := ⟨.hbm, 247, rfl⟩
abbrev main_cst_40 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_cst_41 : Ref sig .tc := ⟨.hbm, 252, rfl⟩
abbrev main_v168 : Ref sig .tc := ⟨.hbm, 253, rfl⟩
abbrev main_v169 : Ref sig .tc := ⟨.hbm, 254, rfl⟩
abbrev main_cst_42 : Ref sig .tc := ⟨.hbm, 255, rfl⟩
abbrev main_v170 : Ref sig .tc := ⟨.hbm, 256, rfl⟩
abbrev main_v171 : Ref sig .tc := ⟨.hbm, 257, rfl⟩
abbrev main_cst_43 : Ref sig .tc := ⟨.hbm, 258, rfl⟩
abbrev main_call8_v0 : Ref sig .tc := ⟨.hbm, 259, rfl⟩
abbrev main_call8_v1 : Ref sig .tc := ⟨.hbm, 260, rfl⟩
abbrev main_v172 : Ref sig .tc := ⟨.hbm, 261, rfl⟩
abbrev main_cst_44 : Ref sig .tc := ⟨.hbm, 262, rfl⟩
abbrev main_v173 : Ref sig .tc := ⟨.hbm, 263, rfl⟩
abbrev main_v174 : Ref sig .tc := ⟨.hbm, 264, rfl⟩
abbrev main_cst_45 : Ref sig .tc := ⟨.hbm, 265, rfl⟩
abbrev main_call9_v0 : Ref sig .tc := ⟨.hbm, 266, rfl⟩
abbrev main_call9_v1 : Ref sig .tc := ⟨.hbm, 267, rfl⟩
abbrev main_v175 : Ref sig .tc := ⟨.hbm, 268, rfl⟩
abbrev main_c_46 : Ref sig .tc := ⟨.hbm, 269, rfl⟩
abbrev main_v176 : Ref sig .tc := ⟨.hbm, 270, rfl⟩
abbrev main_v177 : Ref sig .tc := ⟨.hbm, 271, rfl⟩
abbrev main_c_47 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_cst_48 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_c_49 : Ref sig .tc := ⟨.hbm, 285, rfl⟩
abbrev main_v189 : Ref sig .tc := ⟨.hbm, 286, rfl⟩
abbrev main_v190 : Ref sig .tc := ⟨.hbm, 287, rfl⟩
abbrev main_c_50 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_cst_51 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_call10_cst : Ref sig .tc := ⟨.hbm, 304, rfl⟩
abbrev main_call10_v0 : Ref sig .tc := ⟨.hbm, 305, rfl⟩
abbrev main_call10_v1 : Ref sig .tc := ⟨.hbm, 306, rfl⟩
abbrev main_call10_cst_0 : Ref sig .tc := ⟨.hbm, 307, rfl⟩
abbrev main_call10_v2 : Ref sig .tc := ⟨.hbm, 308, rfl⟩
abbrev main_call10_v3 : Ref sig .tc := ⟨.hbm, 309, rfl⟩
abbrev main_v205 : Ref sig .tc := ⟨.hbm, 310, rfl⟩
abbrev main_v206 : Ref sig .tc := ⟨.hbm, 311, rfl⟩
abbrev main_cst_52 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_cst_53 : Ref sig .tc := ⟨.hbm, 321, rfl⟩
abbrev main_v215 : Ref sig .tc := ⟨.hbm, 322, rfl⟩
abbrev main_cst_54 : Ref sig .tc := ⟨.hbm, 323, rfl⟩
abbrev main_v216 : Ref sig .tc := ⟨.hbm, 324, rfl⟩
abbrev main_v217 : Ref sig .tc := ⟨.hbm, 325, rfl⟩
abbrev main_v218 : Ref sig .tc := ⟨.hbm, 326, rfl⟩
abbrev main_cst_55 : Ref sig .tc := ⟨.hbm, 327, rfl⟩
abbrev main_v219 : Ref sig .tc := ⟨.hbm, 328, rfl⟩
abbrev main_v220 : Ref sig .tc := ⟨.hbm, 329, rfl⟩
abbrev main_cst_56 : Ref sig .tc := ⟨.hbm, 330, rfl⟩
abbrev main_v221 : Ref sig .tc := ⟨.hbm, 331, rfl⟩
abbrev main_v222 : Ref sig .tc := ⟨.hbm, 332, rfl⟩
abbrev main_cst_57 : Ref sig .tc := ⟨.hbm, 333, rfl⟩
abbrev main_call11_v0 : Ref sig .tc := ⟨.hbm, 334, rfl⟩
abbrev main_call11_v1 : Ref sig .tc := ⟨.hbm, 335, rfl⟩
abbrev main_v223 : Ref sig .tc := ⟨.hbm, 336, rfl⟩
abbrev main_cst_58 : Ref sig .tc := ⟨.hbm, 337, rfl⟩
abbrev main_v224 : Ref sig .tc := ⟨.hbm, 338, rfl⟩
abbrev main_v225 : Ref sig .tc := ⟨.hbm, 339, rfl⟩
abbrev main_cst_59 : Ref sig .tc := ⟨.hbm, 340, rfl⟩
abbrev main_call12_v0 : Ref sig .tc := ⟨.hbm, 341, rfl⟩
abbrev main_call12_v1 : Ref sig .tc := ⟨.hbm, 342, rfl⟩
abbrev main_v226 : Ref sig .tc := ⟨.hbm, 343, rfl⟩
abbrev main_cst_60 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_cst_61 : Ref sig .tc := ⟨.hbm, 348, rfl⟩
abbrev main_v230 : Ref sig .tc := ⟨.hbm, 349, rfl⟩
abbrev main_v231 : Ref sig .tc := ⟨.hbm, 350, rfl⟩
abbrev main_cst_62 : Ref sig .tc := ⟨.hbm, 351, rfl⟩
abbrev main_v232 : Ref sig .tc := ⟨.hbm, 352, rfl⟩
abbrev main_v233 : Ref sig .tc := ⟨.hbm, 353, rfl⟩
abbrev main_cst_63 : Ref sig .tc := ⟨.hbm, 354, rfl⟩
abbrev main_call13_v0 : Ref sig .tc := ⟨.hbm, 355, rfl⟩
abbrev main_call13_v1 : Ref sig .tc := ⟨.hbm, 356, rfl⟩
abbrev main_v234 : Ref sig .tc := ⟨.hbm, 357, rfl⟩
abbrev main_cst_64 : Ref sig .tc := ⟨.hbm, 358, rfl⟩
abbrev main_v235 : Ref sig .tc := ⟨.hbm, 359, rfl⟩
abbrev main_v236 : Ref sig .tc := ⟨.hbm, 360, rfl⟩
abbrev main_cst_65 : Ref sig .tc := ⟨.hbm, 361, rfl⟩
abbrev main_call14_v0 : Ref sig .tc := ⟨.hbm, 362, rfl⟩
abbrev main_call14_v1 : Ref sig .tc := ⟨.hbm, 363, rfl⟩
abbrev main_v237 : Ref sig .tc := ⟨.hbm, 364, rfl⟩
abbrev main_c_66 : Ref sig .tc := ⟨.hbm, 365, rfl⟩
abbrev main_v238 : Ref sig .tc := ⟨.hbm, 366, rfl⟩
abbrev main_v239 : Ref sig .tc := ⟨.hbm, 367, rfl⟩
abbrev main_c_67 : Ref sig .tc := ⟨.hbm, 368, rfl⟩
abbrev main_v240 : Ref sig .tc := ⟨.hbm, 369, rfl⟩
abbrev main_v241 : Ref sig .tc := ⟨.hbm, 370, rfl⟩
abbrev main_v242 : Ref sig .tc := ⟨.hbm, 371, rfl⟩
abbrev main_v243 : Ref sig .tc := ⟨.hbm, 372, rfl⟩
abbrev main_v244 : Ref sig .tc := ⟨.hbm, 373, rfl⟩
abbrev main_cst_68 : Ref sig .tc := ⟨.hbm, 374, rfl⟩
abbrev main_v245 : Ref sig .tc := ⟨.hbm, 375, rfl⟩
abbrev main_v246 : Ref sig .tc := ⟨.hbm, 376, rfl⟩
abbrev main_v247 : Ref sig .tc := ⟨.hbm, 377, rfl⟩
abbrev main_v248 : Ref sig .tc := ⟨.hbm, 378, rfl⟩
abbrev main_v249 : Ref sig .tc := ⟨.hbm, 379, rfl⟩
abbrev main_v250 : Ref sig .tc := ⟨.hbm, 380, rfl⟩
abbrev main_c_69 : Ref sig .tc := ⟨.hbm, 381, rfl⟩
abbrev main_v251 : Ref sig .tc := ⟨.hbm, 382, rfl⟩
abbrev main_v252 : Ref sig .tc := ⟨.hbm, 383, rfl⟩
abbrev main_c_70 : Ref sig .tc := ⟨.hbm, 384, rfl⟩
abbrev main_v253 : Ref sig .tc := ⟨.hbm, 385, rfl⟩
abbrev main_v254 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_cst_71 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩
abbrev main_v265 : Ref sig .tc := ⟨.hbm, 398, rfl⟩
abbrev main_v266 : Ref sig .tc := ⟨.hbm, 399, rfl⟩
abbrev main_call15_cst : Ref sig .tc := ⟨.hbm, 400, rfl⟩
abbrev main_call15_v0 : Ref sig .tc := ⟨.hbm, 401, rfl⟩
abbrev main_call15_v1 : Ref sig .tc := ⟨.hbm, 402, rfl⟩
abbrev main_call15_cst_0 : Ref sig .tc := ⟨.hbm, 403, rfl⟩
abbrev main_call15_v2 : Ref sig .tc := ⟨.hbm, 404, rfl⟩
abbrev main_call15_v3 : Ref sig .tc := ⟨.hbm, 405, rfl⟩
abbrev main_v267 : Ref sig .tc := ⟨.hbm, 406, rfl⟩
abbrev main_v268 : Ref sig .tc := ⟨.hbm, 407, rfl⟩
abbrev main_cst_72 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_v273 : Ref sig .tc := ⟨.hbm, 413, rfl⟩
abbrev main_v274 : Ref sig .tc := ⟨.hbm, 414, rfl⟩
abbrev main_v275 : Ref sig .tc := ⟨.hbm, 415, rfl⟩
abbrev main_cst_73 : Ref sig .tc := ⟨.hbm, 416, rfl⟩
abbrev main_v276 : Ref sig .tc := ⟨.hbm, 417, rfl⟩
abbrev main_cst_74 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_c_75 : Ref sig .tc := ⟨.hbm, 422, rfl⟩
abbrev main_v280 : Ref sig .tc := ⟨.hbm, 423, rfl⟩
abbrev main_v281 : Ref sig .tc := ⟨.hbm, 424, rfl⟩
abbrev main_c_76 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_v286 : Ref sig .tc := ⟨.hbm, 430, rfl⟩
abbrev main_cst_77 : Ref sig .tc := ⟨.hbm, 431, rfl⟩
abbrev main_v287 : Ref sig .tc := ⟨.hbm, 432, rfl⟩
abbrev main_v288 : Ref sig .tc := ⟨.hbm, 433, rfl⟩
abbrev main_v289 : Ref sig .tc := ⟨.hbm, 434, rfl⟩
abbrev main_cst_78 : Ref sig .tc := ⟨.hbm, 435, rfl⟩
abbrev main_v290 : Ref sig .tc := ⟨.hbm, 436, rfl⟩
abbrev main_v291 : Ref sig .tc := ⟨.hbm, 437, rfl⟩
abbrev main_cst_79 : Ref sig .tc := ⟨.hbm, 438, rfl⟩
abbrev main_v292 : Ref sig .tc := ⟨.hbm, 439, rfl⟩
abbrev main_v293 : Ref sig .tc := ⟨.hbm, 440, rfl⟩
abbrev main_cst_80 : Ref sig .tc := ⟨.hbm, 441, rfl⟩
abbrev main_call16_v0 : Ref sig .tc := ⟨.hbm, 442, rfl⟩
abbrev main_call16_v1 : Ref sig .tc := ⟨.hbm, 443, rfl⟩
abbrev main_v294 : Ref sig .tc := ⟨.hbm, 444, rfl⟩
abbrev main_cst_81 : Ref sig .tc := ⟨.hbm, 445, rfl⟩
abbrev main_v295 : Ref sig .tc := ⟨.hbm, 446, rfl⟩
abbrev main_v296 : Ref sig .tc := ⟨.hbm, 447, rfl⟩
abbrev main_cst_82 : Ref sig .tc := ⟨.hbm, 448, rfl⟩
abbrev main_call17_v0 : Ref sig .tc := ⟨.hbm, 449, rfl⟩
abbrev main_call17_v1 : Ref sig .tc := ⟨.hbm, 450, rfl⟩
abbrev main_v297 : Ref sig .tc := ⟨.hbm, 451, rfl⟩
abbrev main_v298 : Ref sig .tc := ⟨.hbm, 452, rfl⟩
abbrev main_v299 : Ref sig .tc := ⟨.hbm, 453, rfl⟩
abbrev main_v300 : Ref sig .tc := ⟨.hbm, 454, rfl⟩
abbrev main_v301 : Ref sig .tc := ⟨.hbm, 455, rfl⟩
abbrev main_v302 : Ref sig .tc := ⟨.hbm, 456, rfl⟩
abbrev main_v303 : Ref sig .tc := ⟨.hbm, 457, rfl⟩
abbrev main_v304 : Ref sig .tc := ⟨.hbm, 458, rfl⟩
abbrev main_cst_83 : Ref sig .tc := ⟨.hbm, 459, rfl⟩
abbrev main_v305 : Ref sig .tc := ⟨.hbm, 460, rfl⟩
abbrev main_cst_84 : Ref sig .tc := ⟨.hbm, 461, rfl⟩
abbrev main_v306 : Ref sig .tc := ⟨.hbm, 462, rfl⟩
abbrev main_v307 : Ref sig .tc := ⟨.hbm, 463, rfl⟩
abbrev main_v308 : Ref sig .tc := ⟨.hbm, 464, rfl⟩
abbrev main_c_85 : Ref sig .tc := ⟨.hbm, 465, rfl⟩
abbrev main_v309 : Ref sig .tc := ⟨.hbm, 466, rfl⟩
abbrev main_v310 : Ref sig .tc := ⟨.hbm, 467, rfl⟩
abbrev main_c_86 : Ref sig .tc := ⟨.hbm, 468, rfl⟩
abbrev main_v311 : Ref sig .tc := ⟨.hbm, 469, rfl⟩
abbrev main_v312 : Ref sig .tc := ⟨.hbm, 470, rfl⟩
abbrev main_v313 : Ref sig .tc := ⟨.hbm, 471, rfl⟩
abbrev main_v314 : Ref sig .tc := ⟨.hbm, 472, rfl⟩
abbrev main_v315 : Ref sig .tc := ⟨.hbm, 473, rfl⟩
abbrev main_cst_87 : Ref sig .tc := ⟨.hbm, 474, rfl⟩
abbrev main_v316 : Ref sig .tc := ⟨.hbm, 475, rfl⟩
abbrev main_v317 : Ref sig .tc := ⟨.hbm, 476, rfl⟩
abbrev main_v318 : Ref sig .tc := ⟨.hbm, 477, rfl⟩
abbrev main_cst_88 : Ref sig .tc := ⟨.hbm, 478, rfl⟩
abbrev main_v319 : Ref sig .tc := ⟨.hbm, 479, rfl⟩
abbrev main_v320 : Ref sig .tc := ⟨.hbm, 480, rfl⟩
abbrev main_cst_89 : Ref sig .tc := ⟨.hbm, 481, rfl⟩
abbrev main_v321 : Ref sig .tc := ⟨.hbm, 482, rfl⟩
abbrev main_v322 : Ref sig .tc := ⟨.hbm, 483, rfl⟩
abbrev main_cst_90 : Ref sig .tc := ⟨.hbm, 484, rfl⟩
abbrev main_call18_v0 : Ref sig .tc := ⟨.hbm, 485, rfl⟩
abbrev main_call18_v1 : Ref sig .tc := ⟨.hbm, 486, rfl⟩
abbrev main_v323 : Ref sig .tc := ⟨.hbm, 487, rfl⟩
abbrev main_cst_91 : Ref sig .tc := ⟨.hbm, 488, rfl⟩
abbrev main_v324 : Ref sig .tc := ⟨.hbm, 489, rfl⟩
abbrev main_v325 : Ref sig .tc := ⟨.hbm, 490, rfl⟩
abbrev main_cst_92 : Ref sig .tc := ⟨.hbm, 491, rfl⟩
abbrev main_call19_v0 : Ref sig .tc := ⟨.hbm, 492, rfl⟩
abbrev main_call19_v1 : Ref sig .tc := ⟨.hbm, 493, rfl⟩
abbrev main_v326 : Ref sig .tc := ⟨.hbm, 494, rfl⟩
abbrev main_v327 : Ref sig .tc := ⟨.hbm, 495, rfl⟩
abbrev main_v328 : Ref sig .tc := ⟨.hbm, 496, rfl⟩
abbrev main_v329 : Ref sig .tc := ⟨.hbm, 497, rfl⟩
abbrev main_v330 : Ref sig .tc := ⟨.hbm, 498, rfl⟩
abbrev main_v331 : Ref sig .tc := ⟨.hbm, 499, rfl⟩
abbrev main_v332 : Ref sig .tc := ⟨.hbm, 500, rfl⟩
abbrev main_v333 : Ref sig .tc := ⟨.hbm, 501, rfl⟩
abbrev main_v334 : Ref sig .tc := ⟨.hbm, 502, rfl⟩
abbrev main_v335 : Ref sig .tc := ⟨.hbm, 503, rfl⟩
abbrev main_v336 : Ref sig .tc := ⟨.hbm, 504, rfl⟩
abbrev main_v337 : Ref sig .tc := ⟨.hbm, 505, rfl⟩
abbrev main_v338 : Ref sig .tc := ⟨.hbm, 506, rfl⟩
abbrev main_v339 : Ref sig .tc := ⟨.hbm, 507, rfl⟩
abbrev main_v340 : Ref sig .tc := ⟨.hbm, 508, rfl⟩
abbrev main_v341 : Ref sig .tc := ⟨.hbm, 509, rfl⟩
abbrev main_cst_93 : Ref sig .tc := ⟨.hbm, 510, rfl⟩
abbrev main_v342 : Ref sig .tc := ⟨.hbm, 511, rfl⟩
abbrev main_v343 : Ref sig .tc := ⟨.hbm, 512, rfl⟩
abbrev main_cst_94 : Ref sig .tc := ⟨.hbm, 513, rfl⟩
abbrev main_v344 : Ref sig .tc := ⟨.hbm, 514, rfl⟩
abbrev main_v345 : Ref sig .tc := ⟨.hbm, 515, rfl⟩
abbrev main_v346 : Ref sig .tc := ⟨.hbm, 516, rfl⟩
abbrev main_cst_95 : Ref sig .tc := ⟨.hbm, 517, rfl⟩
abbrev main_v347 : Ref sig .tc := ⟨.hbm, 518, rfl⟩
abbrev main_v348 : Ref sig .tc := ⟨.hbm, 519, rfl⟩
abbrev main_cst_96 : Ref sig .tc := ⟨.hbm, 520, rfl⟩
abbrev main_v349 : Ref sig .tc := ⟨.hbm, 521, rfl⟩
abbrev main_v350 : Ref sig .tc := ⟨.hbm, 522, rfl⟩
abbrev main_cst_97 : Ref sig .tc := ⟨.hbm, 523, rfl⟩
abbrev main_call20_v0 : Ref sig .tc := ⟨.hbm, 524, rfl⟩
abbrev main_call20_v1 : Ref sig .tc := ⟨.hbm, 525, rfl⟩
abbrev main_v351 : Ref sig .tc := ⟨.hbm, 526, rfl⟩
abbrev main_cst_98 : Ref sig .tc := ⟨.hbm, 527, rfl⟩
abbrev main_v352 : Ref sig .tc := ⟨.hbm, 528, rfl⟩
abbrev main_v353 : Ref sig .tc := ⟨.hbm, 529, rfl⟩
abbrev main_cst_99 : Ref sig .tc := ⟨.hbm, 530, rfl⟩
abbrev main_call21_v0 : Ref sig .tc := ⟨.hbm, 531, rfl⟩
abbrev main_call21_v1 : Ref sig .tc := ⟨.hbm, 532, rfl⟩
abbrev main_v354 : Ref sig .tc := ⟨.hbm, 533, rfl⟩
abbrev main_c_100 : Ref sig .tc := ⟨.hbm, 534, rfl⟩
abbrev main_v355 : Ref sig .tc := ⟨.hbm, 535, rfl⟩
abbrev main_v356 : Ref sig .tc := ⟨.hbm, 536, rfl⟩
abbrev main_c_101 : Ref sig .tc := ⟨.hbm, 537, rfl⟩
abbrev main_v357 : Ref sig .tc := ⟨.hbm, 538, rfl⟩
abbrev main_v358 : Ref sig .tc := ⟨.hbm, 539, rfl⟩
abbrev main_v359 : Ref sig .tc := ⟨.hbm, 540, rfl⟩
abbrev main_v360 : Ref sig .tc := ⟨.hbm, 541, rfl⟩
abbrev main_v361 : Ref sig .tc := ⟨.hbm, 542, rfl⟩
abbrev main_v362 : Ref sig .tc := ⟨.hbm, 543, rfl⟩
abbrev main_c_102 : Ref sig .tc := ⟨.hbm, 544, rfl⟩
abbrev main_v363 : Ref sig .tc := ⟨.hbm, 545, rfl⟩
abbrev main_v364 : Ref sig .tc := ⟨.hbm, 546, rfl⟩
abbrev main_c_103 : Ref sig .tc := ⟨.hbm, 547, rfl⟩
abbrev main_v365 : Ref sig .tc := ⟨.hbm, 548, rfl⟩
abbrev main_v366 : Ref sig .tc := ⟨.hbm, 549, rfl⟩
abbrev main_v367 : Ref sig .tc := ⟨.hbm, 550, rfl⟩
abbrev main_v368 : Ref sig .tc := ⟨.hbm, 551, rfl⟩
abbrev main_v369 : Ref sig .tc := ⟨.hbm, 552, rfl⟩
abbrev main_v370 : Ref sig .tc := ⟨.hbm, 553, rfl⟩
abbrev main_c_104 : Ref sig .tc := ⟨.hbm, 554, rfl⟩
abbrev main_v371 : Ref sig .tc := ⟨.hbm, 555, rfl⟩
abbrev main_v372 : Ref sig .tc := ⟨.hbm, 556, rfl⟩
abbrev main_c_105 : Ref sig .tc := ⟨.hbm, 557, rfl⟩
abbrev main_v373 : Ref sig .tc := ⟨.hbm, 558, rfl⟩
abbrev main_v374 : Ref sig .tc := ⟨.hbm, 559, rfl⟩
abbrev main_v375 : Ref sig .tc := ⟨.hbm, 560, rfl⟩
abbrev main_v376 : Ref sig .tc := ⟨.hbm, 561, rfl⟩
abbrev main_v377 : Ref sig .tc := ⟨.hbm, 562, rfl⟩
abbrev main_v378 : Ref sig .tc := ⟨.hbm, 563, rfl⟩
abbrev main_v379 : Ref sig .tc := ⟨.hbm, 564, rfl⟩
abbrev main_v380 : Ref sig .tc := ⟨.hbm, 565, rfl⟩
abbrev main_cst_106 : Ref sig .tc := ⟨.hbm, 566, rfl⟩
abbrev main_v381 : Ref sig .tc := ⟨.hbm, 567, rfl⟩
abbrev main_v382 : Ref sig .tc := ⟨.hbm, 568, rfl⟩
abbrev main_v383 : Ref sig .tc := ⟨.hbm, 569, rfl⟩
abbrev main_v384 : Ref sig .tc := ⟨.hbm, 570, rfl⟩
abbrev main_v385 : Ref sig .tc := ⟨.hbm, 571, rfl⟩
abbrev main_v386 : Ref sig .tc := ⟨.hbm, 572, rfl⟩
abbrev main_call22_cst : Ref sig .tc := ⟨.hbm, 573, rfl⟩
abbrev main_call22_v0 : Ref sig .tc := ⟨.hbm, 574, rfl⟩
abbrev main_call22_v1 : Ref sig .tc := ⟨.hbm, 575, rfl⟩
abbrev main_call22_cst_0 : Ref sig .tc := ⟨.hbm, 576, rfl⟩
abbrev main_call22_v2 : Ref sig .tc := ⟨.hbm, 577, rfl⟩
abbrev main_call22_v3 : Ref sig .tc := ⟨.hbm, 578, rfl⟩
abbrev main_v387 : Ref sig .tc := ⟨.hbm, 579, rfl⟩
abbrev main_v388 : Ref sig .tc := ⟨.hbm, 580, rfl⟩
abbrev main_cst_107 : Ref sig .tc := ⟨.hbm, 581, rfl⟩
abbrev main_v389 : Ref sig .tc := ⟨.hbm, 582, rfl⟩
abbrev main_v390 : Ref sig .tc := ⟨.hbm, 583, rfl⟩
abbrev main_v391 : Ref sig .tc := ⟨.hbm, 584, rfl⟩
abbrev main_v392 : Ref sig .tc := ⟨.hbm, 585, rfl⟩
abbrev main_v393 : Ref sig .tc := ⟨.hbm, 586, rfl⟩
abbrev main_v394 : Ref sig .tc := ⟨.hbm, 587, rfl⟩
abbrev main_v395 : Ref sig .tc := ⟨.hbm, 588, rfl⟩
abbrev main_v396 : Ref sig .tc := ⟨.hbm, 589, rfl⟩
abbrev main_v397 : Ref sig .tc := ⟨.hbm, 590, rfl⟩
abbrev main_v398 : Ref sig .tc := ⟨.hbm, 591, rfl⟩
abbrev main_v399 : Ref sig .tc := ⟨.hbm, 592, rfl⟩
abbrev main_cst_108 : Ref sig .tc := ⟨.hbm, 593, rfl⟩
abbrev main_v400 : Ref sig .tc := ⟨.hbm, 594, rfl⟩
abbrev main_v401 : Ref sig .tc := ⟨.hbm, 595, rfl⟩
abbrev main_cst_109 : Ref sig .tc := ⟨.hbm, 596, rfl⟩
abbrev main_v402 : Ref sig .tc := ⟨.hbm, 597, rfl⟩
abbrev main_v403 : Ref sig .tc := ⟨.hbm, 598, rfl⟩
abbrev main_v404 : Ref sig .tc := ⟨.hbm, 599, rfl⟩
abbrev main_cst_110 : Ref sig .tc := ⟨.hbm, 600, rfl⟩
abbrev main_v405 : Ref sig .tc := ⟨.hbm, 601, rfl⟩
abbrev main_v406 : Ref sig .tc := ⟨.hbm, 602, rfl⟩
abbrev main_cst_111 : Ref sig .tc := ⟨.hbm, 603, rfl⟩
abbrev main_v407 : Ref sig .tc := ⟨.hbm, 604, rfl⟩
abbrev main_v408 : Ref sig .tc := ⟨.hbm, 605, rfl⟩
abbrev main_cst_112 : Ref sig .tc := ⟨.hbm, 606, rfl⟩
abbrev main_call23_v0 : Ref sig .tc := ⟨.hbm, 607, rfl⟩
abbrev main_call23_v1 : Ref sig .tc := ⟨.hbm, 608, rfl⟩
abbrev main_v409 : Ref sig .tc := ⟨.hbm, 609, rfl⟩
abbrev main_cst_113 : Ref sig .tc := ⟨.hbm, 610, rfl⟩
abbrev main_v410 : Ref sig .tc := ⟨.hbm, 611, rfl⟩
abbrev main_v411 : Ref sig .tc := ⟨.hbm, 612, rfl⟩
abbrev main_cst_114 : Ref sig .tc := ⟨.hbm, 613, rfl⟩
abbrev main_call24_v0 : Ref sig .tc := ⟨.hbm, 614, rfl⟩
abbrev main_call24_v1 : Ref sig .tc := ⟨.hbm, 615, rfl⟩
abbrev main_v412 : Ref sig .tc := ⟨.hbm, 616, rfl⟩
abbrev main_c_115 : Ref sig .tc := ⟨.hbm, 617, rfl⟩
abbrev main_v413 : Ref sig .tc := ⟨.hbm, 618, rfl⟩
abbrev main_v414 : Ref sig .tc := ⟨.hbm, 619, rfl⟩
abbrev main_c_116 : Ref sig .tc := ⟨.hbm, 620, rfl⟩
abbrev main_v415 : Ref sig .tc := ⟨.hbm, 621, rfl⟩
abbrev main_v416 : Ref sig .tc := ⟨.hbm, 622, rfl⟩
abbrev main_v417 : Ref sig .tc := ⟨.hbm, 623, rfl⟩
abbrev main_v418 : Ref sig .tc := ⟨.hbm, 624, rfl⟩
abbrev main_v419 : Ref sig .tc := ⟨.hbm, 625, rfl⟩
abbrev main_v420 : Ref sig .tc := ⟨.hbm, 626, rfl⟩
abbrev main_c_117 : Ref sig .tc := ⟨.hbm, 627, rfl⟩
abbrev main_v421 : Ref sig .tc := ⟨.hbm, 628, rfl⟩
abbrev main_v422 : Ref sig .tc := ⟨.hbm, 629, rfl⟩
abbrev main_c_118 : Ref sig .tc := ⟨.hbm, 630, rfl⟩
abbrev main_v423 : Ref sig .tc := ⟨.hbm, 631, rfl⟩
abbrev main_v424 : Ref sig .tc := ⟨.hbm, 632, rfl⟩
abbrev main_v425 : Ref sig .tc := ⟨.hbm, 633, rfl⟩
abbrev main_v426 : Ref sig .tc := ⟨.hbm, 634, rfl⟩
abbrev main_v427 : Ref sig .tc := ⟨.hbm, 635, rfl⟩
abbrev main_v428 : Ref sig .tc := ⟨.hbm, 636, rfl⟩
abbrev main_c_119 : Ref sig .tc := ⟨.hbm, 637, rfl⟩
abbrev main_v429 : Ref sig .tc := ⟨.hbm, 638, rfl⟩
abbrev main_v430 : Ref sig .tc := ⟨.hbm, 639, rfl⟩
abbrev main_c_120 : Ref sig .tc := ⟨.hbm, 640, rfl⟩
abbrev main_v431 : Ref sig .tc := ⟨.hbm, 641, rfl⟩
abbrev main_v432 : Ref sig .tc := ⟨.hbm, 642, rfl⟩
abbrev main_v433 : Ref sig .tc := ⟨.hbm, 643, rfl⟩
abbrev main_v434 : Ref sig .tc := ⟨.hbm, 644, rfl⟩
abbrev main_v435 : Ref sig .tc := ⟨.hbm, 645, rfl⟩
abbrev main_v436 : Ref sig .tc := ⟨.hbm, 646, rfl⟩
abbrev main_v437 : Ref sig .tc := ⟨.hbm, 647, rfl⟩
abbrev main_v438 : Ref sig .tc := ⟨.hbm, 648, rfl⟩
abbrev main_cst_121 : Ref sig .tc := ⟨.hbm, 649, rfl⟩
abbrev main_v439 : Ref sig .tc := ⟨.hbm, 650, rfl⟩
abbrev main_v440 : Ref sig .tc := ⟨.hbm, 651, rfl⟩
abbrev main_v441 : Ref sig .tc := ⟨.hbm, 652, rfl⟩
abbrev main_v442 : Ref sig .tc := ⟨.hbm, 653, rfl⟩
abbrev main_v443 : Ref sig .tc := ⟨.hbm, 654, rfl⟩
abbrev main_v444 : Ref sig .tc := ⟨.hbm, 655, rfl⟩
abbrev main_call25_cst : Ref sig .tc := ⟨.hbm, 656, rfl⟩
abbrev main_call25_v0 : Ref sig .tc := ⟨.hbm, 657, rfl⟩
abbrev main_call25_v1 : Ref sig .tc := ⟨.hbm, 658, rfl⟩
abbrev main_call25_cst_0 : Ref sig .tc := ⟨.hbm, 659, rfl⟩
abbrev main_call25_v2 : Ref sig .tc := ⟨.hbm, 660, rfl⟩
abbrev main_call25_v3 : Ref sig .tc := ⟨.hbm, 661, rfl⟩
abbrev main_v445 : Ref sig .tc := ⟨.hbm, 662, rfl⟩
abbrev main_v446 : Ref sig .tc := ⟨.hbm, 663, rfl⟩
abbrev main_cst_122 : Ref sig .tc := ⟨.hbm, 664, rfl⟩
abbrev main_v447 : Ref sig .tc := ⟨.hbm, 665, rfl⟩
abbrev main_v448 : Ref sig .tc := ⟨.hbm, 666, rfl⟩
abbrev main_v449 : Ref sig .tc := ⟨.hbm, 667, rfl⟩
abbrev main_v450 : Ref sig .tc := ⟨.hbm, 668, rfl⟩
abbrev main_v451 : Ref sig .tc := ⟨.hbm, 669, rfl⟩
abbrev main_v452 : Ref sig .tc := ⟨.hbm, 670, rfl⟩

abbrev nD : Nat := 1
abbrev τ : Topo := Topo.v7x

variable {F : FTy → Type} [FloatOps F]

class Facts₀ : Prop where
  concatenates_S20000x128_S15000x128_S5000x128_S40000x128_d0 : Shape.Concatenates [S20000x128, S15000x128, S5000x128] S40000x128 0
  bcast_S_S100000 : S_.BroadcastsInDim S100000 (![] : Fin 0 → Fin S100000.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  concatenates_S100000_S5000_S105000_d0 : Shape.Concatenates [S100000, S5000] S105000 0
  bcast_S_S5000 : S_.BroadcastsInDim S5000 (![] : Fin 0 → Fin S5000.rank)
  bcast_S105000_S105000x1_0 : S105000.BroadcastsInDim S105000x1 (![0] : Fin 1 → Fin S105000x1.rank)
  bcast_S_S105000 : S_.BroadcastsInDim S105000 (![] : Fin 0 → Fin S105000.rank)
  bcast_S105000x1_S105000x128_0_1 : S105000x1.BroadcastsInDim S105000x128 (![0, 1] : Fin 2 → Fin S105000x128.rank)
  bcast_S_S5000x128 : S_.BroadcastsInDim S5000x128 (![] : Fin 0 → Fin S5000x128.rank)
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  slices_S2x128x128_S1x128x128_1_0_0 : S2x128x128.Slices ![1, 0, 0] S1x128x128
  slices_S2x128_S1x128_1_0 : S2x128.Slices ![1, 0] S1x128
  bcast_S1x128_S40000x128_0_1 : S1x128.BroadcastsInDim S40000x128 (![0, 1] : Fin 2 → Fin S40000x128.rank)
  bcast_S_S40000x128 : S_.BroadcastsInDim S40000x128 (![] : Fin 0 → Fin S40000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S40000 : S_.BroadcastsInDim S40000 (![] : Fin 0 → Fin S40000.rank)
  bcast_S600000_S600000x1_0 : S600000.BroadcastsInDim S600000x1 (![0] : Fin 1 → Fin S600000x1.rank)
  bcast_S_S30000 : S_.BroadcastsInDim S30000 (![] : Fin 0 → Fin S30000.rank)
  bcast_S_S30000x128 : S_.BroadcastsInDim S30000x128 (![] : Fin 0 → Fin S30000x128.rank)
  bcast_S30000_S30000x1_0 : S30000.BroadcastsInDim S30000x1 (![0] : Fin 1 → Fin S30000x1.rank)
  bcast_S30000x1_S30000x128_0_1 : S30000x1.BroadcastsInDim S30000x128 (![0, 1] : Fin 2 → Fin S30000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  concatenates_S600000_S30000_S630000_d0 : Shape.Concatenates [S600000, S30000] S630000 0
  bcast_S630000_S630000x1_0 : S630000.BroadcastsInDim S630000x1 (![0] : Fin 1 → Fin S630000x1.rank)
  bcast_S_S630000 : S_.BroadcastsInDim S630000 (![] : Fin 0 → Fin S630000.rank)
  bcast_S630000x1_S630000x128_0_1 : S630000x1.BroadcastsInDim S630000x128 (![0, 1] : Fin 2 → Fin S630000x128.rank)
  bcast_S1x128_S30000x128_0_1 : S1x128.BroadcastsInDim S30000x128 (![0, 1] : Fin 2 → Fin S30000x128.rank)
  slices_S40000x128_S20000x128_0_0 : S40000x128.Slices ![0, 0] S20000x128
  slices_S40000x128_S15000x128_20000_0 : S40000x128.Slices ![20000, 0] S15000x128
  slices_S40000x128_S5000x128_35000_0 : S40000x128.Slices ![35000, 0] S5000x128
  dot_S5000x128_S128x128_S5000x128_1_0_0_1_n_n_wf : DotDims.WF S5000x128 S128x128 S5000x128 [1] [0] [0] [1] [] []
  scatter_S5000_S105000x1_S105000_n_0_0_1_wf : ScatterDims.WF S5000 S105000x1 S105000 [] [0] [0] 1
  gather_S5000_S105000x1_S105000_n_0_n_n_0_1_1_wf : GatherDims.WF S5000 S105000x1 S105000 [] [0] [] [0] [] 1 ![1]
  gather_S5000x128_S105000x1_S105000x128_1_0_n_n_0_1_1128_wf : GatherDims.WF S5000x128 S105000x1 S105000x128 [1] [0] [] [0] [] 1 ![1, 128]
  scatter_S5000x128_S105000x1_S105000x128_1_0_0_1_wf : ScatterDims.WF S5000x128 S105000x1 S105000x128 [1] [0] [0] 1
  dot_S40000x128_S128x128_S40000x128_1_0_0_1_n_n_wf : DotDims.WF S40000x128 S128x128 S40000x128 [1] [0] [0] [1] [] []
  scatter_S40000_S600000x1_S600000_n_0_0_1_wf : ScatterDims.WF S40000 S600000x1 S600000 [] [0] [0] 1
  scatter_S30000_S600000x1_S600000_n_0_0_1_wf : ScatterDims.WF S30000 S600000x1 S600000 [] [0] [0] 1
  gather_S40000x128_S600000x1_S600000x128_1_0_n_n_0_1_1128_wf : GatherDims.WF S40000x128 S600000x1 S600000x128 [1] [0] [] [0] [] 1 ![1, 128]
  scatter_S30000x128_S600000x1_S600000x128_1_0_0_1_wf : ScatterDims.WF S30000x128 S600000x1 S600000x128 [1] [0] [0] 1
  gather_S30000x128_S600000x1_S600000x128_1_0_n_n_0_1_1128_wf : GatherDims.WF S30000x128 S600000x1 S600000x128 [1] [0] [] [0] [] 1 ![1, 128]
  scatter_S40000x128_S600000x1_S600000x128_1_0_0_1_wf : ScatterDims.WF S40000x128 S600000x1 S600000x128 [1] [0] [0] 1
  dot_S30000x128_S128x128_S30000x128_1_0_0_1_n_n_wf : DotDims.WF S30000x128 S128x128 S30000x128 [1] [0] [0] [1] [] []
  scatter_S30000_S630000x1_S630000_n_0_0_1_wf : ScatterDims.WF S30000 S630000x1 S630000 [] [0] [0] 1
  gather_S30000_S630000x1_S630000_n_0_n_n_0_1_1_wf : GatherDims.WF S30000 S630000x1 S630000 [] [0] [] [0] [] 1 ![1]
  gather_S30000x128_S630000x1_S630000x128_1_0_n_n_0_1_1128_wf : GatherDims.WF S30000x128 S630000x1 S630000x128 [1] [0] [] [0] [] 1 ![1, 128]
  scatter_S30000x128_S630000x1_S630000x128_1_0_0_1_wf : ScatterDims.WF S30000x128 S630000x1 S630000x128 [1] [0] [0] 1

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S5000_S105000x1_S105000_n_0_0_1 : ScatterDims S5000 S105000x1 S105000 where
  updateWindowDims := []
  insertedWindowDims := [0]
  scatterDimsToOperandDims := [0]
  indexVectorDim := 1
  wf := scatter_S5000_S105000x1_S105000_n_0_0_1_wf
def gather_S5000_S105000x1_S105000_n_0_n_n_0_1_1 : GatherDims S5000 S105000x1 S105000 where
  offsetDims := []
  collapsedSliceDims := [0]
  operandBatchingDims := []
  startIndicesBatchingDims := []
  startIndexMap := [0]
  indexVectorDim := 1
  sliceSizes := ![1]
  wf := gather_S5000_S105000x1_S105000_n_0_n_n_0_1_1_wf
def gather_S5000x128_S105000x1_S105000x128_1_0_n_n_0_1_1128 : GatherDims S5000x128 S105000x1 S105000x128 where
  offsetDims := [1]
  collapsedSliceDims := [0]
  operandBatchingDims := []
  startIndicesBatchingDims := []
  startIndexMap := [0]
  indexVectorDim := 1
  sliceSizes := ![1, 128]
  wf := gather_S5000x128_S105000x1_S105000x128_1_0_n_n_0_1_1128_wf
def scatter_S5000x128_S105000x1_S105000x128_1_0_0_1 : ScatterDims S5000x128 S105000x1 S105000x128 where
  updateWindowDims := [1]
  insertedWindowDims := [0]
  scatterDimsToOperandDims := [0]
  indexVectorDim := 1
  wf := scatter_S5000x128_S105000x1_S105000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000_S600000x1_S600000_n_0_0_1 : ScatterDims S40000 S600000x1 S600000 where
  updateWindowDims := []
  insertedWindowDims := [0]
  scatterDimsToOperandDims := [0]
  indexVectorDim := 1
  wf := scatter_S40000_S600000x1_S600000_n_0_0_1_wf
def scatter_S30000_S600000x1_S600000_n_0_0_1 : ScatterDims S30000 S600000x1 S600000 where
  updateWindowDims := []
  insertedWindowDims := [0]
  scatterDimsToOperandDims := [0]
  indexVectorDim := 1
  wf := scatter_S30000_S600000x1_S600000_n_0_0_1_wf
def gather_S40000x128_S600000x1_S600000x128_1_0_n_n_0_1_1128 : GatherDims S40000x128 S600000x1 S600000x128 where
  offsetDims := [1]
  collapsedSliceDims := [0]
  operandBatchingDims := []
  startIndicesBatchingDims := []
  startIndexMap := [0]
  indexVectorDim := 1
  sliceSizes := ![1, 128]
  wf := gather_S40000x128_S600000x1_S600000x128_1_0_n_n_0_1_1128_wf
def scatter_S30000x128_S600000x1_S600000x128_1_0_0_1 : ScatterDims S30000x128 S600000x1 S600000x128 where
  updateWindowDims := [1]
  insertedWindowDims := [0]
  scatterDimsToOperandDims := [0]
  indexVectorDim := 1
  wf := scatter_S30000x128_S600000x1_S600000x128_1_0_0_1_wf
def gather_S30000x128_S600000x1_S600000x128_1_0_n_n_0_1_1128 : GatherDims S30000x128 S600000x1 S600000x128 where
  offsetDims := [1]
  collapsedSliceDims := [0]
  operandBatchingDims := []
  startIndicesBatchingDims := []
  startIndexMap := [0]
  indexVectorDim := 1
  sliceSizes := ![1, 128]
  wf := gather_S30000x128_S600000x1_S600000x128_1_0_n_n_0_1_1128_wf
def scatter_S40000x128_S600000x1_S600000x128_1_0_0_1 : ScatterDims S40000x128 S600000x1 S600000x128 where
  updateWindowDims := [1]
  insertedWindowDims := [0]
  scatterDimsToOperandDims := [0]
  indexVectorDim := 1
  wf := scatter_S40000x128_S600000x1_S600000x128_1_0_0_1_wf
def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def scatter_S30000_S630000x1_S630000_n_0_0_1 : ScatterDims S30000 S630000x1 S630000 where
  updateWindowDims := []
  insertedWindowDims := [0]
  scatterDimsToOperandDims := [0]
  indexVectorDim := 1
  wf := scatter_S30000_S630000x1_S630000_n_0_0_1_wf
def gather_S30000_S630000x1_S630000_n_0_n_n_0_1_1 : GatherDims S30000 S630000x1 S630000 where
  offsetDims := []
  collapsedSliceDims := [0]
  operandBatchingDims := []
  startIndicesBatchingDims := []
  startIndexMap := [0]
  indexVectorDim := 1
  sliceSizes := ![1]
  wf := gather_S30000_S630000x1_S630000_n_0_n_n_0_1_1_wf
def gather_S30000x128_S630000x1_S630000x128_1_0_n_n_0_1_1128 : GatherDims S30000x128 S630000x1 S630000x128 where
  offsetDims := [1]
  collapsedSliceDims := [0]
  operandBatchingDims := []
  startIndicesBatchingDims := []
  startIndexMap := [0]
  indexVectorDim := 1
  sliceSizes := ![1, 128]
  wf := gather_S30000x128_S630000x1_S630000x128_1_0_n_n_0_1_1128_wf
def scatter_S30000x128_S630000x1_S630000x128_1_0_0_1 : ScatterDims S30000x128 S630000x1 S630000x128 where
  updateWindowDims := [1]
  insertedWindowDims := [0]
  scatterDimsToOperandDims := [0]
  indexVectorDim := 1
  wf := scatter_S30000x128_S630000x1_S630000x128_1_0_0_1_wf

class Facts : Prop extends Facts₀ where

variable [Facts]
-- ==== Proof.KMatBody.lean ====
import proofs.«131905_j73031623901536_2_alg».proof.Proof.Gen.Kernel.Launch
import proofs.«131905_j73031623901536_2_alg».proof.Proof.Gen.Kernel.Skeleton
import proofs.«131905_j73031623901536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev matRectL : Rect S1000x128 := Rect.unit (s := S1000x128) ![0, 0] S1000x128.size inb_S1000x128_S1000x128_0_0
abbrev matRectW : Rect S128x128 := Rect.unit (s := S128x128) ![0, 0] S128x128.size inb_S128x128_S128x128_0_0

/-- The program of the six product regions, over the arithmetic `pay` of its one store. -/
def matProg (pay : Vec F S1000x128 .f32 → Vec F S128x128 .f32 → FVec F S1000x128 .f32)
    (arg1 : Memref sig .tc .vmem S1000x128 .f32) (arg2 : Memref sig .tc .vmem S128x128 .f32) (arg3 : Memref sig .tc .vmem S1000x128 .f32) :
    Prog (TpuEff nD τ sig (Elt F) Λ₀ .tc) PUnit := do
  let v0 : Vec F S1000x128 .f32 ← Prog.lift (.load arg1 (Rect.unit (s := S1000x128) ![0, 0] S1000x128.size inb_S1000x128_S1000x128_0_0).toLoadRect (View.loadsAt_vmem h_S1000x128))
  let v2 : Vec F S128x128 .f32 ← Prog.lift (.load arg2 (Rect.unit (s := S128x128) ![0, 0] S128x128.size inb_S128x128_S128x128_0_0).toLoadRect (View.loadsAt_vmem h_S128x128))
  let v6 : Vec F S1000x128 .f32 ← Prog.lift (.load arg3 (Rect.unit (s := S1000x128) ![0, 0] S1000x128.size inb_S1000x128_S1000x128_0_0).toLoadRect (View.loadsAt_vmem h_S1000x128))
  Prog.lift (.store arg3 (Rect.unit (s := S1000x128) ![0, 0] S1000x128.size inb_S1000x128_S1000x128_0_0) (pay v0 v2) Finset.univ (View.stores_vmem_bits_univ h_S1000x128 rfl) (.inl rfl))
  pure ⟨⟩

def matOut (pay : Vec F S1000x128 .f32 → Vec F S128x128 .f32 → FVec F S1000x128 .f32) (x0 : Vec F S1000x128 .f32) (x1 : Vec F S128x128 .f32) :
    Vec F S1000x128 .f32 :=
  View.canon [⟨matRectL, pay (View.ld x0 matRectL) (View.ld x1 matRectW)⟩]

set_option maxHeartbeats 1000000 in
/-- The store's rectangle is the whole shape, so what is read back after it is the value stored. -/
theorem matProg_sound (pay : Vec F S1000x128 .f32 → Vec F S128x128 .f32 → FVec F S1000x128 .f32) (c : Dev nD) (E : Set ℕ)
    (arg1 : Memref sig .tc .vmem S1000x128 .f32) (harg1 : arg1.IsWhole) (arg2 : Memref sig .tc .vmem S128x128 .f32) (harg2 : arg2.IsWhole)
    (arg3 : Memref sig .tc .vmem S1000x128 .f32) (harg3 : arg3.IsWhole) (x0 : Vec F S1000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (matOut pay x0 x1)) -∗ K ⟨⟩))
      ⊢ wp frame (wpE (defs₀ (F := F)) Variants.none c none) E (matProg pay arg1 arg2 arg3) K := by
  unfold matProg owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1000x128.size (by rfl))

/-- The same triple under a frame `Φ ∗ O`, with the contents given up to equations. -/
theorem matProg_obligation (pay : Vec F S1000x128 .f32 → Vec F S128x128 .f32 → FVec F S1000x128 .f32) (c : Dev nD)
    {a1 : Memref sig .tc .vmem S1000x128 .f32} (h1 : a1.IsWhole) {a2 : Memref sig .tc .vmem S128x128 .f32} (h2 : a2.IsWhole)
    {a3 : Memref sig .tc .vmem S1000x128 .f32} (h3 : a3.IsWhole) {D0 D1 D2 : Type}
    {b0 : D0 → Vec F S1000x128 .f32} {b1 : D1 → Vec F S128x128 .f32} {b2 : D2 → Vec F S1000x128 .f32}
    {x0 y0 : Vec F S1000x128 .f32} {x1 y1 : Vec F S128x128 .f32} {y2 : Vec F S1000x128 .f32}
    (hb0 : ∀ d, b0 d = x0) (hb1 : ∀ d, b1 d = x1) (e0 : y0 = x0) (e1 : y1 = x1) (e2 : y2 = matOut pay x0 x1) {Φ O : sProp 𝕄} :
    iprop(Φ ∗ O ∗ (∃ d, owns (c : Thread nD τ) a1 fullShare (b0 d)) ∗ (∃ d, owns (c : Thread nD τ) a2 fullShare (b1 d))
        ∗ (∃ d, owns (c : Thread nD τ) a3 fullShare (b2 d)))
      ⊢ wp frame (wpE (defs₀ (F := F)) Variants.none c none) Set.univ (matProg pay a1 a2 a3) fun _ =>
        iprop(Φ ∗ O ∗ owns (c : Thread nD τ) a1 fullShare y0 ∗ owns (c : Thread nD τ) a2 fullShare y1 ∗ owns (c : Thread nD τ) a3 fullShare y2) := by
  subst e0 e1 e2
  simp only [hb0, hb1]
  iintro ⟨HΦ, Ho, ⟨%d0, H0⟩, ⟨%d1, H1⟩, ⟨%d2, H2⟩⟩
  iapply (matProg_sound pay c Set.univ a1 h1 a2 h2 a3 h3 _ _ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.KRegion0.lean ====
import proofs.«131905_j73031623901536_2_alg».proof.Proof.KMatBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1000x128 := Rect.unit (s := S1000x128) ![0, 0] S1000x128.size inb_S1000x128_S1000x128_0_0
abbrev r0_1 : Rect S128x128 := Rect.unit (s := S128x128) ![0, 0] S128x128.size inb_S128x128_S128x128_0_0

def out0_2 (x0 : Vec F S1000x128 .f32) (x1 : Vec F S128x128 .f32) : Vec F S1000x128 .f32 :=
  View.canon [⟨r0_0, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The body leaves an input as it finds it, so at every point it reads the array's block there. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  rw [cc0__matmul_kernel_eq_skeleton]
  exact matProg_obligation k0_pay1 c (hstage0_0 _) (hstage0_1 _) (hstage0_2 _) (before0_0 V c t) (before0_1 V c t)
    (after0_0 V c t) (after0_1 V c t) (after0_2 V c t)

end Cert.Kernel.Hand

end
-- ==== Proof.KRegionComb.lean ====
import proofs.«131905_j73031623901536_2_alg».proof.Proof.Gen.Kernel.Launch
import proofs.«131905_j73031623901536_2_alg».proof.Proof.Gen.Kernel.Skeleton
import proofs.«131905_j73031623901536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev combR0 : Rect S1000x128 := Rect.unit (s := S1000x128) ![0, 0] S1000x128.size inb_S1000x128_S1000x128_0_0
abbrev combR1 : Rect S1x128 := Rect.unit (s := S1x128) ![0, 0] S1x128.size inb_S1x128_S1x128_0_0

def combSkel (p1 : Vec F S1000x128 .f32 → Vec F S1x128 .f32 → Vec F S1000x128 .f32 → FVec F S1000x128 .f32)
    (p2 : Vec F S1000x128 .f32 → Vec F S1x128 .f32 → Vec F S1000x128 .f32 → Vec F S1000x128 .f32 → FVec F S1000x128 .f32)
    (arg1 : Memref sig .tc .vmem S1000x128 .f32) (arg2 : Memref sig .tc .vmem S1x128 .f32) (arg3 arg4 arg5 arg6 : Memref sig .tc .vmem S1000x128 .f32) :
    Prog (TpuEff nD τ sig (Elt F) Λ₀ .tc) PUnit := do
  let v0 : Vec F S1000x128 .f32 ← Prog.lift (.load arg1 combR0.toLoadRect (View.loadsAt_vmem h_S1000x128))
  let v2 : Vec F S1x128 .f32 ← Prog.lift (.load arg2 combR1.toLoadRect (View.loadsAt_vmem h_S1x128))
  let v11 : Vec F S1000x128 .f32 ← Prog.lift (.load arg3 combR0.toLoadRect (View.loadsAt_vmem h_S1000x128))
  let v13 : Vec F S1000x128 .f32 ← Prog.lift (.load arg5 combR0.toLoadRect (View.loadsAt_vmem h_S1000x128))
  Prog.lift (.store arg5 combR0 (p1 v0 v2 v11) Finset.univ (View.stores_vmem_bits_univ h_S1000x128 rfl) (.inl rfl))
  let v14 : Vec F S1000x128 .f32 ← Prog.lift (.load arg4 combR0.toLoadRect (View.loadsAt_vmem h_S1000x128))
  let v18 : Vec F S1000x128 .f32 ← Prog.lift (.load arg6 combR0.toLoadRect (View.loadsAt_vmem h_S1000x128))
  Prog.lift (.store arg6 combR0 (p2 v0 v2 v11 v14) Finset.univ (View.stores_vmem_bits_univ h_S1000x128 rfl) (.inl rfl))
  pure ⟨⟩

theorem combCover (p0 : Vec F S1000x128 .f32) (y : S1000x128.Idx) :
    ∃ pc ∈ ([⟨combR0, p0⟩] : List (View.Piece (Elt F) S1000x128 .f32)), y ∈ pc.1.set :=
  View.cover_of_tiled [⟨combR0, p0⟩] S1000x128.size (by rfl) y

set_option maxHeartbeats 1000000 in
/-- A single piece over every index fixes the contents read back, whatever was there before. -/
theorem comb_body (p1 : Vec F S1000x128 .f32 → Vec F S1x128 .f32 → Vec F S1000x128 .f32 → FVec F S1000x128 .f32)
    (p2 : Vec F S1000x128 .f32 → Vec F S1x128 .f32 → Vec F S1000x128 .f32 → Vec F S1000x128 .f32 → FVec F S1000x128 .f32)
    (c : Dev nD) (arg1 : Memref sig .tc .vmem S1000x128 .f32) (arg2 : Memref sig .tc .vmem S1x128 .f32) (arg3 arg4 arg5 arg6 : Memref sig .tc .vmem S1000x128 .f32)
    {T0 T1 T2 T3 T4 T5 : Type} (B0 : T0 → Vec F S1000x128 .f32) (B1 : T1 → Vec F S1x128 .f32) (B2 : T2 → Vec F S1000x128 .f32) (B3 : T3 → Vec F S1000x128 .f32)
    (B4 : T4 → Vec F S1000x128 .f32) (B5 : T5 → Vec F S1000x128 .f32)
    (x0 : Vec F S1000x128 .f32) (x1 : Vec F S1x128 .f32) (x2 x3 : Vec F S1000x128 .f32) (a0 : Vec F S1000x128 .f32) (a1 : Vec F S1x128 .f32) (a2 a3 a4 a5 : Vec F S1000x128 .f32)
    (e0 : ∀ d, B0 d = x0) (e1 : ∀ d, B1 d = x1) (e2 : ∀ d, B2 d = x2) (e3 : ∀ d, B3 d = x3)
    (f0 : a0 = x0) (f1 : a1 = x1) (f2 : a2 = x2) (f3 : a3 = x3)
    (f4 : a4 = View.canon [⟨combR0, p1 (View.ld x0 combR0) (View.ld x1 combR1) (View.ld x2 combR0)⟩])
    (f5 : a5 = View.canon [⟨combR0, p2 (View.ld x0 combR0) (View.ld x1 combR1) (View.ld x2 combR0) (View.ld x3 combR0)⟩])
    (R O : sProp 𝕄) :
    iprop(R ∗ O ∗ (∃ d, owns (c : Thread nD τ) arg1 fullShare (B0 d)) ∗ (∃ d, owns (c : Thread nD τ) arg2 fullShare (B1 d))
        ∗ (∃ d, owns (c : Thread nD τ) arg3 fullShare (B2 d)) ∗ (∃ d, owns (c : Thread nD τ) arg4 fullShare (B3 d))
        ∗ (∃ d, owns (c : Thread nD τ) arg5 fullShare (B4 d)) ∗ (∃ d, owns (c : Thread nD τ) arg6 fullShare (B5 d)))
      ⊢ wp frame (wpE (defs₀ (F := F)) Variants.none c none) Set.univ (combSkel p1 p2 arg1 arg2 arg3 arg4 arg5 arg6) fun _ =>
        iprop(R ∗ O ∗ owns (c : Thread nD τ) arg1 fullShare a0 ∗ owns (c : Thread nD τ) arg2 fullShare a1 ∗ owns (c : Thread nD τ) arg3 fullShare a2
          ∗ owns (c : Thread nD τ) arg4 fullShare a3 ∗ owns (c : Thread nD τ) arg5 fullShare a4 ∗ owns (c : Thread nD τ) arg6 fullShare a5) := by
  subst f0 f1 f2 f3 f4 f5
  simp only [e0, e1, e2, e3]
  unfold combSkel owns
  iintro ⟨HR, HO, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  subst hf0 hf1 hf2 hf3
  sl_exec
  sl_step
  isplitl [HR]; · iexact HR
  isplitl [HO]; · iexact HO
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (combCover _)
  iexists _; isplitr
  swap; · iexact H5
  ipureintro
  exact View.read_writes_eq_canon _ _ _ (combCover _)

end Cert.Kernel.Hand

end
-- ==== Proof.KRegion1.lean ====
import proofs.«131905_j73031623901536_2_alg».proof.Proof.KRegionComb

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_4 (x0 : Vec F S1000x128 .f32) (x1 : Vec F S1x128 .f32) (x2 : Vec F S1000x128 .f32) : Vec F S1000x128 .f32 :=
  View.canon [⟨combR0, k1_pay1 (View.ld x0 combR0) (View.ld x1 combR1) (View.ld x2 combR0)⟩]
def out1_5 (x0 : Vec F S1000x128 .f32) (x1 : Vec F S1x128 .f32) (x2 : Vec F S1000x128 .f32) (x3 : Vec F S1000x128 .f32) : Vec F S1000x128 .f32 :=
  View.canon [⟨combR0, k1_pay2 (View.ld x0 combR0) (View.ld x1 combR1) (View.ld x2 combR0) (View.ld x3 combR0)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q w := match w with | ⟨2, _⟩ => PosShare.left fullShare | ⟨3, _⟩ => PosShare.right fullShare | _ => fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem body_obligation1 (c : Dev nD) : BodyObligation (dat1 (F := F) V c) (defs₀ (F := F)) Variants.none () Set.univ := fun t => by
  rw [bigSep_W1, bigSep_W1]
  show _ ⊢ wp frame _ _ (bodyAt1 t) _
  unfold bodyAt1
  rw [cc1__combine_kernel_eq_skeleton]
  refine comb_body k1_pay1 k1_pay2 c _ _ _ _ _ _ _ _ _ _ _ _ (iblk1 V c 0 t) (iblk1 V c 1 t) (iblk1 V c 2 t) (iblk1 V c 3 t) _ _ _ _ _ _
    ?_ ?_ ?_ ?_ ?_ ?_ ?_ ?_ (after1_4 V c t) (after1_5 V c t) _ _
  iterate 4 exact fun d => (Dat.before_in_eq_fetched _ _ rfl (fun _ => rfl) (fun _ _ _ => rfl) (fun _ => by dsimp only [dat1]; rfl) t d).trans rfl
  all_goals dsimp only [dat1]

end Cert.Kernel.Hand

end
-- ==== Proof.KRegion2.lean ====
import proofs.«131905_j73031623901536_2_alg».proof.Proof.KMatBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1000x128 := Rect.unit (s := S1000x128) ![0, 0] S1000x128.size inb_S1000x128_S1000x128_0_0
abbrev r2_1 : Rect S128x128 := Rect.unit (s := S128x128) ![0, 0] S128x128.size inb_S128x128_S128x128_0_0

def out2_2 (x0 : Vec F S1000x128 .f32) (x1 : Vec F S128x128 .f32) : Vec F S1000x128 .f32 :=
  View.canon [⟨r2_0, k2_pay1 (View.ld x0 r2_0) (View.ld x1 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- The body leaves an input as it finds it, so at every point it reads the array's block there. -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  rw [cc2__matmul_kernel_eq_skeleton]
  exact matProg_obligation k2_pay1 c (hstage2_0 _) (hstage2_1 _) (hstage2_2 _) (before2_0 V c t) (before2_1 V c t)
    (after2_0 V c t) (after2_1 V c t) (after2_2 V c t)

end Cert.Kernel.Hand

end
-- ==== Proof.KRegion3.lean ====
import proofs.«131905_j73031623901536_2_alg».proof.Proof.KRegionComb

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_4 (x0 : Vec F S1000x128 .f32) (x1 : Vec F S1x128 .f32) (x2 : Vec F S1000x128 .f32) : Vec F S1000x128 .f32 :=
  View.canon [⟨combR0, k3_pay1 (View.ld x0 combR0) (View.ld x1 combR1) (View.ld x2 combR0)⟩]
def out3_5 (x0 : Vec F S1000x128 .f32) (x1 : Vec F S1x128 .f32) (x2 : Vec F S1000x128 .f32) (x3 : Vec F S1000x128 .f32) : Vec F S1000x128 .f32 :=
  View.canon [⟨combR0, k3_pay2 (View.ld x0 combR0) (View.ld x1 combR1) (View.ld x2 combR0) (View.ld x3 combR0)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = out3_4 (iblk3 V c 0 t) (iblk3 V c 1 t) (iblk3 V c 2 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem body_obligation3 (c : Dev nD) : BodyObligation (dat3 (F := F) V c) (defs₀ (F := F)) Variants.none () Set.univ := fun t => by
  rw [bigSep_W3, bigSep_W3]
  show _ ⊢ wp frame _ _ (bodyAt3 t) _
  unfold bodyAt3
  rw [cc3__combine_kernel_eq_skeleton]
  refine comb_body k3_pay1 k3_pay2 c _ _ _ _ _ _ _ _ _ _ _ _ (iblk3 V c 0 t) (iblk3 V c 1 t) (iblk3 V c 2 t) (iblk3 V c 3 t) _ _ _ _ _ _
    ?_ ?_ ?_ ?_ ?_ ?_ ?_ ?_ (after3_4 V c t) (after3_5 V c t) _ _
  iterate 4 exact fun d => (Dat.before_in_eq_fetched _ _ rfl (fun _ => rfl) (fun _ _ _ => rfl) (fun _ => by dsimp only [dat3]; rfl) t d).trans rfl
  all_goals dsimp only [dat3]

end Cert.Kernel.Hand

end
-- ==== Proof.KRegion4.lean ====
import proofs.«131905_j73031623901536_2_alg».proof.Proof.Gen.Kernel.Launch
import proofs.«131905_j73031623901536_2_alg».proof.Proof.Gen.Kernel.Skeleton
import proofs.«131905_j73031623901536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1000x128 := Rect.unit (s := S1000x128) ![0, 0] S1000x128.size inb_S1000x128_S1000x128_0_0
abbrev r4_1 : Rect S128x256 := Rect.unit (s := S128x256) ![0, 0] S128x256.size inb_S128x256_S128x256_0_0
abbrev r4_2 : Rect S1x256 := Rect.unit (s := S1x256) ![0, 0] S1x256.size inb_S1x256_S1x256_0_0

def out4_3 (x0 : Vec F S1000x128 .f32) (x1 : Vec F S128x256 .f32) (x2 : Vec F S1x256 .f32) : Vec F S1000x128 .f32 :=
  View.canon [⟨r4_0, k4_pay3 (View.ld x0 r4_0) (View.ld x1 r4_1) (View.ld x2 r4_2)⟩]
def out4_4 (x0 : Vec F S1000x128 .f32) (x1 : Vec F S128x256 .f32) (x2 : Vec F S1x256 .f32) : Vec F S1000x128 .f32 :=
  View.canon [⟨r4_0, k4_pay4 (View.ld x0 r4_0) (View.ld x1 r4_1) (View.ld x2 r4_2)⟩]

theorem cover4 (p0 : Vec F S1000x128 .f32) (y : S1000x128.Idx) :
    ∃ pc ∈ ([⟨r4_0, p0⟩] : List (View.Piece (Elt F) S1000x128 .f32)), y ∈ pc.1.set :=
  View.cover_of_tiled [⟨r4_0, p0⟩] S1000x128.size (by rfl) y

set_option maxHeartbeats 1000000 in
/-- A single piece over every index fixes the contents read back, whatever was there before. -/
theorem gate_body (c : Dev nD) (i : grid4.Coords) (arg1 : Memref sig .tc .vmem S1000x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S1000x128 .f32) (harg4 : arg4.IsWhole) (arg5 : Memref sig .tc .vmem S1000x128 .f32) (harg5 : arg5.IsWhole)
    {T0 T1 T2 T3 T4 : Type} (B0 : T0 → Vec F S1000x128 .f32) (B1 : T1 → Vec F S128x256 .f32) (B2 : T2 → Vec F S1x256 .f32) (B3 : T3 → Vec F S1000x128 .f32) (B4 : T4 → Vec F S1000x128 .f32)
    (x0 : Vec F S1000x128 .f32) (x1 : Vec F S128x256 .f32) (x2 : Vec F S1x256 .f32) (a0 : Vec F S1000x128 .f32) (a1 : Vec F S128x256 .f32) (a2 : Vec F S1x256 .f32) (a3 a4 : Vec F S1000x128 .f32)
    (e0 : ∀ d, B0 d = x0) (e1 : ∀ d, B1 d = x1) (e2 : ∀ d, B2 d = x2) (f0 : a0 = x0) (f1 : a1 = x1) (f2 : a2 = x2)
    (f3 : a3 = out4_3 x0 x1 x2) (f4 : a4 = out4_4 x0 x1 x2) (R O : sProp 𝕄) :
    iprop(R ∗ O ∗ (∃ d, owns (c : Thread nD τ) arg1 fullShare (B0 d)) ∗ (∃ d, owns (c : Thread nD τ) arg2 fullShare (B1 d)) ∗ (∃ d, owns (c : Thread nD τ) arg3 fullShare (B2 d))
        ∗ (∃ d, owns (c : Thread nD τ) arg4 fullShare (B3 d)) ∗ (∃ d, owns (c : Thread nD τ) arg5 fullShare (B4 d)))
      ⊢ wp frame (wpE (defs₀ (F := F)) Variants.none c none) Set.univ (cc4__gate2_kernel i arg1 harg1 arg2 harg2 arg3 harg3 arg4 harg4 arg5 harg5) fun _ =>
        iprop(R ∗ O ∗ owns (c : Thread nD τ) arg1 fullShare a0 ∗ owns (c : Thread nD τ) arg2 fullShare a1 ∗ owns (c : Thread nD τ) arg3 fullShare a2
          ∗ owns (c : Thread nD τ) arg4 fullShare a3 ∗ owns (c : Thread nD τ) arg5 fullShare a4) := by
  subst f0 f1 f2 f3 f4
  simp only [e0, e1, e2, cc4__gate2_kernel_eq_skeleton]
  unfold cc4__gate2_kernel_skel out4_3 out4_4 owns
  iintro ⟨HR, HO, ⟨%d0, %f0, %hf0, H0⟩, ⟨%d1, %f1, %hf1, H1⟩, ⟨%d2, %f2, %hf2, H2⟩, ⟨%d3, %f3, -, H3⟩, ⟨%d4, %f4, -, H4⟩⟩
  subst hf0 hf1 hf2
  sl_exec
  sl_step
  isplitl [HR]; · iexact HR
  isplitl [HO]; · iexact HO
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4 _)
  iexists _; isplitr
  swap; · iexact H4
  ipureintro
  exact View.read_writes_eq_canon _ _ _ (cover4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]

theorem body_obligation4 (c : Dev nD) : BodyObligation (dat4 (F := F) V c) (defs₀ (F := F)) Variants.none () Set.univ := fun t => by
  rw [bigSep_W4, bigSep_W4]
  show _ ⊢ wp frame _ _ (bodyAt4 t) _
  refine gate_body c _ _ _ _ _ _ _ _ _ _ _ _ _ _ _ _ (iblk4 V c 0 t) (iblk4 V c 1 t) (iblk4 V c 2 t) _ _ _ _ _
    ?_ ?_ ?_ ?_ ?_ ?_ (after4_3 V c t) (after4_4 V c t) _ _
  iterate 3 exact fun d => (Dat.before_in_eq_fetched _ _ rfl (fun _ => rfl) (fun _ _ _ => rfl) (fun _ => by dsimp only [dat4]; rfl) t d).trans rfl
  all_goals dsimp only [dat4]

end Cert.Kernel.Hand

end
-- ==== Proof.KRegion5.lean ====
import proofs.«131905_j73031623901536_2_alg».proof.Proof.KMatBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1000x128 := Rect.unit (s := S1000x128) ![0, 0] S1000x128.size inb_S1000x128_S1000x128_0_0
abbrev r5_1 : Rect S128x128 := Rect.unit (s := S128x128) ![0, 0] S128x128.size inb_S128x128_S128x128_0_0

def out5_2 (x0 : Vec F S1000x128 .f32) (x1 : Vec F S128x128 .f32) : Vec F S1000x128 .f32 :=
  View.canon [⟨r5_0, k5_pay1 (View.ld x0 r5_0) (View.ld x1 r5_1)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- The body leaves an input as it finds it, so at every point it reads the array's block there. -/
theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  show _ ⊢ wp _ _ _ (bodyAt5 t) _
  unfold bodyAt5
  rw [cc5__matmul_kernel_eq_skeleton]
  exact matProg_obligation k5_pay1 c (hstage5_0 _) (hstage5_1 _) (hstage5_2 _) (before5_0 V c t) (before5_1 V c t)
    (after5_0 V c t) (after5_1 V c t) (after5_2 V c t)

end Cert.Kernel.Hand

end
-- ==== Proof.KRegion6.lean ====
import proofs.«131905_j73031623901536_2_alg».proof.Proof.KRegionComb

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_4 (x0 : Vec F S1000x128 .f32) (x1 : Vec F S1x128 .f32) (x2 : Vec F S1000x128 .f32) : Vec F S1000x128 .f32 :=
  View.canon [⟨combR0, k6_pay1 (View.ld x0 combR0) (View.ld x1 combR1) (View.ld x2 combR0)⟩]
def out6_5 (x0 : Vec F S1000x128 .f32) (x1 : Vec F S1x128 .f32) (x2 : Vec F S1000x128 .f32) (x3 : Vec F S1000x128 .f32) : Vec F S1000x128 .f32 :=
  View.canon [⟨combR0, k6_pay2 (View.ld x0 combR0) (View.ld x1 combR1) (View.ld x2 combR0) (View.ld x3 combR0)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t)
    | ⟨5, _⟩ => out6_5 (iblk6 V c 0 t) (iblk6 V c 1 t) (iblk6 V c 2 t) (iblk6 V c 3 t)
  Φ _ := Pipeline.ΦA spec6 c
  q w := match w with | ⟨2, _⟩ => PosShare.left fullShare | ⟨3, _⟩ => PosShare.right fullShare | _ => fullShare
  owed _ := 0

theorem A_eq6 (c : Dev nD) (w : Fin cfg6.W) : (dat6 V c).A w = V c (Pipeline.arrRef spec6 w) := by
  dsimp only [dat6]

theorem after6_4 (c : Dev nD) (t : Fin cfg6.N) : (dat6 V c).after 4 t = out6_4 (iblk6 V c 0 t) (iblk6 V c 1 t) (iblk6 V c 2 t) := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]

theorem body_obligation6 (c : Dev nD) : BodyObligation (dat6 (F := F) V c) (defs₀ (F := F)) Variants.none () Set.univ := fun t => by
  rw [bigSep_W6, bigSep_W6]
  show _ ⊢ wp frame _ _ (bodyAt6 t) _
  unfold bodyAt6
  rw [cc6__combine_kernel_eq_skeleton]
  refine comb_body k6_pay1 k6_pay2 c _ _ _ _ _ _ _ _ _ _ _ _ (iblk6 V c 0 t) (iblk6 V c 1 t) (iblk6 V c 2 t) (iblk6 V c 3 t) _ _ _ _ _ _
    ?_ ?_ ?_ ?_ ?_ ?_ ?_ ?_ (after6_4 V c t) (after6_5 V c t) _ _
  iterate 4 exact fun d => (Dat.before_in_eq_fetched _ _ rfl (fun _ => rfl) (fun _ _ _ => rfl) (fun _ => by dsimp only [dat6]; rfl) t d).trans rfl
  all_goals dsimp only [dat6]

end Cert.Kernel.Hand

end
-- ==== Proof.KRegion7.lean ====
import proofs.«131905_j73031623901536_2_alg».proof.Proof.KMatBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S1000x128 := Rect.unit (s := S1000x128) ![0, 0] S1000x128.size inb_S1000x128_S1000x128_0_0
abbrev r7_1 : Rect S128x128 := Rect.unit (s := S128x128) ![0, 0] S128x128.size inb_S128x128_S128x128_0_0

def out7_2 (x0 : Vec F S1000x128 .f32) (x1 : Vec F S128x128 .f32) : Vec F S1000x128 .f32 :=
  View.canon [⟨r7_0, k7_pay1 (View.ld x0 r7_0) (View.ld x1 r7_1)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- The body leaves an input as it finds it, so at every point it reads the array's block there. -/
theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  show _ ⊢ wp _ _ _ (bodyAt7 t) _
  unfold bodyAt7
  rw [cc7__matmul_kernel_eq_skeleton]
  exact matProg_obligation k7_pay1 c (hstage7_0 _) (hstage7_1 _) (hstage7_2 _) (before7_0 V c t) (before7_1 V c t)
    (after7_0 V c t) (after7_1 V c t) (after7_2 V c t)

end Cert.Kernel.Hand

end
-- ==== Proof.KRegion8.lean ====
import proofs.«131905_j73031623901536_2_alg».proof.Proof.KRegionComb

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_4 (x0 : Vec F S1000x128 .f32) (x1 : Vec F S1x128 .f32) (x2 : Vec F S1000x128 .f32) : Vec F S1000x128 .f32 :=
  View.canon [⟨combR0, k8_pay1 (View.ld x0 combR0) (View.ld x1 combR1) (View.ld x2 combR0)⟩]
def out8_5 (x0 : Vec F S1000x128 .f32) (x1 : Vec F S1x128 .f32) (x2 : Vec F S1000x128 .f32) (x3 : Vec F S1000x128 .f32) : Vec F S1000x128 .f32 :=
  View.canon [⟨combR0, k8_pay2 (View.ld x0 combR0) (View.ld x1 combR1) (View.ld x2 combR0) (View.ld x3 combR0)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t)
    | ⟨5, _⟩ => out8_5 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_4 (c : Dev nD) (t : Fin cfg8.N) : (dat8 V c).after 4 t = out8_4 (iblk8 V c 0 t) (iblk8 V c 1 t) (iblk8 V c 2 t) := by dsimp only [dat8]
theorem after8_5 (c : Dev nD) (t : Fin cfg8.N) : (dat8 V c).after 5 t = out8_5 (iblk8 V c 0 t) (iblk8 V c 1 t) (iblk8 V c 2 t) (iblk8 V c 3 t) := by dsimp only [dat8]

theorem body_obligation8 (c : Dev nD) : BodyObligation (dat8 (F := F) V c) (defs₀ (F := F)) Variants.none () Set.univ := fun t => by
  rw [bigSep_W8, bigSep_W8]
  show _ ⊢ wp frame _ _ (bodyAt8 t) _
  unfold bodyAt8
  rw [cc8__combine_kernel_eq_skeleton]
  refine comb_body k8_pay1 k8_pay2 c _ _ _ _ _ _ _ _ _ _ _ _ (iblk8 V c 0 t) (iblk8 V c 1 t) (iblk8 V c 2 t) (iblk8 V c 3 t) _ _ _ _ _ _
    ?_ ?_ ?_ ?_ ?_ ?_ ?_ ?_ (after8_4 V c t) (after8_5 V c t) _ _
  iterate 4 exact fun d => (Dat.before_in_eq_fetched _ _ rfl (fun _ => rfl) (fun _ _ _ => rfl) (fun _ => by dsimp only [dat8]; rfl) t d).trans rfl
  all_goals dsimp only [dat8]

end Cert.Kernel.Hand

end
-- ==== Proof.KRegion9.lean ====
import proofs.«131905_j73031623901536_2_alg».proof.Proof.KMatBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S1000x128 := Rect.unit (s := S1000x128) ![0, 0] S1000x128.size inb_S1000x128_S1000x128_0_0
abbrev r9_1 : Rect S128x128 := Rect.unit (s := S128x128) ![0, 0] S128x128.size inb_S128x128_S128x128_0_0

def out9_2 (x0 : Vec F S1000x128 .f32) (x1 : Vec F S128x128 .f32) : Vec F S1000x128 .f32 :=
  View.canon [⟨r9_0, k9_pay1 (View.ld x0 r9_0) (View.ld x1 r9_1)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- The body leaves an input as it finds it, so at every point it reads the array's block there. -/
theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  show _ ⊢ wp _ _ _ (bodyAt9 t) _
  unfold bodyAt9
  rw [cc9__matmul_kernel_eq_skeleton]
  exact matProg_obligation k9_pay1 c (hstage9_0 _) (hstage9_1 _) (hstage9_2 _) (before9_0 V c t) (before9_1 V c t)
    (after9_0 V c t) (after9_1 V c t) (after9_2 V c t)

end Cert.Kernel.Hand

end
-- ==== Proof.KRegion10.lean ====
import proofs.«131905_j73031623901536_2_alg».proof.Proof.KRegionComb

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def out10_4 (x0 : Vec F S1000x128 .f32) (x1 : Vec F S1x128 .f32) (x2 : Vec F S1000x128 .f32) : Vec F S1000x128 .f32 :=
  View.canon [⟨combR0, k10_pay1 (View.ld x0 combR0) (View.ld x1 combR1) (View.ld x2 combR0)⟩]
def out10_5 (x0 : Vec F S1000x128 .f32) (x1 : Vec F S1x128 .f32) (x2 : Vec F S1000x128 .f32) (x3 : Vec F S1000x128 .f32) : Vec F S1000x128 .f32 :=
  View.canon [⟨combR0, k10_pay2 (View.ld x0 combR0) (View.ld x1 combR1) (View.ld x2 combR0) (View.ld x3 combR0)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t)
    | ⟨5, _⟩ => out10_5 (iblk10 V c 0 t) (iblk10 V c 1 t) (iblk10 V c 2 t) (iblk10 V c 3 t)
  Φ _ := Pipeline.ΦA spec10 c
  q w := match w with | ⟨2, _⟩ => PosShare.left fullShare | ⟨3, _⟩ => PosShare.right fullShare | _ => fullShare
  owed _ := 0

theorem A_eq10 (c : Dev nD) (w : Fin cfg10.W) : (dat10 V c).A w = V c (Pipeline.arrRef spec10 w) := by
  dsimp only [dat10]

theorem after10_4 (c : Dev nD) (t : Fin cfg10.N) : (dat10 V c).after 4 t = out10_4 (iblk10 V c 0 t) (iblk10 V c 1 t) (iblk10 V c 2 t) := by dsimp only [dat10]
theorem after10_5 (c : Dev nD) (t : Fin cfg10.N) : (dat10 V c).after 5 t = out10_5 (iblk10 V c 0 t) (iblk10 V c 1 t) (iblk10 V c 2 t) (iblk10 V c 3 t) := by dsimp only [dat10]

theorem body_obligation10 (c : Dev nD) : BodyObligation (dat10 (F := F) V c) (defs₀ (F := F)) Variants.none () Set.univ := fun t => by
  rw [bigSep_W10, bigSep_W10]
  show _ ⊢ wp frame _ _ (bodyAt10 t) _
  unfold bodyAt10
  rw [cc10__combine_kernel_eq_skeleton]
  refine comb_body k10_pay1 k10_pay2 c _ _ _ _ _ _ _ _ _ _ _ _ (iblk10 V c 0 t) (iblk10 V c 1 t) (iblk10 V c 2 t) (iblk10 V c 3 t) _ _ _ _ _ _
    ?_ ?_ ?_ ?_ ?_ ?_ ?_ ?_ (after10_4 V c t) (after10_5 V c t) _ _
  iterate 4 exact fun d => (Dat.before_in_eq_fetched _ _ rfl (fun _ => rfl) (fun _ _ _ => rfl) (fun _ => by dsimp only [dat10]; rfl) t d).trans rfl
  all_goals dsimp only [dat10]

end Cert.Kernel.Hand

end
-- ==== Proof.KRegion11.lean ====
import proofs.«131905_j73031623901536_2_alg».proof.Proof.KMatBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev r11_0 : Rect S1000x128 := Rect.unit (s := S1000x128) ![0, 0] S1000x128.size inb_S1000x128_S1000x128_0_0
abbrev r11_1 : Rect S128x128 := Rect.unit (s := S128x128) ![0, 0] S128x128.size inb_S128x128_S128x128_0_0

def out11_2 (x0 : Vec F S1000x128 .f32) (x1 : Vec F S128x128 .f32) : Vec F S1000x128 .f32 :=
  View.canon [⟨r11_0, k11_pay1 (View.ld x0 r11_0) (View.ld x1 r11_1)⟩]

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

/-- The body leaves an input as it finds it, so at every point it reads the array's block there. -/
theorem before11_0 (c : Dev nD) (t : Fin cfg11.N) (d) : (dat11 V c).before 0 t d = iblk11 V c 0 t :=
  ((dat11 V c).before_in_eq_fetched 0 rfl (fun _ => rfl) (fun _ _ _ => rfl) (fun _ => rfl) t d).trans rfl
theorem before11_1 (c : Dev nD) (t : Fin cfg11.N) (d) : (dat11 V c).before 1 t d = iblk11 V c 1 t :=
  ((dat11 V c).before_in_eq_fetched 1 rfl (fun _ => rfl) (fun _ _ _ => rfl) (fun _ => rfl) t d).trans rfl

theorem body_obligation11 (c : Dev nD) : BodyObligation (dat11 (F := F) V c) (defs₀ (F := F)) Variants.none () Set.univ := fun t => by
  rw [bigSep_W11, bigSep_W11]
  show _ ⊢ wp _ _ _ (bodyAt11 t) _
  unfold bodyAt11
  rw [cc11__matmul_kernel_eq_skeleton]
  exact matProg_obligation k11_pay1 c (hstage11_0 _) (hstage11_1 _) (hstage11_2 _) (before11_0 V c t) (before11_1 V c t)
    (after11_0 V c t) (after11_1 V c t) (after11_2 V c t)

end Cert.Kernel.Hand

end
-- ==== Proof.KRegion12.lean ====
import proofs.«131905_j73031623901536_2_alg».proof.Proof.KRegionComb

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

def out12_4 (x0 : Vec F S1000x128 .f32) (x1 : Vec F S1x128 .f32) (x2 : Vec F S1000x128 .f32) : Vec F S1000x128 .f32 :=
  View.canon [⟨combR0, k12_pay1 (View.ld x0 combR0) (View.ld x1 combR1) (View.ld x2 combR0)⟩]
def out12_5 (x0 : Vec F S1000x128 .f32) (x1 : Vec F S1x128 .f32) (x2 : Vec F S1000x128 .f32) (x3 : Vec F S1000x128 .f32) : Vec F S1000x128 .f32 :=
  View.canon [⟨combR0, k12_pay2 (View.ld x0 combR0) (View.ld x1 combR1) (View.ld x2 combR0) (View.ld x3 combR0)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t)
    | ⟨5, _⟩ => out12_5 (iblk12 V c 0 t) (iblk12 V c 1 t) (iblk12 V c 2 t) (iblk12 V c 3 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_4 (c : Dev nD) (t : Fin cfg12.N) : (dat12 V c).after 4 t = out12_4 (iblk12 V c 0 t) (iblk12 V c 1 t) (iblk12 V c 2 t) := by dsimp only [dat12]
theorem after12_5 (c : Dev nD) (t : Fin cfg12.N) : (dat12 V c).after 5 t = out12_5 (iblk12 V c 0 t) (iblk12 V c 1 t) (iblk12 V c 2 t) (iblk12 V c 3 t) := by dsimp only [dat12]

theorem body_obligation12 (c : Dev nD) : BodyObligation (dat12 (F := F) V c) (defs₀ (F := F)) Variants.none () Set.univ := fun t => by
  rw [bigSep_W12, bigSep_W12]
  show _ ⊢ wp frame _ _ (bodyAt12 t) _
  unfold bodyAt12
  rw [cc12__combine_kernel_eq_skeleton]
  refine comb_body k12_pay1 k12_pay2 c _ _ _ _ _ _ _ _ _ _ _ _ (iblk12 V c 0 t) (iblk12 V c 1 t) (iblk12 V c 2 t) (iblk12 V c 3 t) _ _ _ _ _ _
    ?_ ?_ ?_ ?_ ?_ ?_ ?_ ?_ (after12_4 V c t) (after12_5 V c t) _ _
  iterate 4 exact fun d => (Dat.before_in_eq_fetched _ _ rfl (fun _ => rfl) (fun _ _ _ => rfl) (fun _ => by dsimp only [dat12]; rfl) t d).trans rfl
  all_goals dsimp only [dat12]

end Cert.Kernel.Hand

end
-- ==== Proof.KLevels.lean ====
import proofs.«131905_j73031623901536_2_alg».proof.Proof.KernelRegionsP
import proofs.«131905_j73031623901536_2_alg».proof.Proof.KRegion0
import proofs.«131905_j73031623901536_2_alg».proof.Proof.KRegion1
import proofs.«131905_j73031623901536_2_alg».proof.Proof.KRegion2
import proofs.«131905_j73031623901536_2_alg».proof.Proof.KRegion3
import proofs.«131905_j73031623901536_2_alg».proof.Proof.KRegion4
import proofs.«131905_j73031623901536_2_alg».proof.Proof.KRegion5
import proofs.«131905_j73031623901536_2_alg».proof.Proof.KRegion6
import proofs.«131905_j73031623901536_2_alg».proof.Proof.KRegion7
import proofs.«131905_j73031623901536_2_alg».proof.Proof.KRegion8
import proofs.«131905_j73031623901536_2_alg».proof.Proof.KRegion9
import proofs.«131905_j73031623901536_2_alg».proof.Proof.KRegion10
import proofs.«131905_j73031623901536_2_alg».proof.Proof.KRegion11
import proofs.«131905_j73031623901536_2_alg».proof.Proof.KRegion12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)
def W1 (c : Dev nD) : Valuation τ sig (Elt F) := StableHlo.after hostOps0 (W0 m c)
theorem W1_def (c : Dev nD) : W1 m c = StableHlo.after hostOps0 (W0 m c) := rfl
def W2 (c : Dev nD) : Valuation τ sig (Elt F) := StableHlo.after hostOps0_1 (W1 m c)
theorem W2_def (c : Dev nD) : W2 m c = StableHlo.after hostOps0_1 (W1 m c) := rfl
def W3 (c : Dev nD) : Valuation τ sig (Elt F) := StableHlo.after hostOps0_2 (W2 m c)
theorem W3_def (c : Dev nD) : W3 m c = StableHlo.after hostOps0_2 (W2 m c) := rfl
def W4 (c : Dev nD) : Valuation τ sig (Elt F) := StableHlo.after hostOps0_3 (W3 m c)
theorem W4_def (c : Dev nD) : W4 m c = StableHlo.after hostOps0_3 (W3 m c) := rfl
def W5 (c : Dev nD) : Valuation τ sig (Elt F) := StableHlo.after hostOps0_4 (W4 m c)
theorem W5_def (c : Dev nD) : W5 m c = StableHlo.after hostOps0_4 (W4 m c) := rfl
abbrev E5 : (c : Dev nD) → (b : Ref sig .tc) → Buf (Elt F) ((c : Thread nD τ).loc b) := fun c b => W5 m c b
def W6 (c : Dev nD) : Valuation τ sig (Elt F) := Function.update (W5 m c) main_v40 ((dat0 (E5 m) c).arrAt 2 cfg0.N)
theorem W6_of_ne (c : Dev nD) (x : DevRef τ sig) (h0 : x ≠ Proc.devRef .tc main_v40) : W6 m c x = W5 m c x := by
  unfold W6; rw [Function.update_of_ne h0]
theorem W6_at_main_v40 (c : Dev nD) : W6 m c (Proc.devRef .tc main_v40) = (dat0 (E5 m) c).arrAt 2 cfg0.N := by
  unfold W6; rw [Function.update_self]
abbrev E6 : (c : Dev nD) → (b : Ref sig .tc) → Buf (Elt F) ((c : Thread nD τ).loc b) := fun c b => W6 m c b
def W7 (c : Dev nD) : Valuation τ sig (Elt F) := StableHlo.after hostOps1 (W6 m c)
theorem W7_def (c : Dev nD) : W7 m c = StableHlo.after hostOps1 (W6 m c) := rfl
abbrev E7 : (c : Dev nD) → (b : Ref sig .tc) → Buf (Elt F) ((c : Thread nD τ).loc b) := fun c b => W7 m c b
def W8 (c : Dev nD) : Valuation τ sig (Elt F) := Function.update (Function.update (W7 m c) main_v57_0 ((dat1 (E7 m) c).arrAt 4 cfg1.N)) main_v57_1 ((dat1 (E7 m) c).arrAt 5 cfg1.N)
theorem W8_of_ne (c : Dev nD) (x : DevRef τ sig) (h0 : x ≠ Proc.devRef .tc main_v57_0) (h1 : x ≠ Proc.devRef .tc main_v57_1) : W8 m c x = W7 m c x := by
  unfold W8; rw [Function.update_of_ne h1, Function.update_of_ne h0]
theorem W8_at_main_v57_0 (c : Dev nD) : W8 m c (Proc.devRef .tc main_v57_0) = (dat1 (E7 m) c).arrAt 4 cfg1.N := by
  unfold W8; rw [Function.update_of_ne (StableHlo.devRef_ne_of_ne (by decide) : (Proc.devRef .tc main_v57_0 : DevRef τ sig) ≠ Proc.devRef .tc main_v57_1), Function.update_self]
theorem W8_at_main_v57_1 (c : Dev nD) : W8 m c (Proc.devRef .tc main_v57_1) = (dat1 (E7 m) c).arrAt 5 cfg1.N := by
  unfold W8; rw [Function.update_self]
abbrev E8 : (c : Dev nD) → (b : Ref sig .tc) → Buf (Elt F) ((c : Thread nD τ).loc b) := fun c b => W8 m c b
def W9 (c : Dev nD) : Valuation τ sig (Elt F) := StableHlo.after hostOps2 (W8 m c)
theorem W9_def (c : Dev nD) : W9 m c = StableHlo.after hostOps2 (W8 m c) := rfl
abbrev E9 : (c : Dev nD) → (b : Ref sig .tc) → Buf (Elt F) ((c : Thread nD τ).loc b) := fun c b => W9 m c b
def W10 (c : Dev nD) : Valuation τ sig (Elt F) := Function.update (W9 m c) main_v60 ((dat2 (E9 m) c).arrAt 2 cfg2.N)
theorem W10_of_ne (c : Dev nD) (x : DevRef τ sig) (h0 : x ≠ Proc.devRef .tc main_v60) : W10 m c x = W9 m c x := by
  unfold W10; rw [Function.update_of_ne h0]
theorem W10_at_main_v60 (c : Dev nD) : W10 m c (Proc.devRef .tc main_v60) = (dat2 (E9 m) c).arrAt 2 cfg2.N := by
  unfold W10; rw [Function.update_self]
abbrev E10 : (c : Dev nD) → (b : Ref sig .tc) → Buf (Elt F) ((c : Thread nD τ).loc b) := fun c b => W10 m c b
def W11 (c : Dev nD) : Valuation τ sig (Elt F) := StableHlo.after hostOps3 (W10 m c)
theorem W11_def (c : Dev nD) : W11 m c = StableHlo.after hostOps3 (W10 m c) := rfl
abbrev E11 : (c : Dev nD) → (b : Ref sig .tc) → Buf (Elt F) ((c : Thread nD τ).loc b) := fun c b => W11 m c b
def W12 (c : Dev nD) : Valuation τ sig (Elt F) := Function.update (Function.update (W11 m c) main_v77_0 ((dat3 (E11 m) c).arrAt 4 cfg3.N)) main_v77_1 ((dat3 (E11 m) c).arrAt 5 cfg3.N)
theorem W12_of_ne (c : Dev nD) (x : DevRef τ sig) (h0 : x ≠ Proc.devRef .tc main_v77_0) (h1 : x ≠ Proc.devRef .tc main_v77_1) : W12 m c x = W11 m c x := by
  unfold W12; rw [Function.update_of_ne h1, Function.update_of_ne h0]
theorem W12_at_main_v77_0 (c : Dev nD) : W12 m c (Proc.devRef .tc main_v77_0) = (dat3 (E11 m) c).arrAt 4 cfg3.N := by
  unfold W12; rw [Function.update_of_ne (StableHlo.devRef_ne_of_ne (by decide) : (Proc.devRef .tc main_v77_0 : DevRef τ sig) ≠ Proc.devRef .tc main_v77_1), Function.update_self]
theorem W12_at_main_v77_1 (c : Dev nD) : W12 m c (Proc.devRef .tc main_v77_1) = (dat3 (E11 m) c).arrAt 5 cfg3.N := by
  unfold W12; rw [Function.update_self]
abbrev E12 : (c : Dev nD) → (b : Ref sig .tc) → Buf (Elt F) ((c : Thread nD τ).loc b) := fun c b => W12 m c b
def W13 (c : Dev nD) : Valuation τ sig (Elt F) := StableHlo.after hostOps4 (W12 m c)
theorem W13_def (c : Dev nD) : W13 m c = StableHlo.after hostOps4 (W12 m c) := rfl
abbrev E13 : (c : Dev nD) → (b : Ref sig .tc) → Buf (Elt F) ((c : Thread nD τ).loc b) := fun c b => W13 m c b
def W14 (c : Dev nD) : Valuation τ sig (Elt F) := Function.update (Function.update (W13 m c) main_v81_0 ((dat4 (E13 m) c).arrAt 3 cfg4.N)) main_v81_1 ((dat4 (E13 m) c).arrAt 4 cfg4.N)
theorem W14_of_ne (c : Dev nD) (x : DevRef τ sig) (h0 : x ≠ Proc.devRef .tc main_v81_0) (h1 : x ≠ Proc.devRef .tc main_v81_1) : W14 m c x = W13 m c x := by
  unfold W14; rw [Function.update_of_ne h1, Function.update_of_ne h0]
theorem W14_at_main_v81_0 (c : Dev nD) : W14 m c (Proc.devRef .tc main_v81_0) = (dat4 (E13 m) c).arrAt 3 cfg4.N := by
  unfold W14; rw [Function.update_of_ne (StableHlo.devRef_ne_of_ne (by decide) : (Proc.devRef .tc main_v81_0 : DevRef τ sig) ≠ Proc.devRef .tc main_v81_1), Function.update_self]
theorem W14_at_main_v81_1 (c : Dev nD) : W14 m c (Proc.devRef .tc main_v81_1) = (dat4 (E13 m) c).arrAt 4 cfg4.N := by
  unfold W14; rw [Function.update_self]
abbrev E14 : (c : Dev nD) → (b : Ref sig .tc) → Buf (Elt F) ((c : Thread nD τ).loc b) := fun c b => W14 m c b
def W15 (c : Dev nD) : Valuation τ sig (Elt F) := StableHlo.after hostOps5 (W14 m c)
theorem W15_def (c : Dev nD) : W15 m c = StableHlo.after hostOps5 (W14 m c) := rfl
def W16 (c : Dev nD) : Valuation τ sig (Elt F) := StableHlo.after hostOps5_1 (W15 m c)
theorem W16_def (c : Dev nD) : W16 m c = StableHlo.after hostOps5_1 (W15 m c) := rfl
def W17 (c : Dev nD) : Valuation τ sig (Elt F) := StableHlo.after hostOps5_2 (W16 m c)
theorem W17_def (c : Dev nD) : W17 m c = StableHlo.after hostOps5_2 (W16 m c) := rfl
def W18 (c : Dev nD) : Valuation τ sig (Elt F) := StableHlo.after hostOps5_3 (W17 m c)
theorem W18_def (c : Dev nD) : W18 m c = StableHlo.after hostOps5_3 (W17 m c) := rfl
def W19 (c : Dev nD) : Valuation τ sig (Elt F) := StableHlo.after hostOps5_4 (W18 m c)
theorem W19_def (c : Dev nD) : W19 m c = StableHlo.after hostOps5_4 (W18 m c) := rfl
def W20 (c : Dev nD) : Valuation τ sig (Elt F) := StableHlo.after hostOps5_5 (W19 m c)
theorem W20_def (c : Dev nD) : W20 m c = StableHlo.after hostOps5_5 (W19 m c) := rfl
def W21 (c : Dev nD) : Valuation τ sig (Elt F) := StableHlo.after hostOps5_6 (W20 m c)
theorem W21_def (c : Dev nD) : W21 m c = StableHlo.after hostOps5_6 (W20 m c) := rfl
def W22 (c : Dev nD) : Valuation τ sig (Elt F) := StableHlo.after hostOps5_7 (W21 m c)
theorem W22_def (c : Dev nD) : W22 m c = StableHlo.after hostOps5_7 (W21 m c) := rfl
def W23 (c : Dev nD) : Valuation τ sig (Elt F) := StableHlo.after hostOps5_8 (W22 m c)
theorem W23_def (c : Dev nD) : W23 m c = StableHlo.after hostOps5_8 (W22 m c) := rfl
abbrev E23 : (c : Dev nD) → (b : Ref sig .tc) → Buf (Elt F) ((c : Thread nD τ).loc b) := fun c b => W23 m c b
def W24 (c : Dev nD) : Valuation τ sig (Elt F) := Function.update (W23 m c) main_v111 ((dat5 (E23 m) c).arrAt 2 cfg5.N)
theorem W24_of_ne (c : Dev nD) (x : DevRef τ sig) (h0 : x ≠ Proc.devRef .tc main_v111) : W24 m c x = W23 m c x := by
  unfold W24; rw [Function.update_of_ne h0]
theorem W24_at_main_v111 (c : Dev nD) : W24 m c (Proc.devRef .tc main_v111) = (dat5 (E23 m) c).arrAt 2 cfg5.N := by
  unfold W24; rw [Function.update_self]
abbrev E24 : (c : Dev nD) → (b : Ref sig .tc) → Buf (Elt F) ((c : Thread nD τ).loc b) := fun c b => W24 m c b
def W25 (c : Dev nD) : Valuation τ sig (Elt F) := StableHlo.after hostOps6 (W24 m c)
theorem W25_def (c : Dev nD) : W25 m c = StableHlo.after hostOps6 (W24 m c) := rfl
abbrev E25 : (c : Dev nD) → (b : Ref sig .tc) → Buf (Elt F) ((c : Thread nD τ).loc b) := fun c b => W25 m c b
def W26 (c : Dev nD) : Valuation τ sig (Elt F) := Function.update (Function.update (W25 m c) main_v141_0 ((dat6 (E25 m) c).arrAt 4 cfg6.N)) main_v141_1 ((dat6 (E25 m) c).arrAt 5 cfg6.N)
theorem W26_of_ne (c : Dev nD) (x : DevRef τ sig) (h0 : x ≠ Proc.devRef .tc main_v141_0) (h1 : x ≠ Proc.devRef .tc main_v141_1) : W26 m c x = W25 m c x := by
  unfold W26; rw [Function.update_of_ne h1, Function.update_of_ne h0]
theorem W26_at_main_v141_0 (c : Dev nD) : W26 m c (Proc.devRef .tc main_v141_0) = (dat6 (E25 m) c).arrAt 4 cfg6.N := by
  unfold W26; rw [Function.update_of_ne (StableHlo.devRef_ne_of_ne (by decide) : (Proc.devRef .tc main_v141_0 : DevRef τ sig) ≠ Proc.devRef .tc main_v141_1), Function.update_self]
theorem W26_at_main_v141_1 (c : Dev nD) : W26 m c (Proc.devRef .tc main_v141_1) = (dat6 (E25 m) c).arrAt 5 cfg6.N := by
  unfold W26; rw [Function.update_self]
abbrev E26 : (c : Dev nD) → (b : Ref sig .tc) → Buf (Elt F) ((c : Thread nD τ).loc b) := fun c b => W26 m c b
def W27 (c : Dev nD) : Valuation τ sig (Elt F) := StableHlo.after hostOps7 (W26 m c)
theorem W27_def (c : Dev nD) : W27 m c = StableHlo.after hostOps7 (W26 m c) := rfl
abbrev E27 : (c : Dev nD) → (b : Ref sig .tc) → Buf (Elt F) ((c : Thread nD τ).loc b) := fun c b => W27 m c b
def W28 (c : Dev nD) : Valuation τ sig (Elt F) := Function.update (W27 m c) main_v144 ((dat7 (E27 m) c).arrAt 2 cfg7.N)
theorem W28_of_ne (c : Dev nD) (x : DevRef τ sig) (h0 : x ≠ Proc.devRef .tc main_v144) : W28 m c x = W27 m c x := by
  unfold W28; rw [Function.update_of_ne h0]
theorem W28_at_main_v144 (c : Dev nD) : W28 m c (Proc.devRef .tc main_v144) = (dat7 (E27 m) c).arrAt 2 cfg7.N := by
  unfold W28; rw [Function.update_self]
abbrev E28 : (c : Dev nD) → (b : Ref sig .tc) → Buf (Elt F) ((c : Thread nD τ).loc b) := fun c b => W28 m c b
def W29 (c : Dev nD) : Valuation τ sig (Elt F) := StableHlo.after hostOps8 (W28 m c)
theorem W29_def (c : Dev nD) : W29 m c = StableHlo.after hostOps8 (W28 m c) := rfl
abbrev E29 : (c : Dev nD) → (b : Ref sig .tc) → Buf (Elt F) ((c : Thread nD τ).loc b) := fun c b => W29 m c b
def W30 (c : Dev nD) : Valuation τ sig (Elt F) := Function.update (Function.update (W29 m c) main_v174_0 ((dat8 (E29 m) c).arrAt 4 cfg8.N)) main_v174_1 ((dat8 (E29 m) c).arrAt 5 cfg8.N)
theorem W30_of_ne (c : Dev nD) (x : DevRef τ sig) (h0 : x ≠ Proc.devRef .tc main_v174_0) (h1 : x ≠ Proc.devRef .tc main_v174_1) : W30 m c x = W29 m c x := by
  unfold W30; rw [Function.update_of_ne h1, Function.update_of_ne h0]
theorem W30_at_main_v174_0 (c : Dev nD) : W30 m c (Proc.devRef .tc main_v174_0) = (dat8 (E29 m) c).arrAt 4 cfg8.N := by
  unfold W30; rw [Function.update_of_ne (StableHlo.devRef_ne_of_ne (by decide) : (Proc.devRef .tc main_v174_0 : DevRef τ sig) ≠ Proc.devRef .tc main_v174_1), Function.update_self]
theorem W30_at_main_v174_1 (c : Dev nD) : W30 m c (Proc.devRef .tc main_v174_1) = (dat8 (E29 m) c).arrAt 5 cfg8.N := by
  unfold W30; rw [Function.update_self]
abbrev E30 : (c : Dev nD) → (b : Ref sig .tc) → Buf (Elt F) ((c : Thread nD τ).loc b) := fun c b => W30 m c b
def W31 (c : Dev nD) : Valuation τ sig (Elt F) := StableHlo.after hostOps9 (W30 m c)
theorem W31_def (c : Dev nD) : W31 m c = StableHlo.after hostOps9 (W30 m c) := rfl
def W32 (c : Dev nD) : Valuation τ sig (Elt F) := StableHlo.after hostOps9_1 (W31 m c)
theorem W32_def (c : Dev nD) : W32 m c = StableHlo.after hostOps9_1 (W31 m c) := rfl
def W33 (c : Dev nD) : Valuation τ sig (Elt F) := StableHlo.after hostOps9_2 (W32 m c)
theorem W33_def (c : Dev nD) : W33 m c = StableHlo.after hostOps9_2 (W32 m c) := rfl
def W34 (c : Dev nD) : Valuation τ sig (Elt F) := StableHlo.after hostOps9_3 (W33 m c)
theorem W34_def (c : Dev nD) : W34 m c = StableHlo.after hostOps9_3 (W33 m c) := rfl
def W35 (c : Dev nD) : Valuation τ sig (Elt F) := StableHlo.after hostOps9_4 (W34 m c)
theorem W35_def (c : Dev nD) : W35 m c = StableHlo.after hostOps9_4 (W34 m c) := rfl
def W36 (c : Dev nD) : Valuation τ sig (Elt F) := StableHlo.after hostOps9_5 (W35 m c)
theorem W36_def (c : Dev nD) : W36 m c = StableHlo.after hostOps9_5 (W35 m c) := rfl
def W37 (c : Dev nD) : Valuation τ sig (Elt F) := StableHlo.after hostOps9_6 (W36 m c)
theorem W37_def (c : Dev nD) : W37 m c = StableHlo.after hostOps9_6 (W36 m c) := rfl
def W38 (c : Dev nD) : Valuation τ sig (Elt F) := StableHlo.after hostOps9_7 (W37 m c)
theorem W38_def (c : Dev nD) : W38 m c = StableHlo.after hostOps9_7 (W37 m c) := rfl
def W39 (c : Dev nD) : Valuation τ sig (Elt F) := StableHlo.after hostOps9_8 (W38 m c)
theorem W39_def (c : Dev nD) : W39 m c = StableHlo.after hostOps9_8 (W38 m c) := rfl
abbrev E39 : (c : Dev nD) → (b : Ref sig .tc) → Buf (Elt F) ((c : Thread nD τ).loc b) := fun c b => W39 m c b
def W40 (c : Dev nD) : Valuation τ sig (Elt F) := Function.update (W39 m c) main_v245 ((dat9 (E39 m) c).arrAt 2 cfg9.N)
theorem W40_of_ne (c : Dev nD) (x : DevRef τ sig) (h0 : x ≠ Proc.devRef .tc main_v245) : W40 m c x = W39 m c x := by
  unfold W40; rw [Function.update_of_ne h0]
theorem W40_at_main_v245 (c : Dev nD) : W40 m c (Proc.devRef .tc main_v245) = (dat9 (E39 m) c).arrAt 2 cfg9.N := by
  unfold W40; rw [Function.update_self]
abbrev E40 : (c : Dev nD) → (b : Ref sig .tc) → Buf (Elt F) ((c : Thread nD τ).loc b) := fun c b => W40 m c b
def W41 (c : Dev nD) : Valuation τ sig (Elt F) := StableHlo.after hostOps10 (W40 m c)
theorem W41_def (c : Dev nD) : W41 m c = StableHlo.after hostOps10 (W40 m c) := rfl
abbrev E41 : (c : Dev nD) → (b : Ref sig .tc) → Buf (Elt F) ((c : Thread nD τ).loc b) := fun c b => W41 m c b
def W42 (c : Dev nD) : Valuation τ sig (Elt F) := Function.update (Function.update (W41 m c) main_v262_0 ((dat10 (E41 m) c).arrAt 4 cfg10.N)) main_v262_1 ((dat10 (E41 m) c).arrAt 5 cfg10.N)
theorem W42_of_ne (c : Dev nD) (x : DevRef τ sig) (h0 : x ≠ Proc.devRef .tc main_v262_0) (h1 : x ≠ Proc.devRef .tc main_v262_1) : W42 m c x = W41 m c x := by
  unfold W42; rw [Function.update_of_ne h1, Function.update_of_ne h0]
theorem W42_at_main_v262_0 (c : Dev nD) : W42 m c (Proc.devRef .tc main_v262_0) = (dat10 (E41 m) c).arrAt 4 cfg10.N := by
  unfold W42; rw [Function.update_of_ne (StableHlo.devRef_ne_of_ne (by decide) : (Proc.devRef .tc main_v262_0 : DevRef τ sig) ≠ Proc.devRef .tc main_v262_1), Function.update_self]
theorem W42_at_main_v262_1 (c : Dev nD) : W42 m c (Proc.devRef .tc main_v262_1) = (dat10 (E41 m) c).arrAt 5 cfg10.N := by
  unfold W42; rw [Function.update_self]
abbrev E42 : (c : Dev nD) → (b : Ref sig .tc) → Buf (Elt F) ((c : Thread nD τ).loc b) := fun c b => W42 m c b
def W43 (c : Dev nD) : Valuation τ sig (Elt F) := StableHlo.after hostOps11 (W42 m c)
theorem W43_def (c : Dev nD) : W43 m c = StableHlo.after hostOps11 (W42 m c) := rfl
abbrev E43 : (c : Dev nD) → (b : Ref sig .tc) → Buf (Elt F) ((c : Thread nD τ).loc b) := fun c b => W43 m c b
def W44 (c : Dev nD) : Valuation τ sig (Elt F) := Function.update (W43 m c) main_v265 ((dat11 (E43 m) c).arrAt 2 cfg11.N)
theorem W44_of_ne (c : Dev nD) (x : DevRef τ sig) (h0 : x ≠ Proc.devRef .tc main_v265) : W44 m c x = W43 m c x := by
  unfold W44; rw [Function.update_of_ne h0]
theorem W44_at_main_v265 (c : Dev nD) : W44 m c (Proc.devRef .tc main_v265) = (dat11 (E43 m) c).arrAt 2 cfg11.N := by
  unfold W44; rw [Function.update_self]
abbrev E44 : (c : Dev nD) → (b : Ref sig .tc) → Buf (Elt F) ((c : Thread nD τ).loc b) := fun c b => W44 m c b
def W45 (c : Dev nD) : Valuation τ sig (Elt F) := StableHlo.after hostOps12 (W44 m c)
theorem W45_def (c : Dev nD) : W45 m c = StableHlo.after hostOps12 (W44 m c) := rfl
abbrev E45 : (c : Dev nD) → (b : Ref sig .tc) → Buf (Elt F) ((c : Thread nD τ).loc b) := fun c b => W45 m c b
def W46 (c : Dev nD) : Valuation τ sig (Elt F) := Function.update (Function.update (W45 m c) main_v282_0 ((dat12 (E45 m) c).arrAt 4 cfg12.N)) main_v282_1 ((dat12 (E45 m) c).arrAt 5 cfg12.N)
theorem W46_of_ne (c : Dev nD) (x : DevRef τ sig) (h0 : x ≠ Proc.devRef .tc main_v282_0) (h1 : x ≠ Proc.devRef .tc main_v282_1) : W46 m c x = W45 m c x := by
  unfold W46; rw [Function.update_of_ne h1, Function.update_of_ne h0]
theorem W46_at_main_v282_0 (c : Dev nD) : W46 m c (Proc.devRef .tc main_v282_0) = (dat12 (E45 m) c).arrAt 4 cfg12.N := by
  unfold W46; rw [Function.update_of_ne (StableHlo.devRef_ne_of_ne (by decide) : (Proc.devRef .tc main_v282_0 : DevRef τ sig) ≠ Proc.devRef .tc main_v282_1), Function.update_self]
theorem W46_at_main_v282_1 (c : Dev nD) : W46 m c (Proc.devRef .tc main_v282_1) = (dat12 (E45 m) c).arrAt 5 cfg12.N := by
  unfold W46; rw [Function.update_self]
abbrev E46 : (c : Dev nD) → (b : Ref sig .tc) → Buf (Elt F) ((c : Thread nD τ).loc b) := fun c b => W46 m c b
def W47 (c : Dev nD) : Valuation τ sig (Elt F) := StableHlo.after hostOps13 (W46 m c)
theorem W47_def (c : Dev nD) : W47 m c = StableHlo.after hostOps13 (W46 m c) := rfl

def OUTS : Outs (F := F) := fun J r c => match J with
  | 6 => W6 m c r
  | 8 => W8 m c r
  | 10 => W10 m c r
  | 12 => W12 m c r
  | 14 => W14 m c r
  | 24 => W24 m c r
  | 26 => W26 m c r
  | 28 => W28 m c r
  | 30 => W30 m c r
  | 40 => W40 m c r
  | 42 => W42 m c r
  | 44 => W44 m c r
  | 46 => W46 m c r
  | _ => W0 m c r

-- rewriting the base of an update whose new value is read back from the target
private theorem upd1_eq {V V' : Valuation τ sig (Elt F)} (h : V = V') (a : DevRef τ sig) (v : a.ty.Contents (Elt F)) :
    Function.update V a (Function.update V' a v a) = Function.update V' a v := by
  subst h; rw [Function.update_self]
-- the same for two updates at distinct references
private theorem upd2_eq {V V' : Valuation τ sig (Elt F)} (h : V = V') {a b : DevRef τ sig} (hab : a ≠ b) (v : a.ty.Contents (Elt F)) (w : b.ty.Contents (Elt F)) :
    Function.update (Function.update V a (Function.update (Function.update V' a v) b w a)) b (Function.update (Function.update V' a v) b w b)
      = Function.update (Function.update V' a v) b w := by
  subst h; rw [Function.update_self, Function.update_of_ne hab, Function.update_self]

theorem V0_eq (c : Dev nD) : V0 m c = W0 m c := rfl
theorem V1_eq (c : Dev nD) : V1 m c = W1 m c := congrArg (StableHlo.after hostOps0) (V0_eq m c)
theorem V2_eq (c : Dev nD) : V2 m c = W2 m c := congrArg (StableHlo.after hostOps0_1) (V1_eq m c)
theorem V3_eq (c : Dev nD) : V3 m c = W3 m c := congrArg (StableHlo.after hostOps0_2) (V2_eq m c)
theorem V4_eq (c : Dev nD) : V4 m c = W4 m c := congrArg (StableHlo.after hostOps0_3) (V3_eq m c)
theorem V5_eq (c : Dev nD) : V5 m c = W5 m c := congrArg (StableHlo.after hostOps0_4) (V4_eq m c)
theorem V6_eq (c : Dev nD) : V6 m (OUTS m) c = W6 m c := upd1_eq (V5_eq m c) _ _
theorem V7_eq (c : Dev nD) : V7 m (OUTS m) c = W7 m c := congrArg (StableHlo.after hostOps1) (V6_eq m c)
theorem V8_eq (c : Dev nD) : V8 m (OUTS m) c = W8 m c := upd2_eq (V7_eq m c) (StableHlo.devRef_ne_of_ne (by decide)) _ _
theorem V9_eq (c : Dev nD) : V9 m (OUTS m) c = W9 m c := congrArg (StableHlo.after hostOps2) (V8_eq m c)
theorem V10_eq (c : Dev nD) : V10 m (OUTS m) c = W10 m c := upd1_eq (V9_eq m c) _ _
theorem V11_eq (c : Dev nD) : V11 m (OUTS m) c = W11 m c := congrArg (StableHlo.after hostOps3) (V10_eq m c)
theorem V12_eq (c : Dev nD) : V12 m (OUTS m) c = W12 m c := upd2_eq (V11_eq m c) (StableHlo.devRef_ne_of_ne (by decide)) _ _
theorem V13_eq (c : Dev nD) : V13 m (OUTS m) c = W13 m c := congrArg (StableHlo.after hostOps4) (V12_eq m c)
theorem V14_eq (c : Dev nD) : V14 m (OUTS m) c = W14 m c := upd2_eq (V13_eq m c) (StableHlo.devRef_ne_of_ne (by decide)) _ _
theorem V15_eq (c : Dev nD) : V15 m (OUTS m) c = W15 m c := congrArg (StableHlo.after hostOps5) (V14_eq m c)
theorem V16_eq (c : Dev nD) : V16 m (OUTS m) c = W16 m c := congrArg (StableHlo.after hostOps5_1) (V15_eq m c)
theorem V17_eq (c : Dev nD) : V17 m (OUTS m) c = W17 m c := congrArg (StableHlo.after hostOps5_2) (V16_eq m c)
theorem V18_eq (c : Dev nD) : V18 m (OUTS m) c = W18 m c := congrArg (StableHlo.after hostOps5_3) (V17_eq m c)
theorem V19_eq (c : Dev nD) : V19 m (OUTS m) c = W19 m c := congrArg (StableHlo.after hostOps5_4) (V18_eq m c)
theorem V20_eq (c : Dev nD) : V20 m (OUTS m) c = W20 m c := congrArg (StableHlo.after hostOps5_5) (V19_eq m c)
theorem V21_eq (c : Dev nD) : V21 m (OUTS m) c = W21 m c := congrArg (StableHlo.after hostOps5_6) (V20_eq m c)
theorem V22_eq (c : Dev nD) : V22 m (OUTS m) c = W22 m c := congrArg (StableHlo.after hostOps5_7) (V21_eq m c)
theorem V23_eq (c : Dev nD) : V23 m (OUTS m) c = W23 m c := congrArg (StableHlo.after hostOps5_8) (V22_eq m c)
theorem V24_eq (c : Dev nD) : V24 m (OUTS m) c = W24 m c := upd1_eq (V23_eq m c) _ _
theorem V25_eq (c : Dev nD) : V25 m (OUTS m) c = W25 m c := congrArg (StableHlo.after hostOps6) (V24_eq m c)
theorem V26_eq (c : Dev nD) : V26 m (OUTS m) c = W26 m c := upd2_eq (V25_eq m c) (StableHlo.devRef_ne_of_ne (by decide)) _ _
theorem V27_eq (c : Dev nD) : V27 m (OUTS m) c = W27 m c := congrArg (StableHlo.after hostOps7) (V26_eq m c)
theorem V28_eq (c : Dev nD) : V28 m (OUTS m) c = W28 m c := upd1_eq (V27_eq m c) _ _
theorem V29_eq (c : Dev nD) : V29 m (OUTS m) c = W29 m c := congrArg (StableHlo.after hostOps8) (V28_eq m c)
theorem V30_eq (c : Dev nD) : V30 m (OUTS m) c = W30 m c := upd2_eq (V29_eq m c) (StableHlo.devRef_ne_of_ne (by decide)) _ _
theorem V31_eq (c : Dev nD) : V31 m (OUTS m) c = W31 m c := congrArg (StableHlo.after hostOps9) (V30_eq m c)
theorem V32_eq (c : Dev nD) : V32 m (OUTS m) c = W32 m c := congrArg (StableHlo.after hostOps9_1) (V31_eq m c)
theorem V33_eq (c : Dev nD) : V33 m (OUTS m) c = W33 m c := congrArg (StableHlo.after hostOps9_2) (V32_eq m c)
theorem V34_eq (c : Dev nD) : V34 m (OUTS m) c = W34 m c := congrArg (StableHlo.after hostOps9_3) (V33_eq m c)
theorem V35_eq (c : Dev nD) : V35 m (OUTS m) c = W35 m c := congrArg (StableHlo.after hostOps9_4) (V34_eq m c)
theorem V36_eq (c : Dev nD) : V36 m (OUTS m) c = W36 m c := congrArg (StableHlo.after hostOps9_5) (V35_eq m c)
theorem V37_eq (c : Dev nD) : V37 m (OUTS m) c = W37 m c := congrArg (StableHlo.after hostOps9_6) (V36_eq m c)
theorem V38_eq (c : Dev nD) : V38 m (OUTS m) c = W38 m c := congrArg (StableHlo.after hostOps9_7) (V37_eq m c)
theorem V39_eq (c : Dev nD) : V39 m (OUTS m) c = W39 m c := congrArg (StableHlo.after hostOps9_8) (V38_eq m c)
theorem V40_eq (c : Dev nD) : V40 m (OUTS m) c = W40 m c := upd1_eq (V39_eq m c) _ _
theorem V41_eq (c : Dev nD) : V41 m (OUTS m) c = W41 m c := congrArg (StableHlo.after hostOps10) (V40_eq m c)
theorem V42_eq (c : Dev nD) : V42 m (OUTS m) c = W42 m c := upd2_eq (V41_eq m c) (StableHlo.devRef_ne_of_ne (by decide)) _ _
theorem V43_eq (c : Dev nD) : V43 m (OUTS m) c = W43 m c := congrArg (StableHlo.after hostOps11) (V42_eq m c)
theorem V44_eq (c : Dev nD) : V44 m (OUTS m) c = W44 m c := upd1_eq (V43_eq m c) _ _
theorem V45_eq (c : Dev nD) : V45 m (OUTS m) c = W45 m c := congrArg (StableHlo.after hostOps12) (V44_eq m c)
theorem V46_eq (c : Dev nD) : V46 m (OUTS m) c = W46 m c := upd2_eq (V45_eq m c) (StableHlo.devRef_ne_of_ne (by decide)) _ _
theorem V47_eq (c : Dev nD) : V47 m (OUTS m) c = W47 m c := congrArg (StableHlo.after hostOps13) (V46_eq m c)

end Cert.Kernel.Hand

end
-- ==== Proof.KExit.lean ====
import proofs.«131905_j73031623901536_2_alg».proof.Proof.KLevels
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

private theorem nim {n : ℕ} {f : Fin n → Ref sig .tc} {b : Ref sig .tc} (hb : b ∉ Finset.univ.image f) (w : Fin n) :
    (Proc.devRef .tc b : DevRef τ sig) ≠ Proc.devRef .tc (f w) :=
  StableHlo.devRef_ne_of_ne fun e => hb (Finset.mem_image.mpr ⟨w, Finset.mem_univ _, e.symm⟩)

set_option maxHeartbeats 1000000 in
theorem hF0_0 (c : Dev nD) : (dat0 (E5 m) c).arrAt 0 cfg0.N = E6 m c (Pipeline.arrRef spec0 0) :=
  ((dat0 (E5 m) c).arrAt_in 0 rfl _).trans ((A_eq0 (E5 m) c 0).trans (W6_of_ne m c (Proc.devRef .tc (Pipeline.arrRef spec0 0)) (StableHlo.devRef_ne_of_ne (by decide))).symm)
set_option maxHeartbeats 1000000 in
theorem hF0_1 (c : Dev nD) : (dat0 (E5 m) c).arrAt 1 cfg0.N = E6 m c (Pipeline.arrRef spec0 1) :=
  ((dat0 (E5 m) c).arrAt_in 1 rfl _).trans ((A_eq0 (E5 m) c 1).trans (W6_of_ne m c (Proc.devRef .tc (Pipeline.arrRef spec0 1)) (StableHlo.devRef_ne_of_ne (by decide))).symm)
theorem hF0 (c : Dev nD) (w : Fin cfg0.W) : (dat0 (E5 m) c).arrAt w cfg0.N = E6 m c (Pipeline.arrRef spec0 w) :=
  match w with
  | ⟨0, _⟩ => hF0_0 m c
  | ⟨1, _⟩ => hF0_1 m c
  | ⟨2, _⟩ => (W6_at_main_v40 m c).symm
theorem hrest0 (c : Dev nD) : ∀ b, b ∉ Finset.univ.image (Pipeline.arrRef spec0) → E6 m c b = E5 m c b := fun b hb =>
  W6_of_ne m c _ (nim hb 2)
set_option maxHeartbeats 1000000 in
theorem hF1_0 (c : Dev nD) : (dat1 (E7 m) c).arrAt 0 cfg1.N = E8 m c (Pipeline.arrRef spec1 0) :=
  ((dat1 (E7 m) c).arrAt_in 0 rfl _).trans ((A_eq1 (E7 m) c 0).trans (W8_of_ne m c (Proc.devRef .tc (Pipeline.arrRef spec1 0)) (StableHlo.devRef_ne_of_ne (by decide)) (StableHlo.devRef_ne_of_ne (by decide))).symm)
set_option maxHeartbeats 1000000 in
theorem hF1_1 (c : Dev nD) : (dat1 (E7 m) c).arrAt 1 cfg1.N = E8 m c (Pipeline.arrRef spec1 1) :=
  ((dat1 (E7 m) c).arrAt_in 1 rfl _).trans ((A_eq1 (E7 m) c 1).trans (W8_of_ne m c (Proc.devRef .tc (Pipeline.arrRef spec1 1)) (StableHlo.devRef_ne_of_ne (by decide)) (StableHlo.devRef_ne_of_ne (by decide))).symm)
set_option maxHeartbeats 1000000 in
theorem hF1_2 (c : Dev nD) : (dat1 (E7 m) c).arrAt 2 cfg1.N = E8 m c (Pipeline.arrRef spec1 2) :=
  ((dat1 (E7 m) c).arrAt_in 2 rfl _).trans ((A_eq1 (E7 m) c 2).trans (W8_of_ne m c (Proc.devRef .tc (Pipeline.arrRef spec1 2)) (StableHlo.devRef_ne_of_ne (by decide)) (StableHlo.devRef_ne_of_ne (by decide))).symm)
set_option maxHeartbeats 1000000 in
theorem hF1_3 (c : Dev nD) : (dat1 (E7 m) c).arrAt 3 cfg1.N = E8 m c (Pipeline.arrRef spec1 3) :=
  ((dat1 (E7 m) c).arrAt_in 3 rfl _).trans ((A_eq1 (E7 m) c 3).trans (W8_of_ne m c (Proc.devRef .tc (Pipeline.arrRef spec1 3)) (StableHlo.devRef_ne_of_ne (by decide)) (StableHlo.devRef_ne_of_ne (by decide))).symm)
theorem hF1 (c : Dev nD) (w : Fin cfg1.W) : (dat1 (E7 m) c).arrAt w cfg1.N = E8 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => (W8_at_main_v57_0 m c).symm
  | ⟨5, _⟩ => (W8_at_main_v57_1 m c).symm
theorem hrest1 (c : Dev nD) : ∀ b, b ∉ Finset.univ.image (Pipeline.arrRef spec1) → E8 m c b = E7 m c b := fun b hb =>
  W8_of_ne m c _ (nim hb 4) (nim hb 5)
set_option maxHeartbeats 1000000 in
theorem hF2_0 (c : Dev nD) : (dat2 (E9 m) c).arrAt 0 cfg2.N = E10 m c (Pipeline.arrRef spec2 0) :=
  ((dat2 (E9 m) c).arrAt_in 0 rfl _).trans ((A_eq2 (E9 m) c 0).trans (W10_of_ne m c (Proc.devRef .tc (Pipeline.arrRef spec2 0)) (StableHlo.devRef_ne_of_ne (by decide))).symm)
set_option maxHeartbeats 1000000 in
theorem hF2_1 (c : Dev nD) : (dat2 (E9 m) c).arrAt 1 cfg2.N = E10 m c (Pipeline.arrRef spec2 1) :=
  ((dat2 (E9 m) c).arrAt_in 1 rfl _).trans ((A_eq2 (E9 m) c 1).trans (W10_of_ne m c (Proc.devRef .tc (Pipeline.arrRef spec2 1)) (StableHlo.devRef_ne_of_ne (by decide))).symm)
theorem hF2 (c : Dev nD) (w : Fin cfg2.W) : (dat2 (E9 m) c).arrAt w cfg2.N = E10 m c (Pipeline.arrRef spec2 w) :=
  match w with
  | ⟨0, _⟩ => hF2_0 m c
  | ⟨1, _⟩ => hF2_1 m c
  | ⟨2, _⟩ => (W10_at_main_v60 m c).symm
theorem hrest2 (c : Dev nD) : ∀ b, b ∉ Finset.univ.image (Pipeline.arrRef spec2) → E10 m c b = E9 m c b := fun b hb =>
  W10_of_ne m c _ (nim hb 2)
set_option maxHeartbeats 1000000 in
theorem hF3_0 (c : Dev nD) : (dat3 (E11 m) c).arrAt 0 cfg3.N = E12 m c (Pipeline.arrRef spec3 0) :=
  ((dat3 (E11 m) c).arrAt_in 0 rfl _).trans ((A_eq3 (E11 m) c 0).trans (W12_of_ne m c (Proc.devRef .tc (Pipeline.arrRef spec3 0)) (StableHlo.devRef_ne_of_ne (by decide)) (StableHlo.devRef_ne_of_ne (by decide))).symm)
set_option maxHeartbeats 1000000 in
theorem hF3_1 (c : Dev nD) : (dat3 (E11 m) c).arrAt 1 cfg3.N = E12 m c (Pipeline.arrRef spec3 1) :=
  ((dat3 (E11 m) c).arrAt_in 1 rfl _).trans ((A_eq3 (E11 m) c 1).trans (W12_of_ne m c (Proc.devRef .tc (Pipeline.arrRef spec3 1)) (StableHlo.devRef_ne_of_ne (by decide)) (StableHlo.devRef_ne_of_ne (by decide))).symm)
set_option maxHeartbeats 1000000 in
theorem hF3_2 (c : Dev nD) : (dat3 (E11 m) c).arrAt 2 cfg3.N = E12 m c (Pipeline.arrRef spec3 2) :=
  ((dat3 (E11 m) c).arrAt_in 2 rfl _).trans ((A_eq3 (E11 m) c 2).trans (W12_of_ne m c (Proc.devRef .tc (Pipeline.arrRef spec3 2)) (StableHlo.devRef_ne_of_ne (by decide)) (StableHlo.devRef_ne_of_ne (by decide))).symm)
set_option maxHeartbeats 1000000 in
theorem hF3_3 (c : Dev nD) : (dat3 (E11 m) c).arrAt 3 cfg3.N = E12 m c (Pipeline.arrRef spec3 3) :=
  ((dat3 (E11 m) c).arrAt_in 3 rfl _).trans ((A_eq3 (E11 m) c 3).trans (W12_of_ne m c (Proc.devRef .tc (Pipeline.arrRef spec3 3)) (StableHlo.devRef_ne_of_ne (by decide)) (StableHlo.devRef_ne_of_ne (by decide))).symm)
theorem hF3 (c : Dev nD) (w : Fin cfg3.W) : (dat3 (E11 m) c).arrAt w cfg3.N = E12 m c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => (W12_at_main_v77_0 m c).symm
  | ⟨5, _⟩ => (W12_at_main_v77_1 m c).symm
theorem hrest3 (c : Dev nD) : ∀ b, b ∉ Finset.univ.image (Pipeline.arrRef spec3) → E12 m c b = E11 m c b := fun b hb =>
  W12_of_ne m c _ (nim hb 4) (nim hb 5)
set_option maxHeartbeats 1000000 in
theorem hF4_0 (c : Dev nD) : (dat4 (E13 m) c).arrAt 0 cfg4.N = E14 m c (Pipeline.arrRef spec4 0) :=
  ((dat4 (E13 m) c).arrAt_in 0 rfl _).trans ((A_eq4 (E13 m) c 0).trans (W14_of_ne m c (Proc.devRef .tc (Pipeline.arrRef spec4 0)) (StableHlo.devRef_ne_of_ne (by decide)) (StableHlo.devRef_ne_of_ne (by decide))).symm)
set_option maxHeartbeats 1000000 in
theorem hF4_1 (c : Dev nD) : (dat4 (E13 m) c).arrAt 1 cfg4.N = E14 m c (Pipeline.arrRef spec4 1) :=
  ((dat4 (E13 m) c).arrAt_in 1 rfl _).trans ((A_eq4 (E13 m) c 1).trans (W14_of_ne m c (Proc.devRef .tc (Pipeline.arrRef spec4 1)) (StableHlo.devRef_ne_of_ne (by decide)) (StableHlo.devRef_ne_of_ne (by decide))).symm)
set_option maxHeartbeats 1000000 in
theorem hF4_2 (c : Dev nD) : (dat4 (E13 m) c).arrAt 2 cfg4.N = E14 m c (Pipeline.arrRef spec4 2) :=
  ((dat4 (E13 m) c).arrAt_in 2 rfl _).trans ((A_eq4 (E13 m) c 2).trans (W14_of_ne m c (Proc.devRef .tc (Pipeline.arrRef spec4 2)) (StableHlo.devRef_ne_of_ne (by decide)) (StableHlo.devRef_ne_of_ne (by decide))).symm)
theorem hF4 (c : Dev nD) (w : Fin cfg4.W) : (dat4 (E13 m) c).arrAt w cfg4.N = E14 m c (Pipeline.arrRef spec4 w) :=
  match w with
  | ⟨0, _⟩ => hF4_0 m c
  | ⟨1, _⟩ => hF4_1 m c
  | ⟨2, _⟩ => hF4_2 m c
  | ⟨3, _⟩ => (W14_at_main_v81_0 m c).symm
  | ⟨4, _⟩ => (W14_at_main_v81_1 m c).symm
theorem hrest4 (c : Dev nD) : ∀ b, b ∉ Finset.univ.image (Pipeline.arrRef spec4) → E14 m c b = E13 m c b := fun b hb =>
  W14_of_ne m c _ (nim hb 3) (nim hb 4)
set_option maxHeartbeats 1000000 in
theorem hF5_0 (c : Dev nD) : (dat5 (E23 m) c).arrAt 0 cfg5.N = E24 m c (Pipeline.arrRef spec5 0) :=
  ((dat5 (E23 m) c).arrAt_in 0 rfl _).trans ((A_eq5 (E23 m) c 0).trans (W24_of_ne m c (Proc.devRef .tc (Pipeline.arrRef spec5 0)) (StableHlo.devRef_ne_of_ne (by decide))).symm)
set_option maxHeartbeats 1000000 in
theorem hF5_1 (c : Dev nD) : (dat5 (E23 m) c).arrAt 1 cfg5.N = E24 m c (Pipeline.arrRef spec5 1) :=
  ((dat5 (E23 m) c).arrAt_in 1 rfl _).trans ((A_eq5 (E23 m) c 1).trans (W24_of_ne m c (Proc.devRef .tc (Pipeline.arrRef spec5 1)) (StableHlo.devRef_ne_of_ne (by decide))).symm)
theorem hF5 (c : Dev nD) (w : Fin cfg5.W) : (dat5 (E23 m) c).arrAt w cfg5.N = E24 m c (Pipeline.arrRef spec5 w) :=
  match w with
  | ⟨0, _⟩ => hF5_0 m c
  | ⟨1, _⟩ => hF5_1 m c
  | ⟨2, _⟩ => (W24_at_main_v111 m c).symm
theorem hrest5 (c : Dev nD) : ∀ b, b ∉ Finset.univ.image (Pipeline.arrRef spec5) → E24 m c b = E23 m c b := fun b hb =>
  W24_of_ne m c _ (nim hb 2)
set_option maxHeartbeats 1000000 in
theorem hF6_0 (c : Dev nD) : (dat6 (E25 m) c).arrAt 0 cfg6.N = E26 m c (Pipeline.arrRef spec6 0) :=
  ((dat6 (E25 m) c).arrAt_in 0 rfl _).trans ((A_eq6 (E25 m) c 0).trans (W26_of_ne m c (Proc.devRef .tc (Pipeline.arrRef spec6 0)) (StableHlo.devRef_ne_of_ne (by decide)) (StableHlo.devRef_ne_of_ne (by decide))).symm)
set_option maxHeartbeats 1000000 in
theorem hF6_1 (c : Dev nD) : (dat6 (E25 m) c).arrAt 1 cfg6.N = E26 m c (Pipeline.arrRef spec6 1) :=
  ((dat6 (E25 m) c).arrAt_in 1 rfl _).trans ((A_eq6 (E25 m) c 1).trans (W26_of_ne m c (Proc.devRef .tc (Pipeline.arrRef spec6 1)) (StableHlo.devRef_ne_of_ne (by decide)) (StableHlo.devRef_ne_of_ne (by decide))).symm)
set_option maxHeartbeats 1000000 in
theorem hF6_2 (c : Dev nD) : (dat6 (E25 m) c).arrAt 2 cfg6.N = E26 m c (Pipeline.arrRef spec6 2) :=
  ((dat6 (E25 m) c).arrAt_in 2 rfl _).trans ((A_eq6 (E25 m) c 2).trans (W26_of_ne m c (Proc.devRef .tc (Pipeline.arrRef spec6 2)) (StableHlo.devRef_ne_of_ne (by decide)) (StableHlo.devRef_ne_of_ne (by decide))).symm)
set_option maxHeartbeats 1000000 in
theorem hF6_3 (c : Dev nD) : (dat6 (E25 m) c).arrAt 3 cfg6.N = E26 m c (Pipeline.arrRef spec6 3) :=
  ((dat6 (E25 m) c).arrAt_in 3 rfl _).trans ((A_eq6 (E25 m) c 3).trans (W26_of_ne m c (Proc.devRef .tc (Pipeline.arrRef spec6 3)) (StableHlo.devRef_ne_of_ne (by decide)) (StableHlo.devRef_ne_of_ne (by decide))).symm)
theorem hF6 (c : Dev nD) (w : Fin cfg6.W) : (dat6 (E25 m) c).arrAt w cfg6.N = E26 m c (Pipeline.arrRef spec6 w) :=
  match w with
  | ⟨0, _⟩ => hF6_0 m c
  | ⟨1, _⟩ => hF6_1 m c
  | ⟨2, _⟩ => hF6_2 m c
  | ⟨3, _⟩ => hF6_3 m c
  | ⟨4, _⟩ => (W26_at_main_v141_0 m c).symm
  | ⟨5, _⟩ => (W26_at_main_v141_1 m c).symm
theorem hrest6 (c : Dev nD) : ∀ b, b ∉ Finset.univ.image (Pipeline.arrRef spec6) → E26 m c b = E25 m c b := fun b hb =>
  W26_of_ne m c _ (nim hb 4) (nim hb 5)
set_option maxHeartbeats 1000000 in
theorem hF7_0 (c : Dev nD) : (dat7 (E27 m) c).arrAt 0 cfg7.N = E28 m c (Pipeline.arrRef spec7 0) :=
  ((dat7 (E27 m) c).arrAt_in 0 rfl _).trans ((A_eq7 (E27 m) c 0).trans (W28_of_ne m c (Proc.devRef .tc (Pipeline.arrRef spec7 0)) (StableHlo.devRef_ne_of_ne (by decide))).symm)
set_option maxHeartbeats 1000000 in
theorem hF7_1 (c : Dev nD) : (dat7 (E27 m) c).arrAt 1 cfg7.N = E28 m c (Pipeline.arrRef spec7 1) :=
  ((dat7 (E27 m) c).arrAt_in 1 rfl _).trans ((A_eq7 (E27 m) c 1).trans (W28_of_ne m c (Proc.devRef .tc (Pipeline.arrRef spec7 1)) (StableHlo.devRef_ne_of_ne (by decide))).symm)
theorem hF7 (c : Dev nD) (w : Fin cfg7.W) : (dat7 (E27 m) c).arrAt w cfg7.N = E28 m c (Pipeline.arrRef spec7 w) :=
  match w with
  | ⟨0, _⟩ => hF7_0 m c
  | ⟨1, _⟩ => hF7_1 m c
  | ⟨2, _⟩ => (W28_at_main_v144 m c).symm
theorem hrest7 (c : Dev nD) : ∀ b, b ∉ Finset.univ.image (Pipeline.arrRef spec7) → E28 m c b = E27 m c b := fun b hb =>
  W28_of_ne m c _ (nim hb 2)
set_option maxHeartbeats 1000000 in
theorem hF8_0 (c : Dev nD) : (dat8 (E29 m) c).arrAt 0 cfg8.N = E30 m c (Pipeline.arrRef spec8 0) :=
  ((dat8 (E29 m) c).arrAt_in 0 rfl _).trans ((A_eq8 (E29 m) c 0).trans (W30_of_ne m c (Proc.devRef .tc (Pipeline.arrRef spec8 0)) (StableHlo.devRef_ne_of_ne (by decide)) (StableHlo.devRef_ne_of_ne (by decide))).symm)
set_option maxHeartbeats 1000000 in
theorem hF8_1 (c : Dev nD) : (dat8 (E29 m) c).arrAt 1 cfg8.N = E30 m c (Pipeline.arrRef spec8 1) :=
  ((dat8 (E29 m) c).arrAt_in 1 rfl _).trans ((A_eq8 (E29 m) c 1).trans (W30_of_ne m c (Proc.devRef .tc (Pipeline.arrRef spec8 1)) (StableHlo.devRef_ne_of_ne (by decide)) (StableHlo.devRef_ne_of_ne (by decide))).symm)
set_option maxHeartbeats 1000000 in
theorem hF8_2 (c : Dev nD) : (dat8 (E29 m) c).arrAt 2 cfg8.N = E30 m c (Pipeline.arrRef spec8 2) :=
  ((dat8 (E29 m) c).arrAt_in 2 rfl _).trans ((A_eq8 (E29 m) c 2).trans (W30_of_ne m c (Proc.devRef .tc (Pipeline.arrRef spec8 2)) (StableHlo.devRef_ne_of_ne (by decide)) (StableHlo.devRef_ne_of_ne (by decide))).symm)
set_option maxHeartbeats 1000000 in
theorem hF8_3 (c : Dev nD) : (dat8 (E29 m) c).arrAt 3 cfg8.N = E30 m c (Pipeline.arrRef spec8 3) :=
  ((dat8 (E29 m) c).arrAt_in 3 rfl _).trans ((A_eq8 (E29 m) c 3).trans (W30_of_ne m c (Proc.devRef .tc (Pipeline.arrRef spec8 3)) (StableHlo.devRef_ne_of_ne (by decide)) (StableHlo.devRef_ne_of_ne (by decide))).symm)
theorem hF8 (c : Dev nD) (w : Fin cfg8.W) : (dat8 (E29 m) c).arrAt w cfg8.N = E30 m c (Pipeline.arrRef spec8 w) :=
  match w with
  | ⟨0, _⟩ => hF8_0 m c
  | ⟨1, _⟩ => hF8_1 m c
  | ⟨2, _⟩ => hF8_2 m c
  | ⟨3, _⟩ => hF8_3 m c
  | ⟨4, _⟩ => (W30_at_main_v174_0 m c).symm
  | ⟨5, _⟩ => (W30_at_main_v174_1 m c).symm
theorem hrest8 (c : Dev nD) : ∀ b, b ∉ Finset.univ.image (Pipeline.arrRef spec8) → E30 m c b = E29 m c b := fun b hb =>
  W30_of_ne m c _ (nim hb 4) (nim hb 5)
set_option maxHeartbeats 1000000 in
theorem hF9_0 (c : Dev nD) : (dat9 (E39 m) c).arrAt 0 cfg9.N = E40 m c (Pipeline.arrRef spec9 0) :=
  ((dat9 (E39 m) c).arrAt_in 0 rfl _).trans ((A_eq9 (E39 m) c 0).trans (W40_of_ne m c (Proc.devRef .tc (Pipeline.arrRef spec9 0)) (StableHlo.devRef_ne_of_ne (by decide))).symm)
set_option maxHeartbeats 1000000 in
theorem hF9_1 (c : Dev nD) : (dat9 (E39 m) c).arrAt 1 cfg9.N = E40 m c (Pipeline.arrRef spec9 1) :=
  ((dat9 (E39 m) c).arrAt_in 1 rfl _).trans ((A_eq9 (E39 m) c 1).trans (W40_of_ne m c (Proc.devRef .tc (Pipeline.arrRef spec9 1)) (StableHlo.devRef_ne_of_ne (by decide))).symm)
theorem hF9 (c : Dev nD) (w : Fin cfg9.W) : (dat9 (E39 m) c).arrAt w cfg9.N = E40 m c (Pipeline.arrRef spec9 w) :=
  match w with
  | ⟨0, _⟩ => hF9_0 m c
  | ⟨1, _⟩ => hF9_1 m c
  | ⟨2, _⟩ => (W40_at_main_v245 m c).symm
theorem hrest9 (c : Dev nD) : ∀ b, b ∉ Finset.univ.image (Pipeline.arrRef spec9) → E40 m c b = E39 m c b := fun b hb =>
  W40_of_ne m c _ (nim hb 2)
set_option maxHeartbeats 1000000 in
theorem hF10_0 (c : Dev nD) : (dat10 (E41 m) c).arrAt 0 cfg10.N = E42 m c (Pipeline.arrRef spec10 0) :=
  ((dat10 (E41 m) c).arrAt_in 0 rfl _).trans ((A_eq10 (E41 m) c 0).trans (W42_of_ne m c (Proc.devRef .tc (Pipeline.arrRef spec10 0)) (StableHlo.devRef_ne_of_ne (by decide)) (StableHlo.devRef_ne_of_ne (by decide))).symm)
set_option maxHeartbeats 1000000 in
theorem hF10_1 (c : Dev nD) : (dat10 (E41 m) c).arrAt 1 cfg10.N = E42 m c (Pipeline.arrRef spec10 1) :=
  ((dat10 (E41 m) c).arrAt_in 1 rfl _).trans ((A_eq10 (E41 m) c 1).trans (W42_of_ne m c (Proc.devRef .tc (Pipeline.arrRef spec10 1)) (StableHlo.devRef_ne_of_ne (by decide)) (StableHlo.devRef_ne_of_ne (by decide))).symm)
set_option maxHeartbeats 1000000 in
theorem hF10_2 (c : Dev nD) : (dat10 (E41 m) c).arrAt 2 cfg10.N = E42 m c (Pipeline.arrRef spec10 2) :=
  ((dat10 (E41 m) c).arrAt_in 2 rfl _).trans ((A_eq10 (E41 m) c 2).trans (W42_of_ne m c (Proc.devRef .tc (Pipeline.arrRef spec10 2)) (StableHlo.devRef_ne_of_ne (by decide)) (StableHlo.devRef_ne_of_ne (by decide))).symm)
set_option maxHeartbeats 1000000 in
theorem hF10_3 (c : Dev nD) : (dat10 (E41 m) c).arrAt 3 cfg10.N = E42 m c (Pipeline.arrRef spec10 3) :=
  ((dat10 (E41 m) c).arrAt_in 3 rfl _).trans ((A_eq10 (E41 m) c 3).trans (W42_of_ne m c (Proc.devRef .tc (Pipeline.arrRef spec10 3)) (StableHlo.devRef_ne_of_ne (by decide)) (StableHlo.devRef_ne_of_ne (by decide))).symm)
theorem hF10 (c : Dev nD) (w : Fin cfg10.W) : (dat10 (E41 m) c).arrAt w cfg10.N = E42 m c (Pipeline.arrRef spec10 w) :=
  match w with
  | ⟨0, _⟩ => hF10_0 m c
  | ⟨1, _⟩ => hF10_1 m c
  | ⟨2, _⟩ => hF10_2 m c
  | ⟨3, _⟩ => hF10_3 m c
  | ⟨4, _⟩ => (W42_at_main_v262_0 m c).symm
  | ⟨5, _⟩ => (W42_at_main_v262_1 m c).symm
theorem hrest10 (c : Dev nD) : ∀ b, b ∉ Finset.univ.image (Pipeline.arrRef spec10) → E42 m c b = E41 m c b := fun b hb =>
  W42_of_ne m c _ (nim hb 4) (nim hb 5)
set_option maxHeartbeats 1000000 in
theorem hF11_0 (c : Dev nD) : (dat11 (E43 m) c).arrAt 0 cfg11.N = E44 m c (Pipeline.arrRef spec11 0) :=
  ((dat11 (E43 m) c).arrAt_in 0 rfl _).trans ((A_eq11 (E43 m) c 0).trans (W44_of_ne m c (Proc.devRef .tc (Pipeline.arrRef spec11 0)) (StableHlo.devRef_ne_of_ne (by decide))).symm)
set_option maxHeartbeats 1000000 in
theorem hF11_1 (c : Dev nD) : (dat11 (E43 m) c).arrAt 1 cfg11.N = E44 m c (Pipeline.arrRef spec11 1) :=
  ((dat11 (E43 m) c).arrAt_in 1 rfl _).trans ((A_eq11 (E43 m) c 1).trans (W44_of_ne m c (Proc.devRef .tc (Pipeline.arrRef spec11 1)) (StableHlo.devRef_ne_of_ne (by decide))).symm)
theorem hF11 (c : Dev nD) (w : Fin cfg11.W) : (dat11 (E43 m) c).arrAt w cfg11.N = E44 m c (Pipeline.arrRef spec11 w) :=
  match w with
  | ⟨0, _⟩ => hF11_0 m c
  | ⟨1, _⟩ => hF11_1 m c
  | ⟨2, _⟩ => (W44_at_main_v265 m c).symm
theorem hrest11 (c : Dev nD) : ∀ b, b ∉ Finset.univ.image (Pipeline.arrRef spec11) → E44 m c b = E43 m c b := fun b hb =>
  W44_of_ne m c _ (nim hb 2)
set_option maxHeartbeats 1000000 in
theorem hF12_0 (c : Dev nD) : (dat12 (E45 m) c).arrAt 0 cfg12.N = E46 m c (Pipeline.arrRef spec12 0) :=
  ((dat12 (E45 m) c).arrAt_in 0 rfl _).trans ((A_eq12 (E45 m) c 0).trans (W46_of_ne m c (Proc.devRef .tc (Pipeline.arrRef spec12 0)) (StableHlo.devRef_ne_of_ne (by decide)) (StableHlo.devRef_ne_of_ne (by decide))).symm)
set_option maxHeartbeats 1000000 in
theorem hF12_1 (c : Dev nD) : (dat12 (E45 m) c).arrAt 1 cfg12.N = E46 m c (Pipeline.arrRef spec12 1) :=
  ((dat12 (E45 m) c).arrAt_in 1 rfl _).trans ((A_eq12 (E45 m) c 1).trans (W46_of_ne m c (Proc.devRef .tc (Pipeline.arrRef spec12 1)) (StableHlo.devRef_ne_of_ne (by decide)) (StableHlo.devRef_ne_of_ne (by decide))).symm)
set_option maxHeartbeats 1000000 in
theorem hF12_2 (c : Dev nD) : (dat12 (E45 m) c).arrAt 2 cfg12.N = E46 m c (Pipeline.arrRef spec12 2) :=
  ((dat12 (E45 m) c).arrAt_in 2 rfl _).trans ((A_eq12 (E45 m) c 2).trans (W46_of_ne m c (Proc.devRef .tc (Pipeline.arrRef spec12 2)) (StableHlo.devRef_ne_of_ne (by decide)) (StableHlo.devRef_ne_of_ne (by decide))).symm)
set_option maxHeartbeats 1000000 in
theorem hF12_3 (c : Dev nD) : (dat12 (E45 m) c).arrAt 3 cfg12.N = E46 m c (Pipeline.arrRef spec12 3) :=
  ((dat12 (E45 m) c).arrAt_in 3 rfl _).trans ((A_eq12 (E45 m) c 3).trans (W46_of_ne m c (Proc.devRef .tc (Pipeline.arrRef spec12 3)) (StableHlo.devRef_ne_of_ne (by decide)) (StableHlo.devRef_ne_of_ne (by decide))).symm)
theorem hF12 (c : Dev nD) (w : Fin cfg12.W) : (dat12 (E45 m) c).arrAt w cfg12.N = E46 m c (Pipeline.arrRef spec12 w) :=
  match w with
  | ⟨0, _⟩ => hF12_0 m c
  | ⟨1, _⟩ => hF12_1 m c
  | ⟨2, _⟩ => hF12_2 m c
  | ⟨3, _⟩ => hF12_3 m c
  | ⟨4, _⟩ => (W46_at_main_v282_0 m c).symm
  | ⟨5, _⟩ => (W46_at_main_v282_1 m c).symm
theorem hrest12 (c : Dev nD) : ∀ b, b ∉ Finset.univ.image (Pipeline.arrRef spec12) → E46 m c b = E45 m c b := fun b hb =>
  W46_of_ne m c _ (nim hb 4) (nim hb 5)

def pdats : (p : Fin 13) → (c : Dev nD) → Dat τ (Elt F) Unit ℕ (UR sig nD τ) ℕ (cfgs p) c
  | ⟨0, _⟩ => fun c => dat0 (E5 m) c
  | ⟨1, _⟩ => fun c => dat1 (E7 m) c
  | ⟨2, _⟩ => fun c => dat2 (E9 m) c
  | ⟨3, _⟩ => fun c => dat3 (E11 m) c
  | ⟨4, _⟩ => fun c => dat4 (E13 m) c
  | ⟨5, _⟩ => fun c => dat5 (E23 m) c
  | ⟨6, _⟩ => fun c => dat6 (E25 m) c
  | ⟨7, _⟩ => fun c => dat7 (E27 m) c
  | ⟨8, _⟩ => fun c => dat8 (E29 m) c
  | ⟨9, _⟩ => fun c => dat9 (E39 m) c
  | ⟨10, _⟩ => fun c => dat10 (E41 m) c
  | ⟨11, _⟩ => fun c => dat11 (E43 m) c
  | ⟨12, _⟩ => fun c => dat12 (E45 m) c
abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

end Cert.Kernel.Hand

end
-- ==== Proof.SharedPair.lean ====
import Idealize.ShloMosaic.Lib.Pipeline.Launch

namespace Cert

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Val : EltTy → Type} {Λ₀ : Sem.Labels}
  {Ix : Type} [DecidableEq Ix] {Name : Type} [DecidableEq Name] {U : Type} [URA U] {Lvl : Type}
  {cfg : Cfg sig Λ₀} {c : Dev nD}

local notation "𝕄" => MT nD τ sig Ix Val Name U Lvl

/-- Windows `i` and `j` name one array and hold it at the two halves of the full share; every other window holds an array of its own, whole. -/
structure SharedPair (dat : Dat τ Val Ix Name U Lvl cfg c) (i j : Fin cfg.W) : Prop where
  ne : i ≠ j
  ref : arrRef cfg.spec i = arrRef cfg.spec j
  inj : ∀ x ∈ Finset.univ.erase j, ∀ y ∈ Finset.univ.erase j, arrRef cfg.spec x = arrRef cfg.spec y → x = y
  unscoped : ∀ w, (arrRef cfg.spec w).isScoped = false
  whole : ∀ w, (cfg.spec w).arr.IsWhole
  left : dat.share i = fullShare.left
  right : dat.share j = fullShare.right
  full : ∀ w, w ≠ i → w ≠ j → dat.share w = fullShare

namespace SharedPair

variable {dat : Dat τ Val Ix Name U Lvl cfg c} {i j : Fin cfg.W} (h : SharedPair dat i j)
  (V V' : (b : Ref sig .tc) → Buf Val ((c : Thread nD τ).loc b))
  (F : (w : Fin cfg.W) → Buf Val ((cfg.win w).arr.view.loc (c : Thread nD τ)))

include h

/-- The two halves of a share compose to it, so the distinct buffers behind the arrays, each whole, are the windows' arrays at the same contents. -/
theorem arrays (hF : ∀ w, F w = V (arrRef cfg.spec w)) : (arrBufs cfg.spec c V : sProp 𝕄) ⊣⊢ dat.arrays F := by
  classical
  have hi : i ∈ Finset.univ.erase j := Finset.mem_erase.mpr ⟨h.ne, Finset.mem_univ _⟩
  have himg : Finset.univ.image (arrRef cfg.spec) = (Finset.univ.erase j).image (arrRef cfg.spec) := by
    conv_lhs => rw [← Finset.insert_erase (Finset.mem_univ j), Finset.image_insert]
    exact Finset.insert_eq_of_mem (Finset.mem_image.mpr ⟨i, hi, h.ref⟩)
  have hb : (arrBufs cfg.spec c V : sProp 𝕄)
      = bigSep (Finset.univ.erase j) fun w => (((c : Thread nD τ).loc (arrRef cfg.spec w)) ↦{fullShare} V (arrRef cfg.spec w) : sProp 𝕄) := by
    unfold arrBufs; rw [himg]; exact Finset.fold_image h.inj
  have hij : ∀ b b' (_ : b = b'), (((c : Thread nD τ).loc b) ↦{fullShare} V b : sProp 𝕄)
      ⊣⊢ iprop((((c : Thread nD τ).loc b') ↦{fullShare.right} V b') ∗ ((c : Thread nD τ).loc b) ↦{fullShare.left} V b) := by
    rintro b _ rfl; exact (pointsTo_share (PosShare.mem_left_op_right fullShare)).trans sep_comm
  unfold Dat.arrays
  rw [hb, bigSep_erase hi, bigSep_univ_split j, bigSep_erase hi, (h.whole i).set_eq_univ, (h.whole j).set_eq_univ, h.left, h.right, hF i, hF j]
  exact (sep_congr (hij _ _ h.ref) (.of_eq (bigSep_congr fun w hw => by
    rw [(h.whole w).set_eq_univ, h.full w (Finset.ne_of_mem_erase hw) (Finset.ne_of_mem_erase (Finset.mem_of_mem_erase hw)), hF]))).trans sep_assoc

/-- Split the arrays' buffers off the unscoped ones and regroup them by `arrays`. -/
theorem entry (hA : ∀ w, dat.A w = V (arrRef cfg.spec w)) :
    (unscopedBufs c V : sProp 𝕄) ⊢ iprop(dat.arrays (dat.arrAt · 0) ∗ unscopedRest cfg.spec c V) := by
  rw [unscopedBufs_split₀ (fun _ : Unit => cfg) () h.unscoped c V]
  exact sep_mono (h.arrays V _ hA).1 .rfl

/-- The same backwards: off the arrays `V'` is `V`, so the rest is as it was. -/
theorem exit (hF : ∀ w, F w = V' (arrRef cfg.spec w)) (hrest : ∀ b, b ∉ Finset.univ.image (arrRef cfg.spec) → V' b = V b) :
    iprop(dat.arrays F ∗ unscopedRest cfg.spec c V) ⊢ (unscopedBufs c V' : sProp 𝕄) := by
  rw [unscopedBufs_split₀ (fun _ : Unit => cfg) () h.unscoped c V']
  refine sep_mono (h.arrays V' F hF).2 (Entails.of_eq ?_)
  unfold unscopedRest
  exact bigSep_congr fun b hb => by rw [hrest b (Finset.mem_sdiff.mp hb).2]

end SharedPair

end Cert
-- ==== Proof.KShared1.lean ====
import proofs.«131905_j73031623901536_2_alg».proof.Proof.KRegion1
import proofs.«131905_j73031623901536_2_alg».proof.Proof.SharedPair

namespace Cert.Kernel.Hand

open Idealize.ShloMosaic Idealize.ShloMosaic.TcCoe Idealize.SL.BI Idealize.SL.BI.BIBase

variable {F : FTy → Type} [FloatOps F] (V : (c : Dev nD) → (b : Ref sig .tc) → Buf (Elt F) ((c : Thread nD τ).loc b))

local notation "𝕄" => MT nD τ sig Unit (Elt F) ℕ (UR sig nD τ) ℕ

/-- Windows 2 and 3 name one array and hold it at the two halves of the full share. -/
theorem pair1 (c : Dev nD) : SharedPair (dat1 V c) 2 3 where
  ne := by decide
  ref := rfl
  inj := by decide
  unscoped := Gen.winFacts₀1.arr_unscoped
  whole := Gen.arr_whole1
  left := rfl
  right := rfl
  full := fun
    | ⟨0, _⟩, _, _ => rfl | ⟨1, _⟩, _, _ => rfl | ⟨2, _⟩, h, _ => absurd rfl h | ⟨3, _⟩, _, h => absurd rfl h
    | ⟨4, _⟩, _, _ => rfl | ⟨5, _⟩, _, _ => rfl | ⟨_ + 6, h⟩, _, _ => absurd h (Nat.not_lt.2 (Nat.le_add_left _ _))

theorem entry1 (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) :=
  (pair1 V c).entry (V c) (A_eq1 V c)

theorem exit1 (V' : (c : Dev nD) → (b : Ref sig .tc) → Buf (Elt F) ((c : Thread nD τ).loc b)) (c : Dev nD)
    (hF : ∀ w, (dat1 V c).arrAt w cfg1.N = V' c (Pipeline.arrRef spec1 w))
    (hrest : ∀ b, b ∉ Finset.univ.image (Pipeline.arrRef spec1) → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c (V' c) : sProp 𝕄) :=
  (pair1 V c).exit (V c) (V' c) _ hF hrest

end Cert.Kernel.Hand
-- ==== Proof.KShared6.lean ====
import proofs.«131905_j73031623901536_2_alg».proof.Proof.KRegion6
import proofs.«131905_j73031623901536_2_alg».proof.Proof.SharedPair

namespace Cert.Kernel.Hand

open Idealize.ShloMosaic Idealize.ShloMosaic.TcCoe Idealize.SL.BI Idealize.SL.BI.BIBase

variable {F : FTy → Type} [FloatOps F] (V : (c : Dev nD) → (b : Ref sig .tc) → Buf (Elt F) ((c : Thread nD τ).loc b))

local notation "𝕄" => MT nD τ sig Unit (Elt F) ℕ (UR sig nD τ) ℕ

/-- Windows 2 and 3 name one array and hold it at the two halves of the full share. -/
theorem pair6 (c : Dev nD) : SharedPair (dat6 V c) 2 3 where
  ne := by decide
  ref := rfl
  inj := by decide
  unscoped := Gen.winFacts₀6.arr_unscoped
  whole := Gen.arr_whole6
  left := rfl
  right := rfl
  full := fun
    | ⟨0, _⟩, _, _ => rfl | ⟨1, _⟩, _, _ => rfl | ⟨2, _⟩, h, _ => absurd rfl h | ⟨3, _⟩, _, h => absurd rfl h
    | ⟨4, _⟩, _, _ => rfl | ⟨5, _⟩, _, _ => rfl | ⟨_ + 6, h⟩, _, _ => absurd h (Nat.not_lt.2 (Nat.le_add_left _ _))

theorem entry6 (c : Dev nD) :
    (unscopedBufs c (V c) : sProp 𝕄)
      ⊢ iprop((dat6 V c).arrays ((dat6 V c).arrAt · 0)
          ∗ Pipeline.unscopedRest (Ix := Unit) (Name := ℕ) (U := UR sig nD τ) (Lvl := ℕ) spec6 c (V c)) :=
  (pair6 V c).entry (V c) (A_eq6 V c)

theorem exit6 (V' : (c : Dev nD) → (b : Ref sig .tc) → Buf (Elt F) ((c : Thread nD τ).loc b)) (c : Dev nD)
    (hF : ∀ w, (dat6 V c).arrAt w cfg6.N = V' c (Pipeline.arrRef spec6 w))
    (hrest : ∀ b, b ∉ Finset.univ.image (Pipeline.arrRef spec6) → V' c b = V c b) :
    iprop((dat6 V c).arrays ((dat6 V c).arrAt · cfg6.N)
        ∗ Pipeline.unscopedRest (Ix := Unit) (Name := ℕ) (U := UR sig nD τ) (Lvl := ℕ) spec6 c (V c))
      ⊢ (unscopedBufs c (V' c) : sProp 𝕄) :=
  (pair6 V c).exit (V c) (V' c) _ hF hrest

end Cert.Kernel.Hand
-- ==== Proof.KShared10.lean ====
import proofs.«131905_j73031623901536_2_alg».proof.Proof.KRegion10
import proofs.«131905_j73031623901536_2_alg».proof.Proof.SharedPair

namespace Cert.Kernel.Hand

open Idealize.ShloMosaic Idealize.ShloMosaic.TcCoe Idealize.SL.BI Idealize.SL.BI.BIBase

variable {F : FTy → Type} [FloatOps F] (V : (c : Dev nD) → (b : Ref sig .tc) → Buf (Elt F) ((c : Thread nD τ).loc b))

local notation "𝕄" => MT nD τ sig Unit (Elt F) ℕ (UR sig nD τ) ℕ

/-- Windows 2 and 3 name one array and hold it at the two halves of the full share. -/
theorem pair10 (c : Dev nD) : SharedPair (dat10 V c) 2 3 where
  ne := by decide
  ref := rfl
  inj := by decide
  unscoped := Gen.winFacts₀10.arr_unscoped
  whole := Gen.arr_whole10
  left := rfl
  right := rfl
  full := fun
    | ⟨0, _⟩, _, _ => rfl | ⟨1, _⟩, _, _ => rfl | ⟨2, _⟩, h, _ => absurd rfl h | ⟨3, _⟩, _, h => absurd rfl h
    | ⟨4, _⟩, _, _ => rfl | ⟨5, _⟩, _, _ => rfl | ⟨_ + 6, h⟩, _, _ => absurd h (Nat.not_lt.2 (Nat.le_add_left _ _))

theorem entry10 (c : Dev nD) :
    (unscopedBufs c (V c) : sProp 𝕄)
      ⊢ iprop((dat10 V c).arrays ((dat10 V c).arrAt · 0)
          ∗ Pipeline.unscopedRest (Ix := Unit) (Name := ℕ) (U := UR sig nD τ) (Lvl := ℕ) spec10 c (V c)) :=
  (pair10 V c).entry (V c) (A_eq10 V c)

theorem exit10 (V' : (c : Dev nD) → (b : Ref sig .tc) → Buf (Elt F) ((c : Thread nD τ).loc b)) (c : Dev nD)
    (hF : ∀ w, (dat10 V c).arrAt w cfg10.N = V' c (Pipeline.arrRef spec10 w))
    (hrest : ∀ b, b ∉ Finset.univ.image (Pipeline.arrRef spec10) → V' c b = V c b) :
    iprop((dat10 V c).arrays ((dat10 V c).arrAt · cfg10.N)
        ∗ Pipeline.unscopedRest (Ix := Unit) (Name := ℕ) (U := UR sig nD τ) (Lvl := ℕ) spec10 c (V c))
      ⊢ (unscopedBufs c (V' c) : sProp 𝕄) :=
  (pair10 V c).exit (V c) (V' c) _ hF hrest

end Cert.Kernel.Hand
-- ==== Proof.KRegs.lean ====
import proofs.«131905_j73031623901536_2_alg».proof.Proof.KExit
import proofs.«131905_j73031623901536_2_alg».proof.Proof.KShared1
import proofs.«131905_j73031623901536_2_alg».proof.Proof.KShared6
import proofs.«131905_j73031623901536_2_alg».proof.Proof.KShared10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

-- Three fields that all thirteen proof data set to the same constants, so that a region's record can be written once for every `k`.
theorem pdats_std (k : Fin 13) (c : Dev nD) :
    (∀ t, (pdats m k c).Φ t = Pipeline.ΦA (cfgs k).spec c) ∧ (∀ t, (pdats m k c).owed t = 0)
      ∧ ∀ t, (pdats m k c).recorded t = Set.univ := by
  match k with
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ => exact ⟨fun _ => rfl, fun _ => rfl, fun _ => rfl⟩

abbrev bufsOf (W : Dev nD → Valuation τ sig (Elt F)) (c : Dev nD) (b : Ref sig .tc) : Buf (Elt F) ((c : Thread nD τ).loc b) := W c b

-- A region entered with the unscoped buffers at `Wi` and left with them at `Wo`: its four entailments follow from the two regroupings of those buffers around its arrays.
def mkReg (k : Fin 13) (win : Pipeline.WinFacts₀ (cfgs k).spec) (block_pos : ∀ w : Fin (cfgs k).W, 0 < ((cfgs k).spec w).block.numel)
    (stage_whole : ∀ (w : Fin (cfgs k).W) (s : Fin ((cfgs k).spec w).nbuf), (((cfgs k).spec w).stage s).IsWhole)
    (hbody : ∀ c, Pipeline.BodyObligationLoose (pdats m k c) (defs₀ (F := F)) 𝒱₀ () Set.univ)
    (Wi Wo : Dev nD → Valuation τ sig (Elt F))
    (hsplit : ∀ c, (unscopedBufs c (bufsOf Wi c) : sProp 𝕄)
      ⊢ iprop((pdats m k c).arrays ((pdats m k c).arrAt · 0) ∗ Pipeline.unscopedRest (Ix := Unit) (Name := ℕ) (U := UR sig nD τ) (Lvl := ℕ) (cfgs k).spec c (bufsOf Wi c)))
    (hjoin : ∀ c, (iprop((pdats m k c).arrays ((pdats m k c).arrAt · (cfgs k).N) ∗ Pipeline.unscopedRest (Ix := Unit) (Name := ℕ) (U := UR sig nD τ) (Lvl := ℕ) (cfgs k).spec c (bufsOf Wi c)) : sProp 𝕄)
      ⊢ (unscopedBufs c (bufsOf Wo c) : sProp 𝕄)) :
    Pipeline.RegionSeg (pcfgs (F := F)) adm (pdats m) () defs₀ 𝒱₀ L lv k where
  win := win
  block_pos := block_pos
  stage_whole := stage_whole
  K := PEmpty
  osem k := k.elim
  ho := Pipeline.OwnSemFacts.none _
  hbody := hbody
  hwaits := Pipeline.hwaits_of_owed_zero _ _ _ _ L lv k fun c => (pdats_std m k c).2.1
  pre c := iprop(StableHlo.held (c : Thread nD τ) (Pipeline.ucRefs τ sig) (Wi c) ∗ Rr c)
  post c := iprop(StableHlo.held (c : Thread nD τ) (Pipeline.ucRefs τ sig) (Wo c) ∗ Rr c)
  X c := iprop(∃ r, prngReg c r)
  Y c := iprop(∃ r, prngReg c r)
  Z c := Pipeline.unscopedRest (Ix := Unit) (Name := ℕ) (U := UR sig nD τ) (Lvl := ℕ) (cfgs k).spec c (bufsOf Wi c)
  hentry c := by
    obtain ⟨-, ho, hr⟩ := pdats_std m k c
    have h := hsplit c
    rw [Pipeline.unscopedBufs_held] at h
    rw [Pipeline.ownSems0_none]
    iintro ⟨⟨Hub, Hp, HO⟩, -, -⟩
    ihave H := h $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [ho, hr]
      icases HO with ⟨%W, HO⟩; iexists W; isplitr; · ipureintro; exact fun _ _ => Or.inl trivial
      iexact HO
    isplitl [Hp]; · iexact Hp
    iexact Hrest
  hin c := by
    rw [(pdats_std m k c).1]; unfold Pipeline.ΦA
    iintro ⟨Hp, -, Hr⟩
    isplitl [Hr]; · iexact Hr
    iexact Hp
  hout c := by
    rw [Pipeline.ownSems0_none, (pdats_std m k c).1]; unfold Pipeline.ΦA
    iintro ⟨Hr, Hp⟩
    isplitl [Hp]; · iexact Hp
    isplitr; · iempintro
    iexact Hr
  hexit c := by
    have h := hjoin c
    rw [Pipeline.unscopedBufs_held] at h
    iintro ⟨Ha, HO, HY, Hrest⟩
    imodintro
    isplitl [Ha Hrest]
    · iapply h; isplitl [Ha] <;> iassumption
    isplitl [HY]; · iexact HY
    unfold Pipeline.Dat.owesAt Pipeline.owesWithin; rw [(pdats_std m k c).2.1]
    icases HO with ⟨%W, -, HO⟩; iexists W; iexact HO

-- Where the region's arrays are distinct whole buffers held at the full share, the two regroupings are the library's.
def mkRegL (k : Fin 13) (lf : Pipeline.LaunchFacts (nD := nD) (τ := τ) cfgs k)
    (hbody : ∀ c, Pipeline.BodyObligationLoose (pdats m k c) (defs₀ (F := F)) 𝒱₀ () Set.univ)
    (Wi Wo : Dev nD → Valuation τ sig (Elt F))
    (hq : ∀ c w, (pdats m k c).q w = fullShare) (hA : ∀ c w, (pdats m k c).A w = bufsOf Wi c (Pipeline.arrRef (cfgs k).spec w))
    (hF : ∀ c w, (pdats m k c).arrAt w (cfgs k).N = bufsOf Wo c (Pipeline.arrRef (cfgs k).spec w))
    (hrest : ∀ c b, b ∉ Finset.univ.image (Pipeline.arrRef (cfgs k).spec) → bufsOf Wo c b = bufsOf Wi c b) :
    Pipeline.RegionSeg (pcfgs (F := F)) adm (pdats m) () defs₀ 𝒱₀ L lv k :=
  mkReg m k lf.win.to₀ lf.block_pos lf.stage_whole hbody Wi Wo
    (fun c => Pipeline.arrays_of_unscopedBufs (pcfgs (F := F)) adm (pdats m) lf.win lf.arr_whole c ((pdats m k c).share_full (hq c)) _ (hA c))
    (fun c => Pipeline.unscopedBufs_of_arrays (pcfgs (F := F)) adm (Ix := Unit) (Name := ℕ) (U := UR sig nD τ) (Lvl := ℕ)
      lf.win lf.arr_whole c (pdats m) ((pdats m k c).share_full (hq c)) _ _ _ (hF c) (hrest c))

def reg0 : Pipeline.RegionSeg (pcfgs (F := F)) adm (pdats m) () defs₀ 𝒱₀ L lv 0 :=
  mkRegL m 0 launch0 (fun c => (body_obligation0 (E5 m) c).loose) (W5 m) (W6 m) (fun _ _ => rfl) (fun _ _ => rfl) (hF0 m) (hrest0 m)

def reg1 : Pipeline.RegionSeg (pcfgs (F := F)) adm (pdats m) () defs₀ 𝒱₀ L lv 1 :=
  mkReg m 1 winFacts₀1 block_pos1 stage_whole1 (fun c => (body_obligation1 (E7 m) c).loose) (W7 m) (W8 m)
    (entry1 (E7 m)) fun c => exit1 (E7 m) (E8 m) c (hF1 m c) (hrest1 m c)

def reg2 : Pipeline.RegionSeg (pcfgs (F := F)) adm (pdats m) () defs₀ 𝒱₀ L lv 2 :=
  mkRegL m 2 launch2 (fun c => (body_obligation2 (E9 m) c).loose) (W9 m) (W10 m) (fun _ _ => rfl) (fun _ _ => rfl) (hF2 m) (hrest2 m)

def reg3 : Pipeline.RegionSeg (pcfgs (F := F)) adm (pdats m) () defs₀ 𝒱₀ L lv 3 :=
  mkRegL m 3 launch3 (fun c => (body_obligation3 (E11 m) c).loose) (W11 m) (W12 m) (fun _ _ => rfl) (fun _ _ => rfl) (hF3 m) (hrest3 m)

def reg4 : Pipeline.RegionSeg (pcfgs (F := F)) adm (pdats m) () defs₀ 𝒱₀ L lv 4 :=
  mkRegL m 4 launch4 (fun c => (body_obligation4 (E13 m) c).loose) (W13 m) (W14 m) (fun _ _ => rfl) (fun _ _ => rfl) (hF4 m) (hrest4 m)

def reg5 : Pipeline.RegionSeg (pcfgs (F := F)) adm (pdats m) () defs₀ 𝒱₀ L lv 5 :=
  mkRegL m 5 launch5 (fun c => (body_obligation5 (E23 m) c).loose) (W23 m) (W24 m) (fun _ _ => rfl) (fun _ _ => rfl) (hF5 m) (hrest5 m)

def reg6 : Pipeline.RegionSeg (pcfgs (F := F)) adm (pdats m) () defs₀ 𝒱₀ L lv 6 :=
  mkReg m 6 winFacts₀6 block_pos6 stage_whole6 (fun c => (body_obligation6 (E25 m) c).loose) (W25 m) (W26 m)
    (entry6 (E25 m)) fun c => exit6 (E25 m) (E26 m) c (hF6 m c) (hrest6 m c)

def reg7 : Pipeline.RegionSeg (pcfgs (F := F)) adm (pdats m) () defs₀ 𝒱₀ L lv 7 :=
  mkRegL m 7 launch7 (fun c => (body_obligation7 (E27 m) c).loose) (W27 m) (W28 m) (fun _ _ => rfl) (fun _ _ => rfl) (hF7 m) (hrest7 m)

def reg8 : Pipeline.RegionSeg (pcfgs (F := F)) adm (pdats m) () defs₀ 𝒱₀ L lv 8 :=
  mkRegL m 8 launch8 (fun c => (body_obligation8 (E29 m) c).loose) (W29 m) (W30 m) (fun _ _ => rfl) (fun _ _ => rfl) (hF8 m) (hrest8 m)

def reg9 : Pipeline.RegionSeg (pcfgs (F := F)) adm (pdats m) () defs₀ 𝒱₀ L lv 9 :=
  mkRegL m 9 launch9 (fun c => (body_obligation9 (E39 m) c).loose) (W39 m) (W40 m) (fun _ _ => rfl) (fun _ _ => rfl) (hF9 m) (hrest9 m)

def reg10 : Pipeline.RegionSeg (pcfgs (F := F)) adm (pdats m) () defs₀ 𝒱₀ L lv 10 :=
  mkReg m 10 winFacts₀10 block_pos10 stage_whole10 (fun c => (body_obligation10 (E41 m) c).loose) (W41 m) (W42 m)
    (entry10 (E41 m)) fun c => exit10 (E41 m) (E42 m) c (hF10 m c) (hrest10 m c)

def reg11 : Pipeline.RegionSeg (pcfgs (F := F)) adm (pdats m) () defs₀ 𝒱₀ L lv 11 :=
  mkRegL m 11 launch11 (fun c => (body_obligation11 (E43 m) c).loose) (W43 m) (W44 m) (fun _ _ => rfl) (fun _ _ => rfl) (hF11 m) (hrest11 m)

def reg12 : Pipeline.RegionSeg (pcfgs (F := F)) adm (pdats m) () defs₀ 𝒱₀ L lv 12 :=
  mkRegL m 12 launch12 (fun c => (body_obligation12 (E45 m) c).loose) (W45 m) (W46 m) (fun _ _ => rfl) (fun _ _ => rfl) (hF12 m) (hrest12 m)

end Cert.Kernel.Hand

end
-- ==== Proof.KFrame.lean ====
import proofs.«131905_j73031623901536_2_alg».proof.Proof.KRegs
import Idealize.ShloMosaic.Adequacy
import Idealize.ShloMosaic.Init

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EE : Fin 14 → Dev nD → sProp 𝕄 := fun _ c => Rr c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- equal contents give the same held assertion
private theorem held_congr (c : Dev nD) {V W : Valuation τ sig (Elt F)} (h : V = W) (R : sProp 𝕄) :
    (iprop(StableHlo.held (c : Thread nD τ) (Pipeline.ucRefs τ sig) V ∗ R) : sProp 𝕄)
      ⊢ iprop(StableHlo.held (c : Thread nD τ) (Pipeline.ucRefs τ sig) W ∗ R) := by
  subst h; exact .rfl

theorem hlast (c : Dev nD) : (iprop(StableHlo.held (c : Thread nD τ) (Pipeline.ucRefs τ sig) (V47 m (OUTS m) c) ∗ EE (F := F) 13 c) : sProp 𝕄)
    ⊢ iprop((StableHlo.held (c : Thread nD τ) (Pipeline.ucRefs τ sig) (V47 m (OUTS m) c) ∗ ∃ r, prngReg c r) ∗ ∃ W, owes (c : Thread nD τ) (0 : CellTallies nD τ sig Unit) W) := by
  iintro ⟨H, Hp, HO⟩
  isplitl [H Hp]
  · isplitl [H] <;> iassumption
  iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W47 m c b) := by
  refine Pipeline.θ_run_regions_kit_dev (pcfgs (F := F)) adm (pdats m) () cellOf_inj emb₁ defs₀ 𝒱₀ L lv m ρ main
    (segs m (OUTS m) 𝒱₀ L lv (EE (F := F)) () (pdats m) (reg0 m) (reg1 m) (reg2 m) (reg3 m) (reg4 m) (reg5 m) (reg6 m) (reg7 m) (reg8 m) (reg9 m) (reg10 m) (reg11 m) (reg12 m))
    (fun c Q => by
      rewrite [main_chain c, Seg.run_eq_chain,
        show (segs m (OUTS m) 𝒱₀ L lv (EE (F := F)) () (pdats m) (reg0 m) (reg1 m) (reg2 m) (reg3 m) (reg4 m) (reg5 m) (reg6 m) (reg7 m) (reg8 m) (reg9 m) (reg10 m) (reg11 m) (reg12 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          StableHlo.seq hostOps5_3,
          StableHlo.seq hostOps5_4,
          StableHlo.seq hostOps5_5,
          StableHlo.seq hostOps5_6,
          StableHlo.seq hostOps5_7,
          StableHlo.seq hostOps5_8,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4,
          StableHlo.seq hostOps9_5,
          StableHlo.seq hostOps9_6,
          StableHlo.seq hostOps9_7,
          StableHlo.seq hostOps9_8,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13 ] from rfl]
      with_reducible exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE (F := F) 0 c))
    (Tₙ := fun c => iprop(StableHlo.held (c : Thread nD τ) (Pipeline.ucRefs τ sig) (V47 m (OUTS m) c) ∗ ∃ r, prngReg c r))
    (hch := fun c => ⟨.rfl, .rfl, .rfl, .rfl, .rfl, held_congr c (V5_eq m c) _, held_congr c (V6_eq m c).symm _, held_congr c (V7_eq m c) _, held_congr c (V8_eq m c).symm _, held_congr c (V9_eq m c) _, held_congr c (V10_eq m c).symm _, held_congr c (V11_eq m c) _, held_congr c (V12_eq m c).symm _, held_congr c (V13_eq m c) _, held_congr c (V14_eq m c).symm _, .rfl, .rfl, .rfl, .rfl, .rfl, .rfl, .rfl, .rfl, held_congr c (V23_eq m c) _, held_congr c (V24_eq m c).symm _, held_congr c (V25_eq m c) _, held_congr c (V26_eq m c).symm _, held_congr c (V27_eq m c) _, held_congr c (V28_eq m c).symm _, held_congr c (V29_eq m c) _, held_congr c (V30_eq m c).symm _, .rfl, .rfl, .rfl, .rfl, .rfl, .rfl, .rfl, .rfl, held_congr c (V39_eq m c) _, held_congr c (V40_eq m c).symm _, held_congr c (V41_eq m c) _, held_congr c (V42_eq m c).symm _, held_congr c (V43_eq m c) _, held_congr c (V44_eq m c).symm _, held_congr c (V45_eq m c) _, held_congr c (V46_eq m c).symm _, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V47 m (OUTS m) c b)
    (hfin := fun c s' => by
      iintro ⟨⟨Hh, -⟩, HSI⟩
      unfold StableHlo.held
      imodintro
      iapply (pointsTo_read_all (Pipeline.ucRefs τ sig) (fun b => (((c : Thread nD τ)).1, b)) (V47 m (OUTS m) c) s')
      isplitl [Hh] <;> iassumption)
    (hQ := fun s h c b hb => (h c b hb).trans (congrFun (V47_eq m c) b))

-- level 47 holds an argument array at its launch contents, and the final memory holds level 47
private theorem arg_kept {c : Dev nD} {μ : (ℓ : Loc nD τ sig) → Buf (Elt F) ℓ}
    (h : ∀ b ∈ Pipeline.ucRefs τ sig, μ (((c : Thread nD τ)).1, b) = W47 m c b) (a : Ref sig .tc)
    (hs : ¬ (Proc.devRef .tc a : DevRef τ sig).isScoped) (ha : V47 m (OUTS m) c a = m ((c : Thread nD τ).loc a)) :
    μ ((c.tc : Thread nD τ).loc a) = m ((c.tc : Thread nD τ).loc a) :=
  (h _ (mem_uc a hs)).trans ((congrFun (V47_eq m c).symm _).trans ha)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨arg_kept m (h c) main_arg0 (by decide) (V47_main_arg0 m (OUTS m) c),
    arg_kept m (h c) main_arg1 (by decide) (V47_main_arg1 m (OUTS m) c),
    arg_kept m (h c) main_arg2 (by decide) (V47_main_arg2 m (OUTS m) c),
    arg_kept m (h c) main_arg3 (by decide) (V47_main_arg3 m (OUTS m) c),
    arg_kept m (h c) main_arg4 (by decide) (V47_main_arg4 m (OUTS m) c),
    arg_kept m (h c) main_arg5 (by decide) (V47_main_arg5 m (OUTS m) c),
    arg_kept m (h c) main_arg6 (by decide) (V47_main_arg6 m (OUTS m) c),
    arg_kept m (h c) main_arg7 (by decide) (V47_main_arg7 m (OUTS m) c),
    arg_kept m (h c) main_arg8 (by decide) (V47_main_arg8 m (OUTS m) c),
    arg_kept m (h c) main_arg9 (by decide) (V47_main_arg9 m (OUTS m) c),
    arg_kept m (h c) main_arg10 (by decide) (V47_main_arg10 m (OUTS m) c),
    arg_kept m (h c) main_arg11 (by decide) (V47_main_arg11 m (OUTS m) c),
    arg_kept m (h c) main_arg12 (by decide) (V47_main_arg12 m (OUTS m) c),
    arg_kept m (h c) main_arg13 (by decide) (V47_main_arg13 m (OUTS m) c),
    arg_kept m (h c) main_arg14 (by decide) (V47_main_arg14 m (OUTS m) c),
    arg_kept m (h c) main_arg15 (by decide) (V47_main_arg15 m (OUTS m) c),
    arg_kept m (h c) main_arg16 (by decide) (V47_main_arg16 m (OUTS m) c)⟩)
    (run_all m ρ)

end Cert.Kernel.Hand

end
-- ==== Proof.KIMatBody.lean ====
import proofs.«131905_j73031623901536_2_alg».proof.Proof.Gen.KernelIdeal.Launch
import proofs.«131905_j73031623901536_2_alg».proof.Proof.Gen.KernelIdeal.Skeleton
import proofs.«131905_j73031623901536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev matRectL : Rect S1000x128 := Rect.unit (s := S1000x128) ![0, 0] S1000x128.size inb_S1000x128_S1000x128_0_0
abbrev matRectW : Rect S128x128 := Rect.unit (s := S128x128) ![0, 0] S128x128.size inb_S128x128_S128x128_0_0

/-- The program of the six product regions, over the arithmetic `pay` of its one store. -/
def matProg (pay : Vec F S1000x128 .f32 → Vec F S128x128 .f32 → FVec F S1000x128 .f32)
    (arg1 : Memref sig .tc .vmem S1000x128 .f32) (arg2 : Memref sig .tc .vmem S128x128 .f32) (arg3 : Memref sig .tc .vmem S1000x128 .f32) :
    Prog (TpuEff nD τ sig (Elt F) Λ₀ .tc) PUnit := do
  let v0 : Vec F S1000x128 .f32 ← Prog.lift (.load arg1 (Rect.unit (s := S1000x128) ![0, 0] S1000x128.size inb_S1000x128_S1000x128_0_0).toLoadRect (View.loadsAt_vmem h_S1000x128))
  let v2 : Vec F S128x128 .f32 ← Prog.lift (.load arg2 (Rect.unit (s := S128x128) ![0, 0] S128x128.size inb_S128x128_S128x128_0_0).toLoadRect (View.loadsAt_vmem h_S128x128))
  let v6 : Vec F S1000x128 .f32 ← Prog.lift (.load arg3 (Rect.unit (s := S1000x128) ![0, 0] S1000x128.size inb_S1000x128_S1000x128_0_0).toLoadRect (View.loadsAt_vmem h_S1000x128))
  Prog.lift (.store arg3 (Rect.unit (s := S1000x128) ![0, 0] S1000x128.size inb_S1000x128_S1000x128_0_0) (pay v0 v2) Finset.univ (View.stores_vmem_bits_univ h_S1000x128 rfl) (.inl rfl))
  pure ⟨⟩

def matOut (pay : Vec F S1000x128 .f32 → Vec F S128x128 .f32 → FVec F S1000x128 .f32) (x0 : Vec F S1000x128 .f32) (x1 : Vec F S128x128 .f32) :
    Vec F S1000x128 .f32 :=
  View.canon [⟨matRectL, pay (View.ld x0 matRectL) (View.ld x1 matRectW)⟩]

set_option maxHeartbeats 1000000 in
/-- The store's rectangle is the whole shape, so what is read back after it is the value stored. -/
theorem matProg_sound (pay : Vec F S1000x128 .f32 → Vec F S128x128 .f32 → FVec F S1000x128 .f32) (c : Dev nD) (E : Set ℕ)
    (arg1 : Memref sig .tc .vmem S1000x128 .f32) (harg1 : arg1.IsWhole) (arg2 : Memref sig .tc .vmem S128x128 .f32) (harg2 : arg2.IsWhole)
    (arg3 : Memref sig .tc .vmem S1000x128 .f32) (harg3 : arg3.IsWhole) (x0 : Vec F S1000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (matOut pay x0 x1)) -∗ K ⟨⟩))
      ⊢ wp frame (wpE (defs₀ (F := F)) Variants.none c none) E (matProg pay arg1 arg2 arg3) K := by
  unfold matProg owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1000x128.size (by rfl))

/-- The same triple under a frame `Φ ∗ O`, with the contents given up to equations. -/
theorem matProg_obligation (pay : Vec F S1000x128 .f32 → Vec F S128x128 .f32 → FVec F S1000x128 .f32) (c : Dev nD)
    {a1 : Memref sig .tc .vmem S1000x128 .f32} (h1 : a1.IsWhole) {a2 : Memref sig .tc .vmem S128x128 .f32} (h2 : a2.IsWhole)
    {a3 : Memref sig .tc .vmem S1000x128 .f32} (h3 : a3.IsWhole) {D0 D1 D2 : Type}
    {b0 : D0 → Vec F S1000x128 .f32} {b1 : D1 → Vec F S128x128 .f32} {b2 : D2 → Vec F S1000x128 .f32}
    {x0 y0 : Vec F S1000x128 .f32} {x1 y1 : Vec F S128x128 .f32} {y2 : Vec F S1000x128 .f32}
    (hb0 : ∀ d, b0 d = x0) (hb1 : ∀ d, b1 d = x1) (e0 : y0 = x0) (e1 : y1 = x1) (e2 : y2 = matOut pay x0 x1) {Φ O : sProp 𝕄} :
    iprop(Φ ∗ O ∗ (∃ d, owns (c : Thread nD τ) a1 fullShare (b0 d)) ∗ (∃ d, owns (c : Thread nD τ) a2 fullShare (b1 d))
        ∗ (∃ d, owns (c : Thread nD τ) a3 fullShare (b2 d)))
      ⊢ wp frame (wpE (defs₀ (F := F)) Variants.none c none) Set.univ (matProg pay a1 a2 a3) fun _ =>
        iprop(Φ ∗ O ∗ owns (c : Thread nD τ) a1 fullShare y0 ∗ owns (c : Thread nD τ) a2 fullShare y1 ∗ owns (c : Thread nD τ) a3 fullShare y2) := by
  subst e0 e1 e2
  simp only [hb0, hb1]
  iintro ⟨HΦ, Ho, ⟨%d0, H0⟩, ⟨%d1, H1⟩, ⟨%d2, H2⟩⟩
  iapply (matProg_sound pay c Set.univ a1 h1 a2 h2 a3 h3 _ _ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KIRegion0.lean ====
import proofs.«131905_j73031623901536_2_alg».proof.Proof.KIMatBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1000x128 := Rect.unit (s := S1000x128) ![0, 0] S1000x128.size inb_S1000x128_S1000x128_0_0
abbrev r0_1 : Rect S128x128 := Rect.unit (s := S128x128) ![0, 0] S128x128.size inb_S128x128_S128x128_0_0

def out0_2 (x0 : Vec F S1000x128 .f32) (x1 : Vec F S128x128 .f32) : Vec F S1000x128 .f32 :=
  View.canon [⟨r0_0, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The body leaves an input as it finds it, so at every point it reads the array's block there. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  rw [cc0__matmul_kernel_eq_skeleton]
  exact matProg_obligation k0_pay1 c (hstage0_0 _) (hstage0_1 _) (hstage0_2 _) (before0_0 V c t) (before0_1 V c t)
    (after0_0 V c t) (after0_1 V c t) (after0_2 V c t)

end Cert.KernelIdeal.Hand

end
-- ==== Proof.KIRegionComb.lean ====
import proofs.«131905_j73031623901536_2_alg».proof.Proof.Gen.KernelIdeal.Launch
import proofs.«131905_j73031623901536_2_alg».proof.Proof.Gen.KernelIdeal.Skeleton
import proofs.«131905_j73031623901536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev combR0 : Rect S1000x128 := Rect.unit (s := S1000x128) ![0, 0] S1000x128.size inb_S1000x128_S1000x128_0_0
abbrev combR1 : Rect S1x128 := Rect.unit (s := S1x128) ![0, 0] S1x128.size inb_S1x128_S1x128_0_0

def combSkel (p1 : Vec F S1000x128 .f32 → Vec F S1x128 .f32 → Vec F S1000x128 .f32 → FVec F S1000x128 .f32)
    (p2 : Vec F S1000x128 .f32 → Vec F S1x128 .f32 → Vec F S1000x128 .f32 → Vec F S1000x128 .f32 → FVec F S1000x128 .f32)
    (arg1 : Memref sig .tc .vmem S1000x128 .f32) (arg2 : Memref sig .tc .vmem S1x128 .f32) (arg3 arg4 arg5 arg6 : Memref sig .tc .vmem S1000x128 .f32) :
    Prog (TpuEff nD τ sig (Elt F) Λ₀ .tc) PUnit := do
  let v0 : Vec F S1000x128 .f32 ← Prog.lift (.load arg1 combR0.toLoadRect (View.loadsAt_vmem h_S1000x128))
  let v2 : Vec F S1x128 .f32 ← Prog.lift (.load arg2 combR1.toLoadRect (View.loadsAt_vmem h_S1x128))
  let v11 : Vec F S1000x128 .f32 ← Prog.lift (.load arg3 combR0.toLoadRect (View.loadsAt_vmem h_S1000x128))
  let v13 : Vec F S1000x128 .f32 ← Prog.lift (.load arg5 combR0.toLoadRect (View.loadsAt_vmem h_S1000x128))
  Prog.lift (.store arg5 combR0 (p1 v0 v2 v11) Finset.univ (View.stores_vmem_bits_univ h_S1000x128 rfl) (.inl rfl))
  let v14 : Vec F S1000x128 .f32 ← Prog.lift (.load arg4 combR0.toLoadRect (View.loadsAt_vmem h_S1000x128))
  let v18 : Vec F S1000x128 .f32 ← Prog.lift (.load arg6 combR0.toLoadRect (View.loadsAt_vmem h_S1000x128))
  Prog.lift (.store arg6 combR0 (p2 v0 v2 v11 v14) Finset.univ (View.stores_vmem_bits_univ h_S1000x128 rfl) (.inl rfl))
  pure ⟨⟩

theorem combCover (p0 : Vec F S1000x128 .f32) (y : S1000x128.Idx) :
    ∃ pc ∈ ([⟨combR0, p0⟩] : List (View.Piece (Elt F) S1000x128 .f32)), y ∈ pc.1.set :=
  View.cover_of_tiled [⟨combR0, p0⟩] S1000x128.size (by rfl) y

set_option maxHeartbeats 1000000 in
/-- A single piece over every index fixes the contents read back, whatever was there before. -/
theorem comb_body (p1 : Vec F S1000x128 .f32 → Vec F S1x128 .f32 → Vec F S1000x128 .f32 → FVec F S1000x128 .f32)
    (p2 : Vec F S1000x128 .f32 → Vec F S1x128 .f32 → Vec F S1000x128 .f32 → Vec F S1000x128 .f32 → FVec F S1000x128 .f32)
    (c : Dev nD) (arg1 : Memref sig .tc .vmem S1000x128 .f32) (arg2 : Memref sig .tc .vmem S1x128 .f32) (arg3 arg4 arg5 arg6 : Memref sig .tc .vmem S1000x128 .f32)
    {T0 T1 T2 T3 T4 T5 : Type} (B0 : T0 → Vec F S1000x128 .f32) (B1 : T1 → Vec F S1x128 .f32) (B2 : T2 → Vec F S1000x128 .f32) (B3 : T3 → Vec F S1000x128 .f32)
    (B4 : T4 → Vec F S1000x128 .f32) (B5 : T5 → Vec F S1000x128 .f32)
    (x0 : Vec F S1000x128 .f32) (x1 : Vec F S1x128 .f32) (x2 x3 : Vec F S1000x128 .f32) (a0 : Vec F S1000x128 .f32) (a1 : Vec F S1x128 .f32) (a2 a3 a4 a5 : Vec F S1000x128 .f32)
    (e0 : ∀ d, B0 d = x0) (e1 : ∀ d, B1 d = x1) (e2 : ∀ d, B2 d = x2) (e3 : ∀ d, B3 d = x3)
    (f0 : a0 = x0) (f1 : a1 = x1) (f2 : a2 = x2) (f3 : a3 = x3)
    (f4 : a4 = View.canon [⟨combR0, p1 (View.ld x0 combR0) (View.ld x1 combR1) (View.ld x2 combR0)⟩])
    (f5 : a5 = View.canon [⟨combR0, p2 (View.ld x0 combR0) (View.ld x1 combR1) (View.ld x2 combR0) (View.ld x3 combR0)⟩])
    (R O : sProp 𝕄) :
    iprop(R ∗ O ∗ (∃ d, owns (c : Thread nD τ) arg1 fullShare (B0 d)) ∗ (∃ d, owns (c : Thread nD τ) arg2 fullShare (B1 d))
        ∗ (∃ d, owns (c : Thread nD τ) arg3 fullShare (B2 d)) ∗ (∃ d, owns (c : Thread nD τ) arg4 fullShare (B3 d))
        ∗ (∃ d, owns (c : Thread nD τ) arg5 fullShare (B4 d)) ∗ (∃ d, owns (c : Thread nD τ) arg6 fullShare (B5 d)))
      ⊢ wp frame (wpE (defs₀ (F := F)) Variants.none c none) Set.univ (combSkel p1 p2 arg1 arg2 arg3 arg4 arg5 arg6) fun _ =>
        iprop(R ∗ O ∗ owns (c : Thread nD τ) arg1 fullShare a0 ∗ owns (c : Thread nD τ) arg2 fullShare a1 ∗ owns (c : Thread nD τ) arg3 fullShare a2
          ∗ owns (c : Thread nD τ) arg4 fullShare a3 ∗ owns (c : Thread nD τ) arg5 fullShare a4 ∗ owns (c : Thread nD τ) arg6 fullShare a5) := by
  subst f0 f1 f2 f3 f4 f5
  simp only [e0, e1, e2, e3]
  unfold combSkel owns
  iintro ⟨HR, HO, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩⟩
  subst hf0 hf1 hf2 hf3
  sl_exec
  sl_step
  isplitl [HR]; · iexact HR
  isplitl [HO]; · iexact HO
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (combCover _)
  iexists _; isplitr
  swap; · iexact H5
  ipureintro
  exact View.read_writes_eq_canon _ _ _ (combCover _)

end Cert.KernelIdeal.Hand

end
-- ==== Proof.KIRegion1.lean ====
import proofs.«131905_j73031623901536_2_alg».proof.Proof.KIRegionComb

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_4 (x0 : Vec F S1000x128 .f32) (x1 : Vec F S1x128 .f32) (x2 : Vec F S1000x128 .f32) : Vec F S1000x128 .f32 :=
  View.canon [⟨combR0, k1_pay1 (View.ld x0 combR0) (View.ld x1 combR1) (View.ld x2 combR0)⟩]
def out1_5 (x0 : Vec F S1000x128 .f32) (x1 : Vec F S1x128 .f32) (x2 : Vec F S1000x128 .f32) (x3 : Vec F S1000x128 .f32) : Vec F S1000x128 .f32 :=
  View.canon [⟨combR0, k1_pay2 (View.ld x0 combR0) (View.ld x1 combR1) (View.ld x2 combR0) (View.ld x3 combR0)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q w := match w with | ⟨2, _⟩ => PosShare.left fullShare | ⟨3, _⟩ => PosShare.right fullShare | _ => fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem body_obligation1 (c : Dev nD) : BodyObligation (dat1 (F := F) V c) (defs₀ (F := F)) Variants.none () Set.univ := fun t => by
  rw [bigSep_W1, bigSep_W1]
  show _ ⊢ wp frame _ _ (bodyAt1 t) _
  unfold bodyAt1
  rw [cc1__combine_kernel_eq_skeleton]
  refine comb_body k1_pay1 k1_pay2 c _ _ _ _ _ _ _ _ _ _ _ _ (iblk1 V c 0 t) (iblk1 V c 1 t) (iblk1 V c 2 t) (iblk1 V c 3 t) _ _ _ _ _ _
    ?_ ?_ ?_ ?_ ?_ ?_ ?_ ?_ (after1_4 V c t) (after1_5 V c t) _ _
  iterate 4 exact fun d => (Dat.before_in_eq_fetched _ _ rfl (fun _ => rfl) (fun _ _ _ => rfl) (fun _ => by dsimp only [dat1]; rfl) t d).trans rfl
  all_goals dsimp only [dat1]

end Cert.KernelIdeal.Hand

end
-- ==== Proof.KIRegion2.lean ====
import proofs.«131905_j73031623901536_2_alg».proof.Proof.KIMatBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1000x128 := Rect.unit (s := S1000x128) ![0, 0] S1000x128.size inb_S1000x128_S1000x128_0_0
abbrev r2_1 : Rect S128x128 := Rect.unit (s := S128x128) ![0, 0] S128x128.size inb_S128x128_S128x128_0_0

def out2_2 (x0 : Vec F S1000x128 .f32) (x1 : Vec F S128x128 .f32) : Vec F S1000x128 .f32 :=
  View.canon [⟨r2_0, k2_pay1 (View.ld x0 r2_0) (View.ld x1 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- The body leaves an input as it finds it, so at every point it reads the array's block there. -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  rw [cc2__matmul_kernel_eq_skeleton]
  exact matProg_obligation k2_pay1 c (hstage2_0 _) (hstage2_1 _) (hstage2_2 _) (before2_0 V c t) (before2_1 V c t)
    (after2_0 V c t) (after2_1 V c t) (after2_2 V c t)

end Cert.KernelIdeal.Hand

end
-- ==== Proof.KIRegion3.lean ====
import proofs.«131905_j73031623901536_2_alg».proof.Proof.KIRegionComb

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_4 (x0 : Vec F S1000x128 .f32) (x1 : Vec F S1x128 .f32) (x2 : Vec F S1000x128 .f32) : Vec F S1000x128 .f32 :=
  View.canon [⟨combR0, k3_pay1 (View.ld x0 combR0) (View.ld x1 combR1) (View.ld x2 combR0)⟩]
def out3_5 (x0 : Vec F S1000x128 .f32) (x1 : Vec F S1x128 .f32) (x2 : Vec F S1000x128 .f32) (x3 : Vec F S1000x128 .f32) : Vec F S1000x128 .f32 :=
  View.canon [⟨combR0, k3_pay2 (View.ld x0 combR0) (View.ld x1 combR1) (View.ld x2 combR0) (View.ld x3 combR0)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = out3_4 (iblk3 V c 0 t) (iblk3 V c 1 t) (iblk3 V c 2 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem body_obligation3 (c : Dev nD) : BodyObligation (dat3 (F := F) V c) (defs₀ (F := F)) Variants.none () Set.univ := fun t => by
  rw [bigSep_W3, bigSep_W3]
  show _ ⊢ wp frame _ _ (bodyAt3 t) _
  unfold bodyAt3
  rw [cc3__combine_kernel_eq_skeleton]
  refine comb_body k3_pay1 k3_pay2 c _ _ _ _ _ _ _ _ _ _ _ _ (iblk3 V c 0 t) (iblk3 V c 1 t) (iblk3 V c 2 t) (iblk3 V c 3 t) _ _ _ _ _ _
    ?_ ?_ ?_ ?_ ?_ ?_ ?_ ?_ (after3_4 V c t) (after3_5 V c t) _ _
  iterate 4 exact fun d => (Dat.before_in_eq_fetched _ _ rfl (fun _ => rfl) (fun _ _ _ => rfl) (fun _ => by dsimp only [dat3]; rfl) t d).trans rfl
  all_goals dsimp only [dat3]

end Cert.KernelIdeal.Hand

end
-- ==== Proof.KIRegion4.lean ====
import proofs.«131905_j73031623901536_2_alg».proof.Proof.Gen.KernelIdeal.Launch
import proofs.«131905_j73031623901536_2_alg».proof.Proof.Gen.KernelIdeal.Skeleton
import proofs.«131905_j73031623901536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1000x128 := Rect.unit (s := S1000x128) ![0, 0] S1000x128.size inb_S1000x128_S1000x128_0_0
abbrev r4_1 : Rect S128x256 := Rect.unit (s := S128x256) ![0, 0] S128x256.size inb_S128x256_S128x256_0_0
abbrev r4_2 : Rect S1x256 := Rect.unit (s := S1x256) ![0, 0] S1x256.size inb_S1x256_S1x256_0_0

def out4_3 (x0 : Vec F S1000x128 .f32) (x1 : Vec F S128x256 .f32) (x2 : Vec F S1x256 .f32) : Vec F S1000x128 .f32 :=
  View.canon [⟨r4_0, k4_pay3 (View.ld x0 r4_0) (View.ld x1 r4_1) (View.ld x2 r4_2)⟩]
def out4_4 (x0 : Vec F S1000x128 .f32) (x1 : Vec F S128x256 .f32) (x2 : Vec F S1x256 .f32) : Vec F S1000x128 .f32 :=
  View.canon [⟨r4_0, k4_pay4 (View.ld x0 r4_0) (View.ld x1 r4_1) (View.ld x2 r4_2)⟩]

theorem cover4 (p0 : Vec F S1000x128 .f32) (y : S1000x128.Idx) :
    ∃ pc ∈ ([⟨r4_0, p0⟩] : List (View.Piece (Elt F) S1000x128 .f32)), y ∈ pc.1.set :=
  View.cover_of_tiled [⟨r4_0, p0⟩] S1000x128.size (by rfl) y

set_option maxHeartbeats 1000000 in
/-- A single piece over every index fixes the contents read back, whatever was there before. -/
theorem gate_body (c : Dev nD) (i : grid4.Coords) (arg1 : Memref sig .tc .vmem S1000x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S1000x128 .f32) (harg4 : arg4.IsWhole) (arg5 : Memref sig .tc .vmem S1000x128 .f32) (harg5 : arg5.IsWhole)
    {T0 T1 T2 T3 T4 : Type} (B0 : T0 → Vec F S1000x128 .f32) (B1 : T1 → Vec F S128x256 .f32) (B2 : T2 → Vec F S1x256 .f32) (B3 : T3 → Vec F S1000x128 .f32) (B4 : T4 → Vec F S1000x128 .f32)
    (x0 : Vec F S1000x128 .f32) (x1 : Vec F S128x256 .f32) (x2 : Vec F S1x256 .f32) (a0 : Vec F S1000x128 .f32) (a1 : Vec F S128x256 .f32) (a2 : Vec F S1x256 .f32) (a3 a4 : Vec F S1000x128 .f32)
    (e0 : ∀ d, B0 d = x0) (e1 : ∀ d, B1 d = x1) (e2 : ∀ d, B2 d = x2) (f0 : a0 = x0) (f1 : a1 = x1) (f2 : a2 = x2)
    (f3 : a3 = out4_3 x0 x1 x2) (f4 : a4 = out4_4 x0 x1 x2) (R O : sProp 𝕄) :
    iprop(R ∗ O ∗ (∃ d, owns (c : Thread nD τ) arg1 fullShare (B0 d)) ∗ (∃ d, owns (c : Thread nD τ) arg2 fullShare (B1 d)) ∗ (∃ d, owns (c : Thread nD τ) arg3 fullShare (B2 d))
        ∗ (∃ d, owns (c : Thread nD τ) arg4 fullShare (B3 d)) ∗ (∃ d, owns (c : Thread nD τ) arg5 fullShare (B4 d)))
      ⊢ wp frame (wpE (defs₀ (F := F)) Variants.none c none) Set.univ (cc4__gate2_kernel i arg1 harg1 arg2 harg2 arg3 harg3 arg4 harg4 arg5 harg5) fun _ =>
        iprop(R ∗ O ∗ owns (c : Thread nD τ) arg1 fullShare a0 ∗ owns (c : Thread nD τ) arg2 fullShare a1 ∗ owns (c : Thread nD τ) arg3 fullShare a2
          ∗ owns (c : Thread nD τ) arg4 fullShare a3 ∗ owns (c : Thread nD τ) arg5 fullShare a4) := by
  subst f0 f1 f2 f3 f4
  simp only [e0, e1, e2, cc4__gate2_kernel_eq_skeleton]
  unfold cc4__gate2_kernel_skel out4_3 out4_4 owns
  iintro ⟨HR, HO, ⟨%d0, %f0, %hf0, H0⟩, ⟨%d1, %f1, %hf1, H1⟩, ⟨%d2, %f2, %hf2, H2⟩, ⟨%d3, %f3, -, H3⟩, ⟨%d4, %f4, -, H4⟩⟩
  subst hf0 hf1 hf2
  sl_exec
  sl_step
  isplitl [HR]; · iexact HR
  isplitl [HO]; · iexact HO
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4 _)
  iexists _; isplitr
  swap; · iexact H4
  ipureintro
  exact View.read_writes_eq_canon _ _ _ (cover4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]

theorem body_obligation4 (c : Dev nD) : BodyObligation (dat4 (F := F) V c) (defs₀ (F := F)) Variants.none () Set.univ := fun t => by
  rw [bigSep_W4, bigSep_W4]
  show _ ⊢ wp frame _ _ (bodyAt4 t) _
  refine gate_body c _ _ _ _ _ _ _ _ _ _ _ _ _ _ _ _ (iblk4 V c 0 t) (iblk4 V c 1 t) (iblk4 V c 2 t) _ _ _ _ _
    ?_ ?_ ?_ ?_ ?_ ?_ (after4_3 V c t) (after4_4 V c t) _ _
  iterate 3 exact fun d => (Dat.before_in_eq_fetched _ _ rfl (fun _ => rfl) (fun _ _ _ => rfl) (fun _ => by dsimp only [dat4]; rfl) t d).trans rfl
  all_goals dsimp only [dat4]

end Cert.KernelIdeal.Hand

end
-- ==== Proof.KIRegion5.lean ====
import proofs.«131905_j73031623901536_2_alg».proof.Proof.KIMatBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S1000x128 := Rect.unit (s := S1000x128) ![0, 0] S1000x128.size inb_S1000x128_S1000x128_0_0
abbrev r5_1 : Rect S128x128 := Rect.unit (s := S128x128) ![0, 0] S128x128.size inb_S128x128_S128x128_0_0

def out5_2 (x0 : Vec F S1000x128 .f32) (x1 : Vec F S128x128 .f32) : Vec F S1000x128 .f32 :=
  View.canon [⟨r5_0, k5_pay1 (View.ld x0 r5_0) (View.ld x1 r5_1)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- The body leaves an input as it finds it, so at every point it reads the array's block there. -/
theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  show _ ⊢ wp _ _ _ (bodyAt5 t) _
  unfold bodyAt5
  rw [cc5__matmul_kernel_eq_skeleton]
  exact matProg_obligation k5_pay1 c (hstage5_0 _) (hstage5_1 _) (hstage5_2 _) (before5_0 V c t) (before5_1 V c t)
    (after5_0 V c t) (after5_1 V c t) (after5_2 V c t)

end Cert.KernelIdeal.Hand

end
-- ==== Proof.KIRegion6.lean ====
import proofs.«131905_j73031623901536_2_alg».proof.Proof.KIRegionComb

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_4 (x0 : Vec F S1000x128 .f32) (x1 : Vec F S1x128 .f32) (x2 : Vec F S1000x128 .f32) : Vec F S1000x128 .f32 :=
  View.canon [⟨combR0, k6_pay1 (View.ld x0 combR0) (View.ld x1 combR1) (View.ld x2 combR0)⟩]
def out6_5 (x0 : Vec F S1000x128 .f32) (x1 : Vec F S1x128 .f32) (x2 : Vec F S1000x128 .f32) (x3 : Vec F S1000x128 .f32) : Vec F S1000x128 .f32 :=
  View.canon [⟨combR0, k6_pay2 (View.ld x0 combR0) (View.ld x1 combR1) (View.ld x2 combR0) (View.ld x3 combR0)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t)
    | ⟨5, _⟩ => out6_5 (iblk6 V c 0 t) (iblk6 V c 1 t) (iblk6 V c 2 t) (iblk6 V c 3 t)
  Φ _ := Pipeline.ΦA spec6 c
  q w := match w with | ⟨2, _⟩ => PosShare.left fullShare | ⟨3, _⟩ => PosShare.right fullShare | _ => fullShare
  owed _ := 0

theorem A_eq6 (c : Dev nD) (w : Fin cfg6.W) : (dat6 V c).A w = V c (Pipeline.arrRef spec6 w) := by
  dsimp only [dat6]

theorem after6_4 (c : Dev nD) (t : Fin cfg6.N) : (dat6 V c).after 4 t = out6_4 (iblk6 V c 0 t) (iblk6 V c 1 t) (iblk6 V c 2 t) := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]

theorem body_obligation6 (c : Dev nD) : BodyObligation (dat6 (F := F) V c) (defs₀ (F := F)) Variants.none () Set.univ := fun t => by
  rw [bigSep_W6, bigSep_W6]
  show _ ⊢ wp frame _ _ (bodyAt6 t) _
  unfold bodyAt6
  rw [cc6__combine_kernel_eq_skeleton]
  refine comb_body k6_pay1 k6_pay2 c _ _ _ _ _ _ _ _ _ _ _ _ (iblk6 V c 0 t) (iblk6 V c 1 t) (iblk6 V c 2 t) (iblk6 V c 3 t) _ _ _ _ _ _
    ?_ ?_ ?_ ?_ ?_ ?_ ?_ ?_ (after6_4 V c t) (after6_5 V c t) _ _
  iterate 4 exact fun d => (Dat.before_in_eq_fetched _ _ rfl (fun _ => rfl) (fun _ _ _ => rfl) (fun _ => by dsimp only [dat6]; rfl) t d).trans rfl
  all_goals dsimp only [dat6]

end Cert.KernelIdeal.Hand

end
-- ==== Proof.KIRegion7.lean ====
import proofs.«131905_j73031623901536_2_alg».proof.Proof.KIMatBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S1000x128 := Rect.unit (s := S1000x128) ![0, 0] S1000x128.size inb_S1000x128_S1000x128_0_0
abbrev r7_1 : Rect S128x128 := Rect.unit (s := S128x128) ![0, 0] S128x128.size inb_S128x128_S128x128_0_0

def out7_2 (x0 : Vec F S1000x128 .f32) (x1 : Vec F S128x128 .f32) : Vec F S1000x128 .f32 :=
  View.canon [⟨r7_0, k7_pay1 (View.ld x0 r7_0) (View.ld x1 r7_1)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- The body leaves an input as it finds it, so at every point it reads the array's block there. -/
theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  show _ ⊢ wp _ _ _ (bodyAt7 t) _
  unfold bodyAt7
  rw [cc7__matmul_kernel_eq_skeleton]
  exact matProg_obligation k7_pay1 c (hstage7_0 _) (hstage7_1 _) (hstage7_2 _) (before7_0 V c t) (before7_1 V c t)
    (after7_0 V c t) (after7_1 V c t) (after7_2 V c t)

end Cert.KernelIdeal.Hand

end
-- ==== Proof.KIRegion8.lean ====
import proofs.«131905_j73031623901536_2_alg».proof.Proof.KIRegionComb

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_4 (x0 : Vec F S1000x128 .f32) (x1 : Vec F S1x128 .f32) (x2 : Vec F S1000x128 .f32) : Vec F S1000x128 .f32 :=
  View.canon [⟨combR0, k8_pay1 (View.ld x0 combR0) (View.ld x1 combR1) (View.ld x2 combR0)⟩]
def out8_5 (x0 : Vec F S1000x128 .f32) (x1 : Vec F S1x128 .f32) (x2 : Vec F S1000x128 .f32) (x3 : Vec F S1000x128 .f32) : Vec F S1000x128 .f32 :=
  View.canon [⟨combR0, k8_pay2 (View.ld x0 combR0) (View.ld x1 combR1) (View.ld x2 combR0) (View.ld x3 combR0)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t)
    | ⟨5, _⟩ => out8_5 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_4 (c : Dev nD) (t : Fin cfg8.N) : (dat8 V c).after 4 t = out8_4 (iblk8 V c 0 t) (iblk8 V c 1 t) (iblk8 V c 2 t) := by dsimp only [dat8]
theorem after8_5 (c : Dev nD) (t : Fin cfg8.N) : (dat8 V c).after 5 t = out8_5 (iblk8 V c 0 t) (iblk8 V c 1 t) (iblk8 V c 2 t) (iblk8 V c 3 t) := by dsimp only [dat8]

theorem body_obligation8 (c : Dev nD) : BodyObligation (dat8 (F := F) V c) (defs₀ (F := F)) Variants.none () Set.univ := fun t => by
  rw [bigSep_W8, bigSep_W8]
  show _ ⊢ wp frame _ _ (bodyAt8 t) _
  unfold bodyAt8
  rw [cc8__combine_kernel_eq_skeleton]
  refine comb_body k8_pay1 k8_pay2 c _ _ _ _ _ _ _ _ _ _ _ _ (iblk8 V c 0 t) (iblk8 V c 1 t) (iblk8 V c 2 t) (iblk8 V c 3 t) _ _ _ _ _ _
    ?_ ?_ ?_ ?_ ?_ ?_ ?_ ?_ (after8_4 V c t) (after8_5 V c t) _ _
  iterate 4 exact fun d => (Dat.before_in_eq_fetched _ _ rfl (fun _ => rfl) (fun _ _ _ => rfl) (fun _ => by dsimp only [dat8]; rfl) t d).trans rfl
  all_goals dsimp only [dat8]

end Cert.KernelIdeal.Hand

end
-- ==== Proof.KIRegion9.lean ====
import proofs.«131905_j73031623901536_2_alg».proof.Proof.KIMatBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S1000x128 := Rect.unit (s := S1000x128) ![0, 0] S1000x128.size inb_S1000x128_S1000x128_0_0
abbrev r9_1 : Rect S128x128 := Rect.unit (s := S128x128) ![0, 0] S128x128.size inb_S128x128_S128x128_0_0

def out9_2 (x0 : Vec F S1000x128 .f32) (x1 : Vec F S128x128 .f32) : Vec F S1000x128 .f32 :=
  View.canon [⟨r9_0, k9_pay1 (View.ld x0 r9_0) (View.ld x1 r9_1)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- The body leaves an input as it finds it, so at every point it reads the array's block there. -/
theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  show _ ⊢ wp _ _ _ (bodyAt9 t) _
  unfold bodyAt9
  rw [cc9__matmul_kernel_eq_skeleton]
  exact matProg_obligation k9_pay1 c (hstage9_0 _) (hstage9_1 _) (hstage9_2 _) (before9_0 V c t) (before9_1 V c t)
    (after9_0 V c t) (after9_1 V c t) (after9_2 V c t)

end Cert.KernelIdeal.Hand

end
-- ==== Proof.KIRegion10.lean ====
import proofs.«131905_j73031623901536_2_alg».proof.Proof.KIRegionComb

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def out10_4 (x0 : Vec F S1000x128 .f32) (x1 : Vec F S1x128 .f32) (x2 : Vec F S1000x128 .f32) : Vec F S1000x128 .f32 :=
  View.canon [⟨combR0, k10_pay1 (View.ld x0 combR0) (View.ld x1 combR1) (View.ld x2 combR0)⟩]
def out10_5 (x0 : Vec F S1000x128 .f32) (x1 : Vec F S1x128 .f32) (x2 : Vec F S1000x128 .f32) (x3 : Vec F S1000x128 .f32) : Vec F S1000x128 .f32 :=
  View.canon [⟨combR0, k10_pay2 (View.ld x0 combR0) (View.ld x1 combR1) (View.ld x2 combR0) (View.ld x3 combR0)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t)
    | ⟨5, _⟩ => out10_5 (iblk10 V c 0 t) (iblk10 V c 1 t) (iblk10 V c 2 t) (iblk10 V c 3 t)
  Φ _ := Pipeline.ΦA spec10 c
  q w := match w with | ⟨2, _⟩ => PosShare.left fullShare | ⟨3, _⟩ => PosShare.right fullShare | _ => fullShare
  owed _ := 0

theorem A_eq10 (c : Dev nD) (w : Fin cfg10.W) : (dat10 V c).A w = V c (Pipeline.arrRef spec10 w) := by
  dsimp only [dat10]

theorem after10_4 (c : Dev nD) (t : Fin cfg10.N) : (dat10 V c).after 4 t = out10_4 (iblk10 V c 0 t) (iblk10 V c 1 t) (iblk10 V c 2 t) := by dsimp only [dat10]
theorem after10_5 (c : Dev nD) (t : Fin cfg10.N) : (dat10 V c).after 5 t = out10_5 (iblk10 V c 0 t) (iblk10 V c 1 t) (iblk10 V c 2 t) (iblk10 V c 3 t) := by dsimp only [dat10]

theorem body_obligation10 (c : Dev nD) : BodyObligation (dat10 (F := F) V c) (defs₀ (F := F)) Variants.none () Set.univ := fun t => by
  rw [bigSep_W10, bigSep_W10]
  show _ ⊢ wp frame _ _ (bodyAt10 t) _
  unfold bodyAt10
  rw [cc10__combine_kernel_eq_skeleton]
  refine comb_body k10_pay1 k10_pay2 c _ _ _ _ _ _ _ _ _ _ _ _ (iblk10 V c 0 t) (iblk10 V c 1 t) (iblk10 V c 2 t) (iblk10 V c 3 t) _ _ _ _ _ _
    ?_ ?_ ?_ ?_ ?_ ?_ ?_ ?_ (after10_4 V c t) (after10_5 V c t) _ _
  iterate 4 exact fun d => (Dat.before_in_eq_fetched _ _ rfl (fun _ => rfl) (fun _ _ _ => rfl) (fun _ => by dsimp only [dat10]; rfl) t d).trans rfl
  all_goals dsimp only [dat10]

end Cert.KernelIdeal.Hand

end
-- ==== Proof.KIRegion11.lean ====
import proofs.«131905_j73031623901536_2_alg».proof.Proof.KIMatBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev r11_0 : Rect S1000x128 := Rect.unit (s := S1000x128) ![0, 0] S1000x128.size inb_S1000x128_S1000x128_0_0
abbrev r11_1 : Rect S128x128 := Rect.unit (s := S128x128) ![0, 0] S128x128.size inb_S128x128_S128x128_0_0

def out11_2 (x0 : Vec F S1000x128 .f32) (x1 : Vec F S128x128 .f32) : Vec F S1000x128 .f32 :=
  View.canon [⟨r11_0, k11_pay1 (View.ld x0 r11_0) (View.ld x1 r11_1)⟩]

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

/-- The body leaves an input as it finds it, so at every point it reads the array's block there. -/
theorem before11_0 (c : Dev nD) (t : Fin cfg11.N) (d) : (dat11 V c).before 0 t d = iblk11 V c 0 t :=
  ((dat11 V c).before_in_eq_fetched 0 rfl (fun _ => rfl) (fun _ _ _ => rfl) (fun _ => rfl) t d).trans rfl
theorem before11_1 (c : Dev nD) (t : Fin cfg11.N) (d) : (dat11 V c).before 1 t d = iblk11 V c 1 t :=
  ((dat11 V c).before_in_eq_fetched 1 rfl (fun _ => rfl) (fun _ _ _ => rfl) (fun _ => rfl) t d).trans rfl

theorem body_obligation11 (c : Dev nD) : BodyObligation (dat11 (F := F) V c) (defs₀ (F := F)) Variants.none () Set.univ := fun t => by
  rw [bigSep_W11, bigSep_W11]
  show _ ⊢ wp _ _ _ (bodyAt11 t) _
  unfold bodyAt11
  rw [cc11__matmul_kernel_eq_skeleton]
  exact matProg_obligation k11_pay1 c (hstage11_0 _) (hstage11_1 _) (hstage11_2 _) (before11_0 V c t) (before11_1 V c t)
    (after11_0 V c t) (after11_1 V c t) (after11_2 V c t)

end Cert.KernelIdeal.Hand

end
-- ==== Proof.KIRegion12.lean ====
import proofs.«131905_j73031623901536_2_alg».proof.Proof.KIRegionComb

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

def out12_4 (x0 : Vec F S1000x128 .f32) (x1 : Vec F S1x128 .f32) (x2 : Vec F S1000x128 .f32) : Vec F S1000x128 .f32 :=
  View.canon [⟨combR0, k12_pay1 (View.ld x0 combR0) (View.ld x1 combR1) (View.ld x2 combR0)⟩]
def out12_5 (x0 : Vec F S1000x128 .f32) (x1 : Vec F S1x128 .f32) (x2 : Vec F S1000x128 .f32) (x3 : Vec F S1000x128 .f32) : Vec F S1000x128 .f32 :=
  View.canon [⟨combR0, k12_pay2 (View.ld x0 combR0) (View.ld x1 combR1) (View.ld x2 combR0) (View.ld x3 combR0)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t)
    | ⟨5, _⟩ => out12_5 (iblk12 V c 0 t) (iblk12 V c 1 t) (iblk12 V c 2 t) (iblk12 V c 3 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_4 (c : Dev nD) (t : Fin cfg12.N) : (dat12 V c).after 4 t = out12_4 (iblk12 V c 0 t) (iblk12 V c 1 t) (iblk12 V c 2 t) := by dsimp only [dat12]
theorem after12_5 (c : Dev nD) (t : Fin cfg12.N) : (dat12 V c).after 5 t = out12_5 (iblk12 V c 0 t) (iblk12 V c 1 t) (iblk12 V c 2 t) (iblk12 V c 3 t) := by dsimp only [dat12]

theorem body_obligation12 (c : Dev nD) : BodyObligation (dat12 (F := F) V c) (defs₀ (F := F)) Variants.none () Set.univ := fun t => by
  rw [bigSep_W12, bigSep_W12]
  show _ ⊢ wp frame _ _ (bodyAt12 t) _
  unfold bodyAt12
  rw [cc12__combine_kernel_eq_skeleton]
  refine comb_body k12_pay1 k12_pay2 c _ _ _ _ _ _ _ _ _ _ _ _ (iblk12 V c 0 t) (iblk12 V c 1 t) (iblk12 V c 2 t) (iblk12 V c 3 t) _ _ _ _ _ _
    ?_ ?_ ?_ ?_ ?_ ?_ ?_ ?_ (after12_4 V c t) (after12_5 V c t) _ _
  iterate 4 exact fun d => (Dat.before_in_eq_fetched _ _ rfl (fun _ => rfl) (fun _ _ _ => rfl) (fun _ => by dsimp only [dat12]; rfl) t d).trans rfl
  all_goals dsimp only [dat12]

end Cert.KernelIdeal.Hand

end
-- ==== Proof.KILevels.lean ====
import proofs.«131905_j73031623901536_2_alg».proof.Proof.KernelIdealRegionsP
import proofs.«131905_j73031623901536_2_alg».proof.Proof.KIRegion0
import proofs.«131905_j73031623901536_2_alg».proof.Proof.KIRegion1
import proofs.«131905_j73031623901536_2_alg».proof.Proof.KIRegion2
import proofs.«131905_j73031623901536_2_alg».proof.Proof.KIRegion3
import proofs.«131905_j73031623901536_2_alg».proof.Proof.KIRegion4
import proofs.«131905_j73031623901536_2_alg».proof.Proof.KIRegion5
import proofs.«131905_j73031623901536_2_alg».proof.Proof.KIRegion6
import proofs.«131905_j73031623901536_2_alg».proof.Proof.KIRegion7
import proofs.«131905_j73031623901536_2_alg».proof.Proof.KIRegion8
import proofs.«131905_j73031623901536_2_alg».proof.Proof.KIRegion9
import proofs.«131905_j73031623901536_2_alg».proof.Proof.KIRegion10
import proofs.«131905_j73031623901536_2_alg».proof.Proof.KIRegion11
import proofs.«131905_j73031623901536_2_alg».proof.Proof.KIRegion12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)
def W1 (c : Dev nD) : Valuation τ sig (Elt F) := StableHlo.after hostOps0 (W0 m c)
theorem W1_def (c : Dev nD) : W1 m c = StableHlo.after hostOps0 (W0 m c) := rfl
def W2 (c : Dev nD) : Valuation τ sig (Elt F) := StableHlo.after hostOps0_1 (W1 m c)
theorem W2_def (c : Dev nD) : W2 m c = StableHlo.after hostOps0_1 (W1 m c) := rfl
def W3 (c : Dev nD) : Valuation τ sig (Elt F) := StableHlo.after hostOps0_2 (W2 m c)
theorem W3_def (c : Dev nD) : W3 m c = StableHlo.after hostOps0_2 (W2 m c) := rfl
def W4 (c : Dev nD) : Valuation τ sig (Elt F) := StableHlo.after hostOps0_3 (W3 m c)
theorem W4_def (c : Dev nD) : W4 m c = StableHlo.after hostOps0_3 (W3 m c) := rfl
def W5 (c : Dev nD) : Valuation τ sig (Elt F) := StableHlo.after hostOps0_4 (W4 m c)
theorem W5_def (c : Dev nD) : W5 m c = StableHlo.after hostOps0_4 (W4 m c) := rfl
abbrev E5 : (c : Dev nD) → (b : Ref sig .tc) → Buf (Elt F) ((c : Thread nD τ).loc b) := fun c b => W5 m c b
def W6 (c : Dev nD) : Valuation τ sig (Elt F) := Function.update (W5 m c) main_v40 ((dat0 (E5 m) c).arrAt 2 cfg0.N)
theorem W6_of_ne (c : Dev nD) (x : DevRef τ sig) (h0 : x ≠ Proc.devRef .tc main_v40) : W6 m c x = W5 m c x := by
  unfold W6; rw [Function.update_of_ne h0]
theorem W6_at_main_v40 (c : Dev nD) : W6 m c (Proc.devRef .tc main_v40) = (dat0 (E5 m) c).arrAt 2 cfg0.N := by
  unfold W6; rw [Function.update_self]
abbrev E6 : (c : Dev nD) → (b : Ref sig .tc) → Buf (Elt F) ((c : Thread nD τ).loc b) := fun c b => W6 m c b
def W7 (c : Dev nD) : Valuation τ sig (Elt F) := StableHlo.after hostOps1 (W6 m c)
theorem W7_def (c : Dev nD) : W7 m c = StableHlo.after hostOps1 (W6 m c) := rfl
abbrev E7 : (c : Dev nD) → (b : Ref sig .tc) → Buf (Elt F) ((c : Thread nD τ).loc b) := fun c b => W7 m c b
def W8 (c : Dev nD) : Valuation τ sig (Elt F) := Function.update (Function.update (W7 m c) main_v57_0 ((dat1 (E7 m) c).arrAt 4 cfg1.N)) main_v57_1 ((dat1 (E7 m) c).arrAt 5 cfg1.N)
theorem W8_of_ne (c : Dev nD) (x : DevRef τ sig) (h0 : x ≠ Proc.devRef .tc main_v57_0) (h1 : x ≠ Proc.devRef .tc main_v57_1) : W8 m c x = W7 m c x := by
  unfold W8; rw [Function.update_of_ne h1, Function.update_of_ne h0]
theorem W8_at_main_v57_0 (c : Dev nD) : W8 m c (Proc.devRef .tc main_v57_0) = (dat1 (E7 m) c).arrAt 4 cfg1.N := by
  unfold W8; rw [Function.update_of_ne (StableHlo.devRef_ne_of_ne (by decide) : (Proc.devRef .tc main_v57_0 : DevRef τ sig) ≠ Proc.devRef .tc main_v57_1), Function.update_self]
theorem W8_at_main_v57_1 (c : Dev nD) : W8 m c (Proc.devRef .tc main_v57_1) = (dat1 (E7 m) c).arrAt 5 cfg1.N := by
  unfold W8; rw [Function.update_self]
abbrev E8 : (c : Dev nD) → (b : Ref sig .tc) → Buf (Elt F) ((c : Thread nD τ).loc b) := fun c b => W8 m c b
def W9 (c : Dev nD) : Valuation τ sig (Elt F) := StableHlo.after hostOps2 (W8 m c)
theorem W9_def (c : Dev nD) : W9 m c = StableHlo.after hostOps2 (W8 m c) := rfl
abbrev E9 : (c : Dev nD) → (b : Ref sig .tc) → Buf (Elt F) ((c : Thread nD τ).loc b) := fun c b => W9 m c b
def W10 (c : Dev nD) : Valuation τ sig (Elt F) := Function.update (W9 m c) main_v60 ((dat2 (E9 m) c).arrAt 2 cfg2.N)
theorem W10_of_ne (c : Dev nD) (x : DevRef τ sig) (h0 : x ≠ Proc.devRef .tc main_v60) : W10 m c x = W9 m c x := by
  unfold W10; rw [Function.update_of_ne h0]
theorem W10_at_main_v60 (c : Dev nD) : W10 m c (Proc.devRef .tc main_v60) = (dat2 (E9 m) c).arrAt 2 cfg2.N := by
  unfold W10; rw [Function.update_self]
abbrev E10 : (c : Dev nD) → (b : Ref sig .tc) → Buf (Elt F) ((c : Thread nD τ).loc b) := fun c b => W10 m c b
def W11 (c : Dev nD) : Valuation τ sig (Elt F) := StableHlo.after hostOps3 (W10 m c)
theorem W11_def (c : Dev nD) : W11 m c = StableHlo.after hostOps3 (W10 m c) := rfl
abbrev E11 : (c : Dev nD) → (b : Ref sig .tc) → Buf (Elt F) ((c : Thread nD τ).loc b) := fun c b => W11 m c b
def W12 (c : Dev nD) : Valuation τ sig (Elt F) := Function.update (Function.update (W11 m c) main_v77_0 ((dat3 (E11 m) c).arrAt 4 cfg3.N)) main_v77_1 ((dat3 (E11 m) c).arrAt 5 cfg3.N)
theorem W12_of_ne (c : Dev nD) (x : DevRef τ sig) (h0 : x ≠ Proc.devRef .tc main_v77_0) (h1 : x ≠ Proc.devRef .tc main_v77_1) : W12 m c x = W11 m c x := by
  unfold W12; rw [Function.update_of_ne h1, Function.update_of_ne h0]
theorem W12_at_main_v77_0 (c : Dev nD) : W12 m c (Proc.devRef .tc main_v77_0) = (dat3 (E11 m) c).arrAt 4 cfg3.N := by
  unfold W12; rw [Function.update_of_ne (StableHlo.devRef_ne_of_ne (by decide) : (Proc.devRef .tc main_v77_0 : DevRef τ sig) ≠ Proc.devRef .tc main_v77_1), Function.update_self]
theorem W12_at_main_v77_1 (c : Dev nD) : W12 m c (Proc.devRef .tc main_v77_1) = (dat3 (E11 m) c).arrAt 5 cfg3.N := by
  unfold W12; rw [Function.update_self]
abbrev E12 : (c : Dev nD) → (b : Ref sig .tc) → Buf (Elt F) ((c : Thread nD τ).loc b) := fun c b => W12 m c b
def W13 (c : Dev nD) : Valuation τ sig (Elt F) := StableHlo.after hostOps4 (W12 m c)
theorem W13_def (c : Dev nD) : W13 m c = StableHlo.after hostOps4 (W12 m c) := rfl
abbrev E13 : (c : Dev nD) → (b : Ref sig .tc) → Buf (Elt F) ((c : Thread nD τ).loc b) := fun c b => W13 m c b
def W14 (c : Dev nD) : Valuation τ sig (Elt F) := Function.update (Function.update (W13 m c) main_v81_0 ((dat4 (E13 m) c).arrAt 3 cfg4.N)) main_v81_1 ((dat4 (E13 m) c).arrAt 4 cfg4.N)
theorem W14_of_ne (c : Dev nD) (x : DevRef τ sig) (h0 : x ≠ Proc.devRef .tc main_v81_0) (h1 : x ≠ Proc.devRef .tc main_v81_1) : W14 m c x = W13 m c x := by
  unfold W14; rw [Function.update_of_ne h1, Function.update_of_ne h0]
theorem W14_at_main_v81_0 (c : Dev nD) : W14 m c (Proc.devRef .tc main_v81_0) = (dat4 (E13 m) c).arrAt 3 cfg4.N := by
  unfold W14; rw [Function.update_of_ne (StableHlo.devRef_ne_of_ne (by decide) : (Proc.devRef .tc main_v81_0 : DevRef τ sig) ≠ Proc.devRef .tc main_v81_1), Function.update_self]
theorem W14_at_main_v81_1 (c : Dev nD) : W14 m c (Proc.devRef .tc main_v81_1) = (dat4 (E13 m) c).arrAt 4 cfg4.N := by
  unfold W14; rw [Function.update_self]
abbrev E14 : (c : Dev nD) → (b : Ref sig .tc) → Buf (Elt F) ((c : Thread nD τ).loc b) := fun c b => W14 m c b
def W15 (c : Dev nD) : Valuation τ sig (Elt F) := StableHlo.after hostOps5 (W14 m c)
theorem W15_def (c : Dev nD) : W15 m c = StableHlo.after hostOps5 (W14 m c) := rfl
def W16 (c : Dev nD) : Valuation τ sig (Elt F) := StableHlo.after hostOps5_1 (W15 m c)
theorem W16_def (c : Dev nD) : W16 m c = StableHlo.after hostOps5_1 (W15 m c) := rfl
def W17 (c : Dev nD) : Valuation τ sig (Elt F) := StableHlo.after hostOps5_2 (W16 m c)
theorem W17_def (c : Dev nD) : W17 m c = StableHlo.after hostOps5_2 (W16 m c) := rfl
def W18 (c : Dev nD) : Valuation τ sig (Elt F) := StableHlo.after hostOps5_3 (W17 m c)
theorem W18_def (c : Dev nD) : W18 m c = StableHlo.after hostOps5_3 (W17 m c) := rfl
def W19 (c : Dev nD) : Valuation τ sig (Elt F) := StableHlo.after hostOps5_4 (W18 m c)
theorem W19_def (c : Dev nD) : W19 m c = StableHlo.after hostOps5_4 (W18 m c) := rfl
def W20 (c : Dev nD) : Valuation τ sig (Elt F) := StableHlo.after hostOps5_5 (W19 m c)
theorem W20_def (c : Dev nD) : W20 m c = StableHlo.after hostOps5_5 (W19 m c) := rfl
def W21 (c : Dev nD) : Valuation τ sig (Elt F) := StableHlo.after hostOps5_6 (W20 m c)
theorem W21_def (c : Dev nD) : W21 m c = StableHlo.after hostOps5_6 (W20 m c) := rfl
def W22 (c : Dev nD) : Valuation τ sig (Elt F) := StableHlo.after hostOps5_7 (W21 m c)
theorem W22_def (c : Dev nD) : W22 m c = StableHlo.after hostOps5_7 (W21 m c) := rfl
def W23 (c : Dev nD) : Valuation τ sig (Elt F) := StableHlo.after hostOps5_8 (W22 m c)
theorem W23_def (c : Dev nD) : W23 m c = StableHlo.after hostOps5_8 (W22 m c) := rfl
abbrev E23 : (c : Dev nD) → (b : Ref sig .tc) → Buf (Elt F) ((c : Thread nD τ).loc b) := fun c b => W23 m c b
def W24 (c : Dev nD) : Valuation τ sig (Elt F) := Function.update (W23 m c) main_v111 ((dat5 (E23 m) c).arrAt 2 cfg5.N)
theorem W24_of_ne (c : Dev nD) (x : DevRef τ sig) (h0 : x ≠ Proc.devRef .tc main_v111) : W24 m c x = W23 m c x := by
  unfold W24; rw [Function.update_of_ne h0]
theorem W24_at_main_v111 (c : Dev nD) : W24 m c (Proc.devRef .tc main_v111) = (dat5 (E23 m) c).arrAt 2 cfg5.N := by
  unfold W24; rw [Function.update_self]
abbrev E24 : (c : Dev nD) → (b : Ref sig .tc) → Buf (Elt F) ((c : Thread nD τ).loc b) := fun c b => W24 m c b
def W25 (c : Dev nD) : Valuation τ sig (Elt F) := StableHlo.after hostOps6 (W24 m c)
theorem W25_def (c : Dev nD) : W25 m c = StableHlo.after hostOps6 (W24 m c) := rfl
abbrev E25 : (c : Dev nD) → (b : Ref sig .tc) → Buf (Elt F) ((c : Thread nD τ).loc b) := fun c b => W25 m c b
def W26 (c : Dev nD) : Valuation τ sig (Elt F) := Function.update (Function.update (W25 m c) main_v141_0 ((dat6 (E25 m) c).arrAt 4 cfg6.N)) main_v141_1 ((dat6 (E25 m) c).arrAt 5 cfg6.N)
theorem W26_of_ne (c : Dev nD) (x : DevRef τ sig) (h0 : x ≠ Proc.devRef .tc main_v141_0) (h1 : x ≠ Proc.devRef .tc main_v141_1) : W26 m c x = W25 m c x := by
  unfold W26; rw [Function.update_of_ne h1, Function.update_of_ne h0]
theorem W26_at_main_v141_0 (c : Dev nD) : W26 m c (Proc.devRef .tc main_v141_0) = (dat6 (E25 m) c).arrAt 4 cfg6.N := by
  unfold W26; rw [Function.update_of_ne (StableHlo.devRef_ne_of_ne (by decide) : (Proc.devRef .tc main_v141_0 : DevRef τ sig) ≠ Proc.devRef .tc main_v141_1), Function.update_self]
theorem W26_at_main_v141_1 (c : Dev nD) : W26 m c (Proc.devRef .tc main_v141_1) = (dat6 (E25 m) c).arrAt 5 cfg6.N := by
  unfold W26; rw [Function.update_self]
abbrev E26 : (c : Dev nD) → (b : Ref sig .tc) → Buf (Elt F) ((c : Thread nD τ).loc b) := fun c b => W26 m c b
def W27 (c : Dev nD) : Valuation τ sig (Elt F) := StableHlo.after hostOps7 (W26 m c)
theorem W27_def (c : Dev nD) : W27 m c = StableHlo.after hostOps7 (W26 m c) := rfl
abbrev E27 : (c : Dev nD) → (b : Ref sig .tc) → Buf (Elt F) ((c : Thread nD τ).loc b) := fun c b => W27 m c b
def W28 (c : Dev nD) : Valuation τ sig (Elt F) := Function.update (W27 m c) main_v144 ((dat7 (E27 m) c).arrAt 2 cfg7.N)
theorem W28_of_ne (c : Dev nD) (x : DevRef τ sig) (h0 : x ≠ Proc.devRef .tc main_v144) : W28 m c x = W27 m c x := by
  unfold W28; rw [Function.update_of_ne h0]
theorem W28_at_main_v144 (c : Dev nD) : W28 m c (Proc.devRef .tc main_v144) = (dat7 (E27 m) c).arrAt 2 cfg7.N := by
  unfold W28; rw [Function.update_self]
abbrev E28 : (c : Dev nD) → (b : Ref sig .tc) → Buf (Elt F) ((c : Thread nD τ).loc b) := fun c b => W28 m c b
def W29 (c : Dev nD) : Valuation τ sig (Elt F) := StableHlo.after hostOps8 (W28 m c)
theorem W29_def (c : Dev nD) : W29 m c = StableHlo.after hostOps8 (W28 m c) := rfl
abbrev E29 : (c : Dev nD) → (b : Ref sig .tc) → Buf (Elt F) ((c : Thread nD τ).loc b) := fun c b => W29 m c b
def W30 (c : Dev nD) : Valuation τ sig (Elt F) := Function.update (Function.update (W29 m c) main_v174_0 ((dat8 (E29 m) c).arrAt 4 cfg8.N)) main_v174_1 ((dat8 (E29 m) c).arrAt 5 cfg8.N)
theorem W30_of_ne (c : Dev nD) (x : DevRef τ sig) (h0 : x ≠ Proc.devRef .tc main_v174_0) (h1 : x ≠ Proc.devRef .tc main_v174_1) : W30 m c x = W29 m c x := by
  unfold W30; rw [Function.update_of_ne h1, Function.update_of_ne h0]
theorem W30_at_main_v174_0 (c : Dev nD) : W30 m c (Proc.devRef .tc main_v174_0) = (dat8 (E29 m) c).arrAt 4 cfg8.N := by
  unfold W30; rw [Function.update_of_ne (StableHlo.devRef_ne_of_ne (by decide) : (Proc.devRef .tc main_v174_0 : DevRef τ sig) ≠ Proc.devRef .tc main_v174_1), Function.update_self]
theorem W30_at_main_v174_1 (c : Dev nD) : W30 m c (Proc.devRef .tc main_v174_1) = (dat8 (E29 m) c).arrAt 5 cfg8.N := by
  unfold W30; rw [Function.update_self]
abbrev E30 : (c : Dev nD) → (b : Ref sig .tc) → Buf (Elt F) ((c : Thread nD τ).loc b) := fun c b => W30 m c b
def W31 (c : Dev nD) : Valuation τ sig (Elt F) := StableHlo.after hostOps9 (W30 m c)
theorem W31_def (c : Dev nD) : W31 m c = StableHlo.after hostOps9 (W30 m c) := rfl
def W32 (c : Dev nD) : Valuation τ sig (Elt F) := StableHlo.after hostOps9_1 (W31 m c)
theorem W32_def (c : Dev nD) : W32 m c = StableHlo.after hostOps9_1 (W31 m c) := rfl
def W33 (c : Dev nD) : Valuation τ sig (Elt F) := StableHlo.after hostOps9_2 (W32 m c)
theorem W33_def (c : Dev nD) : W33 m c = StableHlo.after hostOps9_2 (W32 m c) := rfl
def W34 (c : Dev nD) : Valuation τ sig (Elt F) := StableHlo.after hostOps9_3 (W33 m c)
theorem W34_def (c : Dev nD) : W34 m c = StableHlo.after hostOps9_3 (W33 m c) := rfl
def W35 (c : Dev nD) : Valuation τ sig (Elt F) := StableHlo.after hostOps9_4 (W34 m c)
theorem W35_def (c : Dev nD) : W35 m c = StableHlo.after hostOps9_4 (W34 m c) := rfl
def W36 (c : Dev nD) : Valuation τ sig (Elt F) := StableHlo.after hostOps9_5 (W35 m c)
theorem W36_def (c : Dev nD) : W36 m c = StableHlo.after hostOps9_5 (W35 m c) := rfl
def W37 (c : Dev nD) : Valuation τ sig (Elt F) := StableHlo.after hostOps9_6 (W36 m c)
theorem W37_def (c : Dev nD) : W37 m c = StableHlo.after hostOps9_6 (W36 m c) := rfl
def W38 (c : Dev nD) : Valuation τ sig (Elt F) := StableHlo.after hostOps9_7 (W37 m c)
theorem W38_def (c : Dev nD) : W38 m c = StableHlo.after hostOps9_7 (W37 m c) := rfl
def W39 (c : Dev nD) : Valuation τ sig (Elt F) := StableHlo.after hostOps9_8 (W38 m c)
theorem W39_def (c : Dev nD) : W39 m c = StableHlo.after hostOps9_8 (W38 m c) := rfl
abbrev E39 : (c : Dev nD) → (b : Ref sig .tc) → Buf (Elt F) ((c : Thread nD τ).loc b) := fun c b => W39 m c b
def W40 (c : Dev nD) : Valuation τ sig (Elt F) := Function.update (W39 m c) main_v245 ((dat9 (E39 m) c).arrAt 2 cfg9.N)
theorem W40_of_ne (c : Dev nD) (x : DevRef τ sig) (h0 : x ≠ Proc.devRef .tc main_v245) : W40 m c x = W39 m c x := by
  unfold W40; rw [Function.update_of_ne h0]
theorem W40_at_main_v245 (c : Dev nD) : W40 m c (Proc.devRef .tc main_v245) = (dat9 (E39 m) c).arrAt 2 cfg9.N := by
  unfold W40; rw [Function.update_self]
abbrev E40 : (c : Dev nD) → (b : Ref sig .tc) → Buf (Elt F) ((c : Thread nD τ).loc b) := fun c b => W40 m c b
def W41 (c : Dev nD) : Valuation τ sig (Elt F) := StableHlo.after hostOps10 (W40 m c)
theorem W41_def (c : Dev nD) : W41 m c = StableHlo.after hostOps10 (W40 m c) := rfl
abbrev E41 : (c : Dev nD) → (b : Ref sig .tc) → Buf (Elt F) ((c : Thread nD τ).loc b) := fun c b => W41 m c b
def W42 (c : Dev nD) : Valuation τ sig (Elt F) := Function.update (Function.update (W41 m c) main_v262_0 ((dat10 (E41 m) c).arrAt 4 cfg10.N)) main_v262_1 ((dat10 (E41 m) c).arrAt 5 cfg10.N)
theorem W42_of_ne (c : Dev nD) (x : DevRef τ sig) (h0 : x ≠ Proc.devRef .tc main_v262_0) (h1 : x ≠ Proc.devRef .tc main_v262_1) : W42 m c x = W41 m c x := by
  unfold W42; rw [Function.update_of_ne h1, Function.update_of_ne h0]
theorem W42_at_main_v262_0 (c : Dev nD) : W42 m c (Proc.devRef .tc main_v262_0) = (dat10 (E41 m) c).arrAt 4 cfg10.N := by
  unfold W42; rw [Function.update_of_ne (StableHlo.devRef_ne_of_ne (by decide) : (Proc.devRef .tc main_v262_0 : DevRef τ sig) ≠ Proc.devRef .tc main_v262_1), Function.update_self]
theorem W42_at_main_v262_1 (c : Dev nD) : W42 m c (Proc.devRef .tc main_v262_1) = (dat10 (E41 m) c).arrAt 5 cfg10.N := by
  unfold W42; rw [Function.update_self]
abbrev E42 : (c : Dev nD) → (b : Ref sig .tc) → Buf (Elt F) ((c : Thread nD τ).loc b) := fun c b => W42 m c b
def W43 (c : Dev nD) : Valuation τ sig (Elt F) := StableHlo.after hostOps11 (W42 m c)
theorem W43_def (c : Dev nD) : W43 m c = StableHlo.after hostOps11 (W42 m c) := rfl
abbrev E43 : (c : Dev nD) → (b : Ref sig .tc) → Buf (Elt F) ((c : Thread nD τ).loc b) := fun c b => W43 m c b
def W44 (c : Dev nD) : Valuation τ sig (Elt F) := Function.update (W43 m c) main_v265 ((dat11 (E43 m) c).arrAt 2 cfg11.N)
theorem W44_of_ne (c : Dev nD) (x : DevRef τ sig) (h0 : x ≠ Proc.devRef .tc main_v265) : W44 m c x = W43 m c x := by
  unfold W44; rw [Function.update_of_ne h0]
theorem W44_at_main_v265 (c : Dev nD) : W44 m c (Proc.devRef .tc main_v265) = (dat11 (E43 m) c).arrAt 2 cfg11.N := by
  unfold W44; rw [Function.update_self]
abbrev E44 : (c : Dev nD) → (b : Ref sig .tc) → Buf (Elt F) ((c : Thread nD τ).loc b) := fun c b => W44 m c b
def W45 (c : Dev nD) : Valuation τ sig (Elt F) := StableHlo.after hostOps12 (W44 m c)
theorem W45_def (c : Dev nD) : W45 m c = StableHlo.after hostOps12 (W44 m c) := rfl
abbrev E45 : (c : Dev nD) → (b : Ref sig .tc) → Buf (Elt F) ((c : Thread nD τ).loc b) := fun c b => W45 m c b
def W46 (c : Dev nD) : Valuation τ sig (Elt F) := Function.update (Function.update (W45 m c) main_v282_0 ((dat12 (E45 m) c).arrAt 4 cfg12.N)) main_v282_1 ((dat12 (E45 m) c).arrAt 5 cfg12.N)
theorem W46_of_ne (c : Dev nD) (x : DevRef τ sig) (h0 : x ≠ Proc.devRef .tc main_v282_0) (h1 : x ≠ Proc.devRef .tc main_v282_1) : W46 m c x = W45 m c x := by
  unfold W46; rw [Function.update_of_ne h1, Function.update_of_ne h0]
theorem W46_at_main_v282_0 (c : Dev nD) : W46 m c (Proc.devRef .tc main_v282_0) = (dat12 (E45 m) c).arrAt 4 cfg12.N := by
  unfold W46; rw [Function.update_of_ne (StableHlo.devRef_ne_of_ne (by decide) : (Proc.devRef .tc main_v282_0 : DevRef τ sig) ≠ Proc.devRef .tc main_v282_1), Function.update_self]
theorem W46_at_main_v282_1 (c : Dev nD) : W46 m c (Proc.devRef .tc main_v282_1) = (dat12 (E45 m) c).arrAt 5 cfg12.N := by
  unfold W46; rw [Function.update_self]
abbrev E46 : (c : Dev nD) → (b : Ref sig .tc) → Buf (Elt F) ((c : Thread nD τ).loc b) := fun c b => W46 m c b
def W47 (c : Dev nD) : Valuation τ sig (Elt F) := StableHlo.after hostOps13 (W46 m c)
theorem W47_def (c : Dev nD) : W47 m c = StableHlo.after hostOps13 (W46 m c) := rfl

def OUTS : Outs (F := F) := fun J r c => match J with
  | 6 => W6 m c r
  | 8 => W8 m c r
  | 10 => W10 m c r
  | 12 => W12 m c r
  | 14 => W14 m c r
  | 24 => W24 m c r
  | 26 => W26 m c r
  | 28 => W28 m c r
  | 30 => W30 m c r
  | 40 => W40 m c r
  | 42 => W42 m c r
  | 44 => W44 m c r
  | 46 => W46 m c r
  | _ => W0 m c r

-- rewriting the base of an update whose new value is read back from the target
private theorem upd1_eq {V V' : Valuation τ sig (Elt F)} (h : V = V') (a : DevRef τ sig) (v : a.ty.Contents (Elt F)) :
    Function.update V a (Function.update V' a v a) = Function.update V' a v := by
  subst h; rw [Function.update_self]
-- the same for two updates at distinct references
private theorem upd2_eq {V V' : Valuation τ sig (Elt F)} (h : V = V') {a b : DevRef τ sig} (hab : a ≠ b) (v : a.ty.Contents (Elt F)) (w : b.ty.Contents (Elt F)) :
    Function.update (Function.update V a (Function.update (Function.update V' a v) b w a)) b (Function.update (Function.update V' a v) b w b)
      = Function.update (Function.update V' a v) b w := by
  subst h; rw [Function.update_self, Function.update_of_ne hab, Function.update_self]

theorem V0_eq (c : Dev nD) : V0 m c = W0 m c := rfl
theorem V1_eq (c : Dev nD) : V1 m c = W1 m c := congrArg (StableHlo.after hostOps0) (V0_eq m c)
theorem V2_eq (c : Dev nD) : V2 m c = W2 m c := congrArg (StableHlo.after hostOps0_1) (V1_eq m c)
theorem V3_eq (c : Dev nD) : V3 m c = W3 m c := congrArg (StableHlo.after hostOps0_2) (V2_eq m c)
theorem V4_eq (c : Dev nD) : V4 m c = W4 m c := congrArg (StableHlo.after hostOps0_3) (V3_eq m c)
theorem V5_eq (c : Dev nD) : V5 m c = W5 m c := congrArg (StableHlo.after hostOps0_4) (V4_eq m c)
theorem V6_eq (c : Dev nD) : V6 m (OUTS m) c = W6 m c := upd1_eq (V5_eq m c) _ _
theorem V7_eq (c : Dev nD) : V7 m (OUTS m) c = W7 m c := congrArg (StableHlo.after hostOps1) (V6_eq m c)
theorem V8_eq (c : Dev nD) : V8 m (OUTS m) c = W8 m c := upd2_eq (V7_eq m c) (StableHlo.devRef_ne_of_ne (by decide)) _ _
theorem V9_eq (c : Dev nD) : V9 m (OUTS m) c = W9 m c := congrArg (StableHlo.after hostOps2) (V8_eq m c)
theorem V10_eq (c : Dev nD) : V10 m (OUTS m) c = W10 m c := upd1_eq (V9_eq m c) _ _
theorem V11_eq (c : Dev nD) : V11 m (OUTS m) c = W11 m c := congrArg (StableHlo.after hostOps3) (V10_eq m c)
theorem V12_eq (c : Dev nD) : V12 m (OUTS m) c = W12 m c := upd2_eq (V11_eq m c) (StableHlo.devRef_ne_of_ne (by decide)) _ _
theorem V13_eq (c : Dev nD) : V13 m (OUTS m) c = W13 m c := congrArg (StableHlo.after hostOps4) (V12_eq m c)
theorem V14_eq (c : Dev nD) : V14 m (OUTS m) c = W14 m c := upd2_eq (V13_eq m c) (StableHlo.devRef_ne_of_ne (by decide)) _ _
theorem V15_eq (c : Dev nD) : V15 m (OUTS m) c = W15 m c := congrArg (StableHlo.after hostOps5) (V14_eq m c)
theorem V16_eq (c : Dev nD) : V16 m (OUTS m) c = W16 m c := congrArg (StableHlo.after hostOps5_1) (V15_eq m c)
theorem V17_eq (c : Dev nD) : V17 m (OUTS m) c = W17 m c := congrArg (StableHlo.after hostOps5_2) (V16_eq m c)
theorem V18_eq (c : Dev nD) : V18 m (OUTS m) c = W18 m c := congrArg (StableHlo.after hostOps5_3) (V17_eq m c)
theorem V19_eq (c : Dev nD) : V19 m (OUTS m) c = W19 m c := congrArg (StableHlo.after hostOps5_4) (V18_eq m c)
theorem V20_eq (c : Dev nD) : V20 m (OUTS m) c = W20 m c := congrArg (StableHlo.after hostOps5_5) (V19_eq m c)
theorem V21_eq (c : Dev nD) : V21 m (OUTS m) c = W21 m c := congrArg (StableHlo.after hostOps5_6) (V20_eq m c)
theorem V22_eq (c : Dev nD) : V22 m (OUTS m) c = W22 m c := congrArg (StableHlo.after hostOps5_7) (V21_eq m c)
theorem V23_eq (c : Dev nD) : V23 m (OUTS m) c = W23 m c := congrArg (StableHlo.after hostOps5_8) (V22_eq m c)
theorem V24_eq (c : Dev nD) : V24 m (OUTS m) c = W24 m c := upd1_eq (V23_eq m c) _ _
theorem V25_eq (c : Dev nD) : V25 m (OUTS m) c = W25 m c := congrArg (StableHlo.after hostOps6) (V24_eq m c)
theorem V26_eq (c : Dev nD) : V26 m (OUTS m) c = W26 m c := upd2_eq (V25_eq m c) (StableHlo.devRef_ne_of_ne (by decide)) _ _
theorem V27_eq (c : Dev nD) : V27 m (OUTS m) c = W27 m c := congrArg (StableHlo.after hostOps7) (V26_eq m c)
theorem V28_eq (c : Dev nD) : V28 m (OUTS m) c = W28 m c := upd1_eq (V27_eq m c) _ _
theorem V29_eq (c : Dev nD) : V29 m (OUTS m) c = W29 m c := congrArg (StableHlo.after hostOps8) (V28_eq m c)
theorem V30_eq (c : Dev nD) : V30 m (OUTS m) c = W30 m c := upd2_eq (V29_eq m c) (StableHlo.devRef_ne_of_ne (by decide)) _ _
theorem V31_eq (c : Dev nD) : V31 m (OUTS m) c = W31 m c := congrArg (StableHlo.after hostOps9) (V30_eq m c)
theorem V32_eq (c : Dev nD) : V32 m (OUTS m) c = W32 m c := congrArg (StableHlo.after hostOps9_1) (V31_eq m c)
theorem V33_eq (c : Dev nD) : V33 m (OUTS m) c = W33 m c := congrArg (StableHlo.after hostOps9_2) (V32_eq m c)
theorem V34_eq (c : Dev nD) : V34 m (OUTS m) c = W34 m c := congrArg (StableHlo.after hostOps9_3) (V33_eq m c)
theorem V35_eq (c : Dev nD) : V35 m (OUTS m) c = W35 m c := congrArg (StableHlo.after hostOps9_4) (V34_eq m c)
theorem V36_eq (c : Dev nD) : V36 m (OUTS m) c = W36 m c := congrArg (StableHlo.after hostOps9_5) (V35_eq m c)
theorem V37_eq (c : Dev nD) : V37 m (OUTS m) c = W37 m c := congrArg (StableHlo.after hostOps9_6) (V36_eq m c)
theorem V38_eq (c : Dev nD) : V38 m (OUTS m) c = W38 m c := congrArg (StableHlo.after hostOps9_7) (V37_eq m c)
theorem V39_eq (c : Dev nD) : V39 m (OUTS m) c = W39 m c := congrArg (StableHlo.after hostOps9_8) (V38_eq m c)
theorem V40_eq (c : Dev nD) : V40 m (OUTS m) c = W40 m c := upd1_eq (V39_eq m c) _ _
theorem V41_eq (c : Dev nD) : V41 m (OUTS m) c = W41 m c := congrArg (StableHlo.after hostOps10) (V40_eq m c)
theorem V42_eq (c : Dev nD) : V42 m (OUTS m) c = W42 m c := upd2_eq (V41_eq m c) (StableHlo.devRef_ne_of_ne (by decide)) _ _
theorem V43_eq (c : Dev nD) : V43 m (OUTS m) c = W43 m c := congrArg (StableHlo.after hostOps11) (V42_eq m c)
theorem V44_eq (c : Dev nD) : V44 m (OUTS m) c = W44 m c := upd1_eq (V43_eq m c) _ _
theorem V45_eq (c : Dev nD) : V45 m (OUTS m) c = W45 m c := congrArg (StableHlo.after hostOps12) (V44_eq m c)
theorem V46_eq (c : Dev nD) : V46 m (OUTS m) c = W46 m c := upd2_eq (V45_eq m c) (StableHlo.devRef_ne_of_ne (by decide)) _ _
theorem V47_eq (c : Dev nD) : V47 m (OUTS m) c = W47 m c := congrArg (StableHlo.after hostOps13) (V46_eq m c)

end Cert.KernelIdeal.Hand

end
-- ==== Proof.KIExit.lean ====
import proofs.«131905_j73031623901536_2_alg».proof.Proof.KILevels
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

private theorem nim {n : ℕ} {f : Fin n → Ref sig .tc} {b : Ref sig .tc} (hb : b ∉ Finset.univ.image f) (w : Fin n) :
    (Proc.devRef .tc b : DevRef τ sig) ≠ Proc.devRef .tc (f w) :=
  StableHlo.devRef_ne_of_ne fun e => hb (Finset.mem_image.mpr ⟨w, Finset.mem_univ _, e.symm⟩)

set_option maxHeartbeats 1000000 in
theorem hF0_0 (c : Dev nD) : (dat0 (E5 m) c).arrAt 0 cfg0.N = E6 m c (Pipeline.arrRef spec0 0) :=
  ((dat0 (E5 m) c).arrAt_in 0 rfl _).trans ((A_eq0 (E5 m) c 0).trans (W6_of_ne m c (Proc.devRef .tc (Pipeline.arrRef spec0 0)) (StableHlo.devRef_ne_of_ne (by decide))).symm)
set_option maxHeartbeats 1000000 in
theorem hF0_1 (c : Dev nD) : (dat0 (E5 m) c).arrAt 1 cfg0.N = E6 m c (Pipeline.arrRef spec0 1) :=
  ((dat0 (E5 m) c).arrAt_in 1 rfl _).trans ((A_eq0 (E5 m) c 1).trans (W6_of_ne m c (Proc.devRef .tc (Pipeline.arrRef spec0 1)) (StableHlo.devRef_ne_of_ne (by decide))).symm)
theorem hF0 (c : Dev nD) (w : Fin cfg0.W) : (dat0 (E5 m) c).arrAt w cfg0.N = E6 m c (Pipeline.arrRef spec0 w) :=
  match w with
  | ⟨0, _⟩ => hF0_0 m c
  | ⟨1, _⟩ => hF0_1 m c
  | ⟨2, _⟩ => (W6_at_main_v40 m c).symm
theorem hrest0 (c : Dev nD) : ∀ b, b ∉ Finset.univ.image (Pipeline.arrRef spec0) → E6 m c b = E5 m c b := fun b hb =>
  W6_of_ne m c _ (nim hb 2)
set_option maxHeartbeats 1000000 in
theorem hF1_0 (c : Dev nD) : (dat1 (E7 m) c).arrAt 0 cfg1.N = E8 m c (Pipeline.arrRef spec1 0) :=
  ((dat1 (E7 m) c).arrAt_in 0 rfl _).trans ((A_eq1 (E7 m) c 0).trans (W8_of_ne m c (Proc.devRef .tc (Pipeline.arrRef spec1 0)) (StableHlo.devRef_ne_of_ne (by decide)) (StableHlo.devRef_ne_of_ne (by decide))).symm)
set_option maxHeartbeats 1000000 in
theorem hF1_1 (c : Dev nD) : (dat1 (E7 m) c).arrAt 1 cfg1.N = E8 m c (Pipeline.arrRef spec1 1) :=
  ((dat1 (E7 m) c).arrAt_in 1 rfl _).trans ((A_eq1 (E7 m) c 1).trans (W8_of_ne m c (Proc.devRef .tc (Pipeline.arrRef spec1 1)) (StableHlo.devRef_ne_of_ne (by decide)) (StableHlo.devRef_ne_of_ne (by decide))).symm)
set_option maxHeartbeats 1000000 in
theorem hF1_2 (c : Dev nD) : (dat1 (E7 m) c).arrAt 2 cfg1.N = E8 m c (Pipeline.arrRef spec1 2) :=
  ((dat1 (E7 m) c).arrAt_in 2 rfl _).trans ((A_eq1 (E7 m) c 2).trans (W8_of_ne m c (Proc.devRef .tc (Pipeline.arrRef spec1 2)) (StableHlo.devRef_ne_of_ne (by decide)) (StableHlo.devRef_ne_of_ne (by decide))).symm)
set_option maxHeartbeats 1000000 in
theorem hF1_3 (c : Dev nD) : (dat1 (E7 m) c).arrAt 3 cfg1.N = E8 m c (Pipeline.arrRef spec1 3) :=
  ((dat1 (E7 m) c).arrAt_in 3 rfl _).trans ((A_eq1 (E7 m) c 3).trans (W8_of_ne m c (Proc.devRef .tc (Pipeline.arrRef spec1 3)) (StableHlo.devRef_ne_of_ne (by decide)) (StableHlo.devRef_ne_of_ne (by decide))).symm)
theorem hF1 (c : Dev nD) (w : Fin cfg1.W) : (dat1 (E7 m) c).arrAt w cfg1.N = E8 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => (W8_at_main_v57_0 m c).symm
  | ⟨5, _⟩ => (W8_at_main_v57_1 m c).symm
theorem hrest1 (c : Dev nD) : ∀ b, b ∉ Finset.univ.image (Pipeline.arrRef spec1) → E8 m c b = E7 m c b := fun b hb =>
  W8_of_ne m c _ (nim hb 4) (nim hb 5)
set_option maxHeartbeats 1000000 in
theorem hF2_0 (c : Dev nD) : (dat2 (E9 m) c).arrAt 0 cfg2.N = E10 m c (Pipeline.arrRef spec2 0) :=
  ((dat2 (E9 m) c).arrAt_in 0 rfl _).trans ((A_eq2 (E9 m) c 0).trans (W10_of_ne m c (Proc.devRef .tc (Pipeline.arrRef spec2 0)) (StableHlo.devRef_ne_of_ne (by decide))).symm)
set_option maxHeartbeats 1000000 in
theorem hF2_1 (c : Dev nD) : (dat2 (E9 m) c).arrAt 1 cfg2.N = E10 m c (Pipeline.arrRef spec2 1) :=
  ((dat2 (E9 m) c).arrAt_in 1 rfl _).trans ((A_eq2 (E9 m) c 1).trans (W10_of_ne m c (Proc.devRef .tc (Pipeline.arrRef spec2 1)) (StableHlo.devRef_ne_of_ne (by decide))).symm)
theorem hF2 (c : Dev nD) (w : Fin cfg2.W) : (dat2 (E9 m) c).arrAt w cfg2.N = E10 m c (Pipeline.arrRef spec2 w) :=
  match w with
  | ⟨0, _⟩ => hF2_0 m c
  | ⟨1, _⟩ => hF2_1 m c
  | ⟨2, _⟩ => (W10_at_main_v60 m c).symm
theorem hrest2 (c : Dev nD) : ∀ b, b ∉ Finset.univ.image (Pipeline.arrRef spec2) → E10 m c b = E9 m c b := fun b hb =>
  W10_of_ne m c _ (nim hb 2)
set_option maxHeartbeats 1000000 in
theorem hF3_0 (c : Dev nD) : (dat3 (E11 m) c).arrAt 0 cfg3.N = E12 m c (Pipeline.arrRef spec3 0) :=
  ((dat3 (E11 m) c).arrAt_in 0 rfl _).trans ((A_eq3 (E11 m) c 0).trans (W12_of_ne m c (Proc.devRef .tc (Pipeline.arrRef spec3 0)) (StableHlo.devRef_ne_of_ne (by decide)) (StableHlo.devRef_ne_of_ne (by decide))).symm)
set_option maxHeartbeats 1000000 in
theorem hF3_1 (c : Dev nD) : (dat3 (E11 m) c).arrAt 1 cfg3.N = E12 m c (Pipeline.arrRef spec3 1) :=
  ((dat3 (E11 m) c).arrAt_in 1 rfl _).trans ((A_eq3 (E11 m) c 1).trans (W12_of_ne m c (Proc.devRef .tc (Pipeline.arrRef spec3 1)) (StableHlo.devRef_ne_of_ne (by decide)) (StableHlo.devRef_ne_of_ne (by decide))).symm)
set_option maxHeartbeats 1000000 in
theorem hF3_2 (c : Dev nD) : (dat3 (E11 m) c).arrAt 2 cfg3.N = E12 m c (Pipeline.arrRef spec3 2) :=
  ((dat3 (E11 m) c).arrAt_in 2 rfl _).trans ((A_eq3 (E11 m) c 2).trans (W12_of_ne m c (Proc.devRef .tc (Pipeline.arrRef spec3 2)) (StableHlo.devRef_ne_of_ne (by decide)) (StableHlo.devRef_ne_of_ne (by decide))).symm)
set_option maxHeartbeats 1000000 in
theorem hF3_3 (c : Dev nD) : (dat3 (E11 m) c).arrAt 3 cfg3.N = E12 m c (Pipeline.arrRef spec3 3) :=
  ((dat3 (E11 m) c).arrAt_in 3 rfl _).trans ((A_eq3 (E11 m) c 3).trans (W12_of_ne m c (Proc.devRef .tc (Pipeline.arrRef spec3 3)) (StableHlo.devRef_ne_of_ne (by decide)) (StableHlo.devRef_ne_of_ne (by decide))).symm)
theorem hF3 (c : Dev nD) (w : Fin cfg3.W) : (dat3 (E11 m) c).arrAt w cfg3.N = E12 m c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => (W12_at_main_v77_0 m c).symm
  | ⟨5, _⟩ => (W12_at_main_v77_1 m c).symm
theorem hrest3 (c : Dev nD) : ∀ b, b ∉ Finset.univ.image (Pipeline.arrRef spec3) → E12 m c b = E11 m c b := fun b hb =>
  W12_of_ne m c _ (nim hb 4) (nim hb 5)
set_option maxHeartbeats 1000000 in
theorem hF4_0 (c : Dev nD) : (dat4 (E13 m) c).arrAt 0 cfg4.N = E14 m c (Pipeline.arrRef spec4 0) :=
  ((dat4 (E13 m) c).arrAt_in 0 rfl _).trans ((A_eq4 (E13 m) c 0).trans (W14_of_ne m c (Proc.devRef .tc (Pipeline.arrRef spec4 0)) (StableHlo.devRef_ne_of_ne (by decide)) (StableHlo.devRef_ne_of_ne (by decide))).symm)
set_option maxHeartbeats 1000000 in
theorem hF4_1 (c : Dev nD) : (dat4 (E13 m) c).arrAt 1 cfg4.N = E14 m c (Pipeline.arrRef spec4 1) :=
  ((dat4 (E13 m) c).arrAt_in 1 rfl _).trans ((A_eq4 (E13 m) c 1).trans (W14_of_ne m c (Proc.devRef .tc (Pipeline.arrRef spec4 1)) (StableHlo.devRef_ne_of_ne (by decide)) (StableHlo.devRef_ne_of_ne (by decide))).symm)
set_option maxHeartbeats 1000000 in
theorem hF4_2 (c : Dev nD) : (dat4 (E13 m) c).arrAt 2 cfg4.N = E14 m c (Pipeline.arrRef spec4 2) :=
  ((dat4 (E13 m) c).arrAt_in 2 rfl _).trans ((A_eq4 (E13 m) c 2).trans (W14_of_ne m c (Proc.devRef .tc (Pipeline.arrRef spec4 2)) (StableHlo.devRef_ne_of_ne (by decide)) (StableHlo.devRef_ne_of_ne (by decide))).symm)
theorem hF4 (c : Dev nD) (w : Fin cfg4.W) : (dat4 (E13 m) c).arrAt w cfg4.N = E14 m c (Pipeline.arrRef spec4 w) :=
  match w with
  | ⟨0, _⟩ => hF4_0 m c
  | ⟨1, _⟩ => hF4_1 m c
  | ⟨2, _⟩ => hF4_2 m c
  | ⟨3, _⟩ => (W14_at_main_v81_0 m c).symm
  | ⟨4, _⟩ => (W14_at_main_v81_1 m c).symm
theorem hrest4 (c : Dev nD) : ∀ b, b ∉ Finset.univ.image (Pipeline.arrRef spec4) → E14 m c b = E13 m c b := fun b hb =>
  W14_of_ne m c _ (nim hb 3) (nim hb 4)
set_option maxHeartbeats 1000000 in
theorem hF5_0 (c : Dev nD) : (dat5 (E23 m) c).arrAt 0 cfg5.N = E24 m c (Pipeline.arrRef spec5 0) :=
  ((dat5 (E23 m) c).arrAt_in 0 rfl _).trans ((A_eq5 (E23 m) c 0).trans (W24_of_ne m c (Proc.devRef .tc (Pipeline.arrRef spec5 0)) (StableHlo.devRef_ne_of_ne (by decide))).symm)
set_option maxHeartbeats 1000000 in
theorem hF5_1 (c : Dev nD) : (dat5 (E23 m) c).arrAt 1 cfg5.N = E24 m c (Pipeline.arrRef spec5 1) :=
  ((dat5 (E23 m) c).arrAt_in 1 rfl _).trans ((A_eq5 (E23 m) c 1).trans (W24_of_ne m c (Proc.devRef .tc (Pipeline.arrRef spec5 1)) (StableHlo.devRef_ne_of_ne (by decide))).symm)
theorem hF5 (c : Dev nD) (w : Fin cfg5.W) : (dat5 (E23 m) c).arrAt w cfg5.N = E24 m c (Pipeline.arrRef spec5 w) :=
  match w with
  | ⟨0, _⟩ => hF5_0 m c
  | ⟨1, _⟩ => hF5_1 m c
  | ⟨2, _⟩ => (W24_at_main_v111 m c).symm
theorem hrest5 (c : Dev nD) : ∀ b, b ∉ Finset.univ.image (Pipeline.arrRef spec5) → E24 m c b = E23 m c b := fun b hb =>
  W24_of_ne m c _ (nim hb 2)
set_option maxHeartbeats 1000000 in
theorem hF6_0 (c : Dev nD) : (dat6 (E25 m) c).arrAt 0 cfg6.N = E26 m c (Pipeline.arrRef spec6 0) :=
  ((dat6 (E25 m) c).arrAt_in 0 rfl _).trans ((A_eq6 (E25 m) c 0).trans (W26_of_ne m c (Proc.devRef .tc (Pipeline.arrRef spec6 0)) (StableHlo.devRef_ne_of_ne (by decide)) (StableHlo.devRef_ne_of_ne (by decide))).symm)
set_option maxHeartbeats 1000000 in
theorem hF6_1 (c : Dev nD) : (dat6 (E25 m) c).arrAt 1 cfg6.N = E26 m c (Pipeline.arrRef spec6 1) :=
  ((dat6 (E25 m) c).arrAt_in 1 rfl _).trans ((A_eq6 (E25 m) c 1).trans (W26_of_ne m c (Proc.devRef .tc (Pipeline.arrRef spec6 1)) (StableHlo.devRef_ne_of_ne (by decide)) (StableHlo.devRef_ne_of_ne (by decide))).symm)
set_option maxHeartbeats 1000000 in
theorem hF6_2 (c : Dev nD) : (dat6 (E25 m) c).arrAt 2 cfg6.N = E26 m c (Pipeline.arrRef spec6 2) :=
  ((dat6 (E25 m) c).arrAt_in 2 rfl _).trans ((A_eq6 (E25 m) c 2).trans (W26_of_ne m c (Proc.devRef .tc (Pipeline.arrRef spec6 2)) (StableHlo.devRef_ne_of_ne (by decide)) (StableHlo.devRef_ne_of_ne (by decide))).symm)
set_option maxHeartbeats 1000000 in
theorem hF6_3 (c : Dev nD) : (dat6 (E25 m) c).arrAt 3 cfg6.N = E26 m c (Pipeline.arrRef spec6 3) :=
  ((dat6 (E25 m) c).arrAt_in 3 rfl _).trans ((A_eq6 (E25 m) c 3).trans (W26_of_ne m c (Proc.devRef .tc (Pipeline.arrRef spec6 3)) (StableHlo.devRef_ne_of_ne (by decide)) (StableHlo.devRef_ne_of_ne (by decide))).symm)
theorem hF6 (c : Dev nD) (w : Fin cfg6.W) : (dat6 (E25 m) c).arrAt w cfg6.N = E26 m c (Pipeline.arrRef spec6 w) :=
  match w with
  | ⟨0, _⟩ => hF6_0 m c
  | ⟨1, _⟩ => hF6_1 m c
  | ⟨2, _⟩ => hF6_2 m c
  | ⟨3, _⟩ => hF6_3 m c
  | ⟨4, _⟩ => (W26_at_main_v141_0 m c).symm
  | ⟨5, _⟩ => (W26_at_main_v141_1 m c).symm
theorem hrest6 (c : Dev nD) : ∀ b, b ∉ Finset.univ.image (Pipeline.arrRef spec6) → E26 m c b = E25 m c b := fun b hb =>
  W26_of_ne m c _ (nim hb 4) (nim hb 5)
set_option maxHeartbeats 1000000 in
theorem hF7_0 (c : Dev nD) : (dat7 (E27 m) c).arrAt 0 cfg7.N = E28 m c (Pipeline.arrRef spec7 0) :=
  ((dat7 (E27 m) c).arrAt_in 0 rfl _).trans ((A_eq7 (E27 m) c 0).trans (W28_of_ne m c (Proc.devRef .tc (Pipeline.arrRef spec7 0)) (StableHlo.devRef_ne_of_ne (by decide))).symm)
set_option maxHeartbeats 1000000 in
theorem hF7_1 (c : Dev nD) : (dat7 (E27 m) c).arrAt 1 cfg7.N = E28 m c (Pipeline.arrRef spec7 1) :=
  ((dat7 (E27 m) c).arrAt_in 1 rfl _).trans ((A_eq7 (E27 m) c 1).trans (W28_of_ne m c (Proc.devRef .tc (Pipeline.arrRef spec7 1)) (StableHlo.devRef_ne_of_ne (by decide))).symm)
theorem hF7 (c : Dev nD) (w : Fin cfg7.W) : (dat7 (E27 m) c).arrAt w cfg7.N = E28 m c (Pipeline.arrRef spec7 w) :=
  match w with
  | ⟨0, _⟩ => hF7_0 m c
  | ⟨1, _⟩ => hF7_1 m c
  | ⟨2, _⟩ => (W28_at_main_v144 m c).symm
theorem hrest7 (c : Dev nD) : ∀ b, b ∉ Finset.univ.image (Pipeline.arrRef spec7) → E28 m c b = E27 m c b := fun b hb =>
  W28_of_ne m c _ (nim hb 2)
set_option maxHeartbeats 1000000 in
theorem hF8_0 (c : Dev nD) : (dat8 (E29 m) c).arrAt 0 cfg8.N = E30 m c (Pipeline.arrRef spec8 0) :=
  ((dat8 (E29 m) c).arrAt_in 0 rfl _).trans ((A_eq8 (E29 m) c 0).trans (W30_of_ne m c (Proc.devRef .tc (Pipeline.arrRef spec8 0)) (StableHlo.devRef_ne_of_ne (by decide)) (StableHlo.devRef_ne_of_ne (by decide))).symm)
set_option maxHeartbeats 1000000 in
theorem hF8_1 (c : Dev nD) : (dat8 (E29 m) c).arrAt 1 cfg8.N = E30 m c (Pipeline.arrRef spec8 1) :=
  ((dat8 (E29 m) c).arrAt_in 1 rfl _).trans ((A_eq8 (E29 m) c 1).trans (W30_of_ne m c (Proc.devRef .tc (Pipeline.arrRef spec8 1)) (StableHlo.devRef_ne_of_ne (by decide)) (StableHlo.devRef_ne_of_ne (by decide))).symm)
set_option maxHeartbeats 1000000 in
theorem hF8_2 (c : Dev nD) : (dat8 (E29 m) c).arrAt 2 cfg8.N = E30 m c (Pipeline.arrRef spec8 2) :=
  ((dat8 (E29 m) c).arrAt_in 2 rfl _).trans ((A_eq8 (E29 m) c 2).trans (W30_of_ne m c (Proc.devRef .tc (Pipeline.arrRef spec8 2)) (StableHlo.devRef_ne_of_ne (by decide)) (StableHlo.devRef_ne_of_ne (by decide))).symm)
set_option maxHeartbeats 1000000 in
theorem hF8_3 (c : Dev nD) : (dat8 (E29 m) c).arrAt 3 cfg8.N = E30 m c (Pipeline.arrRef spec8 3) :=
  ((dat8 (E29 m) c).arrAt_in 3 rfl _).trans ((A_eq8 (E29 m) c 3).trans (W30_of_ne m c (Proc.devRef .tc (Pipeline.arrRef spec8 3)) (StableHlo.devRef_ne_of_ne (by decide)) (StableHlo.devRef_ne_of_ne (by decide))).symm)
theorem hF8 (c : Dev nD) (w : Fin cfg8.W) : (dat8 (E29 m) c).arrAt w cfg8.N = E30 m c (Pipeline.arrRef spec8 w) :=
  match w with
  | ⟨0, _⟩ => hF8_0 m c
  | ⟨1, _⟩ => hF8_1 m c
  | ⟨2, _⟩ => hF8_2 m c
  | ⟨3, _⟩ => hF8_3 m c
  | ⟨4, _⟩ => (W30_at_main_v174_0 m c).symm
  | ⟨5, _⟩ => (W30_at_main_v174_1 m c).symm
theorem hrest8 (c : Dev nD) : ∀ b, b ∉ Finset.univ.image (Pipeline.arrRef spec8) → E30 m c b = E29 m c b := fun b hb =>
  W30_of_ne m c _ (nim hb 4) (nim hb 5)
set_option maxHeartbeats 1000000 in
theorem hF9_0 (c : Dev nD) : (dat9 (E39 m) c).arrAt 0 cfg9.N = E40 m c (Pipeline.arrRef spec9 0) :=
  ((dat9 (E39 m) c).arrAt_in 0 rfl _).trans ((A_eq9 (E39 m) c 0).trans (W40_of_ne m c (Proc.devRef .tc (Pipeline.arrRef spec9 0)) (StableHlo.devRef_ne_of_ne (by decide))).symm)
set_option maxHeartbeats 1000000 in
theorem hF9_1 (c : Dev nD) : (dat9 (E39 m) c).arrAt 1 cfg9.N = E40 m c (Pipeline.arrRef spec9 1) :=
  ((dat9 (E39 m) c).arrAt_in 1 rfl _).trans ((A_eq9 (E39 m) c 1).trans (W40_of_ne m c (Proc.devRef .tc (Pipeline.arrRef spec9 1)) (StableHlo.devRef_ne_of_ne (by decide))).symm)
theorem hF9 (c : Dev nD) (w : Fin cfg9.W) : (dat9 (E39 m) c).arrAt w cfg9.N = E40 m c (Pipeline.arrRef spec9 w) :=
  match w with
  | ⟨0, _⟩ => hF9_0 m c
  | ⟨1, _⟩ => hF9_1 m c
  | ⟨2, _⟩ => (W40_at_main_v245 m c).symm
theorem hrest9 (c : Dev nD) : ∀ b, b ∉ Finset.univ.image (Pipeline.arrRef spec9) → E40 m c b = E39 m c b := fun b hb =>
  W40_of_ne m c _ (nim hb 2)
set_option maxHeartbeats 1000000 in
theorem hF10_0 (c : Dev nD) : (dat10 (E41 m) c).arrAt 0 cfg10.N = E42 m c (Pipeline.arrRef spec10 0) :=
  ((dat10 (E41 m) c).arrAt_in 0 rfl _).trans ((A_eq10 (E41 m) c 0).trans (W42_of_ne m c (Proc.devRef .tc (Pipeline.arrRef spec10 0)) (StableHlo.devRef_ne_of_ne (by decide)) (StableHlo.devRef_ne_of_ne (by decide))).symm)
set_option maxHeartbeats 1000000 in
theorem hF10_1 (c : Dev nD) : (dat10 (E41 m) c).arrAt 1 cfg10.N = E42 m c (Pipeline.arrRef spec10 1) :=
  ((dat10 (E41 m) c).arrAt_in 1 rfl _).trans ((A_eq10 (E41 m) c 1).trans (W42_of_ne m c (Proc.devRef .tc (Pipeline.arrRef spec10 1)) (StableHlo.devRef_ne_of_ne (by decide)) (StableHlo.devRef_ne_of_ne (by decide))).symm)
set_option maxHeartbeats 1000000 in
theorem hF10_2 (c : Dev nD) : (dat10 (E41 m) c).arrAt 2 cfg10.N = E42 m c (Pipeline.arrRef spec10 2) :=
  ((dat10 (E41 m) c).arrAt_in 2 rfl _).trans ((A_eq10 (E41 m) c 2).trans (W42_of_ne m c (Proc.devRef .tc (Pipeline.arrRef spec10 2)) (StableHlo.devRef_ne_of_ne (by decide)) (StableHlo.devRef_ne_of_ne (by decide))).symm)
set_option maxHeartbeats 1000000 in
theorem hF10_3 (c : Dev nD) : (dat10 (E41 m) c).arrAt 3 cfg10.N = E42 m c (Pipeline.arrRef spec10 3) :=
  ((dat10 (E41 m) c).arrAt_in 3 rfl _).trans ((A_eq10 (E41 m) c 3).trans (W42_of_ne m c (Proc.devRef .tc (Pipeline.arrRef spec10 3)) (StableHlo.devRef_ne_of_ne (by decide)) (StableHlo.devRef_ne_of_ne (by decide))).symm)
theorem hF10 (c : Dev nD) (w : Fin cfg10.W) : (dat10 (E41 m) c).arrAt w cfg10.N = E42 m c (Pipeline.arrRef spec10 w) :=
  match w with
  | ⟨0, _⟩ => hF10_0 m c
  | ⟨1, _⟩ => hF10_1 m c
  | ⟨2, _⟩ => hF10_2 m c
  | ⟨3, _⟩ => hF10_3 m c
  | ⟨4, _⟩ => (W42_at_main_v262_0 m c).symm
  | ⟨5, _⟩ => (W42_at_main_v262_1 m c).symm
theorem hrest10 (c : Dev nD) : ∀ b, b ∉ Finset.univ.image (Pipeline.arrRef spec10) → E42 m c b = E41 m c b := fun b hb =>
  W42_of_ne m c _ (nim hb 4) (nim hb 5)
set_option maxHeartbeats 1000000 in
theorem hF11_0 (c : Dev nD) : (dat11 (E43 m) c).arrAt 0 cfg11.N = E44 m c (Pipeline.arrRef spec11 0) :=
  ((dat11 (E43 m) c).arrAt_in 0 rfl _).trans ((A_eq11 (E43 m) c 0).trans (W44_of_ne m c (Proc.devRef .tc (Pipeline.arrRef spec11 0)) (StableHlo.devRef_ne_of_ne (by decide))).symm)
set_option maxHeartbeats 1000000 in
theorem hF11_1 (c : Dev nD) : (dat11 (E43 m) c).arrAt 1 cfg11.N = E44 m c (Pipeline.arrRef spec11 1) :=
  ((dat11 (E43 m) c).arrAt_in 1 rfl _).trans ((A_eq11 (E43 m) c 1).trans (W44_of_ne m c (Proc.devRef .tc (Pipeline.arrRef spec11 1)) (StableHlo.devRef_ne_of_ne (by decide))).symm)
theorem hF11 (c : Dev nD) (w : Fin cfg11.W) : (dat11 (E43 m) c).arrAt w cfg11.N = E44 m c (Pipeline.arrRef spec11 w) :=
  match w with
  | ⟨0, _⟩ => hF11_0 m c
  | ⟨1, _⟩ => hF11_1 m c
  | ⟨2, _⟩ => (W44_at_main_v265 m c).symm
theorem hrest11 (c : Dev nD) : ∀ b, b ∉ Finset.univ.image (Pipeline.arrRef spec11) → E44 m c b = E43 m c b := fun b hb =>
  W44_of_ne m c _ (nim hb 2)
set_option maxHeartbeats 1000000 in
theorem hF12_0 (c : Dev nD) : (dat12 (E45 m) c).arrAt 0 cfg12.N = E46 m c (Pipeline.arrRef spec12 0) :=
  ((dat12 (E45 m) c).arrAt_in 0 rfl _).trans ((A_eq12 (E45 m) c 0).trans (W46_of_ne m c (Proc.devRef .tc (Pipeline.arrRef spec12 0)) (StableHlo.devRef_ne_of_ne (by decide)) (StableHlo.devRef_ne_of_ne (by decide))).symm)
set_option maxHeartbeats 1000000 in
theorem hF12_1 (c : Dev nD) : (dat12 (E45 m) c).arrAt 1 cfg12.N = E46 m c (Pipeline.arrRef spec12 1) :=
  ((dat12 (E45 m) c).arrAt_in 1 rfl _).trans ((A_eq12 (E45 m) c 1).trans (W46_of_ne m c (Proc.devRef .tc (Pipeline.arrRef spec12 1)) (StableHlo.devRef_ne_of_ne (by decide)) (StableHlo.devRef_ne_of_ne (by decide))).symm)
set_option maxHeartbeats 1000000 in
theorem hF12_2 (c : Dev nD) : (dat12 (E45 m) c).arrAt 2 cfg12.N = E46 m c (Pipeline.arrRef spec12 2) :=
  ((dat12 (E45 m) c).arrAt_in 2 rfl _).trans ((A_eq12 (E45 m) c 2).trans (W46_of_ne m c (Proc.devRef .tc (Pipeline.arrRef spec12 2)) (StableHlo.devRef_ne_of_ne (by decide)) (StableHlo.devRef_ne_of_ne (by decide))).symm)
set_option maxHeartbeats 1000000 in
theorem hF12_3 (c : Dev nD) : (dat12 (E45 m) c).arrAt 3 cfg12.N = E46 m c (Pipeline.arrRef spec12 3) :=
  ((dat12 (E45 m) c).arrAt_in 3 rfl _).trans ((A_eq12 (E45 m) c 3).trans (W46_of_ne m c (Proc.devRef .tc (Pipeline.arrRef spec12 3)) (StableHlo.devRef_ne_of_ne (by decide)) (StableHlo.devRef_ne_of_ne (by decide))).symm)
theorem hF12 (c : Dev nD) (w : Fin cfg12.W) : (dat12 (E45 m) c).arrAt w cfg12.N = E46 m c (Pipeline.arrRef spec12 w) :=
  match w with
  | ⟨0, _⟩ => hF12_0 m c
  | ⟨1, _⟩ => hF12_1 m c
  | ⟨2, _⟩ => hF12_2 m c
  | ⟨3, _⟩ => hF12_3 m c
  | ⟨4, _⟩ => (W46_at_main_v282_0 m c).symm
  | ⟨5, _⟩ => (W46_at_main_v282_1 m c).symm
theorem hrest12 (c : Dev nD) : ∀ b, b ∉ Finset.univ.image (Pipeline.arrRef spec12) → E46 m c b = E45 m c b := fun b hb =>
  W46_of_ne m c _ (nim hb 4) (nim hb 5)

def pdats : (p : Fin 13) → (c : Dev nD) → Dat τ (Elt F) Unit ℕ (UR sig nD τ) ℕ (cfgs p) c
  | ⟨0, _⟩ => fun c => dat0 (E5 m) c
  | ⟨1, _⟩ => fun c => dat1 (E7 m) c
  | ⟨2, _⟩ => fun c => dat2 (E9 m) c
  | ⟨3, _⟩ => fun c => dat3 (E11 m) c
  | ⟨4, _⟩ => fun c => dat4 (E13 m) c
  | ⟨5, _⟩ => fun c => dat5 (E23 m) c
  | ⟨6, _⟩ => fun c => dat6 (E25 m) c
  | ⟨7, _⟩ => fun c => dat7 (E27 m) c
  | ⟨8, _⟩ => fun c => dat8 (E29 m) c
  | ⟨9, _⟩ => fun c => dat9 (E39 m) c
  | ⟨10, _⟩ => fun c => dat10 (E41 m) c
  | ⟨11, _⟩ => fun c => dat11 (E43 m) c
  | ⟨12, _⟩ => fun c => dat12 (E45 m) c
abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

end Cert.KernelIdeal.Hand

end
-- ==== Proof.KIShared1.lean ====
import proofs.«131905_j73031623901536_2_alg».proof.Proof.KIRegion1
import proofs.«131905_j73031623901536_2_alg».proof.Proof.SharedPair

namespace Cert.KernelIdeal.Hand

open Idealize.ShloMosaic Idealize.ShloMosaic.TcCoe Idealize.SL.BI Idealize.SL.BI.BIBase

variable {F : FTy → Type} [FloatOps F] (V : (c : Dev nD) → (b : Ref sig .tc) → Buf (Elt F) ((c : Thread nD τ).loc b))

local notation "𝕄" => MT nD τ sig Unit (Elt F) ℕ (UR sig nD τ) ℕ

/-- Windows 2 and 3 name one array and hold it at the two halves of the full share. -/
theorem pair1 (c : Dev nD) : SharedPair (dat1 V c) 2 3 where
  ne := by decide
  ref := rfl
  inj := by decide
  unscoped := Gen.winFacts₀1.arr_unscoped
  whole := Gen.arr_whole1
  left := rfl
  right := rfl
  full := fun
    | ⟨0, _⟩, _, _ => rfl | ⟨1, _⟩, _, _ => rfl | ⟨2, _⟩, h, _ => absurd rfl h | ⟨3, _⟩, _, h => absurd rfl h
    | ⟨4, _⟩, _, _ => rfl | ⟨5, _⟩, _, _ => rfl | ⟨_ + 6, h⟩, _, _ => absurd h (Nat.not_lt.2 (Nat.le_add_left _ _))

theorem entry1 (c : Dev nD) :
    (unscopedBufs c (V c) : sProp 𝕄)
      ⊢ iprop((dat1 V c).arrays ((dat1 V c).arrAt · 0)
          ∗ Pipeline.unscopedRest (Ix := Unit) (Name := ℕ) (U := UR sig nD τ) (Lvl := ℕ) spec1 c (V c)) :=
  (pair1 V c).entry (V c) (A_eq1 V c)

theorem exit1 (V' : (c : Dev nD) → (b : Ref sig .tc) → Buf (Elt F) ((c : Thread nD τ).loc b)) (c : Dev nD)
    (hF : ∀ w, (dat1 V c).arrAt w cfg1.N = V' c (Pipeline.arrRef spec1 w))
    (hrest : ∀ b, b ∉ Finset.univ.image (Pipeline.arrRef spec1) → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c (V' c) : sProp 𝕄) :=
  (pair1 V c).exit (V c) (V' c) _ hF hrest

end Cert.KernelIdeal.Hand
-- ==== Proof.KIShared6.lean ====
import proofs.«131905_j73031623901536_2_alg».proof.Proof.KIRegion6
import proofs.«131905_j73031623901536_2_alg».proof.Proof.SharedPair

namespace Cert.KernelIdeal.Hand

open Idealize.ShloMosaic Idealize.ShloMosaic.TcCoe Idealize.SL.BI Idealize.SL.BI.BIBase

variable {F : FTy → Type} [FloatOps F] (V : (c : Dev nD) → (b : Ref sig .tc) → Buf (Elt F) ((c : Thread nD τ).loc b))

local notation "𝕄" => MT nD τ sig Unit (Elt F) ℕ (UR sig nD τ) ℕ

/-- Windows 2 and 3 name one array and hold it at the two halves of the full share. -/
theorem pair6 (c : Dev nD) : SharedPair (dat6 V c) 2 3 where
  ne := by decide
  ref := rfl
  inj := by decide
  unscoped := Gen.winFacts₀6.arr_unscoped
  whole := Gen.arr_whole6
  left := rfl
  right := rfl
  full := fun
    | ⟨0, _⟩, _, _ => rfl | ⟨1, _⟩, _, _ => rfl | ⟨2, _⟩, h, _ => absurd rfl h | ⟨3, _⟩, _, h => absurd rfl h
    | ⟨4, _⟩, _, _ => rfl | ⟨5, _⟩, _, _ => rfl | ⟨_ + 6, h⟩, _, _ => absurd h (Nat.not_lt.2 (Nat.le_add_left _ _))

theorem entry6 (c : Dev nD) :
    (unscopedBufs c (V c) : sProp 𝕄)
      ⊢ iprop((dat6 V c).arrays ((dat6 V c).arrAt · 0)
          ∗ Pipeline.unscopedRest (Ix := Unit) (Name := ℕ) (U := UR sig nD τ) (Lvl := ℕ) spec6 c (V c)) :=
  (pair6 V c).entry (V c) (A_eq6 V c)

theorem exit6 (V' : (c : Dev nD) → (b : Ref sig .tc) → Buf (Elt F) ((c : Thread nD τ).loc b)) (c : Dev nD)
    (hF : ∀ w, (dat6 V c).arrAt w cfg6.N = V' c (Pipeline.arrRef spec6 w))
    (hrest : ∀ b, b ∉ Finset.univ.image (Pipeline.arrRef spec6) → V' c b = V c b) :
    iprop((dat6 V c).arrays ((dat6 V c).arrAt · cfg6.N)
        ∗ Pipeline.unscopedRest (Ix := Unit) (Name := ℕ) (U := UR sig nD τ) (Lvl := ℕ) spec6 c (V c))
      ⊢ (unscopedBufs c (V' c) : sProp 𝕄) :=
  (pair6 V c).exit (V c) (V' c) _ hF hrest

end Cert.KernelIdeal.Hand
-- ==== Proof.KIShared10.lean ====
import proofs.«131905_j73031623901536_2_alg».proof.Proof.KIRegion10
import proofs.«131905_j73031623901536_2_alg».proof.Proof.SharedPair

namespace Cert.KernelIdeal.Hand

open Idealize.ShloMosaic Idealize.ShloMosaic.TcCoe Idealize.SL.BI Idealize.SL.BI.BIBase

variable {F : FTy → Type} [FloatOps F] (V : (c : Dev nD) → (b : Ref sig .tc) → Buf (Elt F) ((c : Thread nD τ).loc b))

local notation "𝕄" => MT nD τ sig Unit (Elt F) ℕ (UR sig nD τ) ℕ

/-- Windows 2 and 3 name one array and hold it at the two halves of the full share. -/
theorem pair10 (c : Dev nD) : SharedPair (dat10 V c) 2 3 where
  ne := by decide
  ref := rfl
  inj := by decide
  unscoped := Gen.winFacts₀10.arr_unscoped
  whole := Gen.arr_whole10
  left := rfl
  right := rfl
  full := fun
    | ⟨0, _⟩, _, _ => rfl | ⟨1, _⟩, _, _ => rfl | ⟨2, _⟩, h, _ => absurd rfl h | ⟨3, _⟩, _, h => absurd rfl h
    | ⟨4, _⟩, _, _ => rfl | ⟨5, _⟩, _, _ => rfl | ⟨_ + 6, h⟩, _, _ => absurd h (Nat.not_lt.2 (Nat.le_add_left _ _))

theorem entry10 (c : Dev nD) :
    (unscopedBufs c (V c) : sProp 𝕄)
      ⊢ iprop((dat10 V c).arrays ((dat10 V c).arrAt · 0)
          ∗ Pipeline.unscopedRest (Ix := Unit) (Name := ℕ) (U := UR sig nD τ) (Lvl := ℕ) spec10 c (V c)) :=
  (pair10 V c).entry (V c) (A_eq10 V c)

theorem exit10 (V' : (c : Dev nD) → (b : Ref sig .tc) → Buf (Elt F) ((c : Thread nD τ).loc b)) (c : Dev nD)
    (hF : ∀ w, (dat10 V c).arrAt w cfg10.N = V' c (Pipeline.arrRef spec10 w))
    (hrest : ∀ b, b ∉ Finset.univ.image (Pipeline.arrRef spec10) → V' c b = V c b) :
    iprop((dat10 V c).arrays ((dat10 V c).arrAt · cfg10.N)
        ∗ Pipeline.unscopedRest (Ix := Unit) (Name := ℕ) (U := UR sig nD τ) (Lvl := ℕ) spec10 c (V c))
      ⊢ (unscopedBufs c (V' c) : sProp 𝕄) :=
  (pair10 V c).exit (V c) (V' c) _ hF hrest

end Cert.KernelIdeal.Hand
-- ==== Proof.KIRegs.lean ====
import proofs.«131905_j73031623901536_2_alg».proof.Proof.KIExit
import proofs.«131905_j73031623901536_2_alg».proof.Proof.KIShared1
import proofs.«131905_j73031623901536_2_alg».proof.Proof.KIShared6
import proofs.«131905_j73031623901536_2_alg».proof.Proof.KIShared10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

-- Three fields that all thirteen proof data set to the same constants, so that a region's record can be written once for every `k`.
theorem pdats_std (k : Fin 13) (c : Dev nD) :
    (∀ t, (pdats m k c).Φ t = Pipeline.ΦA (cfgs k).spec c) ∧ (∀ t, (pdats m k c).owed t = 0)
      ∧ ∀ t, (pdats m k c).recorded t = Set.univ := by
  match k with
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ => exact ⟨fun _ => rfl, fun _ => rfl, fun _ => rfl⟩

abbrev bufsOf (W : Dev nD → Valuation τ sig (Elt F)) (c : Dev nD) (b : Ref sig .tc) : Buf (Elt F) ((c : Thread nD τ).loc b) := W c b

-- A region entered with the unscoped buffers at `Wi` and left with them at `Wo`: its four entailments follow from the two regroupings of those buffers around its arrays.
def mkReg (k : Fin 13) (win : Pipeline.WinFacts₀ (cfgs k).spec) (block_pos : ∀ w : Fin (cfgs k).W, 0 < ((cfgs k).spec w).block.numel)
    (stage_whole : ∀ (w : Fin (cfgs k).W) (s : Fin ((cfgs k).spec w).nbuf), (((cfgs k).spec w).stage s).IsWhole)
    (hbody : ∀ c, Pipeline.BodyObligationLoose (pdats m k c) (defs₀ (F := F)) 𝒱₀ () Set.univ)
    (Wi Wo : Dev nD → Valuation τ sig (Elt F))
    (hsplit : ∀ c, (unscopedBufs c (bufsOf Wi c) : sProp 𝕄)
      ⊢ iprop((pdats m k c).arrays ((pdats m k c).arrAt · 0) ∗ Pipeline.unscopedRest (Ix := Unit) (Name := ℕ) (U := UR sig nD τ) (Lvl := ℕ) (cfgs k).spec c (bufsOf Wi c)))
    (hjoin : ∀ c, (iprop((pdats m k c).arrays ((pdats m k c).arrAt · (cfgs k).N) ∗ Pipeline.unscopedRest (Ix := Unit) (Name := ℕ) (U := UR sig nD τ) (Lvl := ℕ) (cfgs k).spec c (bufsOf Wi c)) : sProp 𝕄)
      ⊢ (unscopedBufs c (bufsOf Wo c) : sProp 𝕄)) :
    Pipeline.RegionSeg (pcfgs (F := F)) adm (pdats m) () defs₀ 𝒱₀ L lv k where
  win := win
  block_pos := block_pos
  stage_whole := stage_whole
  K := PEmpty
  osem k := k.elim
  ho := Pipeline.OwnSemFacts.none _
  hbody := hbody
  hwaits := Pipeline.hwaits_of_owed_zero _ _ _ _ L lv k fun c => (pdats_std m k c).2.1
  pre c := iprop(StableHlo.held (c : Thread nD τ) (Pipeline.ucRefs τ sig) (Wi c) ∗ Rr c)
  post c := iprop(StableHlo.held (c : Thread nD τ) (Pipeline.ucRefs τ sig) (Wo c) ∗ Rr c)
  X c := iprop(∃ r, prngReg c r)
  Y c := iprop(∃ r, prngReg c r)
  Z c := Pipeline.unscopedRest (Ix := Unit) (Name := ℕ) (U := UR sig nD τ) (Lvl := ℕ) (cfgs k).spec c (bufsOf Wi c)
  hentry c := by
    obtain ⟨-, ho, hr⟩ := pdats_std m k c
    have h := hsplit c
    rw [Pipeline.unscopedBufs_held] at h
    rw [Pipeline.ownSems0_none]
    iintro ⟨⟨Hub, Hp, HO⟩, -, -⟩
    ihave H := h $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [ho, hr]
      icases HO with ⟨%W, HO⟩; iexists W; isplitr; · ipureintro; exact fun _ _ => Or.inl trivial
      iexact HO
    isplitl [Hp]; · iexact Hp
    iexact Hrest
  hin c := by
    rw [(pdats_std m k c).1]; unfold Pipeline.ΦA
    iintro ⟨Hp, -, Hr⟩
    isplitl [Hr]; · iexact Hr
    iexact Hp
  hout c := by
    rw [Pipeline.ownSems0_none, (pdats_std m k c).1]; unfold Pipeline.ΦA
    iintro ⟨Hr, Hp⟩
    isplitl [Hp]; · iexact Hp
    isplitr; · iempintro
    iexact Hr
  hexit c := by
    have h := hjoin c
    rw [Pipeline.unscopedBufs_held] at h
    iintro ⟨Ha, HO, HY, Hrest⟩
    imodintro
    isplitl [Ha Hrest]
    · iapply h; isplitl [Ha] <;> iassumption
    isplitl [HY]; · iexact HY
    unfold Pipeline.Dat.owesAt Pipeline.owesWithin; rw [(pdats_std m k c).2.1]
    icases HO with ⟨%W, -, HO⟩; iexists W; iexact HO

-- Where the region's arrays are distinct whole buffers held at the full share, the two regroupings are the library's.
def mkRegL (k : Fin 13) (lf : Pipeline.LaunchFacts (nD := nD) (τ := τ) cfgs k)
    (hbody : ∀ c, Pipeline.BodyObligationLoose (pdats m k c) (defs₀ (F := F)) 𝒱₀ () Set.univ)
    (Wi Wo : Dev nD → Valuation τ sig (Elt F))
    (hq : ∀ c w, (pdats m k c).q w = fullShare) (hA : ∀ c w, (pdats m k c).A w = bufsOf Wi c (Pipeline.arrRef (cfgs k).spec w))
    (hF : ∀ c w, (pdats m k c).arrAt w (cfgs k).N = bufsOf Wo c (Pipeline.arrRef (cfgs k).spec w))
    (hrest : ∀ c b, b ∉ Finset.univ.image (Pipeline.arrRef (cfgs k).spec) → bufsOf Wo c b = bufsOf Wi c b) :
    Pipeline.RegionSeg (pcfgs (F := F)) adm (pdats m) () defs₀ 𝒱₀ L lv k :=
  mkReg m k lf.win.to₀ lf.block_pos lf.stage_whole hbody Wi Wo
    (fun c => Pipeline.arrays_of_unscopedBufs (pcfgs (F := F)) adm (pdats m) lf.win lf.arr_whole c ((pdats m k c).share_full (hq c)) _ (hA c))
    (fun c => Pipeline.unscopedBufs_of_arrays (pcfgs (F := F)) adm (Ix := Unit) (Name := ℕ) (U := UR sig nD τ) (Lvl := ℕ)
      lf.win lf.arr_whole c (pdats m) ((pdats m k c).share_full (hq c)) _ _ _ (hF c) (hrest c))

def reg0 : Pipeline.RegionSeg (pcfgs (F := F)) adm (pdats m) () defs₀ 𝒱₀ L lv 0 :=
  mkRegL m 0 launch0 (fun c => (body_obligation0 (E5 m) c).loose) (W5 m) (W6 m) (fun _ _ => rfl) (fun _ _ => rfl) (hF0 m) (hrest0 m)

def reg1 : Pipeline.RegionSeg (pcfgs (F := F)) adm (pdats m) () defs₀ 𝒱₀ L lv 1 :=
  mkReg m 1 winFacts₀1 block_pos1 stage_whole1 (fun c => (body_obligation1 (E7 m) c).loose) (W7 m) (W8 m)
    (entry1 (E7 m)) fun c => exit1 (E7 m) (E8 m) c (hF1 m c) (hrest1 m c)

def reg2 : Pipeline.RegionSeg (pcfgs (F := F)) adm (pdats m) () defs₀ 𝒱₀ L lv 2 :=
  mkRegL m 2 launch2 (fun c => (body_obligation2 (E9 m) c).loose) (W9 m) (W10 m) (fun _ _ => rfl) (fun _ _ => rfl) (hF2 m) (hrest2 m)

def reg3 : Pipeline.RegionSeg (pcfgs (F := F)) adm (pdats m) () defs₀ 𝒱₀ L lv 3 :=
  mkRegL m 3 launch3 (fun c => (body_obligation3 (E11 m) c).loose) (W11 m) (W12 m) (fun _ _ => rfl) (fun _ _ => rfl) (hF3 m) (hrest3 m)

def reg4 : Pipeline.RegionSeg (pcfgs (F := F)) adm (pdats m) () defs₀ 𝒱₀ L lv 4 :=
  mkRegL m 4 launch4 (fun c => (body_obligation4 (E13 m) c).loose) (W13 m) (W14 m) (fun _ _ => rfl) (fun _ _ => rfl) (hF4 m) (hrest4 m)

def reg5 : Pipeline.RegionSeg (pcfgs (F := F)) adm (pdats m) () defs₀ 𝒱₀ L lv 5 :=
  mkRegL m 5 launch5 (fun c => (body_obligation5 (E23 m) c).loose) (W23 m) (W24 m) (fun _ _ => rfl) (fun _ _ => rfl) (hF5 m) (hrest5 m)

def reg6 : Pipeline.RegionSeg (pcfgs (F := F)) adm (pdats m) () defs₀ 𝒱₀ L lv 6 :=
  mkReg m 6 winFacts₀6 block_pos6 stage_whole6 (fun c => (body_obligation6 (E25 m) c).loose) (W25 m) (W26 m)
    (entry6 (E25 m)) fun c => exit6 (E25 m) (E26 m) c (hF6 m c) (hrest6 m c)

def reg7 : Pipeline.RegionSeg (pcfgs (F := F)) adm (pdats m) () defs₀ 𝒱₀ L lv 7 :=
  mkRegL m 7 launch7 (fun c => (body_obligation7 (E27 m) c).loose) (W27 m) (W28 m) (fun _ _ => rfl) (fun _ _ => rfl) (hF7 m) (hrest7 m)

def reg8 : Pipeline.RegionSeg (pcfgs (F := F)) adm (pdats m) () defs₀ 𝒱₀ L lv 8 :=
  mkRegL m 8 launch8 (fun c => (body_obligation8 (E29 m) c).loose) (W29 m) (W30 m) (fun _ _ => rfl) (fun _ _ => rfl) (hF8 m) (hrest8 m)

def reg9 : Pipeline.RegionSeg (pcfgs (F := F)) adm (pdats m) () defs₀ 𝒱₀ L lv 9 :=
  mkRegL m 9 launch9 (fun c => (body_obligation9 (E39 m) c).loose) (W39 m) (W40 m) (fun _ _ => rfl) (fun _ _ => rfl) (hF9 m) (hrest9 m)

def reg10 : Pipeline.RegionSeg (pcfgs (F := F)) adm (pdats m) () defs₀ 𝒱₀ L lv 10 :=
  mkReg m 10 winFacts₀10 block_pos10 stage_whole10 (fun c => (body_obligation10 (E41 m) c).loose) (W41 m) (W42 m)
    (entry10 (E41 m)) fun c => exit10 (E41 m) (E42 m) c (hF10 m c) (hrest10 m c)

def reg11 : Pipeline.RegionSeg (pcfgs (F := F)) adm (pdats m) () defs₀ 𝒱₀ L lv 11 :=
  mkRegL m 11 launch11 (fun c => (body_obligation11 (E43 m) c).loose) (W43 m) (W44 m) (fun _ _ => rfl) (fun _ _ => rfl) (hF11 m) (hrest11 m)

def reg12 : Pipeline.RegionSeg (pcfgs (F := F)) adm (pdats m) () defs₀ 𝒱₀ L lv 12 :=
  mkRegL m 12 launch12 (fun c => (body_obligation12 (E45 m) c).loose) (W45 m) (W46 m) (fun _ _ => rfl) (fun _ _ => rfl) (hF12 m) (hrest12 m)

end Cert.KernelIdeal.Hand

end
-- ==== Proof.KIFrame.lean ====
import proofs.«131905_j73031623901536_2_alg».proof.Proof.KIRegs
import Idealize.ShloMosaic.Adequacy
import Idealize.ShloMosaic.Init

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EE : Fin 14 → Dev nD → sProp 𝕄 := fun _ c => Rr c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- equal contents give the same held assertion
private theorem held_congr (c : Dev nD) {V W : Valuation τ sig (Elt F)} (h : V = W) (R : sProp 𝕄) :
    (iprop(StableHlo.held (c : Thread nD τ) (Pipeline.ucRefs τ sig) V ∗ R) : sProp 𝕄)
      ⊢ iprop(StableHlo.held (c : Thread nD τ) (Pipeline.ucRefs τ sig) W ∗ R) := by
  subst h; exact .rfl

theorem hlast (c : Dev nD) : (iprop(StableHlo.held (c : Thread nD τ) (Pipeline.ucRefs τ sig) (V47 m (OUTS m) c) ∗ EE (F := F) 13 c) : sProp 𝕄)
    ⊢ iprop((StableHlo.held (c : Thread nD τ) (Pipeline.ucRefs τ sig) (V47 m (OUTS m) c) ∗ ∃ r, prngReg c r) ∗ ∃ W, owes (c : Thread nD τ) (0 : CellTallies nD τ sig Unit) W) := by
  iintro ⟨H, Hp, HO⟩
  isplitl [H Hp]
  · isplitl [H] <;> iassumption
  iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W47 m c b) := by
  refine Pipeline.θ_run_regions_kit_dev (pcfgs (F := F)) adm (pdats m) () cellOf_inj emb₁ defs₀ 𝒱₀ L lv m ρ main
    (segs m (OUTS m) 𝒱₀ L lv (EE (F := F)) () (pdats m) (reg0 m) (reg1 m) (reg2 m) (reg3 m) (reg4 m) (reg5 m) (reg6 m) (reg7 m) (reg8 m) (reg9 m) (reg10 m) (reg11 m) (reg12 m))
    (fun c Q => by
      rewrite [main_chain c, Seg.run_eq_chain,
        show (segs m (OUTS m) 𝒱₀ L lv (EE (F := F)) () (pdats m) (reg0 m) (reg1 m) (reg2 m) (reg3 m) (reg4 m) (reg5 m) (reg6 m) (reg7 m) (reg8 m) (reg9 m) (reg10 m) (reg11 m) (reg12 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          StableHlo.seq hostOps5_3,
          StableHlo.seq hostOps5_4,
          StableHlo.seq hostOps5_5,
          StableHlo.seq hostOps5_6,
          StableHlo.seq hostOps5_7,
          StableHlo.seq hostOps5_8,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4,
          StableHlo.seq hostOps9_5,
          StableHlo.seq hostOps9_6,
          StableHlo.seq hostOps9_7,
          StableHlo.seq hostOps9_8,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13 ] from rfl]
      with_reducible exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE (F := F) 0 c))
    (Tₙ := fun c => iprop(StableHlo.held (c : Thread nD τ) (Pipeline.ucRefs τ sig) (V47 m (OUTS m) c) ∗ ∃ r, prngReg c r))
    (hch := fun c => ⟨.rfl, .rfl, .rfl, .rfl, .rfl, held_congr c (V5_eq m c) _, held_congr c (V6_eq m c).symm _, held_congr c (V7_eq m c) _, held_congr c (V8_eq m c).symm _, held_congr c (V9_eq m c) _, held_congr c (V10_eq m c).symm _, held_congr c (V11_eq m c) _, held_congr c (V12_eq m c).symm _, held_congr c (V13_eq m c) _, held_congr c (V14_eq m c).symm _, .rfl, .rfl, .rfl, .rfl, .rfl, .rfl, .rfl, .rfl, held_congr c (V23_eq m c) _, held_congr c (V24_eq m c).symm _, held_congr c (V25_eq m c) _, held_congr c (V26_eq m c).symm _, held_congr c (V27_eq m c) _, held_congr c (V28_eq m c).symm _, held_congr c (V29_eq m c) _, held_congr c (V30_eq m c).symm _, .rfl, .rfl, .rfl, .rfl, .rfl, .rfl, .rfl, .rfl, held_congr c (V39_eq m c) _, held_congr c (V40_eq m c).symm _, held_congr c (V41_eq m c) _, held_congr c (V42_eq m c).symm _, held_congr c (V43_eq m c) _, held_congr c (V44_eq m c).symm _, held_congr c (V45_eq m c) _, held_congr c (V46_eq m c).symm _, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V47 m (OUTS m) c b)
    (hfin := fun c s' => by
      iintro ⟨⟨Hh, -⟩, HSI⟩
      unfold StableHlo.held
      imodintro
      iapply (pointsTo_read_all (Pipeline.ucRefs τ sig) (fun b => (((c : Thread nD τ)).1, b)) (V47 m (OUTS m) c) s')
      isplitl [Hh] <;> iassumption)
    (hQ := fun s h c b hb => (h c b hb).trans (congrFun (V47_eq m c) b))

-- level 47 holds an argument array at its launch contents, and the final memory holds level 47
private theorem arg_kept {c : Dev nD} {μ : (ℓ : Loc nD τ sig) → Buf (Elt F) ℓ}
    (h : ∀ b ∈ Pipeline.ucRefs τ sig, μ (((c : Thread nD τ)).1, b) = W47 m c b) (a : Ref sig .tc)
    (hs : ¬ (Proc.devRef .tc a : DevRef τ sig).isScoped) (ha : V47 m (OUTS m) c a = m ((c : Thread nD τ).loc a)) :
    μ ((c.tc : Thread nD τ).loc a) = m ((c.tc : Thread nD τ).loc a) :=
  (h _ (mem_uc a hs)).trans ((congrFun (V47_eq m c).symm _).trans ha)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨arg_kept m (h c) main_arg0 (by decide) (V47_main_arg0 m (OUTS m) c),
    arg_kept m (h c) main_arg1 (by decide) (V47_main_arg1 m (OUTS m) c),
    arg_kept m (h c) main_arg2 (by decide) (V47_main_arg2 m (OUTS m) c),
    arg_kept m (h c) main_arg3 (by decide) (V47_main_arg3 m (OUTS m) c),
    arg_kept m (h c) main_arg4 (by decide) (V47_main_arg4 m (OUTS m) c),
    arg_kept m (h c) main_arg5 (by decide) (V47_main_arg5 m (OUTS m) c),
    arg_kept m (h c) main_arg6 (by decide) (V47_main_arg6 m (OUTS m) c),
    arg_kept m (h c) main_arg7 (by decide) (V47_main_arg7 m (OUTS m) c),
    arg_kept m (h c) main_arg8 (by decide) (V47_main_arg8 m (OUTS m) c),
    arg_kept m (h c) main_arg9 (by decide) (V47_main_arg9 m (OUTS m) c),
    arg_kept m (h c) main_arg10 (by decide) (V47_main_arg10 m (OUTS m) c),
    arg_kept m (h c) main_arg11 (by decide) (V47_main_arg11 m (OUTS m) c),
    arg_kept m (h c) main_arg12 (by decide) (V47_main_arg12 m (OUTS m) c),
    arg_kept m (h c) main_arg13 (by decide) (V47_main_arg13 m (OUTS m) c),
    arg_kept m (h c) main_arg14 (by decide) (V47_main_arg14 m (OUTS m) c),
    arg_kept m (h c) main_arg15 (by decide) (V47_main_arg15 m (OUTS m) c),
    arg_kept m (h c) main_arg16 (by decide) (V47_main_arg16 m (OUTS m) c)⟩)
    (run_all m ρ)

end Cert.KernelIdeal.Hand

end
-- ==== Proof.RefPlain.lean ====
import Idealize.ShloMosaic.Lib.StableHlo.Run
import Mathlib.Data.List.Forall2

noncomputable section

namespace Cert.ReferenceIdeal.Hand

open Idealize.ShloMosaic Idealize.ShloMosaic.StableHlo

variable {τ : Topo} {sig : RefSig} {Val : EltTy → Type}

/-- `Plain op y`: `op` is one of the elementary operations, and `y` is its one result. -/
inductive Plain : HloOp τ sig Val → Ref sig .tc → Prop
  | unary {x y f hx hy} : Plain (StableHlo.unary x y f hx hy) y
  | binary {a b y f ha hb hy} : Plain (StableHlo.binary a b y f ha hb hy) y
  | nullary {y v hy} : Plain (StableHlo.nullary y v hy) y
  | ternary {c a b y f hc ha hb hy} : Plain (StableHlo.ternary c a b y f hc ha hb hy) y
  | reshape {x y he hn hx hy} : Plain (StableHlo.reshape x y he hn hx hy) y
  | nary {n} {xs : Fin n → Ref sig .tc} {y f hxs hy} : Plain (StableHlo.nary xs y f hxs hy) y

namespace Plain

variable {op : HloOp τ sig Val} {y : Ref sig .tc}

theorem sub (h : Plain op y) : op.bufs ⊆ tcRefs τ sig := by
  cases h
  exacts [unary_bufs_sub .., binary_bufs_sub .., nullary_bufs_sub .., ternary_bufs_sub .., reshape_bufs_sub .., nary_bufs_sub ..]

theorem fresh (h : Plain op y) : op.fresh = ∅ := by cases h <;> rfl

theorem writes (h : Plain op y) : op.writes = {Proc.devRef .tc y} := by cases h <;> rfl

end Plain

variable {ops : List (HloOp τ sig Val)} {W : List (Ref sig .tc)}

/-- When `W` lists the results of `ops` position by position, every operation of `ops` is `Plain` at a member of `W`. -/
theorem plain_of_mem (h : List.Forall₂ Plain ops W) : ∀ op ∈ ops, ∃ y ∈ W, Plain op y := by
  induction h with
  | nil => exact fun _ h => nomatch h
  | cons h₁ _ ih =>
    intro op hop
    rcases List.mem_cons.mp hop with rfl | hop
    · exact ⟨_, List.mem_cons_self, h₁⟩
    · obtain ⟨y, hy, hp⟩ := ih op hop
      exact ⟨y, List.mem_cons_of_mem _ hy, hp⟩

theorem sub_of_plain (h : List.Forall₂ Plain ops W) : ops.Forall fun op => op.bufs ⊆ tcRefs τ sig :=
  List.forall_iff_forall_mem.mpr fun op hop => let ⟨_, _, hp⟩ := plain_of_mem h op hop; hp.sub

theorem fresh_of_plain (h : List.Forall₂ Plain ops W) : ∀ op ∈ ops, op.fresh = ∅ :=
  fun op hop => let ⟨_, _, hp⟩ := plain_of_mem h op hop; hp.fresh

theorem writes_of_plain (h : List.Forall₂ Plain ops W) :
    ops.Forall fun op => op.writes ⊆ (W.map (Proc.devRef (τ := τ) .tc)).toFinset :=
  List.forall_iff_forall_mem.mpr fun op hop => by
    obtain ⟨y, hy, hp⟩ := plain_of_mem h op hop
    rw [hp.writes, Finset.singleton_subset_iff, List.mem_toFinset]
    exact List.mem_map_of_mem hy

/-- A reference that is no operation's result keeps its contents. -/
theorem keep_of_plain (h : List.Forall₂ Plain ops W) (V : Valuation τ sig Val) {r : Ref sig .tc} (hr : r ∉ W) :
    after ops V (Proc.devRef .tc r) = V (Proc.devRef .tc r) :=
  after_of_writes_sub ops V (writes_of_plain h) hr

end Cert.ReferenceIdeal.Hand

end
-- ==== Proof.RefRunOps0.lean ====
import proofs.«131905_j73031623901536_2_alg».proof.Proof.Gen.ReferenceIdeal
import proofs.«131905_j73031623901536_2_alg».proof.Proof.RefPlain

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops00 : List (HloOp τ sig (Elt F)) :=
  [ StableHlo.nary ![main_arg0, main_arg1, main_arg2] main_v0 (fun u => concatenate S40000x128 0 [⟨S20000x128, u 0⟩, ⟨S15000x128, u 1⟩, ⟨S5000x128, u 2⟩] concatenates_S20000x128_S15000x128_S5000x128_S40000x128_d0),
    StableHlo.nullary main_cst (constant S_ .f32 0x3F800000#32),
    StableHlo.unary main_cst main_v1 (broadcastInDim S100000 ![] bcast_S_S100000 : (⟨S_, .f32⟩ : BufTy).Contents (Elt F) → (⟨S100000, .f32⟩ : BufTy).Contents (Elt F)),
    StableHlo.unary main_arg6 main_v2 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v2 main_v3 rfl shapeCasts_S1x100000_S100000,
    StableHlo.unary main_arg6 main_v4 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v4 main_v5 rfl shapeCasts_S1x100000_S100000,
    StableHlo.unary main_arg15 main_v6 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v6 main_v7 rfl shapeCasts_S1x128x128_S128x128,
    StableHlo.unary main_arg16 main_v8 ((extractStridedSlice S1x128 ![0, 0] · slices_S2x128_S1x128_0_0) : (⟨S2x128, .f32⟩ : BufTy).Contents (Elt F) → (⟨S1x128, .f32⟩ : BufTy).Contents (Elt F)),
    StableHlo.reshape main_v8 main_v9 rfl shapeCasts_S1x128_S128,
    StableHlo.binary main_arg2 main_v7 main_v10 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_v11 (iotaInDim S5000 32 0) ]

abbrev ops00_W : List (Ref sig .tc) := [main_v0, main_cst, main_v1, main_v2, main_v3, main_v4, main_v5, main_v6, main_v7, main_v8, main_v9, main_v10, main_v11]
theorem ops00_plain : List.Forall₂ Plain (ops00 : List (HloOp τ sig (Elt F))) ops00_W := by repeat' constructor

abbrev ops01 : List (HloOp τ sig (Elt F)) :=
  [ StableHlo.binary main_v3 main_v11 main_v12 ((fun a b => concatenate S105000 0 [⟨S100000, a⟩, ⟨S5000, b⟩] concatenates_S100000_S5000_S105000_d0) : (⟨S100000, .i32⟩ : BufTy).Contents (Elt F) → (⟨S5000, .i32⟩ : BufTy).Contents (Elt F) → (⟨S105000, .i32⟩ : BufTy).Contents (Elt F)) ]

abbrev ops01_W : List (Ref sig .tc) := [main_v12]
theorem ops01_plain : List.Forall₂ Plain (ops01 : List (HloOp τ sig (Elt F))) ops01_W := by repeat' constructor

abbrev ops02 : List (HloOp τ sig (Elt F)) :=
  [ StableHlo.binary main_v5 main_v11 main_v13 ((fun a b => concatenate S105000 0 [⟨S100000, a⟩, ⟨S5000, b⟩] concatenates_S100000_S5000_S105000_d0) : (⟨S100000, .i32⟩ : BufTy).Contents (Elt F) → (⟨S5000, .i32⟩ : BufTy).Contents (Elt F) → (⟨S105000, .i32⟩ : BufTy).Contents (Elt F)),
    StableHlo.nullary main_cst_0 (constant S_ .f32 0x3F800000#32),
    StableHlo.unary main_cst_0 main_v14 (broadcastInDim S5000 ![] bcast_S_S5000 : (⟨S_, .f32⟩ : BufTy).Contents (Elt F) → (⟨S5000, .f32⟩ : BufTy).Contents (Elt F)) ]

abbrev ops02_W : List (Ref sig .tc) := [main_v13, main_cst_0, main_v14]
theorem ops02_plain : List.Forall₂ Plain (ops02 : List (HloOp τ sig (Elt F))) ops02_W := by repeat' constructor

abbrev ops03 : List (HloOp τ sig (Elt F)) :=
  [ StableHlo.binary main_v1 main_v14 main_v15 ((fun a b => concatenate S105000 0 [⟨S100000, a⟩, ⟨S5000, b⟩] concatenates_S100000_S5000_S105000_d0) : (⟨S100000, .f32⟩ : BufTy).Contents (Elt F) → (⟨S5000, .f32⟩ : BufTy).Contents (Elt F) → (⟨S105000, .f32⟩ : BufTy).Contents (Elt F)),
    StableHlo.nullary main_cst_1 (constant S_ .f32 0x00000000#32),
    StableHlo.unary main_cst_1 main_v16 (broadcastInDim S5000 ![] bcast_S_S5000 : (⟨S_, .f32⟩ : BufTy).Contents (Elt F) → (⟨S5000, .f32⟩ : BufTy).Contents (Elt F)),
    StableHlo.unary main_v13 main_v17 (broadcastInDim S105000x1 ![0] bcast_S105000_S105000x1_0 : (⟨S105000, .i32⟩ : BufTy).Contents (Elt F) → (⟨S105000x1, .i32⟩ : BufTy).Contents (Elt F)),
    StableHlo.ternary main_v16 main_v17 main_v15 main_v18 ((fun x i u => Host.scatterAdd scatter_S5000_S105000x1_S105000_n_0_0_1 x i u) : (⟨S5000, .f32⟩ : BufTy).Contents (Elt F) → (⟨S105000x1, .i32⟩ : BufTy).Contents (Elt F) → (⟨S105000, .f32⟩ : BufTy).Contents (Elt F) → (⟨S5000, .f32⟩ : BufTy).Contents (Elt F)),
    StableHlo.nullary main_cst_2 (constant S_ .f32 0x00000000#32),
    StableHlo.unary main_cst_2 main_v19 (broadcastInDim S5000 ![] bcast_S_S5000 : (⟨S_, .f32⟩ : BufTy).Contents (Elt F) → (⟨S5000, .f32⟩ : BufTy).Contents (Elt F)),
    StableHlo.binary main_v18 main_v19 main_v20 (cmpf .ogt : (⟨S5000, .f32⟩ : BufTy).Contents (Elt F) → (⟨S5000, .f32⟩ : BufTy).Contents (Elt F) → (⟨S5000, .i1⟩ : BufTy).Contents (Elt F)),
    StableHlo.nullary main_cst_3 (constant S_ .f32 0x00000000#32),
    StableHlo.unary main_cst_3 main_v21 (broadcastInDim S5000 ![] bcast_S_S5000 : (⟨S_, .f32⟩ : BufTy).Contents (Elt F) → (⟨S5000, .f32⟩ : BufTy).Contents (Elt F)),
    StableHlo.binary main_v18 main_v21 main_v22 (cmpf .ogt : (⟨S5000, .f32⟩ : BufTy).Contents (Elt F) → (⟨S5000, .f32⟩ : BufTy).Contents (Elt F) → (⟨S5000, .i1⟩ : BufTy).Contents (Elt F)),
    StableHlo.nullary main_cst_4 (constant S_ .f32 0x3F800000#32),
    StableHlo.TRef.unary (StableHlo.TRef.of (T := ⟨S_, .f32⟩) main_cst_4) (StableHlo.TRef.of (T := ⟨S_, .f32⟩) main_call0_v0) id,
    StableHlo.TRef.unary (StableHlo.TRef.of (T := ⟨S_, .f32⟩) main_call0_v0) (StableHlo.TRef.of (T := ⟨S5000, .f32⟩) main_call0_v1) (broadcastInDim S5000 ![] bcast_S_S5000),
    StableHlo.TRef.ternary (StableHlo.TRef.of (T := ⟨S5000, .i1⟩) main_v22) (StableHlo.TRef.of (T := ⟨S5000, .f32⟩) main_v18) (StableHlo.TRef.of (T := ⟨S5000, .f32⟩) main_call0_v1) (StableHlo.TRef.of (T := ⟨S5000, .f32⟩) main_v23) select,
    StableHlo.nullary main_cst_5 (constant S_ .f32 0xBF000000#32),
    StableHlo.unary main_cst_5 main_v24 (broadcastInDim S5000 ![] bcast_S_S5000 : (⟨S_, .f32⟩ : BufTy).Contents (Elt F) → (⟨S5000, .f32⟩ : BufTy).Contents (Elt F)),
    StableHlo.binary main_v23 main_v24 main_v25 (Host.powf : (⟨S5000, .f32⟩ : BufTy).Contents (Elt F) → (⟨S5000, .f32⟩ : BufTy).Contents (Elt F) → (⟨S5000, .f32⟩ : BufTy).Contents (Elt F)),
    StableHlo.nullary main_cst_6 (constant S_ .f32 0x00000000#32),
    StableHlo.TRef.unary (StableHlo.TRef.of (T := ⟨S_, .f32⟩) main_cst_6) (StableHlo.TRef.of (T := ⟨S_, .f32⟩) main_call1_v0) id,
    StableHlo.TRef.unary (StableHlo.TRef.of (T := ⟨S_, .f32⟩) main_call1_v0) (StableHlo.TRef.of (T := ⟨S5000, .f32⟩) main_call1_v1) (broadcastInDim S5000 ![] bcast_S_S5000),
    StableHlo.TRef.ternary (StableHlo.TRef.of (T := ⟨S5000, .i1⟩) main_v20) (StableHlo.TRef.of (T := ⟨S5000, .f32⟩) main_v25) (StableHlo.TRef.of (T := ⟨S5000, .f32⟩) main_call1_v1) (StableHlo.TRef.of (T := ⟨S5000, .f32⟩) main_v26) select,
    StableHlo.nullary main_c (constantI S_ 32 0#32),
    StableHlo.unary main_c main_v27 (broadcastInDim S105000 ![] bcast_S_S105000 : (⟨S_, .i32⟩ : BufTy).Contents (Elt F) → (⟨S105000, .i32⟩ : BufTy).Contents (Elt F)),
    StableHlo.binary main_v12 main_v27 main_v28 (cmpi .slt : (⟨S105000, .i32⟩ : BufTy).Contents (Elt F) → (⟨S105000, .i32⟩ : BufTy).Contents (Elt F) → (⟨S105000, .i1⟩ : BufTy).Contents (Elt F)),
    StableHlo.nullary main_c_7 (constantI S_ 32 5000#32),
    StableHlo.unary main_c_7 main_v29 (broadcastInDim S105000 ![] bcast_S_S105000 : (⟨S_, .i32⟩ : BufTy).Contents (Elt F) → (⟨S105000, .i32⟩ : BufTy).Contents (Elt F)),
    StableHlo.binary main_v12 main_v29 main_v30 (addi : (⟨S105000, .i32⟩ : BufTy).Contents (Elt F) → (⟨S105000, .i32⟩ : BufTy).Contents (Elt F) → (⟨S105000, .i32⟩ : BufTy).Contents (Elt F)),
    StableHlo.ternary main_v28 main_v30 main_v12 main_v31 (select : (⟨S105000, .i1⟩ : BufTy).Contents (Elt F) → (⟨S105000, .i32⟩ : BufTy).Contents (Elt F) → (⟨S105000, .i32⟩ : BufTy).Contents (Elt F) → (⟨S105000, .i32⟩ : BufTy).Contents (Elt F)),
    StableHlo.unary main_v31 main_v32 (broadcastInDim S105000x1 ![0] bcast_S105000_S105000x1_0 : (⟨S105000, .i32⟩ : BufTy).Contents (Elt F) → (⟨S105000x1, .i32⟩ : BufTy).Contents (Elt F)),
    StableHlo.binary main_v26 main_v32 main_v33 ((fun x i => Host.gather gather_S5000_S105000x1_S105000_n_0_n_n_0_1_1 x i) : (⟨S5000, .f32⟩ : BufTy).Contents (Elt F) → (⟨S105000x1, .i32⟩ : BufTy).Contents (Elt F) → (⟨S105000, .f32⟩ : BufTy).Contents (Elt F)),
    StableHlo.binary main_v33 main_v15 main_v34 (mulf : (⟨S105000, .f32⟩ : BufTy).Contents (Elt F) → (⟨S105000, .f32⟩ : BufTy).Contents (Elt F) → (⟨S105000, .f32⟩ : BufTy).Contents (Elt F)),
    StableHlo.nullary main_c_8 (constantI S_ 32 0#32),
    StableHlo.unary main_c_8 main_v35 (broadcastInDim S105000 ![] bcast_S_S105000 : (⟨S_, .i32⟩ : BufTy).Contents (Elt F) → (⟨S105000, .i32⟩ : BufTy).Contents (Elt F)),
    StableHlo.binary main_v13 main_v35 main_v36 (cmpi .slt : (⟨S105000, .i32⟩ : BufTy).Contents (Elt F) → (⟨S105000, .i32⟩ : BufTy).Contents (Elt F) → (⟨S105000, .i1⟩ : BufTy).Contents (Elt F)),
    StableHlo.nullary main_c_9 (constantI S_ 32 5000#32),
    StableHlo.unary main_c_9 main_v37 (broadcastInDim S105000 ![] bcast_S_S105000 : (⟨S_, .i32⟩ : BufTy).Contents (Elt F) → (⟨S105000, .i32⟩ : BufTy).Contents (Elt F)),
    StableHlo.binary main_v13 main_v37 main_v38 (addi : (⟨S105000, .i32⟩ : BufTy).Contents (Elt F) → (⟨S105000, .i32⟩ : BufTy).Contents (Elt F) → (⟨S105000, .i32⟩ : BufTy).Contents (Elt F)),
    StableHlo.ternary main_v36 main_v38 main_v13 main_v39 (select : (⟨S105000, .i1⟩ : BufTy).Contents (Elt F) → (⟨S105000, .i32⟩ : BufTy).Contents (Elt F) → (⟨S105000, .i32⟩ : BufTy).Contents (Elt F) → (⟨S105000, .i32⟩ : BufTy).Contents (Elt F)),
    StableHlo.unary main_v39 main_v40 (broadcastInDim S105000x1 ![0] bcast_S105000_S105000x1_0 : (⟨S105000, .i32⟩ : BufTy).Contents (Elt F) → (⟨S105000x1, .i32⟩ : BufTy).Contents (Elt F)),
    StableHlo.binary main_v26 main_v40 main_v41 ((fun x i => Host.gather gather_S5000_S105000x1_S105000_n_0_n_n_0_1_1 x i) : (⟨S5000, .f32⟩ : BufTy).Contents (Elt F) → (⟨S105000x1, .i32⟩ : BufTy).Contents (Elt F) → (⟨S105000, .f32⟩ : BufTy).Contents (Elt F)),
    StableHlo.binary main_v34 main_v41 main_v42 (mulf : (⟨S105000, .f32⟩ : BufTy).Contents (Elt F) → (⟨S105000, .f32⟩ : BufTy).Contents (Elt F) → (⟨S105000, .f32⟩ : BufTy).Contents (Elt F)),
    StableHlo.nullary main_c_10 (constantI S_ 32 0#32),
    StableHlo.unary main_c_10 main_v43 (broadcastInDim S105000 ![] bcast_S_S105000 : (⟨S_, .i32⟩ : BufTy).Contents (Elt F) → (⟨S105000, .i32⟩ : BufTy).Contents (Elt F)),
    StableHlo.binary main_v12 main_v43 main_v44 (cmpi .slt : (⟨S105000, .i32⟩ : BufTy).Contents (Elt F) → (⟨S105000, .i32⟩ : BufTy).Contents (Elt F) → (⟨S105000, .i1⟩ : BufTy).Contents (Elt F)),
    StableHlo.nullary main_c_11 (constantI S_ 32 5000#32),
    StableHlo.unary main_c_11 main_v45 (broadcastInDim S105000 ![] bcast_S_S105000 : (⟨S_, .i32⟩ : BufTy).Contents (Elt F) → (⟨S105000, .i32⟩ : BufTy).Contents (Elt F)) ]

abbrev ops03_W : List (Ref sig .tc) := [main_v15, main_cst_1, main_v16, main_v17, main_v18, main_cst_2, main_v19, main_v20, main_cst_3, main_v21, main_v22, main_cst_4, main_call0_v0, main_call0_v1, main_v23, main_cst_5, main_v24, main_v25, main_cst_6, main_call1_v0, main_call1_v1, main_v26, main_c, main_v27, main_v28, main_c_7, main_v29, main_v30, main_v31, main_v32, main_v33, main_v34, main_c_8, main_v35, main_v36, main_c_9, main_v37, main_v38, main_v39, main_v40, main_v41, main_v42, main_c_10, main_v43, main_v44, main_c_11, main_v45]
theorem ops03_plain : List.Forall₂ Plain (ops03 : List (HloOp τ sig (Elt F))) ops03_W := by repeat' constructor

abbrev ops04 : List (HloOp τ sig (Elt F)) :=
  [ StableHlo.binary main_v12 main_v45 main_v46 (addi : (⟨S105000, .i32⟩ : BufTy).Contents (Elt F) → (⟨S105000, .i32⟩ : BufTy).Contents (Elt F) → (⟨S105000, .i32⟩ : BufTy).Contents (Elt F)),
    StableHlo.ternary main_v44 main_v46 main_v12 main_v47 (select : (⟨S105000, .i1⟩ : BufTy).Contents (Elt F) → (⟨S105000, .i32⟩ : BufTy).Contents (Elt F) → (⟨S105000, .i32⟩ : BufTy).Contents (Elt F) → (⟨S105000, .i32⟩ : BufTy).Contents (Elt F)),
    StableHlo.unary main_v47 main_v48 (broadcastInDim S105000x1 ![0] bcast_S105000_S105000x1_0 : (⟨S105000, .i32⟩ : BufTy).Contents (Elt F) → (⟨S105000x1, .i32⟩ : BufTy).Contents (Elt F)),
    StableHlo.binary main_v10 main_v48 main_v49 ((fun x i => Host.gather gather_S5000x128_S105000x1_S105000x128_1_0_n_n_0_1_1128 x i) : (⟨S5000x128, .f32⟩ : BufTy).Contents (Elt F) → (⟨S105000x1, .i32⟩ : BufTy).Contents (Elt F) → (⟨S105000x128, .f32⟩ : BufTy).Contents (Elt F)),
    StableHlo.unary main_v42 main_v50 (broadcastInDim S105000x1 ![0] bcast_S105000_S105000x1_0 : (⟨S105000, .f32⟩ : BufTy).Contents (Elt F) → (⟨S105000x1, .f32⟩ : BufTy).Contents (Elt F)),
    StableHlo.unary main_v50 main_v51 (broadcastInDim S105000x128 ![0, 1] bcast_S105000x1_S105000x128_0_1 : (⟨S105000x1, .f32⟩ : BufTy).Contents (Elt F) → (⟨S105000x128, .f32⟩ : BufTy).Contents (Elt F)),
    StableHlo.binary main_v49 main_v51 main_v52 (mulf : (⟨S105000x128, .f32⟩ : BufTy).Contents (Elt F) → (⟨S105000x128, .f32⟩ : BufTy).Contents (Elt F) → (⟨S105000x128, .f32⟩ : BufTy).Contents (Elt F)),
    StableHlo.nullary main_cst_12 (constant S_ .f32 0x00000000#32),
    StableHlo.unary main_cst_12 main_v53 (broadcastInDim S5000x128 ![] bcast_S_S5000x128 : (⟨S_, .f32⟩ : BufTy).Contents (Elt F) → (⟨S5000x128, .f32⟩ : BufTy).Contents (Elt F)),
    StableHlo.unary main_v13 main_v54 (broadcastInDim S105000x1 ![0] bcast_S105000_S105000x1_0 : (⟨S105000, .i32⟩ : BufTy).Contents (Elt F) → (⟨S105000x1, .i32⟩ : BufTy).Contents (Elt F)),
    StableHlo.ternary main_v53 main_v54 main_v52 main_v55 ((fun x i u => Host.scatterAdd scatter_S5000x128_S105000x1_S105000x128_1_0_0_1 x i u) : (⟨S5000x128, .f32⟩ : BufTy).Contents (Elt F) → (⟨S105000x1, .i32⟩ : BufTy).Contents (Elt F) → (⟨S105000x128, .f32⟩ : BufTy).Contents (Elt F) → (⟨S5000x128, .f32⟩ : BufTy).Contents (Elt F)),
    StableHlo.unary main_v9 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S5000x128 ![0, 1] bcast_S1x128_S5000x128_0_1 : (⟨S1x128, .f32⟩ : BufTy).Contents (Elt F) → (⟨S5000x128, .f32⟩ : BufTy).Contents (Elt F)),
    StableHlo.binary main_v55 main_v57 main_v58 (addf : (⟨S5000x128, .f32⟩ : BufTy).Contents (Elt F) → (⟨S5000x128, .f32⟩ : BufTy).Contents (Elt F) → (⟨S5000x128, .f32⟩ : BufTy).Contents (Elt F)),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S5000x128, .f32⟩) main_call2_v0) (broadcastInDim S5000x128 ![] bcast_S_S5000x128),
    StableHlo.TRef.binary (StableHlo.TRef.of (T := ⟨S5000x128, .f32⟩) main_v58) (StableHlo.TRef.of (T := ⟨S5000x128, .f32⟩) main_call2_v0) (StableHlo.TRef.of (T := ⟨S5000x128, .i1⟩) main_call2_v1) (cmpf .oge),
    StableHlo.TRef.nullary (StableHlo.TRef.of (T := ⟨S_, .f32⟩) main_call2_cst_0) (constant S_ .f32 0x3C23D70A#32),
    StableHlo.TRef.unary (StableHlo.TRef.of (T := ⟨S_, .f32⟩) main_call2_cst_0) (StableHlo.TRef.of (T := ⟨S5000x128, .f32⟩) main_call2_v2) (broadcastInDim S5000x128 ![] bcast_S_S5000x128),
    StableHlo.TRef.binary (StableHlo.TRef.of (T := ⟨S5000x128, .f32⟩) main_call2_v2) (StableHlo.TRef.of (T := ⟨S5000x128, .f32⟩) main_v58) (StableHlo.TRef.of (T := ⟨S5000x128, .f32⟩) main_call2_v3) mulf,
    StableHlo.TRef.ternary (StableHlo.TRef.of (T := ⟨S5000x128, .i1⟩) main_call2_v1) (StableHlo.TRef.of (T := ⟨S5000x128, .f32⟩) main_v58) (StableHlo.TRef.of (T := ⟨S5000x128, .f32⟩) main_call2_v3) (StableHlo.TRef.of (T := ⟨S5000x128, .f32⟩) main_v59) select,
    StableHlo.binary main_v59 main_arg2 main_v60 (addf : (⟨S5000x128, .f32⟩ : BufTy).Contents (Elt F) → (⟨S5000x128, .f32⟩ : BufTy).Contents (Elt F) → (⟨S5000x128, .f32⟩ : BufTy).Contents (Elt F)),
    StableHlo.nullary main_cst_13 (constant S_ .f32 0x3F000000#32),
    StableHlo.unary main_cst_13 main_v61 (broadcastInDim S5000x128 ![] bcast_S_S5000x128 : (⟨S_, .f32⟩ : BufTy).Contents (Elt F) → (⟨S5000x128, .f32⟩ : BufTy).Contents (Elt F)),
    StableHlo.binary main_v60 main_v61 main_v62 (mulf : (⟨S5000x128, .f32⟩ : BufTy).Contents (Elt F) → (⟨S5000x128, .f32⟩ : BufTy).Contents (Elt F) → (⟨S5000x128, .f32⟩ : BufTy).Contents (Elt F)),
    StableHlo.binary main_arg2 main_v62 main_v63 (addf : (⟨S5000x128, .f32⟩ : BufTy).Contents (Elt F) → (⟨S5000x128, .f32⟩ : BufTy).Contents (Elt F) → (⟨S5000x128, .f32⟩ : BufTy).Contents (Elt F)),
    StableHlo.unary main_arg15 main_v64 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v64 main_v65 rfl shapeCasts_S1x128x128_S128x128,
    StableHlo.unary main_arg16 main_v66 ((extractStridedSlice S1x128 ![1, 0] · slices_S2x128_S1x128_1_0) : (⟨S2x128, .f32⟩ : BufTy).Contents (Elt F) → (⟨S1x128, .f32⟩ : BufTy).Contents (Elt F)),
    StableHlo.reshape main_v66 main_v67 rfl shapeCasts_S1x128_S128,
    StableHlo.binary main_v60 main_v65 main_v68 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_v69 (iotaInDim S5000 32 0) ]

abbrev ops04_W : List (Ref sig .tc) := [main_v46, main_v47, main_v48, main_v49, main_v50, main_v51, main_v52, main_cst_12, main_v53, main_v54, main_v55, main_v56, main_v57, main_v58, main_call2_cst, main_call2_v0, main_call2_v1, main_call2_cst_0, main_call2_v2, main_call2_v3, main_v59, main_v60, main_cst_13, main_v61, main_v62, main_v63, main_v64, main_v65, main_v66, main_v67, main_v68, main_v69]
theorem ops04_plain : List.Forall₂ Plain (ops04 : List (HloOp τ sig (Elt F))) ops04_W := by repeat' constructor

abbrev ops05 : List (HloOp τ sig (Elt F)) :=
  [ StableHlo.binary main_v3 main_v69 main_v70 ((fun a b => concatenate S105000 0 [⟨S100000, a⟩, ⟨S5000, b⟩] concatenates_S100000_S5000_S105000_d0) : (⟨S100000, .i32⟩ : BufTy).Contents (Elt F) → (⟨S5000, .i32⟩ : BufTy).Contents (Elt F) → (⟨S105000, .i32⟩ : BufTy).Contents (Elt F)) ]

abbrev ops05_W : List (Ref sig .tc) := [main_v70]
theorem ops05_plain : List.Forall₂ Plain (ops05 : List (HloOp τ sig (Elt F))) ops05_W := by repeat' constructor

end Cert.ReferenceIdeal.Hand

end
-- ==== Proof.RefRunOps1.lean ====
import proofs.«131905_j73031623901536_2_alg».proof.Proof.Gen.ReferenceIdeal
import proofs.«131905_j73031623901536_2_alg».proof.Proof.RefPlain

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops06 : List (HloOp τ sig (Elt F)) :=
  [ StableHlo.binary main_v5 main_v69 main_v71 ((fun a b => concatenate S105000 0 [⟨S100000, a⟩, ⟨S5000, b⟩] concatenates_S100000_S5000_S105000_d0) : (⟨S100000, .i32⟩ : BufTy).Contents (Elt F) → (⟨S5000, .i32⟩ : BufTy).Contents (Elt F) → (⟨S105000, .i32⟩ : BufTy).Contents (Elt F)),
    StableHlo.nullary main_cst_14 (constant S_ .f32 0x3F800000#32),
    StableHlo.unary main_cst_14 main_v72 (broadcastInDim S5000 ![] bcast_S_S5000 : (⟨S_, .f32⟩ : BufTy).Contents (Elt F) → (⟨S5000, .f32⟩ : BufTy).Contents (Elt F)) ]

abbrev ops06_W : List (Ref sig .tc) := [main_v71, main_cst_14, main_v72]
theorem ops06_plain : List.Forall₂ Plain (ops06 : List (HloOp τ sig (Elt F))) ops06_W := by repeat' constructor

abbrev ops07 : List (HloOp τ sig (Elt F)) :=
  [ StableHlo.binary main_v1 main_v72 main_v73 ((fun a b => concatenate S105000 0 [⟨S100000, a⟩, ⟨S5000, b⟩] concatenates_S100000_S5000_S105000_d0) : (⟨S100000, .f32⟩ : BufTy).Contents (Elt F) → (⟨S5000, .f32⟩ : BufTy).Contents (Elt F) → (⟨S105000, .f32⟩ : BufTy).Contents (Elt F)),
    StableHlo.nullary main_cst_15 (constant S_ .f32 0x00000000#32),
    StableHlo.unary main_cst_15 main_v74 (broadcastInDim S5000 ![] bcast_S_S5000 : (⟨S_, .f32⟩ : BufTy).Contents (Elt F) → (⟨S5000, .f32⟩ : BufTy).Contents (Elt F)),
    StableHlo.unary main_v71 main_v75 (broadcastInDim S105000x1 ![0] bcast_S105000_S105000x1_0 : (⟨S105000, .i32⟩ : BufTy).Contents (Elt F) → (⟨S105000x1, .i32⟩ : BufTy).Contents (Elt F)),
    StableHlo.ternary main_v74 main_v75 main_v73 main_v76 ((fun x i u => Host.scatterAdd scatter_S5000_S105000x1_S105000_n_0_0_1 x i u) : (⟨S5000, .f32⟩ : BufTy).Contents (Elt F) → (⟨S105000x1, .i32⟩ : BufTy).Contents (Elt F) → (⟨S105000, .f32⟩ : BufTy).Contents (Elt F) → (⟨S5000, .f32⟩ : BufTy).Contents (Elt F)),
    StableHlo.nullary main_cst_16 (constant S_ .f32 0x00000000#32),
    StableHlo.unary main_cst_16 main_v77 (broadcastInDim S5000 ![] bcast_S_S5000 : (⟨S_, .f32⟩ : BufTy).Contents (Elt F) → (⟨S5000, .f32⟩ : BufTy).Contents (Elt F)),
    StableHlo.binary main_v76 main_v77 main_v78 (cmpf .ogt : (⟨S5000, .f32⟩ : BufTy).Contents (Elt F) → (⟨S5000, .f32⟩ : BufTy).Contents (Elt F) → (⟨S5000, .i1⟩ : BufTy).Contents (Elt F)),
    StableHlo.nullary main_cst_17 (constant S_ .f32 0x00000000#32),
    StableHlo.unary main_cst_17 main_v79 (broadcastInDim S5000 ![] bcast_S_S5000 : (⟨S_, .f32⟩ : BufTy).Contents (Elt F) → (⟨S5000, .f32⟩ : BufTy).Contents (Elt F)),
    StableHlo.binary main_v76 main_v79 main_v80 (cmpf .ogt : (⟨S5000, .f32⟩ : BufTy).Contents (Elt F) → (⟨S5000, .f32⟩ : BufTy).Contents (Elt F) → (⟨S5000, .i1⟩ : BufTy).Contents (Elt F)),
    StableHlo.nullary main_cst_18 (constant S_ .f32 0x3F800000#32),
    StableHlo.TRef.unary (StableHlo.TRef.of (T := ⟨S_, .f32⟩) main_cst_18) (StableHlo.TRef.of (T := ⟨S_, .f32⟩) main_call3_v0) id,
    StableHlo.TRef.unary (StableHlo.TRef.of (T := ⟨S_, .f32⟩) main_call3_v0) (StableHlo.TRef.of (T := ⟨S5000, .f32⟩) main_call3_v1) (broadcastInDim S5000 ![] bcast_S_S5000),
    StableHlo.TRef.ternary (StableHlo.TRef.of (T := ⟨S5000, .i1⟩) main_v80) (StableHlo.TRef.of (T := ⟨S5000, .f32⟩) main_v76) (StableHlo.TRef.of (T := ⟨S5000, .f32⟩) main_call3_v1) (StableHlo.TRef.of (T := ⟨S5000, .f32⟩) main_v81) select,
    StableHlo.nullary main_cst_19 (constant S_ .f32 0xBF000000#32),
    StableHlo.unary main_cst_19 main_v82 (broadcastInDim S5000 ![] bcast_S_S5000 : (⟨S_, .f32⟩ : BufTy).Contents (Elt F) → (⟨S5000, .f32⟩ : BufTy).Contents (Elt F)),
    StableHlo.binary main_v81 main_v82 main_v83 (Host.powf : (⟨S5000, .f32⟩ : BufTy).Contents (Elt F) → (⟨S5000, .f32⟩ : BufTy).Contents (Elt F) → (⟨S5000, .f32⟩ : BufTy).Contents (Elt F)),
    StableHlo.nullary main_cst_20 (constant S_ .f32 0x00000000#32),
    StableHlo.TRef.unary (StableHlo.TRef.of (T := ⟨S_, .f32⟩) main_cst_20) (StableHlo.TRef.of (T := ⟨S_, .f32⟩) main_call4_v0) id,
    StableHlo.TRef.unary (StableHlo.TRef.of (T := ⟨S_, .f32⟩) main_call4_v0) (StableHlo.TRef.of (T := ⟨S5000, .f32⟩) main_call4_v1) (broadcastInDim S5000 ![] bcast_S_S5000),
    StableHlo.TRef.ternary (StableHlo.TRef.of (T := ⟨S5000, .i1⟩) main_v78) (StableHlo.TRef.of (T := ⟨S5000, .f32⟩) main_v83) (StableHlo.TRef.of (T := ⟨S5000, .f32⟩) main_call4_v1) (StableHlo.TRef.of (T := ⟨S5000, .f32⟩) main_v84) select,
    StableHlo.nullary main_c_21 (constantI S_ 32 0#32),
    StableHlo.unary main_c_21 main_v85 (broadcastInDim S105000 ![] bcast_S_S105000 : (⟨S_, .i32⟩ : BufTy).Contents (Elt F) → (⟨S105000, .i32⟩ : BufTy).Contents (Elt F)),
    StableHlo.binary main_v70 main_v85 main_v86 (cmpi .slt : (⟨S105000, .i32⟩ : BufTy).Contents (Elt F) → (⟨S105000, .i32⟩ : BufTy).Contents (Elt F) → (⟨S105000, .i1⟩ : BufTy).Contents (Elt F)),
    StableHlo.nullary main_c_22 (constantI S_ 32 5000#32),
    StableHlo.unary main_c_22 main_v87 (broadcastInDim S105000 ![] bcast_S_S105000 : (⟨S_, .i32⟩ : BufTy).Contents (Elt F) → (⟨S105000, .i32⟩ : BufTy).Contents (Elt F)),
    StableHlo.binary main_v70 main_v87 main_v88 (addi : (⟨S105000, .i32⟩ : BufTy).Contents (Elt F) → (⟨S105000, .i32⟩ : BufTy).Contents (Elt F) → (⟨S105000, .i32⟩ : BufTy).Contents (Elt F)),
    StableHlo.ternary main_v86 main_v88 main_v70 main_v89 (select : (⟨S105000, .i1⟩ : BufTy).Contents (Elt F) → (⟨S105000, .i32⟩ : BufTy).Contents (Elt F) → (⟨S105000, .i32⟩ : BufTy).Contents (Elt F) → (⟨S105000, .i32⟩ : BufTy).Contents (Elt F)),
    StableHlo.unary main_v89 main_v90 (broadcastInDim S105000x1 ![0] bcast_S105000_S105000x1_0 : (⟨S105000, .i32⟩ : BufTy).Contents (Elt F) → (⟨S105000x1, .i32⟩ : BufTy).Contents (Elt F)),
    StableHlo.binary main_v84 main_v90 main_v91 ((fun x i => Host.gather gather_S5000_S105000x1_S105000_n_0_n_n_0_1_1 x i) : (⟨S5000, .f32⟩ : BufTy).Contents (Elt F) → (⟨S105000x1, .i32⟩ : BufTy).Contents (Elt F) → (⟨S105000, .f32⟩ : BufTy).Contents (Elt F)),
    StableHlo.binary main_v91 main_v73 main_v92 (mulf : (⟨S105000, .f32⟩ : BufTy).Contents (Elt F) → (⟨S105000, .f32⟩ : BufTy).Contents (Elt F) → (⟨S105000, .f32⟩ : BufTy).Contents (Elt F)),
    StableHlo.nullary main_c_23 (constantI S_ 32 0#32),
    StableHlo.unary main_c_23 main_v93 (broadcastInDim S105000 ![] bcast_S_S105000 : (⟨S_, .i32⟩ : BufTy).Contents (Elt F) → (⟨S105000, .i32⟩ : BufTy).Contents (Elt F)) ]

abbrev ops07_W : List (Ref sig .tc) := [main_v73, main_cst_15, main_v74, main_v75, main_v76, main_cst_16, main_v77, main_v78, main_cst_17, main_v79, main_v80, main_cst_18, main_call3_v0, main_call3_v1, main_v81, main_cst_19, main_v82, main_v83, main_cst_20, main_call4_v0, main_call4_v1, main_v84, main_c_21, main_v85, main_v86, main_c_22, main_v87, main_v88, main_v89, main_v90, main_v91, main_v92, main_c_23, main_v93]
theorem ops07_plain : List.Forall₂ Plain (ops07 : List (HloOp τ sig (Elt F))) ops07_W := by repeat' constructor

abbrev ops08 : List (HloOp τ sig (Elt F)) :=
  [ StableHlo.binary main_v71 main_v93 main_v94 (cmpi .slt : (⟨S105000, .i32⟩ : BufTy).Contents (Elt F) → (⟨S105000, .i32⟩ : BufTy).Contents (Elt F) → (⟨S105000, .i1⟩ : BufTy).Contents (Elt F)),
    StableHlo.nullary main_c_24 (constantI S_ 32 5000#32),
    StableHlo.unary main_c_24 main_v95 (broadcastInDim S105000 ![] bcast_S_S105000 : (⟨S_, .i32⟩ : BufTy).Contents (Elt F) → (⟨S105000, .i32⟩ : BufTy).Contents (Elt F)),
    StableHlo.binary main_v71 main_v95 main_v96 (addi : (⟨S105000, .i32⟩ : BufTy).Contents (Elt F) → (⟨S105000, .i32⟩ : BufTy).Contents (Elt F) → (⟨S105000, .i32⟩ : BufTy).Contents (Elt F)),
    StableHlo.ternary main_v94 main_v96 main_v71 main_v97 (select : (⟨S105000, .i1⟩ : BufTy).Contents (Elt F) → (⟨S105000, .i32⟩ : BufTy).Contents (Elt F) → (⟨S105000, .i32⟩ : BufTy).Contents (Elt F) → (⟨S105000, .i32⟩ : BufTy).Contents (Elt F)),
    StableHlo.unary main_v97 main_v98 (broadcastInDim S105000x1 ![0] bcast_S105000_S105000x1_0 : (⟨S105000, .i32⟩ : BufTy).Contents (Elt F) → (⟨S105000x1, .i32⟩ : BufTy).Contents (Elt F)),
    StableHlo.binary main_v84 main_v98 main_v99 ((fun x i => Host.gather gather_S5000_S105000x1_S105000_n_0_n_n_0_1_1 x i) : (⟨S5000, .f32⟩ : BufTy).Contents (Elt F) → (⟨S105000x1, .i32⟩ : BufTy).Contents (Elt F) → (⟨S105000, .f32⟩ : BufTy).Contents (Elt F)),
    StableHlo.binary main_v92 main_v99 main_v100 (mulf : (⟨S105000, .f32⟩ : BufTy).Contents (Elt F) → (⟨S105000, .f32⟩ : BufTy).Contents (Elt F) → (⟨S105000, .f32⟩ : BufTy).Contents (Elt F)),
    StableHlo.nullary main_c_25 (constantI S_ 32 0#32),
    StableHlo.unary main_c_25 main_v101 (broadcastInDim S105000 ![] bcast_S_S105000 : (⟨S_, .i32⟩ : BufTy).Contents (Elt F) → (⟨S105000, .i32⟩ : BufTy).Contents (Elt F)),
    StableHlo.binary main_v70 main_v101 main_v102 (cmpi .slt : (⟨S105000, .i32⟩ : BufTy).Contents (Elt F) → (⟨S105000, .i32⟩ : BufTy).Contents (Elt F) → (⟨S105000, .i1⟩ : BufTy).Contents (Elt F)),
    StableHlo.nullary main_c_26 (constantI S_ 32 5000#32),
    StableHlo.unary main_c_26 main_v103 (broadcastInDim S105000 ![] bcast_S_S105000 : (⟨S_, .i32⟩ : BufTy).Contents (Elt F) → (⟨S105000, .i32⟩ : BufTy).Contents (Elt F)),
    StableHlo.binary main_v70 main_v103 main_v104 (addi : (⟨S105000, .i32⟩ : BufTy).Contents (Elt F) → (⟨S105000, .i32⟩ : BufTy).Contents (Elt F) → (⟨S105000, .i32⟩ : BufTy).Contents (Elt F)),
    StableHlo.ternary main_v102 main_v104 main_v70 main_v105 (select : (⟨S105000, .i1⟩ : BufTy).Contents (Elt F) → (⟨S105000, .i32⟩ : BufTy).Contents (Elt F) → (⟨S105000, .i32⟩ : BufTy).Contents (Elt F) → (⟨S105000, .i32⟩ : BufTy).Contents (Elt F)),
    StableHlo.unary main_v105 main_v106 (broadcastInDim S105000x1 ![0] bcast_S105000_S105000x1_0 : (⟨S105000, .i32⟩ : BufTy).Contents (Elt F) → (⟨S105000x1, .i32⟩ : BufTy).Contents (Elt F)),
    StableHlo.binary main_v68 main_v106 main_v107 ((fun x i => Host.gather gather_S5000x128_S105000x1_S105000x128_1_0_n_n_0_1_1128 x i) : (⟨S5000x128, .f32⟩ : BufTy).Contents (Elt F) → (⟨S105000x1, .i32⟩ : BufTy).Contents (Elt F) → (⟨S105000x128, .f32⟩ : BufTy).Contents (Elt F)),
    StableHlo.unary main_v100 main_v108 (broadcastInDim S105000x1 ![0] bcast_S105000_S105000x1_0 : (⟨S105000, .f32⟩ : BufTy).Contents (Elt F) → (⟨S105000x1, .f32⟩ : BufTy).Contents (Elt F)),
    StableHlo.unary main_v108 main_v109 (broadcastInDim S105000x128 ![0, 1] bcast_S105000x1_S105000x128_0_1 : (⟨S105000x1, .f32⟩ : BufTy).Contents (Elt F) → (⟨S105000x128, .f32⟩ : BufTy).Contents (Elt F)),
    StableHlo.binary main_v107 main_v109 main_v110 (mulf : (⟨S105000x128, .f32⟩ : BufTy).Contents (Elt F) → (⟨S105000x128, .f32⟩ : BufTy).Contents (Elt F) → (⟨S105000x128, .f32⟩ : BufTy).Contents (Elt F)),
    StableHlo.nullary main_cst_27 (constant S_ .f32 0x00000000#32),
    StableHlo.unary main_cst_27 main_v111 (broadcastInDim S5000x128 ![] bcast_S_S5000x128 : (⟨S_, .f32⟩ : BufTy).Contents (Elt F) → (⟨S5000x128, .f32⟩ : BufTy).Contents (Elt F)),
    StableHlo.unary main_v71 main_v112 (broadcastInDim S105000x1 ![0] bcast_S105000_S105000x1_0 : (⟨S105000, .i32⟩ : BufTy).Contents (Elt F) → (⟨S105000x1, .i32⟩ : BufTy).Contents (Elt F)),
    StableHlo.ternary main_v111 main_v112 main_v110 main_v113 ((fun x i u => Host.scatterAdd scatter_S5000x128_S105000x1_S105000x128_1_0_0_1 x i u) : (⟨S5000x128, .f32⟩ : BufTy).Contents (Elt F) → (⟨S105000x1, .i32⟩ : BufTy).Contents (Elt F) → (⟨S105000x128, .f32⟩ : BufTy).Contents (Elt F) → (⟨S5000x128, .f32⟩ : BufTy).Contents (Elt F)),
    StableHlo.unary main_v67 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S5000x128 ![0, 1] bcast_S1x128_S5000x128_0_1 : (⟨S1x128, .f32⟩ : BufTy).Contents (Elt F) → (⟨S5000x128, .f32⟩ : BufTy).Contents (Elt F)),
    StableHlo.binary main_v113 main_v115 main_v116 (addf : (⟨S5000x128, .f32⟩ : BufTy).Contents (Elt F) → (⟨S5000x128, .f32⟩ : BufTy).Contents (Elt F) → (⟨S5000x128, .f32⟩ : BufTy).Contents (Elt F)),
    StableHlo.TRef.nullary (StableHlo.TRef.of (T := ⟨S_, .f32⟩) main_call5_cst) (constant S_ .f32 0x00000000#32),
    StableHlo.TRef.unary (StableHlo.TRef.of (T := ⟨S_, .f32⟩) main_call5_cst) (StableHlo.TRef.of (T := ⟨S5000x128, .f32⟩) main_call5_v0) (broadcastInDim S5000x128 ![] bcast_S_S5000x128),
    StableHlo.TRef.binary (StableHlo.TRef.of (T := ⟨S5000x128, .f32⟩) main_v116) (StableHlo.TRef.of (T := ⟨S5000x128, .f32⟩) main_call5_v0) (StableHlo.TRef.of (T := ⟨S5000x128, .i1⟩) main_call5_v1) (cmpf .oge),
    StableHlo.TRef.nullary (StableHlo.TRef.of (T := ⟨S_, .f32⟩) main_call5_cst_0) (constant S_ .f32 0x3C23D70A#32),
    StableHlo.TRef.unary (StableHlo.TRef.of (T := ⟨S_, .f32⟩) main_call5_cst_0) (StableHlo.TRef.of (T := ⟨S5000x128, .f32⟩) main_call5_v2) (broadcastInDim S5000x128 ![] bcast_S_S5000x128),
    StableHlo.TRef.binary (StableHlo.TRef.of (T := ⟨S5000x128, .f32⟩) main_call5_v2) (StableHlo.TRef.of (T := ⟨S5000x128, .f32⟩) main_v116) (StableHlo.TRef.of (T := ⟨S5000x128, .f32⟩) main_call5_v3) mulf ]

abbrev ops08_W : List (Ref sig .tc) := [main_v94, main_c_24, main_v95, main_v96, main_v97, main_v98, main_v99, main_v100, main_c_25, main_v101, main_v102, main_c_26, main_v103, main_v104, main_v105, main_v106, main_v107, main_v108, main_v109, main_v110, main_cst_27, main_v111, main_v112, main_v113, main_v114, main_v115, main_v116, main_call5_cst, main_call5_v0, main_call5_v1, main_call5_cst_0, main_call5_v2, main_call5_v3]
theorem ops08_plain : List.Forall₂ Plain (ops08 : List (HloOp τ sig (Elt F))) ops08_W := by repeat' constructor

abbrev ops09 : List (HloOp τ sig (Elt F)) :=
  [ StableHlo.TRef.ternary (StableHlo.TRef.of (T := ⟨S5000x128, .i1⟩) main_call5_v1) (StableHlo.TRef.of (T := ⟨S5000x128, .f32⟩) main_v116) (StableHlo.TRef.of (T := ⟨S5000x128, .f32⟩) main_call5_v3) (StableHlo.TRef.of (T := ⟨S5000x128, .f32⟩) main_v117) select,
    StableHlo.binary main_v117 main_v60 main_v118 (addf : (⟨S5000x128, .f32⟩ : BufTy).Contents (Elt F) → (⟨S5000x128, .f32⟩ : BufTy).Contents (Elt F) → (⟨S5000x128, .f32⟩ : BufTy).Contents (Elt F)),
    StableHlo.nullary main_cst_28 (constant S_ .f32 0x3EAAAAAB#32),
    StableHlo.unary main_cst_28 main_v119 (broadcastInDim S5000x128 ![] bcast_S_S5000x128 : (⟨S_, .f32⟩ : BufTy).Contents (Elt F) → (⟨S5000x128, .f32⟩ : BufTy).Contents (Elt F)),
    StableHlo.binary main_v118 main_v119 main_v120 (mulf : (⟨S5000x128, .f32⟩ : BufTy).Contents (Elt F) → (⟨S5000x128, .f32⟩ : BufTy).Contents (Elt F) → (⟨S5000x128, .f32⟩ : BufTy).Contents (Elt F)),
    StableHlo.binary main_v63 main_v120 main_v121 (addf : (⟨S5000x128, .f32⟩ : BufTy).Contents (Elt F) → (⟨S5000x128, .f32⟩ : BufTy).Contents (Elt F) → (⟨S5000x128, .f32⟩ : BufTy).Contents (Elt F)),
    StableHlo.binary main_v0 main_arg7 main_v122 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg8 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S40000x128 ![0, 1] bcast_S1x128_S40000x128_0_1 : (⟨S1x128, .f32⟩ : BufTy).Contents (Elt F) → (⟨S40000x128, .f32⟩ : BufTy).Contents (Elt F)),
    StableHlo.binary main_v122 main_v124 main_v125 (addf : (⟨S40000x128, .f32⟩ : BufTy).Contents (Elt F) → (⟨S40000x128, .f32⟩ : BufTy).Contents (Elt F) → (⟨S40000x128, .f32⟩ : BufTy).Contents (Elt F)),
    StableHlo.unary main_v125 main_v126 (Host.negf : (⟨S40000x128, .f32⟩ : BufTy).Contents (Elt F) → (⟨S40000x128, .f32⟩ : BufTy).Contents (Elt F)),
    StableHlo.unary main_v126 main_v127 (Host.exp : (⟨S40000x128, .f32⟩ : BufTy).Contents (Elt F) → (⟨S40000x128, .f32⟩ : BufTy).Contents (Elt F)),
    StableHlo.nullary main_cst_29 (constant S_ .f32 0x3F800000#32),
    StableHlo.unary main_cst_29 main_v128 (broadcastInDim S40000x128 ![] bcast_S_S40000x128 : (⟨S_, .f32⟩ : BufTy).Contents (Elt F) → (⟨S40000x128, .f32⟩ : BufTy).Contents (Elt F)),
    StableHlo.binary main_v128 main_v127 main_v129 (addf : (⟨S40000x128, .f32⟩ : BufTy).Contents (Elt F) → (⟨S40000x128, .f32⟩ : BufTy).Contents (Elt F) → (⟨S40000x128, .f32⟩ : BufTy).Contents (Elt F)),
    StableHlo.nullary main_cst_30 (constant S_ .f32 0x3F800000#32),
    StableHlo.unary main_cst_30 main_v130 (broadcastInDim S40000x128 ![] bcast_S_S40000x128 : (⟨S_, .f32⟩ : BufTy).Contents (Elt F) → (⟨S40000x128, .f32⟩ : BufTy).Contents (Elt F)),
    StableHlo.binary main_v130 main_v129 main_v131 (Host.divf : (⟨S40000x128, .f32⟩ : BufTy).Contents (Elt F) → (⟨S40000x128, .f32⟩ : BufTy).Contents (Elt F) → (⟨S40000x128, .f32⟩ : BufTy).Contents (Elt F)),
    StableHlo.binary main_v131 main_v0 main_v132 (mulf : (⟨S40000x128, .f32⟩ : BufTy).Contents (Elt F) → (⟨S40000x128, .f32⟩ : BufTy).Contents (Elt F) → (⟨S40000x128, .f32⟩ : BufTy).Contents (Elt F)),
    StableHlo.binary main_v0 main_arg9 main_v133 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg10 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S40000x128 ![0, 1] bcast_S1x128_S40000x128_0_1 : (⟨S1x128, .f32⟩ : BufTy).Contents (Elt F) → (⟨S40000x128, .f32⟩ : BufTy).Contents (Elt F)),
    StableHlo.binary main_v133 main_v135 main_v136 (addf : (⟨S40000x128, .f32⟩ : BufTy).Contents (Elt F) → (⟨S40000x128, .f32⟩ : BufTy).Contents (Elt F) → (⟨S40000x128, .f32⟩ : BufTy).Contents (Elt F)),
    StableHlo.unary main_v136 main_v137 (Host.negf : (⟨S40000x128, .f32⟩ : BufTy).Contents (Elt F) → (⟨S40000x128, .f32⟩ : BufTy).Contents (Elt F)),
    StableHlo.unary main_v137 main_v138 (Host.exp : (⟨S40000x128, .f32⟩ : BufTy).Contents (Elt F) → (⟨S40000x128, .f32⟩ : BufTy).Contents (Elt F)),
    StableHlo.nullary main_cst_31 (constant S_ .f32 0x3F800000#32),
    StableHlo.unary main_cst_31 main_v139 (broadcastInDim S40000x128 ![] bcast_S_S40000x128 : (⟨S_, .f32⟩ : BufTy).Contents (Elt F) → (⟨S40000x128, .f32⟩ : BufTy).Contents (Elt F)),
    StableHlo.binary main_v139 main_v138 main_v140 (addf : (⟨S40000x128, .f32⟩ : BufTy).Contents (Elt F) → (⟨S40000x128, .f32⟩ : BufTy).Contents (Elt F) → (⟨S40000x128, .f32⟩ : BufTy).Contents (Elt F)),
    StableHlo.nullary main_cst_32 (constant S_ .f32 0x3F800000#32),
    StableHlo.unary main_cst_32 main_v141 (broadcastInDim S40000x128 ![] bcast_S_S40000x128 : (⟨S_, .f32⟩ : BufTy).Contents (Elt F) → (⟨S40000x128, .f32⟩ : BufTy).Contents (Elt F)),
    StableHlo.binary main_v141 main_v140 main_v142 (Host.divf : (⟨S40000x128, .f32⟩ : BufTy).Contents (Elt F) → (⟨S40000x128, .f32⟩ : BufTy).Contents (Elt F) → (⟨S40000x128, .f32⟩ : BufTy).Contents (Elt F)),
    StableHlo.binary main_v142 main_v0 main_v143 (mulf : (⟨S40000x128, .f32⟩ : BufTy).Contents (Elt F) → (⟨S40000x128, .f32⟩ : BufTy).Contents (Elt F) → (⟨S40000x128, .f32⟩ : BufTy).Contents (Elt F)),
    StableHlo.unary main_arg3 main_v144 ((extractStridedSlice S1x600000 ![0, 0] · slices_S2x600000_S1x600000_0_0) : (⟨S2x600000, .i32⟩ : BufTy).Contents (Elt F) → (⟨S1x600000, .i32⟩ : BufTy).Contents (Elt F)) ]

abbrev ops09_W : List (Ref sig .tc) := [main_v117, main_v118, main_cst_28, main_v119, main_v120, main_v121, main_v122, main_v123, main_v124, main_v125, main_v126, main_v127, main_cst_29, main_v128, main_v129, main_cst_30, main_v130, main_v131, main_v132, main_v133, main_v134, main_v135, main_v136, main_v137, main_v138, main_cst_31, main_v139, main_v140, main_cst_32, main_v141, main_v142, main_v143, main_v144]
theorem ops09_plain : List.Forall₂ Plain (ops09 : List (HloOp τ sig (Elt F))) ops09_W := by repeat' constructor

abbrev ops10 : List (HloOp τ sig (Elt F)) :=
  [ StableHlo.reshape main_v144 main_v145 rfl shapeCasts_S1x600000_S600000,
    StableHlo.unary main_arg3 main_v146 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v146 main_v147 rfl shapeCasts_S1x600000_S600000,
    StableHlo.unary main_arg11 main_v148 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v148 main_v149 rfl shapeCasts_S1x128x128_S128x128,
    StableHlo.unary main_arg12 main_v150 ((extractStridedSlice S1x128 ![0, 0] · slices_S2x128_S1x128_0_0) : (⟨S2x128, .f32⟩ : BufTy).Contents (Elt F) → (⟨S1x128, .f32⟩ : BufTy).Contents (Elt F)),
    StableHlo.reshape main_v150 main_v151 rfl shapeCasts_S1x128_S128,
    StableHlo.binary main_v132 main_v149 main_v152 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_cst_33 (constant S_ .f32 0x3F800000#32),
    StableHlo.unary main_cst_33 main_v153 (broadcastInDim S600000 ![] bcast_S_S600000 : (⟨S_, .f32⟩ : BufTy).Contents (Elt F) → (⟨S600000, .f32⟩ : BufTy).Contents (Elt F)),
    StableHlo.nullary main_cst_34 (constant S_ .f32 0x00000000#32),
    StableHlo.unary main_cst_34 main_v154 (broadcastInDim S40000 ![] bcast_S_S40000 : (⟨S_, .f32⟩ : BufTy).Contents (Elt F) → (⟨S40000, .f32⟩ : BufTy).Contents (Elt F)),
    StableHlo.unary main_v145 main_v155 (broadcastInDim S600000x1 ![0] bcast_S600000_S600000x1_0 : (⟨S600000, .i32⟩ : BufTy).Contents (Elt F) → (⟨S600000x1, .i32⟩ : BufTy).Contents (Elt F)),
    StableHlo.ternary main_v154 main_v155 main_v153 main_v156 ((fun x i u => Host.scatterAdd scatter_S40000_S600000x1_S600000_n_0_0_1 x i u) : (⟨S40000, .f32⟩ : BufTy).Contents (Elt F) → (⟨S600000x1, .i32⟩ : BufTy).Contents (Elt F) → (⟨S600000, .f32⟩ : BufTy).Contents (Elt F) → (⟨S40000, .f32⟩ : BufTy).Contents (Elt F)),
    StableHlo.nullary main_cst_35 (constant S_ .f32 0x00000000#32),
    StableHlo.unary main_cst_35 main_v157 (broadcastInDim S40000 ![] bcast_S_S40000 : (⟨S_, .f32⟩ : BufTy).Contents (Elt F) → (⟨S40000, .f32⟩ : BufTy).Contents (Elt F)),
    StableHlo.binary main_v156 main_v157 main_v158 (cmpf .ogt : (⟨S40000, .f32⟩ : BufTy).Contents (Elt F) → (⟨S40000, .f32⟩ : BufTy).Contents (Elt F) → (⟨S40000, .i1⟩ : BufTy).Contents (Elt F)),
    StableHlo.nullary main_cst_36 (constant S_ .f32 0x00000000#32),
    StableHlo.unary main_cst_36 main_v159 (broadcastInDim S40000 ![] bcast_S_S40000 : (⟨S_, .f32⟩ : BufTy).Contents (Elt F) → (⟨S40000, .f32⟩ : BufTy).Contents (Elt F)),
    StableHlo.binary main_v156 main_v159 main_v160 (cmpf .ogt : (⟨S40000, .f32⟩ : BufTy).Contents (Elt F) → (⟨S40000, .f32⟩ : BufTy).Contents (Elt F) → (⟨S40000, .i1⟩ : BufTy).Contents (Elt F)),
    StableHlo.nullary main_cst_37 (constant S_ .f32 0x3F800000#32),
    StableHlo.TRef.unary (StableHlo.TRef.of (T := ⟨S_, .f32⟩) main_cst_37) (StableHlo.TRef.of (T := ⟨S_, .f32⟩) main_call6_v0) id,
    StableHlo.TRef.unary (StableHlo.TRef.of (T := ⟨S_, .f32⟩) main_call6_v0) (StableHlo.TRef.of (T := ⟨S40000, .f32⟩) main_call6_v1) (broadcastInDim S40000 ![] bcast_S_S40000),
    StableHlo.TRef.ternary (StableHlo.TRef.of (T := ⟨S40000, .i1⟩) main_v160) (StableHlo.TRef.of (T := ⟨S40000, .f32⟩) main_v156) (StableHlo.TRef.of (T := ⟨S40000, .f32⟩) main_call6_v1) (StableHlo.TRef.of (T := ⟨S40000, .f32⟩) main_v161) select,
    StableHlo.nullary main_cst_38 (constant S_ .f32 0x3F800000#32),
    StableHlo.unary main_cst_38 main_v162 (broadcastInDim S40000 ![] bcast_S_S40000 : (⟨S_, .f32⟩ : BufTy).Contents (Elt F) → (⟨S40000, .f32⟩ : BufTy).Contents (Elt F)),
    StableHlo.binary main_v162 main_v161 main_v163 (Host.divf : (⟨S40000, .f32⟩ : BufTy).Contents (Elt F) → (⟨S40000, .f32⟩ : BufTy).Contents (Elt F) → (⟨S40000, .f32⟩ : BufTy).Contents (Elt F)),
    StableHlo.nullary main_cst_39 (constant S_ .f32 0x00000000#32),
    StableHlo.TRef.unary (StableHlo.TRef.of (T := ⟨S_, .f32⟩) main_cst_39) (StableHlo.TRef.of (T := ⟨S_, .f32⟩) main_call7_v0) id,
    StableHlo.TRef.unary (StableHlo.TRef.of (T := ⟨S_, .f32⟩) main_call7_v0) (StableHlo.TRef.of (T := ⟨S40000, .f32⟩) main_call7_v1) (broadcastInDim S40000 ![] bcast_S_S40000),
    StableHlo.TRef.ternary (StableHlo.TRef.of (T := ⟨S40000, .i1⟩) main_v158) (StableHlo.TRef.of (T := ⟨S40000, .f32⟩) main_v163) (StableHlo.TRef.of (T := ⟨S40000, .f32⟩) main_call7_v1) (StableHlo.TRef.of (T := ⟨S40000, .f32⟩) main_v164) select,
    StableHlo.nullary main_cst_40 (constant S_ .f32 0x00000000#32),
    StableHlo.unary main_cst_40 main_v165 (broadcastInDim S30000 ![] bcast_S_S30000 : (⟨S_, .f32⟩ : BufTy).Contents (Elt F) → (⟨S30000, .f32⟩ : BufTy).Contents (Elt F)),
    StableHlo.unary main_v147 main_v166 (broadcastInDim S600000x1 ![0] bcast_S600000_S600000x1_0 : (⟨S600000, .i32⟩ : BufTy).Contents (Elt F) → (⟨S600000x1, .i32⟩ : BufTy).Contents (Elt F)) ]

abbrev ops10_W : List (Ref sig .tc) := [main_v145, main_v146, main_v147, main_v148, main_v149, main_v150, main_v151, main_v152, main_cst_33, main_v153, main_cst_34, main_v154, main_v155, main_v156, main_cst_35, main_v157, main_v158, main_cst_36, main_v159, main_v160, main_cst_37, main_call6_v0, main_call6_v1, main_v161, main_cst_38, main_v162, main_v163, main_cst_39, main_call7_v0, main_call7_v1, main_v164, main_cst_40, main_v165, main_v166]
theorem ops10_plain : List.Forall₂ Plain (ops10 : List (HloOp τ sig (Elt F))) ops10_W := by repeat' constructor
theorem ops10_writes : (ops10 : List (HloOp τ sig (Elt F))).Forall fun op => op.writes ⊆ (ops10_W.map (Proc.devRef (τ := τ) .tc)).toFinset :=
  writes_of_plain ops10_plain

abbrev ops11 : List (HloOp τ sig (Elt F)) :=
  [ StableHlo.ternary main_v165 main_v166 main_v153 main_v167 ((fun x i u => Host.scatterAdd scatter_S30000_S600000x1_S600000_n_0_0_1 x i u) : (⟨S30000, .f32⟩ : BufTy).Contents (Elt F) → (⟨S600000x1, .i32⟩ : BufTy).Contents (Elt F) → (⟨S600000, .f32⟩ : BufTy).Contents (Elt F) → (⟨S30000, .f32⟩ : BufTy).Contents (Elt F)),
    StableHlo.nullary main_cst_41 (constant S_ .f32 0x00000000#32),
    StableHlo.unary main_cst_41 main_v168 (broadcastInDim S30000 ![] bcast_S_S30000 : (⟨S_, .f32⟩ : BufTy).Contents (Elt F) → (⟨S30000, .f32⟩ : BufTy).Contents (Elt F)),
    StableHlo.binary main_v167 main_v168 main_v169 (cmpf .ogt : (⟨S30000, .f32⟩ : BufTy).Contents (Elt F) → (⟨S30000, .f32⟩ : BufTy).Contents (Elt F) → (⟨S30000, .i1⟩ : BufTy).Contents (Elt F)),
    StableHlo.nullary main_cst_42 (constant S_ .f32 0x00000000#32),
    StableHlo.unary main_cst_42 main_v170 (broadcastInDim S30000 ![] bcast_S_S30000 : (⟨S_, .f32⟩ : BufTy).Contents (Elt F) → (⟨S30000, .f32⟩ : BufTy).Contents (Elt F)),
    StableHlo.binary main_v167 main_v170 main_v171 (cmpf .ogt : (⟨S30000, .f32⟩ : BufTy).Contents (Elt F) → (⟨S30000, .f32⟩ : BufTy).Contents (Elt F) → (⟨S30000, .i1⟩ : BufTy).Contents (Elt F)),
    StableHlo.nullary main_cst_43 (constant S_ .f32 0x3F800000#32),
    StableHlo.TRef.unary (StableHlo.TRef.of (T := ⟨S_, .f32⟩) main_cst_43) (StableHlo.TRef.of (T := ⟨S_, .f32⟩) main_call8_v0) id,
    StableHlo.TRef.unary (StableHlo.TRef.of (T := ⟨S_, .f32⟩) main_call8_v0) (StableHlo.TRef.of (T := ⟨S30000, .f32⟩) main_call8_v1) (broadcastInDim S30000 ![] bcast_S_S30000),
    StableHlo.TRef.ternary (StableHlo.TRef.of (T := ⟨S30000, .i1⟩) main_v171) (StableHlo.TRef.of (T := ⟨S30000, .f32⟩) main_v167) (StableHlo.TRef.of (T := ⟨S30000, .f32⟩) main_call8_v1) (StableHlo.TRef.of (T := ⟨S30000, .f32⟩) main_v172) select,
    StableHlo.nullary main_cst_44 (constant S_ .f32 0x3F800000#32),
    StableHlo.unary main_cst_44 main_v173 (broadcastInDim S30000 ![] bcast_S_S30000 : (⟨S_, .f32⟩ : BufTy).Contents (Elt F) → (⟨S30000, .f32⟩ : BufTy).Contents (Elt F)),
    StableHlo.binary main_v173 main_v172 main_v174 (Host.divf : (⟨S30000, .f32⟩ : BufTy).Contents (Elt F) → (⟨S30000, .f32⟩ : BufTy).Contents (Elt F) → (⟨S30000, .f32⟩ : BufTy).Contents (Elt F)),
    StableHlo.nullary main_cst_45 (constant S_ .f32 0x00000000#32),
    StableHlo.TRef.unary (StableHlo.TRef.of (T := ⟨S_, .f32⟩) main_cst_45) (StableHlo.TRef.of (T := ⟨S_, .f32⟩) main_call9_v0) id,
    StableHlo.TRef.unary (StableHlo.TRef.of (T := ⟨S_, .f32⟩) main_call9_v0) (StableHlo.TRef.of (T := ⟨S30000, .f32⟩) main_call9_v1) (broadcastInDim S30000 ![] bcast_S_S30000),
    StableHlo.TRef.ternary (StableHlo.TRef.of (T := ⟨S30000, .i1⟩) main_v169) (StableHlo.TRef.of (T := ⟨S30000, .f32⟩) main_v174) (StableHlo.TRef.of (T := ⟨S30000, .f32⟩) main_call9_v1) (StableHlo.TRef.of (T := ⟨S30000, .f32⟩) main_v175) select,
    StableHlo.nullary main_c_46 (constantI S_ 32 0#32),
    StableHlo.unary main_c_46 main_v176 (broadcastInDim S600000 ![] bcast_S_S600000 : (⟨S_, .i32⟩ : BufTy).Contents (Elt F) → (⟨S600000, .i32⟩ : BufTy).Contents (Elt F)),
    StableHlo.binary main_v145 main_v176 main_v177 (cmpi .slt : (⟨S600000, .i32⟩ : BufTy).Contents (Elt F) → (⟨S600000, .i32⟩ : BufTy).Contents (Elt F) → (⟨S600000, .i1⟩ : BufTy).Contents (Elt F)),
    StableHlo.nullary main_c_47 (constantI S_ 32 40000#32),
    StableHlo.unary main_c_47 main_v178 (broadcastInDim S600000 ![] bcast_S_S600000 : (⟨S_, .i32⟩ : BufTy).Contents (Elt F) → (⟨S600000, .i32⟩ : BufTy).Contents (Elt F)),
    StableHlo.binary main_v145 main_v178 main_v179 (addi : (⟨S600000, .i32⟩ : BufTy).Contents (Elt F) → (⟨S600000, .i32⟩ : BufTy).Contents (Elt F) → (⟨S600000, .i32⟩ : BufTy).Contents (Elt F)),
    StableHlo.ternary main_v177 main_v179 main_v145 main_v180 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v180 main_v181 (broadcastInDim S600000x1 ![0] bcast_S600000_S600000x1_0 : (⟨S600000, .i32⟩ : BufTy).Contents (Elt F) → (⟨S600000x1, .i32⟩ : BufTy).Contents (Elt F)),
    StableHlo.binary main_v152 main_v181 main_v182 ((fun x i => Host.gather gather_S40000x128_S600000x1_S600000x128_1_0_n_n_0_1_1128 x i) : (⟨S40000x128, .f32⟩ : BufTy).Contents (Elt F) → (⟨S600000x1, .i32⟩ : BufTy).Contents (Elt F) → (⟨S600000x128, .f32⟩ : BufTy).Contents (Elt F)),
    StableHlo.nullary main_cst_48 (constant S_ .f32 0x00000000#32),
    StableHlo.unary main_cst_48 main_v183 (broadcastInDim S30000x128 ![] bcast_S_S30000x128 : (⟨S_, .f32⟩ : BufTy).Contents (Elt F) → (⟨S30000x128, .f32⟩ : BufTy).Contents (Elt F)),
    StableHlo.unary main_v147 main_v184 (broadcastInDim S600000x1 ![0] bcast_S600000_S600000x1_0 : (⟨S600000, .i32⟩ : BufTy).Contents (Elt F) → (⟨S600000x1, .i32⟩ : BufTy).Contents (Elt F)),
    StableHlo.ternary main_v183 main_v184 main_v182 main_v185 ((fun x i u => Host.scatterAdd scatter_S30000x128_S600000x1_S600000x128_1_0_0_1 x i u) : (⟨S30000x128, .f32⟩ : BufTy).Contents (Elt F) → (⟨S600000x1, .i32⟩ : BufTy).Contents (Elt F) → (⟨S600000x128, .f32⟩ : BufTy).Contents (Elt F) → (⟨S30000x128, .f32⟩ : BufTy).Contents (Elt F)),
    StableHlo.unary main_v175 main_v186 (broadcastInDim S30000x1 ![0] bcast_S30000_S30000x1_0 : (⟨S30000, .f32⟩ : BufTy).Contents (Elt F) → (⟨S30000x1, .f32⟩ : BufTy).Contents (Elt F)),
    StableHlo.unary main_v186 main_v187 (broadcastInDim S30000x128 ![0, 1] bcast_S30000x1_S30000x128_0_1 : (⟨S30000x1, .f32⟩ : BufTy).Contents (Elt F) → (⟨S30000x128, .f32⟩ : BufTy).Contents (Elt F)),
    StableHlo.binary main_v185 main_v187 main_v188 (mulf : (⟨S30000x128, .f32⟩ : BufTy).Contents (Elt F) → (⟨S30000x128, .f32⟩ : BufTy).Contents (Elt F) → (⟨S30000x128, .f32⟩ : BufTy).Contents (Elt F)) ]

abbrev ops11_W : List (Ref sig .tc) := [main_v167, main_cst_41, main_v168, main_v169, main_cst_42, main_v170, main_v171, main_cst_43, main_call8_v0, main_call8_v1, main_v172, main_cst_44, main_v173, main_v174, main_cst_45, main_call9_v0, main_call9_v1, main_v175, main_c_46, main_v176, main_v177, main_c_47, main_v178, main_v179, main_v180, main_v181, main_v182, main_cst_48, main_v183, main_v184, main_v185, main_v186, main_v187, main_v188]
theorem ops11_plain : List.Forall₂ Plain (ops11 : List (HloOp τ sig (Elt F))) ops11_W := by repeat' constructor
theorem ops11_writes : (ops11 : List (HloOp τ sig (Elt F))).Forall fun op => op.writes ⊆ (ops11_W.map (Proc.devRef (τ := τ) .tc)).toFinset :=
  writes_of_plain ops11_plain

end Cert.ReferenceIdeal.Hand

end
-- ==== Proof.RefRunOps2.lean ====
import proofs.«131905_j73031623901536_2_alg».proof.Proof.Gen.ReferenceIdeal
import proofs.«131905_j73031623901536_2_alg».proof.Proof.RefPlain

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops12 : List (HloOp τ sig (Elt F)) :=
  [ StableHlo.nullary main_c_49 (constantI S_ 32 0#32),
    StableHlo.unary main_c_49 main_v189 (broadcastInDim S600000 ![] bcast_S_S600000 : (⟨S_, .i32⟩ : BufTy).Contents (Elt F) → (⟨S600000, .i32⟩ : BufTy).Contents (Elt F)),
    StableHlo.binary main_v147 main_v189 main_v190 (cmpi .slt : (⟨S600000, .i32⟩ : BufTy).Contents (Elt F) → (⟨S600000, .i32⟩ : BufTy).Contents (Elt F) → (⟨S600000, .i1⟩ : BufTy).Contents (Elt F)),
    StableHlo.nullary main_c_50 (constantI S_ 32 30000#32),
    StableHlo.unary main_c_50 main_v191 (broadcastInDim S600000 ![] bcast_S_S600000 : (⟨S_, .i32⟩ : BufTy).Contents (Elt F) → (⟨S600000, .i32⟩ : BufTy).Contents (Elt F)),
    StableHlo.binary main_v147 main_v191 main_v192 (addi : (⟨S600000, .i32⟩ : BufTy).Contents (Elt F) → (⟨S600000, .i32⟩ : BufTy).Contents (Elt F) → (⟨S600000, .i32⟩ : BufTy).Contents (Elt F)),
    StableHlo.ternary main_v190 main_v192 main_v147 main_v193 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v193 main_v194 (broadcastInDim S600000x1 ![0] bcast_S600000_S600000x1_0 : (⟨S600000, .i32⟩ : BufTy).Contents (Elt F) → (⟨S600000x1, .i32⟩ : BufTy).Contents (Elt F)),
    StableHlo.binary main_v188 main_v194 main_v195 ((fun x i => Host.gather gather_S30000x128_S600000x1_S600000x128_1_0_n_n_0_1_1128 x i) : (⟨S30000x128, .f32⟩ : BufTy).Contents (Elt F) → (⟨S600000x1, .i32⟩ : BufTy).Contents (Elt F) → (⟨S600000x128, .f32⟩ : BufTy).Contents (Elt F)),
    StableHlo.nullary main_cst_51 (constant S_ .f32 0x00000000#32),
    StableHlo.unary main_cst_51 main_v196 (broadcastInDim S40000x128 ![] bcast_S_S40000x128 : (⟨S_, .f32⟩ : BufTy).Contents (Elt F) → (⟨S40000x128, .f32⟩ : BufTy).Contents (Elt F)),
    StableHlo.unary main_v145 main_v197 (broadcastInDim S600000x1 ![0] bcast_S600000_S600000x1_0 : (⟨S600000, .i32⟩ : BufTy).Contents (Elt F) → (⟨S600000x1, .i32⟩ : BufTy).Contents (Elt F)),
    StableHlo.ternary main_v196 main_v197 main_v195 main_v198 ((fun x i u => Host.scatterAdd scatter_S40000x128_S600000x1_S600000x128_1_0_0_1 x i u) : (⟨S40000x128, .f32⟩ : BufTy).Contents (Elt F) → (⟨S600000x1, .i32⟩ : BufTy).Contents (Elt F) → (⟨S600000x128, .f32⟩ : BufTy).Contents (Elt F) → (⟨S40000x128, .f32⟩ : BufTy).Contents (Elt F)),
    StableHlo.unary main_v164 main_v199 (broadcastInDim S40000x1 ![0] bcast_S40000_S40000x1_0 : (⟨S40000, .f32⟩ : BufTy).Contents (Elt F) → (⟨S40000x1, .f32⟩ : BufTy).Contents (Elt F)),
    StableHlo.unary main_v199 main_v200 (broadcastInDim S40000x128 ![0, 1] bcast_S40000x1_S40000x128_0_1 : (⟨S40000x1, .f32⟩ : BufTy).Contents (Elt F) → (⟨S40000x128, .f32⟩ : BufTy).Contents (Elt F)),
    StableHlo.binary main_v198 main_v200 main_v201 (mulf : (⟨S40000x128, .f32⟩ : BufTy).Contents (Elt F) → (⟨S40000x128, .f32⟩ : BufTy).Contents (Elt F) → (⟨S40000x128, .f32⟩ : BufTy).Contents (Elt F)),
    StableHlo.unary main_v151 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S40000x128 ![0, 1] bcast_S1x128_S40000x128_0_1 : (⟨S1x128, .f32⟩ : BufTy).Contents (Elt F) → (⟨S40000x128, .f32⟩ : BufTy).Contents (Elt F)),
    StableHlo.binary main_v201 main_v203 main_v204 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call10_cst) (constant S_ .f32 0x00000000#32),
    StableHlo.TRef.unary (StableHlo.TRef.of (T := ⟨S_, .f32⟩) main_call10_cst) (StableHlo.TRef.of (T := ⟨S40000x128, .f32⟩) main_call10_v0) (broadcastInDim S40000x128 ![] bcast_S_S40000x128),
    StableHlo.TRef.binary (StableHlo.TRef.of (T := ⟨S40000x128, .f32⟩) main_v204) (StableHlo.TRef.of (T := ⟨S40000x128, .f32⟩) main_call10_v0) (StableHlo.TRef.of (T := ⟨S40000x128, .i1⟩) main_call10_v1) (cmpf .oge),
    StableHlo.TRef.nullary (StableHlo.TRef.of (T := ⟨S_, .f32⟩) main_call10_cst_0) (constant S_ .f32 0x3C23D70A#32),
    StableHlo.TRef.unary (StableHlo.TRef.of (T := ⟨S_, .f32⟩) main_call10_cst_0) (StableHlo.TRef.of (T := ⟨S40000x128, .f32⟩) main_call10_v2) (broadcastInDim S40000x128 ![] bcast_S_S40000x128),
    StableHlo.TRef.binary (StableHlo.TRef.of (T := ⟨S40000x128, .f32⟩) main_call10_v2) (StableHlo.TRef.of (T := ⟨S40000x128, .f32⟩) main_v204) (StableHlo.TRef.of (T := ⟨S40000x128, .f32⟩) main_call10_v3) mulf,
    StableHlo.TRef.ternary (StableHlo.TRef.of (T := ⟨S40000x128, .i1⟩) main_call10_v1) (StableHlo.TRef.of (T := ⟨S40000x128, .f32⟩) main_v204) (StableHlo.TRef.of (T := ⟨S40000x128, .f32⟩) main_call10_v3) (StableHlo.TRef.of (T := ⟨S40000x128, .f32⟩) main_v205) select,
    StableHlo.binary main_v205 main_v132 main_v206 (addf : (⟨S40000x128, .f32⟩ : BufTy).Contents (Elt F) → (⟨S40000x128, .f32⟩ : BufTy).Contents (Elt F) → (⟨S40000x128, .f32⟩ : BufTy).Contents (Elt F)),
    StableHlo.nullary main_cst_52 (constant S_ .f32 0x3F000000#32),
    StableHlo.unary main_cst_52 main_v207 (broadcastInDim S40000x128 ![] bcast_S_S40000x128 : (⟨S_, .f32⟩ : BufTy).Contents (Elt F) → (⟨S40000x128, .f32⟩ : BufTy).Contents (Elt F)),
    StableHlo.binary main_v206 main_v207 main_v208 (mulf : (⟨S40000x128, .f32⟩ : BufTy).Contents (Elt F) → (⟨S40000x128, .f32⟩ : BufTy).Contents (Elt F) → (⟨S40000x128, .f32⟩ : BufTy).Contents (Elt F)),
    StableHlo.binary main_v132 main_v208 main_v209 (addf : (⟨S40000x128, .f32⟩ : BufTy).Contents (Elt F) → (⟨S40000x128, .f32⟩ : BufTy).Contents (Elt F) → (⟨S40000x128, .f32⟩ : BufTy).Contents (Elt F)),
    StableHlo.unary main_arg11 main_v210 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v210 main_v211 rfl shapeCasts_S1x128x128_S128x128,
    StableHlo.unary main_arg12 main_v212 ((extractStridedSlice S1x128 ![1, 0] · slices_S2x128_S1x128_1_0) : (⟨S2x128, .f32⟩ : BufTy).Contents (Elt F) → (⟨S1x128, .f32⟩ : BufTy).Contents (Elt F)),
    StableHlo.reshape main_v212 main_v213 rfl shapeCasts_S1x128_S128 ]

abbrev ops12_W : List (Ref sig .tc) := [main_c_49, main_v189, main_v190, main_c_50, main_v191, main_v192, main_v193, main_v194, main_v195, main_cst_51, main_v196, main_v197, main_v198, main_v199, main_v200, main_v201, main_v202, main_v203, main_v204, main_call10_cst, main_call10_v0, main_call10_v1, main_call10_cst_0, main_call10_v2, main_call10_v3, main_v205, main_v206, main_cst_52, main_v207, main_v208, main_v209, main_v210, main_v211, main_v212, main_v213]
theorem ops12_plain : List.Forall₂ Plain (ops12 : List (HloOp τ sig (Elt F))) ops12_W := by repeat' constructor
theorem ops12_writes : (ops12 : List (HloOp τ sig (Elt F))).Forall fun op => op.writes ⊆ (ops12_W.map (Proc.devRef (τ := τ) .tc)).toFinset :=
  writes_of_plain ops12_plain

abbrev ops13 : List (HloOp τ sig (Elt F)) :=
  [ StableHlo.binary main_v206 main_v211 main_v214 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_cst_53 (constant S_ .f32 0x3F800000#32),
    StableHlo.unary main_cst_53 main_v215 (broadcastInDim S600000 ![] bcast_S_S600000 : (⟨S_, .f32⟩ : BufTy).Contents (Elt F) → (⟨S600000, .f32⟩ : BufTy).Contents (Elt F)),
    StableHlo.nullary main_cst_54 (constant S_ .f32 0x00000000#32),
    StableHlo.unary main_cst_54 main_v216 (broadcastInDim S40000 ![] bcast_S_S40000 : (⟨S_, .f32⟩ : BufTy).Contents (Elt F) → (⟨S40000, .f32⟩ : BufTy).Contents (Elt F)),
    StableHlo.unary main_v145 main_v217 (broadcastInDim S600000x1 ![0] bcast_S600000_S600000x1_0 : (⟨S600000, .i32⟩ : BufTy).Contents (Elt F) → (⟨S600000x1, .i32⟩ : BufTy).Contents (Elt F)),
    StableHlo.ternary main_v216 main_v217 main_v215 main_v218 ((fun x i u => Host.scatterAdd scatter_S40000_S600000x1_S600000_n_0_0_1 x i u) : (⟨S40000, .f32⟩ : BufTy).Contents (Elt F) → (⟨S600000x1, .i32⟩ : BufTy).Contents (Elt F) → (⟨S600000, .f32⟩ : BufTy).Contents (Elt F) → (⟨S40000, .f32⟩ : BufTy).Contents (Elt F)),
    StableHlo.nullary main_cst_55 (constant S_ .f32 0x00000000#32),
    StableHlo.unary main_cst_55 main_v219 (broadcastInDim S40000 ![] bcast_S_S40000 : (⟨S_, .f32⟩ : BufTy).Contents (Elt F) → (⟨S40000, .f32⟩ : BufTy).Contents (Elt F)),
    StableHlo.binary main_v218 main_v219 main_v220 (cmpf .ogt : (⟨S40000, .f32⟩ : BufTy).Contents (Elt F) → (⟨S40000, .f32⟩ : BufTy).Contents (Elt F) → (⟨S40000, .i1⟩ : BufTy).Contents (Elt F)),
    StableHlo.nullary main_cst_56 (constant S_ .f32 0x00000000#32),
    StableHlo.unary main_cst_56 main_v221 (broadcastInDim S40000 ![] bcast_S_S40000 : (⟨S_, .f32⟩ : BufTy).Contents (Elt F) → (⟨S40000, .f32⟩ : BufTy).Contents (Elt F)),
    StableHlo.binary main_v218 main_v221 main_v222 (cmpf .ogt : (⟨S40000, .f32⟩ : BufTy).Contents (Elt F) → (⟨S40000, .f32⟩ : BufTy).Contents (Elt F) → (⟨S40000, .i1⟩ : BufTy).Contents (Elt F)),
    StableHlo.nullary main_cst_57 (constant S_ .f32 0x3F800000#32),
    StableHlo.TRef.unary (StableHlo.TRef.of (T := ⟨S_, .f32⟩) main_cst_57) (StableHlo.TRef.of (T := ⟨S_, .f32⟩) main_call11_v0) id,
    StableHlo.TRef.unary (StableHlo.TRef.of (T := ⟨S_, .f32⟩) main_call11_v0) (StableHlo.TRef.of (T := ⟨S40000, .f32⟩) main_call11_v1) (broadcastInDim S40000 ![] bcast_S_S40000),
    StableHlo.TRef.ternary (StableHlo.TRef.of (T := ⟨S40000, .i1⟩) main_v222) (StableHlo.TRef.of (T := ⟨S40000, .f32⟩) main_v218) (StableHlo.TRef.of (T := ⟨S40000, .f32⟩) main_call11_v1) (StableHlo.TRef.of (T := ⟨S40000, .f32⟩) main_v223) select,
    StableHlo.nullary main_cst_58 (constant S_ .f32 0x3F800000#32),
    StableHlo.unary main_cst_58 main_v224 (broadcastInDim S40000 ![] bcast_S_S40000 : (⟨S_, .f32⟩ : BufTy).Contents (Elt F) → (⟨S40000, .f32⟩ : BufTy).Contents (Elt F)),
    StableHlo.binary main_v224 main_v223 main_v225 (Host.divf : (⟨S40000, .f32⟩ : BufTy).Contents (Elt F) → (⟨S40000, .f32⟩ : BufTy).Contents (Elt F) → (⟨S40000, .f32⟩ : BufTy).Contents (Elt F)),
    StableHlo.nullary main_cst_59 (constant S_ .f32 0x00000000#32),
    StableHlo.TRef.unary (StableHlo.TRef.of (T := ⟨S_, .f32⟩) main_cst_59) (StableHlo.TRef.of (T := ⟨S_, .f32⟩) main_call12_v0) id,
    StableHlo.TRef.unary (StableHlo.TRef.of (T := ⟨S_, .f32⟩) main_call12_v0) (StableHlo.TRef.of (T := ⟨S40000, .f32⟩) main_call12_v1) (broadcastInDim S40000 ![] bcast_S_S40000),
    StableHlo.TRef.ternary (StableHlo.TRef.of (T := ⟨S40000, .i1⟩) main_v220) (StableHlo.TRef.of (T := ⟨S40000, .f32⟩) main_v225) (StableHlo.TRef.of (T := ⟨S40000, .f32⟩) main_call12_v1) (StableHlo.TRef.of (T := ⟨S40000, .f32⟩) main_v226) select,
    StableHlo.nullary main_cst_60 (constant S_ .f32 0x00000000#32),
    StableHlo.unary main_cst_60 main_v227 (broadcastInDim S30000 ![] bcast_S_S30000 : (⟨S_, .f32⟩ : BufTy).Contents (Elt F) → (⟨S30000, .f32⟩ : BufTy).Contents (Elt F)),
    StableHlo.unary main_v147 main_v228 (broadcastInDim S600000x1 ![0] bcast_S600000_S600000x1_0 : (⟨S600000, .i32⟩ : BufTy).Contents (Elt F) → (⟨S600000x1, .i32⟩ : BufTy).Contents (Elt F)),
    StableHlo.ternary main_v227 main_v228 main_v215 main_v229 ((fun x i u => Host.scatterAdd scatter_S30000_S600000x1_S600000_n_0_0_1 x i u) : (⟨S30000, .f32⟩ : BufTy).Contents (Elt F) → (⟨S600000x1, .i32⟩ : BufTy).Contents (Elt F) → (⟨S600000, .f32⟩ : BufTy).Contents (Elt F) → (⟨S30000, .f32⟩ : BufTy).Contents (Elt F)),
    StableHlo.nullary main_cst_61 (constant S_ .f32 0x00000000#32),
    StableHlo.unary main_cst_61 main_v230 (broadcastInDim S30000 ![] bcast_S_S30000 : (⟨S_, .f32⟩ : BufTy).Contents (Elt F) → (⟨S30000, .f32⟩ : BufTy).Contents (Elt F)),
    StableHlo.binary main_v229 main_v230 main_v231 (cmpf .ogt : (⟨S30000, .f32⟩ : BufTy).Contents (Elt F) → (⟨S30000, .f32⟩ : BufTy).Contents (Elt F) → (⟨S30000, .i1⟩ : BufTy).Contents (Elt F)),
    StableHlo.nullary main_cst_62 (constant S_ .f32 0x00000000#32),
    StableHlo.unary main_cst_62 main_v232 (broadcastInDim S30000 ![] bcast_S_S30000 : (⟨S_, .f32⟩ : BufTy).Contents (Elt F) → (⟨S30000, .f32⟩ : BufTy).Contents (Elt F)),
    StableHlo.binary main_v229 main_v232 main_v233 (cmpf .ogt : (⟨S30000, .f32⟩ : BufTy).Contents (Elt F) → (⟨S30000, .f32⟩ : BufTy).Contents (Elt F) → (⟨S30000, .i1⟩ : BufTy).Contents (Elt F)),
    StableHlo.nullary main_cst_63 (constant S_ .f32 0x3F800000#32) ]

abbrev ops13_W : List (Ref sig .tc) := [main_v214, main_cst_53, main_v215, main_cst_54, main_v216, main_v217, main_v218, main_cst_55, main_v219, main_v220, main_cst_56, main_v221, main_v222, main_cst_57, main_call11_v0, main_call11_v1, main_v223, main_cst_58, main_v224, main_v225, main_cst_59, main_call12_v0, main_call12_v1, main_v226, main_cst_60, main_v227, main_v228, main_v229, main_cst_61, main_v230, main_v231, main_cst_62, main_v232, main_v233, main_cst_63]
theorem ops13_plain : List.Forall₂ Plain (ops13 : List (HloOp τ sig (Elt F))) ops13_W := by repeat' constructor
theorem ops13_writes : (ops13 : List (HloOp τ sig (Elt F))).Forall fun op => op.writes ⊆ (ops13_W.map (Proc.devRef (τ := τ) .tc)).toFinset :=
  writes_of_plain ops13_plain

abbrev ops14 : List (HloOp τ sig (Elt F)) :=
  [ StableHlo.TRef.unary (StableHlo.TRef.of (T := ⟨S_, .f32⟩) main_cst_63) (StableHlo.TRef.of (T := ⟨S_, .f32⟩) main_call13_v0) id,
    StableHlo.TRef.unary (StableHlo.TRef.of (T := ⟨S_, .f32⟩) main_call13_v0) (StableHlo.TRef.of (T := ⟨S30000, .f32⟩) main_call13_v1) (broadcastInDim S30000 ![] bcast_S_S30000),
    StableHlo.TRef.ternary (StableHlo.TRef.of (T := ⟨S30000, .i1⟩) main_v233) (StableHlo.TRef.of (T := ⟨S30000, .f32⟩) main_v229) (StableHlo.TRef.of (T := ⟨S30000, .f32⟩) main_call13_v1) (StableHlo.TRef.of (T := ⟨S30000, .f32⟩) main_v234) select,
    StableHlo.nullary main_cst_64 (constant S_ .f32 0x3F800000#32),
    StableHlo.unary main_cst_64 main_v235 (broadcastInDim S30000 ![] bcast_S_S30000 : (⟨S_, .f32⟩ : BufTy).Contents (Elt F) → (⟨S30000, .f32⟩ : BufTy).Contents (Elt F)),
    StableHlo.binary main_v235 main_v234 main_v236 (Host.divf : (⟨S30000, .f32⟩ : BufTy).Contents (Elt F) → (⟨S30000, .f32⟩ : BufTy).Contents (Elt F) → (⟨S30000, .f32⟩ : BufTy).Contents (Elt F)),
    StableHlo.nullary main_cst_65 (constant S_ .f32 0x00000000#32),
    StableHlo.TRef.unary (StableHlo.TRef.of (T := ⟨S_, .f32⟩) main_cst_65) (StableHlo.TRef.of (T := ⟨S_, .f32⟩) main_call14_v0) id,
    StableHlo.TRef.unary (StableHlo.TRef.of (T := ⟨S_, .f32⟩) main_call14_v0) (StableHlo.TRef.of (T := ⟨S30000, .f32⟩) main_call14_v1) (broadcastInDim S30000 ![] bcast_S_S30000),
    StableHlo.TRef.ternary (StableHlo.TRef.of (T := ⟨S30000, .i1⟩) main_v231) (StableHlo.TRef.of (T := ⟨S30000, .f32⟩) main_v236) (StableHlo.TRef.of (T := ⟨S30000, .f32⟩) main_call14_v1) (StableHlo.TRef.of (T := ⟨S30000, .f32⟩) main_v237) select,
    StableHlo.nullary main_c_66 (constantI S_ 32 0#32),
    StableHlo.unary main_c_66 main_v238 (broadcastInDim S600000 ![] bcast_S_S600000 : (⟨S_, .i32⟩ : BufTy).Contents (Elt F) → (⟨S600000, .i32⟩ : BufTy).Contents (Elt F)),
    StableHlo.binary main_v145 main_v238 main_v239 (cmpi .slt : (⟨S600000, .i32⟩ : BufTy).Contents (Elt F) → (⟨S600000, .i32⟩ : BufTy).Contents (Elt F) → (⟨S600000, .i1⟩ : BufTy).Contents (Elt F)),
    StableHlo.nullary main_c_67 (constantI S_ 32 40000#32),
    StableHlo.unary main_c_67 main_v240 (broadcastInDim S600000 ![] bcast_S_S600000 : (⟨S_, .i32⟩ : BufTy).Contents (Elt F) → (⟨S600000, .i32⟩ : BufTy).Contents (Elt F)),
    StableHlo.binary main_v145 main_v240 main_v241 (addi : (⟨S600000, .i32⟩ : BufTy).Contents (Elt F) → (⟨S600000, .i32⟩ : BufTy).Contents (Elt F) → (⟨S600000, .i32⟩ : BufTy).Contents (Elt F)),
    StableHlo.ternary main_v239 main_v241 main_v145 main_v242 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v242 main_v243 (broadcastInDim S600000x1 ![0] bcast_S600000_S600000x1_0 : (⟨S600000, .i32⟩ : BufTy).Contents (Elt F) → (⟨S600000x1, .i32⟩ : BufTy).Contents (Elt F)),
    StableHlo.binary main_v214 main_v243 main_v244 ((fun x i => Host.gather gather_S40000x128_S600000x1_S600000x128_1_0_n_n_0_1_1128 x i) : (⟨S40000x128, .f32⟩ : BufTy).Contents (Elt F) → (⟨S600000x1, .i32⟩ : BufTy).Contents (Elt F) → (⟨S600000x128, .f32⟩ : BufTy).Contents (Elt F)),
    StableHlo.nullary main_cst_68 (constant S_ .f32 0x00000000#32),
    StableHlo.unary main_cst_68 main_v245 (broadcastInDim S30000x128 ![] bcast_S_S30000x128 : (⟨S_, .f32⟩ : BufTy).Contents (Elt F) → (⟨S30000x128, .f32⟩ : BufTy).Contents (Elt F)),
    StableHlo.unary main_v147 main_v246 (broadcastInDim S600000x1 ![0] bcast_S600000_S600000x1_0 : (⟨S600000, .i32⟩ : BufTy).Contents (Elt F) → (⟨S600000x1, .i32⟩ : BufTy).Contents (Elt F)),
    StableHlo.ternary main_v245 main_v246 main_v244 main_v247 ((fun x i u => Host.scatterAdd scatter_S30000x128_S600000x1_S600000x128_1_0_0_1 x i u) : (⟨S30000x128, .f32⟩ : BufTy).Contents (Elt F) → (⟨S600000x1, .i32⟩ : BufTy).Contents (Elt F) → (⟨S600000x128, .f32⟩ : BufTy).Contents (Elt F) → (⟨S30000x128, .f32⟩ : BufTy).Contents (Elt F)),
    StableHlo.unary main_v237 main_v248 (broadcastInDim S30000x1 ![0] bcast_S30000_S30000x1_0 : (⟨S30000, .f32⟩ : BufTy).Contents (Elt F) → (⟨S30000x1, .f32⟩ : BufTy).Contents (Elt F)),
    StableHlo.unary main_v248 main_v249 (broadcastInDim S30000x128 ![0, 1] bcast_S30000x1_S30000x128_0_1 : (⟨S30000x1, .f32⟩ : BufTy).Contents (Elt F) → (⟨S30000x128, .f32⟩ : BufTy).Contents (Elt F)),
    StableHlo.binary main_v247 main_v249 main_v250 (mulf : (⟨S30000x128, .f32⟩ : BufTy).Contents (Elt F) → (⟨S30000x128, .f32⟩ : BufTy).Contents (Elt F) → (⟨S30000x128, .f32⟩ : BufTy).Contents (Elt F)),
    StableHlo.nullary main_c_69 (constantI S_ 32 0#32),
    StableHlo.unary main_c_69 main_v251 (broadcastInDim S600000 ![] bcast_S_S600000 : (⟨S_, .i32⟩ : BufTy).Contents (Elt F) → (⟨S600000, .i32⟩ : BufTy).Contents (Elt F)),
    StableHlo.binary main_v147 main_v251 main_v252 (cmpi .slt : (⟨S600000, .i32⟩ : BufTy).Contents (Elt F) → (⟨S600000, .i32⟩ : BufTy).Contents (Elt F) → (⟨S600000, .i1⟩ : BufTy).Contents (Elt F)),
    StableHlo.nullary main_c_70 (constantI S_ 32 30000#32),
    StableHlo.unary main_c_70 main_v253 (broadcastInDim S600000 ![] bcast_S_S600000 : (⟨S_, .i32⟩ : BufTy).Contents (Elt F) → (⟨S600000, .i32⟩ : BufTy).Contents (Elt F)),
    StableHlo.binary main_v147 main_v253 main_v254 (addi : (⟨S600000, .i32⟩ : BufTy).Contents (Elt F) → (⟨S600000, .i32⟩ : BufTy).Contents (Elt F) → (⟨S600000, .i32⟩ : BufTy).Contents (Elt F)),
    StableHlo.ternary main_v252 main_v254 main_v147 main_v255 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v255 main_v256 (broadcastInDim S600000x1 ![0] bcast_S600000_S600000x1_0 : (⟨S600000, .i32⟩ : BufTy).Contents (Elt F) → (⟨S600000x1, .i32⟩ : BufTy).Contents (Elt F)),
    StableHlo.binary main_v250 main_v256 main_v257 ((fun x i => Host.gather gather_S30000x128_S600000x1_S600000x128_1_0_n_n_0_1_1128 x i) : (⟨S30000x128, .f32⟩ : BufTy).Contents (Elt F) → (⟨S600000x1, .i32⟩ : BufTy).Contents (Elt F) → (⟨S600000x128, .f32⟩ : BufTy).Contents (Elt F)) ]

abbrev ops14_W : List (Ref sig .tc) := [main_call13_v0, main_call13_v1, main_v234, main_cst_64, main_v235, main_v236, main_cst_65, main_call14_v0, main_call14_v1, main_v237, main_c_66, main_v238, main_v239, main_c_67, main_v240, main_v241, main_v242, main_v243, main_v244, main_cst_68, main_v245, main_v246, main_v247, main_v248, main_v249, main_v250, main_c_69, main_v251, main_v252, main_c_70, main_v253, main_v254, main_v255, main_v256, main_v257]
theorem ops14_plain : List.Forall₂ Plain (ops14 : List (HloOp τ sig (Elt F))) ops14_W := by repeat' constructor
theorem ops14_writes : (ops14 : List (HloOp τ sig (Elt F))).Forall fun op => op.writes ⊆ (ops14_W.map (Proc.devRef (τ := τ) .tc)).toFinset :=
  writes_of_plain ops14_plain

abbrev ops15 : List (HloOp τ sig (Elt F)) :=
  [ StableHlo.nullary main_cst_71 (constant S_ .f32 0x00000000#32),
    StableHlo.unary main_cst_71 main_v258 (broadcastInDim S40000x128 ![] bcast_S_S40000x128 : (⟨S_, .f32⟩ : BufTy).Contents (Elt F) → (⟨S40000x128, .f32⟩ : BufTy).Contents (Elt F)),
    StableHlo.unary main_v145 main_v259 (broadcastInDim S600000x1 ![0] bcast_S600000_S600000x1_0 : (⟨S600000, .i32⟩ : BufTy).Contents (Elt F) → (⟨S600000x1, .i32⟩ : BufTy).Contents (Elt F)),
    StableHlo.ternary main_v258 main_v259 main_v257 main_v260 ((fun x i u => Host.scatterAdd scatter_S40000x128_S600000x1_S600000x128_1_0_0_1 x i u) : (⟨S40000x128, .f32⟩ : BufTy).Contents (Elt F) → (⟨S600000x1, .i32⟩ : BufTy).Contents (Elt F) → (⟨S600000x128, .f32⟩ : BufTy).Contents (Elt F) → (⟨S40000x128, .f32⟩ : BufTy).Contents (Elt F)),
    StableHlo.unary main_v226 main_v261 (broadcastInDim S40000x1 ![0] bcast_S40000_S40000x1_0 : (⟨S40000, .f32⟩ : BufTy).Contents (Elt F) → (⟨S40000x1, .f32⟩ : BufTy).Contents (Elt F)),
    StableHlo.unary main_v261 main_v262 (broadcastInDim S40000x128 ![0, 1] bcast_S40000x1_S40000x128_0_1 : (⟨S40000x1, .f32⟩ : BufTy).Contents (Elt F) → (⟨S40000x128, .f32⟩ : BufTy).Contents (Elt F)),
    StableHlo.binary main_v260 main_v262 main_v263 (mulf : (⟨S40000x128, .f32⟩ : BufTy).Contents (Elt F) → (⟨S40000x128, .f32⟩ : BufTy).Contents (Elt F) → (⟨S40000x128, .f32⟩ : BufTy).Contents (Elt F)),
    StableHlo.unary main_v213 main_v264 (broadcastInDim S1x128 ![1] bcast_S128_S1x128_1 : (⟨S128, .f32⟩ : BufTy).Contents (Elt F) → (⟨S1x128, .f32⟩ : BufTy).Contents (Elt F)),
    StableHlo.unary main_v264 main_v265 (broadcastInDim S40000x128 ![0, 1] bcast_S1x128_S40000x128_0_1 : (⟨S1x128, .f32⟩ : BufTy).Contents (Elt F) → (⟨S40000x128, .f32⟩ : BufTy).Contents (Elt F)),
    StableHlo.binary main_v263 main_v265 main_v266 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call15_cst) (constant S_ .f32 0x00000000#32),
    StableHlo.TRef.unary (StableHlo.TRef.of (T := ⟨S_, .f32⟩) main_call15_cst) (StableHlo.TRef.of (T := ⟨S40000x128, .f32⟩) main_call15_v0) (broadcastInDim S40000x128 ![] bcast_S_S40000x128),
    StableHlo.TRef.binary (StableHlo.TRef.of (T := ⟨S40000x128, .f32⟩) main_v266) (StableHlo.TRef.of (T := ⟨S40000x128, .f32⟩) main_call15_v0) (StableHlo.TRef.of (T := ⟨S40000x128, .i1⟩) main_call15_v1) (cmpf .oge),
    StableHlo.TRef.nullary (StableHlo.TRef.of (T := ⟨S_, .f32⟩) main_call15_cst_0) (constant S_ .f32 0x3C23D70A#32),
    StableHlo.TRef.unary (StableHlo.TRef.of (T := ⟨S_, .f32⟩) main_call15_cst_0) (StableHlo.TRef.of (T := ⟨S40000x128, .f32⟩) main_call15_v2) (broadcastInDim S40000x128 ![] bcast_S_S40000x128),
    StableHlo.TRef.binary (StableHlo.TRef.of (T := ⟨S40000x128, .f32⟩) main_call15_v2) (StableHlo.TRef.of (T := ⟨S40000x128, .f32⟩) main_v266) (StableHlo.TRef.of (T := ⟨S40000x128, .f32⟩) main_call15_v3) mulf,
    StableHlo.TRef.ternary (StableHlo.TRef.of (T := ⟨S40000x128, .i1⟩) main_call15_v1) (StableHlo.TRef.of (T := ⟨S40000x128, .f32⟩) main_v266) (StableHlo.TRef.of (T := ⟨S40000x128, .f32⟩) main_call15_v3) (StableHlo.TRef.of (T := ⟨S40000x128, .f32⟩) main_v267) select,
    StableHlo.binary main_v267 main_v206 main_v268 (addf : (⟨S40000x128, .f32⟩ : BufTy).Contents (Elt F) → (⟨S40000x128, .f32⟩ : BufTy).Contents (Elt F) → (⟨S40000x128, .f32⟩ : BufTy).Contents (Elt F)),
    StableHlo.nullary main_cst_72 (constant S_ .f32 0x3EAAAAAB#32),
    StableHlo.unary main_cst_72 main_v269 (broadcastInDim S40000x128 ![] bcast_S_S40000x128 : (⟨S_, .f32⟩ : BufTy).Contents (Elt F) → (⟨S40000x128, .f32⟩ : BufTy).Contents (Elt F)),
    StableHlo.binary main_v268 main_v269 main_v270 (mulf : (⟨S40000x128, .f32⟩ : BufTy).Contents (Elt F) → (⟨S40000x128, .f32⟩ : BufTy).Contents (Elt F) → (⟨S40000x128, .f32⟩ : BufTy).Contents (Elt F)),
    StableHlo.binary main_v209 main_v270 main_v271 (addf : (⟨S40000x128, .f32⟩ : BufTy).Contents (Elt F) → (⟨S40000x128, .f32⟩ : BufTy).Contents (Elt F) → (⟨S40000x128, .f32⟩ : BufTy).Contents (Elt F)),
    StableHlo.unary main_arg3 main_v272 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v272 main_v273 rfl shapeCasts_S1x600000_S600000,
    StableHlo.unary main_arg3 main_v274 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v274 main_v275 rfl shapeCasts_S1x600000_S600000,
    StableHlo.nullary main_cst_73 (constant S_ .f32 0x3F800000#32),
    StableHlo.unary main_cst_73 main_v276 (broadcastInDim S600000 ![] bcast_S_S600000 : (⟨S_, .f32⟩ : BufTy).Contents (Elt F) → (⟨S600000, .f32⟩ : BufTy).Contents (Elt F)),
    StableHlo.nullary main_cst_74 (constant S_ .f32 0x00000000#32),
    StableHlo.unary main_cst_74 main_v277 (broadcastInDim S30000 ![] bcast_S_S30000 : (⟨S_, .f32⟩ : BufTy).Contents (Elt F) → (⟨S30000, .f32⟩ : BufTy).Contents (Elt F)),
    StableHlo.unary main_v275 main_v278 (broadcastInDim S600000x1 ![0] bcast_S600000_S600000x1_0 : (⟨S600000, .i32⟩ : BufTy).Contents (Elt F) → (⟨S600000x1, .i32⟩ : BufTy).Contents (Elt F)),
    StableHlo.ternary main_v277 main_v278 main_v276 main_v279 ((fun x i u => Host.scatterAdd scatter_S30000_S600000x1_S600000_n_0_0_1 x i u) : (⟨S30000, .f32⟩ : BufTy).Contents (Elt F) → (⟨S600000x1, .i32⟩ : BufTy).Contents (Elt F) → (⟨S600000, .f32⟩ : BufTy).Contents (Elt F) → (⟨S30000, .f32⟩ : BufTy).Contents (Elt F)),
    StableHlo.nullary main_c_75 (constantI S_ 32 0#32),
    StableHlo.unary main_c_75 main_v280 (broadcastInDim S600000 ![] bcast_S_S600000 : (⟨S_, .i32⟩ : BufTy).Contents (Elt F) → (⟨S600000, .i32⟩ : BufTy).Contents (Elt F)),
    StableHlo.binary main_v273 main_v280 main_v281 (cmpi .slt : (⟨S600000, .i32⟩ : BufTy).Contents (Elt F) → (⟨S600000, .i32⟩ : BufTy).Contents (Elt F) → (⟨S600000, .i1⟩ : BufTy).Contents (Elt F)) ]

abbrev ops15_W : List (Ref sig .tc) := [main_cst_71, main_v258, main_v259, main_v260, main_v261, main_v262, main_v263, main_v264, main_v265, main_v266, main_call15_cst, main_call15_v0, main_call15_v1, main_call15_cst_0, main_call15_v2, main_call15_v3, main_v267, main_v268, main_cst_72, main_v269, main_v270, main_v271, main_v272, main_v273, main_v274, main_v275, main_cst_73, main_v276, main_cst_74, main_v277, main_v278, main_v279, main_c_75, main_v280, main_v281]
theorem ops15_plain : List.Forall₂ Plain (ops15 : List (HloOp τ sig (Elt F))) ops15_W := by repeat' constructor
theorem ops15_writes : (ops15 : List (HloOp τ sig (Elt F))).Forall fun op => op.writes ⊆ (ops15_W.map (Proc.devRef (τ := τ) .tc)).toFinset :=
  writes_of_plain ops15_plain

abbrev ops16 : List (HloOp τ sig (Elt F)) :=
  [ StableHlo.nullary main_c_76 (constantI S_ 32 40000#32),
    StableHlo.unary main_c_76 main_v282 (broadcastInDim S600000 ![] bcast_S_S600000 : (⟨S_, .i32⟩ : BufTy).Contents (Elt F) → (⟨S600000, .i32⟩ : BufTy).Contents (Elt F)),
    StableHlo.binary main_v273 main_v282 main_v283 (addi : (⟨S600000, .i32⟩ : BufTy).Contents (Elt F) → (⟨S600000, .i32⟩ : BufTy).Contents (Elt F) → (⟨S600000, .i32⟩ : BufTy).Contents (Elt F)),
    StableHlo.ternary main_v281 main_v283 main_v273 main_v284 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v284 main_v285 (broadcastInDim S600000x1 ![0] bcast_S600000_S600000x1_0 : (⟨S600000, .i32⟩ : BufTy).Contents (Elt F) → (⟨S600000x1, .i32⟩ : BufTy).Contents (Elt F)),
    StableHlo.binary main_v271 main_v285 main_v286 ((fun x i => Host.gather gather_S40000x128_S600000x1_S600000x128_1_0_n_n_0_1_1128 x i) : (⟨S40000x128, .f32⟩ : BufTy).Contents (Elt F) → (⟨S600000x1, .i32⟩ : BufTy).Contents (Elt F) → (⟨S600000x128, .f32⟩ : BufTy).Contents (Elt F)),
    StableHlo.nullary main_cst_77 (constant S_ .f32 0x00000000#32),
    StableHlo.unary main_cst_77 main_v287 (broadcastInDim S30000x128 ![] bcast_S_S30000x128 : (⟨S_, .f32⟩ : BufTy).Contents (Elt F) → (⟨S30000x128, .f32⟩ : BufTy).Contents (Elt F)),
    StableHlo.unary main_v275 main_v288 (broadcastInDim S600000x1 ![0] bcast_S600000_S600000x1_0 : (⟨S600000, .i32⟩ : BufTy).Contents (Elt F) → (⟨S600000x1, .i32⟩ : BufTy).Contents (Elt F)),
    StableHlo.ternary main_v287 main_v288 main_v286 main_v289 ((fun x i u => Host.scatterAdd scatter_S30000x128_S600000x1_S600000x128_1_0_0_1 x i u) : (⟨S30000x128, .f32⟩ : BufTy).Contents (Elt F) → (⟨S600000x1, .i32⟩ : BufTy).Contents (Elt F) → (⟨S600000x128, .f32⟩ : BufTy).Contents (Elt F) → (⟨S30000x128, .f32⟩ : BufTy).Contents (Elt F)),
    StableHlo.nullary main_cst_78 (constant S_ .f32 0x00000000#32),
    StableHlo.unary main_cst_78 main_v290 (broadcastInDim S30000 ![] bcast_S_S30000 : (⟨S_, .f32⟩ : BufTy).Contents (Elt F) → (⟨S30000, .f32⟩ : BufTy).Contents (Elt F)),
    StableHlo.binary main_v279 main_v290 main_v291 (cmpf .ogt : (⟨S30000, .f32⟩ : BufTy).Contents (Elt F) → (⟨S30000, .f32⟩ : BufTy).Contents (Elt F) → (⟨S30000, .i1⟩ : BufTy).Contents (Elt F)),
    StableHlo.nullary main_cst_79 (constant S_ .f32 0x00000000#32),
    StableHlo.unary main_cst_79 main_v292 (broadcastInDim S30000 ![] bcast_S_S30000 : (⟨S_, .f32⟩ : BufTy).Contents (Elt F) → (⟨S30000, .f32⟩ : BufTy).Contents (Elt F)),
    StableHlo.binary main_v279 main_v292 main_v293 (cmpf .ogt : (⟨S30000, .f32⟩ : BufTy).Contents (Elt F) → (⟨S30000, .f32⟩ : BufTy).Contents (Elt F) → (⟨S30000, .i1⟩ : BufTy).Contents (Elt F)),
    StableHlo.nullary main_cst_80 (constant S_ .f32 0x3F800000#32),
    StableHlo.TRef.unary (StableHlo.TRef.of (T := ⟨S_, .f32⟩) main_cst_80) (StableHlo.TRef.of (T := ⟨S_, .f32⟩) main_call16_v0) id,
    StableHlo.TRef.unary (StableHlo.TRef.of (T := ⟨S_, .f32⟩) main_call16_v0) (StableHlo.TRef.of (T := ⟨S30000, .f32⟩) main_call16_v1) (broadcastInDim S30000 ![] bcast_S_S30000),
    StableHlo.TRef.ternary (StableHlo.TRef.of (T := ⟨S30000, .i1⟩) main_v293) (StableHlo.TRef.of (T := ⟨S30000, .f32⟩) main_v279) (StableHlo.TRef.of (T := ⟨S30000, .f32⟩) main_call16_v1) (StableHlo.TRef.of (T := ⟨S30000, .f32⟩) main_v294) select,
    StableHlo.nullary main_cst_81 (constant S_ .f32 0x3F800000#32),
    StableHlo.unary main_cst_81 main_v295 (broadcastInDim S30000 ![] bcast_S_S30000 : (⟨S_, .f32⟩ : BufTy).Contents (Elt F) → (⟨S30000, .f32⟩ : BufTy).Contents (Elt F)),
    StableHlo.binary main_v295 main_v294 main_v296 (Host.divf : (⟨S30000, .f32⟩ : BufTy).Contents (Elt F) → (⟨S30000, .f32⟩ : BufTy).Contents (Elt F) → (⟨S30000, .f32⟩ : BufTy).Contents (Elt F)),
    StableHlo.nullary main_cst_82 (constant S_ .f32 0x00000000#32),
    StableHlo.TRef.unary (StableHlo.TRef.of (T := ⟨S_, .f32⟩) main_cst_82) (StableHlo.TRef.of (T := ⟨S_, .f32⟩) main_call17_v0) id,
    StableHlo.TRef.unary (StableHlo.TRef.of (T := ⟨S_, .f32⟩) main_call17_v0) (StableHlo.TRef.of (T := ⟨S30000, .f32⟩) main_call17_v1) (broadcastInDim S30000 ![] bcast_S_S30000),
    StableHlo.TRef.ternary (StableHlo.TRef.of (T := ⟨S30000, .i1⟩) main_v291) (StableHlo.TRef.of (T := ⟨S30000, .f32⟩) main_v296) (StableHlo.TRef.of (T := ⟨S30000, .f32⟩) main_call17_v1) (StableHlo.TRef.of (T := ⟨S30000, .f32⟩) main_v297) select,
    StableHlo.unary main_v297 main_v298 (broadcastInDim S30000x1 ![0] bcast_S30000_S30000x1_0 : (⟨S30000, .f32⟩ : BufTy).Contents (Elt F) → (⟨S30000x1, .f32⟩ : BufTy).Contents (Elt F)),
    StableHlo.unary main_v298 main_v299 (broadcastInDim S30000x128 ![0, 1] bcast_S30000x1_S30000x128_0_1 : (⟨S30000x1, .f32⟩ : BufTy).Contents (Elt F) → (⟨S30000x128, .f32⟩ : BufTy).Contents (Elt F)),
    StableHlo.binary main_v289 main_v299 main_v300 (mulf : (⟨S30000x128, .f32⟩ : BufTy).Contents (Elt F) → (⟨S30000x128, .f32⟩ : BufTy).Contents (Elt F) → (⟨S30000x128, .f32⟩ : BufTy).Contents (Elt F)),
    StableHlo.unary main_arg3 main_v301 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v301 main_v302 rfl shapeCasts_S1x600000_S600000,
    StableHlo.unary main_arg3 main_v303 ((extractStridedSlice S1x600000 ![1, 0] · slices_S2x600000_S1x600000_1_0) : (⟨S2x600000, .i32⟩ : BufTy).Contents (Elt F) → (⟨S1x600000, .i32⟩ : BufTy).Contents (Elt F)) ]

abbrev ops16_W : List (Ref sig .tc) := [main_c_76, main_v282, main_v283, main_v284, main_v285, main_v286, main_cst_77, main_v287, main_v288, main_v289, main_cst_78, main_v290, main_v291, main_cst_79, main_v292, main_v293, main_cst_80, main_call16_v0, main_call16_v1, main_v294, main_cst_81, main_v295, main_v296, main_cst_82, main_call17_v0, main_call17_v1, main_v297, main_v298, main_v299, main_v300, main_v301, main_v302, main_v303]
theorem ops16_plain : List.Forall₂ Plain (ops16 : List (HloOp τ sig (Elt F))) ops16_W := by repeat' constructor
theorem ops16_writes : (ops16 : List (HloOp τ sig (Elt F))).Forall fun op => op.writes ⊆ (ops16_W.map (Proc.devRef (τ := τ) .tc)).toFinset :=
  writes_of_plain ops16_plain

abbrev ops17 : List (HloOp τ sig (Elt F)) :=
  [ StableHlo.reshape main_v303 main_v304 rfl shapeCasts_S1x600000_S600000,
    StableHlo.nullary main_cst_83 (constant S_ .f32 0x3F800000#32),
    StableHlo.unary main_cst_83 main_v305 (broadcastInDim S600000 ![] bcast_S_S600000 : (⟨S_, .f32⟩ : BufTy).Contents (Elt F) → (⟨S600000, .f32⟩ : BufTy).Contents (Elt F)),
    StableHlo.nullary main_cst_84 (constant S_ .f32 0x00000000#32),
    StableHlo.unary main_cst_84 main_v306 (broadcastInDim S30000 ![] bcast_S_S30000 : (⟨S_, .f32⟩ : BufTy).Contents (Elt F) → (⟨S30000, .f32⟩ : BufTy).Contents (Elt F)),
    StableHlo.unary main_v304 main_v307 (broadcastInDim S600000x1 ![0] bcast_S600000_S600000x1_0 : (⟨S600000, .i32⟩ : BufTy).Contents (Elt F) → (⟨S600000x1, .i32⟩ : BufTy).Contents (Elt F)),
    StableHlo.ternary main_v306 main_v307 main_v305 main_v308 ((fun x i u => Host.scatterAdd scatter_S30000_S600000x1_S600000_n_0_0_1 x i u) : (⟨S30000, .f32⟩ : BufTy).Contents (Elt F) → (⟨S600000x1, .i32⟩ : BufTy).Contents (Elt F) → (⟨S600000, .f32⟩ : BufTy).Contents (Elt F) → (⟨S30000, .f32⟩ : BufTy).Contents (Elt F)),
    StableHlo.nullary main_c_85 (constantI S_ 32 0#32),
    StableHlo.unary main_c_85 main_v309 (broadcastInDim S600000 ![] bcast_S_S600000 : (⟨S_, .i32⟩ : BufTy).Contents (Elt F) → (⟨S600000, .i32⟩ : BufTy).Contents (Elt F)),
    StableHlo.binary main_v302 main_v309 main_v310 (cmpi .slt : (⟨S600000, .i32⟩ : BufTy).Contents (Elt F) → (⟨S600000, .i32⟩ : BufTy).Contents (Elt F) → (⟨S600000, .i1⟩ : BufTy).Contents (Elt F)),
    StableHlo.nullary main_c_86 (constantI S_ 32 40000#32),
    StableHlo.unary main_c_86 main_v311 (broadcastInDim S600000 ![] bcast_S_S600000 : (⟨S_, .i32⟩ : BufTy).Contents (Elt F) → (⟨S600000, .i32⟩ : BufTy).Contents (Elt F)),
    StableHlo.binary main_v302 main_v311 main_v312 (addi : (⟨S600000, .i32⟩ : BufTy).Contents (Elt F) → (⟨S600000, .i32⟩ : BufTy).Contents (Elt F) → (⟨S600000, .i32⟩ : BufTy).Contents (Elt F)),
    StableHlo.ternary main_v310 main_v312 main_v302 main_v313 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v313 main_v314 (broadcastInDim S600000x1 ![0] bcast_S600000_S600000x1_0 : (⟨S600000, .i32⟩ : BufTy).Contents (Elt F) → (⟨S600000x1, .i32⟩ : BufTy).Contents (Elt F)),
    StableHlo.binary main_v143 main_v314 main_v315 ((fun x i => Host.gather gather_S40000x128_S600000x1_S600000x128_1_0_n_n_0_1_1128 x i) : (⟨S40000x128, .f32⟩ : BufTy).Contents (Elt F) → (⟨S600000x1, .i32⟩ : BufTy).Contents (Elt F) → (⟨S600000x128, .f32⟩ : BufTy).Contents (Elt F)),
    StableHlo.nullary main_cst_87 (constant S_ .f32 0x00000000#32),
    StableHlo.unary main_cst_87 main_v316 (broadcastInDim S30000x128 ![] bcast_S_S30000x128 : (⟨S_, .f32⟩ : BufTy).Contents (Elt F) → (⟨S30000x128, .f32⟩ : BufTy).Contents (Elt F)),
    StableHlo.unary main_v304 main_v317 (broadcastInDim S600000x1 ![0] bcast_S600000_S600000x1_0 : (⟨S600000, .i32⟩ : BufTy).Contents (Elt F) → (⟨S600000x1, .i32⟩ : BufTy).Contents (Elt F)),
    StableHlo.ternary main_v316 main_v317 main_v315 main_v318 ((fun x i u => Host.scatterAdd scatter_S30000x128_S600000x1_S600000x128_1_0_0_1 x i u) : (⟨S30000x128, .f32⟩ : BufTy).Contents (Elt F) → (⟨S600000x1, .i32⟩ : BufTy).Contents (Elt F) → (⟨S600000x128, .f32⟩ : BufTy).Contents (Elt F) → (⟨S30000x128, .f32⟩ : BufTy).Contents (Elt F)),
    StableHlo.nullary main_cst_88 (constant S_ .f32 0x00000000#32),
    StableHlo.unary main_cst_88 main_v319 (broadcastInDim S30000 ![] bcast_S_S30000 : (⟨S_, .f32⟩ : BufTy).Contents (Elt F) → (⟨S30000, .f32⟩ : BufTy).Contents (Elt F)),
    StableHlo.binary main_v308 main_v319 main_v320 (cmpf .ogt : (⟨S30000, .f32⟩ : BufTy).Contents (Elt F) → (⟨S30000, .f32⟩ : BufTy).Contents (Elt F) → (⟨S30000, .i1⟩ : BufTy).Contents (Elt F)),
    StableHlo.nullary main_cst_89 (constant S_ .f32 0x00000000#32),
    StableHlo.unary main_cst_89 main_v321 (broadcastInDim S30000 ![] bcast_S_S30000 : (⟨S_, .f32⟩ : BufTy).Contents (Elt F) → (⟨S30000, .f32⟩ : BufTy).Contents (Elt F)),
    StableHlo.binary main_v308 main_v321 main_v322 (cmpf .ogt : (⟨S30000, .f32⟩ : BufTy).Contents (Elt F) → (⟨S30000, .f32⟩ : BufTy).Contents (Elt F) → (⟨S30000, .i1⟩ : BufTy).Contents (Elt F)),
    StableHlo.nullary main_cst_90 (constant S_ .f32 0x3F800000#32),
    StableHlo.TRef.unary (StableHlo.TRef.of (T := ⟨S_, .f32⟩) main_cst_90) (StableHlo.TRef.of (T := ⟨S_, .f32⟩) main_call18_v0) id,
    StableHlo.TRef.unary (StableHlo.TRef.of (T := ⟨S_, .f32⟩) main_call18_v0) (StableHlo.TRef.of (T := ⟨S30000, .f32⟩) main_call18_v1) (broadcastInDim S30000 ![] bcast_S_S30000),
    StableHlo.TRef.ternary (StableHlo.TRef.of (T := ⟨S30000, .i1⟩) main_v322) (StableHlo.TRef.of (T := ⟨S30000, .f32⟩) main_v308) (StableHlo.TRef.of (T := ⟨S30000, .f32⟩) main_call18_v1) (StableHlo.TRef.of (T := ⟨S30000, .f32⟩) main_v323) select,
    StableHlo.nullary main_cst_91 (constant S_ .f32 0x3F800000#32),
    StableHlo.unary main_cst_91 main_v324 (broadcastInDim S30000 ![] bcast_S_S30000 : (⟨S_, .f32⟩ : BufTy).Contents (Elt F) → (⟨S30000, .f32⟩ : BufTy).Contents (Elt F)),
    StableHlo.binary main_v324 main_v323 main_v325 (Host.divf : (⟨S30000, .f32⟩ : BufTy).Contents (Elt F) → (⟨S30000, .f32⟩ : BufTy).Contents (Elt F) → (⟨S30000, .f32⟩ : BufTy).Contents (Elt F)) ]

abbrev ops17_W : List (Ref sig .tc) := [main_v304, main_cst_83, main_v305, main_cst_84, main_v306, main_v307, main_v308, main_c_85, main_v309, main_v310, main_c_86, main_v311, main_v312, main_v313, main_v314, main_v315, main_cst_87, main_v316, main_v317, main_v318, main_cst_88, main_v319, main_v320, main_cst_89, main_v321, main_v322, main_cst_90, main_call18_v0, main_call18_v1, main_v323, main_cst_91, main_v324, main_v325]
theorem ops17_plain : List.Forall₂ Plain (ops17 : List (HloOp τ sig (Elt F))) ops17_W := by repeat' constructor
theorem ops17_writes : (ops17 : List (HloOp τ sig (Elt F))).Forall fun op => op.writes ⊆ (ops17_W.map (Proc.devRef (τ := τ) .tc)).toFinset :=
  writes_of_plain ops17_plain

end Cert.ReferenceIdeal.Hand

end
-- ==== Proof.RefRunOps3.lean ====
import proofs.«131905_j73031623901536_2_alg».proof.Proof.Gen.ReferenceIdeal
import proofs.«131905_j73031623901536_2_alg».proof.Proof.RefPlain

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops18 : List (HloOp τ sig (Elt F)) :=
  [ StableHlo.nullary main_cst_92 (constant S_ .f32 0x00000000#32),
    StableHlo.TRef.unary (StableHlo.TRef.of (T := ⟨S_, .f32⟩) main_cst_92) (StableHlo.TRef.of (T := ⟨S_, .f32⟩) main_call19_v0) id,
    StableHlo.TRef.unary (StableHlo.TRef.of (T := ⟨S_, .f32⟩) main_call19_v0) (StableHlo.TRef.of (T := ⟨S30000, .f32⟩) main_call19_v1) (broadcastInDim S30000 ![] bcast_S_S30000),
    StableHlo.TRef.ternary (StableHlo.TRef.of (T := ⟨S30000, .i1⟩) main_v320) (StableHlo.TRef.of (T := ⟨S30000, .f32⟩) main_v325) (StableHlo.TRef.of (T := ⟨S30000, .f32⟩) main_call19_v1) (StableHlo.TRef.of (T := ⟨S30000, .f32⟩) main_v326) select,
    StableHlo.unary main_v326 main_v327 (broadcastInDim S30000x1 ![0] bcast_S30000_S30000x1_0 : (⟨S30000, .f32⟩ : BufTy).Contents (Elt F) → (⟨S30000x1, .f32⟩ : BufTy).Contents (Elt F)),
    StableHlo.unary main_v327 main_v328 (broadcastInDim S30000x128 ![0, 1] bcast_S30000x1_S30000x128_0_1 : (⟨S30000x1, .f32⟩ : BufTy).Contents (Elt F) → (⟨S30000x128, .f32⟩ : BufTy).Contents (Elt F)),
    StableHlo.binary main_v318 main_v328 main_v329 (mulf : (⟨S30000x128, .f32⟩ : BufTy).Contents (Elt F) → (⟨S30000x128, .f32⟩ : BufTy).Contents (Elt F) → (⟨S30000x128, .f32⟩ : BufTy).Contents (Elt F)),
    StableHlo.unary main_arg4 main_v330 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v330 main_v331 rfl shapeCasts_S1x600000_S600000,
    StableHlo.unary main_arg4 main_v332 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v332 main_v333 rfl shapeCasts_S1x600000_S600000,
    StableHlo.unary main_arg13 main_v334 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v334 main_v335 rfl shapeCasts_S1x128x128_S128x128,
    StableHlo.unary main_arg14 main_v336 ((extractStridedSlice S1x128 ![0, 0] · slices_S2x128_S1x128_0_0) : (⟨S2x128, .f32⟩ : BufTy).Contents (Elt F) → (⟨S1x128, .f32⟩ : BufTy).Contents (Elt F)),
    StableHlo.reshape main_v336 main_v337 rfl shapeCasts_S1x128_S128,
    StableHlo.binary main_v329 main_v335 main_v338 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    StableHlo.nullary main_v339 (iotaInDim S30000 32 0) ]

abbrev ops18_W : List (Ref sig .tc) := [main_cst_92, main_call19_v0, main_call19_v1, main_v326, main_v327, main_v328, main_v329, main_v330, main_v331, main_v332, main_v333, main_v334, main_v335, main_v336, main_v337, main_v338, main_v339]
theorem ops18_plain : List.Forall₂ Plain (ops18 : List (HloOp τ sig (Elt F))) ops18_W := by repeat' constructor
theorem ops18_writes : (ops18 : List (HloOp τ sig (Elt F))).Forall fun op => op.writes ⊆ (ops18_W.map (Proc.devRef (τ := τ) .tc)).toFinset :=
  writes_of_plain ops18_plain

abbrev ops19 : List (HloOp τ sig (Elt F)) :=
  [ StableHlo.binary main_v331 main_v339 main_v340 ((fun a b => concatenate S630000 0 [⟨S600000, a⟩, ⟨S30000, b⟩] concatenates_S600000_S30000_S630000_d0) : (⟨S600000, .i32⟩ : BufTy).Contents (Elt F) → (⟨S30000, .i32⟩ : BufTy).Contents (Elt F) → (⟨S630000, .i32⟩ : BufTy).Contents (Elt F)) ]

abbrev ops19_W : List (Ref sig .tc) := [main_v340]
theorem ops19_plain : List.Forall₂ Plain (ops19 : List (HloOp τ sig (Elt F))) ops19_W := by repeat' constructor
theorem ops19_writes : (ops19 : List (HloOp τ sig (Elt F))).Forall fun op => op.writes ⊆ (ops19_W.map (Proc.devRef (τ := τ) .tc)).toFinset :=
  writes_of_plain ops19_plain

abbrev ops20 : List (HloOp τ sig (Elt F)) :=
  [ StableHlo.binary main_v333 main_v339 main_v341 ((fun a b => concatenate S630000 0 [⟨S600000, a⟩, ⟨S30000, b⟩] concatenates_S600000_S30000_S630000_d0) : (⟨S600000, .i32⟩ : BufTy).Contents (Elt F) → (⟨S30000, .i32⟩ : BufTy).Contents (Elt F) → (⟨S630000, .i32⟩ : BufTy).Contents (Elt F)),
    StableHlo.nullary main_cst_93 (constant S_ .f32 0x3F800000#32),
    StableHlo.unary main_cst_93 main_v342 (broadcastInDim S30000 ![] bcast_S_S30000 : (⟨S_, .f32⟩ : BufTy).Contents (Elt F) → (⟨S30000, .f32⟩ : BufTy).Contents (Elt F)) ]

abbrev ops20_W : List (Ref sig .tc) := [main_v341, main_cst_93, main_v342]
theorem ops20_plain : List.Forall₂ Plain (ops20 : List (HloOp τ sig (Elt F))) ops20_W := by repeat' constructor
theorem ops20_writes : (ops20 : List (HloOp τ sig (Elt F))).Forall fun op => op.writes ⊆ (ops20_W.map (Proc.devRef (τ := τ) .tc)).toFinset :=
  writes_of_plain ops20_plain

abbrev ops21 : List (HloOp τ sig (Elt F)) :=
  [ StableHlo.binary main_arg5 main_v342 main_v343 ((fun a b => concatenate S630000 0 [⟨S600000, a⟩, ⟨S30000, b⟩] concatenates_S600000_S30000_S630000_d0) : (⟨S600000, .f32⟩ : BufTy).Contents (Elt F) → (⟨S30000, .f32⟩ : BufTy).Contents (Elt F) → (⟨S630000, .f32⟩ : BufTy).Contents (Elt F)),
    StableHlo.nullary main_cst_94 (constant S_ .f32 0x00000000#32),
    StableHlo.unary main_cst_94 main_v344 (broadcastInDim S30000 ![] bcast_S_S30000 : (⟨S_, .f32⟩ : BufTy).Contents (Elt F) → (⟨S30000, .f32⟩ : BufTy).Contents (Elt F)),
    StableHlo.unary main_v341 main_v345 (broadcastInDim S630000x1 ![0] bcast_S630000_S630000x1_0 : (⟨S630000, .i32⟩ : BufTy).Contents (Elt F) → (⟨S630000x1, .i32⟩ : BufTy).Contents (Elt F)),
    StableHlo.ternary main_v344 main_v345 main_v343 main_v346 ((fun x i u => Host.scatterAdd scatter_S30000_S630000x1_S630000_n_0_0_1 x i u) : (⟨S30000, .f32⟩ : BufTy).Contents (Elt F) → (⟨S630000x1, .i32⟩ : BufTy).Contents (Elt F) → (⟨S630000, .f32⟩ : BufTy).Contents (Elt F) → (⟨S30000, .f32⟩ : BufTy).Contents (Elt F)),
    StableHlo.nullary main_cst_95 (constant S_ .f32 0x00000000#32),
    StableHlo.unary main_cst_95 main_v347 (broadcastInDim S30000 ![] bcast_S_S30000 : (⟨S_, .f32⟩ : BufTy).Contents (Elt F) → (⟨S30000, .f32⟩ : BufTy).Contents (Elt F)),
    StableHlo.binary main_v346 main_v347 main_v348 (cmpf .ogt : (⟨S30000, .f32⟩ : BufTy).Contents (Elt F) → (⟨S30000, .f32⟩ : BufTy).Contents (Elt F) → (⟨S30000, .i1⟩ : BufTy).Contents (Elt F)),
    StableHlo.nullary main_cst_96 (constant S_ .f32 0x00000000#32),
    StableHlo.unary main_cst_96 main_v349 (broadcastInDim S30000 ![] bcast_S_S30000 : (⟨S_, .f32⟩ : BufTy).Contents (Elt F) → (⟨S30000, .f32⟩ : BufTy).Contents (Elt F)),
    StableHlo.binary main_v346 main_v349 main_v350 (cmpf .ogt : (⟨S30000, .f32⟩ : BufTy).Contents (Elt F) → (⟨S30000, .f32⟩ : BufTy).Contents (Elt F) → (⟨S30000, .i1⟩ : BufTy).Contents (Elt F)),
    StableHlo.nullary main_cst_97 (constant S_ .f32 0x3F800000#32),
    StableHlo.TRef.unary (StableHlo.TRef.of (T := ⟨S_, .f32⟩) main_cst_97) (StableHlo.TRef.of (T := ⟨S_, .f32⟩) main_call20_v0) id,
    StableHlo.TRef.unary (StableHlo.TRef.of (T := ⟨S_, .f32⟩) main_call20_v0) (StableHlo.TRef.of (T := ⟨S30000, .f32⟩) main_call20_v1) (broadcastInDim S30000 ![] bcast_S_S30000),
    StableHlo.TRef.ternary (StableHlo.TRef.of (T := ⟨S30000, .i1⟩) main_v350) (StableHlo.TRef.of (T := ⟨S30000, .f32⟩) main_v346) (StableHlo.TRef.of (T := ⟨S30000, .f32⟩) main_call20_v1) (StableHlo.TRef.of (T := ⟨S30000, .f32⟩) main_v351) select,
    StableHlo.nullary main_cst_98 (constant S_ .f32 0xBF000000#32),
    StableHlo.unary main_cst_98 main_v352 (broadcastInDim S30000 ![] bcast_S_S30000 : (⟨S_, .f32⟩ : BufTy).Contents (Elt F) → (⟨S30000, .f32⟩ : BufTy).Contents (Elt F)),
    StableHlo.binary main_v351 main_v352 main_v353 (Host.powf : (⟨S30000, .f32⟩ : BufTy).Contents (Elt F) → (⟨S30000, .f32⟩ : BufTy).Contents (Elt F) → (⟨S30000, .f32⟩ : BufTy).Contents (Elt F)),
    StableHlo.nullary main_cst_99 (constant S_ .f32 0x00000000#32),
    StableHlo.TRef.unary (StableHlo.TRef.of (T := ⟨S_, .f32⟩) main_cst_99) (StableHlo.TRef.of (T := ⟨S_, .f32⟩) main_call21_v0) id,
    StableHlo.TRef.unary (StableHlo.TRef.of (T := ⟨S_, .f32⟩) main_call21_v0) (StableHlo.TRef.of (T := ⟨S30000, .f32⟩) main_call21_v1) (broadcastInDim S30000 ![] bcast_S_S30000),
    StableHlo.TRef.ternary (StableHlo.TRef.of (T := ⟨S30000, .i1⟩) main_v348) (StableHlo.TRef.of (T := ⟨S30000, .f32⟩) main_v353) (StableHlo.TRef.of (T := ⟨S30000, .f32⟩) main_call21_v1) (StableHlo.TRef.of (T := ⟨S30000, .f32⟩) main_v354) select,
    StableHlo.nullary main_c_100 (constantI S_ 32 0#32),
    StableHlo.unary main_c_100 main_v355 (broadcastInDim S630000 ![] bcast_S_S630000 : (⟨S_, .i32⟩ : BufTy).Contents (Elt F) → (⟨S630000, .i32⟩ : BufTy).Contents (Elt F)),
    StableHlo.binary main_v340 main_v355 main_v356 (cmpi .slt : (⟨S630000, .i32⟩ : BufTy).Contents (Elt F) → (⟨S630000, .i32⟩ : BufTy).Contents (Elt F) → (⟨S630000, .i1⟩ : BufTy).Contents (Elt F)),
    StableHlo.nullary main_c_101 (constantI S_ 32 30000#32),
    StableHlo.unary main_c_101 main_v357 (broadcastInDim S630000 ![] bcast_S_S630000 : (⟨S_, .i32⟩ : BufTy).Contents (Elt F) → (⟨S630000, .i32⟩ : BufTy).Contents (Elt F)),
    StableHlo.binary main_v340 main_v357 main_v358 (addi : (⟨S630000, .i32⟩ : BufTy).Contents (Elt F) → (⟨S630000, .i32⟩ : BufTy).Contents (Elt F) → (⟨S630000, .i32⟩ : BufTy).Contents (Elt F)),
    StableHlo.ternary main_v356 main_v358 main_v340 main_v359 (select : (⟨S630000, .i1⟩ : BufTy).Contents (Elt F) → (⟨S630000, .i32⟩ : BufTy).Contents (Elt F) → (⟨S630000, .i32⟩ : BufTy).Contents (Elt F) → (⟨S630000, .i32⟩ : BufTy).Contents (Elt F)),
    StableHlo.unary main_v359 main_v360 (broadcastInDim S630000x1 ![0] bcast_S630000_S630000x1_0 : (⟨S630000, .i32⟩ : BufTy).Contents (Elt F) → (⟨S630000x1, .i32⟩ : BufTy).Contents (Elt F)),
    StableHlo.binary main_v354 main_v360 main_v361 ((fun x i => Host.gather gather_S30000_S630000x1_S630000_n_0_n_n_0_1_1 x i) : (⟨S30000, .f32⟩ : BufTy).Contents (Elt F) → (⟨S630000x1, .i32⟩ : BufTy).Contents (Elt F) → (⟨S630000, .f32⟩ : BufTy).Contents (Elt F)),
    StableHlo.binary main_v361 main_v343 main_v362 (mulf : (⟨S630000, .f32⟩ : BufTy).Contents (Elt F) → (⟨S630000, .f32⟩ : BufTy).Contents (Elt F) → (⟨S630000, .f32⟩ : BufTy).Contents (Elt F)),
    StableHlo.nullary main_c_102 (constantI S_ 32 0#32),
    StableHlo.unary main_c_102 main_v363 (broadcastInDim S630000 ![] bcast_S_S630000 : (⟨S_, .i32⟩ : BufTy).Contents (Elt F) → (⟨S630000, .i32⟩ : BufTy).Contents (Elt F)),
    StableHlo.binary main_v341 main_v363 main_v364 (cmpi .slt : (⟨S630000, .i32⟩ : BufTy).Contents (Elt F) → (⟨S630000, .i32⟩ : BufTy).Contents (Elt F) → (⟨S630000, .i1⟩ : BufTy).Contents (Elt F)),
    StableHlo.nullary main_c_103 (constantI S_ 32 30000#32),
    StableHlo.unary main_c_103 main_v365 (broadcastInDim S630000 ![] bcast_S_S630000 : (⟨S_, .i32⟩ : BufTy).Contents (Elt F) → (⟨S630000, .i32⟩ : BufTy).Contents (Elt F)),
    StableHlo.binary main_v341 main_v365 main_v366 (addi : (⟨S630000, .i32⟩ : BufTy).Contents (Elt F) → (⟨S630000, .i32⟩ : BufTy).Contents (Elt F) → (⟨S630000, .i32⟩ : BufTy).Contents (Elt F)),
    StableHlo.ternary main_v364 main_v366 main_v341 main_v367 (select : (⟨S630000, .i1⟩ : BufTy).Contents (Elt F) → (⟨S630000, .i32⟩ : BufTy).Contents (Elt F) → (⟨S630000, .i32⟩ : BufTy).Contents (Elt F) → (⟨S630000, .i32⟩ : BufTy).Contents (Elt F)),
    StableHlo.unary main_v367 main_v368 (broadcastInDim S630000x1 ![0] bcast_S630000_S630000x1_0 : (⟨S630000, .i32⟩ : BufTy).Contents (Elt F) → (⟨S630000x1, .i32⟩ : BufTy).Contents (Elt F)),
    StableHlo.binary main_v354 main_v368 main_v369 ((fun x i => Host.gather gather_S30000_S630000x1_S630000_n_0_n_n_0_1_1 x i) : (⟨S30000, .f32⟩ : BufTy).Contents (Elt F) → (⟨S630000x1, .i32⟩ : BufTy).Contents (Elt F) → (⟨S630000, .f32⟩ : BufTy).Contents (Elt F)),
    StableHlo.binary main_v362 main_v369 main_v370 (mulf : (⟨S630000, .f32⟩ : BufTy).Contents (Elt F) → (⟨S630000, .f32⟩ : BufTy).Contents (Elt F) → (⟨S630000, .f32⟩ : BufTy).Contents (Elt F)),
    StableHlo.nullary main_c_104 (constantI S_ 32 0#32),
    StableHlo.unary main_c_104 main_v371 (broadcastInDim S630000 ![] bcast_S_S630000 : (⟨S_, .i32⟩ : BufTy).Contents (Elt F) → (⟨S630000, .i32⟩ : BufTy).Contents (Elt F)),
    StableHlo.binary main_v340 main_v371 main_v372 (cmpi .slt : (⟨S630000, .i32⟩ : BufTy).Contents (Elt F) → (⟨S630000, .i32⟩ : BufTy).Contents (Elt F) → (⟨S630000, .i1⟩ : BufTy).Contents (Elt F)) ]

abbrev ops21_W : List (Ref sig .tc) := [main_v343, main_cst_94, main_v344, main_v345, main_v346, main_cst_95, main_v347, main_v348, main_cst_96, main_v349, main_v350, main_cst_97, main_call20_v0, main_call20_v1, main_v351, main_cst_98, main_v352, main_v353, main_cst_99, main_call21_v0, main_call21_v1, main_v354, main_c_100, main_v355, main_v356, main_c_101, main_v357, main_v358, main_v359, main_v360, main_v361, main_v362, main_c_102, main_v363, main_v364, main_c_103, main_v365, main_v366, main_v367, main_v368, main_v369, main_v370, main_c_104, main_v371, main_v372]
theorem ops21_plain : List.Forall₂ Plain (ops21 : List (HloOp τ sig (Elt F))) ops21_W := by repeat' constructor
theorem ops21_writes : (ops21 : List (HloOp τ sig (Elt F))).Forall fun op => op.writes ⊆ (ops21_W.map (Proc.devRef (τ := τ) .tc)).toFinset :=
  writes_of_plain ops21_plain

abbrev ops22 : List (HloOp τ sig (Elt F)) :=
  [ StableHlo.nullary main_c_105 (constantI S_ 32 30000#32),
    StableHlo.unary main_c_105 main_v373 (broadcastInDim S630000 ![] bcast_S_S630000 : (⟨S_, .i32⟩ : BufTy).Contents (Elt F) → (⟨S630000, .i32⟩ : BufTy).Contents (Elt F)),
    StableHlo.binary main_v340 main_v373 main_v374 (addi : (⟨S630000, .i32⟩ : BufTy).Contents (Elt F) → (⟨S630000, .i32⟩ : BufTy).Contents (Elt F) → (⟨S630000, .i32⟩ : BufTy).Contents (Elt F)),
    StableHlo.ternary main_v372 main_v374 main_v340 main_v375 (select : (⟨S630000, .i1⟩ : BufTy).Contents (Elt F) → (⟨S630000, .i32⟩ : BufTy).Contents (Elt F) → (⟨S630000, .i32⟩ : BufTy).Contents (Elt F) → (⟨S630000, .i32⟩ : BufTy).Contents (Elt F)),
    StableHlo.unary main_v375 main_v376 (broadcastInDim S630000x1 ![0] bcast_S630000_S630000x1_0 : (⟨S630000, .i32⟩ : BufTy).Contents (Elt F) → (⟨S630000x1, .i32⟩ : BufTy).Contents (Elt F)),
    StableHlo.binary main_v338 main_v376 main_v377 ((fun x i => Host.gather gather_S30000x128_S630000x1_S630000x128_1_0_n_n_0_1_1128 x i) : (⟨S30000x128, .f32⟩ : BufTy).Contents (Elt F) → (⟨S630000x1, .i32⟩ : BufTy).Contents (Elt F) → (⟨S630000x128, .f32⟩ : BufTy).Contents (Elt F)),
    StableHlo.unary main_v370 main_v378 (broadcastInDim S630000x1 ![0] bcast_S630000_S630000x1_0 : (⟨S630000, .f32⟩ : BufTy).Contents (Elt F) → (⟨S630000x1, .f32⟩ : BufTy).Contents (Elt F)),
    StableHlo.unary main_v378 main_v379 (broadcastInDim S630000x128 ![0, 1] bcast_S630000x1_S630000x128_0_1 : (⟨S630000x1, .f32⟩ : BufTy).Contents (Elt F) → (⟨S630000x128, .f32⟩ : BufTy).Contents (Elt F)),
    StableHlo.binary main_v377 main_v379 main_v380 (mulf : (⟨S630000x128, .f32⟩ : BufTy).Contents (Elt F) → (⟨S630000x128, .f32⟩ : BufTy).Contents (Elt F) → (⟨S630000x128, .f32⟩ : BufTy).Contents (Elt F)),
    StableHlo.nullary main_cst_106 (constant S_ .f32 0x00000000#32),
    StableHlo.unary main_cst_106 main_v381 (broadcastInDim S30000x128 ![] bcast_S_S30000x128 : (⟨S_, .f32⟩ : BufTy).Contents (Elt F) → (⟨S30000x128, .f32⟩ : BufTy).Contents (Elt F)),
    StableHlo.unary main_v341 main_v382 (broadcastInDim S630000x1 ![0] bcast_S630000_S630000x1_0 : (⟨S630000, .i32⟩ : BufTy).Contents (Elt F) → (⟨S630000x1, .i32⟩ : BufTy).Contents (Elt F)),
    StableHlo.ternary main_v381 main_v382 main_v380 main_v383 ((fun x i u => Host.scatterAdd scatter_S30000x128_S630000x1_S630000x128_1_0_0_1 x i u) : (⟨S30000x128, .f32⟩ : BufTy).Contents (Elt F) → (⟨S630000x1, .i32⟩ : BufTy).Contents (Elt F) → (⟨S630000x128, .f32⟩ : BufTy).Contents (Elt F) → (⟨S30000x128, .f32⟩ : BufTy).Contents (Elt F)),
    StableHlo.unary main_v337 main_v384 (broadcastInDim S1x128 ![1] bcast_S128_S1x128_1 : (⟨S128, .f32⟩ : BufTy).Contents (Elt F) → (⟨S1x128, .f32⟩ : BufTy).Contents (Elt F)),
    StableHlo.unary main_v384 main_v385 (broadcastInDim S30000x128 ![0, 1] bcast_S1x128_S30000x128_0_1 : (⟨S1x128, .f32⟩ : BufTy).Contents (Elt F) → (⟨S30000x128, .f32⟩ : BufTy).Contents (Elt F)),
    StableHlo.binary main_v383 main_v385 main_v386 (addf : (⟨S30000x128, .f32⟩ : BufTy).Contents (Elt F) → (⟨S30000x128, .f32⟩ : BufTy).Contents (Elt F) → (⟨S30000x128, .f32⟩ : BufTy).Contents (Elt F)),
    StableHlo.TRef.nullary (StableHlo.TRef.of (T := ⟨S_, .f32⟩) main_call22_cst) (constant S_ .f32 0x00000000#32),
    StableHlo.TRef.unary (StableHlo.TRef.of (T := ⟨S_, .f32⟩) main_call22_cst) (StableHlo.TRef.of (T := ⟨S30000x128, .f32⟩) main_call22_v0) (broadcastInDim S30000x128 ![] bcast_S_S30000x128),
    StableHlo.TRef.binary (StableHlo.TRef.of (T := ⟨S30000x128, .f32⟩) main_v386) (StableHlo.TRef.of (T := ⟨S30000x128, .f32⟩) main_call22_v0) (StableHlo.TRef.of (T := ⟨S30000x128, .i1⟩) main_call22_v1) (cmpf .oge),
    StableHlo.TRef.nullary (StableHlo.TRef.of (T := ⟨S_, .f32⟩) main_call22_cst_0) (constant S_ .f32 0x3C23D70A#32),
    StableHlo.TRef.unary (StableHlo.TRef.of (T := ⟨S_, .f32⟩) main_call22_cst_0) (StableHlo.TRef.of (T := ⟨S30000x128, .f32⟩) main_call22_v2) (broadcastInDim S30000x128 ![] bcast_S_S30000x128),
    StableHlo.TRef.binary (StableHlo.TRef.of (T := ⟨S30000x128, .f32⟩) main_call22_v2) (StableHlo.TRef.of (T := ⟨S30000x128, .f32⟩) main_v386) (StableHlo.TRef.of (T := ⟨S30000x128, .f32⟩) main_call22_v3) mulf,
    StableHlo.TRef.ternary (StableHlo.TRef.of (T := ⟨S30000x128, .i1⟩) main_call22_v1) (StableHlo.TRef.of (T := ⟨S30000x128, .f32⟩) main_v386) (StableHlo.TRef.of (T := ⟨S30000x128, .f32⟩) main_call22_v3) (StableHlo.TRef.of (T := ⟨S30000x128, .f32⟩) main_v387) select,
    StableHlo.binary main_v387 main_v329 main_v388 (addf : (⟨S30000x128, .f32⟩ : BufTy).Contents (Elt F) → (⟨S30000x128, .f32⟩ : BufTy).Contents (Elt F) → (⟨S30000x128, .f32⟩ : BufTy).Contents (Elt F)),
    StableHlo.nullary main_cst_107 (constant S_ .f32 0x3F000000#32),
    StableHlo.unary main_cst_107 main_v389 (broadcastInDim S30000x128 ![] bcast_S_S30000x128 : (⟨S_, .f32⟩ : BufTy).Contents (Elt F) → (⟨S30000x128, .f32⟩ : BufTy).Contents (Elt F)),
    StableHlo.binary main_v388 main_v389 main_v390 (mulf : (⟨S30000x128, .f32⟩ : BufTy).Contents (Elt F) → (⟨S30000x128, .f32⟩ : BufTy).Contents (Elt F) → (⟨S30000x128, .f32⟩ : BufTy).Contents (Elt F)),
    StableHlo.binary main_v329 main_v390 main_v391 (addf : (⟨S30000x128, .f32⟩ : BufTy).Contents (Elt F) → (⟨S30000x128, .f32⟩ : BufTy).Contents (Elt F) → (⟨S30000x128, .f32⟩ : BufTy).Contents (Elt F)),
    StableHlo.unary main_arg13 main_v392 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v392 main_v393 rfl shapeCasts_S1x128x128_S128x128,
    StableHlo.unary main_arg14 main_v394 ((extractStridedSlice S1x128 ![1, 0] · slices_S2x128_S1x128_1_0) : (⟨S2x128, .f32⟩ : BufTy).Contents (Elt F) → (⟨S1x128, .f32⟩ : BufTy).Contents (Elt F)),
    StableHlo.reshape main_v394 main_v395 rfl shapeCasts_S1x128_S128,
    StableHlo.binary main_v388 main_v393 main_v396 ((fun l r => Host.dotGeneral dot_S30000x128_S128x128_S30000x128_1_0_0_1_n_n none l r) : (⟨S30000x128, .f32⟩ : BufTy).Contents (Elt F) → (⟨S128x128, .f32⟩ : BufTy).Contents (Elt F) → (⟨S30000x128, .f32⟩ : BufTy).Contents (Elt F)),
    StableHlo.nullary main_v397 (iotaInDim S30000 32 0) ]

abbrev ops22_W : List (Ref sig .tc) := [main_c_105, main_v373, main_v374, main_v375, main_v376, main_v377, main_v378, main_v379, main_v380, main_cst_106, main_v381, main_v382, main_v383, main_v384, main_v385, main_v386, main_call22_cst, main_call22_v0, main_call22_v1, main_call22_cst_0, main_call22_v2, main_call22_v3, main_v387, main_v388, main_cst_107, main_v389, main_v390, main_v391, main_v392, main_v393, main_v394, main_v395, main_v396, main_v397]
theorem ops22_plain : List.Forall₂ Plain (ops22 : List (HloOp τ sig (Elt F))) ops22_W := by repeat' constructor
theorem ops22_writes : (ops22 : List (HloOp τ sig (Elt F))).Forall fun op => op.writes ⊆ (ops22_W.map (Proc.devRef (τ := τ) .tc)).toFinset :=
  writes_of_plain ops22_plain

abbrev ops23 : List (HloOp τ sig (Elt F)) :=
  [ StableHlo.binary main_v331 main_v397 main_v398 ((fun a b => concatenate S630000 0 [⟨S600000, a⟩, ⟨S30000, b⟩] concatenates_S600000_S30000_S630000_d0) : (⟨S600000, .i32⟩ : BufTy).Contents (Elt F) → (⟨S30000, .i32⟩ : BufTy).Contents (Elt F) → (⟨S630000, .i32⟩ : BufTy).Contents (Elt F)) ]

abbrev ops23_W : List (Ref sig .tc) := [main_v398]
theorem ops23_plain : List.Forall₂ Plain (ops23 : List (HloOp τ sig (Elt F))) ops23_W := by repeat' constructor
theorem ops23_writes : (ops23 : List (HloOp τ sig (Elt F))).Forall fun op => op.writes ⊆ (ops23_W.map (Proc.devRef (τ := τ) .tc)).toFinset :=
  writes_of_plain ops23_plain

end Cert.ReferenceIdeal.Hand

end
-- ==== Proof.RefRunOps4.lean ====
import proofs.«131905_j73031623901536_2_alg».proof.Proof.Gen.ReferenceIdeal
import proofs.«131905_j73031623901536_2_alg».proof.Proof.RefPlain

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops24 : List (HloOp τ sig (Elt F)) :=
  [ StableHlo.binary main_v333 main_v397 main_v399 ((fun a b => concatenate S630000 0 [⟨S600000, a⟩, ⟨S30000, b⟩] concatenates_S600000_S30000_S630000_d0) : (⟨S600000, .i32⟩ : BufTy).Contents (Elt F) → (⟨S30000, .i32⟩ : BufTy).Contents (Elt F) → (⟨S630000, .i32⟩ : BufTy).Contents (Elt F)),
    StableHlo.nullary main_cst_108 (constant S_ .f32 0x3F800000#32),
    StableHlo.unary main_cst_108 main_v400 (broadcastInDim S30000 ![] bcast_S_S30000 : (⟨S_, .f32⟩ : BufTy).Contents (Elt F) → (⟨S30000, .f32⟩ : BufTy).Contents (Elt F)) ]

abbrev ops24_W : List (Ref sig .tc) := [main_v399, main_cst_108, main_v400]
theorem ops24_plain : List.Forall₂ Plain (ops24 : List (HloOp τ sig (Elt F))) ops24_W := by repeat' constructor
theorem ops24_writes : (ops24 : List (HloOp τ sig (Elt F))).Forall fun op => op.writes ⊆ (ops24_W.map (Proc.devRef (τ := τ) .tc)).toFinset :=
  writes_of_plain ops24_plain

abbrev ops25 : List (HloOp τ sig (Elt F)) :=
  [ StableHlo.binary main_arg5 main_v400 main_v401 ((fun a b => concatenate S630000 0 [⟨S600000, a⟩, ⟨S30000, b⟩] concatenates_S600000_S30000_S630000_d0) : (⟨S600000, .f32⟩ : BufTy).Contents (Elt F) → (⟨S30000, .f32⟩ : BufTy).Contents (Elt F) → (⟨S630000, .f32⟩ : BufTy).Contents (Elt F)),
    StableHlo.nullary main_cst_109 (constant S_ .f32 0x00000000#32),
    StableHlo.unary main_cst_109 main_v402 (broadcastInDim S30000 ![] bcast_S_S30000 : (⟨S_, .f32⟩ : BufTy).Contents (Elt F) → (⟨S30000, .f32⟩ : BufTy).Contents (Elt F)),
    StableHlo.unary main_v399 main_v403 (broadcastInDim S630000x1 ![0] bcast_S630000_S630000x1_0 : (⟨S630000, .i32⟩ : BufTy).Contents (Elt F) → (⟨S630000x1, .i32⟩ : BufTy).Contents (Elt F)),
    StableHlo.ternary main_v402 main_v403 main_v401 main_v404 ((fun x i u => Host.scatterAdd scatter_S30000_S630000x1_S630000_n_0_0_1 x i u) : (⟨S30000, .f32⟩ : BufTy).Contents (Elt F) → (⟨S630000x1, .i32⟩ : BufTy).Contents (Elt F) → (⟨S630000, .f32⟩ : BufTy).Contents (Elt F) → (⟨S30000, .f32⟩ : BufTy).Contents (Elt F)),
    StableHlo.nullary main_cst_110 (constant S_ .f32 0x00000000#32),
    StableHlo.unary main_cst_110 main_v405 (broadcastInDim S30000 ![] bcast_S_S30000 : (⟨S_, .f32⟩ : BufTy).Contents (Elt F) → (⟨S30000, .f32⟩ : BufTy).Contents (Elt F)),
    StableHlo.binary main_v404 main_v405 main_v406 (cmpf .ogt : (⟨S30000, .f32⟩ : BufTy).Contents (Elt F) → (⟨S30000, .f32⟩ : BufTy).Contents (Elt F) → (⟨S30000, .i1⟩ : BufTy).Contents (Elt F)),
    StableHlo.nullary main_cst_111 (constant S_ .f32 0x00000000#32),
    StableHlo.unary main_cst_111 main_v407 (broadcastInDim S30000 ![] bcast_S_S30000 : (⟨S_, .f32⟩ : BufTy).Contents (Elt F) → (⟨S30000, .f32⟩ : BufTy).Contents (Elt F)),
    StableHlo.binary main_v404 main_v407 main_v408 (cmpf .ogt : (⟨S30000, .f32⟩ : BufTy).Contents (Elt F) → (⟨S30000, .f32⟩ : BufTy).Contents (Elt F) → (⟨S30000, .i1⟩ : BufTy).Contents (Elt F)),
    StableHlo.nullary main_cst_112 (constant S_ .f32 0x3F800000#32),
    StableHlo.TRef.unary (StableHlo.TRef.of (T := ⟨S_, .f32⟩) main_cst_112) (StableHlo.TRef.of (T := ⟨S_, .f32⟩) main_call23_v0) id,
    StableHlo.TRef.unary (StableHlo.TRef.of (T := ⟨S_, .f32⟩) main_call23_v0) (StableHlo.TRef.of (T := ⟨S30000, .f32⟩) main_call23_v1) (broadcastInDim S30000 ![] bcast_S_S30000),
    StableHlo.TRef.ternary (StableHlo.TRef.of (T := ⟨S30000, .i1⟩) main_v408) (StableHlo.TRef.of (T := ⟨S30000, .f32⟩) main_v404) (StableHlo.TRef.of (T := ⟨S30000, .f32⟩) main_call23_v1) (StableHlo.TRef.of (T := ⟨S30000, .f32⟩) main_v409) select,
    StableHlo.nullary main_cst_113 (constant S_ .f32 0xBF000000#32),
    StableHlo.unary main_cst_113 main_v410 (broadcastInDim S30000 ![] bcast_S_S30000 : (⟨S_, .f32⟩ : BufTy).Contents (Elt F) → (⟨S30000, .f32⟩ : BufTy).Contents (Elt F)),
    StableHlo.binary main_v409 main_v410 main_v411 (Host.powf : (⟨S30000, .f32⟩ : BufTy).Contents (Elt F) → (⟨S30000, .f32⟩ : BufTy).Contents (Elt F) → (⟨S30000, .f32⟩ : BufTy).Contents (Elt F)),
    StableHlo.nullary main_cst_114 (constant S_ .f32 0x00000000#32),
    StableHlo.TRef.unary (StableHlo.TRef.of (T := ⟨S_, .f32⟩) main_cst_114) (StableHlo.TRef.of (T := ⟨S_, .f32⟩) main_call24_v0) id,
    StableHlo.TRef.unary (StableHlo.TRef.of (T := ⟨S_, .f32⟩) main_call24_v0) (StableHlo.TRef.of (T := ⟨S30000, .f32⟩) main_call24_v1) (broadcastInDim S30000 ![] bcast_S_S30000),
    StableHlo.TRef.ternary (StableHlo.TRef.of (T := ⟨S30000, .i1⟩) main_v406) (StableHlo.TRef.of (T := ⟨S30000, .f32⟩) main_v411) (StableHlo.TRef.of (T := ⟨S30000, .f32⟩) main_call24_v1) (StableHlo.TRef.of (T := ⟨S30000, .f32⟩) main_v412) select,
    StableHlo.nullary main_c_115 (constantI S_ 32 0#32),
    StableHlo.unary main_c_115 main_v413 (broadcastInDim S630000 ![] bcast_S_S630000 : (⟨S_, .i32⟩ : BufTy).Contents (Elt F) → (⟨S630000, .i32⟩ : BufTy).Contents (Elt F)),
    StableHlo.binary main_v398 main_v413 main_v414 (cmpi .slt : (⟨S630000, .i32⟩ : BufTy).Contents (Elt F) → (⟨S630000, .i32⟩ : BufTy).Contents (Elt F) → (⟨S630000, .i1⟩ : BufTy).Contents (Elt F)),
    StableHlo.nullary main_c_116 (constantI S_ 32 30000#32),
    StableHlo.unary main_c_116 main_v415 (broadcastInDim S630000 ![] bcast_S_S630000 : (⟨S_, .i32⟩ : BufTy).Contents (Elt F) → (⟨S630000, .i32⟩ : BufTy).Contents (Elt F)),
    StableHlo.binary main_v398 main_v415 main_v416 (addi : (⟨S630000, .i32⟩ : BufTy).Contents (Elt F) → (⟨S630000, .i32⟩ : BufTy).Contents (Elt F) → (⟨S630000, .i32⟩ : BufTy).Contents (Elt F)),
    StableHlo.ternary main_v414 main_v416 main_v398 main_v417 (select : (⟨S630000, .i1⟩ : BufTy).Contents (Elt F) → (⟨S630000, .i32⟩ : BufTy).Contents (Elt F) → (⟨S630000, .i32⟩ : BufTy).Contents (Elt F) → (⟨S630000, .i32⟩ : BufTy).Contents (Elt F)),
    StableHlo.unary main_v417 main_v418 (broadcastInDim S630000x1 ![0] bcast_S630000_S630000x1_0 : (⟨S630000, .i32⟩ : BufTy).Contents (Elt F) → (⟨S630000x1, .i32⟩ : BufTy).Contents (Elt F)),
    StableHlo.binary main_v412 main_v418 main_v419 ((fun x i => Host.gather gather_S30000_S630000x1_S630000_n_0_n_n_0_1_1 x i) : (⟨S30000, .f32⟩ : BufTy).Contents (Elt F) → (⟨S630000x1, .i32⟩ : BufTy).Contents (Elt F) → (⟨S630000, .f32⟩ : BufTy).Contents (Elt F)),
    StableHlo.binary main_v419 main_v401 main_v420 (mulf : (⟨S630000, .f32⟩ : BufTy).Contents (Elt F) → (⟨S630000, .f32⟩ : BufTy).Contents (Elt F) → (⟨S630000, .f32⟩ : BufTy).Contents (Elt F)) ]

abbrev ops25_W : List (Ref sig .tc) := [main_v401, main_cst_109, main_v402, main_v403, main_v404, main_cst_110, main_v405, main_v406, main_cst_111, main_v407, main_v408, main_cst_112, main_call23_v0, main_call23_v1, main_v409, main_cst_113, main_v410, main_v411, main_cst_114, main_call24_v0, main_call24_v1, main_v412, main_c_115, main_v413, main_v414, main_c_116, main_v415, main_v416, main_v417, main_v418, main_v419, main_v420]
theorem ops25_plain : List.Forall₂ Plain (ops25 : List (HloOp τ sig (Elt F))) ops25_W := by repeat' constructor
theorem ops25_writes : (ops25 : List (HloOp τ sig (Elt F))).Forall fun op => op.writes ⊆ (ops25_W.map (Proc.devRef (τ := τ) .tc)).toFinset :=
  writes_of_plain ops25_plain

abbrev ops26 : List (HloOp τ sig (Elt F)) :=
  [ StableHlo.nullary main_c_117 (constantI S_ 32 0#32),
    StableHlo.unary main_c_117 main_v421 (broadcastInDim S630000 ![] bcast_S_S630000 : (⟨S_, .i32⟩ : BufTy).Contents (Elt F) → (⟨S630000, .i32⟩ : BufTy).Contents (Elt F)),
    StableHlo.binary main_v399 main_v421 main_v422 (cmpi .slt : (⟨S630000, .i32⟩ : BufTy).Contents (Elt F) → (⟨S630000, .i32⟩ : BufTy).Contents (Elt F) → (⟨S630000, .i1⟩ : BufTy).Contents (Elt F)),
    StableHlo.nullary main_c_118 (constantI S_ 32 30000#32),
    StableHlo.unary main_c_118 main_v423 (broadcastInDim S630000 ![] bcast_S_S630000 : (⟨S_, .i32⟩ : BufTy).Contents (Elt F) → (⟨S630000, .i32⟩ : BufTy).Contents (Elt F)),
    StableHlo.binary main_v399 main_v423 main_v424 (addi : (⟨S630000, .i32⟩ : BufTy).Contents (Elt F) → (⟨S630000, .i32⟩ : BufTy).Contents (Elt F) → (⟨S630000, .i32⟩ : BufTy).Contents (Elt F)),
    StableHlo.ternary main_v422 main_v424 main_v399 main_v425 (select : (⟨S630000, .i1⟩ : BufTy).Contents (Elt F) → (⟨S630000, .i32⟩ : BufTy).Contents (Elt F) → (⟨S630000, .i32⟩ : BufTy).Contents (Elt F) → (⟨S630000, .i32⟩ : BufTy).Contents (Elt F)),
    StableHlo.unary main_v425 main_v426 (broadcastInDim S630000x1 ![0] bcast_S630000_S630000x1_0 : (⟨S630000, .i32⟩ : BufTy).Contents (Elt F) → (⟨S630000x1, .i32⟩ : BufTy).Contents (Elt F)),
    StableHlo.binary main_v412 main_v426 main_v427 ((fun x i => Host.gather gather_S30000_S630000x1_S630000_n_0_n_n_0_1_1 x i) : (⟨S30000, .f32⟩ : BufTy).Contents (Elt F) → (⟨S630000x1, .i32⟩ : BufTy).Contents (Elt F) → (⟨S630000, .f32⟩ : BufTy).Contents (Elt F)),
    StableHlo.binary main_v420 main_v427 main_v428 (mulf : (⟨S630000, .f32⟩ : BufTy).Contents (Elt F) → (⟨S630000, .f32⟩ : BufTy).Contents (Elt F) → (⟨S630000, .f32⟩ : BufTy).Contents (Elt F)),
    StableHlo.nullary main_c_119 (constantI S_ 32 0#32),
    StableHlo.unary main_c_119 main_v429 (broadcastInDim S630000 ![] bcast_S_S630000 : (⟨S_, .i32⟩ : BufTy).Contents (Elt F) → (⟨S630000, .i32⟩ : BufTy).Contents (Elt F)),
    StableHlo.binary main_v398 main_v429 main_v430 (cmpi .slt : (⟨S630000, .i32⟩ : BufTy).Contents (Elt F) → (⟨S630000, .i32⟩ : BufTy).Contents (Elt F) → (⟨S630000, .i1⟩ : BufTy).Contents (Elt F)),
    StableHlo.nullary main_c_120 (constantI S_ 32 30000#32),
    StableHlo.unary main_c_120 main_v431 (broadcastInDim S630000 ![] bcast_S_S630000 : (⟨S_, .i32⟩ : BufTy).Contents (Elt F) → (⟨S630000, .i32⟩ : BufTy).Contents (Elt F)),
    StableHlo.binary main_v398 main_v431 main_v432 (addi : (⟨S630000, .i32⟩ : BufTy).Contents (Elt F) → (⟨S630000, .i32⟩ : BufTy).Contents (Elt F) → (⟨S630000, .i32⟩ : BufTy).Contents (Elt F)),
    StableHlo.ternary main_v430 main_v432 main_v398 main_v433 (select : (⟨S630000, .i1⟩ : BufTy).Contents (Elt F) → (⟨S630000, .i32⟩ : BufTy).Contents (Elt F) → (⟨S630000, .i32⟩ : BufTy).Contents (Elt F) → (⟨S630000, .i32⟩ : BufTy).Contents (Elt F)),
    StableHlo.unary main_v433 main_v434 (broadcastInDim S630000x1 ![0] bcast_S630000_S630000x1_0 : (⟨S630000, .i32⟩ : BufTy).Contents (Elt F) → (⟨S630000x1, .i32⟩ : BufTy).Contents (Elt F)),
    StableHlo.binary main_v396 main_v434 main_v435 ((fun x i => Host.gather gather_S30000x128_S630000x1_S630000x128_1_0_n_n_0_1_1128 x i) : (⟨S30000x128, .f32⟩ : BufTy).Contents (Elt F) → (⟨S630000x1, .i32⟩ : BufTy).Contents (Elt F) → (⟨S630000x128, .f32⟩ : BufTy).Contents (Elt F)),
    StableHlo.unary main_v428 main_v436 (broadcastInDim S630000x1 ![0] bcast_S630000_S630000x1_0 : (⟨S630000, .f32⟩ : BufTy).Contents (Elt F) → (⟨S630000x1, .f32⟩ : BufTy).Contents (Elt F)),
    StableHlo.unary main_v436 main_v437 (broadcastInDim S630000x128 ![0, 1] bcast_S630000x1_S630000x128_0_1 : (⟨S630000x1, .f32⟩ : BufTy).Contents (Elt F) → (⟨S630000x128, .f32⟩ : BufTy).Contents (Elt F)),
    StableHlo.binary main_v435 main_v437 main_v438 (mulf : (⟨S630000x128, .f32⟩ : BufTy).Contents (Elt F) → (⟨S630000x128, .f32⟩ : BufTy).Contents (Elt F) → (⟨S630000x128, .f32⟩ : BufTy).Contents (Elt F)),
    StableHlo.nullary main_cst_121 (constant S_ .f32 0x00000000#32),
    StableHlo.unary main_cst_121 main_v439 (broadcastInDim S30000x128 ![] bcast_S_S30000x128 : (⟨S_, .f32⟩ : BufTy).Contents (Elt F) → (⟨S30000x128, .f32⟩ : BufTy).Contents (Elt F)),
    StableHlo.unary main_v399 main_v440 (broadcastInDim S630000x1 ![0] bcast_S630000_S630000x1_0 : (⟨S630000, .i32⟩ : BufTy).Contents (Elt F) → (⟨S630000x1, .i32⟩ : BufTy).Contents (Elt F)),
    StableHlo.ternary main_v439 main_v440 main_v438 main_v441 ((fun x i u => Host.scatterAdd scatter_S30000x128_S630000x1_S630000x128_1_0_0_1 x i u) : (⟨S30000x128, .f32⟩ : BufTy).Contents (Elt F) → (⟨S630000x1, .i32⟩ : BufTy).Contents (Elt F) → (⟨S630000x128, .f32⟩ : BufTy).Contents (Elt F) → (⟨S30000x128, .f32⟩ : BufTy).Contents (Elt F)),
    StableHlo.unary main_v395 main_v442 (broadcastInDim S1x128 ![1] bcast_S128_S1x128_1 : (⟨S128, .f32⟩ : BufTy).Contents (Elt F) → (⟨S1x128, .f32⟩ : BufTy).Contents (Elt F)),
    StableHlo.unary main_v442 main_v443 (broadcastInDim S30000x128 ![0, 1] bcast_S1x128_S30000x128_0_1 : (⟨S1x128, .f32⟩ : BufTy).Contents (Elt F) → (⟨S30000x128, .f32⟩ : BufTy).Contents (Elt F)),
    StableHlo.binary main_v441 main_v443 main_v444 (addf : (⟨S30000x128, .f32⟩ : BufTy).Contents (Elt F) → (⟨S30000x128, .f32⟩ : BufTy).Contents (Elt F) → (⟨S30000x128, .f32⟩ : BufTy).Contents (Elt F)),
    StableHlo.TRef.nullary (StableHlo.TRef.of (T := ⟨S_, .f32⟩) main_call25_cst) (constant S_ .f32 0x00000000#32),
    StableHlo.TRef.unary (StableHlo.TRef.of (T := ⟨S_, .f32⟩) main_call25_cst) (StableHlo.TRef.of (T := ⟨S30000x128, .f32⟩) main_call25_v0) (broadcastInDim S30000x128 ![] bcast_S_S30000x128),
    StableHlo.TRef.binary (StableHlo.TRef.of (T := ⟨S30000x128, .f32⟩) main_v444) (StableHlo.TRef.of (T := ⟨S30000x128, .f32⟩) main_call25_v0) (StableHlo.TRef.of (T := ⟨S30000x128, .i1⟩) main_call25_v1) (cmpf .oge),
    StableHlo.TRef.nullary (StableHlo.TRef.of (T := ⟨S_, .f32⟩) main_call25_cst_0) (constant S_ .f32 0x3C23D70A#32),
    StableHlo.TRef.unary (StableHlo.TRef.of (T := ⟨S_, .f32⟩) main_call25_cst_0) (StableHlo.TRef.of (T := ⟨S30000x128, .f32⟩) main_call25_v2) (broadcastInDim S30000x128 ![] bcast_S_S30000x128),
    StableHlo.TRef.binary (StableHlo.TRef.of (T := ⟨S30000x128, .f32⟩) main_call25_v2) (StableHlo.TRef.of (T := ⟨S30000x128, .f32⟩) main_v444) (StableHlo.TRef.of (T := ⟨S30000x128, .f32⟩) main_call25_v3) mulf,
    StableHlo.TRef.ternary (StableHlo.TRef.of (T := ⟨S30000x128, .i1⟩) main_call25_v1) (StableHlo.TRef.of (T := ⟨S30000x128, .f32⟩) main_v444) (StableHlo.TRef.of (T := ⟨S30000x128, .f32⟩) main_call25_v3) (StableHlo.TRef.of (T := ⟨S30000x128, .f32⟩) main_v445) select,
    StableHlo.binary main_v445 main_v388 main_v446 (addf : (⟨S30000x128, .f32⟩ : BufTy).Contents (Elt F) → (⟨S30000x128, .f32⟩ : BufTy).Contents (Elt F) → (⟨S30000x128, .f32⟩ : BufTy).Contents (Elt F)),
    StableHlo.nullary main_cst_122 (constant S_ .f32 0x3EAAAAAB#32),
    StableHlo.unary main_cst_122 main_v447 (broadcastInDim S30000x128 ![] bcast_S_S30000x128 : (⟨S_, .f32⟩ : BufTy).Contents (Elt F) → (⟨S30000x128, .f32⟩ : BufTy).Contents (Elt F)),
    StableHlo.binary main_v446 main_v447 main_v448 (mulf : (⟨S30000x128, .f32⟩ : BufTy).Contents (Elt F) → (⟨S30000x128, .f32⟩ : BufTy).Contents (Elt F) → (⟨S30000x128, .f32⟩ : BufTy).Contents (Elt F)),
    StableHlo.binary main_v391 main_v448 main_v449 (addf : (⟨S30000x128, .f32⟩ : BufTy).Contents (Elt F) → (⟨S30000x128, .f32⟩ : BufTy).Contents (Elt F) → (⟨S30000x128, .f32⟩ : BufTy).Contents (Elt F)),
    StableHlo.unary main_v271 main_v450 ((extractStridedSlice S20000x128 ![0, 0] · slices_S40000x128_S20000x128_0_0) : (⟨S40000x128, .f32⟩ : BufTy).Contents (Elt F) → (⟨S20000x128, .f32⟩ : BufTy).Contents (Elt F)),
    StableHlo.unary main_v271 main_v451 ((extractStridedSlice S15000x128 ![20000, 0] · slices_S40000x128_S15000x128_20000_0) : (⟨S40000x128, .f32⟩ : BufTy).Contents (Elt F) → (⟨S15000x128, .f32⟩ : BufTy).Contents (Elt F)),
    StableHlo.unary main_v271 main_v452 ((extractStridedSlice S5000x128 ![35000, 0] · slices_S40000x128_S5000x128_35000_0) : (⟨S40000x128, .f32⟩ : BufTy).Contents (Elt F) → (⟨S5000x128, .f32⟩ : BufTy).Contents (Elt F)) ]

abbrev ops26_W : List (Ref sig .tc) := [main_c_117, main_v421, main_v422, main_c_118, main_v423, main_v424, main_v425, main_v426, main_v427, main_v428, main_c_119, main_v429, main_v430, main_c_120, main_v431, main_v432, main_v433, main_v434, main_v435, main_v436, main_v437, main_v438, main_cst_121, main_v439, main_v440, main_v441, main_v442, main_v443, main_v444, main_call25_cst, main_call25_v0, main_call25_v1, main_call25_cst_0, main_call25_v2, main_call25_v3, main_v445, main_v446, main_cst_122, main_v447, main_v448, main_v449, main_v450, main_v451, main_v452]
theorem ops26_plain : List.Forall₂ Plain (ops26 : List (HloOp τ sig (Elt F))) ops26_W := by repeat' constructor
theorem ops26_writes : (ops26 : List (HloOp τ sig (Elt F))).Forall fun op => op.writes ⊆ (ops26_W.map (Proc.devRef (τ := τ) .tc)).toFinset :=
  writes_of_plain ops26_plain

end Cert.ReferenceIdeal.Hand

end
-- ==== Proof.RefRun.lean ====
import proofs.«131905_j73031623901536_2_alg».proof.Defs
import proofs.«131905_j73031623901536_2_alg».proof.Proof.Gen.ReferenceIdeal
import proofs.«131905_j73031623901536_2_alg».proof.Proof.Gen.Pre_finite_inputs
import proofs.«131905_j73031623901536_2_alg».proof.Proof.RefRunOps0
import proofs.«131905_j73031623901536_2_alg».proof.Proof.RefRunOps1
import proofs.«131905_j73031623901536_2_alg».proof.Proof.RefRunOps2
import proofs.«131905_j73031623901536_2_alg».proof.Proof.RefRunOps3
import proofs.«131905_j73031623901536_2_alg».proof.Proof.RefRunOps4
import Idealize.ShloMosaic.Lib.StableHlo.Run
import Idealize.ShloMosaic.Lib.Pipeline.Frame
import Mathlib.Data.List.Basic

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops00 ++ (ops01 ++ (ops02 ++ (ops03 ++ (ops04 ++ (ops05 ++ (ops06 ++ (ops07 ++ (ops08 ++ (ops09 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ ops26)))))))))))))))))))))))))

set_option maxRecDepth 8192 in
set_option maxHeartbeats 4000000 in
theorem main_part0_eq (c : Dev nD) : main_part0 (F := F) c = seq (ops00 ++ (ops01 ++ (ops02 ++ ops03))) := rfl
set_option maxRecDepth 8192 in
set_option maxHeartbeats 4000000 in
theorem main_part1_eq (c : Dev nD) : main_part1 (F := F) c = seq (ops04 ++ (ops05 ++ (ops06 ++ ops07))) := rfl
set_option maxRecDepth 8192 in
set_option maxHeartbeats 4000000 in
theorem main_part2_eq (c : Dev nD) : main_part2 (F := F) c = seq (ops08 ++ ops09) := rfl
set_option maxRecDepth 8192 in
set_option maxHeartbeats 4000000 in
theorem main_part3_eq (c : Dev nD) : main_part3 (F := F) c = seq (ops10 ++ ops11) := rfl
set_option maxRecDepth 8192 in
set_option maxHeartbeats 4000000 in
theorem main_part4_eq (c : Dev nD) : main_part4 (F := F) c = seq (ops12 ++ ops13) := rfl
set_option maxRecDepth 8192 in
set_option maxHeartbeats 4000000 in
theorem main_part5_eq (c : Dev nD) : main_part5 (F := F) c = seq (ops14 ++ ops15) := rfl
set_option maxRecDepth 8192 in
set_option maxHeartbeats 4000000 in
theorem main_part6_eq (c : Dev nD) : main_part6 (F := F) c = seq (ops16 ++ ops17) := rfl
set_option maxRecDepth 8192 in
set_option maxHeartbeats 4000000 in
theorem main_part7_eq (c : Dev nD) : main_part7 (F := F) c = seq (ops18 ++ (ops19 ++ (ops20 ++ ops21))) := rfl
set_option maxRecDepth 8192 in
set_option maxHeartbeats 4000000 in
theorem main_part8_eq (c : Dev nD) : main_part8 (F := F) c = seq (ops22 ++ (ops23 ++ (ops24 ++ ops25))) := rfl
set_option maxRecDepth 8192 in
set_option maxHeartbeats 4000000 in
theorem main_part9_eq (c : Dev nD) : main_part9 (F := F) c = seq ops26 := rfl

theorem main_eq (c : Dev nD) : main (F := F) c = seq ops := by
  simp only [main, main_part0_eq, main_part1_eq, main_part2_eq, main_part3_eq, main_part4_eq, main_part5_eq, main_part6_eq, main_part7_eq, main_part8_eq, main_part9_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

abbrev opsW : List (Ref sig .tc) :=
  ops00_W ++ (ops01_W ++ (ops02_W ++ (ops03_W ++ (ops04_W ++ (ops05_W ++ (ops06_W ++ (ops07_W ++ (ops08_W ++ (ops09_W ++ (ops10_W ++ (ops11_W ++ (ops12_W ++ (ops13_W ++ (ops14_W ++ (ops15_W ++ (ops16_W ++ (ops17_W ++ (ops18_W ++ (ops19_W ++ (ops20_W ++ (ops21_W ++ (ops22_W ++ (ops23_W ++ (ops24_W ++ (ops25_W ++ (ops26_W))))))))))))))))))))))))))

/-- Chunk by chunk, `opsW` lists the results of `ops` in order. -/
theorem ops_plain : List.Forall₂ Plain (ops : List (HloOp τ sig (Elt F))) opsW :=
  List.rel_append ops00_plain (List.rel_append ops01_plain (List.rel_append ops02_plain (List.rel_append ops03_plain (List.rel_append ops04_plain (List.rel_append ops05_plain (List.rel_append ops06_plain (List.rel_append ops07_plain (List.rel_append ops08_plain (List.rel_append ops09_plain (List.rel_append ops10_plain (List.rel_append ops11_plain (List.rel_append ops12_plain (List.rel_append ops13_plain (List.rel_append ops14_plain (List.rel_append ops15_plain (List.rel_append ops16_plain (List.rel_append ops17_plain (List.rel_append ops18_plain (List.rel_append ops19_plain (List.rel_append ops20_plain (List.rel_append ops21_plain (List.rel_append ops22_plain (List.rel_append ops23_plain (List.rel_append ops24_plain (List.rel_append ops25_plain (ops26_plain))))))))))))))))))))))))))

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => sub_of_plain ops_plain) m ρ
    (fun _ => fresh_of_plain ops_plain)

theorem after_ops (V : Valuation τ sig (Elt F)) :
    after ops V = after ops26 (after ops25 (after ops24 (after ops23 (after ops22 (after ops21 (after ops20 (after ops19 (after ops18 (after ops17 (after ops16 (after ops15 (after ops14 (after ops13 (after ops12 (after ops11 (after ops10 (after ops09 (after ops08 (after ops07 (after ops06 (after ops05 (after ops04 (after ops03 (after ops02 (after ops01 (after ops00 (V))))))))))))))))))))))))))) := by
  simp only [ops, after_append]

theorem ops00_keep (V : Valuation τ sig (Elt F)) (r : Ref sig .tc) (h : r ∉ ops00_W) :
    after ops00 V (Proc.devRef .tc r) = V (Proc.devRef .tc r) := keep_of_plain ops00_plain V h
theorem ops01_keep (V : Valuation τ sig (Elt F)) (r : Ref sig .tc) (h : r ∉ ops01_W) :
    after ops01 V (Proc.devRef .tc r) = V (Proc.devRef .tc r) := keep_of_plain ops01_plain V h
theorem ops02_keep (V : Valuation τ sig (Elt F)) (r : Ref sig .tc) (h : r ∉ ops02_W) :
    after ops02 V (Proc.devRef .tc r) = V (Proc.devRef .tc r) := keep_of_plain ops02_plain V h
theorem ops03_keep (V : Valuation τ sig (Elt F)) (r : Ref sig .tc) (h : r ∉ ops03_W) :
    after ops03 V (Proc.devRef .tc r) = V (Proc.devRef .tc r) := keep_of_plain ops03_plain V h
theorem ops04_keep (V : Valuation τ sig (Elt F)) (r : Ref sig .tc) (h : r ∉ ops04_W) :
    after ops04 V (Proc.devRef .tc r) = V (Proc.devRef .tc r) := keep_of_plain ops04_plain V h
theorem ops05_keep (V : Valuation τ sig (Elt F)) (r : Ref sig .tc) (h : r ∉ ops05_W) :
    after ops05 V (Proc.devRef .tc r) = V (Proc.devRef .tc r) := keep_of_plain ops05_plain V h
theorem ops06_keep (V : Valuation τ sig (Elt F)) (r : Ref sig .tc) (h : r ∉ ops06_W) :
    after ops06 V (Proc.devRef .tc r) = V (Proc.devRef .tc r) := keep_of_plain ops06_plain V h
theorem ops07_keep (V : Valuation τ sig (Elt F)) (r : Ref sig .tc) (h : r ∉ ops07_W) :
    after ops07 V (Proc.devRef .tc r) = V (Proc.devRef .tc r) := keep_of_plain ops07_plain V h
theorem ops08_keep (V : Valuation τ sig (Elt F)) (r : Ref sig .tc) (h : r ∉ ops08_W) :
    after ops08 V (Proc.devRef .tc r) = V (Proc.devRef .tc r) := keep_of_plain ops08_plain V h
theorem ops09_keep (V : Valuation τ sig (Elt F)) (r : Ref sig .tc) (h : r ∉ ops09_W) :
    after ops09 V (Proc.devRef .tc r) = V (Proc.devRef .tc r) := keep_of_plain ops09_plain V h
theorem ops10_keep (V : Valuation τ sig (Elt F)) (r : Ref sig .tc) (h : r ∉ ops10_W) :
    after ops10 V (Proc.devRef .tc r) = V (Proc.devRef .tc r) := keep_of_plain ops10_plain V h
theorem ops11_keep (V : Valuation τ sig (Elt F)) (r : Ref sig .tc) (h : r ∉ ops11_W) :
    after ops11 V (Proc.devRef .tc r) = V (Proc.devRef .tc r) := keep_of_plain ops11_plain V h
theorem ops12_keep (V : Valuation τ sig (Elt F)) (r : Ref sig .tc) (h : r ∉ ops12_W) :
    after ops12 V (Proc.devRef .tc r) = V (Proc.devRef .tc r) := keep_of_plain ops12_plain V h
theorem ops13_keep (V : Valuation τ sig (Elt F)) (r : Ref sig .tc) (h : r ∉ ops13_W) :
    after ops13 V (Proc.devRef .tc r) = V (Proc.devRef .tc r) := keep_of_plain ops13_plain V h
theorem ops14_keep (V : Valuation τ sig (Elt F)) (r : Ref sig .tc) (h : r ∉ ops14_W) :
    after ops14 V (Proc.devRef .tc r) = V (Proc.devRef .tc r) := keep_of_plain ops14_plain V h
theorem ops15_keep (V : Valuation τ sig (Elt F)) (r : Ref sig .tc) (h : r ∉ ops15_W) :
    after ops15 V (Proc.devRef .tc r) = V (Proc.devRef .tc r) := keep_of_plain ops15_plain V h
theorem ops16_keep (V : Valuation τ sig (Elt F)) (r : Ref sig .tc) (h : r ∉ ops16_W) :
    after ops16 V (Proc.devRef .tc r) = V (Proc.devRef .tc r) := keep_of_plain ops16_plain V h
theorem ops17_keep (V : Valuation τ sig (Elt F)) (r : Ref sig .tc) (h : r ∉ ops17_W) :
    after ops17 V (Proc.devRef .tc r) = V (Proc.devRef .tc r) := keep_of_plain ops17_plain V h
theorem ops18_keep (V : Valuation τ sig (Elt F)) (r : Ref sig .tc) (h : r ∉ ops18_W) :
    after ops18 V (Proc.devRef .tc r) = V (Proc.devRef .tc r) := keep_of_plain ops18_plain V h
theorem ops19_keep (V : Valuation τ sig (Elt F)) (r : Ref sig .tc) (h : r ∉ ops19_W) :
    after ops19 V (Proc.devRef .tc r) = V (Proc.devRef .tc r) := keep_of_plain ops19_plain V h
theorem ops20_keep (V : Valuation τ sig (Elt F)) (r : Ref sig .tc) (h : r ∉ ops20_W) :
    after ops20 V (Proc.devRef .tc r) = V (Proc.devRef .tc r) := keep_of_plain ops20_plain V h
theorem ops21_keep (V : Valuation τ sig (Elt F)) (r : Ref sig .tc) (h : r ∉ ops21_W) :
    after ops21 V (Proc.devRef .tc r) = V (Proc.devRef .tc r) := keep_of_plain ops21_plain V h
theorem ops22_keep (V : Valuation τ sig (Elt F)) (r : Ref sig .tc) (h : r ∉ ops22_W) :
    after ops22 V (Proc.devRef .tc r) = V (Proc.devRef .tc r) := keep_of_plain ops22_plain V h
theorem ops23_keep (V : Valuation τ sig (Elt F)) (r : Ref sig .tc) (h : r ∉ ops23_W) :
    after ops23 V (Proc.devRef .tc r) = V (Proc.devRef .tc r) := keep_of_plain ops23_plain V h
theorem ops24_keep (V : Valuation τ sig (Elt F)) (r : Ref sig .tc) (h : r ∉ ops24_W) :
    after ops24 V (Proc.devRef .tc r) = V (Proc.devRef .tc r) := keep_of_plain ops24_plain V h
theorem ops25_keep (V : Valuation τ sig (Elt F)) (r : Ref sig .tc) (h : r ∉ ops25_W) :
    after ops25 V (Proc.devRef .tc r) = V (Proc.devRef .tc r) := keep_of_plain ops25_plain V h
theorem ops26_keep (V : Valuation τ sig (Elt F)) (r : Ref sig .tc) (h : r ∉ ops26_W) :
    after ops26 V (Proc.devRef .tc r) = V (Proc.devRef .tc r) := keep_of_plain ops26_plain V h

set_option maxRecDepth 8192 in
theorem args_kept0 (V : Valuation τ sig (Elt F)) :
    StableHlo.after ops V (Proc.devRef .tc main_arg0) = V (Proc.devRef .tc main_arg0) :=
  keep_of_plain ops_plain V (by decide)
set_option maxRecDepth 8192 in
theorem args_kept1 (V : Valuation τ sig (Elt F)) :
    StableHlo.after ops V (Proc.devRef .tc main_arg1) = V (Proc.devRef .tc main_arg1) :=
  keep_of_plain ops_plain V (by decide)
set_option maxRecDepth 8192 in
theorem args_kept2 (V : Valuation τ sig (Elt F)) :
    StableHlo.after ops V (Proc.devRef .tc main_arg2) = V (Proc.devRef .tc main_arg2) :=
  keep_of_plain ops_plain V (by decide)
set_option maxRecDepth 8192 in
theorem args_kept3 (V : Valuation τ sig (Elt F)) :
    StableHlo.after ops V (Proc.devRef .tc main_arg3) = V (Proc.devRef .tc main_arg3) :=
  keep_of_plain ops_plain V (by decide)
set_option maxRecDepth 8192 in
theorem args_kept4 (V : Valuation τ sig (Elt F)) :
    StableHlo.after ops V (Proc.devRef .tc main_arg4) = V (Proc.devRef .tc main_arg4) :=
  keep_of_plain ops_plain V (by decide)
set_option maxRecDepth 8192 in
theorem args_kept5 (V : Valuation τ sig (Elt F)) :
    StableHlo.after ops V (Proc.devRef .tc main_arg5) = V (Proc.devRef .tc main_arg5) :=
  keep_of_plain ops_plain V (by decide)
set_option maxRecDepth 8192 in
theorem args_kept6 (V : Valuation τ sig (Elt F)) :
    StableHlo.after ops V (Proc.devRef .tc main_arg6) = V (Proc.devRef .tc main_arg6) :=
  keep_of_plain ops_plain V (by decide)
set_option maxRecDepth 8192 in
theorem args_kept7 (V : Valuation τ sig (Elt F)) :
    StableHlo.after ops V (Proc.devRef .tc main_arg7) = V (Proc.devRef .tc main_arg7) :=
  keep_of_plain ops_plain V (by decide)
set_option maxRecDepth 8192 in
theorem args_kept8 (V : Valuation τ sig (Elt F)) :
    StableHlo.after ops V (Proc.devRef .tc main_arg8) = V (Proc.devRef .tc main_arg8) :=
  keep_of_plain ops_plain V (by decide)
set_option maxRecDepth 8192 in
theorem args_kept9 (V : Valuation τ sig (Elt F)) :
    StableHlo.after ops V (Proc.devRef .tc main_arg9) = V (Proc.devRef .tc main_arg9) :=
  keep_of_plain ops_plain V (by decide)
set_option maxRecDepth 8192 in
theorem args_kept10 (V : Valuation τ sig (Elt F)) :
    StableHlo.after ops V (Proc.devRef .tc main_arg10) = V (Proc.devRef .tc main_arg10) :=
  keep_of_plain ops_plain V (by decide)
set_option maxRecDepth 8192 in
theorem args_kept11 (V : Valuation τ sig (Elt F)) :
    StableHlo.after ops V (Proc.devRef .tc main_arg11) = V (Proc.devRef .tc main_arg11) :=
  keep_of_plain ops_plain V (by decide)
set_option maxRecDepth 8192 in
theorem args_kept12 (V : Valuation τ sig (Elt F)) :
    StableHlo.after ops V (Proc.devRef .tc main_arg12) = V (Proc.devRef .tc main_arg12) :=
  keep_of_plain ops_plain V (by decide)
set_option maxRecDepth 8192 in
theorem args_kept13 (V : Valuation τ sig (Elt F)) :
    StableHlo.after ops V (Proc.devRef .tc main_arg13) = V (Proc.devRef .tc main_arg13) :=
  keep_of_plain ops_plain V (by decide)
set_option maxRecDepth 8192 in
theorem args_kept14 (V : Valuation τ sig (Elt F)) :
    StableHlo.after ops V (Proc.devRef .tc main_arg14) = V (Proc.devRef .tc main_arg14) :=
  keep_of_plain ops_plain V (by decide)
set_option maxRecDepth 8192 in
theorem args_kept15 (V : Valuation τ sig (Elt F)) :
    StableHlo.after ops V (Proc.devRef .tc main_arg15) = V (Proc.devRef .tc main_arg15) :=
  keep_of_plain ops_plain V (by decide)
set_option maxRecDepth 8192 in
theorem args_kept16 (V : Valuation τ sig (Elt F)) :
    StableHlo.after ops V (Proc.devRef .tc main_arg16) = V (Proc.devRef .tc main_arg16) :=
  keep_of_plain ops_plain V (by decide)

set_option maxRecDepth 8192 in
theorem after_ops_v121 (V : Valuation τ sig (Elt F)) :
    after ops V (Proc.devRef .tc main_v121) = after ops09 (after ops08 (after ops07 (after ops06 (after ops05 (after ops04 (after ops03 (after ops02 (after ops01 (after ops00 (V)))))))))) (Proc.devRef .tc main_v121) := by
  rw [after_ops, ops26_keep _ _ (by decide), ops25_keep _ _ (by decide), ops24_keep _ _ (by decide), ops23_keep _ _ (by decide), ops22_keep _ _ (by decide), ops21_keep _ _ (by decide), ops20_keep _ _ (by decide), ops19_keep _ _ (by decide), ops18_keep _ _ (by decide), ops17_keep _ _ (by decide), ops16_keep _ _ (by decide), ops15_keep _ _ (by decide), ops14_keep _ _ (by decide), ops13_keep _ _ (by decide), ops12_keep _ _ (by decide), ops11_keep _ _ (by decide), ops10_keep _ _ (by decide)]

set_option maxRecDepth 8192 in
theorem after_ops_v300 (V : Valuation τ sig (Elt F)) :
    after ops V (Proc.devRef .tc main_v300) = after ops16 (after ops15 (after ops14 (after ops13 (after ops12 (after ops11 (after ops10 (after ops09 (after ops08 (after ops07 (after ops06 (after ops05 (after ops04 (after ops03 (after ops02 (after ops01 (after ops00 (V))))))))))))))))) (Proc.devRef .tc main_v300) := by
  rw [after_ops, ops26_keep _ _ (by decide), ops25_keep _ _ (by decide), ops24_keep _ _ (by decide), ops23_keep _ _ (by decide), ops22_keep _ _ (by decide), ops21_keep _ _ (by decide), ops20_keep _ _ (by decide), ops19_keep _ _ (by decide), ops18_keep _ _ (by decide), ops17_keep _ _ (by decide)]

/-- No operation's result is an argument, so every argument ends as it was at launch. -/
theorem frame_ri : Cert.frame_ReferenceIdeal := fun m ρ _ =>
  (θ_run (Cert.ReferenceIdeal.defs (F := Ideal)) _ _).mono
    (fun _ h c => ⟨(h c main_arg0).trans (args_kept0 _),
      (h c main_arg1).trans (args_kept1 _),
      (h c main_arg2).trans (args_kept2 _),
      (h c main_arg3).trans (args_kept3 _),
      (h c main_arg4).trans (args_kept4 _),
      (h c main_arg5).trans (args_kept5 _),
      (h c main_arg6).trans (args_kept6 _),
      (h c main_arg7).trans (args_kept7 _),
      (h c main_arg8).trans (args_kept8 _),
      (h c main_arg9).trans (args_kept9 _),
      (h c main_arg10).trans (args_kept10 _),
      (h c main_arg11).trans (args_kept11 _),
      (h c main_arg12).trans (args_kept12 _),
      (h c main_arg13).trans (args_kept13 _),
      (h c main_arg14).trans (args_kept14 _),
      (h c main_arg15).trans (args_kept15 _),
      (h c main_arg16).trans (args_kept16 _)⟩)
    (run_all (F := Ideal) m ρ)

end Cert.ReferenceIdeal.Hand

end
-- ==== Proof.KIKeeps.lean ====
import proofs.«131905_j73031623901536_2_alg».proof.Proof.KILevels

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ)

private def LV (c : Dev nD) : List (Valuation τ sig (Elt F)) :=
  [W0 m c, W1 m c, W2 m c, W3 m c, W4 m c, W5 m c, W6 m c, W7 m c,
   W8 m c, W9 m c, W10 m c, W11 m c, W12 m c, W13 m c, W14 m c, W15 m c,
   W16 m c, W17 m c, W18 m c, W19 m c, W20 m c, W21 m c, W22 m c, W23 m c,
   W24 m c, W25 m c, W26 m c, W27 m c, W28 m c, W29 m c, W30 m c, W31 m c,
   W32 m c, W33 m c, W34 m c, W35 m c, W36 m c, W37 m c, W38 m c, W39 m c,
   W40 m c, W41 m c, W42 m c, W43 m c, W44 m c, W45 m c, W46 m c, W47 m c]

private def WR : List (List (Ref sig .tc)) :=
  [hostOps0_W, hostOps0_1_W, hostOps0_2_W, hostOps0_3_W,
   hostOps0_4_W, [main_v40], hostOps1_W, [main_v57_0, main_v57_1],
   hostOps2_W, [main_v60], hostOps3_W, [main_v77_0, main_v77_1],
   hostOps4_W, [main_v81_0, main_v81_1], hostOps5_W, hostOps5_1_W,
   hostOps5_2_W, hostOps5_3_W, hostOps5_4_W, hostOps5_5_W,
   hostOps5_6_W, hostOps5_7_W, hostOps5_8_W, [main_v111],
   hostOps6_W, [main_v141_0, main_v141_1], hostOps7_W, [main_v144],
   hostOps8_W, [main_v174_0, main_v174_1], hostOps9_W, hostOps9_1_W,
   hostOps9_2_W, hostOps9_3_W, hostOps9_4_W, hostOps9_5_W,
   hostOps9_6_W, hostOps9_7_W, hostOps9_8_W, [main_v245],
   hostOps10_W, [main_v262_0, main_v262_1], hostOps11_W, [main_v265],
   hostOps12_W, [main_v282_0, main_v282_1], hostOps13_W]

private theorem ne_hd {r a : Ref sig .tc} {l : List (Ref sig .tc)} (h : r ∉ a :: l) : (Proc.devRef .tc r : DevRef τ sig) ≠ Proc.devRef .tc a :=
  StableHlo.devRef_ne_of_ne (List.ne_of_not_mem_cons h)

private def Good : List (Valuation τ sig (Elt F)) → List (List (Ref sig .tc)) → Prop
  | a :: b :: t, w :: ws => (∀ r : Ref sig .tc, r ∉ w → b (Proc.devRef .tc r) = a (Proc.devRef .tc r)) ∧ Good (b :: t) ws
  | _, _ => True

private theorem Good.cons {a b : Valuation τ sig (Elt F)} {t : List (Valuation τ sig (Elt F))} {w : List (Ref sig .tc)} {ws : List (List (Ref sig .tc))}
    (h : ∀ r : Ref sig .tc, r ∉ w → b (Proc.devRef .tc r) = a (Proc.devRef .tc r)) (g : Good (b :: t) ws) : Good (a :: b :: t) (w :: ws) :=
  show _ ∧ _ from ⟨h, g⟩

-- consecutive levels agree off the list between them
private theorem good_step {d : Valuation τ sig (Elt F)} (r : Ref sig .tc) : ∀ (L : List (Valuation τ sig (Elt F))) (Ws : List (List (Ref sig .tc))) (k : ℕ),
    Good L Ws → k + 1 < L.length → k < Ws.length → r ∉ Ws.getD k [] → L.getD (k + 1) d (Proc.devRef .tc r) = L.getD k d (Proc.devRef .tc r)
  | _ :: _ :: _, _ :: _, 0, hG, _, _, h => (hG : _ ∧ _).1 r h
  | _ :: b :: t, _ :: ws, k + 1, hG, hk, hw, h => good_step r (b :: t) ws k (hG : _ ∧ _).2 (Nat.lt_of_succ_lt_succ hk) (Nat.lt_of_succ_lt_succ hw) h
  | [], _, _, _, hk, _, _ => absurd hk (Nat.not_lt_zero _)
  | [_], _, _, _, hk, _, _ => absurd (Nat.lt_of_succ_lt_succ hk) (Nat.not_lt_zero _)
  | _ :: _ :: _, [], _, _, _, hw, _ => absurd hw (Nat.not_lt_zero _)

@[reducible] private def Ok (r : Ref sig .tc) (Ws : List (List (Ref sig .tc))) (i : ℕ) : ℕ → Prop
  | 0 => True
  | n + 1 => r ∉ Ws.getD (i + n) [] ∧ Ok r Ws i n

-- n steps down from level i + n, one good_step each
private theorem lv_keep {d : Valuation τ sig (Elt F)} (r : Ref sig .tc) {L : List (Valuation τ sig (Elt F))} {Ws : List (List (Ref sig .tc))} (hG : Good L Ws) (i : ℕ) :
    ∀ n, i + n < L.length → i + n ≤ Ws.length → Ok r Ws i n → L.getD (i + n) d (Proc.devRef .tc r) = L.getD i d (Proc.devRef .tc r)
  | 0, _, _, _ => rfl
  | n + 1, hl, hw, ho => (good_step r L Ws (i + n) hG hl hw ho.1).trans (lv_keep r hG i n (Nat.lt_of_succ_lt hl) (Nat.le_of_succ_le hw) ho.2)

private theorem good (c : Dev nD) : Good (LV m c) WR :=
  Good.cons (fun _ h => StableHlo.after_of_writes_sub hostOps0 _ hostOps0_writes h) <|
  Good.cons (fun _ h => StableHlo.after_of_writes_sub hostOps0_1 _ hostOps0_1_writes h) <|
  Good.cons (fun _ h => StableHlo.after_of_writes_sub hostOps0_2 _ hostOps0_2_writes h) <|
  Good.cons (fun _ h => StableHlo.after_of_writes_sub hostOps0_3 _ hostOps0_3_writes h) <|
  Good.cons (fun _ h => StableHlo.after_of_writes_sub hostOps0_4 _ hostOps0_4_writes h) <|
  Good.cons (fun _ h => W6_of_ne m c _ (ne_hd h)) <|
  Good.cons (fun _ h => StableHlo.after_of_writes_sub hostOps1 _ hostOps1_writes h) <|
  Good.cons (fun _ h => W8_of_ne m c _ (ne_hd h) (ne_hd (List.not_mem_of_not_mem_cons h))) <|
  Good.cons (fun _ h => StableHlo.after_of_writes_sub hostOps2 _ hostOps2_writes h) <|
  Good.cons (fun _ h => W10_of_ne m c _ (ne_hd h)) <|
  Good.cons (fun _ h => StableHlo.after_of_writes_sub hostOps3 _ hostOps3_writes h) <|
  Good.cons (fun _ h => W12_of_ne m c _ (ne_hd h) (ne_hd (List.not_mem_of_not_mem_cons h))) <|
  Good.cons (fun _ h => StableHlo.after_of_writes_sub hostOps4 _ hostOps4_writes h) <|
  Good.cons (fun _ h => W14_of_ne m c _ (ne_hd h) (ne_hd (List.not_mem_of_not_mem_cons h))) <|
  Good.cons (fun _ h => StableHlo.after_of_writes_sub hostOps5 _ hostOps5_writes h) <|
  Good.cons (fun _ h => StableHlo.after_of_writes_sub hostOps5_1 _ hostOps5_1_writes h) <|
  Good.cons (fun _ h => StableHlo.after_of_writes_sub hostOps5_2 _ hostOps5_2_writes h) <|
  Good.cons (fun _ h => StableHlo.after_of_writes_sub hostOps5_3 _ hostOps5_3_writes h) <|
  Good.cons (fun _ h => StableHlo.after_of_writes_sub hostOps5_4 _ hostOps5_4_writes h) <|
  Good.cons (fun _ h => StableHlo.after_of_writes_sub hostOps5_5 _ hostOps5_5_writes h) <|
  Good.cons (fun _ h => StableHlo.after_of_writes_sub hostOps5_6 _ hostOps5_6_writes h) <|
  Good.cons (fun _ h => StableHlo.after_of_writes_sub hostOps5_7 _ hostOps5_7_writes h) <|
  Good.cons (fun _ h => StableHlo.after_of_writes_sub hostOps5_8 _ hostOps5_8_writes h) <|
  Good.cons (fun _ h => W24_of_ne m c _ (ne_hd h)) <|
  Good.cons (fun _ h => StableHlo.after_of_writes_sub hostOps6 _ hostOps6_writes h) <|
  Good.cons (fun _ h => W26_of_ne m c _ (ne_hd h) (ne_hd (List.not_mem_of_not_mem_cons h))) <|
  Good.cons (fun _ h => StableHlo.after_of_writes_sub hostOps7 _ hostOps7_writes h) <|
  Good.cons (fun _ h => W28_of_ne m c _ (ne_hd h)) <|
  Good.cons (fun _ h => StableHlo.after_of_writes_sub hostOps8 _ hostOps8_writes h) <|
  Good.cons (fun _ h => W30_of_ne m c _ (ne_hd h) (ne_hd (List.not_mem_of_not_mem_cons h))) <|
  Good.cons (fun _ h => StableHlo.after_of_writes_sub hostOps9 _ hostOps9_writes h) <|
  Good.cons (fun _ h => StableHlo.after_of_writes_sub hostOps9_1 _ hostOps9_1_writes h) <|
  Good.cons (fun _ h => StableHlo.after_of_writes_sub hostOps9_2 _ hostOps9_2_writes h) <|
  Good.cons (fun _ h => StableHlo.after_of_writes_sub hostOps9_3 _ hostOps9_3_writes h) <|
  Good.cons (fun _ h => StableHlo.after_of_writes_sub hostOps9_4 _ hostOps9_4_writes h) <|
  Good.cons (fun _ h => StableHlo.after_of_writes_sub hostOps9_5 _ hostOps9_5_writes h) <|
  Good.cons (fun _ h => StableHlo.after_of_writes_sub hostOps9_6 _ hostOps9_6_writes h) <|
  Good.cons (fun _ h => StableHlo.after_of_writes_sub hostOps9_7 _ hostOps9_7_writes h) <|
  Good.cons (fun _ h => StableHlo.after_of_writes_sub hostOps9_8 _ hostOps9_8_writes h) <|
  Good.cons (fun _ h => W40_of_ne m c _ (ne_hd h)) <|
  Good.cons (fun _ h => StableHlo.after_of_writes_sub hostOps10 _ hostOps10_writes h) <|
  Good.cons (fun _ h => W42_of_ne m c _ (ne_hd h) (ne_hd (List.not_mem_of_not_mem_cons h))) <|
  Good.cons (fun _ h => StableHlo.after_of_writes_sub hostOps11 _ hostOps11_writes h) <|
  Good.cons (fun _ h => W44_of_ne m c _ (ne_hd h)) <|
  Good.cons (fun _ h => StableHlo.after_of_writes_sub hostOps12 _ hostOps12_writes h) <|
  Good.cons (fun _ h => W46_of_ne m c _ (ne_hd h) (ne_hd (List.not_mem_of_not_mem_cons h))) <|
  Good.cons (fun _ h => StableHlo.after_of_writes_sub hostOps13 _ hostOps13_writes h) <|
  trivial

private theorem LV_keep (c : Dev nD) (r : Ref sig .tc) (i n : ℕ) (h : i + n ≤ 47) (ho : Ok r WR i n) :
    (LV m c).getD (i + n) (W0 m c) (Proc.devRef .tc r) = (LV m c).getD i (W0 m c) (Proc.devRef .tc r) :=
  lv_keep r (good m c) i n (Nat.lt_succ_of_le h) h ho

attribute [local irreducible] W1 W2 W3 W4 W5 W6 W7 W8 W9 W10 W11 W12 W13 W14 W15 W16 W17 W18 W19 W20 W21 W22 W23 W24 W25 W26 W27 W28 W29 W30 W31 W32 W33 W34 W35 W36 W37 W38 W39 W40 W41 W42 W43 W44 W45 W46 W47

theorem keep_main_v0_1_13 (c : Dev nD) : W13 m c (Proc.devRef .tc main_v0) = W1 m c (Proc.devRef .tc main_v0) :=
  LV_keep m c main_v0 1 12 (by decide) (by repeat' first | trivial | constructor | decide)
theorem keep_main_arg7_0_12 (c : Dev nD) : W12 m c (Proc.devRef .tc main_arg7) = W0 m c (Proc.devRef .tc main_arg7) :=
  LV_keep m c main_arg7 0 12 (by decide) (by repeat' first | trivial | constructor | decide)
theorem keep_main_arg8_0_12 (c : Dev nD) : W12 m c (Proc.devRef .tc main_arg8) = W0 m c (Proc.devRef .tc main_arg8) :=
  LV_keep m c main_arg8 0 12 (by decide) (by repeat' first | trivial | constructor | decide)
theorem keep_main_arg9_0_12 (c : Dev nD) : W12 m c (Proc.devRef .tc main_arg9) = W0 m c (Proc.devRef .tc main_arg9) :=
  LV_keep m c main_arg9 0 12 (by decide) (by repeat' first | trivial | constructor | decide)
theorem keep_main_arg10_0_12 (c : Dev nD) : W12 m c (Proc.devRef .tc main_arg10) = W0 m c (Proc.devRef .tc main_arg10) :=
  LV_keep m c main_arg10 0 12 (by decide) (by repeat' first | trivial | constructor | decide)
theorem keep_main_v174_1_30_46 (c : Dev nD) : W46 m c (Proc.devRef .tc main_v174_1) = W30 m c (Proc.devRef .tc main_v174_1) :=
  LV_keep m c main_v174_1 30 16 (by decide) (by repeat' first | trivial | constructor | decide)
theorem keep_main_v77_1_12_47 (c : Dev nD) : W47 m c (Proc.devRef .tc main_v77_1) = W12 m c (Proc.devRef .tc main_v77_1) :=
  LV_keep m c main_v77_1 12 35 (by decide) (by repeat' first | trivial | constructor | decide)
theorem keep_main_v205_35_47 (c : Dev nD) : W47 m c (Proc.devRef .tc main_v205) = W35 m c (Proc.devRef .tc main_v205) :=
  LV_keep m c main_v205 35 12 (by decide) (by repeat' first | trivial | constructor | decide)
theorem keep_main_v282_1_46_47 (c : Dev nD) : W47 m c (Proc.devRef .tc main_v282_1) = W46 m c (Proc.devRef .tc main_v282_1) :=
  LV_keep m c main_v282_1 46 1 (by decide) ⟨by decide, trivial⟩
theorem keep_main_v205_35_39 (c : Dev nD) : W39 m c (Proc.devRef .tc main_v205) = W35 m c (Proc.devRef .tc main_v205) :=
  LV_keep m c main_v205 35 4 (by decide) ⟨by decide, by decide, by decide, by decide, trivial⟩
theorem keep_main_v206_35_39 (c : Dev nD) : W39 m c (Proc.devRef .tc main_v206) = W35 m c (Proc.devRef .tc main_v206) :=
  LV_keep m c main_v206 35 4 (by decide) ⟨by decide, by decide, by decide, by decide, trivial⟩
theorem keep_main_v81_0_14_23 (c : Dev nD) : W23 m c (Proc.devRef .tc main_v81_0) = W14 m c (Proc.devRef .tc main_v81_0) :=
  LV_keep m c main_v81_0 14 9 (by decide) (by repeat' first | trivial | constructor | decide)
theorem keep_main_v81_0_14_25 (c : Dev nD) : W25 m c (Proc.devRef .tc main_v81_0) = W14 m c (Proc.devRef .tc main_v81_0) :=
  LV_keep m c main_v81_0 14 11 (by decide) (by repeat' first | trivial | constructor | decide)
theorem keep_main_v83_15_24 (c : Dev nD) : W24 m c (Proc.devRef .tc main_v83) = W15 m c (Proc.devRef .tc main_v83) :=
  LV_keep m c main_v83 15 9 (by decide) (by repeat' first | trivial | constructor | decide)
theorem keep_main_v83_15_28 (c : Dev nD) : W28 m c (Proc.devRef .tc main_v83) = W15 m c (Proc.devRef .tc main_v83) :=
  LV_keep m c main_v83 15 13 (by decide) (by repeat' first | trivial | constructor | decide)
theorem keep_main_v85_15_24 (c : Dev nD) : W24 m c (Proc.devRef .tc main_v85) = W15 m c (Proc.devRef .tc main_v85) :=
  LV_keep m c main_v85 15 9 (by decide) (by repeat' first | trivial | constructor | decide)
theorem keep_main_v85_15_28 (c : Dev nD) : W28 m c (Proc.devRef .tc main_v85) = W15 m c (Proc.devRef .tc main_v85) :=
  LV_keep m c main_v85 15 13 (by decide) (by repeat' first | trivial | constructor | decide)
theorem keep_main_v97_18_24 (c : Dev nD) : W24 m c (Proc.devRef .tc main_v97) = W18 m c (Proc.devRef .tc main_v97) :=
  LV_keep m c main_v97 18 6 (by decide) (by repeat' first | trivial | constructor | decide)
theorem keep_main_v97_18_28 (c : Dev nD) : W28 m c (Proc.devRef .tc main_v97) = W18 m c (Proc.devRef .tc main_v97) :=
  LV_keep m c main_v97 18 10 (by decide) (by repeat' first | trivial | constructor | decide)
theorem keep_main_v108_22_24 (c : Dev nD) : W24 m c (Proc.devRef .tc main_v108) = W22 m c (Proc.devRef .tc main_v108) :=
  LV_keep m c main_v108 22 2 (by decide) ⟨by decide, by decide, trivial⟩
theorem keep_main_v108_22_28 (c : Dev nD) : W28 m c (Proc.devRef .tc main_v108) = W22 m c (Proc.devRef .tc main_v108) :=
  LV_keep m c main_v108 22 6 (by decide) (by repeat' first | trivial | constructor | decide)
theorem keep_main_v141_0_26_27 (c : Dev nD) : W27 m c (Proc.devRef .tc main_v141_0) = W26 m c (Proc.devRef .tc main_v141_0) :=
  LV_keep m c main_v141_0 26 1 (by decide) ⟨by decide, trivial⟩
theorem keep_main_v141_0_26_29 (c : Dev nD) : W29 m c (Proc.devRef .tc main_v141_0) = W26 m c (Proc.devRef .tc main_v141_0) :=
  LV_keep m c main_v141_0 26 3 (by decide) ⟨by decide, by decide, by decide, trivial⟩
theorem keep_main_v141_1_26_29 (c : Dev nD) : W29 m c (Proc.devRef .tc main_v141_1) = W26 m c (Proc.devRef .tc main_v141_1) :=
  LV_keep m c main_v141_1 26 3 (by decide) ⟨by decide, by decide, by decide, trivial⟩
theorem keep_main_arg3_0_14 (c : Dev nD) : W14 m c (Proc.devRef .tc main_arg3) = W0 m c (Proc.devRef .tc main_arg3) :=
  LV_keep m c main_arg3 0 14 (by decide) (by repeat' first | trivial | constructor | decide)
theorem keep_main_arg11_0_22 (c : Dev nD) : W22 m c (Proc.devRef .tc main_arg11) = W0 m c (Proc.devRef .tc main_arg11) :=
  LV_keep m c main_arg11 0 22 (by decide) (by repeat' first | trivial | constructor | decide)
theorem keep_main_arg11_0_26 (c : Dev nD) : W26 m c (Proc.devRef .tc main_arg11) = W0 m c (Proc.devRef .tc main_arg11) :=
  LV_keep m c main_arg11 0 26 (by decide) (by repeat' first | trivial | constructor | decide)
theorem keep_main_arg12_0_24 (c : Dev nD) : W24 m c (Proc.devRef .tc main_arg12) = W0 m c (Proc.devRef .tc main_arg12) :=
  LV_keep m c main_arg12 0 24 (by decide) (by repeat' first | trivial | constructor | decide)
theorem keep_main_arg12_0_28 (c : Dev nD) : W28 m c (Proc.devRef .tc main_arg12) = W0 m c (Proc.devRef .tc main_arg12) :=
  LV_keep m c main_arg12 0 28 (by decide) (by repeat' first | trivial | constructor | decide)
theorem keep_main_v81_1_14_30 (c : Dev nD) : W30 m c (Proc.devRef .tc main_v81_1) = W14 m c (Proc.devRef .tc main_v81_1) :=
  LV_keep m c main_v81_1 14 16 (by decide) (by repeat' first | trivial | constructor | decide)
theorem keep_main_arg3_0_30 (c : Dev nD) : W30 m c (Proc.devRef .tc main_arg3) = W0 m c (Proc.devRef .tc main_arg3) :=
  LV_keep m c main_arg3 0 30 (by decide) (by repeat' first | trivial | constructor | decide)
theorem keep_main_v212_39_40 (c : Dev nD) : W40 m c (Proc.devRef .tc main_v212) = W39 m c (Proc.devRef .tc main_v212) :=
  LV_keep m c main_v212 39 1 (by decide) ⟨by decide, trivial⟩
theorem keep_main_v212_39_44 (c : Dev nD) : W44 m c (Proc.devRef .tc main_v212) = W39 m c (Proc.devRef .tc main_v212) :=
  LV_keep m c main_v212 39 5 (by decide) (by repeat' first | trivial | constructor | decide)
theorem keep_main_v213_39_40 (c : Dev nD) : W40 m c (Proc.devRef .tc main_v213) = W39 m c (Proc.devRef .tc main_v213) :=
  LV_keep m c main_v213 39 1 (by decide) ⟨by decide, trivial⟩
theorem keep_main_v213_39_44 (c : Dev nD) : W44 m c (Proc.devRef .tc main_v213) = W39 m c (Proc.devRef .tc main_v213) :=
  LV_keep m c main_v213 39 5 (by decide) (by repeat' first | trivial | constructor | decide)
theorem keep_main_v242_39_40 (c : Dev nD) : W40 m c (Proc.devRef .tc main_v242) = W39 m c (Proc.devRef .tc main_v242) :=
  LV_keep m c main_v242 39 1 (by decide) ⟨by decide, trivial⟩
theorem keep_main_v242_39_44 (c : Dev nD) : W44 m c (Proc.devRef .tc main_v242) = W39 m c (Proc.devRef .tc main_v242) :=
  LV_keep m c main_v242 39 5 (by decide) (by repeat' first | trivial | constructor | decide)
theorem keep_main_v206_39_41 (c : Dev nD) : W41 m c (Proc.devRef .tc main_v206) = W39 m c (Proc.devRef .tc main_v206) :=
  LV_keep m c main_v206 39 2 (by decide) ⟨by decide, by decide, trivial⟩
theorem keep_main_v262_0_42_43 (c : Dev nD) : W43 m c (Proc.devRef .tc main_v262_0) = W42 m c (Proc.devRef .tc main_v262_0) :=
  LV_keep m c main_v262_0 42 1 (by decide) ⟨by decide, trivial⟩
theorem keep_main_v262_0_42_45 (c : Dev nD) : W45 m c (Proc.devRef .tc main_v262_0) = W42 m c (Proc.devRef .tc main_v262_0) :=
  LV_keep m c main_v262_0 42 3 (by decide) ⟨by decide, by decide, by decide, trivial⟩
theorem keep_main_v262_1_42_45 (c : Dev nD) : W45 m c (Proc.devRef .tc main_v262_1) = W42 m c (Proc.devRef .tc main_v262_1) :=
  LV_keep m c main_v262_1 42 3 (by decide) ⟨by decide, by decide, by decide, trivial⟩
theorem keep_main_arg4_0_34 (c : Dev nD) : W34 m c (Proc.devRef .tc main_arg4) = W0 m c (Proc.devRef .tc main_arg4) :=
  LV_keep m c main_arg4 0 34 (by decide) (by repeat' first | trivial | constructor | decide)
theorem keep_main_arg5_0_34 (c : Dev nD) : W34 m c (Proc.devRef .tc main_arg5) = W0 m c (Proc.devRef .tc main_arg5) :=
  LV_keep m c main_arg5 0 34 (by decide) (by repeat' first | trivial | constructor | decide)
theorem keep_main_arg13_0_34 (c : Dev nD) : W34 m c (Proc.devRef .tc main_arg13) = W0 m c (Proc.devRef .tc main_arg13) :=
  LV_keep m c main_arg13 0 34 (by decide) (by repeat' first | trivial | constructor | decide)
theorem keep_main_arg13_0_42 (c : Dev nD) : W42 m c (Proc.devRef .tc main_arg13) = W0 m c (Proc.devRef .tc main_arg13) :=
  LV_keep m c main_arg13 0 42 (by decide) (by repeat' first | trivial | constructor | decide)
theorem keep_main_arg14_0_40 (c : Dev nD) : W40 m c (Proc.devRef .tc main_arg14) = W0 m c (Proc.devRef .tc main_arg14) :=
  LV_keep m c main_arg14 0 40 (by decide) (by repeat' first | trivial | constructor | decide)
theorem keep_main_arg14_0_44 (c : Dev nD) : W44 m c (Proc.devRef .tc main_arg14) = W0 m c (Proc.devRef .tc main_arg14) :=
  LV_keep m c main_arg14 0 44 (by decide) (by repeat' first | trivial | constructor | decide)

end Cert.KernelIdeal.Hand

end
-- ==== Proof.KISlices.lean ====
import proofs.«131905_j73031623901536_2_alg».proof.Proof.Gen.KernelIdeal
import proofs.«131905_j73031623901536_2_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

theorem after_hostOps13_v283 (Y : Valuation τ sig (Elt F)) :
    after hostOps13 Y (Proc.devRef .tc main_v283) = extractStridedSlice S20000x128 ![0, 0] (Y (Proc.devRef .tc main_v174_1)) slices_S40000x128_S20000x128_0_0 := by
  after_results
theorem after_hostOps13_v284 (Y : Valuation τ sig (Elt F)) :
    after hostOps13 Y (Proc.devRef .tc main_v284) = extractStridedSlice S15000x128 ![20000, 0] (Y (Proc.devRef .tc main_v174_1)) slices_S40000x128_S15000x128_20000_0 := by
  after_results
theorem after_hostOps13_v285 (Y : Valuation τ sig (Elt F)) :
    after hostOps13 Y (Proc.devRef .tc main_v285) = extractStridedSlice S5000x128 ![35000, 0] (Y (Proc.devRef .tc main_v174_1)) slices_S40000x128_S5000x128_35000_0 := by
  after_results

end Cert.KernelIdeal.Hand

end
-- ==== Proof.RefSlices.lean ====
import proofs.«131905_j73031623901536_2_alg».proof.Proof.Gen.ReferenceIdeal
import proofs.«131905_j73031623901536_2_alg».proof.Proof.RefRun
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev sliceOps : List (HloOp τ sig (Elt F)) :=
  [ StableHlo.unary main_v271 main_v450 ((extractStridedSlice S20000x128 ![0, 0] · slices_S40000x128_S20000x128_0_0) : (⟨S40000x128, .f32⟩ : BufTy).Contents (Elt F) → (⟨S20000x128, .f32⟩ : BufTy).Contents (Elt F)),
    StableHlo.unary main_v271 main_v451 ((extractStridedSlice S15000x128 ![20000, 0] · slices_S40000x128_S15000x128_20000_0) : (⟨S40000x128, .f32⟩ : BufTy).Contents (Elt F) → (⟨S15000x128, .f32⟩ : BufTy).Contents (Elt F)),
    StableHlo.unary main_v271 main_v452 ((extractStridedSlice S5000x128 ![35000, 0] · slices_S40000x128_S5000x128_35000_0) : (⟨S40000x128, .f32⟩ : BufTy).Contents (Elt F) → (⟨S5000x128, .f32⟩ : BufTy).Contents (Elt F)) ]

/-- The last chunk ends with the three row slices of the final embedding. -/
theorem ops26_eq : (ops26 : List (HloOp τ sig (Elt F))) = ops26.take 41 ++ sliceOps := rfl

theorem after_ops26 (X : Valuation τ sig (Elt F)) : after ops26 X = after sliceOps (after (ops26.take 41) X) := by
  conv_lhs => rw [ops26_eq]
  exact StableHlo.after_append _ _ _

theorem after_sliceOps_v271 (Y : Valuation τ sig (Elt F)) : after sliceOps Y (Proc.devRef .tc main_v271) = Y (Proc.devRef .tc main_v271) := by
  after_results

theorem after_sliceOps_v450 (Y : Valuation τ sig (Elt F)) :
    after sliceOps Y (Proc.devRef .tc main_v450) = extractStridedSlice S20000x128 ![0, 0] (Y (Proc.devRef .tc main_v271)) slices_S40000x128_S20000x128_0_0 := by
  after_results
theorem after_sliceOps_v451 (Y : Valuation τ sig (Elt F)) :
    after sliceOps Y (Proc.devRef .tc main_v451) = extractStridedSlice S15000x128 ![20000, 0] (Y (Proc.devRef .tc main_v271)) slices_S40000x128_S15000x128_20000_0 := by
  after_results
theorem after_sliceOps_v452 (Y : Valuation τ sig (Elt F)) :
    after sliceOps Y (Proc.devRef .tc main_v452) = extractStridedSlice S5000x128 ![35000, 0] (Y (Proc.devRef .tc main_v271)) slices_S40000x128_S5000x128_35000_0 := by
  after_results

theorem after_ops_slice_v450 (V : Valuation τ sig (Elt F)) :
    after ops V (Proc.devRef .tc main_v450) = extractStridedSlice S20000x128 ![0, 0] (after ops V (Proc.devRef .tc main_v271)) slices_S40000x128_S20000x128_0_0 := by
  rw [after_ops, after_ops26, after_sliceOps_v450, after_sliceOps_v271]
theorem after_ops_slice_v451 (V : Valuation τ sig (Elt F)) :
    after ops V (Proc.devRef .tc main_v451) = extractStridedSlice S15000x128 ![20000, 0] (after ops V (Proc.devRef .tc main_v271)) slices_S40000x128_S15000x128_20000_0 := by
  rw [after_ops, after_ops26, after_sliceOps_v451, after_sliceOps_v271]
theorem after_ops_slice_v452 (V : Valuation τ sig (Elt F)) :
    after ops V (Proc.devRef .tc main_v452) = extractStridedSlice S5000x128 ![35000, 0] (after ops V (Proc.devRef .tc main_v271)) slices_S40000x128_S5000x128_35000_0 := by
  rw [after_ops, after_ops26, after_sliceOps_v452, after_sliceOps_v271]

end Cert.ReferenceIdeal.Hand

end
-- ==== Proof.SlicesBridge.lean ====
import proofs.«131905_j73031623901536_2_alg».proof.Proof.KILevels
import proofs.«131905_j73031623901536_2_alg».proof.Proof.KISlices
import proofs.«131905_j73031623901536_2_alg».proof.Proof.RefSlices
import Idealize.ShloMosaic.PureOps.Ideal

noncomputable section

namespace Cert.Bridge

open Idealize.ShloMosaic Idealize.ShloMosaic.TcCoe Idealize.SL.Sem

theorem slices_bridge
    (mK : (ℓ : Loc Cert.KernelIdeal.nD Cert.KernelIdeal.τ Cert.KernelIdeal.sig) → Buf (Elt Ideal) ℓ)
    (mR : (ℓ : Loc Cert.ReferenceIdeal.nD Cert.ReferenceIdeal.τ Cert.ReferenceIdeal.sig) → Buf (Elt Ideal) ℓ) (c : Dev Cert.KernelIdeal.nD)
    (hC : Cert.KernelIdeal.Hand.W30 mK c (Proc.devRef .tc Cert.KernelIdeal.main_v174_1) = StableHlo.after Cert.ReferenceIdeal.Hand.ops (StableHlo.launchContents mR c) (Proc.devRef .tc Cert.ReferenceIdeal.main_v271))
    (keep : Cert.KernelIdeal.Hand.W46 mK c (Proc.devRef .tc Cert.KernelIdeal.main_v174_1) = Cert.KernelIdeal.Hand.W30 mK c (Proc.devRef .tc Cert.KernelIdeal.main_v174_1)) :
    Cert.KernelIdeal.Hand.W47 mK c (Proc.devRef .tc Cert.KernelIdeal.main_v283) = StableHlo.after Cert.ReferenceIdeal.Hand.ops (StableHlo.launchContents mR c) (Proc.devRef .tc Cert.ReferenceIdeal.main_v450)
    ∧ Cert.KernelIdeal.Hand.W47 mK c (Proc.devRef .tc Cert.KernelIdeal.main_v284) = StableHlo.after Cert.ReferenceIdeal.Hand.ops (StableHlo.launchContents mR c) (Proc.devRef .tc Cert.ReferenceIdeal.main_v451)
    ∧ Cert.KernelIdeal.Hand.W47 mK c (Proc.devRef .tc Cert.KernelIdeal.main_v285) = StableHlo.after Cert.ReferenceIdeal.Hand.ops (StableHlo.launchContents mR c) (Proc.devRef .tc Cert.ReferenceIdeal.main_v452) :=
  ⟨(congrFun (Cert.KernelIdeal.Hand.W47_def mK c) _).trans ((Cert.KernelIdeal.Hand.after_hostOps13_v283 (Cert.KernelIdeal.Hand.W46 mK c)).trans (by rewrite [keep, hC]; exact (Cert.ReferenceIdeal.Hand.after_ops_slice_v450 _).symm)),
   (congrFun (Cert.KernelIdeal.Hand.W47_def mK c) _).trans ((Cert.KernelIdeal.Hand.after_hostOps13_v284 (Cert.KernelIdeal.Hand.W46 mK c)).trans (by rewrite [keep, hC]; exact (Cert.ReferenceIdeal.Hand.after_ops_slice_v451 _).symm)),
   (congrFun (Cert.KernelIdeal.Hand.W47_def mK c) _).trans ((Cert.KernelIdeal.Hand.after_hostOps13_v285 (Cert.KernelIdeal.Hand.W46 mK c)).trans (by rewrite [keep, hC]; exact (Cert.ReferenceIdeal.Hand.after_ops_slice_v452 _).symm))⟩

end Cert.Bridge

end
-- ==== Proof.KIRowBlocks.lean ====
import Idealize.ShloMosaic.Lib.Pipeline.Value
import Idealize.ShloMosaic.Lib.ValueIdx

namespace Cert.KernelIdeal.Hand

open Idealize.ShloMosaic Idealize.ShloMosaic.ValueIdx
open Idealize.ShloMosaic.Pipeline (Grid Window)

-- Every element of a whole array lies under some block as soon as every index of its shape lies in some block's ranges.
theorem cover_of_ranges {sig : RefSig} {G : Grid} (w : Window sig G) (hflush : ∀ t, w.flush t = true)
    (hwhole : Function.Surjective w.arr.view.emb)
    (hb : ∀ j : w.shape.Idx, ∃ t : Fin G.N, ∀ a, w.index t a * w.size a ≤ (j a).val
      ∧ (j a).val < w.index t a * w.size a + w.xsize (G.coords t) a)
    (i : w.arr.view.ty.Idx) : ∃ t : Fin G.N, w.flush t = true ∧ i ∈ (w.blk t).view.set := by
  obtain ⟨j, rfl⟩ := hwhole i
  obtain ⟨t, ht⟩ := hb j
  have hj : j ∈ (w.rect t).set := Rect.mem_set_unit.2 ht
  rw [← Rect.map_emb_univ] at hj
  obtain ⟨y, -, rfl⟩ := Finset.mem_map.1 hj
  exact ⟨t, hflush t, (w.blk t).view.emb_mem_set y⟩

-- Row r of 1000 * g rows lies in block r / 1000 of 1000 rows, and every lane in the one block of 128 lanes.
theorem rowTiles {N g n : Nat} (hN : N = g) (hn : n = 1000 * g) (ix : Fin N → Fin 2 → Nat)
    (h0 : ∀ t : Fin N, ix t 0 = t.val) (h1 : ∀ t : Fin N, ix t 1 = 0) (j : (⟨2, ![n, 128]⟩ : Shape).Idx) :
    ∃ t : Fin N, ∀ a : Fin 2, ix t a * (⟨2, ![1000, 128]⟩ : Shape).size a ≤ (j a).val
      ∧ (j a).val < ix t a * (⟨2, ![1000, 128]⟩ : Shape).size a + (⟨2, ![1000, 128]⟩ : Shape).size a := by
  have hj0 := idx2_lt0 j
  have hj1 := idx2_lt1 j
  obtain ⟨t, ht⟩ : ∃ t : Fin N, t.val = (j 0).val / 1000 := ⟨⟨(j 0).val / 1000, by omega⟩, rfl⟩
  have e0 := h0 t
  have e1 := h1 t
  refine ⟨t, fun a => ?_⟩
  match a with
  | ⟨0, _⟩ => show ix t (0 : Fin 2) * 1000 ≤ (j 0).val ∧ (j 0).val < ix t (0 : Fin 2) * 1000 + 1000; omega
  | ⟨1, _⟩ => show ix t (1 : Fin 2) * 128 ≤ (j 1).val ∧ (j 1).val < ix t (1 : Fin 2) * 128 + 128; omega

theorem origin2_eq_zero : (![0, 0] : Fin 2 → Nat) = fun _ => 0 := funext fun a => by
  match a with
  | ⟨0, _⟩ => rfl
  | ⟨1, _⟩ => rfl

-- On a one-axis grid the point number is its own coordinate, also as a 32-bit word: the three grids' sizes.
theorem rowIdx5 : ∀ t : Fin (Grid.N ⟨1, ![5], ![false]⟩),
    (BitVec.ofNat 32 ((Grid.coords ⟨1, ![5], ![false]⟩ t) 0).val).toNat = t.val := by decide +kernel
theorem rowIdx40 : ∀ t : Fin (Grid.N ⟨1, ![40], ![false]⟩),
    (BitVec.ofNat 32 ((Grid.coords ⟨1, ![40], ![false]⟩ t) 0).val).toNat = t.val := by decide +kernel
theorem rowIdx30 : ∀ t : Fin (Grid.N ⟨1, ![30], ![false]⟩),
    (BitVec.ofNat 32 ((Grid.coords ⟨1, ![30], ![false]⟩ t) 0).val).toNat = t.val := by decide +kernel

end Cert.KernelIdeal.Hand
-- ==== Proof.KIMatBlock.lean ====
import proofs.«131905_j73031623901536_2_alg».proof.KernelIdeal
import proofs.«131905_j73031623901536_2_alg».proof.Proof.Gen.KernelIdeal
import proofs.«131905_j73031623901536_2_alg».proof.Proof.KIRowBlocks
import Idealize.ShloMosaic.Lib.ValueIdx
import Idealize.ShloMosaic.PureOps.Ideal.Laws
import Mathlib.Algebra.BigOperators.Group.Finset.Basic

noncomputable section

namespace Cert.KernelIdeal.Hand

open Cert.KernelIdeal
open Idealize.ShloMosaic Idealize.ShloMosaic.ValueIdx

-- Accumulated from zero over the one contracted axis, entry (p, q) of the product is the sum of row p times column q.
theorem blockProduct_apply {φ₁ φ₂ : FTy} (a : FVec Ideal S1000x128 φ₁) (b : FVec Ideal S128x128 φ₂) (p : Fin 1000) (q : Fin 128) :
    matmul dot_S1000x128_S128x128_S1000x128_1_0_0_1_n_n none a b (constant (F := Ideal) S1000x128 .f32 0x00000000#32) (ix2 p q)
      = ∑ k : Fin 128, a (ix2 p k) * b (ix2 k q) := by
  show FloatOps.matmul dot_S1000x128_S128x128_S1000x128_1_0_0_1_n_n none a b (constant (F := Ideal) S1000x128 .f32 0x00000000#32) (ix2 p q) = _
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have l0 : ∀ r, (dot_S1000x128_S128x128_S1000x128_1_0_0_1_n_n.lhsIdx (ix2 p q) r 0).val = p.val := fun r => by
    unfold DotDims.lhsIdx
    rw [dif_neg (show ¬(0 : Fin S1000x128.rank) ∈ dot_S1000x128_S128x128_S1000x128_1_0_0_1_n_n.lhsBatch by decide),
      dif_pos (show (0 : Fin S1000x128.rank) ∈ dot_S1000x128_S128x128_S1000x128_1_0_0_1_n_n.lhsNonContracting by decide)]
    rfl
  have r1 : ∀ r, (dot_S1000x128_S128x128_S1000x128_1_0_0_1_n_n.rhsIdx (ix2 p q) r 1).val = q.val := fun r => by
    unfold DotDims.rhsIdx
    rw [dif_neg (show ¬(1 : Fin S128x128.rank) ∈ dot_S1000x128_S128x128_S1000x128_1_0_0_1_n_n.rhsBatch by decide),
      dif_pos (show (1 : Fin S128x128.rank) ∈ dot_S1000x128_S128x128_S1000x128_1_0_0_1_n_n.rhsNonContracting by decide)]
    rfl
  rw [show dot_S1000x128_S128x128_S1000x128_1_0_0_1_n_n.lhsIdx (ix2 p q) ((contrEquiv1 dot_S1000x128_S128x128_S1000x128_1_0_0_1_n_n 128 rfl rfl).symm k) = ix2 p k from
      Shape.idx_ext₂ (l0 _) ((dot_S1000x128_S128x128_S1000x128_1_0_0_1_n_n.lhsIdx_val_of_single rfl _ _).trans hk),
    show dot_S1000x128_S128x128_S1000x128_1_0_0_1_n_n.rhsIdx (ix2 p q) ((contrEquiv1 dot_S1000x128_S128x128_S1000x128_1_0_0_1_n_n 128 rfl rfl).symm k) = ix2 k q from
      Shape.idx_ext₂ ((dot_S1000x128_S128x128_S1000x128_1_0_0_1_n_n.rhsIdx_val_of_single rfl _ _).trans hk) (r1 _)]

def rowsTimes {n : Nat} (A : (⟨2, ![n, 128]⟩ : Shape).Idx → EReal) (W : (⟨2, ![128, 128]⟩ : Shape).Idx → EReal) :
    (⟨2, ![n, 128]⟩ : Shape).Idx → EReal :=
  fun i => ∑ k : Fin 128, A (ix2 (i 0) k) * W (ix2 k (i 1))

-- If f is the block product, x0's row r is row (e y 0) of A wherever y has row r, and x1 is W, then entry y of f x0 x1 is entry e y of A times W.
theorem stored_eq_rowsTimes {n : Nat} (A : (⟨2, ![n, 128]⟩ : Shape).Idx → EReal) (W : (⟨2, ![128, 128]⟩ : Shape).Idx → EReal)
    (f : Vec Ideal S1000x128 .f32 → Vec Ideal S128x128 .f32 → Vec Ideal S1000x128 .f32)
    (hf : ∀ x0 x1 (p : Fin 1000) (q : Fin 128), f x0 x1 (ix2 p q) = ∑ k : Fin 128, x0 (ix2 p k) * x1 (ix2 k q))
    (x0 : Vec Ideal S1000x128 .f32) (x1 : Vec Ideal S128x128 .f32)
    (i0 : ∀ a, (![0, 0] : Fin 2 → Nat) a + S1000x128.size a ≤ S1000x128.size a)
    (i1 : ∀ a, (![0, 0] : Fin 2 → Nat) a + S128x128.size a ≤ S128x128.size a)
    (e : S1000x128.Idx → (⟨2, ![n, 128]⟩ : Shape).Idx)
    (h0 : ∀ (y : S1000x128.Idx) (k : Fin 128), x0 (ix2 (y 0) k) = A (ix2 (e y 0) k))
    (h1 : ∀ (y : S1000x128.Idx) (k : Fin 128), x1 (ix2 k (y 1)) = W (ix2 k (e y 1)))
    (y : S1000x128.Idx) :
    View.canon [(⟨Rect.unit ![0, 0] S1000x128.size i0,
        f (View.ld x0 (Rect.unit ![0, 0] S1000x128.size i0)) (View.ld x1 (Rect.unit ![0, 0] S128x128.size i1))⟩ :
          View.Piece (Elt Ideal) S1000x128 .f32)] y
      = rowsTimes A W (e y) := by
  rw [View.canon_unit_zero origin2_eq_zero]
  simp only [View.ld_unit_zero (S := S1000x128) origin2_eq_zero, View.ld_unit_zero (S := S128x128) origin2_eq_zero]
  show _ = ∑ k : Fin 128, A (ix2 (e y 0) k) * W (ix2 k (e y 1))
  refine ((congrArg (f x0 x1) (eq_ix2 y)).trans (hf x0 x1 (y 0) (y 1))).trans (Finset.sum_congr rfl fun k _ => ?_)
  rw [h0 y k, h1 y k]

end Cert.KernelIdeal.Hand

end
-- ==== Proof.KIMatValue0.lean ====
import proofs.«131905_j73031623901536_2_alg».proof.Proof.KIRegion0
import proofs.«131905_j73031623901536_2_alg».proof.Proof.KIMatBlock
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

-- Grid point t contributes rows 1000 t … 1000 t + 999 of the product, and these row blocks tile the rows.
theorem matmul_array0 (c : Dev nD) :
    (dat0 V c).arrAt 2 cfg0.N = rowsTimes (V c main_arg2 : S5000x128.Idx → EReal) (V c main_v39 : S128x128.Idx → EReal) := by
  refine (dat0 V c).arrAt_eq_of_cover 2 _ (fun t _ => ?_)
    (cover_of_ranges win0_2 flush0_2 (fun i => ⟨i, rfl⟩) (rowTiles N_0 rfl win0_2.index rowIdx5 fun _ => rfl))
  show (cfg0.win 2).cut (grid0.coords t) ((dat0 V c).after 2 t) = _
  rw [after0_2]
  unfold out0_2
  funext y
  refine stored_eq_rowsTimes _ _ k0_pay1 (fun x0 x1 p q => ?_) (iblk0 V c 0 t) (iblk0 V c 1 t) _ _
    ((cfg0.win 2).blk t).view.emb (fun y k => ?_) (fun y k => ?_) y
  · unfold k0_pay1
    simp only [shapeCast_self]
    exact blockProduct_apply _ _ p q
  · show (V c main_arg2 : S5000x128.Idx → EReal) (((cfg0.win 0).blk t).view.emb (ix2 (y 0) k)) = _
    exact congrArg _ (Shape.idx_ext₂ rfl (win0_0.rect_emb_val_of_index_zero t (1 : Fin 2) rfl _))
  · show (V c main_v39 : S128x128.Idx → EReal) (((cfg0.win 1).blk t).view.emb (ix2 k (y 1))) = _
    exact congrArg _ (Shape.idx_ext₂ (win0_1.rect_emb_val_of_index_zero t (0 : Fin 2) rfl _) rfl)

end Cert.KernelIdeal.Hand

end
-- ==== Proof.KIMatValue2.lean ====
import proofs.«131905_j73031623901536_2_alg».proof.Proof.KIRegion2
import proofs.«131905_j73031623901536_2_alg».proof.Proof.KIMatBlock
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

-- Grid point t contributes rows 1000 t … 1000 t + 999 of the product, and these row blocks tile the rows.
theorem matmul_array2 (c : Dev nD) :
    (dat2 V c).arrAt 2 cfg2.N = rowsTimes (V c main_v57_0 : S5000x128.Idx → EReal) (V c main_v59 : S128x128.Idx → EReal) := by
  refine (dat2 V c).arrAt_eq_of_cover 2 _ (fun t _ => ?_)
    (cover_of_ranges win2_2 flush2_2 (fun i => ⟨i, rfl⟩) (rowTiles N_2 rfl win2_2.index rowIdx5 fun _ => rfl))
  show (cfg2.win 2).cut (grid2.coords t) ((dat2 V c).after 2 t) = _
  rw [after2_2]
  unfold out2_2
  funext y
  refine stored_eq_rowsTimes _ _ k2_pay1 (fun x0 x1 p q => ?_) (iblk2 V c 0 t) (iblk2 V c 1 t) _ _
    ((cfg2.win 2).blk t).view.emb (fun y k => ?_) (fun y k => ?_) y
  · unfold k2_pay1
    simp only [shapeCast_self]
    exact blockProduct_apply _ _ p q
  · show (V c main_v57_0 : S5000x128.Idx → EReal) (((cfg2.win 0).blk t).view.emb (ix2 (y 0) k)) = _
    exact congrArg _ (Shape.idx_ext₂ rfl (win2_0.rect_emb_val_of_index_zero t (1 : Fin 2) rfl _))
  · show (V c main_v59 : S128x128.Idx → EReal) (((cfg2.win 1).blk t).view.emb (ix2 k (y 1))) = _
    exact congrArg _ (Shape.idx_ext₂ (win2_1.rect_emb_val_of_index_zero t (0 : Fin 2) rfl _) rfl)

end Cert.KernelIdeal.Hand

end
-- ==== Proof.KICombPoint.lean ====
import proofs.«131905_j73031623901536_2_alg».proof.Proof.KIRowBlocks
import Idealize.ShloMosaic.Lib.Pipeline.Value
import Idealize.ShloMosaic.Lib.ValueIdx
import Idealize.ShloMosaic.PureOps.Ideal

noncomputable section

namespace Cert.KernelIdeal.Hand

open Idealize.ShloMosaic Idealize.ShloMosaic.ValueIdx

def newX (a b x : EReal) : EReal :=
  Scalar.select (Ideal.cmp .oge (a + b) (Ideal.ofBits .f32 0x00000000#32)) (a + b)
      (Ideal.ofBits .f32 0x3C23D70A#32 * (a + b))
    + x

def newR (a b x r s : EReal) : EReal := r + newX a b x * s

def layerOut {n : Nat} (A : (⟨2, ![n, 128]⟩ : Shape).Idx → EReal) (B : (⟨2, ![1, 128]⟩ : Shape).Idx → EReal)
    (X : (⟨2, ![n, 128]⟩ : Shape).Idx → EReal) : (⟨2, ![n, 128]⟩ : Shape).Idx → EReal :=
  fun i => newX (A i) (B (ix2 0 (i 1))) (X i)

def layerRes {n : Nat} (s : EReal) (A : (⟨2, ![n, 128]⟩ : Shape).Idx → EReal) (B : (⟨2, ![1, 128]⟩ : Shape).Idx → EReal)
    (X R : (⟨2, ![n, 128]⟩ : Shape).Idx → EReal) : (⟨2, ![n, 128]⟩ : Shape).Idx → EReal :=
  fun i => newR (A i) (B (ix2 0 (i 1))) (X i) (R i) s

theorem layerOut_apply {n : Nat} (A : (⟨2, ![n, 128]⟩ : Shape).Idx → EReal) (B : (⟨2, ![1, 128]⟩ : Shape).Idx → EReal)
    (X : (⟨2, ![n, 128]⟩ : Shape).Idx → EReal) (i : Fin n) (j : Fin 128) :
    layerOut A B X (ix2 i j) = newX (A (ix2 i j)) (B (ix2 0 j)) (X (ix2 i j)) := rfl

theorem layerRes_apply {n : Nat} (s : EReal) (A : (⟨2, ![n, 128]⟩ : Shape).Idx → EReal) (B : (⟨2, ![1, 128]⟩ : Shape).Idx → EReal)
    (X R : (⟨2, ![n, 128]⟩ : Shape).Idx → EReal) (i : Fin n) (j : Fin 128) :
    layerRes s A B X R (ix2 i j) = newR (A (ix2 i j)) (B (ix2 0 j)) (X (ix2 i j)) (R (ix2 i j)) s := rfl

-- A one-row array broadcast over m rows has, at any index, the row's entry in that index's lane.
theorem bias_row_at {m : Nat} (h : (⟨2, ![1, 128]⟩ : Shape).Broadcasts ⟨2, ![m, 128]⟩)
    (x1 : (⟨2, ![1, 128]⟩ : Shape).Idx → EReal) (j : (⟨2, ![m, 128]⟩ : Shape).Idx) :
    broadcastTo ⟨2, ![m, 128]⟩ x1 h j = x1 (ix2 0 (j 1)) :=
  broadcastTo_apply x1 h j (ix2 0 (j 1)) fun a => by
    match a with
    | ⟨0, _⟩ => rfl
    | ⟨1, _⟩ => rfl

-- If f is newX entry by entry and each operand block agrees with its array along e, the block f leaves is the block of layerOut along e.
theorem stored_eq_layerOut {n : Nat} (A : (⟨2, ![n, 128]⟩ : Shape).Idx → EReal) (B : (⟨2, ![1, 128]⟩ : Shape).Idx → EReal)
    (X : (⟨2, ![n, 128]⟩ : Shape).Idx → EReal)
    (f : Vec Ideal (⟨2, ![1000, 128]⟩ : Shape) .f32 → Vec Ideal (⟨2, ![1, 128]⟩ : Shape) .f32 → Vec Ideal (⟨2, ![1000, 128]⟩ : Shape) .f32 → Vec Ideal (⟨2, ![1000, 128]⟩ : Shape) .f32)
    (hf : ∀ x0 x1 x2 (j : (⟨2, ![1000, 128]⟩ : Shape).Idx), f x0 x1 x2 j = newX (x0 j) (x1 (ix2 0 (j 1))) (x2 j))
    (x0 : Vec Ideal (⟨2, ![1000, 128]⟩ : Shape) .f32) (x1 : Vec Ideal (⟨2, ![1, 128]⟩ : Shape) .f32) (x2 : Vec Ideal (⟨2, ![1000, 128]⟩ : Shape) .f32)
    (i0 : ∀ a, (![0, 0] : Fin 2 → Nat) a + (⟨2, ![1000, 128]⟩ : Shape).size a ≤ (⟨2, ![1000, 128]⟩ : Shape).size a)
    (i1 : ∀ a, (![0, 0] : Fin 2 → Nat) a + (⟨2, ![1, 128]⟩ : Shape).size a ≤ (⟨2, ![1, 128]⟩ : Shape).size a)
    (e : (⟨2, ![1000, 128]⟩ : Shape).Idx → (⟨2, ![n, 128]⟩ : Shape).Idx)
    (h0 : ∀ y, x0 y = A (e y)) (h1 : ∀ y, x1 (ix2 0 (y 1)) = B (ix2 0 (e y 1))) (h2 : ∀ y, x2 y = X (e y))
    (y : (⟨2, ![1000, 128]⟩ : Shape).Idx) :
    View.canon [(⟨Rect.unit ![0, 0] (⟨2, ![1000, 128]⟩ : Shape).size i0,
        f (View.ld x0 (Rect.unit ![0, 0] (⟨2, ![1000, 128]⟩ : Shape).size i0)) (View.ld x1 (Rect.unit ![0, 0] (⟨2, ![1, 128]⟩ : Shape).size i1))
          (View.ld x2 (Rect.unit ![0, 0] (⟨2, ![1000, 128]⟩ : Shape).size i0))⟩ : View.Piece (Elt Ideal) (⟨2, ![1000, 128]⟩ : Shape) .f32)] y
      = layerOut A B X (e y) := by
  rw [View.canon_unit_zero origin2_eq_zero]
  simp only [View.ld_unit_zero (S := (⟨2, ![1000, 128]⟩ : Shape)) origin2_eq_zero, View.ld_unit_zero (S := (⟨2, ![1, 128]⟩ : Shape)) origin2_eq_zero]
  rw [hf, h0, h1, h2]
  rfl

-- The same for the advanced residual sum, with a fourth operand block and the multiple s.
theorem stored_eq_layerRes {n : Nat} (s : EReal) (A : (⟨2, ![n, 128]⟩ : Shape).Idx → EReal) (B : (⟨2, ![1, 128]⟩ : Shape).Idx → EReal)
    (X R : (⟨2, ![n, 128]⟩ : Shape).Idx → EReal)
    (f : Vec Ideal (⟨2, ![1000, 128]⟩ : Shape) .f32 → Vec Ideal (⟨2, ![1, 128]⟩ : Shape) .f32 → Vec Ideal (⟨2, ![1000, 128]⟩ : Shape) .f32 → Vec Ideal (⟨2, ![1000, 128]⟩ : Shape) .f32 → Vec Ideal (⟨2, ![1000, 128]⟩ : Shape) .f32)
    (hf : ∀ x0 x1 x2 x3 (j : (⟨2, ![1000, 128]⟩ : Shape).Idx), f x0 x1 x2 x3 j = newR (x0 j) (x1 (ix2 0 (j 1))) (x2 j) (x3 j) s)
    (x0 : Vec Ideal (⟨2, ![1000, 128]⟩ : Shape) .f32) (x1 : Vec Ideal (⟨2, ![1, 128]⟩ : Shape) .f32) (x2 x3 : Vec Ideal (⟨2, ![1000, 128]⟩ : Shape) .f32)
    (i0 : ∀ a, (![0, 0] : Fin 2 → Nat) a + (⟨2, ![1000, 128]⟩ : Shape).size a ≤ (⟨2, ![1000, 128]⟩ : Shape).size a)
    (i1 : ∀ a, (![0, 0] : Fin 2 → Nat) a + (⟨2, ![1, 128]⟩ : Shape).size a ≤ (⟨2, ![1, 128]⟩ : Shape).size a)
    (e : (⟨2, ![1000, 128]⟩ : Shape).Idx → (⟨2, ![n, 128]⟩ : Shape).Idx)
    (h0 : ∀ y, x0 y = A (e y)) (h1 : ∀ y, x1 (ix2 0 (y 1)) = B (ix2 0 (e y 1))) (h2 : ∀ y, x2 y = X (e y))
    (h3 : ∀ y, x3 y = R (e y)) (y : (⟨2, ![1000, 128]⟩ : Shape).Idx) :
    View.canon [(⟨Rect.unit ![0, 0] (⟨2, ![1000, 128]⟩ : Shape).size i0,
        f (View.ld x0 (Rect.unit ![0, 0] (⟨2, ![1000, 128]⟩ : Shape).size i0)) (View.ld x1 (Rect.unit ![0, 0] (⟨2, ![1, 128]⟩ : Shape).size i1))
          (View.ld x2 (Rect.unit ![0, 0] (⟨2, ![1000, 128]⟩ : Shape).size i0)) (View.ld x3 (Rect.unit ![0, 0] (⟨2, ![1000, 128]⟩ : Shape).size i0))⟩ :
            View.Piece (Elt Ideal) (⟨2, ![1000, 128]⟩ : Shape) .f32)] y
      = layerRes s A B X R (e y) := by
  rw [View.canon_unit_zero origin2_eq_zero]
  simp only [View.ld_unit_zero (S := (⟨2, ![1000, 128]⟩ : Shape)) origin2_eq_zero, View.ld_unit_zero (S := (⟨2, ![1, 128]⟩ : Shape)) origin2_eq_zero]
  rw [hf, h0, h1, h2, h3]
  rfl

end Cert.KernelIdeal.Hand

end
-- ==== Proof.KICombValue1.lean ====
import proofs.«131905_j73031623901536_2_alg».proof.Proof.KIRegion1
import proofs.«131905_j73031623901536_2_alg».proof.Proof.KICombPoint
import Idealize.ShloMosaic.Lib.Pipeline.Value
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem pay1_1_at (x0 : Vec Ideal S1000x128 .f32) (x1 : Vec Ideal S1x128 .f32) (x2 : Vec Ideal S1000x128 .f32)
    (j : S1000x128.Idx) : k1_pay1 x0 x1 x2 j = newX (x0 j) (x1 (ix2 0 (j 1))) (x2 j) := by
  unfold k1_pay1 newX
  simp only [shapeCast_self]
  rw [← bias_row_at broadcasts_S1x128_S1000x128 x1 j]
  rfl

theorem pay1_2_at (x0 : Vec Ideal S1000x128 .f32) (x1 : Vec Ideal S1x128 .f32) (x2 x3 : Vec Ideal S1000x128 .f32)
    (j : S1000x128.Idx) :
    k1_pay2 x0 x1 x2 x3 j = newR (x0 j) (x1 (ix2 0 (j 1))) (x2 j) (x3 j) (Ideal.ofBits .f32 0x3F000000#32) := by
  unfold k1_pay2 newR
  try simp only [shapeCast_self]
  rw [← pay1_1_at x0 x1 x2 j]
  rfl

variable (V : (c : Dev nD) → (b : Ref sig .tc) → Buf (Elt Ideal) ((c : Thread nD τ).loc b))

-- The bias row's one block is the row itself, and an entry's lane in the array is its lane in the block.
theorem bias1 (c : Dev nD) (t : Fin cfg1.N) (y : S1000x128.Idx) :
    iblk1 V c 1 t (ix2 0 (y 1)) = V c main_v56 (ix2 0 (((cfg1.win 5).blk t).view.emb y 1)) :=
  show V c main_v56 (((cfg1.win 1).blk t).view.emb (ix2 0 (y 1))) = _ from
    congrArg _ (Shape.idx_ext₂ (win1_1.rect_emb_val_of_index_zero t (0 : Fin 2) rfl _) rfl)

theorem final1_4 (c : Dev nD) :
    (dat1 V c).arrAt 4 cfg1.N = layerOut (V c main_v53) (V c main_v56) (V c main_arg2) := by
  refine (dat1 V c).arrAt_eq_of_cover 4 _ (fun t _ => ?_)
    (cover_of_ranges win1_4 flush1_4 (fun i => ⟨i, rfl⟩) (rowTiles N_1 rfl win1_4.index rowIdx5 fun _ => rfl))
  show (cfg1.win 4).cut (grid1.coords t) ((dat1 V c).after 4 t) = _
  rw [after1_4]
  unfold out1_4
  funext y
  exact stored_eq_layerOut _ _ _ k1_pay1 pay1_1_at (iblk1 V c 0 t) (iblk1 V c 1 t) (iblk1 V c 2 t) _ _
    ((cfg1.win 4).blk t).view.emb (fun _ => rfl) (bias1 V c t) (fun _ => rfl) y

theorem final1_5 (c : Dev nD) :
    (dat1 V c).arrAt 5 cfg1.N
      = layerRes (Ideal.ofBits .f32 0x3F000000#32) (V c main_v53) (V c main_v56) (V c main_arg2) (V c main_arg2) := by
  refine (dat1 V c).arrAt_eq_of_cover 5 _ (fun t _ => ?_)
    (cover_of_ranges win1_5 flush1_5 (fun i => ⟨i, rfl⟩) (rowTiles N_1 rfl win1_5.index rowIdx5 fun _ => rfl))
  show (cfg1.win 5).cut (grid1.coords t) ((dat1 V c).after 5 t) = _
  rw [after1_5]
  unfold out1_5
  funext y
  exact stored_eq_layerRes _ _ _ _ _ k1_pay2 pay1_2_at (iblk1 V c 0 t) (iblk1 V c 1 t) (iblk1 V c 2 t)
    (iblk1 V c 3 t) _ _ ((cfg1.win 5).blk t).view.emb (fun _ => rfl) (bias1 V c t) (fun _ => rfl) (fun _ => rfl) y

end Cert.KernelIdeal.Hand

end
-- ==== Proof.KICombValue3.lean ====
import proofs.«131905_j73031623901536_2_alg».proof.Proof.KIRegion3
import proofs.«131905_j73031623901536_2_alg».proof.Proof.KICombPoint
import Idealize.ShloMosaic.Lib.Pipeline.Value
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem pay3_1_at (x0 : Vec Ideal S1000x128 .f32) (x1 : Vec Ideal S1x128 .f32) (x2 : Vec Ideal S1000x128 .f32)
    (j : S1000x128.Idx) : k3_pay1 x0 x1 x2 j = newX (x0 j) (x1 (ix2 0 (j 1))) (x2 j) := by
  unfold k3_pay1 newX
  simp only [shapeCast_self]
  rw [← bias_row_at broadcasts_S1x128_S1000x128 x1 j]
  rfl

theorem pay3_2_at (x0 : Vec Ideal S1000x128 .f32) (x1 : Vec Ideal S1x128 .f32) (x2 x3 : Vec Ideal S1000x128 .f32)
    (j : S1000x128.Idx) :
    k3_pay2 x0 x1 x2 x3 j = newR (x0 j) (x1 (ix2 0 (j 1))) (x2 j) (x3 j) (Ideal.ofBits .f32 0x3EAAAAAB#32) := by
  unfold k3_pay2 newR
  try simp only [shapeCast_self]
  rw [← pay3_1_at x0 x1 x2 j]
  rfl

variable (V : (c : Dev nD) → (b : Ref sig .tc) → Buf (Elt Ideal) ((c : Thread nD τ).loc b))

-- The bias row's one block is the row itself, and an entry's lane in the array is its lane in the block.
theorem bias3 (c : Dev nD) (t : Fin cfg3.N) (y : S1000x128.Idx) :
    iblk3 V c 1 t (ix2 0 (y 1)) = V c main_v76 (ix2 0 (((cfg3.win 5).blk t).view.emb y 1)) :=
  show V c main_v76 (((cfg3.win 1).blk t).view.emb (ix2 0 (y 1))) = _ from
    congrArg _ (Shape.idx_ext₂ (win3_1.rect_emb_val_of_index_zero t (0 : Fin 2) rfl _) rfl)

theorem final3_5 (c : Dev nD) :
    (dat3 V c).arrAt 5 cfg3.N
      = layerRes (Ideal.ofBits .f32 0x3EAAAAAB#32) (V c main_v73) (V c main_v76) (V c main_v57_0) (V c main_v57_1) := by
  refine (dat3 V c).arrAt_eq_of_cover 5 _ (fun t _ => ?_)
    (cover_of_ranges win3_5 flush3_5 (fun i => ⟨i, rfl⟩) (rowTiles N_3 rfl win3_5.index rowIdx5 fun _ => rfl))
  show (cfg3.win 5).cut (grid3.coords t) ((dat3 V c).after 5 t) = _
  rw [after3_5]
  unfold out3_5
  funext y
  exact stored_eq_layerRes _ _ _ _ _ k3_pay2 pay3_2_at (iblk3 V c 0 t) (iblk3 V c 1 t) (iblk3 V c 2 t)
    (iblk3 V c 3 t) _ _ ((cfg3.win 5).blk t).view.emb (fun _ => rfl) (bias3 V c t) (fun _ => rfl) (fun _ => rfl) y

end Cert.KernelIdeal.Hand

end
-- ==== Proof.KICombRef.lean ====
import proofs.«131905_j73031623901536_2_alg».proof.ReferenceIdeal
import proofs.«131905_j73031623901536_2_alg».proof.Proof.KICombPoint
import Idealize.ShloMosaic.Lib.Pipeline.Value
import Idealize.ShloMosaic.Lib.ValueIdx
import Idealize.ShloMosaic.PureOps.Ideal

noncomputable section

namespace Cert.KernelIdeal.Hand

open Idealize.ShloMosaic Idealize.ShloMosaic.ValueIdx

variable {n : Nat}

-- The bias row broadcast along both axes over n rows has, at any index, the row's entry in that index's lane.
theorem ref_bias_at (hb : (⟨2, ![1, 128]⟩ : Shape).BroadcastsInDim ⟨2, ![n, 128]⟩ (![0, 1] : Fin 2 → Fin 2))
    (bias : FVec Ideal ⟨2, ![1, 128]⟩ .f32) (k : (⟨2, ![n, 128]⟩ : Shape).Idx) :
    broadcastInDim ⟨2, ![n, 128]⟩ ![0, 1] hb bias k = bias (ix2 0 (k 1)) :=
  broadcastInDim_apply _ hb bias k (ix2 0 (k 1)) fun a => by
    match a with
    | ⟨0, _⟩ => rfl
    | ⟨1, _⟩ => rfl

def refLayerX (hb : (⟨2, ![1, 128]⟩ : Shape).BroadcastsInDim ⟨2, ![n, 128]⟩ (![0, 1] : Fin 2 → Fin 2))
    (hs : (⟨0, ![]⟩ : Shape).BroadcastsInDim ⟨2, ![n, 128]⟩ (![] : Fin 0 → Fin 2))
    (agg : FVec Ideal ⟨2, ![n, 128]⟩ .f32) (bias : FVec Ideal ⟨2, ![1, 128]⟩ .f32) (x : FVec Ideal ⟨2, ![n, 128]⟩ .f32) :
    FVec Ideal ⟨2, ![n, 128]⟩ .f32 :=
  addf
    (select
      (cmpf .oge (addf agg (broadcastInDim ⟨2, ![n, 128]⟩ ![0, 1] hb bias))
        (broadcastInDim ⟨2, ![n, 128]⟩ ![] hs (constant (F := Ideal) ⟨0, ![]⟩ .f32 0x00000000#32)))
      (addf agg (broadcastInDim ⟨2, ![n, 128]⟩ ![0, 1] hb bias))
      (mulf (broadcastInDim ⟨2, ![n, 128]⟩ ![] hs (constant (F := Ideal) ⟨0, ![]⟩ .f32 0x3C23D70A#32))
        (addf agg (broadcastInDim ⟨2, ![n, 128]⟩ ![0, 1] hb bias))))
    x

def refLayerR (hb : (⟨2, ![1, 128]⟩ : Shape).BroadcastsInDim ⟨2, ![n, 128]⟩ (![0, 1] : Fin 2 → Fin 2))
    (hs : (⟨0, ![]⟩ : Shape).BroadcastsInDim ⟨2, ![n, 128]⟩ (![] : Fin 0 → Fin 2)) (sbits : BitVec 32)
    (agg : FVec Ideal ⟨2, ![n, 128]⟩ .f32) (bias : FVec Ideal ⟨2, ![1, 128]⟩ .f32) (x r : FVec Ideal ⟨2, ![n, 128]⟩ .f32) :
    FVec Ideal ⟨2, ![n, 128]⟩ .f32 :=
  addf r (mulf (refLayerX hb hs agg bias x) (broadcastInDim ⟨2, ![n, 128]⟩ ![] hs (constant (F := Ideal) ⟨0, ![]⟩ .f32 sbits)))

-- Entry by entry the whole-array operations are newX of the entries: the same comparison, product, selection and sums in the same order.
theorem refLayerX_eq (hb : (⟨2, ![1, 128]⟩ : Shape).BroadcastsInDim ⟨2, ![n, 128]⟩ (![0, 1] : Fin 2 → Fin 2))
    (hs : (⟨0, ![]⟩ : Shape).BroadcastsInDim ⟨2, ![n, 128]⟩ (![] : Fin 0 → Fin 2))
    (agg : FVec Ideal ⟨2, ![n, 128]⟩ .f32) (bias : FVec Ideal ⟨2, ![1, 128]⟩ .f32) (x : FVec Ideal ⟨2, ![n, 128]⟩ .f32) :
    refLayerX hb hs agg bias x = layerOut agg bias x := by
  funext k
  unfold refLayerX layerOut newX
  rw [← ref_bias_at hb bias k]
  rfl

theorem refLayerR_eq (hb : (⟨2, ![1, 128]⟩ : Shape).BroadcastsInDim ⟨2, ![n, 128]⟩ (![0, 1] : Fin 2 → Fin 2))
    (hs : (⟨0, ![]⟩ : Shape).BroadcastsInDim ⟨2, ![n, 128]⟩ (![] : Fin 0 → Fin 2)) (sbits : BitVec 32)
    (agg : FVec Ideal ⟨2, ![n, 128]⟩ .f32) (bias : FVec Ideal ⟨2, ![1, 128]⟩ .f32) (x r : FVec Ideal ⟨2, ![n, 128]⟩ .f32) :
    refLayerR hb hs sbits agg bias x r = layerRes (Ideal.ofBits .f32 sbits) agg bias x r := by
  unfold refLayerR
  rw [refLayerX_eq]
  rfl

end Cert.KernelIdeal.Hand

end
-- ==== Proof.DotPlain.lean ====
import Idealize.ShloMosaic.Lib.ValueIdx
import Idealize.ShloMosaic.PureOps.Ideal.Laws
import Mathlib.Algebra.BigOperators.Group.Finset.Basic

noncomputable section

open scoped BigOperators

namespace Cert.Bridge

open Idealize.ShloMosaic Idealize.ShloMosaic.ValueIdx

variable {M K N : Nat} {φ₁ φ₂ : FTy}

/-- For rows times columns with one contracted axis, the contraction index is its one coordinate: the left operand is read at (i, k), the right at (k, j). -/
theorem sum_plain (x : FVec Ideal ⟨2, ![M, K]⟩ φ₁) (w : FVec Ideal ⟨2, ![K, N]⟩ φ₂) (i : Fin M) (j : Fin N) :
    ∑ q : (DotDims.plain M K N).contr.Idx, x ((DotDims.plain M K N).lhsIdx (ix2 i j) q) * w ((DotDims.plain M K N).rhsIdx (ix2 i j) q)
      = ∑ k : Fin K, x (ix2 i k) * w (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by match a with | ⟨0, _⟩ => rfl | ⟨1, _⟩ => exact hk)
  have er : (DotDims.plain M K N).rhsIdx (ix2 i j) ((contrEquiv1 (DotDims.plain M K N) K rfl rfl).symm k) = ix2 k j :=
    funext fun a => Fin.ext (by match a with | ⟨0, _⟩ => exact hk | ⟨1, _⟩ => rfl)
  rw [el, er]

/-- The reference's product at an entry is that sum. -/
theorem dot_plain_apply (x : FVec Ideal ⟨2, ![M, K]⟩ φ₁) (w : FVec Ideal ⟨2, ![K, N]⟩ φ₂) (i : Fin M) (j : Fin N) :
    Host.dotGeneral (F := Ideal) (DotDims.plain M K N) none x w (ix2 i j) = ∑ k : Fin K, x (ix2 i k) * w (ix2 k j) :=
  (Ideal.dotGeneral_apply _ _ _ x w _).trans (sum_plain x w i j)

/-- A product accumulated into zero is, at an entry, that sum. -/
theorem matmul_plain_apply (x : FVec Ideal ⟨2, ![M, K]⟩ φ₁) (w : FVec Ideal ⟨2, ![K, N]⟩ φ₂) (i : Fin M) (j : Fin N) :
    FloatOps.matmul (DotDims.plain M K N) none x w (constant ⟨2, ![M, N]⟩ .f32 0x00000000#32) (ix2 i j)
      = ∑ k : Fin K, x (ix2 i k) * w (ix2 k j) :=
  (Ideal.matmul_constant_zero_apply (DotDims.plain M K N) none x w (ix2 i j)).trans (sum_plain x w i j)

end Cert.Bridge

end
-- ==== Proof.RefDot.lean ====
import proofs.«131905_j73031623901536_2_alg».proof.ReferenceIdeal
import proofs.«131905_j73031623901536_2_alg».proof.Proof.Gen.ReferenceIdeal
import proofs.«131905_j73031623901536_2_alg».proof.Proof.DotPlain
import Idealize.ShloMosaic.Lib.ValueIdx
import Idealize.ShloMosaic.PureOps.Ideal.Laws
import Mathlib.Algebra.BigOperators.Group.Finset.Basic

noncomputable section

namespace Cert.Bridge

open Cert.ReferenceIdeal
open Idealize.ShloMosaic Idealize.ShloMosaic.ValueIdx

theorem ref_dot_5000 (x : FVec Ideal S5000x128 .f32) (w : FVec Ideal S128x128 .f32) (i : Fin 5000) (j : Fin 128) :
    Host.dotGeneral (F := Ideal) dot_S5000x128_S128x128_S5000x128_1_0_0_1_n_n none x w (ix2 i j) = ∑ k : Fin 128, x (ix2 i k) * w (ix2 k j) :=
  dot_plain_apply x w i j

theorem ref_dot_40000 (x : FVec Ideal S40000x128 .f32) (w : FVec Ideal S128x128 .f32) (i : Fin 40000) (j : Fin 128) :
    Host.dotGeneral (F := Ideal) dot_S40000x128_S128x128_S40000x128_1_0_0_1_n_n none x w (ix2 i j) = ∑ k : Fin 128, x (ix2 i k) * w (ix2 k j) :=
  dot_plain_apply x w i j

theorem ref_dot_30000 (x : FVec Ideal S30000x128 .f32) (w : FVec Ideal S128x128 .f32) (i : Fin 30000) (j : Fin 128) :
    Host.dotGeneral (F := Ideal) dot_S30000x128_S128x128_S30000x128_1_0_0_1_n_n none x w (ix2 i j) = ∑ k : Fin 128, x (ix2 i k) * w (ix2 k j) :=
  dot_plain_apply x w i j

end Cert.Bridge

end
-- ==== Proof.BridgeDdiPure.lean ====
import proofs.«131905_j73031623901536_2_alg».proof.Proof.Gen.KernelIdeal
import proofs.«131905_j73031623901536_2_alg».proof.Proof.Gen.ReferenceIdeal
import Idealize.ShloMosaic.Lib.StableHlo.Run

set_option maxRecDepth 8192

noncomputable section

namespace Cert.Bridge.Ddi

open Idealize.ShloMosaic Idealize.ShloMosaic.TcCoe Idealize.SL.Sem Idealize.ShloMosaic.StableHlo

variable {F : FTy → Type} [FloatOps F]

section Pure
open Cert.KernelIdeal Cert.KernelIdeal.Gen

def one : (⟨S_, .f32⟩ : BufTy).Contents (Elt F) := constant S_ .f32 0x3F800000#32
def zero : (⟨S_, .f32⟩ : BufTy).Contents (Elt F) := constant S_ .f32 0x00000000#32
def mhalf : (⟨S_, .f32⟩ : BufTy).Contents (Elt F) := constant S_ .f32 0xBF000000#32

def rowS (a6 : (⟨S2x100000, .i32⟩ : BufTy).Contents (Elt F)) : (⟨S100000, .i32⟩ : BufTy).Contents (Elt F) :=
  shapeCast S100000 (extractStridedSlice S1x100000 ![0, 0] a6 slices_S2x100000_S1x100000_0_0) shapeCasts_S1x100000_S100000
def colS (a6 : (⟨S2x100000, .i32⟩ : BufTy).Contents (Elt F)) : (⟨S100000, .i32⟩ : BufTy).Contents (Elt F) :=
  shapeCast S100000 (extractStridedSlice S1x100000 ![1, 0] a6 slices_S2x100000_S1x100000_1_0) shapeCasts_S1x100000_S100000

def iota5k : (⟨S5000, .i32⟩ : BufTy).Contents (Elt F) := iotaInDim S5000 32 0
def ones100k : (⟨S100000, .f32⟩ : BufTy).Contents (Elt F) := broadcastInDim S100000 ![] bcast_S_S100000 one
def ones5k : (⟨S5000, .f32⟩ : BufTy).Contents (Elt F) := broadcastInDim S5000 ![] bcast_S_S5000 one

def cat2i (a : (⟨S100000, .i32⟩ : BufTy).Contents (Elt F)) (b : (⟨S5000, .i32⟩ : BufTy).Contents (Elt F)) : (⟨S105000, .i32⟩ : BufTy).Contents (Elt F) :=
  concatenate S105000 0 [⟨S100000, a⟩, ⟨S5000, b⟩] concatenates_S100000_S5000_S105000_d0
def cat2f (a : (⟨S100000, .f32⟩ : BufTy).Contents (Elt F)) (b : (⟨S5000, .f32⟩ : BufTy).Contents (Elt F)) : (⟨S105000, .f32⟩ : BufTy).Contents (Elt F) :=
  concatenate S105000 0 [⟨S100000, a⟩, ⟨S5000, b⟩] concatenates_S100000_S5000_S105000_d0
def row2F (a6 : (⟨S2x100000, .i32⟩ : BufTy).Contents (Elt F)) : (⟨S105000, .i32⟩ : BufTy).Contents (Elt F) := cat2i (rowS a6) iota5k
def col2F (a6 : (⟨S2x100000, .i32⟩ : BufTy).Contents (Elt F)) : (⟨S105000, .i32⟩ : BufTy).Contents (Elt F) := cat2i (colS a6) iota5k

def ew2F : (⟨S105000, .f32⟩ : BufTy).Contents (Elt F) := cat2f (F := F) ones100k ones5k

def degF (col2 : (⟨S105000, .i32⟩ : BufTy).Contents (Elt F)) (ew2 : (⟨S105000, .f32⟩ : BufTy).Contents (Elt F)) : (⟨S5000, .f32⟩ : BufTy).Contents (Elt F) :=
  Host.scatterAdd scatter_S5000_S105000x1_S105000_n_0_0_1 (broadcastInDim S5000 ![] bcast_S_S5000 zero)
    (broadcastInDim S105000x1 ![0] bcast_S105000_S105000x1_0 col2) ew2

def posF (deg : (⟨S5000, .f32⟩ : BufTy).Contents (Elt F)) : (⟨S5000, .i1⟩ : BufTy).Contents (Elt F) :=
  cmpf .ogt deg (broadcastInDim S5000 ![] bcast_S_S5000 zero)

def whereF (mask : (⟨S5000, .i1⟩ : BufTy).Contents (Elt F)) (x : (⟨S5000, .f32⟩ : BufTy).Contents (Elt F)) (s : (⟨S_, .f32⟩ : BufTy).Contents (Elt F)) : (⟨S5000, .f32⟩ : BufTy).Contents (Elt F) :=
  select mask x (broadcastInDim S5000 ![] bcast_S_S5000 s)

def powmhF (x : (⟨S5000, .f32⟩ : BufTy).Contents (Elt F)) : (⟨S5000, .f32⟩ : BufTy).Contents (Elt F) :=
  Host.powf x (broadcastInDim S5000 ![] bcast_S_S5000 mhalf)

def disF (deg : (⟨S5000, .f32⟩ : BufTy).Contents (Elt F)) : (⟨S5000, .f32⟩ : BufTy).Contents (Elt F) :=
  whereF (posF deg) (powmhF (whereF (posF deg) deg one)) zero

def wrapF (i : (⟨S105000, .i32⟩ : BufTy).Contents (Elt F)) : (⟨S105000, .i32⟩ : BufTy).Contents (Elt F) :=
  select (cmpi .slt i (broadcastInDim S105000 ![] bcast_S_S105000 (constantI S_ 32 0#32)))
    (addi i (broadcastInDim S105000 ![] bcast_S_S105000 (constantI S_ 32 5000#32))) i

def normF (dis : (⟨S5000, .f32⟩ : BufTy).Contents (Elt F)) (row2 col2 : (⟨S105000, .i32⟩ : BufTy).Contents (Elt F)) (ew2 : (⟨S105000, .f32⟩ : BufTy).Contents (Elt F)) : (⟨S105000, .f32⟩ : BufTy).Contents (Elt F) :=
  mulf (mulf (Host.gather gather_S5000_S105000x1_S105000_n_0_n_n_0_1_1 dis (broadcastInDim S105000x1 ![0] bcast_S105000_S105000x1_0 (wrapF row2))) ew2)
    (Host.gather gather_S5000_S105000x1_S105000_n_0_n_n_0_1_1 dis (broadcastInDim S105000x1 ![0] bcast_S105000_S105000x1_0 (wrapF col2)))

def normAll (a6 : (⟨S2x100000, .i32⟩ : BufTy).Contents (Elt F)) : (⟨S105000, .f32⟩ : BufTy).Contents (Elt F) :=
  normF (disF (degF (col2F a6) ew2F)) (row2F a6) (col2F a6) ew2F

def aggF (xw : (⟨S5000x128, .f32⟩ : BufTy).Contents (Elt F)) (widx : (⟨S105000, .i32⟩ : BufTy).Contents (Elt F)) (norm : (⟨S105000, .f32⟩ : BufTy).Contents (Elt F)) (col2 : (⟨S105000, .i32⟩ : BufTy).Contents (Elt F)) : (⟨S5000x128, .f32⟩ : BufTy).Contents (Elt F) :=
  Host.scatterAdd scatter_S5000x128_S105000x1_S105000x128_1_0_0_1 (broadcastInDim S5000x128 ![] bcast_S_S5000x128 zero)
    (broadcastInDim S105000x1 ![0] bcast_S105000_S105000x1_0 col2)
    (mulf (Host.gather gather_S5000x128_S105000x1_S105000x128_1_0_n_n_0_1_1128 xw (broadcastInDim S105000x1 ![0] bcast_S105000_S105000x1_0 widx))
      (broadcastInDim S105000x128 ![0, 1] bcast_S105000x1_S105000x128_0_1 (broadcastInDim S105000x1 ![0] bcast_S105000_S105000x1_0 norm)))

def w0F (a15 : (⟨S2x128x128, .f32⟩ : BufTy).Contents (Elt F)) : (⟨S128x128, .f32⟩ : BufTy).Contents (Elt F) :=
  shapeCast S128x128 (extractStridedSlice S1x128x128 ![0, 0, 0] a15 slices_S2x128x128_S1x128x128_0_0_0) shapeCasts_S1x128x128_S128x128
def w1F (a15 : (⟨S2x128x128, .f32⟩ : BufTy).Contents (Elt F)) : (⟨S128x128, .f32⟩ : BufTy).Contents (Elt F) :=
  shapeCast S128x128 (extractStridedSlice S1x128x128 ![1, 0, 0] a15 slices_S2x128x128_S1x128x128_1_0_0) shapeCasts_S1x128x128_S128x128

def b0V (a16 : (⟨S2x128, .f32⟩ : BufTy).Contents (Elt F)) : (⟨S128, .f32⟩ : BufTy).Contents (Elt F) :=
  shapeCast S128 (extractStridedSlice S1x128 ![0, 0] a16 slices_S2x128_S1x128_0_0) shapeCasts_S1x128_S128
def b1V (a16 : (⟨S2x128, .f32⟩ : BufTy).Contents (Elt F)) : (⟨S128, .f32⟩ : BufTy).Contents (Elt F) :=
  shapeCast S128 (extractStridedSlice S1x128 ![1, 0] a16 slices_S2x128_S1x128_1_0) shapeCasts_S1x128_S128
def rowOf (b : (⟨S128, .f32⟩ : BufTy).Contents (Elt F)) : (⟨S1x128, .f32⟩ : BufTy).Contents (Elt F) := shapeCast S1x128 b shapeCasts_S128_S1x128

end Pure

section PureR
open Cert.ReferenceIdeal Cert.ReferenceIdeal.Gen

def dotR (x : (⟨S5000x128, .f32⟩ : BufTy).Contents (Elt F)) (w : (⟨S128x128, .f32⟩ : BufTy).Contents (Elt F)) : (⟨S5000x128, .f32⟩ : BufTy).Contents (Elt F) :=
  Host.dotGeneral dot_S5000x128_S128x128_S5000x128_1_0_0_1_n_n none x w

def rowR (b : (⟨S128, .f32⟩ : BufTy).Contents (Elt F)) : (⟨S1x128, .f32⟩ : BufTy).Contents (Elt F) := broadcastInDim S1x128 ![1] bcast_S128_S1x128_1 b

def convF (agg : (⟨S5000x128, .f32⟩ : BufTy).Contents (Elt F)) (brow : (⟨S1x128, .f32⟩ : BufTy).Contents (Elt F)) : (⟨S5000x128, .f32⟩ : BufTy).Contents (Elt F) :=
  addf agg (broadcastInDim S5000x128 ![0, 1] bcast_S1x128_S5000x128_0_1 brow)

def leakyF (y : (⟨S5000x128, .f32⟩ : BufTy).Contents (Elt F)) : (⟨S5000x128, .f32⟩ : BufTy).Contents (Elt F) :=
  select (cmpf .oge y (broadcastInDim S5000x128 ![] bcast_S_S5000x128 (constant S_ .f32 0x00000000#32))) y
    (mulf (broadcastInDim S5000x128 ![] bcast_S_S5000x128 (constant S_ .f32 0x3C23D70A#32)) y)

def layerXF (agg : (⟨S5000x128, .f32⟩ : BufTy).Contents (Elt F)) (brow : (⟨S1x128, .f32⟩ : BufTy).Contents (Elt F)) (xold : (⟨S5000x128, .f32⟩ : BufTy).Contents (Elt F)) : (⟨S5000x128, .f32⟩ : BufTy).Contents (Elt F) :=
  addf (leakyF (convF agg brow)) xold

def resF (s : BitVec 32) (res xnew : (⟨S5000x128, .f32⟩ : BufTy).Contents (Elt F)) : (⟨S5000x128, .f32⟩ : BufTy).Contents (Elt F) :=
  addf res (mulf xnew (broadcastInDim S5000x128 ![] bcast_S_S5000x128 (constant S_ .f32 s)))

end PureR

end Cert.Bridge.Ddi

end
-- ==== Proof.BridgeDdiK.lean ====
import proofs.«131905_j73031623901536_2_alg».proof.Proof.Gen.KernelIdeal.Launch
import proofs.«131905_j73031623901536_2_alg».proof.Proof.BridgeDdiPure
import Idealize.ShloMosaic.Lib.StableHlo.Run

set_option maxRecDepth 8192

noncomputable section

namespace Cert.Bridge.Ddi

open Idealize.ShloMosaic Idealize.ShloMosaic.TcCoe Idealize.SL.Sem Idealize.ShloMosaic.StableHlo

variable {F : FTy → Type} [FloatOps F]

macro "after_results2" : tactic =>
  `(tactic| (after_results_simp
             repeat (first
               | rw [nullary_result] | rw [unary_result] | rw [binary_result] | rw [ternary_result] | rw [quaternary_result]
               | rw [reshape_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

section K
open Cert.KernelIdeal Cert.KernelIdeal.Gen
variable (V : Valuation τ sig (Elt F))

abbrev K5 (V : Valuation τ sig (Elt F)) : Valuation τ sig (Elt F) :=
  StableHlo.after hostOps0_4 (StableHlo.after hostOps0_3 (StableHlo.after hostOps0_2 (StableHlo.after hostOps0_1 (StableHlo.after hostOps0 V))))

set_option maxHeartbeats 4000000 in

theorem K5_row2 : K5 V (Proc.devRef .tc main_v7) = row2F (V (Proc.devRef .tc main_arg6)) := by
  after_results2
  rfl
set_option maxHeartbeats 4000000 in

theorem K5_col2 : K5 V (Proc.devRef .tc main_v8) = col2F (V (Proc.devRef .tc main_arg6)) := by
  after_results2
  rfl
set_option maxHeartbeats 4000000 in

theorem K5_norm : K5 V (Proc.devRef .tc main_v37) = normAll (V (Proc.devRef .tc main_arg6)) := by
  after_results2
  rfl
set_option maxHeartbeats 4000000 in

theorem K5_w0 : K5 V (Proc.devRef .tc main_v39) = w0F (V (Proc.devRef .tc main_arg15)) := by
  after_results2
  rfl
set_option maxHeartbeats 4000000 in
theorem K5_keep_arg2 : K5 V (Proc.devRef .tc main_arg2) = V (Proc.devRef .tc main_arg2) := by
  after_results_simp
set_option maxHeartbeats 4000000 in
theorem K5_keep_arg15 : K5 V (Proc.devRef .tc main_arg15) = V (Proc.devRef .tc main_arg15) := by
  after_results_simp
set_option maxHeartbeats 4000000 in
theorem K5_keep_arg16 : K5 V (Proc.devRef .tc main_arg16) = V (Proc.devRef .tc main_arg16) := by
  after_results_simp

theorem K7_agg : StableHlo.after hostOps1 V (Proc.devRef .tc main_v53)
    = aggF (V (Proc.devRef .tc main_v40)) (wrapF (V (Proc.devRef .tc main_v7))) (V (Proc.devRef .tc main_v37)) (V (Proc.devRef .tc main_v8)) := by
  after_results2
  rfl
theorem K7_bias : StableHlo.after hostOps1 V (Proc.devRef .tc main_v56) = rowOf (b0V (V (Proc.devRef .tc main_arg16))) := by
  after_results2
  rfl
theorem K7_keep_arg2 : StableHlo.after hostOps1 V (Proc.devRef .tc main_arg2) = V (Proc.devRef .tc main_arg2) := by
  after_results_simp
theorem K7_keep_arg15 : StableHlo.after hostOps1 V (Proc.devRef .tc main_arg15) = V (Proc.devRef .tc main_arg15) := by
  after_results_simp
theorem K7_keep_arg16 : StableHlo.after hostOps1 V (Proc.devRef .tc main_arg16) = V (Proc.devRef .tc main_arg16) := by
  after_results_simp
theorem K7_keep_v7 : StableHlo.after hostOps1 V (Proc.devRef .tc main_v7) = V (Proc.devRef .tc main_v7) := by
  after_results_simp
theorem K7_keep_v8 : StableHlo.after hostOps1 V (Proc.devRef .tc main_v8) = V (Proc.devRef .tc main_v8) := by
  after_results_simp
theorem K7_keep_v37 : StableHlo.after hostOps1 V (Proc.devRef .tc main_v37) = V (Proc.devRef .tc main_v37) := by
  after_results_simp

theorem K9_w1 : StableHlo.after hostOps2 V (Proc.devRef .tc main_v59) = w1F (V (Proc.devRef .tc main_arg15)) := by
  after_results2
  rfl
theorem K9_keep_arg16 : StableHlo.after hostOps2 V (Proc.devRef .tc main_arg16) = V (Proc.devRef .tc main_arg16) := by
  after_results_simp
theorem K9_keep_v7 : StableHlo.after hostOps2 V (Proc.devRef .tc main_v7) = V (Proc.devRef .tc main_v7) := by
  after_results_simp
theorem K9_keep_v8 : StableHlo.after hostOps2 V (Proc.devRef .tc main_v8) = V (Proc.devRef .tc main_v8) := by
  after_results_simp
theorem K9_keep_v37 : StableHlo.after hostOps2 V (Proc.devRef .tc main_v37) = V (Proc.devRef .tc main_v37) := by
  after_results_simp
theorem K9_keep_v57_0 : StableHlo.after hostOps2 V (Proc.devRef .tc main_v57_0) = V (Proc.devRef .tc main_v57_0) := by
  after_results_simp
theorem K9_keep_v57_1 : StableHlo.after hostOps2 V (Proc.devRef .tc main_v57_1) = V (Proc.devRef .tc main_v57_1) := by
  after_results_simp

theorem K11_agg : StableHlo.after hostOps3 V (Proc.devRef .tc main_v73)
    = aggF (V (Proc.devRef .tc main_v60)) (wrapF (V (Proc.devRef .tc main_v7))) (V (Proc.devRef .tc main_v37)) (V (Proc.devRef .tc main_v8)) := by
  after_results2
  rfl
theorem K11_bias : StableHlo.after hostOps3 V (Proc.devRef .tc main_v76) = rowOf (b1V (V (Proc.devRef .tc main_arg16))) := by
  after_results2
  rfl
theorem K11_keep_v57_0 : StableHlo.after hostOps3 V (Proc.devRef .tc main_v57_0) = V (Proc.devRef .tc main_v57_0) := by
  after_results_simp
theorem K11_keep_v57_1 : StableHlo.after hostOps3 V (Proc.devRef .tc main_v57_1) = V (Proc.devRef .tc main_v57_1) := by
  after_results_simp

end K

end Cert.Bridge.Ddi

end
-- ==== Proof.BridgeDdiR.lean ====
import proofs.«131905_j73031623901536_2_alg».proof.Proof.RefRun
import proofs.«131905_j73031623901536_2_alg».proof.Proof.BridgeDdiPure
import Idealize.ShloMosaic.Lib.StableHlo.Run

set_option maxRecDepth 8192

noncomputable section

namespace Cert.Bridge.Ddi

open Idealize.ShloMosaic Idealize.ShloMosaic.TcCoe Idealize.SL.Sem Idealize.ShloMosaic.StableHlo

variable {F : FTy → Type} [FloatOps F]

macro "after_resultsR" : tactic =>
  `(tactic| (after_results_simp
             repeat (first
               | rw [nullary_result] | rw [unary_result] | rw [binary_result] | rw [ternary_result] | rw [quaternary_result]
               | rw [reshape_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

section R
open Cert.ReferenceIdeal Cert.ReferenceIdeal.Gen Cert.ReferenceIdeal.Hand
variable (V : Valuation τ sig (Elt F))

abbrev R3 (V : Valuation τ sig (Elt F)) : Valuation τ sig (Elt F) :=
  StableHlo.after ops03 (StableHlo.after ops02 (StableHlo.after ops01 (StableHlo.after ops00 V)))

set_option maxHeartbeats 4000000 in
theorem R3_row2 : R3 V (Proc.devRef .tc main_v12) = row2F (V (Proc.devRef .tc main_arg6)) := by
  after_resultsR <;> rfl
set_option maxHeartbeats 4000000 in
theorem R3_col2 : R3 V (Proc.devRef .tc main_v13) = col2F (V (Proc.devRef .tc main_arg6)) := by
  after_resultsR <;> rfl
set_option maxHeartbeats 4000000 in
theorem R3_norm : R3 V (Proc.devRef .tc main_v42) = normAll (V (Proc.devRef .tc main_arg6)) := by
  after_resultsR <;> rfl
set_option maxHeartbeats 4000000 in
theorem R3_w0 : R3 V (Proc.devRef .tc main_v7) = w0F (V (Proc.devRef .tc main_arg15)) := by
  after_resultsR <;> rfl
set_option maxHeartbeats 4000000 in
theorem R3_b0 : R3 V (Proc.devRef .tc main_v9) = b0V (V (Proc.devRef .tc main_arg16)) := by
  after_resultsR <;> rfl
set_option maxHeartbeats 4000000 in
theorem R3_xw : R3 V (Proc.devRef .tc main_v10) = dotR (V (Proc.devRef .tc main_arg2)) (w0F (V (Proc.devRef .tc main_arg15))) := by
  after_resultsR <;> rfl
set_option maxHeartbeats 4000000 in

theorem R3_v44 : R3 V (Proc.devRef .tc main_v44)
    = cmpi .slt (row2F (V (Proc.devRef .tc main_arg6))) (broadcastInDim S105000 ![] bcast_S_S105000 (constantI S_ 32 0#32)) := by
  after_resultsR <;> rfl
set_option maxHeartbeats 4000000 in
theorem R3_v45 : R3 V (Proc.devRef .tc main_v45) = broadcastInDim S105000 ![] bcast_S_S105000 (constantI S_ 32 5000#32) := by
  after_resultsR <;> rfl
set_option maxHeartbeats 4000000 in
theorem R3_v3 : R3 V (Proc.devRef .tc main_v3) = rowS (V (Proc.devRef .tc main_arg6)) := by
  after_resultsR <;> rfl
set_option maxHeartbeats 4000000 in
theorem R3_v5 : R3 V (Proc.devRef .tc main_v5) = colS (V (Proc.devRef .tc main_arg6)) := by
  after_resultsR <;> rfl
set_option maxHeartbeats 4000000 in
theorem R3_v1 : R3 V (Proc.devRef .tc main_v1) = ones100k := by
  after_resultsR <;> rfl
set_option maxHeartbeats 4000000 in
theorem R3_keep_arg2 : R3 V (Proc.devRef .tc main_arg2) = V (Proc.devRef .tc main_arg2) := by
  after_results_simp
set_option maxHeartbeats 4000000 in
theorem R3_keep_arg15 : R3 V (Proc.devRef .tc main_arg15) = V (Proc.devRef .tc main_arg15) := by
  after_results_simp
set_option maxHeartbeats 4000000 in
theorem R3_keep_arg16 : R3 V (Proc.devRef .tc main_arg16) = V (Proc.devRef .tc main_arg16) := by
  after_results_simp

abbrev agg1 (V : Valuation τ sig (Elt F)) : (⟨S5000x128, .f32⟩ : BufTy).Contents (Elt F) :=
  aggF (V (Proc.devRef .tc main_v10)) (select (V (Proc.devRef .tc main_v44)) (addi (V (Proc.devRef .tc main_v12)) (V (Proc.devRef .tc main_v45))) (V (Proc.devRef .tc main_v12)))
    (V (Proc.devRef .tc main_v42)) (V (Proc.devRef .tc main_v13))

set_option maxHeartbeats 4000000 in
theorem R4_x1 : StableHlo.after ops04 V (Proc.devRef .tc main_v60) = layerXF (agg1 V) (rowR (V (Proc.devRef .tc main_v9))) (V (Proc.devRef .tc main_arg2)) := by
  after_resultsR <;> rfl
set_option maxHeartbeats 4000000 in
theorem R4_r1 : StableHlo.after ops04 V (Proc.devRef .tc main_v63)
    = resF 0x3F000000#32 (V (Proc.devRef .tc main_arg2)) (layerXF (agg1 V) (rowR (V (Proc.devRef .tc main_v9))) (V (Proc.devRef .tc main_arg2))) := by
  after_resultsR <;> rfl
set_option maxHeartbeats 4000000 in
theorem R4_xw2 : StableHlo.after ops04 V (Proc.devRef .tc main_v68)
    = dotR (layerXF (agg1 V) (rowR (V (Proc.devRef .tc main_v9))) (V (Proc.devRef .tc main_arg2))) (w1F (V (Proc.devRef .tc main_arg15))) := by
  after_resultsR <;> rfl
set_option maxHeartbeats 4000000 in
theorem R4_b1 : StableHlo.after ops04 V (Proc.devRef .tc main_v67) = b1V (V (Proc.devRef .tc main_arg16)) := by
  after_resultsR <;> rfl
set_option maxHeartbeats 4000000 in
theorem R4_iota : StableHlo.after ops04 V (Proc.devRef .tc main_v69) = iota5k := by
  after_resultsR <;> rfl
set_option maxHeartbeats 4000000 in
theorem R4_keep_v1 : StableHlo.after ops04 V (Proc.devRef .tc main_v1) = V (Proc.devRef .tc main_v1) := by
  after_results_simp
set_option maxHeartbeats 4000000 in
theorem R4_keep_v3 : StableHlo.after ops04 V (Proc.devRef .tc main_v3) = V (Proc.devRef .tc main_v3) := by
  after_results_simp
set_option maxHeartbeats 4000000 in
theorem R4_keep_v5 : StableHlo.after ops04 V (Proc.devRef .tc main_v5) = V (Proc.devRef .tc main_v5) := by
  after_results_simp

set_option maxHeartbeats 4000000 in
theorem R9_res (a6 : (⟨S2x100000, .i32⟩ : BufTy).Contents (Elt F))
    (h3 : V (Proc.devRef .tc main_v3) = rowS a6) (h5 : V (Proc.devRef .tc main_v5) = colS a6)
    (h1 : V (Proc.devRef .tc main_v1) = ones100k) (h69 : V (Proc.devRef .tc main_v69) = iota5k) :
    StableHlo.after ops09 (StableHlo.after ops08 (StableHlo.after ops07 (StableHlo.after ops06 (StableHlo.after ops05 V)))) (Proc.devRef .tc main_v121)
      = resF 0x3EAAAAAB#32 (V (Proc.devRef .tc main_v63))
          (layerXF (aggF (V (Proc.devRef .tc main_v68)) (wrapF (row2F a6)) (normAll a6) (col2F a6)) (rowR (V (Proc.devRef .tc main_v67))) (V (Proc.devRef .tc main_v60))) := by
  after_resultsR
  rw [h3, h5, h1, h69]
  rfl

theorem after_ops_v121 :
    StableHlo.after ops V (Proc.devRef .tc main_v121)
      = StableHlo.after ops09 (StableHlo.after ops08 (StableHlo.after ops07 (StableHlo.after ops06 (StableHlo.after ops05
          (StableHlo.after ops04 (R3 V)))))) (Proc.devRef .tc main_v121) := by
  rw [after_ops,
    after_of_writes_sub (r := main_v121) ops26 _ ops26_writes (by decide),
    after_of_writes_sub (r := main_v121) ops25 _ ops25_writes (by decide),
    after_of_writes_sub (r := main_v121) ops24 _ ops24_writes (by decide),
    after_of_writes_sub (r := main_v121) ops23 _ ops23_writes (by decide),
    after_of_writes_sub (r := main_v121) ops22 _ ops22_writes (by decide),
    after_of_writes_sub (r := main_v121) ops21 _ ops21_writes (by decide),
    after_of_writes_sub (r := main_v121) ops20 _ ops20_writes (by decide),
    after_of_writes_sub (r := main_v121) ops19 _ ops19_writes (by decide),
    after_of_writes_sub (r := main_v121) ops18 _ ops18_writes (by decide),
    after_of_writes_sub (r := main_v121) ops17 _ ops17_writes (by decide),
    after_of_writes_sub (r := main_v121) ops16 _ ops16_writes (by decide),
    after_of_writes_sub (r := main_v121) ops15 _ ops15_writes (by decide),
    after_of_writes_sub (r := main_v121) ops14 _ ops14_writes (by decide),
    after_of_writes_sub (r := main_v121) ops13 _ ops13_writes (by decide),
    after_of_writes_sub (r := main_v121) ops12 _ ops12_writes (by decide),
    after_of_writes_sub (r := main_v121) ops11 _ ops11_writes (by decide),
    after_of_writes_sub (r := main_v121) ops10 _ ops10_writes (by decide)]
end R

end Cert.Bridge.Ddi

end
-- ==== Proof.BridgeDdi.lean ====
import proofs.«131905_j73031623901536_2_alg».proof.Proof.KILevels
import proofs.«131905_j73031623901536_2_alg».proof.Proof.KIMatValue0
import proofs.«131905_j73031623901536_2_alg».proof.Proof.KIMatValue2
import proofs.«131905_j73031623901536_2_alg».proof.Proof.KICombValue1
import proofs.«131905_j73031623901536_2_alg».proof.Proof.KICombValue3
import proofs.«131905_j73031623901536_2_alg».proof.Proof.KICombPoint
import proofs.«131905_j73031623901536_2_alg».proof.Proof.KICombRef
import proofs.«131905_j73031623901536_2_alg».proof.Proof.KIMatBlock
import proofs.«131905_j73031623901536_2_alg».proof.Proof.RefDot
import proofs.«131905_j73031623901536_2_alg».proof.Proof.RefRun
import proofs.«131905_j73031623901536_2_alg».proof.Proof.BridgeDdiPure
import proofs.«131905_j73031623901536_2_alg».proof.Proof.BridgeDdiK
import proofs.«131905_j73031623901536_2_alg».proof.Proof.BridgeDdiR
import Idealize.ShloMosaic.Lib.StableHlo.Run
import Idealize.ShloMosaic.Lib.Pipeline.Value
import Idealize.ShloMosaic.Lib.ValueIdx

set_option maxRecDepth 8192

noncomputable section

namespace Cert.Bridge.Ddi

open Idealize.ShloMosaic Idealize.ShloMosaic.TcCoe Idealize.SL.Sem Idealize.ShloMosaic.StableHlo

variable {F : FTy → Type} [FloatOps F]

section RComp
open Cert.ReferenceIdeal Cert.ReferenceIdeal.Gen Cert.ReferenceIdeal.Hand

def x1R (a2 : (⟨S5000x128, .f32⟩ : BufTy).Contents (Elt F)) (a6 : (⟨S2x100000, .i32⟩ : BufTy).Contents (Elt F)) (a15 : (⟨S2x128x128, .f32⟩ : BufTy).Contents (Elt F)) (a16 : (⟨S2x128, .f32⟩ : BufTy).Contents (Elt F)) : (⟨S5000x128, .f32⟩ : BufTy).Contents (Elt F) :=
  layerXF (aggF (dotR a2 (w0F a15)) (wrapF (row2F a6)) (normAll a6) (col2F a6)) (rowR (b0V a16)) a2

def ddiR (a2 : (⟨S5000x128, .f32⟩ : BufTy).Contents (Elt F)) (a6 : (⟨S2x100000, .i32⟩ : BufTy).Contents (Elt F)) (a15 : (⟨S2x128x128, .f32⟩ : BufTy).Contents (Elt F)) (a16 : (⟨S2x128, .f32⟩ : BufTy).Contents (Elt F)) : (⟨S5000x128, .f32⟩ : BufTy).Contents (Elt F) :=
  resF 0x3EAAAAAB#32 (resF 0x3F000000#32 a2 (x1R a2 a6 a15 a16))
    (layerXF (aggF (dotR (x1R a2 a6 a15 a16) (w1F a15)) (wrapF (row2F a6)) (normAll a6) (col2F a6)) (rowR (b1V a16)) (x1R a2 a6 a15 a16))

theorem R_ddi (V : Valuation τ sig (Elt F)) :
    StableHlo.after ops V (Proc.devRef .tc main_v121) = ddiR (V (Proc.devRef .tc main_arg2)) (V (Proc.devRef .tc main_arg6)) (V (Proc.devRef .tc main_arg15)) (V (Proc.devRef .tc main_arg16)) := by
  rw [after_ops_v121,
    R9_res (StableHlo.after ops04 (R3 V)) (V (Proc.devRef .tc main_arg6)) (by rw [R4_keep_v3, R3_v3]) (by rw [R4_keep_v5, R3_v5])
      (by rw [R4_keep_v1, R3_v1]) (R4_iota _),
    R4_r1, R4_xw2, R4_b1, R4_x1]
  unfold agg1
  rw [R3_xw, R3_v44, R3_v45, R3_row2, R3_norm, R3_col2, R3_b0, R3_keep_arg2, R3_keep_arg15, R3_keep_arg16]
  rfl

end RComp

section Glue
open Cert.KernelIdeal.Hand Idealize.ShloMosaic.ValueIdx

theorem rowR_eq_rowOf (b : (⟨Cert.ReferenceIdeal.S128, .f32⟩ : BufTy).Contents (Elt F)) : rowR b = rowOf b := by
  funext i
  unfold rowR rowOf
  have hi0 : (i 0).val = 0 := by have h := (i 0).isLt; change (i 0).val < 1 at h; omega
  have hk1 : ∀ a : Fin 1, ((ix1 (⟨(i 1).val, (i 1).isLt⟩ : Fin 128) : Cert.ReferenceIdeal.S128.Idx) a).val
      = if Cert.ReferenceIdeal.S128.size a = 1 then 0 else (i ((![1] : Fin 1 → Fin 2) a)).val := fun a => by
    have ha : a = 0 := Subsingleton.elim _ _
    subst ha
    rw [if_neg (by decide)]
    rfl
  rw [broadcastInDim_apply _ _ b i (ix1 (⟨(i 1).val, (i 1).isLt⟩ : Fin 128)) hk1,
      shapeCast_apply b _ i (ix1 (⟨(i 1).val, (i 1).isLt⟩ : Fin 128)) (by
        rw [Shape.rowMajor_val_one, Shape.rowMajor_val_two]
        show (i 1).val = (i 0).val * 128 + (i 1).val
        omega)]

theorem dotR_eq (x : FVec Ideal Cert.ReferenceIdeal.S5000x128 .f32) (w : FVec Ideal Cert.ReferenceIdeal.S128x128 .f32) :
    dotR (F := Ideal) x w = rowsTimes x w := by
  funext k
  obtain ⟨i, j, rfl⟩ : ∃ (i : Fin 5000) (j : Fin 128), k = ix2 i j := ⟨k 0, k 1, eq_ix2 k⟩
  exact ref_dot_5000 x w i j

theorem layerXF_eq (agg : FVec Ideal Cert.ReferenceIdeal.S5000x128 .f32) (brow : FVec Ideal Cert.ReferenceIdeal.S1x128 .f32)
    (x : FVec Ideal Cert.ReferenceIdeal.S5000x128 .f32) : layerXF (F := Ideal) agg brow x = layerOut agg brow x :=
  refLayerX_eq Cert.ReferenceIdeal.Gen.bcast_S1x128_S5000x128_0_1 Cert.ReferenceIdeal.Gen.bcast_S_S5000x128 agg brow x

theorem resF_eq (s : BitVec 32) (agg : FVec Ideal Cert.ReferenceIdeal.S5000x128 .f32) (brow : FVec Ideal Cert.ReferenceIdeal.S1x128 .f32)
    (x r : FVec Ideal Cert.ReferenceIdeal.S5000x128 .f32) :
    resF (F := Ideal) s r (layerXF agg brow x) = layerRes (Ideal.ofBits .f32 s) agg brow x r :=
  refLayerR_eq Cert.ReferenceIdeal.Gen.bcast_S1x128_S5000x128_0_1 Cert.ReferenceIdeal.Gen.bcast_S_S5000x128 s agg brow x r
end Glue

section Chain
open Cert.KernelIdeal Cert.KernelIdeal.Gen Cert.KernelIdeal.Hand

variable (m : (ℓ : Loc nD τ sig) → Buf (Elt Ideal) ℓ) (c : Dev nD)

abbrev A2 : (⟨S5000x128, .f32⟩ : BufTy).Contents (Elt Ideal) := W0 m c (Proc.devRef .tc main_arg2)
abbrev A6 : (⟨S2x100000, .i32⟩ : BufTy).Contents (Elt Ideal) := W0 m c (Proc.devRef .tc main_arg6)
abbrev A15 : (⟨S2x128x128, .f32⟩ : BufTy).Contents (Elt Ideal) := W0 m c (Proc.devRef .tc main_arg15)
abbrev A16 : (⟨S2x128, .f32⟩ : BufTy).Contents (Elt Ideal) := W0 m c (Proc.devRef .tc main_arg16)

theorem W5_eq : W5 m c = K5 (W0 m c) := by rw [W5_def, W4_def, W3_def, W2_def, W1_def]
theorem W6_keep (b : Ref sig .tc) (h : b ≠ main_v40) : W6 m c (Proc.devRef .tc b) = W5 m c (Proc.devRef .tc b) := W6_of_ne m c _ (devRef_ne_of_ne h)
theorem W8_keep (b : Ref sig .tc) (h0 : b ≠ main_v57_0) (h1 : b ≠ main_v57_1) : W8 m c (Proc.devRef .tc b) = W7 m c (Proc.devRef .tc b) := W8_of_ne m c _ (devRef_ne_of_ne h0) (devRef_ne_of_ne h1)
theorem W10_keep (b : Ref sig .tc) (h : b ≠ main_v60) : W10 m c (Proc.devRef .tc b) = W9 m c (Proc.devRef .tc b) := W10_of_ne m c _ (devRef_ne_of_ne h)

theorem w5_row2 : W5 m c (Proc.devRef .tc main_v7) = row2F (A6 m c) := by rw [W5_eq]; exact K5_row2 _
theorem w5_col2 : W5 m c (Proc.devRef .tc main_v8) = col2F (A6 m c) := by rw [W5_eq]; exact K5_col2 _
theorem w5_norm : W5 m c (Proc.devRef .tc main_v37) = normAll (A6 m c) := by rw [W5_eq]; exact K5_norm _
theorem w5_w0 : W5 m c (Proc.devRef .tc main_v39) = w0F (A15 m c) := by rw [W5_eq]; exact K5_w0 _
theorem w5_arg2 : W5 m c (Proc.devRef .tc main_arg2) = A2 m c := by rw [W5_eq]; exact K5_keep_arg2 _
theorem w5_arg15 : W5 m c (Proc.devRef .tc main_arg15) = A15 m c := by rw [W5_eq]; exact K5_keep_arg15 _
theorem w5_arg16 : W5 m c (Proc.devRef .tc main_arg16) = A16 m c := by rw [W5_eq]; exact K5_keep_arg16 _

theorem w6_xw : W6 m c (Proc.devRef .tc main_v40) = rowsTimes (A2 m c) (w0F (A15 m c)) := by
  rw [W6_at_main_v40, matmul_array0]
  show rowsTimes (W5 m c (Proc.devRef .tc main_arg2)) (W5 m c (Proc.devRef .tc main_v39)) = _
  rw [w5_arg2, w5_w0]

theorem w7_agg : W7 m c (Proc.devRef .tc main_v53) = (aggF (rowsTimes (A2 m c) (w0F (A15 m c))) (wrapF (row2F (A6 m c))) (normAll (A6 m c)) (col2F (A6 m c))) := by
  rw [W7_def, K7_agg, w6_xw, W6_keep m c main_v7 (by decide), W6_keep m c main_v37 (by decide), W6_keep m c main_v8 (by decide), w5_row2, w5_norm, w5_col2]
theorem w7_bias : W7 m c (Proc.devRef .tc main_v56) = rowOf (b0V (A16 m c)) := by
  rw [W7_def, K7_bias, W6_keep m c main_arg16 (by decide), w5_arg16]
theorem w7_arg2 : W7 m c (Proc.devRef .tc main_arg2) = A2 m c := by rw [W7_def, K7_keep_arg2, W6_keep m c main_arg2 (by decide), w5_arg2]
theorem w7_arg15 : W7 m c (Proc.devRef .tc main_arg15) = A15 m c := by rw [W7_def, K7_keep_arg15, W6_keep m c main_arg15 (by decide), w5_arg15]
theorem w7_arg16 : W7 m c (Proc.devRef .tc main_arg16) = A16 m c := by rw [W7_def, K7_keep_arg16, W6_keep m c main_arg16 (by decide), w5_arg16]
theorem w7_row2 : W7 m c (Proc.devRef .tc main_v7) = row2F (A6 m c) := by rw [W7_def, K7_keep_v7, W6_keep m c main_v7 (by decide), w5_row2]
theorem w7_col2 : W7 m c (Proc.devRef .tc main_v8) = col2F (A6 m c) := by rw [W7_def, K7_keep_v8, W6_keep m c main_v8 (by decide), w5_col2]
theorem w7_norm : W7 m c (Proc.devRef .tc main_v37) = normAll (A6 m c) := by rw [W7_def, K7_keep_v37, W6_keep m c main_v37 (by decide), w5_norm]

def x1K (a2 : (⟨S5000x128, .f32⟩ : BufTy).Contents (Elt Ideal)) (a6 : (⟨S2x100000, .i32⟩ : BufTy).Contents (Elt Ideal)) (a15 : (⟨S2x128x128, .f32⟩ : BufTy).Contents (Elt Ideal)) (a16 : (⟨S2x128, .f32⟩ : BufTy).Contents (Elt Ideal)) : (⟨S5000x128, .f32⟩ : BufTy).Contents (Elt Ideal) :=
  layerOut (aggF (rowsTimes a2 (w0F a15)) (wrapF (row2F a6)) (normAll a6) (col2F a6)) (rowOf (b0V a16)) a2
def r1K (a2 : (⟨S5000x128, .f32⟩ : BufTy).Contents (Elt Ideal)) (a6 : (⟨S2x100000, .i32⟩ : BufTy).Contents (Elt Ideal)) (a15 : (⟨S2x128x128, .f32⟩ : BufTy).Contents (Elt Ideal)) (a16 : (⟨S2x128, .f32⟩ : BufTy).Contents (Elt Ideal)) : (⟨S5000x128, .f32⟩ : BufTy).Contents (Elt Ideal) :=
  layerRes (Ideal.ofBits .f32 0x3F000000#32) (aggF (rowsTimes a2 (w0F a15)) (wrapF (row2F a6)) (normAll a6) (col2F a6)) (rowOf (b0V a16)) a2 a2
def ddiK (a2 : (⟨S5000x128, .f32⟩ : BufTy).Contents (Elt Ideal)) (a6 : (⟨S2x100000, .i32⟩ : BufTy).Contents (Elt Ideal)) (a15 : (⟨S2x128x128, .f32⟩ : BufTy).Contents (Elt Ideal)) (a16 : (⟨S2x128, .f32⟩ : BufTy).Contents (Elt Ideal)) : (⟨S5000x128, .f32⟩ : BufTy).Contents (Elt Ideal) :=
  layerRes (Ideal.ofBits .f32 0x3EAAAAAB#32) (aggF (rowsTimes (x1K a2 a6 a15 a16) (w1F a15)) (wrapF (row2F a6)) (normAll a6) (col2F a6)) (rowOf (b1V a16))
    (x1K a2 a6 a15 a16) (r1K a2 a6 a15 a16)

theorem w8_x1 : W8 m c (Proc.devRef .tc main_v57_0) = x1K (A2 m c) (A6 m c) (A15 m c) (A16 m c) := by
  rw [W8_at_main_v57_0, final1_4]
  show layerOut (W7 m c (Proc.devRef .tc main_v53)) (W7 m c (Proc.devRef .tc main_v56)) (W7 m c (Proc.devRef .tc main_arg2)) = _
  rw [w7_agg, w7_bias, w7_arg2]
  rfl
theorem w8_r1 : W8 m c (Proc.devRef .tc main_v57_1) = r1K (A2 m c) (A6 m c) (A15 m c) (A16 m c) := by
  rw [W8_at_main_v57_1, final1_5]
  show layerRes _ (W7 m c (Proc.devRef .tc main_v53)) (W7 m c (Proc.devRef .tc main_v56)) (W7 m c (Proc.devRef .tc main_arg2)) (W7 m c (Proc.devRef .tc main_arg2)) = _
  rw [w7_agg, w7_bias, w7_arg2]
  rfl

theorem w9_w1 : W9 m c (Proc.devRef .tc main_v59) = w1F (A15 m c) := by rw [W9_def, K9_w1, W8_keep m c main_arg15 (by decide) (by decide), w7_arg15]
theorem w9_x1 : W9 m c (Proc.devRef .tc main_v57_0) = x1K (A2 m c) (A6 m c) (A15 m c) (A16 m c) := by rw [W9_def, K9_keep_v57_0, w8_x1]
theorem w9_r1 : W9 m c (Proc.devRef .tc main_v57_1) = r1K (A2 m c) (A6 m c) (A15 m c) (A16 m c) := by rw [W9_def, K9_keep_v57_1, w8_r1]
theorem w9_row2 : W9 m c (Proc.devRef .tc main_v7) = row2F (A6 m c) := by rw [W9_def, K9_keep_v7, W8_keep m c main_v7 (by decide) (by decide), w7_row2]
theorem w9_col2 : W9 m c (Proc.devRef .tc main_v8) = col2F (A6 m c) := by rw [W9_def, K9_keep_v8, W8_keep m c main_v8 (by decide) (by decide), w7_col2]
theorem w9_norm : W9 m c (Proc.devRef .tc main_v37) = normAll (A6 m c) := by rw [W9_def, K9_keep_v37, W8_keep m c main_v37 (by decide) (by decide), w7_norm]
theorem w9_arg16 : W9 m c (Proc.devRef .tc main_arg16) = A16 m c := by rw [W9_def, K9_keep_arg16, W8_keep m c main_arg16 (by decide) (by decide), w7_arg16]

theorem w10_xw : W10 m c (Proc.devRef .tc main_v60) = rowsTimes (x1K (A2 m c) (A6 m c) (A15 m c) (A16 m c)) (w1F (A15 m c)) := by
  rw [W10_at_main_v60, matmul_array2]
  show rowsTimes (W9 m c (Proc.devRef .tc main_v57_0)) (W9 m c (Proc.devRef .tc main_v59)) = _
  rw [w9_x1, w9_w1]

theorem w11_agg : W11 m c (Proc.devRef .tc main_v73)
    = aggF (rowsTimes (x1K (A2 m c) (A6 m c) (A15 m c) (A16 m c)) (w1F (A15 m c))) (wrapF (row2F (A6 m c))) (normAll (A6 m c)) (col2F (A6 m c)) := by
  rw [W11_def, K11_agg, w10_xw, W10_keep m c main_v7 (by decide), W10_keep m c main_v37 (by decide), W10_keep m c main_v8 (by decide), w9_row2, w9_norm, w9_col2]
theorem w11_bias : W11 m c (Proc.devRef .tc main_v76) = rowOf (b1V (A16 m c)) := by rw [W11_def, K11_bias, W10_keep m c main_arg16 (by decide), w9_arg16]
theorem w11_x1 : W11 m c (Proc.devRef .tc main_v57_0) = x1K (A2 m c) (A6 m c) (A15 m c) (A16 m c) := by rw [W11_def, K11_keep_v57_0, W10_keep m c main_v57_0 (by decide), w9_x1]
theorem w11_r1 : W11 m c (Proc.devRef .tc main_v57_1) = r1K (A2 m c) (A6 m c) (A15 m c) (A16 m c) := by rw [W11_def, K11_keep_v57_1, W10_keep m c main_v57_1 (by decide), w9_r1]

theorem K_ddi : W12 m c (Proc.devRef .tc main_v77_1) = ddiK (A2 m c) (A6 m c) (A15 m c) (A16 m c) := by
  rw [W12_at_main_v77_1, final3_5]
  show layerRes _ (W11 m c (Proc.devRef .tc main_v73)) (W11 m c (Proc.devRef .tc main_v76)) (W11 m c (Proc.devRef .tc main_v57_0)) (W11 m c (Proc.devRef .tc main_v57_1)) = _
  rw [w11_agg, w11_bias, w11_x1, w11_r1]
  rfl

end Chain

section Final
open Cert.KernelIdeal.Hand

theorem ddiR_eq_ddiK (a2 : (⟨Cert.KernelIdeal.S5000x128, .f32⟩ : BufTy).Contents (Elt Ideal)) (a6 : (⟨Cert.KernelIdeal.S2x100000, .i32⟩ : BufTy).Contents (Elt Ideal))
    (a15 : (⟨Cert.KernelIdeal.S2x128x128, .f32⟩ : BufTy).Contents (Elt Ideal)) (a16 : (⟨Cert.KernelIdeal.S2x128, .f32⟩ : BufTy).Contents (Elt Ideal)) :
    ddiR (F := Ideal) a2 a6 a15 a16 = ddiK a2 a6 a15 a16 := by
  unfold ddiR
  rw [resF_eq]
  unfold x1R
  rw [resF_eq, layerXF_eq, dotR_eq, dotR_eq, rowR_eq_rowOf, rowR_eq_rowOf]
  rfl

theorem ddi_bridge
    (mK : (ℓ : Loc Cert.KernelIdeal.nD Cert.KernelIdeal.τ Cert.KernelIdeal.sig) → Buf (Elt Ideal) ℓ)
    (mR : (ℓ : Loc Cert.ReferenceIdeal.nD Cert.ReferenceIdeal.τ Cert.ReferenceIdeal.sig) → Buf (Elt Ideal) ℓ)
    (c : Dev Cert.KernelIdeal.nD)
    (h2 : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2))
    (h6 : mR ((c.tc : Thread Cert.ReferenceIdeal.nD Cert.ReferenceIdeal.τ).loc Cert.ReferenceIdeal.main_arg6) = mK ((c.tc : Thread Cert.KernelIdeal.nD Cert.KernelIdeal.τ).loc Cert.KernelIdeal.main_arg6))
    (h15 : mR ((c.tc : Thread Cert.ReferenceIdeal.nD Cert.ReferenceIdeal.τ).loc Cert.ReferenceIdeal.main_arg15) = mK ((c.tc : Thread Cert.KernelIdeal.nD Cert.KernelIdeal.τ).loc Cert.KernelIdeal.main_arg15))
    (h16 : mR ((c.tc : Thread Cert.ReferenceIdeal.nD Cert.ReferenceIdeal.τ).loc Cert.ReferenceIdeal.main_arg16) = mK ((c.tc : Thread Cert.KernelIdeal.nD Cert.KernelIdeal.τ).loc Cert.KernelIdeal.main_arg16)) :
    W12 mK c (Proc.devRef .tc Cert.KernelIdeal.main_v77_1)
      = StableHlo.after Cert.ReferenceIdeal.Hand.ops (StableHlo.launchContents mR c) (Proc.devRef .tc Cert.ReferenceIdeal.main_v121) := by
  rw [K_ddi, R_ddi]
  have e2 : StableHlo.launchContents mR c (Proc.devRef .tc Cert.ReferenceIdeal.main_arg2) = A2 mK c := h2
  have e6 : StableHlo.launchContents mR c (Proc.devRef .tc Cert.ReferenceIdeal.main_arg6) = A6 mK c := h6
  have e15 : StableHlo.launchContents mR c (Proc.devRef .tc Cert.ReferenceIdeal.main_arg15) = A15 mK c := h15
  have e16 : StableHlo.launchContents mR c (Proc.devRef .tc Cert.ReferenceIdeal.main_arg16) = A16 mK c := h16
  rw [e2, e6, e15, e16]
  exact (ddiR_eq_ddiK _ _ _ _).symm

end Final

end Cert.Bridge.Ddi

end
-- ==== Proof.KIGatePay.lean ====
import proofs.«131905_j73031623901536_2_alg».proof.Proof.Gen.KernelIdeal.Skeleton
import proofs.«131905_j73031623901536_2_alg».proof.Proof.DotPlain
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

theorem gate_matmul_apply {φ₁ φ₂ : FTy} (a : FVec Ideal S1000x128 φ₁) (b : FVec Ideal S128x256 φ₂) (p : Fin 1000) (q : Fin 256) :
    matmul dot_S1000x128_S128x256_S1000x256_1_0_0_1_n_n none a b (constant (F := Ideal) S1000x256 .f32 0x00000000#32) (ix2 p q)
      = ∑ k : Fin 128, a (ix2 p k) * b (ix2 k q) :=
  Cert.Bridge.matmul_plain_apply a b p q

theorem gate_pre_apply (x0 : Vec Ideal S1000x128 .f32) (x1 : Vec Ideal S128x256 .f32) (x2 : Vec Ideal S1x256 .f32)
    (p : Fin 1000) (q : Fin 256) :
    k4_pay2 x0 x1 x2 (ix2 p q)
      = Ideal.logistic ((∑ k : Fin 128, x0 (ix2 p k) * x1 (ix2 k q)) + x2 (ix2 (0 : Fin 1) q)) := by
  unfold k4_pay2 k4_pay1
  refine congrArg Ideal.logistic ?_
  refine congrArg₂ (· + ·) ?_ ?_
  · refine (gate_matmul_apply _ _ p q).trans ?_
    simp only [shapeCast_self]
    rfl
  · rw [shapeCast_self]
    exact broadcastTo_apply x2 _ (ix2 p q) (ix2 (0 : Fin 1) q) (fun a => by
      match a with
      | ⟨0, _⟩ => rfl
      | ⟨1, _⟩ => rfl)

theorem gate_h_apply (x0 : Vec Ideal S1000x128 .f32) (x1 : Vec Ideal S128x256 .f32) (x2 : Vec Ideal S1x256 .f32)
    (p : Fin 1000) (q : Fin 128) :
    k4_pay3 x0 x1 x2 (ix2 p q)
      = Ideal.logistic ((∑ k : Fin 128, x0 (ix2 p k) * x1 (ix2 k (⟨q.val, by omega⟩ : Fin 256))) + x2 (ix2 (0 : Fin 1) (⟨q.val, by omega⟩ : Fin 256)))
        * x0 (ix2 p q) := by
  have hg : extractStridedSlice S1000x128 ![0, 0] (k4_pay2 x0 x1 x2) slices_S1000x256_o0_0_S1000x128 (ix2 p q)
      = k4_pay2 x0 x1 x2 (ix2 p (⟨q.val, by omega⟩ : Fin 256)) :=
    extractStridedSlice_apply (s := S1000x256) (t := S1000x128) ![0, 0] (k4_pay2 x0 x1 x2) slices_S1000x256_o0_0_S1000x128 (ix2 p q) (ix2 p (⟨q.val, by omega⟩ : Fin 256)) (fun a => by
      match a with
      | ⟨0, _⟩ => show p.val = 0 + p.val; omega
      | ⟨1, _⟩ => show q.val = 0 + q.val; omega)
  have he : k4_pay1 x0 (ix2 p q) = x0 (ix2 p q) := by
    unfold k4_pay1
    rw [shapeCast_self]
  unfold k4_pay3
  refine (mulf_apply _ _ (ix2 p q)).trans ?_
  rw [hg, he, gate_pre_apply]

theorem gate_l_apply (x0 : Vec Ideal S1000x128 .f32) (x1 : Vec Ideal S128x256 .f32) (x2 : Vec Ideal S1x256 .f32)
    (p : Fin 1000) (q : Fin 128) :
    k4_pay4 x0 x1 x2 (ix2 p q)
      = Ideal.logistic ((∑ k : Fin 128, x0 (ix2 p k) * x1 (ix2 k (⟨q.val + 128, by omega⟩ : Fin 256))) + x2 (ix2 (0 : Fin 1) (⟨q.val + 128, by omega⟩ : Fin 256)))
        * x0 (ix2 p q) := by
  have hg : extractStridedSlice S1000x128 ![0, 128] (k4_pay2 x0 x1 x2) slices_S1000x256_o0_128_S1000x128 (ix2 p q)
      = k4_pay2 x0 x1 x2 (ix2 p (⟨q.val + 128, by omega⟩ : Fin 256)) :=
    extractStridedSlice_apply (s := S1000x256) (t := S1000x128) ![0, 128] (k4_pay2 x0 x1 x2) slices_S1000x256_o0_128_S1000x128 (ix2 p q) (ix2 p (⟨q.val + 128, by omega⟩ : Fin 256)) (fun a => by
      match a with
      | ⟨0, _⟩ => show p.val = 0 + p.val; omega
      | ⟨1, _⟩ => show q.val + 128 = 128 + q.val; omega)
  have he : k4_pay1 x0 (ix2 p q) = x0 (ix2 p q) := by
    unfold k4_pay1
    rw [shapeCast_self]
  unfold k4_pay4
  refine (mulf_apply _ _ (ix2 p q)).trans ?_
  rw [hg, he, gate_pre_apply]

end Cert.KernelIdeal.Hand

end
-- ==== Proof.KIGateValue.lean ====
import proofs.«131905_j73031623901536_2_alg».proof.Proof.KIRegion4
import proofs.«131905_j73031623901536_2_alg».proof.Proof.KIGatePay
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

abbrev gateE (c : Dev nD) : Vec Ideal S40000x128 .f32 := V c main_v0
abbrev gateW (c : Dev nD) : Vec Ideal S128x256 .f32 := V c main_v78
abbrev gateB (c : Dev nD) : Vec Ideal S1x256 .f32 := V c main_v80

def gateAt (E : Vec Ideal S40000x128 .f32) (W : Vec Ideal S128x256 .f32) (B : Vec Ideal S1x256 .f32)
    (r : Fin 40000) (q : Fin 128) (q' : Fin 256) : EReal :=
  Ideal.logistic ((∑ k : Fin 128, E (ix2 r k) * W (ix2 k q')) + B (ix2 (0 : Fin 1) q')) * E (ix2 r q)

def gateH (E : Vec Ideal S40000x128 .f32) (W : Vec Ideal S128x256 .f32) (B : Vec Ideal S1x256 .f32) : Vec Ideal S40000x128 .f32 :=
  fun i => gateAt E W B ⟨(i 0).val, idx2_lt0 i⟩ ⟨(i 1).val, idx2_lt1 i⟩ ⟨(i 1).val, by have := idx2_lt1 i; omega⟩

def gateL (E : Vec Ideal S40000x128 .f32) (W : Vec Ideal S128x256 .f32) (B : Vec Ideal S1x256 .f32) : Vec Ideal S40000x128 .f32 :=
  fun i => gateAt E W B ⟨(i 0).val, idx2_lt0 i⟩ ⟨(i 1).val, idx2_lt1 i⟩ ⟨(i 1).val + 128, by have := idx2_lt1 i; omega⟩

theorem gate_zero_off : (![0, 0] : Fin 2 → Nat) = fun _ => 0 := funext fun a => by fin_cases a <;> rfl

theorem gate_idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

theorem gate_blk_e (c : Dev nD) (t : Fin cfg4.N) (p : Fin 1000) (k : Fin 128) (r : Fin 40000) (hr : r.val = 1000 * t.val + p.val) :
    (iblk4 V c 0 t : Vec Ideal S1000x128 .f32) (ix2 p k) = gateE V c (ix2 r k) := by
  obtain ⟨e0, e1, -⟩ := gate_idx_facts t
  show gateE V c (((cfg4.win 0).blk t).view.emb (ix2 p k)) = gateE V c (ix2 r k)
  refine congrArg (gateE V c) (funext fun a => Fin.ext ?_)
  match a with
  | ⟨0, _⟩ => show win4_0.index t (0 : Fin 2) * 1000 + 1 * p.val = r.val; omega
  | ⟨1, _⟩ => show win4_0.index t (1 : Fin 2) * 128 + 1 * k.val = k.val; omega

theorem gate_blk_w (c : Dev nD) (t : Fin cfg4.N) (k : Fin 128) (q : Fin 256) :
    (iblk4 V c 1 t : Vec Ideal S128x256 .f32) (ix2 k q) = gateW V c (ix2 k q) := by
  obtain ⟨-, -, e2, e3, -⟩ := gate_idx_facts t
  show gateW V c (((cfg4.win 1).blk t).view.emb (ix2 k q)) = gateW V c (ix2 k q)
  refine congrArg (gateW V c) (funext fun a => Fin.ext ?_)
  match a with
  | ⟨0, _⟩ => show win4_1.index t (0 : Fin 2) * 128 + 1 * k.val = k.val; omega
  | ⟨1, _⟩ => show win4_1.index t (1 : Fin 2) * 256 + 1 * q.val = q.val; omega

theorem gate_blk_b (c : Dev nD) (t : Fin cfg4.N) (q : Fin 256) :
    (iblk4 V c 2 t : Vec Ideal S1x256 .f32) (ix2 (0 : Fin 1) q) = gateB V c (ix2 (0 : Fin 1) q) := by
  obtain ⟨-, -, -, -, e4, e5, -⟩ := gate_idx_facts t
  show gateB V c (((cfg4.win 2).blk t).view.emb (ix2 (0 : Fin 1) q)) = gateB V c (ix2 (0 : Fin 1) q)
  refine congrArg (gateB V c) (funext fun a => Fin.ext ?_)
  match a with
  | ⟨0, _⟩ => show win4_2.index t (0 : Fin 2) * 1 + 1 * 0 = 0; omega
  | ⟨1, _⟩ => show win4_2.index t (1 : Fin 2) * 256 + 1 * q.val = q.val; omega

theorem gate_block_h (E : Vec Ideal S40000x128 .f32) (W : Vec Ideal S128x256 .f32) (B : Vec Ideal S1x256 .f32)
    (x0 : Vec Ideal S1000x128 .f32) (x1 : Vec Ideal S128x256 .f32) (x2 : Vec Ideal S1x256 .f32)
    (p : Fin 1000) (q : Fin 128) (r : Fin 40000)
    (h0 : ∀ k : Fin 128, x0 (ix2 p k) = E (ix2 r k)) (h1 : ∀ (k : Fin 128) (q' : Fin 256), x1 (ix2 k q') = W (ix2 k q'))
    (h2 : ∀ q' : Fin 256, x2 (ix2 (0 : Fin 1) q') = B (ix2 (0 : Fin 1) q')) :
    k4_pay3 x0 x1 x2 (ix2 p q) = gateH E W B (ix2 r q) := by
  show _ = gateAt E W B r q ⟨q.val, by omega⟩
  unfold gateAt
  rw [gate_h_apply]
  simp only [h0, h1, h2]

theorem gate_block_l (E : Vec Ideal S40000x128 .f32) (W : Vec Ideal S128x256 .f32) (B : Vec Ideal S1x256 .f32)
    (x0 : Vec Ideal S1000x128 .f32) (x1 : Vec Ideal S128x256 .f32) (x2 : Vec Ideal S1x256 .f32)
    (p : Fin 1000) (q : Fin 128) (r : Fin 40000)
    (h0 : ∀ k : Fin 128, x0 (ix2 p k) = E (ix2 r k)) (h1 : ∀ (k : Fin 128) (q' : Fin 256), x1 (ix2 k q') = W (ix2 k q'))
    (h2 : ∀ q' : Fin 256, x2 (ix2 (0 : Fin 1) q') = B (ix2 (0 : Fin 1) q')) :
    k4_pay4 x0 x1 x2 (ix2 p q) = gateL E W B (ix2 r q) := by
  show _ = gateAt E W B r q ⟨q.val + 128, by omega⟩
  unfold gateAt
  rw [gate_l_apply]
  simp only [h0, h1, h2]

theorem gate_flushed_h (c : Dev nD) (t : Fin cfg4.N) :
    (dat4 V c).flushed 3 t = ((cfg4.win 3).blk t).view.read (Elt Ideal) (gateH (gateE V c) (gateW V c) (gateB V c)) := by
  show (cfg4.win 3).cut (grid4.coords t) ((dat4 V c).after 3 t) = _
  rw [after4_3]
  unfold out4_3
  rw [View.canon_unit_zero gate_zero_off]
  simp only [View.ld_unit_zero (S := S1000x128) gate_zero_off, View.ld_unit_zero (S := S128x256) gate_zero_off,
    View.ld_unit_zero (S := S1x256) gate_zero_off]
  obtain ⟨-, -, -, -, -, -, e6, e7, -⟩ := gate_idx_facts t
  have hN : cfg4.N = 40 := N_4
  have ht : t.val < 40 := hN ▸ t.isLt
  funext y
  obtain ⟨p, q, rfl⟩ : ∃ (p : Fin 1000) (q : Fin 128), y = ix2 p q := ⟨y 0, y 1, eq_ix2 y⟩
  have hemb : ((cfg4.win 3).blk t).view.emb (ix2 p q) = (ix2 (⟨1000 * t.val + p.val, by omega⟩ : Fin 40000) q : S40000x128.Idx) := by
    funext a; apply Fin.ext
    match a with
    | ⟨0, _⟩ => show win4_3.index t (0 : Fin 2) * 1000 + 1 * p.val = 1000 * t.val + p.val; omega
    | ⟨1, _⟩ => show win4_3.index t (1 : Fin 2) * 128 + 1 * q.val = q.val; omega
  refine (gate_block_h (gateE V c) (gateW V c) (gateB V c) (iblk4 V c 0 t) (iblk4 V c 1 t) (iblk4 V c 2 t) p q
    ⟨1000 * t.val + p.val, by omega⟩ (fun k => gate_blk_e V c t p k _ rfl) (fun k q' => gate_blk_w V c t k q')
    (fun q' => gate_blk_b V c t q')).trans ?_
  exact congrArg (gateH (gateE V c) (gateW V c) (gateB V c)) hemb.symm

theorem gate_flushed_l (c : Dev nD) (t : Fin cfg4.N) :
    (dat4 V c).flushed 4 t = ((cfg4.win 4).blk t).view.read (Elt Ideal) (gateL (gateE V c) (gateW V c) (gateB V c)) := by
  show (cfg4.win 4).cut (grid4.coords t) ((dat4 V c).after 4 t) = _
  rw [after4_4]
  unfold out4_4
  rw [View.canon_unit_zero gate_zero_off]
  simp only [View.ld_unit_zero (S := S1000x128) gate_zero_off, View.ld_unit_zero (S := S128x256) gate_zero_off,
    View.ld_unit_zero (S := S1x256) gate_zero_off]
  obtain ⟨-, -, -, -, -, -, -, -, e8, e9⟩ := gate_idx_facts t
  have hN : cfg4.N = 40 := N_4
  have ht : t.val < 40 := hN ▸ t.isLt
  funext y
  obtain ⟨p, q, rfl⟩ : ∃ (p : Fin 1000) (q : Fin 128), y = ix2 p q := ⟨y 0, y 1, eq_ix2 y⟩
  have hemb : ((cfg4.win 4).blk t).view.emb (ix2 p q) = (ix2 (⟨1000 * t.val + p.val, by omega⟩ : Fin 40000) q : S40000x128.Idx) := by
    funext a; apply Fin.ext
    match a with
    | ⟨0, _⟩ => show win4_4.index t (0 : Fin 2) * 1000 + 1 * p.val = 1000 * t.val + p.val; omega
    | ⟨1, _⟩ => show win4_4.index t (1 : Fin 2) * 128 + 1 * q.val = q.val; omega
  refine (gate_block_l (gateE V c) (gateW V c) (gateB V c) (iblk4 V c 0 t) (iblk4 V c 1 t) (iblk4 V c 2 t) p q
    ⟨1000 * t.val + p.val, by omega⟩ (fun k => gate_blk_e V c t p k _ rfl) (fun k q' => gate_blk_w V c t k q')
    (fun q' => gate_blk_b V c t q')).trans ?_
  exact congrArg (gateL (gateE V c) (gateW V c) (gateB V c)) hemb.symm

theorem gate_mem_blk_h (t : Fin cfg4.N) (i : S40000x128.Idx) :
    i ∈ ((cfg4.win 3).blk t).view.set ↔ ∀ a : Fin 2, win4_3.index t a * S1000x128.size a ≤ (i a).val ∧ (i a).val < win4_3.index t a * S1000x128.size a + S1000x128.size a := by
  show i ∈ ((View.whole main_v81_0).slice (win4_3.rect t)).set ↔ _
  rw [View.set_slice_whole, Rect.mem_set_unit]
  exact Iff.rfl

theorem gate_mem_blk_l (t : Fin cfg4.N) (i : S40000x128.Idx) :
    i ∈ ((cfg4.win 4).blk t).view.set ↔ ∀ a : Fin 2, win4_4.index t a * S1000x128.size a ≤ (i a).val ∧ (i a).val < win4_4.index t a * S1000x128.size a + S1000x128.size a := by
  show i ∈ ((View.whole main_v81_1).slice (win4_4.rect t)).set ↔ _
  rw [View.set_slice_whole, Rect.mem_set_unit]
  exact Iff.rfl

theorem gate_cover_h (i : S40000x128.Idx) :
    ∃ t : Fin cfg4.N, (cfg4.win 3).flush t = true ∧ i ∈ ((cfg4.win 3).blk t).view.set := by
  have hi0 : (i 0).val < 40000 := idx2_lt0 i
  have hi1 : (i 1).val < 128 := idx2_lt1 i
  have hN : cfg4.N = 40 := N_4
  obtain ⟨t, ht⟩ : ∃ t : Fin cfg4.N, t.val = (i 0).val / 1000 := ⟨⟨(i 0).val / 1000, by rw [hN]; omega⟩, rfl⟩
  obtain ⟨-, -, -, -, -, -, e6, e7, -⟩ := gate_idx_facts t
  refine ⟨t, flush4_3 t, ?_⟩
  rw [gate_mem_blk_h]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 128 ≤ (i 1).val ∧ (i 1).val < win4_3.index t (1 : Fin 2) * 128 + 128; omega

theorem gate_cover_l (i : S40000x128.Idx) :
    ∃ t : Fin cfg4.N, (cfg4.win 4).flush t = true ∧ i ∈ ((cfg4.win 4).blk t).view.set := by
  have hi0 : (i 0).val < 40000 := idx2_lt0 i
  have hi1 : (i 1).val < 128 := idx2_lt1 i
  have hN : cfg4.N = 40 := N_4
  obtain ⟨t, ht⟩ : ∃ t : Fin cfg4.N, t.val = (i 0).val / 1000 := ⟨⟨(i 0).val / 1000, by rw [hN]; omega⟩, rfl⟩
  obtain ⟨-, -, -, -, -, -, -, -, e8, e9⟩ := gate_idx_facts t
  refine ⟨t, flush4_4 t, ?_⟩
  rw [gate_mem_blk_l]
  intro a
  match a with
  | ⟨0, _⟩ => show win4_4.index t (0 : Fin 2) * 1000 ≤ (i 0).val ∧ (i 0).val < win4_4.index t (0 : Fin 2) * 1000 + 1000; omega
  | ⟨1, _⟩ => show win4_4.index t (1 : Fin 2) * 128 ≤ (i 1).val ∧ (i 1).val < win4_4.index t (1 : Fin 2) * 128 + 128; omega

theorem gate_final_h (c : Dev nD) : (dat4 V c).arrAt 3 cfg4.N = gateH (gateE V c) (gateW V c) (gateB V c) :=
  (dat4 V c).arrAt_eq_of_cover 3 (gateH (gateE V c) (gateW V c) (gateB V c)) (fun t _ => gate_flushed_h V c t) gate_cover_h

theorem gate_final_l (c : Dev nD) : (dat4 V c).arrAt 4 cfg4.N = gateL (gateE V c) (gateW V c) (gateB V c) :=
  (dat4 V c).arrAt_eq_of_cover 4 (gateL (gateE V c) (gateW V c) (gateB V c)) (fun t _ => gate_flushed_l V c t) gate_cover_l

end Cert.KernelIdeal.Hand

end
-- ==== Proof.KIGateHost.lean ====
import proofs.«131905_j73031623901536_2_alg».proof.KernelIdeal
import proofs.«131905_j73031623901536_2_alg».proof.Proof.Gen.KernelIdeal
import Idealize.ShloMosaic.Lib.Pipeline.Value
import Idealize.ShloMosaic.Lib.ValueIdx

set_option maxRecDepth 16384

noncomputable section

namespace Cert.KernelIdeal.Hand

open Cert.KernelIdeal Cert.KernelIdeal.Facts₀
open Idealize.ShloMosaic Idealize.ShloMosaic.ValueIdx

variable {α : Type}

theorem gate_weight_left (Wh Wl : S128x128.Idx → α) (k : Fin 128) (q : Fin 256) (hq : q.val < 128) :
    concatenate S128x256 1 [⟨S128x128, Wh⟩, ⟨S128x128, Wl⟩] concatenates_S128x128_S128x128_S128x256_d1 (ix2 k q)
      = Wh (ix2 k (⟨q.val, hq⟩ : Fin 128)) :=
  concatenate_pair_apply_left (t := S128x256) (s₁ := S128x128) (s₂ := S128x128) 1 Wh Wl
    concatenates_S128x128_S128x128_S128x256_d1 (ix2 k q) rfl (ix2 k (⟨q.val, hq⟩ : Fin 128)) (fun b => by
      match b with
      | ⟨0, _⟩ => rfl
      | ⟨1, _⟩ => rfl)

theorem gate_weight_right (Wh Wl : S128x128.Idx → α) (k : Fin 128) (q : Fin 256) (hq : 128 ≤ q.val) :
    concatenate S128x256 1 [⟨S128x128, Wh⟩, ⟨S128x128, Wl⟩] concatenates_S128x128_S128x128_S128x256_d1 (ix2 k q)
      = Wl (ix2 k (⟨q.val - 128, by omega⟩ : Fin 128)) :=
  concatenate_pair_apply_right (t := S128x256) (s₁ := S128x128) (s₂ := S128x128) 1 Wh Wl
    concatenates_S128x128_S128x128_S128x256_d1 (ix2 k q) rfl rfl (ix2 k (⟨q.val - 128, by omega⟩ : Fin 128)) (fun b hb => by
      match b, hb with
      | ⟨0, _⟩, _ => rfl
      | ⟨1, _⟩, hb => exact absurd (Fin.ext rfl) hb)
    (by show (q.val - 128) + 128 = q.val; omega)

theorem gate_weight_h (Wh Wl : S128x128.Idx → α) (k : Fin 128) (j : Fin 128) :
    concatenate S128x256 1 [⟨S128x128, Wh⟩, ⟨S128x128, Wl⟩] concatenates_S128x128_S128x128_S128x256_d1
        (ix2 k (⟨j.val, by omega⟩ : Fin 256)) = Wh (ix2 k j) :=
  gate_weight_left Wh Wl k ⟨j.val, by omega⟩ j.isLt

theorem gate_weight_l (Wh Wl : S128x128.Idx → α) (k : Fin 128) (j : Fin 128) :
    concatenate S128x256 1 [⟨S128x128, Wh⟩, ⟨S128x128, Wl⟩] concatenates_S128x128_S128x128_S128x256_d1
        (ix2 k (⟨j.val + 128, by omega⟩ : Fin 256)) = Wl (ix2 k j) :=
  (gate_weight_right Wh Wl k ⟨j.val + 128, by omega⟩ (Nat.le_add_left _ _)).trans
    (congrArg Wl (congrArg (ix2 k) (Fin.ext (by show j.val + 128 - 128 = j.val; omega))))

theorem gate_bias_left (bh bl : S128.Idx → α) (q : Fin 256) (hq : q.val < 128) :
    shapeCast S1x256 (concatenate S256 0 [⟨S128, bh⟩, ⟨S128, bl⟩] concatenates_S128_S128_S256_d0) shapeCasts_S256_S1x256
        (ix2 (0 : Fin 1) q) = bh (ix1 (⟨q.val, hq⟩ : Fin 128)) := by
  refine (shapeCast_apply (s := S256) (t := S1x256) _ shapeCasts_S256_S1x256 (ix2 (0 : Fin 1) q) (ix1 q) ?_).trans ?_
  · rw [Shape.rowMajor_val_two, Shape.rowMajor_val_one]
    show q.val = 0 * 256 + q.val
    omega
  · exact concatenate_pair_apply_left (t := S256) (s₁ := S128) (s₂ := S128) 0 bh bl concatenates_S128_S128_S256_d0
      (ix1 q) rfl (ix1 (⟨q.val, hq⟩ : Fin 128)) (fun b => by
        match b with
        | ⟨0, _⟩ => rfl)

theorem gate_bias_right (bh bl : S128.Idx → α) (q : Fin 256) (hq : 128 ≤ q.val) :
    shapeCast S1x256 (concatenate S256 0 [⟨S128, bh⟩, ⟨S128, bl⟩] concatenates_S128_S128_S256_d0) shapeCasts_S256_S1x256
        (ix2 (0 : Fin 1) q) = bl (ix1 (⟨q.val - 128, by omega⟩ : Fin 128)) := by
  refine (shapeCast_apply (s := S256) (t := S1x256) _ shapeCasts_S256_S1x256 (ix2 (0 : Fin 1) q) (ix1 q) ?_).trans ?_
  · rw [Shape.rowMajor_val_two, Shape.rowMajor_val_one]
    show q.val = 0 * 256 + q.val
    omega
  · exact concatenate_pair_apply_right (t := S256) (s₁ := S128) (s₂ := S128) 0 bh bl concatenates_S128_S128_S256_d0
      (ix1 q) rfl rfl (ix1 (⟨q.val - 128, by omega⟩ : Fin 128)) (fun b hb => by
        match b, hb with
        | ⟨0, _⟩, hb => exact absurd (Fin.ext rfl) hb)
      (by show (q.val - 128) + 128 = q.val; omega)

theorem gate_bias_h (bh bl : S128.Idx → α) (j : Fin 128) :
    shapeCast S1x256 (concatenate S256 0 [⟨S128, bh⟩, ⟨S128, bl⟩] concatenates_S128_S128_S256_d0) shapeCasts_S256_S1x256
        (ix2 (0 : Fin 1) (⟨j.val, by omega⟩ : Fin 256)) = bh (ix1 j) :=
  gate_bias_left bh bl ⟨j.val, by omega⟩ j.isLt

theorem gate_bias_l (bh bl : S128.Idx → α) (j : Fin 128) :
    shapeCast S1x256 (concatenate S256 0 [⟨S128, bh⟩, ⟨S128, bl⟩] concatenates_S128_S128_S256_d0) shapeCasts_S256_S1x256
        (ix2 (0 : Fin 1) (⟨j.val + 128, by omega⟩ : Fin 256)) = bl (ix1 j) :=
  (gate_bias_right bh bl ⟨j.val + 128, by omega⟩ (Nat.le_add_left _ _)).trans
    (congrArg bl (congrArg ix1 (Fin.ext (by show j.val + 128 - 128 = j.val; omega))))

end Cert.KernelIdeal.Hand

end
-- ==== Proof.RefGateValue.lean ====
import proofs.«131905_j73031623901536_2_alg».proof.ReferenceIdeal
import proofs.«131905_j73031623901536_2_alg».proof.Proof.Gen.ReferenceIdeal
import proofs.«131905_j73031623901536_2_alg».proof.Proof.DotPlain
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

open scoped BigOperators

namespace Cert.Bridge

open Cert.ReferenceIdeal Cert.ReferenceIdeal.Facts₀
open Idealize.ShloMosaic Idealize.ShloMosaic.ValueIdx

theorem refgate_dot_apply (e : FVec Ideal S40000x128 .f32) (W : FVec Ideal S128x128 .f32) (i : Fin 40000) (j : Fin 128) :
    Host.dotGeneral dot_S40000x128_S128x128_S40000x128_1_0_0_1_n_n none e W (ix2 i j) = ∑ k : Fin 128, e (ix2 i k) * W (ix2 k j) :=
  dot_plain_apply e W i j

theorem refgate_bias_apply (b : FVec Ideal S128 .f32) (i : Fin 40000) (j : Fin 128) :
    broadcastInDim S40000x128 ![0, 1] bcast_S1x128_S40000x128_0_1 (broadcastInDim S1x128 ![1] bcast_S128_S1x128_1 b) (ix2 i j) = b (ix1 j) := by
  refine (broadcastInDim_apply (s := S1x128) (t := S40000x128) ![0, 1] bcast_S1x128_S40000x128_0_1 _ (ix2 i j) (ix2 (0 : Fin 1) j) (fun a => by
    match a with
    | ⟨0, _⟩ => rfl
    | ⟨1, _⟩ => rfl)).trans ?_
  exact broadcastInDim_apply (s := S128) (t := S1x128) ![1] bcast_S128_S1x128_1 b (ix2 (0 : Fin 1) j) (ix1 j) (fun a => by
    match a with
    | ⟨0, _⟩ => rfl)

theorem ofBits_one_f32 : Ideal.ofBits .f32 0x3F800000#32 = 1 := by
  simp [Ideal.ofBits, Ideal.ieee, -EReal.coe_mul]; norm_num

theorem refgate_one_apply (y : S40000x128.Idx) :
    broadcastInDim S40000x128 ![] bcast_S_S40000x128 (constant (F := Ideal) S_ .f32 0x3F800000#32) y = 1 :=
  ofBits_one_f32

def refGate (e : FVec Ideal S40000x128 .f32) (W : FVec Ideal S128x128 .f32) (b : FVec Ideal S128 .f32) : FVec Ideal S40000x128 .f32 :=
  mulf
    (Host.divf (F := Ideal) (broadcastInDim S40000x128 ![] bcast_S_S40000x128 (constant (F := Ideal) S_ .f32 0x3F800000#32))
      (addf (broadcastInDim S40000x128 ![] bcast_S_S40000x128 (constant (F := Ideal) S_ .f32 0x3F800000#32))
        (Host.exp (F := Ideal) (Host.negf (F := Ideal)
          (addf (Host.dotGeneral dot_S40000x128_S128x128_S40000x128_1_0_0_1_n_n none e W)
            (broadcastInDim S40000x128 ![0, 1] bcast_S1x128_S40000x128_0_1 (broadcastInDim S1x128 ![1] bcast_S128_S1x128_1 b)))))))
    e

theorem refGate_apply (e : FVec Ideal S40000x128 .f32) (W : FVec Ideal S128x128 .f32) (b : FVec Ideal S128 .f32) (i : Fin 40000) (j : Fin 128) :
    refGate e W b (ix2 i j) = Ideal.logistic ((∑ k : Fin 128, e (ix2 i k) * W (ix2 k j)) + b (ix1 j)) * e (ix2 i j) := by
  unfold refGate
  refine (mulf_apply _ _ (ix2 i j)).trans ?_
  refine congrArg (· * e (ix2 i j)) ?_
  show Ideal.div (broadcastInDim S40000x128 ![] bcast_S_S40000x128 (constant (F := Ideal) S_ .f32 0x3F800000#32) (ix2 i j))
      (broadcastInDim S40000x128 ![] bcast_S_S40000x128 (constant (F := Ideal) S_ .f32 0x3F800000#32) (ix2 i j)
        + Ideal.exp (-(Host.dotGeneral dot_S40000x128_S128x128_S40000x128_1_0_0_1_n_n none e W (ix2 i j)
          + broadcastInDim S40000x128 ![0, 1] bcast_S1x128_S40000x128_0_1 (broadcastInDim S1x128 ![1] bcast_S128_S1x128_1 b) (ix2 i j))))
    = Ideal.logistic _
  rw [refgate_one_apply, refgate_dot_apply, refgate_bias_apply]
  rfl

end Cert.Bridge

end
-- ==== Proof.BridgeGateOps.lean ====
import proofs.«131905_j73031623901536_2_alg».proof.Proof.KIGateValue
import proofs.«131905_j73031623901536_2_alg».proof.Proof.KIGateHost
import proofs.«131905_j73031623901536_2_alg».proof.Proof.RefGateValue
import proofs.«131905_j73031623901536_2_alg».proof.Proof.RefRunOps0
import proofs.«131905_j73031623901536_2_alg».proof.Proof.RefRunOps1
import Idealize.ShloMosaic.Lib.StableHlo.Run
import Idealize.ShloMosaic.Lib.Pipeline.Value
import Idealize.ShloMosaic.Lib.ValueIdx

set_option maxRecDepth 16384

noncomputable section

open scoped BigOperators

namespace Cert.Bridge

open Idealize.ShloMosaic Idealize.ShloMosaic.TcCoe Idealize.ShloMosaic.ValueIdx Idealize.ShloMosaic.StableHlo Idealize.SL.Sem

section KernelSide

open Cert.KernelIdeal Cert.KernelIdeal.Facts₀

variable {α : Type}

/-- The three argument tables stacked by rows. -/
abbrev gateJoinE (a0 : S20000x128.Idx → α) (a1 : S15000x128.Idx → α) (a2 : S5000x128.Idx → α) : S40000x128.Idx → α :=
  concatenate S40000x128 0 [⟨S20000x128, a0⟩, ⟨S15000x128, a1⟩, ⟨S5000x128, a2⟩] concatenates_S20000x128_S15000x128_S5000x128_S40000x128_d0

/-- The two gates' weights side by side. -/
abbrev gateWideW (Wh Wl : S128x128.Idx → α) : S128x256.Idx → α :=
  concatenate S128x256 1 [⟨S128x128, Wh⟩, ⟨S128x128, Wl⟩] concatenates_S128x128_S128x128_S128x256_d1

/-- The two gates' biases end to end, as one row. -/
abbrev gateWideB (bh bl : S128.Idx → α) : S1x256.Idx → α :=
  shapeCast S1x256 (concatenate S256 0 [⟨S128, bh⟩, ⟨S128, bl⟩] concatenates_S128_S128_S256_d0) shapeCasts_S256_S1x256

variable {F : FTy → Type} [FloatOps F]

theorem k_embed (X : Valuation τ sig (Elt F)) :
    after (Gen.hostOps0 (F := F)) X (Proc.devRef .tc main_v0)
      = gateJoinE (X (Proc.devRef .tc main_arg0)) (X (Proc.devRef .tc main_arg1)) (X (Proc.devRef .tc main_arg2)) := by
  after_results_simp <;> rfl

theorem k_wide_weight (X : Valuation τ sig (Elt F)) :
    after (Gen.hostOps4 (F := F)) X (Proc.devRef .tc main_v78)
      = gateWideW (X (Proc.devRef .tc main_arg7)) (X (Proc.devRef .tc main_arg9)) := by
  after_results <;> rfl

theorem k_wide_bias (X : Valuation τ sig (Elt F)) :
    after (Gen.hostOps4 (F := F)) X (Proc.devRef .tc main_v80)
      = gateWideB (X (Proc.devRef .tc main_arg8)) (X (Proc.devRef .tc main_arg10)) := by
  after_results <;> rfl

theorem k_embed_kept (X : Valuation τ sig (Elt F)) :
    after (Gen.hostOps4 (F := F)) X (Proc.devRef .tc main_v0) = X (Proc.devRef .tc main_v0) := by
  after_results <;> rfl

end KernelSide

section ReferenceSide

open Cert.ReferenceIdeal Cert.ReferenceIdeal.Hand Cert.ReferenceIdeal.Facts₀

theorem r_embed {F : FTy → Type} [FloatOps F] (X : Valuation τ sig (Elt F)) :
    after (ops00 (F := F)) X (Proc.devRef .tc main_v0)
      = gateJoinE (X (Proc.devRef .tc main_arg0)) (X (Proc.devRef .tc main_arg1)) (X (Proc.devRef .tc main_arg2)) := by
  after_results_simp <;> rfl

theorem r_gate_h (X : Valuation τ sig (Elt Ideal)) :
    after (ops09 (F := Ideal)) X (Proc.devRef .tc main_v132)
      = refGate (X (Proc.devRef .tc main_v0)) (X (Proc.devRef .tc main_arg7)) (X (Proc.devRef .tc main_arg8)) := by
  after_results_simp <;> rfl

theorem r_gate_l (X : Valuation τ sig (Elt Ideal)) :
    after (ops09 (F := Ideal)) X (Proc.devRef .tc main_v143)
      = refGate (X (Proc.devRef .tc main_v0)) (X (Proc.devRef .tc main_arg9)) (X (Proc.devRef .tc main_arg10)) := by
  after_results_simp <;> rfl

end ReferenceSide

open Cert.KernelIdeal.Hand in
/-- Whatever the embeddings are, a gate read off its half of the wide weight and bias is the reference's gate. -/
theorem gate_join (E : FVec Ideal Cert.KernelIdeal.S40000x128 .f32) (Wh Wl : FVec Ideal Cert.KernelIdeal.S128x128 .f32)
    (bh bl : FVec Ideal Cert.KernelIdeal.S128 .f32) :
    gateH E (gateWideW Wh Wl) (gateWideB bh bl) = refGate E Wh bh ∧ gateL E (gateWideW Wh Wl) (gateWideB bh bl) = refGate E Wl bl := by
  constructor
  · funext i
    obtain ⟨r, q, rfl⟩ : ∃ (r : Fin 40000) (q : Fin 128), i = ix2 r q := ⟨i 0, i 1, eq_ix2 i⟩
    refine Eq.trans ?_ (refGate_apply E Wh bh r q).symm
    show gateAt _ _ _ r q (⟨q.val, by omega⟩ : Fin 256) = _
    unfold gateAt
    simp only [gate_weight_h, gate_bias_h]
  · funext i
    obtain ⟨r, q, rfl⟩ : ∃ (r : Fin 40000) (q : Fin 128), i = ix2 r q := ⟨i 0, i 1, eq_ix2 i⟩
    refine Eq.trans ?_ (refGate_apply E Wl bl r q).symm
    show gateAt _ _ _ r q (⟨q.val + 128, by omega⟩ : Fin 256) = _
    unfold gateAt
    simp only [gate_weight_l, gate_bias_l]

end Cert.Bridge

end
-- ==== Proof.BridgeGate.lean ====
import proofs.«131905_j73031623901536_2_alg».proof.Proof.KILevels
import proofs.«131905_j73031623901536_2_alg».proof.Proof.RefRun
import proofs.«131905_j73031623901536_2_alg».proof.Proof.BridgeGateOps

set_option maxRecDepth 16384

noncomputable section

namespace Cert.Bridge

open Idealize.ShloMosaic Idealize.ShloMosaic.TcCoe Idealize.ShloMosaic.ValueIdx Idealize.ShloMosaic.StableHlo Idealize.SL.Sem

section ReferenceChunks

open Cert.ReferenceIdeal Cert.ReferenceIdeal.Hand

variable {F : FTy → Type} [FloatOps F]

/-- Chunks 1 to 8 leave alone whatever none of them writes; with chunk 0 before them likewise. -/
theorem ops_01_08_keep (Y : Valuation τ sig (Elt F)) (r : Ref sig .tc) (h : r ∉ ops01_W ∧ r ∉ ops02_W ∧ r ∉ ops03_W ∧ r ∉ ops04_W ∧ r ∉ ops05_W ∧ r ∉ ops06_W ∧ r ∉ ops07_W ∧ r ∉ ops08_W) :
    after ops08 (after ops07 (after ops06 (after ops05 (after ops04 (after ops03 (after ops02 (after ops01 (Y)))))))) (Proc.devRef .tc r) = Y (Proc.devRef .tc r) := by
  obtain ⟨h1, h2, h3, h4, h5, h6, h7, h8⟩ := h
  rw [ops08_keep _ r h8, ops07_keep _ r h7, ops06_keep _ r h6, ops05_keep _ r h5, ops04_keep _ r h4, ops03_keep _ r h3,
    ops02_keep _ r h2, ops01_keep _ r h1]

theorem ops_00_08_keep (Y : Valuation τ sig (Elt F)) (r : Ref sig .tc) (h : r ∉ ops00_W ∧ r ∉ ops01_W ∧ r ∉ ops02_W ∧ r ∉ ops03_W ∧ r ∉ ops04_W ∧ r ∉ ops05_W ∧ r ∉ ops06_W ∧ r ∉ ops07_W ∧ r ∉ ops08_W) :
    after ops08 (after ops07 (after ops06 (after ops05 (after ops04 (after ops03 (after ops02 (after ops01 (after ops00 (Y))))))))) (Proc.devRef .tc r) = Y (Proc.devRef .tc r) :=
  (ops_01_08_keep _ r h.2).trans (ops00_keep Y r h.1)

/-- What no chunk after the ninth writes holds at the end what the ninth left in it. -/
theorem gate_after_ops_09 (V : Valuation τ sig (Elt F)) (r : Ref sig .tc) (h : r ∉ ops10_W ∧ r ∉ ops11_W ∧ r ∉ ops12_W ∧ r ∉ ops13_W ∧ r ∉ ops14_W ∧ r ∉ ops15_W ∧ r ∉ ops16_W ∧ r ∉ ops17_W ∧ r ∉ ops18_W ∧ r ∉ ops19_W ∧ r ∉ ops20_W ∧ r ∉ ops21_W ∧ r ∉ ops22_W ∧ r ∉ ops23_W ∧ r ∉ ops24_W ∧ r ∉ ops25_W ∧ r ∉ ops26_W) :
    after ops V (Proc.devRef .tc r) = after ops09 (after ops08 (after ops07 (after ops06 (after ops05 (after ops04 (after ops03 (after ops02 (after ops01 (after ops00 (V)))))))))) (Proc.devRef .tc r) := by
  obtain ⟨h10, h11, h12, h13, h14, h15, h16, h17, h18, h19, h20, h21, h22, h23, h24, h25, h26⟩ := h
  rw [after_ops, ops26_keep _ _ h26, ops25_keep _ _ h25, ops24_keep _ _ h24, ops23_keep _ _ h23, ops22_keep _ _ h22, ops21_keep _ _ h21, ops20_keep _ _ h20, ops19_keep _ _ h19, ops18_keep _ _ h18, ops17_keep _ _ h17, ops16_keep _ _ h16, ops15_keep _ _ h15, ops14_keep _ _ h14, ops13_keep _ _ h13, ops12_keep _ _ h12, ops11_keep _ _ h11, ops10_keep _ _ h10]

set_option maxRecDepth 8192 in
theorem ref_gate_h (V : Valuation τ sig (Elt Ideal)) :
    after ops V (Proc.devRef .tc main_v132)
      = refGate (gateJoinE (V (Proc.devRef .tc main_arg0)) (V (Proc.devRef .tc main_arg1)) (V (Proc.devRef .tc main_arg2)))
        (V (Proc.devRef .tc main_arg7)) (V (Proc.devRef .tc main_arg8)) := by
  rw [gate_after_ops_09 V main_v132 (by decide), r_gate_h, ops_01_08_keep _ main_v0 (by decide), r_embed,
    ops_00_08_keep _ main_arg7 (by decide), ops_00_08_keep _ main_arg8 (by decide)]

set_option maxRecDepth 8192 in
theorem ref_gate_l (V : Valuation τ sig (Elt Ideal)) :
    after ops V (Proc.devRef .tc main_v143)
      = refGate (gateJoinE (V (Proc.devRef .tc main_arg0)) (V (Proc.devRef .tc main_arg1)) (V (Proc.devRef .tc main_arg2)))
        (V (Proc.devRef .tc main_arg9)) (V (Proc.devRef .tc main_arg10)) := by
  rw [gate_after_ops_09 V main_v143 (by decide), r_gate_l, ops_01_08_keep _ main_v0 (by decide), r_embed,
    ops_00_08_keep _ main_arg9 (by decide), ops_00_08_keep _ main_arg10 (by decide)]

end ReferenceChunks

section KernelLevels

open Cert.KernelIdeal Cert.KernelIdeal.Hand

/-- The gate stage's three inputs, from the arrays at launch. -/
abbrev gateKE (m : (ℓ : Loc nD τ sig) → Buf (Elt Ideal) ℓ) (c : Dev nD) : Vec Ideal S40000x128 .f32 :=
  gateJoinE (W0 m c (Proc.devRef .tc main_arg0)) (W0 m c (Proc.devRef .tc main_arg1)) (W0 m c (Proc.devRef .tc main_arg2))
abbrev gateKW (m : (ℓ : Loc nD τ sig) → Buf (Elt Ideal) ℓ) (c : Dev nD) : Vec Ideal S128x256 .f32 :=
  gateWideW (W0 m c (Proc.devRef .tc main_arg7)) (W0 m c (Proc.devRef .tc main_arg9))
abbrev gateKB (m : (ℓ : Loc nD τ sig) → Buf (Elt Ideal) ℓ) (c : Dev nD) : Vec Ideal S1x256 .f32 :=
  gateWideB (W0 m c (Proc.devRef .tc main_arg8)) (W0 m c (Proc.devRef .tc main_arg10))

theorem kernel_gate (m : (ℓ : Loc nD τ sig) → Buf (Elt Ideal) ℓ) (c : Dev nD)
    (keep0 : W13 m c (Proc.devRef .tc main_v0) = W1 m c (Proc.devRef .tc main_v0))
    (keep7 : W12 m c (Proc.devRef .tc main_arg7) = W0 m c (Proc.devRef .tc main_arg7))
    (keep8 : W12 m c (Proc.devRef .tc main_arg8) = W0 m c (Proc.devRef .tc main_arg8))
    (keep9 : W12 m c (Proc.devRef .tc main_arg9) = W0 m c (Proc.devRef .tc main_arg9))
    (keep10 : W12 m c (Proc.devRef .tc main_arg10) = W0 m c (Proc.devRef .tc main_arg10)) :
    W14 m c (Proc.devRef .tc main_v81_0) = gateH (gateKE m c) (gateKW m c) (gateKB m c)
    ∧ W14 m c (Proc.devRef .tc main_v81_1) = gateL (gateKE m c) (gateKW m c) (gateKB m c) := by
  have hE : gateE (E13 m) c = gateKE m c :=
    (keep0.trans (congrFun (W1_def m c) _)).trans (k_embed (W0 m c))
  have hW : gateW (E13 m) c = gateKW m c := by
    refine ((congrFun (W13_def m c) _).trans (k_wide_weight (W12 m c))).trans ?_
    rw [keep7, keep9]
  have hB : gateB (E13 m) c = gateKB m c := by
    refine ((congrFun (W13_def m c) _).trans (k_wide_bias (W12 m c))).trans ?_
    rw [keep8, keep10]
  constructor
  · refine ((W14_at_main_v81_0 m c).trans (gate_final_h (E13 m) c)).trans ?_
    rw [hE, hW, hB]
  · refine ((W14_at_main_v81_1 m c).trans (gate_final_l (E13 m) c)).trans ?_
    rw [hE, hW, hB]

end KernelLevels

theorem gate_bridge
    (mK : (ℓ : Loc Cert.KernelIdeal.nD Cert.KernelIdeal.τ Cert.KernelIdeal.sig) → Buf (Elt Ideal) ℓ)
    (mR : (ℓ : Loc Cert.ReferenceIdeal.nD Cert.ReferenceIdeal.τ Cert.ReferenceIdeal.sig) → Buf (Elt Ideal) ℓ)
    (c : Dev Cert.KernelIdeal.nD)
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (h2 : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2))
    (h7 : mR ((c.tc : Thread Cert.ReferenceIdeal.nD Cert.ReferenceIdeal.τ).loc Cert.ReferenceIdeal.main_arg7) = mK ((c.tc : Thread Cert.KernelIdeal.nD Cert.KernelIdeal.τ).loc Cert.KernelIdeal.main_arg7))
    (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8))
    (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9))
    (h10 : mR ((c.tc : Thread Cert.ReferenceIdeal.nD Cert.ReferenceIdeal.τ).loc Cert.ReferenceIdeal.main_arg10) = mK ((c.tc : Thread Cert.KernelIdeal.nD Cert.KernelIdeal.τ).loc Cert.KernelIdeal.main_arg10))
    (keep0 : Cert.KernelIdeal.Hand.W13 mK c (Proc.devRef .tc Cert.KernelIdeal.main_v0) = Cert.KernelIdeal.Hand.W1 mK c (Proc.devRef .tc Cert.KernelIdeal.main_v0))
    (keep7 : Cert.KernelIdeal.Hand.W12 mK c (Proc.devRef .tc Cert.KernelIdeal.main_arg7) = Cert.KernelIdeal.Hand.W0 mK c (Proc.devRef .tc Cert.KernelIdeal.main_arg7))
    (keep8 : Cert.KernelIdeal.Hand.W12 mK c (Proc.devRef .tc Cert.KernelIdeal.main_arg8) = Cert.KernelIdeal.Hand.W0 mK c (Proc.devRef .tc Cert.KernelIdeal.main_arg8))
    (keep9 : Cert.KernelIdeal.Hand.W12 mK c (Proc.devRef .tc Cert.KernelIdeal.main_arg9) = Cert.KernelIdeal.Hand.W0 mK c (Proc.devRef .tc Cert.KernelIdeal.main_arg9))
    (keep10 : Cert.KernelIdeal.Hand.W12 mK c (Proc.devRef .tc Cert.KernelIdeal.main_arg10) = Cert.KernelIdeal.Hand.W0 mK c (Proc.devRef .tc Cert.KernelIdeal.main_arg10)) :
    Cert.KernelIdeal.Hand.W14 mK c (Proc.devRef .tc Cert.KernelIdeal.main_v81_0)
      = after Cert.ReferenceIdeal.Hand.ops (launchContents mR c) (Proc.devRef .tc Cert.ReferenceIdeal.main_v132)
    ∧ Cert.KernelIdeal.Hand.W14 mK c (Proc.devRef .tc Cert.KernelIdeal.main_v81_1)
      = after Cert.ReferenceIdeal.Hand.ops (launchContents mR c) (Proc.devRef .tc Cert.ReferenceIdeal.main_v143) := by
  obtain ⟨kh, kl⟩ := kernel_gate mK c keep0 keep7 keep8 keep9 keep10
  obtain ⟨jh, jl⟩ := gate_join (gateJoinE (mK ((c.tc : Thread Cert.KernelIdeal.nD Cert.KernelIdeal.τ).loc Cert.KernelIdeal.main_arg0)) (mK ((c.tc : Thread Cert.KernelIdeal.nD Cert.KernelIdeal.τ).loc Cert.KernelIdeal.main_arg1)) (mK ((c.tc : Thread Cert.KernelIdeal.nD Cert.KernelIdeal.τ).loc Cert.KernelIdeal.main_arg2))) (mK ((c.tc : Thread Cert.KernelIdeal.nD Cert.KernelIdeal.τ).loc Cert.KernelIdeal.main_arg7)) (mK ((c.tc : Thread Cert.KernelIdeal.nD Cert.KernelIdeal.τ).loc Cert.KernelIdeal.main_arg9)) (mK ((c.tc : Thread Cert.KernelIdeal.nD Cert.KernelIdeal.τ).loc Cert.KernelIdeal.main_arg8)) (mK ((c.tc : Thread Cert.KernelIdeal.nD Cert.KernelIdeal.τ).loc Cert.KernelIdeal.main_arg10))
  constructor
  · refine (kh.trans jh).trans ?_
    rw [ref_gate_h (launchContents mR c)]
    show _ = refGate (gateJoinE (mR ((c.tc : Thread Cert.ReferenceIdeal.nD Cert.ReferenceIdeal.τ).loc Cert.ReferenceIdeal.main_arg0)) (mR ((c.tc : Thread Cert.ReferenceIdeal.nD Cert.ReferenceIdeal.τ).loc Cert.ReferenceIdeal.main_arg1)) (mR ((c.tc : Thread Cert.ReferenceIdeal.nD Cert.ReferenceIdeal.τ).loc Cert.ReferenceIdeal.main_arg2))) (mR ((c.tc : Thread Cert.ReferenceIdeal.nD Cert.ReferenceIdeal.τ).loc Cert.ReferenceIdeal.main_arg7)) (mR ((c.tc : Thread Cert.ReferenceIdeal.nD Cert.ReferenceIdeal.τ).loc Cert.ReferenceIdeal.main_arg8))
    rw [h0, h1, h2, h7, h8] <;> rfl
  · refine (kl.trans jl).trans ?_
    rw [ref_gate_l (launchContents mR c)]
    show _ = refGate (gateJoinE (mR ((c.tc : Thread Cert.ReferenceIdeal.nD Cert.ReferenceIdeal.τ).loc Cert.ReferenceIdeal.main_arg0)) (mR ((c.tc : Thread Cert.ReferenceIdeal.nD Cert.ReferenceIdeal.τ).loc Cert.ReferenceIdeal.main_arg1)) (mR ((c.tc : Thread Cert.ReferenceIdeal.nD Cert.ReferenceIdeal.τ).loc Cert.ReferenceIdeal.main_arg2))) (mR ((c.tc : Thread Cert.ReferenceIdeal.nD Cert.ReferenceIdeal.τ).loc Cert.ReferenceIdeal.main_arg9)) (mR ((c.tc : Thread Cert.ReferenceIdeal.nD Cert.ReferenceIdeal.τ).loc Cert.ReferenceIdeal.main_arg10))
    rw [h0, h1, h2, h9, h10] <;> rfl

end Cert.Bridge

end
-- ==== Proof.KIMatValue5.lean ====
import proofs.«131905_j73031623901536_2_alg».proof.Proof.KIRegion5
import proofs.«131905_j73031623901536_2_alg».proof.Proof.KIMatBlock
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

-- Grid point t contributes rows 1000 t … 1000 t + 999 of the product, and these row blocks tile the rows.
theorem matmul_array5 (c : Dev nD) :
    (dat5 V c).arrAt 2 cfg5.N = rowsTimes (V c main_v81_0 : S40000x128.Idx → EReal) (V c main_v110 : S128x128.Idx → EReal) := by
  refine (dat5 V c).arrAt_eq_of_cover 2 _ (fun t _ => ?_)
    (cover_of_ranges win5_2 flush5_2 (fun i => ⟨i, rfl⟩) (rowTiles N_5 rfl win5_2.index rowIdx40 fun _ => rfl))
  show (cfg5.win 2).cut (grid5.coords t) ((dat5 V c).after 2 t) = _
  rw [after5_2]
  unfold out5_2
  funext y
  refine stored_eq_rowsTimes _ _ k5_pay1 (fun x0 x1 p q => ?_) (iblk5 V c 0 t) (iblk5 V c 1 t) _ _
    ((cfg5.win 2).blk t).view.emb (fun y k => ?_) (fun y k => ?_) y
  · unfold k5_pay1
    simp only [shapeCast_self]
    exact blockProduct_apply _ _ p q
  · show (V c main_v81_0 : S40000x128.Idx → EReal) (((cfg5.win 0).blk t).view.emb (ix2 (y 0) k)) = _
    exact congrArg _ (Shape.idx_ext₂ rfl (win5_0.rect_emb_val_of_index_zero t (1 : Fin 2) rfl _))
  · show (V c main_v110 : S128x128.Idx → EReal) (((cfg5.win 1).blk t).view.emb (ix2 k (y 1))) = _
    exact congrArg _ (Shape.idx_ext₂ (win5_1.rect_emb_val_of_index_zero t (0 : Fin 2) rfl _) rfl)

end Cert.KernelIdeal.Hand

end
-- ==== Proof.KIMatValue7.lean ====
import proofs.«131905_j73031623901536_2_alg».proof.Proof.KIRegion7
import proofs.«131905_j73031623901536_2_alg».proof.Proof.KIMatBlock
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

-- Grid point t contributes rows 1000 t … 1000 t + 999 of the product, and these row blocks tile the rows.
theorem matmul_array7 (c : Dev nD) :
    (dat7 V c).arrAt 2 cfg7.N = rowsTimes (V c main_v141_0 : S40000x128.Idx → EReal) (V c main_v143 : S128x128.Idx → EReal) := by
  refine (dat7 V c).arrAt_eq_of_cover 2 _ (fun t _ => ?_)
    (cover_of_ranges win7_2 flush7_2 (fun i => ⟨i, rfl⟩) (rowTiles N_7 rfl win7_2.index rowIdx40 fun _ => rfl))
  show (cfg7.win 2).cut (grid7.coords t) ((dat7 V c).after 2 t) = _
  rw [after7_2]
  unfold out7_2
  funext y
  refine stored_eq_rowsTimes _ _ k7_pay1 (fun x0 x1 p q => ?_) (iblk7 V c 0 t) (iblk7 V c 1 t) _ _
    ((cfg7.win 2).blk t).view.emb (fun y k => ?_) (fun y k => ?_) y
  · unfold k7_pay1
    simp only [shapeCast_self]
    exact blockProduct_apply _ _ p q
  · show (V c main_v141_0 : S40000x128.Idx → EReal) (((cfg7.win 0).blk t).view.emb (ix2 (y 0) k)) = _
    exact congrArg _ (Shape.idx_ext₂ rfl (win7_0.rect_emb_val_of_index_zero t (1 : Fin 2) rfl _))
  · show (V c main_v143 : S128x128.Idx → EReal) (((cfg7.win 1).blk t).view.emb (ix2 k (y 1))) = _
    exact congrArg _ (Shape.idx_ext₂ (win7_1.rect_emb_val_of_index_zero t (0 : Fin 2) rfl _) rfl)

end Cert.KernelIdeal.Hand

end
-- ==== Proof.KICombValue6.lean ====
import proofs.«131905_j73031623901536_2_alg».proof.Proof.KIRegion6
import proofs.«131905_j73031623901536_2_alg».proof.Proof.KICombPoint
import Idealize.ShloMosaic.Lib.Pipeline.Value
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem pay6_1_at (x0 : Vec Ideal S1000x128 .f32) (x1 : Vec Ideal S1x128 .f32) (x2 : Vec Ideal S1000x128 .f32)
    (j : S1000x128.Idx) : k6_pay1 x0 x1 x2 j = newX (x0 j) (x1 (ix2 0 (j 1))) (x2 j) := by
  unfold k6_pay1 newX
  simp only [shapeCast_self]
  rw [← bias_row_at broadcasts_S1x128_S1000x128 x1 j]
  rfl

theorem pay6_2_at (x0 : Vec Ideal S1000x128 .f32) (x1 : Vec Ideal S1x128 .f32) (x2 x3 : Vec Ideal S1000x128 .f32)
    (j : S1000x128.Idx) :
    k6_pay2 x0 x1 x2 x3 j = newR (x0 j) (x1 (ix2 0 (j 1))) (x2 j) (x3 j) (Ideal.ofBits .f32 0x3F000000#32) := by
  unfold k6_pay2 newR
  try simp only [shapeCast_self]
  rw [← pay6_1_at x0 x1 x2 j]
  rfl

variable (V : (c : Dev nD) → (b : Ref sig .tc) → Buf (Elt Ideal) ((c : Thread nD τ).loc b))

-- The bias row's one block is the row itself, and an entry's lane in the array is its lane in the block.
theorem bias6 (c : Dev nD) (t : Fin cfg6.N) (y : S1000x128.Idx) :
    iblk6 V c 1 t (ix2 0 (y 1)) = V c main_v140 (ix2 0 (((cfg6.win 5).blk t).view.emb y 1)) :=
  show V c main_v140 (((cfg6.win 1).blk t).view.emb (ix2 0 (y 1))) = _ from
    congrArg _ (Shape.idx_ext₂ (win6_1.rect_emb_val_of_index_zero t (0 : Fin 2) rfl _) rfl)

theorem final6_4 (c : Dev nD) :
    (dat6 V c).arrAt 4 cfg6.N = layerOut (V c main_v137) (V c main_v140) (V c main_v81_0) := by
  refine (dat6 V c).arrAt_eq_of_cover 4 _ (fun t _ => ?_)
    (cover_of_ranges win6_4 flush6_4 (fun i => ⟨i, rfl⟩) (rowTiles N_6 rfl win6_4.index rowIdx40 fun _ => rfl))
  show (cfg6.win 4).cut (grid6.coords t) ((dat6 V c).after 4 t) = _
  rw [after6_4]
  unfold out6_4
  funext y
  exact stored_eq_layerOut _ _ _ k6_pay1 pay6_1_at (iblk6 V c 0 t) (iblk6 V c 1 t) (iblk6 V c 2 t) _ _
    ((cfg6.win 4).blk t).view.emb (fun _ => rfl) (bias6 V c t) (fun _ => rfl) y

theorem final6_5 (c : Dev nD) :
    (dat6 V c).arrAt 5 cfg6.N
      = layerRes (Ideal.ofBits .f32 0x3F000000#32) (V c main_v137) (V c main_v140) (V c main_v81_0) (V c main_v81_0) := by
  refine (dat6 V c).arrAt_eq_of_cover 5 _ (fun t _ => ?_)
    (cover_of_ranges win6_5 flush6_5 (fun i => ⟨i, rfl⟩) (rowTiles N_6 rfl win6_5.index rowIdx40 fun _ => rfl))
  show (cfg6.win 5).cut (grid6.coords t) ((dat6 V c).after 5 t) = _
  rw [after6_5]
  unfold out6_5
  funext y
  exact stored_eq_layerRes _ _ _ _ _ k6_pay2 pay6_2_at (iblk6 V c 0 t) (iblk6 V c 1 t) (iblk6 V c 2 t)
    (iblk6 V c 3 t) _ _ ((cfg6.win 5).blk t).view.emb (fun _ => rfl) (bias6 V c t) (fun _ => rfl) (fun _ => rfl) y

end Cert.KernelIdeal.Hand

end
-- ==== Proof.KICombValue8.lean ====
import proofs.«131905_j73031623901536_2_alg».proof.Proof.KIRegion8
import proofs.«131905_j73031623901536_2_alg».proof.Proof.KICombPoint
import Idealize.ShloMosaic.Lib.Pipeline.Value
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem pay8_1_at (x0 : Vec Ideal S1000x128 .f32) (x1 : Vec Ideal S1x128 .f32) (x2 : Vec Ideal S1000x128 .f32)
    (j : S1000x128.Idx) : k8_pay1 x0 x1 x2 j = newX (x0 j) (x1 (ix2 0 (j 1))) (x2 j) := by
  unfold k8_pay1 newX
  simp only [shapeCast_self]
  rw [← bias_row_at broadcasts_S1x128_S1000x128 x1 j]
  rfl

theorem pay8_2_at (x0 : Vec Ideal S1000x128 .f32) (x1 : Vec Ideal S1x128 .f32) (x2 x3 : Vec Ideal S1000x128 .f32)
    (j : S1000x128.Idx) :
    k8_pay2 x0 x1 x2 x3 j = newR (x0 j) (x1 (ix2 0 (j 1))) (x2 j) (x3 j) (Ideal.ofBits .f32 0x3EAAAAAB#32) := by
  unfold k8_pay2 newR
  try simp only [shapeCast_self]
  rw [← pay8_1_at x0 x1 x2 j]
  rfl

variable (V : (c : Dev nD) → (b : Ref sig .tc) → Buf (Elt Ideal) ((c : Thread nD τ).loc b))

-- The bias row's one block is the row itself, and an entry's lane in the array is its lane in the block.
theorem bias8 (c : Dev nD) (t : Fin cfg8.N) (y : S1000x128.Idx) :
    iblk8 V c 1 t (ix2 0 (y 1)) = V c main_v173 (ix2 0 (((cfg8.win 5).blk t).view.emb y 1)) :=
  show V c main_v173 (((cfg8.win 1).blk t).view.emb (ix2 0 (y 1))) = _ from
    congrArg _ (Shape.idx_ext₂ (win8_1.rect_emb_val_of_index_zero t (0 : Fin 2) rfl _) rfl)

theorem final8_5 (c : Dev nD) :
    (dat8 V c).arrAt 5 cfg8.N
      = layerRes (Ideal.ofBits .f32 0x3EAAAAAB#32) (V c main_v170) (V c main_v173) (V c main_v141_0) (V c main_v141_1) := by
  refine (dat8 V c).arrAt_eq_of_cover 5 _ (fun t _ => ?_)
    (cover_of_ranges win8_5 flush8_5 (fun i => ⟨i, rfl⟩) (rowTiles N_8 rfl win8_5.index rowIdx40 fun _ => rfl))
  show (cfg8.win 5).cut (grid8.coords t) ((dat8 V c).after 5 t) = _
  rw [after8_5]
  unfold out8_5
  funext y
  exact stored_eq_layerRes _ _ _ _ _ k8_pay2 pay8_2_at (iblk8 V c 0 t) (iblk8 V c 1 t) (iblk8 V c 2 t)
    (iblk8 V c 3 t) _ _ ((cfg8.win 5).blk t).view.emb (fun _ => rfl) (bias8 V c t) (fun _ => rfl) (fun _ => rfl) y

end Cert.KernelIdeal.Hand

end
-- ==== Proof.BridgeHgatRefOps.lean ====
import proofs.«131905_j73031623901536_2_alg».proof.Proof.RefRunOps1
import proofs.«131905_j73031623901536_2_alg».proof.Proof.RefRunOps2
import Idealize.ShloMosaic.Lib.StableHlo.Run

set_option Elab.async false

noncomputable section

namespace Cert.Bridge

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

abbrev hgPre : List (HloOp τ sig (Elt F)) :=
  [ StableHlo.TRef.ternary (StableHlo.TRef.of (T := ⟨S5000x128, .i1⟩) main_call5_v1) (StableHlo.TRef.of (T := ⟨S5000x128, .f32⟩) main_v116) (StableHlo.TRef.of (T := ⟨S5000x128, .f32⟩) main_call5_v3) (StableHlo.TRef.of (T := ⟨S5000x128, .f32⟩) main_v117) select,
    StableHlo.binary main_v117 main_v60 main_v118 (addf : (⟨S5000x128, .f32⟩ : BufTy).Contents (Elt F) → (⟨S5000x128, .f32⟩ : BufTy).Contents (Elt F) → (⟨S5000x128, .f32⟩ : BufTy).Contents (Elt F)),
    StableHlo.nullary main_cst_28 (constant S_ .f32 0x3EAAAAAB#32),
    StableHlo.unary main_cst_28 main_v119 (broadcastInDim S5000x128 ![] bcast_S_S5000x128 : (⟨S_, .f32⟩ : BufTy).Contents (Elt F) → (⟨S5000x128, .f32⟩ : BufTy).Contents (Elt F)),
    StableHlo.binary main_v118 main_v119 main_v120 (mulf : (⟨S5000x128, .f32⟩ : BufTy).Contents (Elt F) → (⟨S5000x128, .f32⟩ : BufTy).Contents (Elt F) → (⟨S5000x128, .f32⟩ : BufTy).Contents (Elt F)),
    StableHlo.binary main_v63 main_v120 main_v121 (addf : (⟨S5000x128, .f32⟩ : BufTy).Contents (Elt F) → (⟨S5000x128, .f32⟩ : BufTy).Contents (Elt F) → (⟨S5000x128, .f32⟩ : BufTy).Contents (Elt F)),
    StableHlo.binary main_v0 main_arg7 main_v122 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg8 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S40000x128 ![0, 1] bcast_S1x128_S40000x128_0_1 : (⟨S1x128, .f32⟩ : BufTy).Contents (Elt F) → (⟨S40000x128, .f32⟩ : BufTy).Contents (Elt F)),
    StableHlo.binary main_v122 main_v124 main_v125 (addf : (⟨S40000x128, .f32⟩ : BufTy).Contents (Elt F) → (⟨S40000x128, .f32⟩ : BufTy).Contents (Elt F) → (⟨S40000x128, .f32⟩ : BufTy).Contents (Elt F)),
    StableHlo.unary main_v125 main_v126 (Host.negf : (⟨S40000x128, .f32⟩ : BufTy).Contents (Elt F) → (⟨S40000x128, .f32⟩ : BufTy).Contents (Elt F)),
    StableHlo.unary main_v126 main_v127 (Host.exp : (⟨S40000x128, .f32⟩ : BufTy).Contents (Elt F) → (⟨S40000x128, .f32⟩ : BufTy).Contents (Elt F)),
    StableHlo.nullary main_cst_29 (constant S_ .f32 0x3F800000#32),
    StableHlo.unary main_cst_29 main_v128 (broadcastInDim S40000x128 ![] bcast_S_S40000x128 : (⟨S_, .f32⟩ : BufTy).Contents (Elt F) → (⟨S40000x128, .f32⟩ : BufTy).Contents (Elt F)),
    StableHlo.binary main_v128 main_v127 main_v129 (addf : (⟨S40000x128, .f32⟩ : BufTy).Contents (Elt F) → (⟨S40000x128, .f32⟩ : BufTy).Contents (Elt F) → (⟨S40000x128, .f32⟩ : BufTy).Contents (Elt F)),
    StableHlo.nullary main_cst_30 (constant S_ .f32 0x3F800000#32),
    StableHlo.unary main_cst_30 main_v130 (broadcastInDim S40000x128 ![] bcast_S_S40000x128 : (⟨S_, .f32⟩ : BufTy).Contents (Elt F) → (⟨S40000x128, .f32⟩ : BufTy).Contents (Elt F)),
    StableHlo.binary main_v130 main_v129 main_v131 (Host.divf : (⟨S40000x128, .f32⟩ : BufTy).Contents (Elt F) → (⟨S40000x128, .f32⟩ : BufTy).Contents (Elt F) → (⟨S40000x128, .f32⟩ : BufTy).Contents (Elt F)),
    StableHlo.binary main_v131 main_v0 main_v132 (mulf : (⟨S40000x128, .f32⟩ : BufTy).Contents (Elt F) → (⟨S40000x128, .f32⟩ : BufTy).Contents (Elt F) → (⟨S40000x128, .f32⟩ : BufTy).Contents (Elt F)),
    StableHlo.binary main_v0 main_arg9 main_v133 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg10 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S40000x128 ![0, 1] bcast_S1x128_S40000x128_0_1 : (⟨S1x128, .f32⟩ : BufTy).Contents (Elt F) → (⟨S40000x128, .f32⟩ : BufTy).Contents (Elt F)),
    StableHlo.binary main_v133 main_v135 main_v136 (addf : (⟨S40000x128, .f32⟩ : BufTy).Contents (Elt F) → (⟨S40000x128, .f32⟩ : BufTy).Contents (Elt F) → (⟨S40000x128, .f32⟩ : BufTy).Contents (Elt F)),
    StableHlo.unary main_v136 main_v137 (Host.negf : (⟨S40000x128, .f32⟩ : BufTy).Contents (Elt F) → (⟨S40000x128, .f32⟩ : BufTy).Contents (Elt F)),
    StableHlo.unary main_v137 main_v138 (Host.exp : (⟨S40000x128, .f32⟩ : BufTy).Contents (Elt F) → (⟨S40000x128, .f32⟩ : BufTy).Contents (Elt F)),
    StableHlo.nullary main_cst_31 (constant S_ .f32 0x3F800000#32),
    StableHlo.unary main_cst_31 main_v139 (broadcastInDim S40000x128 ![] bcast_S_S40000x128 : (⟨S_, .f32⟩ : BufTy).Contents (Elt F) → (⟨S40000x128, .f32⟩ : BufTy).Contents (Elt F)),
    StableHlo.binary main_v139 main_v138 main_v140 (addf : (⟨S40000x128, .f32⟩ : BufTy).Contents (Elt F) → (⟨S40000x128, .f32⟩ : BufTy).Contents (Elt F) → (⟨S40000x128, .f32⟩ : BufTy).Contents (Elt F)),
    StableHlo.nullary main_cst_32 (constant S_ .f32 0x3F800000#32),
    StableHlo.unary main_cst_32 main_v141 (broadcastInDim S40000x128 ![] bcast_S_S40000x128 : (⟨S_, .f32⟩ : BufTy).Contents (Elt F) → (⟨S40000x128, .f32⟩ : BufTy).Contents (Elt F)),
    StableHlo.binary main_v141 main_v140 main_v142 (Host.divf : (⟨S40000x128, .f32⟩ : BufTy).Contents (Elt F) → (⟨S40000x128, .f32⟩ : BufTy).Contents (Elt F) → (⟨S40000x128, .f32⟩ : BufTy).Contents (Elt F)),
    StableHlo.binary main_v142 main_v0 main_v143 (mulf : (⟨S40000x128, .f32⟩ : BufTy).Contents (Elt F) → (⟨S40000x128, .f32⟩ : BufTy).Contents (Elt F) → (⟨S40000x128, .f32⟩ : BufTy).Contents (Elt F)) ]

abbrev hgPre_W : List (Ref sig .tc) := [main_v117, main_v118, main_cst_28, main_v119, main_v120, main_v121, main_v122, main_v123, main_v124, main_v125, main_v126, main_v127, main_cst_29, main_v128, main_v129, main_cst_30, main_v130, main_v131, main_v132, main_v133, main_v134, main_v135, main_v136, main_v137, main_v138, main_cst_31, main_v139, main_v140, main_cst_32, main_v141, main_v142, main_v143]
set_option maxRecDepth 8192 in
theorem hgPre_writes : (hgPre : List (HloOp τ sig (Elt F))).Forall fun op => op.writes ⊆ (hgPre_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgPre_keep (V : Valuation τ sig (Elt F)) (r : Ref sig .tc) (h : r ∉ hgPre_W) :
    after hgPre V (Proc.devRef .tc r) = V (Proc.devRef .tc r) := after_of_writes_sub hgPre V hgPre_writes h

abbrev hgIdx : List (HloOp τ sig (Elt F)) :=
  [ StableHlo.unary main_arg3 main_v144 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v144 main_v145 rfl shapeCasts_S1x600000_S600000,
    StableHlo.unary main_arg3 main_v146 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v146 main_v147 rfl shapeCasts_S1x600000_S600000 ]

abbrev hgIdx_W : List (Ref sig .tc) := [main_v144, main_v145, main_v146, main_v147]
set_option maxRecDepth 8192 in
theorem hgIdx_writes : (hgIdx : List (HloOp τ sig (Elt F))).Forall fun op => op.writes ⊆ (hgIdx_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgIdx_keep (V : Valuation τ sig (Elt F)) (r : Ref sig .tc) (h : r ∉ hgIdx_W) :
    after hgIdx V (Proc.devRef .tc r) = V (Proc.devRef .tc r) := after_of_writes_sub hgIdx V hgIdx_writes h

abbrev hgW0 : List (HloOp τ sig (Elt F)) :=
  [ StableHlo.unary main_arg11 main_v148 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v148 main_v149 rfl shapeCasts_S1x128x128_S128x128,
    StableHlo.unary main_arg12 main_v150 ((extractStridedSlice S1x128 ![0, 0] · slices_S2x128_S1x128_0_0) : (⟨S2x128, .f32⟩ : BufTy).Contents (Elt F) → (⟨S1x128, .f32⟩ : BufTy).Contents (Elt F)),
    StableHlo.reshape main_v150 main_v151 rfl shapeCasts_S1x128_S128 ]

abbrev hgW0_W : List (Ref sig .tc) := [main_v148, main_v149, main_v150, main_v151]
set_option maxRecDepth 8192 in
theorem hgW0_writes : (hgW0 : List (HloOp τ sig (Elt F))).Forall fun op => op.writes ⊆ (hgW0_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgW0_keep (V : Valuation τ sig (Elt F)) (r : Ref sig .tc) (h : r ∉ hgW0_W) :
    after hgW0 V (Proc.devRef .tc r) = V (Proc.devRef .tc r) := after_of_writes_sub hgW0 V hgW0_writes h

abbrev hgDot1 : List (HloOp τ sig (Elt F)) :=
  [ StableHlo.binary main_v132 main_v149 main_v152 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)) ]

abbrev hgDot1_W : List (Ref sig .tc) := [main_v152]
set_option maxRecDepth 8192 in
theorem hgDot1_writes : (hgDot1 : List (HloOp τ sig (Elt F))).Forall fun op => op.writes ⊆ (hgDot1_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgDot1_keep (V : Valuation τ sig (Elt F)) (r : Ref sig .tc) (h : r ∉ hgDot1_W) :
    after hgDot1 V (Proc.devRef .tc r) = V (Proc.devRef .tc r) := after_of_writes_sub hgDot1 V hgDot1_writes h

abbrev hgDeg1 : List (HloOp τ sig (Elt F)) :=
  [ StableHlo.nullary main_cst_33 (constant S_ .f32 0x3F800000#32),
    StableHlo.unary main_cst_33 main_v153 (broadcastInDim S600000 ![] bcast_S_S600000 : (⟨S_, .f32⟩ : BufTy).Contents (Elt F) → (⟨S600000, .f32⟩ : BufTy).Contents (Elt F)),
    StableHlo.nullary main_cst_34 (constant S_ .f32 0x00000000#32),
    StableHlo.unary main_cst_34 main_v154 (broadcastInDim S40000 ![] bcast_S_S40000 : (⟨S_, .f32⟩ : BufTy).Contents (Elt F) → (⟨S40000, .f32⟩ : BufTy).Contents (Elt F)),
    StableHlo.unary main_v145 main_v155 (broadcastInDim S600000x1 ![0] bcast_S600000_S600000x1_0 : (⟨S600000, .i32⟩ : BufTy).Contents (Elt F) → (⟨S600000x1, .i32⟩ : BufTy).Contents (Elt F)),
    StableHlo.ternary main_v154 main_v155 main_v153 main_v156 ((fun x i u => Host.scatterAdd scatter_S40000_S600000x1_S600000_n_0_0_1 x i u) : (⟨S40000, .f32⟩ : BufTy).Contents (Elt F) → (⟨S600000x1, .i32⟩ : BufTy).Contents (Elt F) → (⟨S600000, .f32⟩ : BufTy).Contents (Elt F) → (⟨S40000, .f32⟩ : BufTy).Contents (Elt F)),
    StableHlo.nullary main_cst_35 (constant S_ .f32 0x00000000#32),
    StableHlo.unary main_cst_35 main_v157 (broadcastInDim S40000 ![] bcast_S_S40000 : (⟨S_, .f32⟩ : BufTy).Contents (Elt F) → (⟨S40000, .f32⟩ : BufTy).Contents (Elt F)),
    StableHlo.binary main_v156 main_v157 main_v158 (cmpf .ogt : (⟨S40000, .f32⟩ : BufTy).Contents (Elt F) → (⟨S40000, .f32⟩ : BufTy).Contents (Elt F) → (⟨S40000, .i1⟩ : BufTy).Contents (Elt F)),
    StableHlo.nullary main_cst_36 (constant S_ .f32 0x00000000#32),
    StableHlo.unary main_cst_36 main_v159 (broadcastInDim S40000 ![] bcast_S_S40000 : (⟨S_, .f32⟩ : BufTy).Contents (Elt F) → (⟨S40000, .f32⟩ : BufTy).Contents (Elt F)),
    StableHlo.binary main_v156 main_v159 main_v160 (cmpf .ogt : (⟨S40000, .f32⟩ : BufTy).Contents (Elt F) → (⟨S40000, .f32⟩ : BufTy).Contents (Elt F) → (⟨S40000, .i1⟩ : BufTy).Contents (Elt F)),
    StableHlo.nullary main_cst_37 (constant S_ .f32 0x3F800000#32),
    StableHlo.TRef.unary (StableHlo.TRef.of (T := ⟨S_, .f32⟩) main_cst_37) (StableHlo.TRef.of (T := ⟨S_, .f32⟩) main_call6_v0) id,
    StableHlo.TRef.unary (StableHlo.TRef.of (T := ⟨S_, .f32⟩) main_call6_v0) (StableHlo.TRef.of (T := ⟨S40000, .f32⟩) main_call6_v1) (broadcastInDim S40000 ![] bcast_S_S40000),
    StableHlo.TRef.ternary (StableHlo.TRef.of (T := ⟨S40000, .i1⟩) main_v160) (StableHlo.TRef.of (T := ⟨S40000, .f32⟩) main_v156) (StableHlo.TRef.of (T := ⟨S40000, .f32⟩) main_call6_v1) (StableHlo.TRef.of (T := ⟨S40000, .f32⟩) main_v161) select,
    StableHlo.nullary main_cst_38 (constant S_ .f32 0x3F800000#32),
    StableHlo.unary main_cst_38 main_v162 (broadcastInDim S40000 ![] bcast_S_S40000 : (⟨S_, .f32⟩ : BufTy).Contents (Elt F) → (⟨S40000, .f32⟩ : BufTy).Contents (Elt F)),
    StableHlo.binary main_v162 main_v161 main_v163 (Host.divf : (⟨S40000, .f32⟩ : BufTy).Contents (Elt F) → (⟨S40000, .f32⟩ : BufTy).Contents (Elt F) → (⟨S40000, .f32⟩ : BufTy).Contents (Elt F)),
    StableHlo.nullary main_cst_39 (constant S_ .f32 0x00000000#32),
    StableHlo.TRef.unary (StableHlo.TRef.of (T := ⟨S_, .f32⟩) main_cst_39) (StableHlo.TRef.of (T := ⟨S_, .f32⟩) main_call7_v0) id,
    StableHlo.TRef.unary (StableHlo.TRef.of (T := ⟨S_, .f32⟩) main_call7_v0) (StableHlo.TRef.of (T := ⟨S40000, .f32⟩) main_call7_v1) (broadcastInDim S40000 ![] bcast_S_S40000),
    StableHlo.TRef.ternary (StableHlo.TRef.of (T := ⟨S40000, .i1⟩) main_v158) (StableHlo.TRef.of (T := ⟨S40000, .f32⟩) main_v163) (StableHlo.TRef.of (T := ⟨S40000, .f32⟩) main_call7_v1) (StableHlo.TRef.of (T := ⟨S40000, .f32⟩) main_v164) select,
    StableHlo.nullary main_cst_40 (constant S_ .f32 0x00000000#32),
    StableHlo.unary main_cst_40 main_v165 (broadcastInDim S30000 ![] bcast_S_S30000 : (⟨S_, .f32⟩ : BufTy).Contents (Elt F) → (⟨S30000, .f32⟩ : BufTy).Contents (Elt F)),
    StableHlo.unary main_v147 main_v166 (broadcastInDim S600000x1 ![0] bcast_S600000_S600000x1_0 : (⟨S600000, .i32⟩ : BufTy).Contents (Elt F) → (⟨S600000x1, .i32⟩ : BufTy).Contents (Elt F)),
    StableHlo.ternary main_v165 main_v166 main_v153 main_v167 ((fun x i u => Host.scatterAdd scatter_S30000_S600000x1_S600000_n_0_0_1 x i u) : (⟨S30000, .f32⟩ : BufTy).Contents (Elt F) → (⟨S600000x1, .i32⟩ : BufTy).Contents (Elt F) → (⟨S600000, .f32⟩ : BufTy).Contents (Elt F) → (⟨S30000, .f32⟩ : BufTy).Contents (Elt F)),
    StableHlo.nullary main_cst_41 (constant S_ .f32 0x00000000#32),
    StableHlo.unary main_cst_41 main_v168 (broadcastInDim S30000 ![] bcast_S_S30000 : (⟨S_, .f32⟩ : BufTy).Contents (Elt F) → (⟨S30000, .f32⟩ : BufTy).Contents (Elt F)),
    StableHlo.binary main_v167 main_v168 main_v169 (cmpf .ogt : (⟨S30000, .f32⟩ : BufTy).Contents (Elt F) → (⟨S30000, .f32⟩ : BufTy).Contents (Elt F) → (⟨S30000, .i1⟩ : BufTy).Contents (Elt F)),
    StableHlo.nullary main_cst_42 (constant S_ .f32 0x00000000#32),
    StableHlo.unary main_cst_42 main_v170 (broadcastInDim S30000 ![] bcast_S_S30000 : (⟨S_, .f32⟩ : BufTy).Contents (Elt F) → (⟨S30000, .f32⟩ : BufTy).Contents (Elt F)),
    StableHlo.binary main_v167 main_v170 main_v171 (cmpf .ogt : (⟨S30000, .f32⟩ : BufTy).Contents (Elt F) → (⟨S30000, .f32⟩ : BufTy).Contents (Elt F) → (⟨S30000, .i1⟩ : BufTy).Contents (Elt F)),
    StableHlo.nullary main_cst_43 (constant S_ .f32 0x3F800000#32),
    StableHlo.TRef.unary (StableHlo.TRef.of (T := ⟨S_, .f32⟩) main_cst_43) (StableHlo.TRef.of (T := ⟨S_, .f32⟩) main_call8_v0) id,
    StableHlo.TRef.unary (StableHlo.TRef.of (T := ⟨S_, .f32⟩) main_call8_v0) (StableHlo.TRef.of (T := ⟨S30000, .f32⟩) main_call8_v1) (broadcastInDim S30000 ![] bcast_S_S30000),
    StableHlo.TRef.ternary (StableHlo.TRef.of (T := ⟨S30000, .i1⟩) main_v171) (StableHlo.TRef.of (T := ⟨S30000, .f32⟩) main_v167) (StableHlo.TRef.of (T := ⟨S30000, .f32⟩) main_call8_v1) (StableHlo.TRef.of (T := ⟨S30000, .f32⟩) main_v172) select,
    StableHlo.nullary main_cst_44 (constant S_ .f32 0x3F800000#32),
    StableHlo.unary main_cst_44 main_v173 (broadcastInDim S30000 ![] bcast_S_S30000 : (⟨S_, .f32⟩ : BufTy).Contents (Elt F) → (⟨S30000, .f32⟩ : BufTy).Contents (Elt F)),
    StableHlo.binary main_v173 main_v172 main_v174 (Host.divf : (⟨S30000, .f32⟩ : BufTy).Contents (Elt F) → (⟨S30000, .f32⟩ : BufTy).Contents (Elt F) → (⟨S30000, .f32⟩ : BufTy).Contents (Elt F)),
    StableHlo.nullary main_cst_45 (constant S_ .f32 0x00000000#32),
    StableHlo.TRef.unary (StableHlo.TRef.of (T := ⟨S_, .f32⟩) main_cst_45) (StableHlo.TRef.of (T := ⟨S_, .f32⟩) main_call9_v0) id,
    StableHlo.TRef.unary (StableHlo.TRef.of (T := ⟨S_, .f32⟩) main_call9_v0) (StableHlo.TRef.of (T := ⟨S30000, .f32⟩) main_call9_v1) (broadcastInDim S30000 ![] bcast_S_S30000),
    StableHlo.TRef.ternary (StableHlo.TRef.of (T := ⟨S30000, .i1⟩) main_v169) (StableHlo.TRef.of (T := ⟨S30000, .f32⟩) main_v174) (StableHlo.TRef.of (T := ⟨S30000, .f32⟩) main_call9_v1) (StableHlo.TRef.of (T := ⟨S30000, .f32⟩) main_v175) select ]

abbrev hgDeg1_W : List (Ref sig .tc) := [main_cst_33, main_v153, main_cst_34, main_v154, main_v155, main_v156, main_cst_35, main_v157, main_v158, main_cst_36, main_v159, main_v160, main_cst_37, main_call6_v0, main_call6_v1, main_v161, main_cst_38, main_v162, main_v163, main_cst_39, main_call7_v0, main_call7_v1, main_v164, main_cst_40, main_v165, main_v166, main_v167, main_cst_41, main_v168, main_v169, main_cst_42, main_v170, main_v171, main_cst_43, main_call8_v0, main_call8_v1, main_v172, main_cst_44, main_v173, main_v174, main_cst_45, main_call9_v0, main_call9_v1, main_v175]
set_option maxRecDepth 8192 in
theorem hgDeg1_writes : (hgDeg1 : List (HloOp τ sig (Elt F))).Forall fun op => op.writes ⊆ (hgDeg1_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgDeg1_keep (V : Valuation τ sig (Elt F)) (r : Ref sig .tc) (h : r ∉ hgDeg1_W) :
    after hgDeg1 V (Proc.devRef .tc r) = V (Proc.devRef .tc r) := after_of_writes_sub hgDeg1 V hgDeg1_writes h

abbrev hgAgg1 : List (HloOp τ sig (Elt F)) :=
  [ StableHlo.nullary main_c_46 (constantI S_ 32 0#32),
    StableHlo.unary main_c_46 main_v176 (broadcastInDim S600000 ![] bcast_S_S600000 : (⟨S_, .i32⟩ : BufTy).Contents (Elt F) → (⟨S600000, .i32⟩ : BufTy).Contents (Elt F)),
    StableHlo.binary main_v145 main_v176 main_v177 (cmpi .slt : (⟨S600000, .i32⟩ : BufTy).Contents (Elt F) → (⟨S600000, .i32⟩ : BufTy).Contents (Elt F) → (⟨S600000, .i1⟩ : BufTy).Contents (Elt F)),
    StableHlo.nullary main_c_47 (constantI S_ 32 40000#32),
    StableHlo.unary main_c_47 main_v178 (broadcastInDim S600000 ![] bcast_S_S600000 : (⟨S_, .i32⟩ : BufTy).Contents (Elt F) → (⟨S600000, .i32⟩ : BufTy).Contents (Elt F)),
    StableHlo.binary main_v145 main_v178 main_v179 (addi : (⟨S600000, .i32⟩ : BufTy).Contents (Elt F) → (⟨S600000, .i32⟩ : BufTy).Contents (Elt F) → (⟨S600000, .i32⟩ : BufTy).Contents (Elt F)),
    StableHlo.ternary main_v177 main_v179 main_v145 main_v180 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v180 main_v181 (broadcastInDim S600000x1 ![0] bcast_S600000_S600000x1_0 : (⟨S600000, .i32⟩ : BufTy).Contents (Elt F) → (⟨S600000x1, .i32⟩ : BufTy).Contents (Elt F)),
    StableHlo.binary main_v152 main_v181 main_v182 ((fun x i => Host.gather gather_S40000x128_S600000x1_S600000x128_1_0_n_n_0_1_1128 x i) : (⟨S40000x128, .f32⟩ : BufTy).Contents (Elt F) → (⟨S600000x1, .i32⟩ : BufTy).Contents (Elt F) → (⟨S600000x128, .f32⟩ : BufTy).Contents (Elt F)),
    StableHlo.nullary main_cst_48 (constant S_ .f32 0x00000000#32),
    StableHlo.unary main_cst_48 main_v183 (broadcastInDim S30000x128 ![] bcast_S_S30000x128 : (⟨S_, .f32⟩ : BufTy).Contents (Elt F) → (⟨S30000x128, .f32⟩ : BufTy).Contents (Elt F)),
    StableHlo.unary main_v147 main_v184 (broadcastInDim S600000x1 ![0] bcast_S600000_S600000x1_0 : (⟨S600000, .i32⟩ : BufTy).Contents (Elt F) → (⟨S600000x1, .i32⟩ : BufTy).Contents (Elt F)),
    StableHlo.ternary main_v183 main_v184 main_v182 main_v185 ((fun x i u => Host.scatterAdd scatter_S30000x128_S600000x1_S600000x128_1_0_0_1 x i u) : (⟨S30000x128, .f32⟩ : BufTy).Contents (Elt F) → (⟨S600000x1, .i32⟩ : BufTy).Contents (Elt F) → (⟨S600000x128, .f32⟩ : BufTy).Contents (Elt F) → (⟨S30000x128, .f32⟩ : BufTy).Contents (Elt F)),
    StableHlo.unary main_v175 main_v186 (broadcastInDim S30000x1 ![0] bcast_S30000_S30000x1_0 : (⟨S30000, .f32⟩ : BufTy).Contents (Elt F) → (⟨S30000x1, .f32⟩ : BufTy).Contents (Elt F)),
    StableHlo.unary main_v186 main_v187 (broadcastInDim S30000x128 ![0, 1] bcast_S30000x1_S30000x128_0_1 : (⟨S30000x1, .f32⟩ : BufTy).Contents (Elt F) → (⟨S30000x128, .f32⟩ : BufTy).Contents (Elt F)),
    StableHlo.binary main_v185 main_v187 main_v188 (mulf : (⟨S30000x128, .f32⟩ : BufTy).Contents (Elt F) → (⟨S30000x128, .f32⟩ : BufTy).Contents (Elt F) → (⟨S30000x128, .f32⟩ : BufTy).Contents (Elt F)),
    StableHlo.nullary main_c_49 (constantI S_ 32 0#32),
    StableHlo.unary main_c_49 main_v189 (broadcastInDim S600000 ![] bcast_S_S600000 : (⟨S_, .i32⟩ : BufTy).Contents (Elt F) → (⟨S600000, .i32⟩ : BufTy).Contents (Elt F)),
    StableHlo.binary main_v147 main_v189 main_v190 (cmpi .slt : (⟨S600000, .i32⟩ : BufTy).Contents (Elt F) → (⟨S600000, .i32⟩ : BufTy).Contents (Elt F) → (⟨S600000, .i1⟩ : BufTy).Contents (Elt F)),
    StableHlo.nullary main_c_50 (constantI S_ 32 30000#32),
    StableHlo.unary main_c_50 main_v191 (broadcastInDim S600000 ![] bcast_S_S600000 : (⟨S_, .i32⟩ : BufTy).Contents (Elt F) → (⟨S600000, .i32⟩ : BufTy).Contents (Elt F)),
    StableHlo.binary main_v147 main_v191 main_v192 (addi : (⟨S600000, .i32⟩ : BufTy).Contents (Elt F) → (⟨S600000, .i32⟩ : BufTy).Contents (Elt F) → (⟨S600000, .i32⟩ : BufTy).Contents (Elt F)),
    StableHlo.ternary main_v190 main_v192 main_v147 main_v193 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v193 main_v194 (broadcastInDim S600000x1 ![0] bcast_S600000_S600000x1_0 : (⟨S600000, .i32⟩ : BufTy).Contents (Elt F) → (⟨S600000x1, .i32⟩ : BufTy).Contents (Elt F)),
    StableHlo.binary main_v188 main_v194 main_v195 ((fun x i => Host.gather gather_S30000x128_S600000x1_S600000x128_1_0_n_n_0_1_1128 x i) : (⟨S30000x128, .f32⟩ : BufTy).Contents (Elt F) → (⟨S600000x1, .i32⟩ : BufTy).Contents (Elt F) → (⟨S600000x128, .f32⟩ : BufTy).Contents (Elt F)),
    StableHlo.nullary main_cst_51 (constant S_ .f32 0x00000000#32),
    StableHlo.unary main_cst_51 main_v196 (broadcastInDim S40000x128 ![] bcast_S_S40000x128 : (⟨S_, .f32⟩ : BufTy).Contents (Elt F) → (⟨S40000x128, .f32⟩ : BufTy).Contents (Elt F)),
    StableHlo.unary main_v145 main_v197 (broadcastInDim S600000x1 ![0] bcast_S600000_S600000x1_0 : (⟨S600000, .i32⟩ : BufTy).Contents (Elt F) → (⟨S600000x1, .i32⟩ : BufTy).Contents (Elt F)),
    StableHlo.ternary main_v196 main_v197 main_v195 main_v198 ((fun x i u => Host.scatterAdd scatter_S40000x128_S600000x1_S600000x128_1_0_0_1 x i u) : (⟨S40000x128, .f32⟩ : BufTy).Contents (Elt F) → (⟨S600000x1, .i32⟩ : BufTy).Contents (Elt F) → (⟨S600000x128, .f32⟩ : BufTy).Contents (Elt F) → (⟨S40000x128, .f32⟩ : BufTy).Contents (Elt F)),
    StableHlo.unary main_v164 main_v199 (broadcastInDim S40000x1 ![0] bcast_S40000_S40000x1_0 : (⟨S40000, .f32⟩ : BufTy).Contents (Elt F) → (⟨S40000x1, .f32⟩ : BufTy).Contents (Elt F)),
    StableHlo.unary main_v199 main_v200 (broadcastInDim S40000x128 ![0, 1] bcast_S40000x1_S40000x128_0_1 : (⟨S40000x1, .f32⟩ : BufTy).Contents (Elt F) → (⟨S40000x128, .f32⟩ : BufTy).Contents (Elt F)),
    StableHlo.binary main_v198 main_v200 main_v201 (mulf : (⟨S40000x128, .f32⟩ : BufTy).Contents (Elt F) → (⟨S40000x128, .f32⟩ : BufTy).Contents (Elt F) → (⟨S40000x128, .f32⟩ : BufTy).Contents (Elt F)) ]

abbrev hgAgg1_W : List (Ref sig .tc) := [main_c_46, main_v176, main_v177, main_c_47, main_v178, main_v179, main_v180, main_v181, main_v182, main_cst_48, main_v183, main_v184, main_v185, main_v186, main_v187, main_v188, main_c_49, main_v189, main_v190, main_c_50, main_v191, main_v192, main_v193, main_v194, main_v195, main_cst_51, main_v196, main_v197, main_v198, main_v199, main_v200, main_v201]
set_option maxRecDepth 8192 in
theorem hgAgg1_writes : (hgAgg1 : List (HloOp τ sig (Elt F))).Forall fun op => op.writes ⊆ (hgAgg1_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgAgg1_keep (V : Valuation τ sig (Elt F)) (r : Ref sig .tc) (h : r ∉ hgAgg1_W) :
    after hgAgg1 V (Proc.devRef .tc r) = V (Proc.devRef .tc r) := after_of_writes_sub hgAgg1 V hgAgg1_writes h

abbrev hgComb1 : List (HloOp τ sig (Elt F)) :=
  [ StableHlo.unary main_v151 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S40000x128 ![0, 1] bcast_S1x128_S40000x128_0_1 : (⟨S1x128, .f32⟩ : BufTy).Contents (Elt F) → (⟨S40000x128, .f32⟩ : BufTy).Contents (Elt F)),
    StableHlo.binary main_v201 main_v203 main_v204 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call10_cst) (constant S_ .f32 0x00000000#32),
    StableHlo.TRef.unary (StableHlo.TRef.of (T := ⟨S_, .f32⟩) main_call10_cst) (StableHlo.TRef.of (T := ⟨S40000x128, .f32⟩) main_call10_v0) (broadcastInDim S40000x128 ![] bcast_S_S40000x128),
    StableHlo.TRef.binary (StableHlo.TRef.of (T := ⟨S40000x128, .f32⟩) main_v204) (StableHlo.TRef.of (T := ⟨S40000x128, .f32⟩) main_call10_v0) (StableHlo.TRef.of (T := ⟨S40000x128, .i1⟩) main_call10_v1) (cmpf .oge),
    StableHlo.TRef.nullary (StableHlo.TRef.of (T := ⟨S_, .f32⟩) main_call10_cst_0) (constant S_ .f32 0x3C23D70A#32),
    StableHlo.TRef.unary (StableHlo.TRef.of (T := ⟨S_, .f32⟩) main_call10_cst_0) (StableHlo.TRef.of (T := ⟨S40000x128, .f32⟩) main_call10_v2) (broadcastInDim S40000x128 ![] bcast_S_S40000x128),
    StableHlo.TRef.binary (StableHlo.TRef.of (T := ⟨S40000x128, .f32⟩) main_call10_v2) (StableHlo.TRef.of (T := ⟨S40000x128, .f32⟩) main_v204) (StableHlo.TRef.of (T := ⟨S40000x128, .f32⟩) main_call10_v3) mulf,
    StableHlo.TRef.ternary (StableHlo.TRef.of (T := ⟨S40000x128, .i1⟩) main_call10_v1) (StableHlo.TRef.of (T := ⟨S40000x128, .f32⟩) main_v204) (StableHlo.TRef.of (T := ⟨S40000x128, .f32⟩) main_call10_v3) (StableHlo.TRef.of (T := ⟨S40000x128, .f32⟩) main_v205) select,
    StableHlo.binary main_v205 main_v132 main_v206 (addf : (⟨S40000x128, .f32⟩ : BufTy).Contents (Elt F) → (⟨S40000x128, .f32⟩ : BufTy).Contents (Elt F) → (⟨S40000x128, .f32⟩ : BufTy).Contents (Elt F)),
    StableHlo.nullary main_cst_52 (constant S_ .f32 0x3F000000#32),
    StableHlo.unary main_cst_52 main_v207 (broadcastInDim S40000x128 ![] bcast_S_S40000x128 : (⟨S_, .f32⟩ : BufTy).Contents (Elt F) → (⟨S40000x128, .f32⟩ : BufTy).Contents (Elt F)),
    StableHlo.binary main_v206 main_v207 main_v208 (mulf : (⟨S40000x128, .f32⟩ : BufTy).Contents (Elt F) → (⟨S40000x128, .f32⟩ : BufTy).Contents (Elt F) → (⟨S40000x128, .f32⟩ : BufTy).Contents (Elt F)),
    StableHlo.binary main_v132 main_v208 main_v209 (addf : (⟨S40000x128, .f32⟩ : BufTy).Contents (Elt F) → (⟨S40000x128, .f32⟩ : BufTy).Contents (Elt F) → (⟨S40000x128, .f32⟩ : BufTy).Contents (Elt F)) ]

abbrev hgComb1_W : List (Ref sig .tc) := [main_v202, main_v203, main_v204, main_call10_cst, main_call10_v0, main_call10_v1, main_call10_cst_0, main_call10_v2, main_call10_v3, main_v205, main_v206, main_cst_52, main_v207, main_v208, main_v209]
set_option maxRecDepth 8192 in
theorem hgComb1_writes : (hgComb1 : List (HloOp τ sig (Elt F))).Forall fun op => op.writes ⊆ (hgComb1_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgComb1_keep (V : Valuation τ sig (Elt F)) (r : Ref sig .tc) (h : r ∉ hgComb1_W) :
    after hgComb1 V (Proc.devRef .tc r) = V (Proc.devRef .tc r) := after_of_writes_sub hgComb1 V hgComb1_writes h

abbrev hgW1 : List (HloOp τ sig (Elt F)) :=
  [ StableHlo.unary main_arg11 main_v210 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v210 main_v211 rfl shapeCasts_S1x128x128_S128x128,
    StableHlo.unary main_arg12 main_v212 ((extractStridedSlice S1x128 ![1, 0] · slices_S2x128_S1x128_1_0) : (⟨S2x128, .f32⟩ : BufTy).Contents (Elt F) → (⟨S1x128, .f32⟩ : BufTy).Contents (Elt F)),
    StableHlo.reshape main_v212 main_v213 rfl shapeCasts_S1x128_S128 ]

abbrev hgW1_W : List (Ref sig .tc) := [main_v210, main_v211, main_v212, main_v213]
set_option maxRecDepth 8192 in
theorem hgW1_writes : (hgW1 : List (HloOp τ sig (Elt F))).Forall fun op => op.writes ⊆ (hgW1_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgW1_keep (V : Valuation τ sig (Elt F)) (r : Ref sig .tc) (h : r ∉ hgW1_W) :
    after hgW1 V (Proc.devRef .tc r) = V (Proc.devRef .tc r) := after_of_writes_sub hgW1 V hgW1_writes h

abbrev hgDot2 : List (HloOp τ sig (Elt F)) :=
  [ StableHlo.binary main_v206 main_v211 main_v214 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)) ]

abbrev hgDot2_W : List (Ref sig .tc) := [main_v214]
set_option maxRecDepth 8192 in
theorem hgDot2_writes : (hgDot2 : List (HloOp τ sig (Elt F))).Forall fun op => op.writes ⊆ (hgDot2_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgDot2_keep (V : Valuation τ sig (Elt F)) (r : Ref sig .tc) (h : r ∉ hgDot2_W) :
    after hgDot2 V (Proc.devRef .tc r) = V (Proc.devRef .tc r) := after_of_writes_sub hgDot2 V hgDot2_writes h

abbrev hgDeg2 : List (HloOp τ sig (Elt F)) :=
  [ StableHlo.nullary main_cst_53 (constant S_ .f32 0x3F800000#32),
    StableHlo.unary main_cst_53 main_v215 (broadcastInDim S600000 ![] bcast_S_S600000 : (⟨S_, .f32⟩ : BufTy).Contents (Elt F) → (⟨S600000, .f32⟩ : BufTy).Contents (Elt F)),
    StableHlo.nullary main_cst_54 (constant S_ .f32 0x00000000#32),
    StableHlo.unary main_cst_54 main_v216 (broadcastInDim S40000 ![] bcast_S_S40000 : (⟨S_, .f32⟩ : BufTy).Contents (Elt F) → (⟨S40000, .f32⟩ : BufTy).Contents (Elt F)),
    StableHlo.unary main_v145 main_v217 (broadcastInDim S600000x1 ![0] bcast_S600000_S600000x1_0 : (⟨S600000, .i32⟩ : BufTy).Contents (Elt F) → (⟨S600000x1, .i32⟩ : BufTy).Contents (Elt F)),
    StableHlo.ternary main_v216 main_v217 main_v215 main_v218 ((fun x i u => Host.scatterAdd scatter_S40000_S600000x1_S600000_n_0_0_1 x i u) : (⟨S40000, .f32⟩ : BufTy).Contents (Elt F) → (⟨S600000x1, .i32⟩ : BufTy).Contents (Elt F) → (⟨S600000, .f32⟩ : BufTy).Contents (Elt F) → (⟨S40000, .f32⟩ : BufTy).Contents (Elt F)),
    StableHlo.nullary main_cst_55 (constant S_ .f32 0x00000000#32),
    StableHlo.unary main_cst_55 main_v219 (broadcastInDim S40000 ![] bcast_S_S40000 : (⟨S_, .f32⟩ : BufTy).Contents (Elt F) → (⟨S40000, .f32⟩ : BufTy).Contents (Elt F)),
    StableHlo.binary main_v218 main_v219 main_v220 (cmpf .ogt : (⟨S40000, .f32⟩ : BufTy).Contents (Elt F) → (⟨S40000, .f32⟩ : BufTy).Contents (Elt F) → (⟨S40000, .i1⟩ : BufTy).Contents (Elt F)),
    StableHlo.nullary main_cst_56 (constant S_ .f32 0x00000000#32),
    StableHlo.unary main_cst_56 main_v221 (broadcastInDim S40000 ![] bcast_S_S40000 : (⟨S_, .f32⟩ : BufTy).Contents (Elt F) → (⟨S40000, .f32⟩ : BufTy).Contents (Elt F)),
    StableHlo.binary main_v218 main_v221 main_v222 (cmpf .ogt : (⟨S40000, .f32⟩ : BufTy).Contents (Elt F) → (⟨S40000, .f32⟩ : BufTy).Contents (Elt F) → (⟨S40000, .i1⟩ : BufTy).Contents (Elt F)),
    StableHlo.nullary main_cst_57 (constant S_ .f32 0x3F800000#32),
    StableHlo.TRef.unary (StableHlo.TRef.of (T := ⟨S_, .f32⟩) main_cst_57) (StableHlo.TRef.of (T := ⟨S_, .f32⟩) main_call11_v0) id,
    StableHlo.TRef.unary (StableHlo.TRef.of (T := ⟨S_, .f32⟩) main_call11_v0) (StableHlo.TRef.of (T := ⟨S40000, .f32⟩) main_call11_v1) (broadcastInDim S40000 ![] bcast_S_S40000),
    StableHlo.TRef.ternary (StableHlo.TRef.of (T := ⟨S40000, .i1⟩) main_v222) (StableHlo.TRef.of (T := ⟨S40000, .f32⟩) main_v218) (StableHlo.TRef.of (T := ⟨S40000, .f32⟩) main_call11_v1) (StableHlo.TRef.of (T := ⟨S40000, .f32⟩) main_v223) select,
    StableHlo.nullary main_cst_58 (constant S_ .f32 0x3F800000#32),
    StableHlo.unary main_cst_58 main_v224 (broadcastInDim S40000 ![] bcast_S_S40000 : (⟨S_, .f32⟩ : BufTy).Contents (Elt F) → (⟨S40000, .f32⟩ : BufTy).Contents (Elt F)),
    StableHlo.binary main_v224 main_v223 main_v225 (Host.divf : (⟨S40000, .f32⟩ : BufTy).Contents (Elt F) → (⟨S40000, .f32⟩ : BufTy).Contents (Elt F) → (⟨S40000, .f32⟩ : BufTy).Contents (Elt F)),
    StableHlo.nullary main_cst_59 (constant S_ .f32 0x00000000#32),
    StableHlo.TRef.unary (StableHlo.TRef.of (T := ⟨S_, .f32⟩) main_cst_59) (StableHlo.TRef.of (T := ⟨S_, .f32⟩) main_call12_v0) id,
    StableHlo.TRef.unary (StableHlo.TRef.of (T := ⟨S_, .f32⟩) main_call12_v0) (StableHlo.TRef.of (T := ⟨S40000, .f32⟩) main_call12_v1) (broadcastInDim S40000 ![] bcast_S_S40000),
    StableHlo.TRef.ternary (StableHlo.TRef.of (T := ⟨S40000, .i1⟩) main_v220) (StableHlo.TRef.of (T := ⟨S40000, .f32⟩) main_v225) (StableHlo.TRef.of (T := ⟨S40000, .f32⟩) main_call12_v1) (StableHlo.TRef.of (T := ⟨S40000, .f32⟩) main_v226) select,
    StableHlo.nullary main_cst_60 (constant S_ .f32 0x00000000#32),
    StableHlo.unary main_cst_60 main_v227 (broadcastInDim S30000 ![] bcast_S_S30000 : (⟨S_, .f32⟩ : BufTy).Contents (Elt F) → (⟨S30000, .f32⟩ : BufTy).Contents (Elt F)),
    StableHlo.unary main_v147 main_v228 (broadcastInDim S600000x1 ![0] bcast_S600000_S600000x1_0 : (⟨S600000, .i32⟩ : BufTy).Contents (Elt F) → (⟨S600000x1, .i32⟩ : BufTy).Contents (Elt F)),
    StableHlo.ternary main_v227 main_v228 main_v215 main_v229 ((fun x i u => Host.scatterAdd scatter_S30000_S600000x1_S600000_n_0_0_1 x i u) : (⟨S30000, .f32⟩ : BufTy).Contents (Elt F) → (⟨S600000x1, .i32⟩ : BufTy).Contents (Elt F) → (⟨S600000, .f32⟩ : BufTy).Contents (Elt F) → (⟨S30000, .f32⟩ : BufTy).Contents (Elt F)),
    StableHlo.nullary main_cst_61 (constant S_ .f32 0x00000000#32),
    StableHlo.unary main_cst_61 main_v230 (broadcastInDim S30000 ![] bcast_S_S30000 : (⟨S_, .f32⟩ : BufTy).Contents (Elt F) → (⟨S30000, .f32⟩ : BufTy).Contents (Elt F)),
    StableHlo.binary main_v229 main_v230 main_v231 (cmpf .ogt : (⟨S30000, .f32⟩ : BufTy).Contents (Elt F) → (⟨S30000, .f32⟩ : BufTy).Contents (Elt F) → (⟨S30000, .i1⟩ : BufTy).Contents (Elt F)),
    StableHlo.nullary main_cst_62 (constant S_ .f32 0x00000000#32),
    StableHlo.unary main_cst_62 main_v232 (broadcastInDim S30000 ![] bcast_S_S30000 : (⟨S_, .f32⟩ : BufTy).Contents (Elt F) → (⟨S30000, .f32⟩ : BufTy).Contents (Elt F)),
    StableHlo.binary main_v229 main_v232 main_v233 (cmpf .ogt : (⟨S30000, .f32⟩ : BufTy).Contents (Elt F) → (⟨S30000, .f32⟩ : BufTy).Contents (Elt F) → (⟨S30000, .i1⟩ : BufTy).Contents (Elt F)),
    StableHlo.nullary main_cst_63 (constant S_ .f32 0x3F800000#32),
    StableHlo.TRef.unary (StableHlo.TRef.of (T := ⟨S_, .f32⟩) main_cst_63) (StableHlo.TRef.of (T := ⟨S_, .f32⟩) main_call13_v0) id,
    StableHlo.TRef.unary (StableHlo.TRef.of (T := ⟨S_, .f32⟩) main_call13_v0) (StableHlo.TRef.of (T := ⟨S30000, .f32⟩) main_call13_v1) (broadcastInDim S30000 ![] bcast_S_S30000),
    StableHlo.TRef.ternary (StableHlo.TRef.of (T := ⟨S30000, .i1⟩) main_v233) (StableHlo.TRef.of (T := ⟨S30000, .f32⟩) main_v229) (StableHlo.TRef.of (T := ⟨S30000, .f32⟩) main_call13_v1) (StableHlo.TRef.of (T := ⟨S30000, .f32⟩) main_v234) select,
    StableHlo.nullary main_cst_64 (constant S_ .f32 0x3F800000#32),
    StableHlo.unary main_cst_64 main_v235 (broadcastInDim S30000 ![] bcast_S_S30000 : (⟨S_, .f32⟩ : BufTy).Contents (Elt F) → (⟨S30000, .f32⟩ : BufTy).Contents (Elt F)),
    StableHlo.binary main_v235 main_v234 main_v236 (Host.divf : (⟨S30000, .f32⟩ : BufTy).Contents (Elt F) → (⟨S30000, .f32⟩ : BufTy).Contents (Elt F) → (⟨S30000, .f32⟩ : BufTy).Contents (Elt F)),
    StableHlo.nullary main_cst_65 (constant S_ .f32 0x00000000#32),
    StableHlo.TRef.unary (StableHlo.TRef.of (T := ⟨S_, .f32⟩) main_cst_65) (StableHlo.TRef.of (T := ⟨S_, .f32⟩) main_call14_v0) id,
    StableHlo.TRef.unary (StableHlo.TRef.of (T := ⟨S_, .f32⟩) main_call14_v0) (StableHlo.TRef.of (T := ⟨S30000, .f32⟩) main_call14_v1) (broadcastInDim S30000 ![] bcast_S_S30000),
    StableHlo.TRef.ternary (StableHlo.TRef.of (T := ⟨S30000, .i1⟩) main_v231) (StableHlo.TRef.of (T := ⟨S30000, .f32⟩) main_v236) (StableHlo.TRef.of (T := ⟨S30000, .f32⟩) main_call14_v1) (StableHlo.TRef.of (T := ⟨S30000, .f32⟩) main_v237) select ]

abbrev hgDeg2_W : List (Ref sig .tc) := [main_cst_53, main_v215, main_cst_54, main_v216, main_v217, main_v218, main_cst_55, main_v219, main_v220, main_cst_56, main_v221, main_v222, main_cst_57, main_call11_v0, main_call11_v1, main_v223, main_cst_58, main_v224, main_v225, main_cst_59, main_call12_v0, main_call12_v1, main_v226, main_cst_60, main_v227, main_v228, main_v229, main_cst_61, main_v230, main_v231, main_cst_62, main_v232, main_v233, main_cst_63, main_call13_v0, main_call13_v1, main_v234, main_cst_64, main_v235, main_v236, main_cst_65, main_call14_v0, main_call14_v1, main_v237]
set_option maxRecDepth 8192 in
theorem hgDeg2_writes : (hgDeg2 : List (HloOp τ sig (Elt F))).Forall fun op => op.writes ⊆ (hgDeg2_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgDeg2_keep (V : Valuation τ sig (Elt F)) (r : Ref sig .tc) (h : r ∉ hgDeg2_W) :
    after hgDeg2 V (Proc.devRef .tc r) = V (Proc.devRef .tc r) := after_of_writes_sub hgDeg2 V hgDeg2_writes h

abbrev hgAgg2 : List (HloOp τ sig (Elt F)) :=
  [ StableHlo.nullary main_c_66 (constantI S_ 32 0#32),
    StableHlo.unary main_c_66 main_v238 (broadcastInDim S600000 ![] bcast_S_S600000 : (⟨S_, .i32⟩ : BufTy).Contents (Elt F) → (⟨S600000, .i32⟩ : BufTy).Contents (Elt F)),
    StableHlo.binary main_v145 main_v238 main_v239 (cmpi .slt : (⟨S600000, .i32⟩ : BufTy).Contents (Elt F) → (⟨S600000, .i32⟩ : BufTy).Contents (Elt F) → (⟨S600000, .i1⟩ : BufTy).Contents (Elt F)),
    StableHlo.nullary main_c_67 (constantI S_ 32 40000#32),
    StableHlo.unary main_c_67 main_v240 (broadcastInDim S600000 ![] bcast_S_S600000 : (⟨S_, .i32⟩ : BufTy).Contents (Elt F) → (⟨S600000, .i32⟩ : BufTy).Contents (Elt F)),
    StableHlo.binary main_v145 main_v240 main_v241 (addi : (⟨S600000, .i32⟩ : BufTy).Contents (Elt F) → (⟨S600000, .i32⟩ : BufTy).Contents (Elt F) → (⟨S600000, .i32⟩ : BufTy).Contents (Elt F)),
    StableHlo.ternary main_v239 main_v241 main_v145 main_v242 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v242 main_v243 (broadcastInDim S600000x1 ![0] bcast_S600000_S600000x1_0 : (⟨S600000, .i32⟩ : BufTy).Contents (Elt F) → (⟨S600000x1, .i32⟩ : BufTy).Contents (Elt F)),
    StableHlo.binary main_v214 main_v243 main_v244 ((fun x i => Host.gather gather_S40000x128_S600000x1_S600000x128_1_0_n_n_0_1_1128 x i) : (⟨S40000x128, .f32⟩ : BufTy).Contents (Elt F) → (⟨S600000x1, .i32⟩ : BufTy).Contents (Elt F) → (⟨S600000x128, .f32⟩ : BufTy).Contents (Elt F)),
    StableHlo.nullary main_cst_68 (constant S_ .f32 0x00000000#32),
    StableHlo.unary main_cst_68 main_v245 (broadcastInDim S30000x128 ![] bcast_S_S30000x128 : (⟨S_, .f32⟩ : BufTy).Contents (Elt F) → (⟨S30000x128, .f32⟩ : BufTy).Contents (Elt F)),
    StableHlo.unary main_v147 main_v246 (broadcastInDim S600000x1 ![0] bcast_S600000_S600000x1_0 : (⟨S600000, .i32⟩ : BufTy).Contents (Elt F) → (⟨S600000x1, .i32⟩ : BufTy).Contents (Elt F)),
    StableHlo.ternary main_v245 main_v246 main_v244 main_v247 ((fun x i u => Host.scatterAdd scatter_S30000x128_S600000x1_S600000x128_1_0_0_1 x i u) : (⟨S30000x128, .f32⟩ : BufTy).Contents (Elt F) → (⟨S600000x1, .i32⟩ : BufTy).Contents (Elt F) → (⟨S600000x128, .f32⟩ : BufTy).Contents (Elt F) → (⟨S30000x128, .f32⟩ : BufTy).Contents (Elt F)),
    StableHlo.unary main_v237 main_v248 (broadcastInDim S30000x1 ![0] bcast_S30000_S30000x1_0 : (⟨S30000, .f32⟩ : BufTy).Contents (Elt F) → (⟨S30000x1, .f32⟩ : BufTy).Contents (Elt F)),
    StableHlo.unary main_v248 main_v249 (broadcastInDim S30000x128 ![0, 1] bcast_S30000x1_S30000x128_0_1 : (⟨S30000x1, .f32⟩ : BufTy).Contents (Elt F) → (⟨S30000x128, .f32⟩ : BufTy).Contents (Elt F)),
    StableHlo.binary main_v247 main_v249 main_v250 (mulf : (⟨S30000x128, .f32⟩ : BufTy).Contents (Elt F) → (⟨S30000x128, .f32⟩ : BufTy).Contents (Elt F) → (⟨S30000x128, .f32⟩ : BufTy).Contents (Elt F)),
    StableHlo.nullary main_c_69 (constantI S_ 32 0#32),
    StableHlo.unary main_c_69 main_v251 (broadcastInDim S600000 ![] bcast_S_S600000 : (⟨S_, .i32⟩ : BufTy).Contents (Elt F) → (⟨S600000, .i32⟩ : BufTy).Contents (Elt F)),
    StableHlo.binary main_v147 main_v251 main_v252 (cmpi .slt : (⟨S600000, .i32⟩ : BufTy).Contents (Elt F) → (⟨S600000, .i32⟩ : BufTy).Contents (Elt F) → (⟨S600000, .i1⟩ : BufTy).Contents (Elt F)),
    StableHlo.nullary main_c_70 (constantI S_ 32 30000#32),
    StableHlo.unary main_c_70 main_v253 (broadcastInDim S600000 ![] bcast_S_S600000 : (⟨S_, .i32⟩ : BufTy).Contents (Elt F) → (⟨S600000, .i32⟩ : BufTy).Contents (Elt F)),
    StableHlo.binary main_v147 main_v253 main_v254 (addi : (⟨S600000, .i32⟩ : BufTy).Contents (Elt F) → (⟨S600000, .i32⟩ : BufTy).Contents (Elt F) → (⟨S600000, .i32⟩ : BufTy).Contents (Elt F)),
    StableHlo.ternary main_v252 main_v254 main_v147 main_v255 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v255 main_v256 (broadcastInDim S600000x1 ![0] bcast_S600000_S600000x1_0 : (⟨S600000, .i32⟩ : BufTy).Contents (Elt F) → (⟨S600000x1, .i32⟩ : BufTy).Contents (Elt F)),
    StableHlo.binary main_v250 main_v256 main_v257 ((fun x i => Host.gather gather_S30000x128_S600000x1_S600000x128_1_0_n_n_0_1_1128 x i) : (⟨S30000x128, .f32⟩ : BufTy).Contents (Elt F) → (⟨S600000x1, .i32⟩ : BufTy).Contents (Elt F) → (⟨S600000x128, .f32⟩ : BufTy).Contents (Elt F)),
    StableHlo.nullary main_cst_71 (constant S_ .f32 0x00000000#32),
    StableHlo.unary main_cst_71 main_v258 (broadcastInDim S40000x128 ![] bcast_S_S40000x128 : (⟨S_, .f32⟩ : BufTy).Contents (Elt F) → (⟨S40000x128, .f32⟩ : BufTy).Contents (Elt F)),
    StableHlo.unary main_v145 main_v259 (broadcastInDim S600000x1 ![0] bcast_S600000_S600000x1_0 : (⟨S600000, .i32⟩ : BufTy).Contents (Elt F) → (⟨S600000x1, .i32⟩ : BufTy).Contents (Elt F)),
    StableHlo.ternary main_v258 main_v259 main_v257 main_v260 ((fun x i u => Host.scatterAdd scatter_S40000x128_S600000x1_S600000x128_1_0_0_1 x i u) : (⟨S40000x128, .f32⟩ : BufTy).Contents (Elt F) → (⟨S600000x1, .i32⟩ : BufTy).Contents (Elt F) → (⟨S600000x128, .f32⟩ : BufTy).Contents (Elt F) → (⟨S40000x128, .f32⟩ : BufTy).Contents (Elt F)),
    StableHlo.unary main_v226 main_v261 (broadcastInDim S40000x1 ![0] bcast_S40000_S40000x1_0 : (⟨S40000, .f32⟩ : BufTy).Contents (Elt F) → (⟨S40000x1, .f32⟩ : BufTy).Contents (Elt F)),
    StableHlo.unary main_v261 main_v262 (broadcastInDim S40000x128 ![0, 1] bcast_S40000x1_S40000x128_0_1 : (⟨S40000x1, .f32⟩ : BufTy).Contents (Elt F) → (⟨S40000x128, .f32⟩ : BufTy).Contents (Elt F)),
    StableHlo.binary main_v260 main_v262 main_v263 (mulf : (⟨S40000x128, .f32⟩ : BufTy).Contents (Elt F) → (⟨S40000x128, .f32⟩ : BufTy).Contents (Elt F) → (⟨S40000x128, .f32⟩ : BufTy).Contents (Elt F)) ]

abbrev hgAgg2_W : List (Ref sig .tc) := [main_c_66, main_v238, main_v239, main_c_67, main_v240, main_v241, main_v242, main_v243, main_v244, main_cst_68, main_v245, main_v246, main_v247, main_v248, main_v249, main_v250, main_c_69, main_v251, main_v252, main_c_70, main_v253, main_v254, main_v255, main_v256, main_v257, main_cst_71, main_v258, main_v259, main_v260, main_v261, main_v262, main_v263]
set_option maxRecDepth 8192 in
theorem hgAgg2_writes : (hgAgg2 : List (HloOp τ sig (Elt F))).Forall fun op => op.writes ⊆ (hgAgg2_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgAgg2_keep (V : Valuation τ sig (Elt F)) (r : Ref sig .tc) (h : r ∉ hgAgg2_W) :
    after hgAgg2 V (Proc.devRef .tc r) = V (Proc.devRef .tc r) := after_of_writes_sub hgAgg2 V hgAgg2_writes h

abbrev hgComb2 : List (HloOp τ sig (Elt F)) :=
  [ StableHlo.unary main_v213 main_v264 (broadcastInDim S1x128 ![1] bcast_S128_S1x128_1 : (⟨S128, .f32⟩ : BufTy).Contents (Elt F) → (⟨S1x128, .f32⟩ : BufTy).Contents (Elt F)),
    StableHlo.unary main_v264 main_v265 (broadcastInDim S40000x128 ![0, 1] bcast_S1x128_S40000x128_0_1 : (⟨S1x128, .f32⟩ : BufTy).Contents (Elt F) → (⟨S40000x128, .f32⟩ : BufTy).Contents (Elt F)),
    StableHlo.binary main_v263 main_v265 main_v266 (addf : (⟨S40000x128, .f32⟩ : BufTy).Contents (Elt F) → (⟨S40000x128, .f32⟩ : BufTy).Contents (Elt F) → (⟨S40000x128, .f32⟩ : BufTy).Contents (Elt F)),
    StableHlo.TRef.nullary (StableHlo.TRef.of (T := ⟨S_, .f32⟩) main_call15_cst) (constant S_ .f32 0x00000000#32),
    StableHlo.TRef.unary (StableHlo.TRef.of (T := ⟨S_, .f32⟩) main_call15_cst) (StableHlo.TRef.of (T := ⟨S40000x128, .f32⟩) main_call15_v0) (broadcastInDim S40000x128 ![] bcast_S_S40000x128),
    StableHlo.TRef.binary (StableHlo.TRef.of (T := ⟨S40000x128, .f32⟩) main_v266) (StableHlo.TRef.of (T := ⟨S40000x128, .f32⟩) main_call15_v0) (StableHlo.TRef.of (T := ⟨S40000x128, .i1⟩) main_call15_v1) (cmpf .oge),
    StableHlo.TRef.nullary (StableHlo.TRef.of (T := ⟨S_, .f32⟩) main_call15_cst_0) (constant S_ .f32 0x3C23D70A#32),
    StableHlo.TRef.unary (StableHlo.TRef.of (T := ⟨S_, .f32⟩) main_call15_cst_0) (StableHlo.TRef.of (T := ⟨S40000x128, .f32⟩) main_call15_v2) (broadcastInDim S40000x128 ![] bcast_S_S40000x128),
    StableHlo.TRef.binary (StableHlo.TRef.of (T := ⟨S40000x128, .f32⟩) main_call15_v2) (StableHlo.TRef.of (T := ⟨S40000x128, .f32⟩) main_v266) (StableHlo.TRef.of (T := ⟨S40000x128, .f32⟩) main_call15_v3) mulf,
    StableHlo.TRef.ternary (StableHlo.TRef.of (T := ⟨S40000x128, .i1⟩) main_call15_v1) (StableHlo.TRef.of (T := ⟨S40000x128, .f32⟩) main_v266) (StableHlo.TRef.of (T := ⟨S40000x128, .f32⟩) main_call15_v3) (StableHlo.TRef.of (T := ⟨S40000x128, .f32⟩) main_v267) select,
    StableHlo.binary main_v267 main_v206 main_v268 (addf : (⟨S40000x128, .f32⟩ : BufTy).Contents (Elt F) → (⟨S40000x128, .f32⟩ : BufTy).Contents (Elt F) → (⟨S40000x128, .f32⟩ : BufTy).Contents (Elt F)),
    StableHlo.nullary main_cst_72 (constant S_ .f32 0x3EAAAAAB#32),
    StableHlo.unary main_cst_72 main_v269 (broadcastInDim S40000x128 ![] bcast_S_S40000x128 : (⟨S_, .f32⟩ : BufTy).Contents (Elt F) → (⟨S40000x128, .f32⟩ : BufTy).Contents (Elt F)),
    StableHlo.binary main_v268 main_v269 main_v270 (mulf : (⟨S40000x128, .f32⟩ : BufTy).Contents (Elt F) → (⟨S40000x128, .f32⟩ : BufTy).Contents (Elt F) → (⟨S40000x128, .f32⟩ : BufTy).Contents (Elt F)),
    StableHlo.binary main_v209 main_v270 main_v271 (addf : (⟨S40000x128, .f32⟩ : BufTy).Contents (Elt F) → (⟨S40000x128, .f32⟩ : BufTy).Contents (Elt F) → (⟨S40000x128, .f32⟩ : BufTy).Contents (Elt F)) ]

abbrev hgComb2_W : List (Ref sig .tc) := [main_v264, main_v265, main_v266, main_call15_cst, main_call15_v0, main_call15_v1, main_call15_cst_0, main_call15_v2, main_call15_v3, main_v267, main_v268, main_cst_72, main_v269, main_v270, main_v271]
set_option maxRecDepth 8192 in
theorem hgComb2_writes : (hgComb2 : List (HloOp τ sig (Elt F))).Forall fun op => op.writes ⊆ (hgComb2_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgComb2_keep (V : Valuation τ sig (Elt F)) (r : Ref sig .tc) (h : r ∉ hgComb2_W) :
    after hgComb2 V (Proc.devRef .tc r) = V (Proc.devRef .tc r) := after_of_writes_sub hgComb2 V hgComb2_writes h

abbrev hgTail : List (HloOp τ sig (Elt F)) :=
  [ StableHlo.unary main_arg3 main_v272 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v272 main_v273 rfl shapeCasts_S1x600000_S600000,
    StableHlo.unary main_arg3 main_v274 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v274 main_v275 rfl shapeCasts_S1x600000_S600000,
    StableHlo.nullary main_cst_73 (constant S_ .f32 0x3F800000#32),
    StableHlo.unary main_cst_73 main_v276 (broadcastInDim S600000 ![] bcast_S_S600000 : (⟨S_, .f32⟩ : BufTy).Contents (Elt F) → (⟨S600000, .f32⟩ : BufTy).Contents (Elt F)),
    StableHlo.nullary main_cst_74 (constant S_ .f32 0x00000000#32),
    StableHlo.unary main_cst_74 main_v277 (broadcastInDim S30000 ![] bcast_S_S30000 : (⟨S_, .f32⟩ : BufTy).Contents (Elt F) → (⟨S30000, .f32⟩ : BufTy).Contents (Elt F)),
    StableHlo.unary main_v275 main_v278 (broadcastInDim S600000x1 ![0] bcast_S600000_S600000x1_0 : (⟨S600000, .i32⟩ : BufTy).Contents (Elt F) → (⟨S600000x1, .i32⟩ : BufTy).Contents (Elt F)),
    StableHlo.ternary main_v277 main_v278 main_v276 main_v279 ((fun x i u => Host.scatterAdd scatter_S30000_S600000x1_S600000_n_0_0_1 x i u) : (⟨S30000, .f32⟩ : BufTy).Contents (Elt F) → (⟨S600000x1, .i32⟩ : BufTy).Contents (Elt F) → (⟨S600000, .f32⟩ : BufTy).Contents (Elt F) → (⟨S30000, .f32⟩ : BufTy).Contents (Elt F)),
    StableHlo.nullary main_c_75 (constantI S_ 32 0#32),
    StableHlo.unary main_c_75 main_v280 (broadcastInDim S600000 ![] bcast_S_S600000 : (⟨S_, .i32⟩ : BufTy).Contents (Elt F) → (⟨S600000, .i32⟩ : BufTy).Contents (Elt F)),
    StableHlo.binary main_v273 main_v280 main_v281 (cmpi .slt : (⟨S600000, .i32⟩ : BufTy).Contents (Elt F) → (⟨S600000, .i32⟩ : BufTy).Contents (Elt F) → (⟨S600000, .i1⟩ : BufTy).Contents (Elt F)) ]

abbrev hgTail_W : List (Ref sig .tc) := [main_v272, main_v273, main_v274, main_v275, main_cst_73, main_v276, main_cst_74, main_v277, main_v278, main_v279, main_c_75, main_v280, main_v281]
set_option maxRecDepth 8192 in
theorem hgTail_writes : (hgTail : List (HloOp τ sig (Elt F))).Forall fun op => op.writes ⊆ (hgTail_W.map (Proc.devRef (τ := τ) .tc)).toFinset := by
  simp only [List.Forall]
  repeat' apply And.intro
  all_goals (simp only [nullary_writes, unary_writes, binary_writes, ternary_writes, quaternary_writes, reshape_writes, nary_writes, Finset.singleton_subset_iff, List.mem_toFinset]; exact List.mem_map_of_mem (by decide))
theorem hgTail_keep (V : Valuation τ sig (Elt F)) (r : Ref sig .tc) (h : r ∉ hgTail_W) :
    after hgTail V (Proc.devRef .tc r) = V (Proc.devRef .tc r) := after_of_writes_sub hgTail V hgTail_writes h

set_option maxRecDepth 16384 in
set_option maxHeartbeats 4000000 in

theorem recut : (ops09 ++ (ops10 ++ (ops11 ++ (ops12 ++ (ops13 ++ (ops14 ++ (ops15)))))) : List (HloOp τ sig (Elt F))) = hgPre ++ (hgIdx ++ (hgW0 ++ (hgDot1 ++ (hgDeg1 ++ (hgAgg1 ++ (hgComb1 ++ (hgW1 ++ (hgDot2 ++ (hgDeg2 ++ (hgAgg2 ++ (hgComb2 ++ (hgTail)))))))))))) := rfl

end Cert.Bridge

end
-- ==== Proof.BridgeHgatStages.lean ====
import proofs.«131905_j73031623901536_2_alg».proof.Proof.Gen.KernelIdeal.Launch
import proofs.«131905_j73031623901536_2_alg».proof.Proof.BridgeHgatRefOps
import Idealize.ShloMosaic.Lib.StableHlo.Run

set_option maxRecDepth 16384

noncomputable section

namespace Cert.Bridge

open Idealize.ShloMosaic Idealize.ShloMosaic.TcCoe Idealize.SL.Sem Idealize.ShloMosaic.StableHlo

variable {F : FTy → Type} [FloatOps F]
variable (VK : Valuation Cert.KernelIdeal.τ Cert.KernelIdeal.sig (Elt F)) (VR : Valuation Cert.ReferenceIdeal.τ Cert.ReferenceIdeal.sig (Elt F))

set_option maxHeartbeats 4000000 in

theorem idx_n_congr (h3 : VK (Proc.devRef .tc Cert.KernelIdeal.main_arg3) = VR (Proc.devRef .tc Cert.ReferenceIdeal.main_arg3)) :
    StableHlo.after Cert.KernelIdeal.Gen.hostOps5 VK (Proc.devRef .tc Cert.KernelIdeal.main_v83) = StableHlo.after hgIdx VR (Proc.devRef .tc Cert.ReferenceIdeal.main_v145) := by
  after_results_simp
  rw [h3]
  rfl

set_option maxHeartbeats 4000000 in

theorem idx_e_congr (h3 : VK (Proc.devRef .tc Cert.KernelIdeal.main_arg3) = VR (Proc.devRef .tc Cert.ReferenceIdeal.main_arg3)) :
    StableHlo.after Cert.KernelIdeal.Gen.hostOps5 VK (Proc.devRef .tc Cert.KernelIdeal.main_v85) = StableHlo.after hgIdx VR (Proc.devRef .tc Cert.ReferenceIdeal.main_v147) := by
  after_results_simp
  rw [h3]
  rfl

set_option maxHeartbeats 8000000 in

theorem dinv_congr (h3 : VK (Proc.devRef .tc Cert.KernelIdeal.main_arg3) = VR (Proc.devRef .tc Cert.ReferenceIdeal.main_arg3)) :
    (StableHlo.after Cert.KernelIdeal.Gen.hostOps5_3 (StableHlo.after Cert.KernelIdeal.Gen.hostOps5_2 (StableHlo.after Cert.KernelIdeal.Gen.hostOps5_1 (StableHlo.after Cert.KernelIdeal.Gen.hostOps5 VK)))) (Proc.devRef .tc Cert.KernelIdeal.main_v97)
      = (StableHlo.after hgDeg1 (StableHlo.after hgDot1 (StableHlo.after hgW0 (StableHlo.after hgIdx VR)))) (Proc.devRef .tc Cert.ReferenceIdeal.main_v164) := by
  after_results_simp
  rw [h3]
  rfl

set_option maxHeartbeats 8000000 in

theorem binv_congr (h3 : VK (Proc.devRef .tc Cert.KernelIdeal.main_arg3) = VR (Proc.devRef .tc Cert.ReferenceIdeal.main_arg3)) :
    (StableHlo.after Cert.KernelIdeal.Gen.hostOps5_7 (StableHlo.after Cert.KernelIdeal.Gen.hostOps5_6 (StableHlo.after Cert.KernelIdeal.Gen.hostOps5_5 (StableHlo.after Cert.KernelIdeal.Gen.hostOps5_4 (StableHlo.after Cert.KernelIdeal.Gen.hostOps5_3 (StableHlo.after Cert.KernelIdeal.Gen.hostOps5_2 (StableHlo.after Cert.KernelIdeal.Gen.hostOps5_1 (StableHlo.after Cert.KernelIdeal.Gen.hostOps5 VK)))))))) (Proc.devRef .tc Cert.KernelIdeal.main_v108)
      = (StableHlo.after hgDeg1 (StableHlo.after hgDot1 (StableHlo.after hgW0 (StableHlo.after hgIdx VR)))) (Proc.devRef .tc Cert.ReferenceIdeal.main_v175) := by
  after_results_simp
  rw [h3]
  rfl

set_option maxHeartbeats 8000000 in

theorem dinv_again (V1 V2 : Valuation Cert.ReferenceIdeal.τ Cert.ReferenceIdeal.sig (Elt F))
    (hn : V2 (Proc.devRef .tc Cert.ReferenceIdeal.main_v145) = V1 (Proc.devRef .tc Cert.ReferenceIdeal.main_v145)) :
    StableHlo.after hgDeg2 V2 (Proc.devRef .tc Cert.ReferenceIdeal.main_v226) = StableHlo.after hgDeg1 V1 (Proc.devRef .tc Cert.ReferenceIdeal.main_v164) := by
  after_results_simp
  rw [hn]

set_option maxHeartbeats 8000000 in

theorem binv_again (V1 V2 : Valuation Cert.ReferenceIdeal.τ Cert.ReferenceIdeal.sig (Elt F))
    (he : V2 (Proc.devRef .tc Cert.ReferenceIdeal.main_v147) = V1 (Proc.devRef .tc Cert.ReferenceIdeal.main_v147)) :
    StableHlo.after hgDeg2 V2 (Proc.devRef .tc Cert.ReferenceIdeal.main_v237) = StableHlo.after hgDeg1 V1 (Proc.devRef .tc Cert.ReferenceIdeal.main_v175) := by
  after_results_simp
  rw [he]

set_option maxHeartbeats 4000000 in
theorem w0_congr (h11 : VK (Proc.devRef .tc Cert.KernelIdeal.main_arg11) = VR (Proc.devRef .tc Cert.ReferenceIdeal.main_arg11)) :
    StableHlo.after Cert.KernelIdeal.Gen.hostOps5_8 VK (Proc.devRef .tc Cert.KernelIdeal.main_v110) = StableHlo.after hgW0 VR (Proc.devRef .tc Cert.ReferenceIdeal.main_v149) := by
  after_results_simp
  rw [h11]
  rfl

set_option maxHeartbeats 4000000 in
theorem w1_congr (h11 : VK (Proc.devRef .tc Cert.KernelIdeal.main_arg11) = VR (Proc.devRef .tc Cert.ReferenceIdeal.main_arg11)) :
    StableHlo.after Cert.KernelIdeal.Gen.hostOps7 VK (Proc.devRef .tc Cert.KernelIdeal.main_v143) = StableHlo.after hgW1 VR (Proc.devRef .tc Cert.ReferenceIdeal.main_v211) := by
  after_results_simp
  rw [h11]
  rfl

theorem dot1_read :
    StableHlo.after hgDot1 VR (Proc.devRef .tc Cert.ReferenceIdeal.main_v152)
      = Host.dotGeneral Cert.ReferenceIdeal.dot_S40000x128_S128x128_S40000x128_1_0_0_1_n_n none (VR (Proc.devRef .tc Cert.ReferenceIdeal.main_v132)) (VR (Proc.devRef .tc Cert.ReferenceIdeal.main_v149)) := by
  after_results_simp

theorem dot2_read :
    StableHlo.after hgDot2 VR (Proc.devRef .tc Cert.ReferenceIdeal.main_v214)
      = Host.dotGeneral Cert.ReferenceIdeal.dot_S40000x128_S128x128_S40000x128_1_0_0_1_n_n none (VR (Proc.devRef .tc Cert.ReferenceIdeal.main_v206)) (VR (Proc.devRef .tc Cert.ReferenceIdeal.main_v211)) := by
  after_results_simp

set_option maxHeartbeats 8000000 in

theorem agg1_congr
    (hxw : VK (Proc.devRef .tc Cert.KernelIdeal.main_v111) = VR (Proc.devRef .tc Cert.ReferenceIdeal.main_v152)) (hn : VK (Proc.devRef .tc Cert.KernelIdeal.main_v83) = VR (Proc.devRef .tc Cert.ReferenceIdeal.main_v145)) (he : VK (Proc.devRef .tc Cert.KernelIdeal.main_v85) = VR (Proc.devRef .tc Cert.ReferenceIdeal.main_v147))
    (hb : VK (Proc.devRef .tc Cert.KernelIdeal.main_v108) = VR (Proc.devRef .tc Cert.ReferenceIdeal.main_v175)) (hd : VK (Proc.devRef .tc Cert.KernelIdeal.main_v97) = VR (Proc.devRef .tc Cert.ReferenceIdeal.main_v164)) :
    StableHlo.after Cert.KernelIdeal.Gen.hostOps6 VK (Proc.devRef .tc Cert.KernelIdeal.main_v137) = StableHlo.after hgAgg1 VR (Proc.devRef .tc Cert.ReferenceIdeal.main_v201) := by
  after_results_simp
  rw [hxw, hn, he, hb, hd]
  rfl

set_option maxHeartbeats 8000000 in

theorem agg2_congr
    (hxw : VK (Proc.devRef .tc Cert.KernelIdeal.main_v144) = VR (Proc.devRef .tc Cert.ReferenceIdeal.main_v214)) (hn : VK (Proc.devRef .tc Cert.KernelIdeal.main_v83) = VR (Proc.devRef .tc Cert.ReferenceIdeal.main_v145)) (he : VK (Proc.devRef .tc Cert.KernelIdeal.main_v85) = VR (Proc.devRef .tc Cert.ReferenceIdeal.main_v147))
    (hb : VK (Proc.devRef .tc Cert.KernelIdeal.main_v108) = VR (Proc.devRef .tc Cert.ReferenceIdeal.main_v237)) (hd : VK (Proc.devRef .tc Cert.KernelIdeal.main_v97) = VR (Proc.devRef .tc Cert.ReferenceIdeal.main_v226)) :
    StableHlo.after Cert.KernelIdeal.Gen.hostOps8 VK (Proc.devRef .tc Cert.KernelIdeal.main_v170) = StableHlo.after hgAgg2 VR (Proc.devRef .tc Cert.ReferenceIdeal.main_v263) := by
  after_results_simp
  rw [hxw, hn, he, hb, hd]
  rfl

set_option maxHeartbeats 4000000 in

theorem bias0_congr (h12 : VK (Proc.devRef .tc Cert.KernelIdeal.main_arg12) = VR (Proc.devRef .tc Cert.ReferenceIdeal.main_arg12)) :
    StableHlo.after Cert.KernelIdeal.Gen.hostOps6 VK (Proc.devRef .tc Cert.KernelIdeal.main_v140)
      = shapeCast Cert.KernelIdeal.S1x128 (StableHlo.after hgW0 VR (Proc.devRef .tc Cert.ReferenceIdeal.main_v151) : Cert.KernelIdeal.S128.Idx → Elt F .f32) Cert.KernelIdeal.Facts₀.shapeCasts_S128_S1x128 := by
  after_results_simp
  rw [h12]
  rfl

set_option maxHeartbeats 4000000 in

theorem bias1_congr (h12 : VK (Proc.devRef .tc Cert.KernelIdeal.main_arg12) = VR (Proc.devRef .tc Cert.ReferenceIdeal.main_arg12)) :
    StableHlo.after Cert.KernelIdeal.Gen.hostOps8 VK (Proc.devRef .tc Cert.KernelIdeal.main_v173)
      = shapeCast Cert.KernelIdeal.S1x128 (StableHlo.after hgW1 VR (Proc.devRef .tc Cert.ReferenceIdeal.main_v213) : Cert.KernelIdeal.S128.Idx → Elt F .f32) Cert.KernelIdeal.Facts₀.shapeCasts_S128_S1x128 := by
  after_results_simp
  rw [h12]
  rfl

end Cert.Bridge

end
-- ==== Proof.BridgeHgatLevels.lean ====
import proofs.«131905_j73031623901536_2_alg».proof.Proof.RefRun
import proofs.«131905_j73031623901536_2_alg».proof.Proof.BridgeHgatRefOps
import Idealize.ShloMosaic.Lib.StableHlo.Run
import Idealize.ShloMosaic.Lib.Pipeline.Frame

set_option maxRecDepth 16384

noncomputable section

namespace Cert.Bridge

open Cert.ReferenceIdeal Cert.ReferenceIdeal.Gen Cert.ReferenceIdeal.Hand
open Idealize.ShloMosaic Idealize.ShloMosaic.TcCoe Idealize.SL.Sem Idealize.ShloMosaic.StableHlo

variable {F : FTy → Type} [FloatOps F]
variable (L : Valuation τ sig (Elt F))

def Q0 : Valuation τ sig (Elt F) :=
  after ops08 (after ops07 (after ops06 (after ops05 (after ops04 (after ops03 (after ops02 (after ops01 (after ops00 L))))))))
def Qpre : Valuation τ sig (Elt F) := after hgPre (Q0 L)
def Qidx : Valuation τ sig (Elt F) := after hgIdx (Qpre L)
def Qw0 : Valuation τ sig (Elt F) := after hgW0 (Qidx L)
def Qdot1 : Valuation τ sig (Elt F) := after hgDot1 (Qw0 L)
def Qdeg1 : Valuation τ sig (Elt F) := after hgDeg1 (Qdot1 L)
def Qagg1 : Valuation τ sig (Elt F) := after hgAgg1 (Qdeg1 L)
def Qcomb1 : Valuation τ sig (Elt F) := after hgComb1 (Qagg1 L)
def Qw1 : Valuation τ sig (Elt F) := after hgW1 (Qcomb1 L)
def Qdot2 : Valuation τ sig (Elt F) := after hgDot2 (Qw1 L)
def Qdeg2 : Valuation τ sig (Elt F) := after hgDeg2 (Qdot2 L)
def Qagg2 : Valuation τ sig (Elt F) := after hgAgg2 (Qdeg2 L)
def Qcomb2 : Valuation τ sig (Elt F) := after hgComb2 (Qagg2 L)
def Qtail : Valuation τ sig (Elt F) := after hgTail (Qcomb2 L)
theorem Qpre_def : Qpre L = after hgPre (Q0 L) := rfl
theorem Qidx_def : Qidx L = after hgIdx (Qpre L) := rfl
theorem Qw0_def : Qw0 L = after hgW0 (Qidx L) := rfl
theorem Qdot1_def : Qdot1 L = after hgDot1 (Qw0 L) := rfl
theorem Qdeg1_def : Qdeg1 L = after hgDeg1 (Qdot1 L) := rfl
theorem Qagg1_def : Qagg1 L = after hgAgg1 (Qdeg1 L) := rfl
theorem Qcomb1_def : Qcomb1 L = after hgComb1 (Qagg1 L) := rfl
theorem Qw1_def : Qw1 L = after hgW1 (Qcomb1 L) := rfl
theorem Qdot2_def : Qdot2 L = after hgDot2 (Qw1 L) := rfl
theorem Qdeg2_def : Qdeg2 L = after hgDeg2 (Qdot2 L) := rfl
theorem Qagg2_def : Qagg2 L = after hgAgg2 (Qdeg2 L) := rfl
theorem Qcomb2_def : Qcomb2 L = after hgComb2 (Qagg2 L) := rfl
theorem Qtail_def : Qtail L = after hgTail (Qcomb2 L) := rfl

set_option maxHeartbeats 4000000 in

theorem chunks_eq_Qtail :
    after ops15 (after ops14 (after ops13 (after ops12 (after ops11 (after ops10 (after ops09 (Q0 L))))))) = Qtail L := by
  have h := congrArg (fun l => after l (Q0 L)) (recut (F := F))
  simp only [after_append] at h
  exact h

set_option maxHeartbeats 4000000 in

theorem after_ops_eq_Qtail (b : Ref sig .tc)
    (h16 : b ∉ ops16_W) (h17 : b ∉ ops17_W) (h18 : b ∉ ops18_W) (h19 : b ∉ ops19_W) (h20 : b ∉ ops20_W) (h21 : b ∉ ops21_W)
    (h22 : b ∉ ops22_W) (h23 : b ∉ ops23_W) (h24 : b ∉ ops24_W) (h25 : b ∉ ops25_W) (h26 : b ∉ ops26_W) :
    after ops L (Proc.devRef .tc b) = Qtail L (Proc.devRef .tc b) := by
  rw [after_ops, ops26_keep _ b h26, ops25_keep _ b h25, ops24_keep _ b h24, ops23_keep _ b h23, ops22_keep _ b h22,
    ops21_keep _ b h21, ops20_keep _ b h20, ops19_keep _ b h19, ops18_keep _ b h18, ops17_keep _ b h17, ops16_keep _ b h16]
  exact congrFun (chunks_eq_Qtail L) _

set_option maxRecDepth 8192 in
theorem Q0_main_arg3 : Q0 L (Proc.devRef .tc main_arg3) = L (Proc.devRef .tc main_arg3) := by
  unfold Q0
  rw [ops08_keep _ main_arg3 (by decide), ops07_keep _ main_arg3 (by decide), ops06_keep _ main_arg3 (by decide), ops05_keep _ main_arg3 (by decide), ops04_keep _ main_arg3 (by decide), ops03_keep _ main_arg3 (by decide), ops02_keep _ main_arg3 (by decide), ops01_keep _ main_arg3 (by decide), ops00_keep _ main_arg3 (by decide)]

set_option maxRecDepth 8192 in
theorem Q0_main_arg11 : Q0 L (Proc.devRef .tc main_arg11) = L (Proc.devRef .tc main_arg11) := by
  unfold Q0
  rw [ops08_keep _ main_arg11 (by decide), ops07_keep _ main_arg11 (by decide), ops06_keep _ main_arg11 (by decide), ops05_keep _ main_arg11 (by decide), ops04_keep _ main_arg11 (by decide), ops03_keep _ main_arg11 (by decide), ops02_keep _ main_arg11 (by decide), ops01_keep _ main_arg11 (by decide), ops00_keep _ main_arg11 (by decide)]

set_option maxRecDepth 8192 in
theorem Q0_main_arg12 : Q0 L (Proc.devRef .tc main_arg12) = L (Proc.devRef .tc main_arg12) := by
  unfold Q0
  rw [ops08_keep _ main_arg12 (by decide), ops07_keep _ main_arg12 (by decide), ops06_keep _ main_arg12 (by decide), ops05_keep _ main_arg12 (by decide), ops04_keep _ main_arg12 (by decide), ops03_keep _ main_arg12 (by decide), ops02_keep _ main_arg12 (by decide), ops01_keep _ main_arg12 (by decide), ops00_keep _ main_arg12 (by decide)]

theorem Qpre_main_arg3 : Qpre L (Proc.devRef .tc main_arg3) = L (Proc.devRef .tc main_arg3) := by
  rw [Qpre_def, hgPre_keep _ main_arg3 (by decide), Q0_main_arg3]

theorem Qidx_main_arg11 : Qidx L (Proc.devRef .tc main_arg11) = L (Proc.devRef .tc main_arg11) := by
  rw [Qidx_def, hgIdx_keep _ main_arg11 (by decide),
    Qpre_def, hgPre_keep _ main_arg11 (by decide), Q0_main_arg11]

theorem Qidx_main_arg12 : Qidx L (Proc.devRef .tc main_arg12) = L (Proc.devRef .tc main_arg12) := by
  rw [Qidx_def, hgIdx_keep _ main_arg12 (by decide),
    Qpre_def, hgPre_keep _ main_arg12 (by decide), Q0_main_arg12]

theorem Qcomb1_main_arg11 : Qcomb1 L (Proc.devRef .tc main_arg11) = L (Proc.devRef .tc main_arg11) := by
  rw [Qcomb1_def, hgComb1_keep _ main_arg11 (by decide),
    Qagg1_def, hgAgg1_keep _ main_arg11 (by decide),
    Qdeg1_def, hgDeg1_keep _ main_arg11 (by decide),
    Qdot1_def, hgDot1_keep _ main_arg11 (by decide),
    Qw0_def, hgW0_keep _ main_arg11 (by decide),
    Qidx_main_arg11]

theorem Qcomb1_main_arg12 : Qcomb1 L (Proc.devRef .tc main_arg12) = L (Proc.devRef .tc main_arg12) := by
  rw [Qcomb1_def, hgComb1_keep _ main_arg12 (by decide),
    Qagg1_def, hgAgg1_keep _ main_arg12 (by decide),
    Qdeg1_def, hgDeg1_keep _ main_arg12 (by decide),
    Qdot1_def, hgDot1_keep _ main_arg12 (by decide),
    Qw0_def, hgW0_keep _ main_arg12 (by decide),
    Qidx_main_arg12]

theorem keep_main_v132_Qpre_Qw0 : Qw0 L (Proc.devRef .tc main_v132) = Qpre L (Proc.devRef .tc main_v132) := by
  rw [Qw0_def, hgW0_keep _ main_v132 (by decide),
    Qidx_def, hgIdx_keep _ main_v132 (by decide)]

theorem keep_main_v132_Qpre_Qagg1 : Qagg1 L (Proc.devRef .tc main_v132) = Qpre L (Proc.devRef .tc main_v132) := by
  rw [Qagg1_def, hgAgg1_keep _ main_v132 (by decide),
    Qdeg1_def, hgDeg1_keep _ main_v132 (by decide),
    Qdot1_def, hgDot1_keep _ main_v132 (by decide),
    keep_main_v132_Qpre_Qw0]

theorem keep_main_v132_Qpre_Qtail : Qtail L (Proc.devRef .tc main_v132) = Qpre L (Proc.devRef .tc main_v132) := by
  rw [Qtail_def, hgTail_keep _ main_v132 (by decide),
    Qcomb2_def, hgComb2_keep _ main_v132 (by decide),
    Qagg2_def, hgAgg2_keep _ main_v132 (by decide),
    Qdeg2_def, hgDeg2_keep _ main_v132 (by decide),
    Qdot2_def, hgDot2_keep _ main_v132 (by decide),
    Qw1_def, hgW1_keep _ main_v132 (by decide),
    Qcomb1_def, hgComb1_keep _ main_v132 (by decide),
    keep_main_v132_Qpre_Qagg1]

theorem keep_main_v145_Qidx_Qdot1 : Qdot1 L (Proc.devRef .tc main_v145) = Qidx L (Proc.devRef .tc main_v145) := by
  rw [Qdot1_def, hgDot1_keep _ main_v145 (by decide),
    Qw0_def, hgW0_keep _ main_v145 (by decide)]

theorem keep_main_v145_Qidx_Qdeg1 : Qdeg1 L (Proc.devRef .tc main_v145) = Qidx L (Proc.devRef .tc main_v145) := by
  rw [Qdeg1_def, hgDeg1_keep _ main_v145 (by decide),
    keep_main_v145_Qidx_Qdot1]

theorem keep_main_v145_Qidx_Qdot2 : Qdot2 L (Proc.devRef .tc main_v145) = Qidx L (Proc.devRef .tc main_v145) := by
  rw [Qdot2_def, hgDot2_keep _ main_v145 (by decide),
    Qw1_def, hgW1_keep _ main_v145 (by decide),
    Qcomb1_def, hgComb1_keep _ main_v145 (by decide),
    Qagg1_def, hgAgg1_keep _ main_v145 (by decide),
    keep_main_v145_Qidx_Qdeg1]

theorem keep_main_v145_Qidx_Qdeg2 : Qdeg2 L (Proc.devRef .tc main_v145) = Qidx L (Proc.devRef .tc main_v145) := by
  rw [Qdeg2_def, hgDeg2_keep _ main_v145 (by decide),
    keep_main_v145_Qidx_Qdot2]

theorem keep_main_v147_Qidx_Qdot1 : Qdot1 L (Proc.devRef .tc main_v147) = Qidx L (Proc.devRef .tc main_v147) := by
  rw [Qdot1_def, hgDot1_keep _ main_v147 (by decide),
    Qw0_def, hgW0_keep _ main_v147 (by decide)]

theorem keep_main_v147_Qidx_Qdeg1 : Qdeg1 L (Proc.devRef .tc main_v147) = Qidx L (Proc.devRef .tc main_v147) := by
  rw [Qdeg1_def, hgDeg1_keep _ main_v147 (by decide),
    keep_main_v147_Qidx_Qdot1]

theorem keep_main_v147_Qidx_Qdot2 : Qdot2 L (Proc.devRef .tc main_v147) = Qidx L (Proc.devRef .tc main_v147) := by
  rw [Qdot2_def, hgDot2_keep _ main_v147 (by decide),
    Qw1_def, hgW1_keep _ main_v147 (by decide),
    Qcomb1_def, hgComb1_keep _ main_v147 (by decide),
    Qagg1_def, hgAgg1_keep _ main_v147 (by decide),
    keep_main_v147_Qidx_Qdeg1]

theorem keep_main_v147_Qidx_Qdeg2 : Qdeg2 L (Proc.devRef .tc main_v147) = Qidx L (Proc.devRef .tc main_v147) := by
  rw [Qdeg2_def, hgDeg2_keep _ main_v147 (by decide),
    keep_main_v147_Qidx_Qdot2]

theorem keep_main_v151_Qw0_Qagg1 : Qagg1 L (Proc.devRef .tc main_v151) = Qw0 L (Proc.devRef .tc main_v151) := by
  rw [Qagg1_def, hgAgg1_keep _ main_v151 (by decide),
    Qdeg1_def, hgDeg1_keep _ main_v151 (by decide),
    Qdot1_def, hgDot1_keep _ main_v151 (by decide)]

theorem keep_main_v152_Qdot1_Qdeg1 : Qdeg1 L (Proc.devRef .tc main_v152) = Qdot1 L (Proc.devRef .tc main_v152) := by
  rw [Qdeg1_def, hgDeg1_keep _ main_v152 (by decide)]

theorem keep_main_v206_Qcomb1_Qw1 : Qw1 L (Proc.devRef .tc main_v206) = Qcomb1 L (Proc.devRef .tc main_v206) := by
  rw [Qw1_def, hgW1_keep _ main_v206 (by decide)]

theorem keep_main_v206_Qcomb1_Qagg2 : Qagg2 L (Proc.devRef .tc main_v206) = Qcomb1 L (Proc.devRef .tc main_v206) := by
  rw [Qagg2_def, hgAgg2_keep _ main_v206 (by decide),
    Qdeg2_def, hgDeg2_keep _ main_v206 (by decide),
    Qdot2_def, hgDot2_keep _ main_v206 (by decide),
    keep_main_v206_Qcomb1_Qw1]

theorem keep_main_v209_Qcomb1_Qagg2 : Qagg2 L (Proc.devRef .tc main_v209) = Qcomb1 L (Proc.devRef .tc main_v209) := by
  rw [Qagg2_def, hgAgg2_keep _ main_v209 (by decide),
    Qdeg2_def, hgDeg2_keep _ main_v209 (by decide),
    Qdot2_def, hgDot2_keep _ main_v209 (by decide),
    Qw1_def, hgW1_keep _ main_v209 (by decide)]

theorem keep_main_v213_Qw1_Qagg2 : Qagg2 L (Proc.devRef .tc main_v213) = Qw1 L (Proc.devRef .tc main_v213) := by
  rw [Qagg2_def, hgAgg2_keep _ main_v213 (by decide),
    Qdeg2_def, hgDeg2_keep _ main_v213 (by decide),
    Qdot2_def, hgDot2_keep _ main_v213 (by decide)]

theorem keep_main_v214_Qdot2_Qdeg2 : Qdeg2 L (Proc.devRef .tc main_v214) = Qdot2 L (Proc.devRef .tc main_v214) := by
  rw [Qdeg2_def, hgDeg2_keep _ main_v214 (by decide)]

theorem keep_main_v271_Qcomb2_Qtail : Qtail L (Proc.devRef .tc main_v271) = Qcomb2 L (Proc.devRef .tc main_v271) := by
  rw [Qtail_def, hgTail_keep _ main_v271 (by decide)]

set_option maxRecDepth 8192 in

theorem after_ops_main_v132 : after ops L (Proc.devRef .tc main_v132) = Qpre L (Proc.devRef .tc main_v132) :=
  (after_ops_eq_Qtail L main_v132 (by decide) (by decide) (by decide) (by decide) (by decide) (by decide) (by decide) (by decide) (by decide) (by decide) (by decide)).trans
    (keep_main_v132_Qpre_Qtail L)

set_option maxRecDepth 8192 in

theorem after_ops_main_v271 : after ops L (Proc.devRef .tc main_v271) = Qcomb2 L (Proc.devRef .tc main_v271) :=
  (after_ops_eq_Qtail L main_v271 (by decide) (by decide) (by decide) (by decide) (by decide) (by decide) (by decide) (by decide) (by decide) (by decide) (by decide)).trans
    (keep_main_v271_Qcomb2_Qtail L)

end Cert.Bridge

end
-- ==== Proof.BridgeHgat.lean ====
import proofs.«131905_j73031623901536_2_alg».proof.Proof.KILevels
import proofs.«131905_j73031623901536_2_alg».proof.Proof.KIKeeps
import proofs.«131905_j73031623901536_2_alg».proof.Proof.KIMatValue5
import proofs.«131905_j73031623901536_2_alg».proof.Proof.KIMatValue7
import proofs.«131905_j73031623901536_2_alg».proof.Proof.KICombValue6
import proofs.«131905_j73031623901536_2_alg».proof.Proof.KICombValue8
import proofs.«131905_j73031623901536_2_alg».proof.Proof.KICombRef
import proofs.«131905_j73031623901536_2_alg».proof.Proof.RefDot
import proofs.«131905_j73031623901536_2_alg».proof.Proof.BridgeHgatStages
import proofs.«131905_j73031623901536_2_alg».proof.Proof.BridgeHgatLevels
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.StableHlo
open Idealize.ShloMosaic.ValueIdx

theorem dot_eq_rowsTimes (x : FVec Ideal Cert.ReferenceIdeal.S40000x128 .f32) (w : FVec Ideal Cert.ReferenceIdeal.S128x128 .f32) :
    Host.dotGeneral (F := Ideal) Cert.ReferenceIdeal.dot_S40000x128_S128x128_S40000x128_1_0_0_1_n_n none x w
      = Cert.KernelIdeal.Hand.rowsTimes (x : Cert.ReferenceIdeal.S40000x128.Idx → EReal) (w : Cert.ReferenceIdeal.S128x128.Idx → EReal) := by
  funext k
  obtain ⟨i, j, rfl⟩ : ∃ (i : Fin 40000) (j : Fin 128), k = ix2 i j := ⟨k 0, k 1, eq_ix2 k⟩
  exact ref_dot_40000 x w i j

theorem addUnit_eq_bcast {α : Type} (x : (⟨1, ![128]⟩ : Shape).Idx → α) (h : (⟨1, ![128]⟩ : Shape).ShapeCasts ⟨2, ![1, 128]⟩)
    (hb : (⟨1, ![128]⟩ : Shape).BroadcastsInDim ⟨2, ![1, 128]⟩ (![1] : Fin 1 → Fin 2)) :
    shapeCast ⟨2, ![1, 128]⟩ x h = broadcastInDim ⟨2, ![1, 128]⟩ ![1] hb x := by
  funext j
  refine (shapeCast_addUnit_apply (![128] : Fin 1 → Nat) x h j).trans ?_
  refine (broadcastInDim_apply (![1] : Fin 1 → Fin 2) hb x j (fun a => j a.succ) fun a => ?_).symm
  match a with
  | ⟨0, _⟩ => rfl

set_option maxHeartbeats 4000000 in

theorem comb1_read_x (VR : Valuation Cert.ReferenceIdeal.τ Cert.ReferenceIdeal.sig (Elt Ideal)) :
    StableHlo.after hgComb1 VR (Proc.devRef .tc Cert.ReferenceIdeal.main_v206)
      = Cert.KernelIdeal.Hand.refLayerX Cert.ReferenceIdeal.Facts₀.bcast_S1x128_S40000x128_0_1 Cert.ReferenceIdeal.Facts₀.bcast_S_S40000x128 (VR (Proc.devRef .tc Cert.ReferenceIdeal.main_v201)) (broadcastInDim Cert.ReferenceIdeal.S1x128 ![1] Cert.ReferenceIdeal.Facts₀.bcast_S128_S1x128_1 (VR (Proc.devRef .tc Cert.ReferenceIdeal.main_v151))) (VR (Proc.devRef .tc Cert.ReferenceIdeal.main_v132)) := by
  after_results_simp
  rfl

set_option maxHeartbeats 4000000 in

theorem comb1_read_r (VR : Valuation Cert.ReferenceIdeal.τ Cert.ReferenceIdeal.sig (Elt Ideal)) :
    StableHlo.after hgComb1 VR (Proc.devRef .tc Cert.ReferenceIdeal.main_v209)
      = Cert.KernelIdeal.Hand.refLayerR Cert.ReferenceIdeal.Facts₀.bcast_S1x128_S40000x128_0_1 Cert.ReferenceIdeal.Facts₀.bcast_S_S40000x128 0x3F000000#32 (VR (Proc.devRef .tc Cert.ReferenceIdeal.main_v201)) (broadcastInDim Cert.ReferenceIdeal.S1x128 ![1] Cert.ReferenceIdeal.Facts₀.bcast_S128_S1x128_1 (VR (Proc.devRef .tc Cert.ReferenceIdeal.main_v151))) (VR (Proc.devRef .tc Cert.ReferenceIdeal.main_v132)) (VR (Proc.devRef .tc Cert.ReferenceIdeal.main_v132)) := by
  after_results_simp
  rfl

set_option maxHeartbeats 4000000 in

theorem comb2_read_r (VR : Valuation Cert.ReferenceIdeal.τ Cert.ReferenceIdeal.sig (Elt Ideal)) :
    StableHlo.after hgComb2 VR (Proc.devRef .tc Cert.ReferenceIdeal.main_v271)
      = Cert.KernelIdeal.Hand.refLayerR Cert.ReferenceIdeal.Facts₀.bcast_S1x128_S40000x128_0_1 Cert.ReferenceIdeal.Facts₀.bcast_S_S40000x128 0x3EAAAAAB#32 (VR (Proc.devRef .tc Cert.ReferenceIdeal.main_v263)) (broadcastInDim Cert.ReferenceIdeal.S1x128 ![1] Cert.ReferenceIdeal.Facts₀.bcast_S128_S1x128_1 (VR (Proc.devRef .tc Cert.ReferenceIdeal.main_v213))) (VR (Proc.devRef .tc Cert.ReferenceIdeal.main_v206)) (VR (Proc.devRef .tc Cert.ReferenceIdeal.main_v209)) := by
  after_results_simp
  rfl

section Stack

variable (mK : (ℓ : Loc Cert.KernelIdeal.nD Cert.KernelIdeal.τ Cert.KernelIdeal.sig) → Buf (Elt Ideal) ℓ) (mR : (ℓ : Loc Cert.ReferenceIdeal.nD Cert.ReferenceIdeal.τ Cert.ReferenceIdeal.sig) → Buf (Elt Ideal) ℓ) (c : Dev Cert.KernelIdeal.nD)

theorem hg_dinv2 : (Qdeg2 (StableHlo.launchContents mR c)) (Proc.devRef .tc Cert.ReferenceIdeal.main_v226) = (Qdeg1 (StableHlo.launchContents mR c)) (Proc.devRef .tc Cert.ReferenceIdeal.main_v164) := by
  rw [Qdeg2_def, Qdeg1_def]
  exact dinv_again _ _ ((keep_main_v145_Qidx_Qdot2 _).trans (keep_main_v145_Qidx_Qdot1 _).symm)

theorem hg_binv2 : (Qdeg2 (StableHlo.launchContents mR c)) (Proc.devRef .tc Cert.ReferenceIdeal.main_v237) = (Qdeg1 (StableHlo.launchContents mR c)) (Proc.devRef .tc Cert.ReferenceIdeal.main_v175) := by
  rw [Qdeg2_def, Qdeg1_def]
  exact binv_again _ _ ((keep_main_v147_Qidx_Qdot2 _).trans (keep_main_v147_Qidx_Qdot1 _).symm)

section

variable (h3 : Cert.KernelIdeal.Hand.W0 mK c (Proc.devRef .tc Cert.KernelIdeal.main_arg3) = (StableHlo.launchContents mR c) (Proc.devRef .tc Cert.ReferenceIdeal.main_arg3))
  (h11 : Cert.KernelIdeal.Hand.W0 mK c (Proc.devRef .tc Cert.KernelIdeal.main_arg11) = (StableHlo.launchContents mR c) (Proc.devRef .tc Cert.ReferenceIdeal.main_arg11))
  (h12 : Cert.KernelIdeal.Hand.W0 mK c (Proc.devRef .tc Cert.KernelIdeal.main_arg12) = (StableHlo.launchContents mR c) (Proc.devRef .tc Cert.ReferenceIdeal.main_arg12))
  (hB : (Cert.KernelIdeal.Hand.W14 mK c) (Proc.devRef .tc Cert.KernelIdeal.main_v81_0) = StableHlo.after Cert.ReferenceIdeal.Hand.ops (StableHlo.launchContents mR c) (Proc.devRef .tc Cert.ReferenceIdeal.main_v132))
include h3 h11 h12 hB

theorem hg_nidx :
    (Cert.KernelIdeal.Hand.W15 mK c) (Proc.devRef .tc Cert.KernelIdeal.main_v83) = (Qidx (StableHlo.launchContents mR c)) (Proc.devRef .tc Cert.ReferenceIdeal.main_v145) := by
  rw [Cert.KernelIdeal.Hand.W15_def, Qidx_def]
  exact idx_n_congr _ _ ((Cert.KernelIdeal.Hand.keep_main_arg3_0_14 mK c).trans (h3.trans (Qpre_main_arg3 _).symm))

theorem hg_eidx :
    (Cert.KernelIdeal.Hand.W15 mK c) (Proc.devRef .tc Cert.KernelIdeal.main_v85) = (Qidx (StableHlo.launchContents mR c)) (Proc.devRef .tc Cert.ReferenceIdeal.main_v147) := by
  rw [Cert.KernelIdeal.Hand.W15_def, Qidx_def]
  exact idx_e_congr _ _ ((Cert.KernelIdeal.Hand.keep_main_arg3_0_14 mK c).trans (h3.trans (Qpre_main_arg3 _).symm))

theorem hg_dinv :
    (Cert.KernelIdeal.Hand.W18 mK c) (Proc.devRef .tc Cert.KernelIdeal.main_v97) = (Qdeg1 (StableHlo.launchContents mR c)) (Proc.devRef .tc Cert.ReferenceIdeal.main_v164) := by
  rw [Cert.KernelIdeal.Hand.W18_def, Cert.KernelIdeal.Hand.W17_def, Cert.KernelIdeal.Hand.W16_def, Cert.KernelIdeal.Hand.W15_def, Qdeg1_def, Qdot1_def, Qw0_def, Qidx_def]
  exact dinv_congr _ _ ((Cert.KernelIdeal.Hand.keep_main_arg3_0_14 mK c).trans (h3.trans (Qpre_main_arg3 _).symm))

theorem hg_binv :
    (Cert.KernelIdeal.Hand.W22 mK c) (Proc.devRef .tc Cert.KernelIdeal.main_v108) = (Qdeg1 (StableHlo.launchContents mR c)) (Proc.devRef .tc Cert.ReferenceIdeal.main_v175) := by
  rw [Cert.KernelIdeal.Hand.W22_def, Cert.KernelIdeal.Hand.W21_def, Cert.KernelIdeal.Hand.W20_def, Cert.KernelIdeal.Hand.W19_def, Cert.KernelIdeal.Hand.W18_def, Cert.KernelIdeal.Hand.W17_def, Cert.KernelIdeal.Hand.W16_def, Cert.KernelIdeal.Hand.W15_def,
    Qdeg1_def, Qdot1_def, Qw0_def, Qidx_def]
  exact binv_congr _ _ ((Cert.KernelIdeal.Hand.keep_main_arg3_0_14 mK c).trans (h3.trans (Qpre_main_arg3 _).symm))

theorem hg_w0 :
    (Cert.KernelIdeal.Hand.W23 mK c) (Proc.devRef .tc Cert.KernelIdeal.main_v110) = (Qw0 (StableHlo.launchContents mR c)) (Proc.devRef .tc Cert.ReferenceIdeal.main_v149) := by
  rw [Cert.KernelIdeal.Hand.W23_def, Qw0_def]
  exact w0_congr _ _ ((Cert.KernelIdeal.Hand.keep_main_arg11_0_22 mK c).trans (h11.trans (Qidx_main_arg11 _).symm))

theorem hg_x0 :
    (Cert.KernelIdeal.Hand.W23 mK c) (Proc.devRef .tc Cert.KernelIdeal.main_v81_0) = (Qw0 (StableHlo.launchContents mR c)) (Proc.devRef .tc Cert.ReferenceIdeal.main_v132) :=
  (Cert.KernelIdeal.Hand.keep_main_v81_0_14_23 mK c).trans (hB.trans ((after_ops_main_v132 _).trans (keep_main_v132_Qpre_Qw0 _).symm))

theorem hg_xw1 :
    (Cert.KernelIdeal.Hand.W24 mK c) (Proc.devRef .tc Cert.KernelIdeal.main_v111) = (Qdot1 (StableHlo.launchContents mR c)) (Proc.devRef .tc Cert.ReferenceIdeal.main_v152) := by
  rw [Cert.KernelIdeal.Hand.W24_at_main_v111, Qdot1_def, dot1_read]
  refine (Cert.KernelIdeal.Hand.matmul_array5 (Cert.KernelIdeal.Hand.E23 mK) c).trans ?_
  refine Eq.trans ?_ (dot_eq_rowsTimes _ _).symm
  exact congrArg₂ (Cert.KernelIdeal.Hand.rowsTimes (n := 40000)) (hg_x0 mK mR c h3 h11 h12 hB) (hg_w0 mK mR c h3 h11 h12 hB)

theorem hg_agg1 :
    (Cert.KernelIdeal.Hand.W25 mK c) (Proc.devRef .tc Cert.KernelIdeal.main_v137) = (Qagg1 (StableHlo.launchContents mR c)) (Proc.devRef .tc Cert.ReferenceIdeal.main_v201) := by
  rw [Cert.KernelIdeal.Hand.W25_def, Qagg1_def]
  exact agg1_congr _ _
    ((hg_xw1 mK mR c h3 h11 h12 hB).trans (keep_main_v152_Qdot1_Qdeg1 _).symm)
    ((Cert.KernelIdeal.Hand.keep_main_v83_15_24 mK c).trans ((hg_nidx mK mR c h3 h11 h12 hB).trans (keep_main_v145_Qidx_Qdeg1 _).symm))
    ((Cert.KernelIdeal.Hand.keep_main_v85_15_24 mK c).trans ((hg_eidx mK mR c h3 h11 h12 hB).trans (keep_main_v147_Qidx_Qdeg1 _).symm))
    ((Cert.KernelIdeal.Hand.keep_main_v108_22_24 mK c).trans (hg_binv mK mR c h3 h11 h12 hB))
    ((Cert.KernelIdeal.Hand.keep_main_v97_18_24 mK c).trans (hg_dinv mK mR c h3 h11 h12 hB))

theorem hg_bias0 :
    (Cert.KernelIdeal.Hand.W25 mK c) (Proc.devRef .tc Cert.KernelIdeal.main_v140) = (broadcastInDim Cert.ReferenceIdeal.S1x128 ![1] Cert.ReferenceIdeal.Facts₀.bcast_S128_S1x128_1 ((Qagg1 (StableHlo.launchContents mR c)) (Proc.devRef .tc Cert.ReferenceIdeal.main_v151))) := by
  rw [Cert.KernelIdeal.Hand.W25_def]
  refine (bias0_congr (Cert.KernelIdeal.Hand.W24 mK c) (Qidx (StableHlo.launchContents mR c)) ((Cert.KernelIdeal.Hand.keep_main_arg12_0_24 mK c).trans (h12.trans (Qidx_main_arg12 _).symm))).trans ?_
  rw [keep_main_v151_Qw0_Qagg1, Qw0_def]
  exact addUnit_eq_bcast _ _ _

theorem hg_x0' :
    (Cert.KernelIdeal.Hand.W25 mK c) (Proc.devRef .tc Cert.KernelIdeal.main_v81_0) = (Qagg1 (StableHlo.launchContents mR c)) (Proc.devRef .tc Cert.ReferenceIdeal.main_v132) :=
  (Cert.KernelIdeal.Hand.keep_main_v81_0_14_25 mK c).trans (hB.trans ((after_ops_main_v132 _).trans (keep_main_v132_Qpre_Qagg1 _).symm))

theorem hg_x1 :
    (Cert.KernelIdeal.Hand.W26 mK c) (Proc.devRef .tc Cert.KernelIdeal.main_v141_0) = (Qcomb1 (StableHlo.launchContents mR c)) (Proc.devRef .tc Cert.ReferenceIdeal.main_v206) := by
  rw [Cert.KernelIdeal.Hand.W26_at_main_v141_0, Qcomb1_def, comb1_read_x, Cert.KernelIdeal.Hand.refLayerX_eq]
  refine (Cert.KernelIdeal.Hand.final6_4 (Cert.KernelIdeal.Hand.E25 mK) c).trans ?_
  exact congr (congrArg₂ (Cert.KernelIdeal.Hand.layerOut (n := 40000)) (hg_agg1 mK mR c h3 h11 h12 hB) (hg_bias0 mK mR c h3 h11 h12 hB)) (hg_x0' mK mR c h3 h11 h12 hB)

theorem hg_r1 :
    (Cert.KernelIdeal.Hand.W26 mK c) (Proc.devRef .tc Cert.KernelIdeal.main_v141_1) = (Qcomb1 (StableHlo.launchContents mR c)) (Proc.devRef .tc Cert.ReferenceIdeal.main_v209) := by
  rw [Cert.KernelIdeal.Hand.W26_at_main_v141_1, Qcomb1_def, comb1_read_r, Cert.KernelIdeal.Hand.refLayerR_eq]
  refine (Cert.KernelIdeal.Hand.final6_5 (Cert.KernelIdeal.Hand.E25 mK) c).trans ?_
  exact congr (congr (congrArg₂ (Cert.KernelIdeal.Hand.layerRes (n := 40000) (Ideal.ofBits .f32 0x3F000000#32)) (hg_agg1 mK mR c h3 h11 h12 hB) (hg_bias0 mK mR c h3 h11 h12 hB)) (hg_x0' mK mR c h3 h11 h12 hB)) (hg_x0' mK mR c h3 h11 h12 hB)

theorem hg_w1 :
    (Cert.KernelIdeal.Hand.W27 mK c) (Proc.devRef .tc Cert.KernelIdeal.main_v143) = (Qw1 (StableHlo.launchContents mR c)) (Proc.devRef .tc Cert.ReferenceIdeal.main_v211) := by
  rw [Cert.KernelIdeal.Hand.W27_def, Qw1_def]
  exact w1_congr _ _ ((Cert.KernelIdeal.Hand.keep_main_arg11_0_26 mK c).trans (h11.trans (Qcomb1_main_arg11 _).symm))

theorem hg_xw2 :
    (Cert.KernelIdeal.Hand.W28 mK c) (Proc.devRef .tc Cert.KernelIdeal.main_v144) = (Qdot2 (StableHlo.launchContents mR c)) (Proc.devRef .tc Cert.ReferenceIdeal.main_v214) := by
  rw [Cert.KernelIdeal.Hand.W28_at_main_v144, Qdot2_def, dot2_read]
  refine (Cert.KernelIdeal.Hand.matmul_array7 (Cert.KernelIdeal.Hand.E27 mK) c).trans ?_
  refine Eq.trans ?_ (dot_eq_rowsTimes _ _).symm
  exact congrArg₂ (Cert.KernelIdeal.Hand.rowsTimes (n := 40000))
    ((Cert.KernelIdeal.Hand.keep_main_v141_0_26_27 mK c).trans ((hg_x1 mK mR c h3 h11 h12 hB).trans (keep_main_v206_Qcomb1_Qw1 _).symm))
    (hg_w1 mK mR c h3 h11 h12 hB)

theorem hg_agg2 :
    (Cert.KernelIdeal.Hand.W29 mK c) (Proc.devRef .tc Cert.KernelIdeal.main_v170) = (Qagg2 (StableHlo.launchContents mR c)) (Proc.devRef .tc Cert.ReferenceIdeal.main_v263) := by
  rw [Cert.KernelIdeal.Hand.W29_def, Qagg2_def]
  exact agg2_congr _ _
    ((hg_xw2 mK mR c h3 h11 h12 hB).trans (keep_main_v214_Qdot2_Qdeg2 _).symm)
    ((Cert.KernelIdeal.Hand.keep_main_v83_15_28 mK c).trans ((hg_nidx mK mR c h3 h11 h12 hB).trans (keep_main_v145_Qidx_Qdeg2 _).symm))
    ((Cert.KernelIdeal.Hand.keep_main_v85_15_28 mK c).trans ((hg_eidx mK mR c h3 h11 h12 hB).trans (keep_main_v147_Qidx_Qdeg2 _).symm))
    ((Cert.KernelIdeal.Hand.keep_main_v108_22_28 mK c).trans ((hg_binv mK mR c h3 h11 h12 hB).trans (hg_binv2 mR c).symm))
    ((Cert.KernelIdeal.Hand.keep_main_v97_18_28 mK c).trans ((hg_dinv mK mR c h3 h11 h12 hB).trans (hg_dinv2 mR c).symm))

theorem hg_bias1 :
    (Cert.KernelIdeal.Hand.W29 mK c) (Proc.devRef .tc Cert.KernelIdeal.main_v173) = (broadcastInDim Cert.ReferenceIdeal.S1x128 ![1] Cert.ReferenceIdeal.Facts₀.bcast_S128_S1x128_1 ((Qagg2 (StableHlo.launchContents mR c)) (Proc.devRef .tc Cert.ReferenceIdeal.main_v213))) := by
  rw [Cert.KernelIdeal.Hand.W29_def]
  refine (bias1_congr (Cert.KernelIdeal.Hand.W28 mK c) (Qcomb1 (StableHlo.launchContents mR c)) ((Cert.KernelIdeal.Hand.keep_main_arg12_0_28 mK c).trans (h12.trans (Qcomb1_main_arg12 _).symm))).trans ?_
  rw [keep_main_v213_Qw1_Qagg2, Qw1_def]
  exact addUnit_eq_bcast _ _ _

theorem hg_res2 :
    (Cert.KernelIdeal.Hand.W30 mK c) (Proc.devRef .tc Cert.KernelIdeal.main_v174_1) = (Qcomb2 (StableHlo.launchContents mR c)) (Proc.devRef .tc Cert.ReferenceIdeal.main_v271) := by
  rw [Cert.KernelIdeal.Hand.W30_at_main_v174_1, Qcomb2_def, comb2_read_r, Cert.KernelIdeal.Hand.refLayerR_eq]
  refine (Cert.KernelIdeal.Hand.final8_5 (Cert.KernelIdeal.Hand.E29 mK) c).trans ?_
  exact congr (congr (congrArg₂ (Cert.KernelIdeal.Hand.layerRes (n := 40000) (Ideal.ofBits .f32 0x3EAAAAAB#32)) (hg_agg2 mK mR c h3 h11 h12 hB) (hg_bias1 mK mR c h3 h11 h12 hB))
      ((Cert.KernelIdeal.Hand.keep_main_v141_0_26_29 mK c).trans ((hg_x1 mK mR c h3 h11 h12 hB).trans (keep_main_v206_Qcomb1_Qagg2 _).symm)))
    ((Cert.KernelIdeal.Hand.keep_main_v141_1_26_29 mK c).trans ((hg_r1 mK mR c h3 h11 h12 hB).trans (keep_main_v209_Qcomb1_Qagg2 _).symm))

end

theorem hgat_bridge
    (a3 : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3))
    (a11 : mR ((c.tc : Thread Cert.ReferenceIdeal.nD Cert.ReferenceIdeal.τ).loc Cert.ReferenceIdeal.main_arg11) = mK ((c.tc : Thread Cert.KernelIdeal.nD Cert.KernelIdeal.τ).loc Cert.KernelIdeal.main_arg11))
    (a12 : mR ((c.tc : Thread Cert.ReferenceIdeal.nD Cert.ReferenceIdeal.τ).loc Cert.ReferenceIdeal.main_arg12) = mK ((c.tc : Thread Cert.KernelIdeal.nD Cert.KernelIdeal.τ).loc Cert.KernelIdeal.main_arg12))
    (hB : (Cert.KernelIdeal.Hand.W14 mK c) (Proc.devRef .tc Cert.KernelIdeal.main_v81_0) = StableHlo.after Cert.ReferenceIdeal.Hand.ops (StableHlo.launchContents mR c) (Proc.devRef .tc Cert.ReferenceIdeal.main_v132)) :
    (Cert.KernelIdeal.Hand.W30 mK c) (Proc.devRef .tc Cert.KernelIdeal.main_v174_1) = StableHlo.after Cert.ReferenceIdeal.Hand.ops (StableHlo.launchContents mR c) (Proc.devRef .tc Cert.ReferenceIdeal.main_v271) :=
  (hg_res2 mK mR c a3.symm a11.symm a12.symm hB).trans (after_ops_main_v271 _).symm

end Stack

end Cert.Bridge

end
-- ==== Proof.BridgeRepPure.lean ====
import proofs.«131905_j73031623901536_2_alg».proof.KernelIdeal
import proofs.«131905_j73031623901536_2_alg».proof.Proof.Gen.KernelIdeal

noncomputable section
namespace Cert.Bridge.Rep

section Pure
open Cert.KernelIdeal Cert.KernelIdeal.Gen
open Idealize.ShloMosaic

variable {F : FTy → Type} [FloatOps F]

def rowOf (a3 : (⟨S2x600000, .i32⟩ : BufTy).Contents (Elt F)) : (⟨S600000, .i32⟩ : BufTy).Contents (Elt F) :=
  fun i => shapeCast S600000 (extractStridedSlice S1x600000 ![0, 0] a3 slices_S2x600000_S1x600000_0_0)
    shapeCasts_S1x600000_S600000 i

def colOf (a3 : (⟨S2x600000, .i32⟩ : BufTy).Contents (Elt F)) : (⟨S600000, .i32⟩ : BufTy).Contents (Elt F) :=
  fun i => shapeCast S600000 (extractStridedSlice S1x600000 ![1, 0] a3 slices_S2x600000_S1x600000_1_0)
    shapeCasts_S1x600000_S600000 i

def cntOf (col : (⟨S600000, .i32⟩ : BufTy).Contents (Elt F)) : (⟨S30000, .f32⟩ : BufTy).Contents (Elt F) :=
  Host.scatterAdd scatter_S30000_S600000x1_S600000_n_0_0_1
    (broadcastInDim S30000 ![] bcast_S_S30000 (constant S_ .f32 0x00000000#32))
    (broadcastInDim S600000x1 ![0] bcast_S600000_S600000x1_0 col)
    (broadcastInDim S600000 ![] bcast_S_S600000 (constant S_ .f32 0x3F800000#32))

def invOf (cnt : (⟨S30000, .f32⟩ : BufTy).Contents (Elt F)) : (⟨S30000, .f32⟩ : BufTy).Contents (Elt F) :=
  select (cmpf .ogt cnt (broadcastInDim S30000 ![] bcast_S_S30000 (constant S_ .f32 0x00000000#32)))
    (Host.divf (broadcastInDim S30000 ![] bcast_S_S30000 (constant S_ .f32 0x3F800000#32))
      (select (cmpf .ogt cnt (broadcastInDim S30000 ![] bcast_S_S30000 (constant S_ .f32 0x00000000#32))) cnt
        (broadcastInDim S30000 ![] bcast_S_S30000 (id (constant S_ .f32 0x3F800000#32)))))
    (broadcastInDim S30000 ![] bcast_S_S30000 (id (constant S_ .f32 0x00000000#32)))

def wrapOf (row : (⟨S600000, .i32⟩ : BufTy).Contents (Elt F)) : (⟨S600000x1, .i32⟩ : BufTy).Contents (Elt F) :=
  broadcastInDim S600000x1 ![0] bcast_S600000_S600000x1_0
    (select (cmpi .slt row (broadcastInDim S600000 ![] bcast_S_S600000 (constantI S_ 32 0#32)))
      (addi row (broadcastInDim S600000 ![] bcast_S_S600000 (constantI S_ 32 40000#32))) row)

end Pure

end Cert.Bridge.Rep
-- ==== Proof.BridgeFused.lean ====
import proofs.«131905_j73031623901536_2_alg».proof.KernelIdeal
import proofs.«131905_j73031623901536_2_alg».proof.ReferenceIdeal
import Idealize.ShloMosaic.Lib.ValueIdx
import Idealize.ShloMosaic.Lib.StableHlo.Predicate
import Idealize.ShloMosaic.Lib.Pipeline.Value
import Idealize.ShloMosaic.PureOps.Ideal.Laws
import Mathlib.Algebra.BigOperators.Group.Finset.Basic

noncomputable section

namespace Cert.Bridge.Fused

open Idealize.ShloMosaic Idealize.ShloMosaic.ValueIdx

section RowGather
variable {α : Type}

abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem rowGather_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : (⟨2, ![M, C]⟩ : Shape).Idx) :
    Host.gather (rowGatherDims N C M wf) x idx j
      = x (ix2 ⟨min (idx (ix2 (j 0) (0 : Fin 1))).toInt.toNat (N - 1), by omega⟩ (j 1)) := by
  unfold Host.gather
  congr 1
  funext a
  refine Fin.ext ?_
  match a with
  | ⟨0, _⟩ =>
    show (rowGatherDims N C M wf).start j idx 0 + (rowGatherDims N C M wf).batchCoord j 0
      + (rowGatherDims N C M wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C M wf).startIndexMap from List.mem_singleton.mpr rfl)]
    have hsi : (rowGatherDims N C M wf).siIdx j ⟨List.idxOf (0 : Fin 2) (rowGatherDims N C M wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (rowGatherDims N C M wf).start j idx 1 + (rowGatherDims N C M wf).batchCoord j 1
      + (rowGatherDims N C M wf).offCoord j 1 = (j 1).val
    rw [GatherDims.batchCoord_eq_zero _ _ _ List.not_mem_nil]
    unfold GatherDims.start
    rw [dif_neg (show ¬ (1 : Fin 2) ∈ (rowGatherDims N C M wf).startIndexMap from (by decide : ¬ (1 : Fin 2) ∈ ([0] : List (Fin 2))))]
    unfold GatherDims.offCoord
    rw [dif_pos (show (1 : Fin 2) ∈ (rowGatherDims N C M wf).sKept from
      (GatherDims.mem_sKept _ _).2 ⟨(by decide : ¬ (1 : Fin 2) ∈ ([0] : List (Fin 2))), List.not_mem_nil⟩)]
    simp only [Nat.zero_add, Nat.add_zero]
    rfl

end RowGather

section RowScatter

abbrev rowScatterDims (E C M : Nat)
    (wf : ScatterDims.WF ⟨2, ![E, C]⟩ ⟨2, ![M, 1]⟩ ⟨2, ![M, C]⟩ [1] [0] [0] 1) :
    ScatterDims ⟨2, ![E, C]⟩ ⟨2, ![M, 1]⟩ ⟨2, ![M, C]⟩ where
  updateWindowDims := [1]
  insertedWindowDims := [0]
  scatterDimsToOperandDims := [0]
  indexVectorDim := 1
  wf := wf

variable {E C M w : Nat} (wf : ScatterDims.WF ⟨2, ![E, C]⟩ ⟨2, ![M, 1]⟩ ⟨2, ![M, C]⟩ [1] [0] [0] 1)
  (idx : IVec ⟨2, ![M, 1]⟩ w) (j : (⟨2, ![M, C]⟩ : Shape).Idx)

theorem rowScatter_mem_sKept1 : (1 : Fin 2) ∈ (rowScatterDims E C M wf).sKept :=
  List.mem_filter.2 ⟨List.mem_finRange _, by
    show decide (¬ (1 : Fin 2) ∈ ([0] : List (Fin 2))) = true
    decide⟩

theorem rowScatter_not_mem_sKept0 : ¬ (0 : Fin 2) ∈ (rowScatterDims E C M wf).sKept := fun h => by
  have := (List.mem_filter.1 h).2
  revert this
  show ¬ (decide (¬ (0 : Fin 2) ∈ ([0] : List (Fin 2))) = true)
  decide

theorem rowScatter_start0 : (rowScatterDims E C M wf).start j idx 0 = (idx (ix2 (j 0) (0 : Fin 1))).toInt := by
  unfold ScatterDims.start
  rw [dif_pos (show (0 : Fin 2) ∈ (rowScatterDims E C M wf).scatterDimsToOperandDims from List.mem_singleton.mpr rfl)]
  have hsi : (rowScatterDims E C M wf).siIdx j ⟨List.idxOf (0 : Fin 2) (rowScatterDims E C M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 : (rowScatterDims E C M wf).start j idx 1 = 0 := by
  unfold ScatterDims.start
  rw [dif_neg (show ¬ (1 : Fin 2) ∈ (rowScatterDims E C M wf).scatterDimsToOperandDims from
    (by decide : ¬ (1 : Fin 2) ∈ ([0] : List (Fin 2))))]

theorem rowScatter_window0 : (rowScatterDims E C M wf).window j 0 = 0 := by
  unfold ScatterDims.window
  rw [dif_neg (rowScatter_not_mem_sKept0 wf)]

theorem rowScatter_window1 : (rowScatterDims E C M wf).window j 1 = (j 1).val := by
  unfold ScatterDims.window
  rw [dif_pos (rowScatter_mem_sKept1 wf)]
  rfl

/-- An update lands on `i` exactly when start plus window coordinate is `i` on every axis. -/
theorem resultIdx?_eq_some_iff {s si u : Shape} (d : ScatterDims s si u) {w : Nat} (j : u.Idx) (idx : IVec si w) (i : s.Idx) :
    d.resultIdx? j idx = some i ↔ ∀ a, d.start j idx a + d.window j a = (i a).val := by
  unfold ScatterDims.resultIdx?
  split
  · next h =>
    rw [Option.some.injEq]
    refine ⟨fun hf a => ?_, fun hi => funext fun a => Fin.ext ?_⟩
    · have e : (d.start j idx a + d.window j a).toNat = (i a).val := congrArg (fun f : s.Idx => (f a).val) hf
      have := h a
      omega
    · show (d.start j idx a + d.window j a).toNat = (i a).val
      have := hi a
      omega
  · next h =>
    refine ⟨fun hf => (by cases hf), fun hi => absurd (fun a => ?_) h⟩
    have := hi a
    have := (i a).isLt
    omega

theorem rowScatter_resultIdx_eq_some_iff (i : (⟨2, ![E, C]⟩ : Shape).Idx) :
    (rowScatterDims E C M wf).resultIdx? j idx = some i ↔
      (idx (ix2 (j 0) (0 : Fin 1))).toInt = ((i 0).val : Int) ∧ (j 1).val = (i 1).val := by
  rw [resultIdx?_eq_some_iff, Fin.forall_fin_two, rowScatter_start0 wf idx j, rowScatter_start1 wf idx j,
    rowScatter_window0 wf j, rowScatter_window1 wf j]
  omega

theorem rowScatter_sum {β : Type} [AddCommMonoid β] (upd : (⟨2, ![M, C]⟩ : Shape).Idx → β)
    (i : (⟨2, ![E, C]⟩ : Shape).Idx)
    [DecidablePred fun j : (⟨2, ![M, C]⟩ : Shape).Idx => (rowScatterDims E C M wf).resultIdx? j idx = some i] :
    ∑ j ∈ Finset.univ.filter (fun j : (⟨2, ![M, C]⟩ : Shape).Idx => (rowScatterDims E C M wf).resultIdx? j idx = some i), upd j
      = ∑ n ∈ Finset.univ.filter (fun n : Fin M => (idx (ix2 n (0 : Fin 1))).toInt = ((i 0).val : Int)),
          upd (ix2 n (⟨(i 1).val, idx2_lt1 i⟩ : Fin C)) := by
  rw [Finset.sum_filter, sum_idx2, Finset.sum_filter]
  refine Finset.sum_congr rfl fun n _ => ?_
  simp only [rowScatter_resultIdx_eq_some_iff]
  by_cases hc : (idx (ix2 n (0 : Fin 1))).toInt = ((i 0).val : Int)
  · rw [if_pos hc, Finset.sum_eq_single (⟨(i 1).val, idx2_lt1 i⟩ : Fin C)]
    · rw [if_pos ⟨hc, rfl⟩]
    · intro b _ hb
      rw [if_neg]
      intro h
      exact hb (Fin.ext h.2)
    · intro h
      exact absurd (Finset.mem_univ _) h
  · rw [if_neg hc]
    refine Finset.sum_eq_zero fun b _ => ?_
    rw [if_neg]
    intro h
    exact hc h.1

end RowScatter

section Side
open Idealize.ShloMosaic.StableHlo.Predicate (bcast_rows ij)

theorem bcastRows_apply {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α)
    (k : (⟨2, ![n, m]⟩ : Shape).Idx) :
    broadcastInDim ⟨2, ![n, m]⟩ ![0, 1] h₂ (broadcastInDim ⟨2, ![n, 1]⟩ ![0] h₁ v) k = v (Shape.Idx.ofFin (k 0)) := by
  have hk : k = ij (k 0) (k 1) := by
    funext a; match a with | ⟨0, _⟩ => rfl | ⟨1, _⟩ => rfl
  conv_lhs => rw [hk]
  exact bcast_rows h₁ h₂ v (k 0) (k 1)

theorem side_apply {N E M C : Nat} (hN : 0 < N)
    (wfG : GatherDims.WF ⟨2, ![N, C]⟩ ⟨2, ![M, 1]⟩ ⟨2, ![M, C]⟩ [1] [0] [] [0] [] 1 ![1, C])
    (wfS : ScatterDims.WF ⟨2, ![E, C]⟩ ⟨2, ![M, 1]⟩ ⟨2, ![M, C]⟩ [1] [0] [0] 1)
    (h₁ : (⟨1, ![E]⟩ : Shape).BroadcastsInDim ⟨2, ![E, 1]⟩ ![0])
    (h₂ : (⟨2, ![E, 1]⟩ : Shape).BroadcastsInDim ⟨2, ![E, C]⟩ ![0, 1])
    (z : FVec Ideal ⟨2, ![E, C]⟩ .f32) (x : FVec Ideal ⟨2, ![N, C]⟩ .f32) (g s : IVec ⟨2, ![M, 1]⟩ 32)
    (inv : FVec Ideal ⟨1, ![E]⟩ .f32) (k : (⟨2, ![E, C]⟩ : Shape).Idx) :
    mulf (Host.scatterAdd (rowScatterDims E C M wfS) z s (Host.gather (rowGatherDims N C M wfG) x g))
        (broadcastInDim ⟨2, ![E, C]⟩ ![0, 1] h₂ (broadcastInDim ⟨2, ![E, 1]⟩ ![0] h₁ inv)) k
      = (z k + ∑ n ∈ Finset.univ.filter (fun n : Fin M => (s (ix2 n (0 : Fin 1))).toInt = ((k 0).val : Int)),
            x (ix2 ⟨min (g (ix2 n (0 : Fin 1))).toInt.toNat (N - 1), by omega⟩ (⟨(k 1).val, idx2_lt1 k⟩ : Fin C)))
          * inv (Shape.Idx.ofFin (k 0)) := by
  rw [mulf_apply, bcastRows_apply]
  congr 1
  show Ideal.hostScatterAdd (rowScatterDims E C M wfS) z s (Host.gather (rowGatherDims N C M wfG) x g) k = _
  unfold Ideal.hostScatterAdd
  rw [rowScatter_sum]
  congr 1
  refine Finset.sum_congr rfl fun n _ => ?_
  rw [rowGather_apply hN]
  rfl

end Side

section Block

theorem fused_generic {N E M C C2 : Nat} (hN : 0 < N) (off : Nat) (hoff : off + C ≤ C2)
    (wfGK : GatherDims.WF ⟨2, ![N, C2]⟩ ⟨2, ![M, 1]⟩ ⟨2, ![M, C2]⟩ [1] [0] [] [0] [] 1 ![1, C2])
    (wfSK : ScatterDims.WF ⟨2, ![E, C2]⟩ ⟨2, ![M, 1]⟩ ⟨2, ![M, C2]⟩ [1] [0] [0] 1)
    (wfGR : GatherDims.WF ⟨2, ![N, C]⟩ ⟨2, ![M, 1]⟩ ⟨2, ![M, C]⟩ [1] [0] [] [0] [] 1 ![1, C])
    (wfSR : ScatterDims.WF ⟨2, ![E, C]⟩ ⟨2, ![M, 1]⟩ ⟨2, ![M, C]⟩ [1] [0] [0] 1)
    (h₁K : (⟨1, ![E]⟩ : Shape).BroadcastsInDim ⟨2, ![E, 1]⟩ ![0])
    (h₂K : (⟨2, ![E, 1]⟩ : Shape).BroadcastsInDim ⟨2, ![E, C2]⟩ ![0, 1])
    (h₁R : (⟨1, ![E]⟩ : Shape).BroadcastsInDim ⟨2, ![E, 1]⟩ ![0])
    (h₂R : (⟨2, ![E, 1]⟩ : Shape).BroadcastsInDim ⟨2, ![E, C]⟩ ![0, 1])
    (hsl : (⟨2, ![E, C2]⟩ : Shape).Slices ![0, off] ⟨2, ![E, C]⟩)
    (zK : FVec Ideal ⟨2, ![E, C2]⟩ .f32) (zR : FVec Ideal ⟨2, ![E, C]⟩ .f32)
    (cat : FVec Ideal ⟨2, ![N, C2]⟩ .f32) (x : FVec Ideal ⟨2, ![N, C]⟩ .f32)
    (hz : ∀ k i, zK k = zR i)
    (hcat : ∀ (r : Fin N) (c : Fin C) (hc : off + c.val < C2), cat (ix2 r (⟨off + c.val, hc⟩ : Fin C2)) = x (ix2 r c))
    (g s : IVec ⟨2, ![M, 1]⟩ 32) (inv : FVec Ideal ⟨1, ![E]⟩ .f32) :
    extractStridedSlice ⟨2, ![E, C]⟩ ![0, off]
      (mulf (Host.scatterAdd (rowScatterDims E C2 M wfSK) zK s (Host.gather (rowGatherDims N C2 M wfGK) cat g))
        (broadcastInDim ⟨2, ![E, C2]⟩ ![0, 1] h₂K (broadcastInDim ⟨2, ![E, 1]⟩ ![0] h₁K inv))) hsl
    = mulf (Host.scatterAdd (rowScatterDims E C M wfSR) zR s (Host.gather (rowGatherDims N C M wfGR) x g))
        (broadcastInDim ⟨2, ![E, C]⟩ ![0, 1] h₂R (broadcastInDim ⟨2, ![E, 1]⟩ ![0] h₁R inv)) := by
  funext i
  have hlt : off + (i 1).val < C2 := by have := idx2_lt1 i; omega
  have hk : ∀ a : Fin 2, ((ix2 (i 0) (⟨off + (i 1).val, hlt⟩ : Fin C2) : (⟨2, ![E, C2]⟩ : Shape).Idx) a).val
      = (![0, off] : Fin 2 → Nat) a + (i a).val := fun a => by
    match a with
    | ⟨0, _⟩ => show (i 0).val = 0 + (i 0).val; omega
    | ⟨1, _⟩ => rfl
  rw [extractStridedSlice_apply (s := ⟨2, ![E, C2]⟩) (t := ⟨2, ![E, C]⟩) ![0, off] _ hsl i
    (ix2 (i 0) (⟨off + (i 1).val, hlt⟩ : Fin C2)) hk]
  rw [side_apply hN wfGK wfSK h₁K h₂K, side_apply hN wfGR wfSR h₁R h₂R]
  congr 1
  congr 1
  · exact hz _ _
  · refine Finset.sum_congr rfl fun n _ => ?_
    exact hcat _ (⟨(i 1).val, idx2_lt1 i⟩ : Fin C) _

end Block

section Halves

variable {F : FTy → Type} [FloatOps F]

open Cert.ReferenceIdeal in
/-- The rows of `x` at `g`, added up into the rows at `s`, each row times its entry of `inv` (128 columns). -/
def aggR [Facts₀] (x : FVec F S40000x128 .f32) (g s : IVec S600000x1 32)
    (inv : FVec F S30000 .f32) : FVec F S30000x128 .f32 :=
  mulf
    (Host.scatterAdd scatter_S30000x128_S600000x1_S600000x128_1_0_0_1
      (broadcastInDim S30000x128 ![] Facts₀.bcast_S_S30000x128 (constant S_ .f32 0x00000000#32)) s
      (Host.gather gather_S40000x128_S600000x1_S600000x128_1_0_n_n_0_1_1128 x g))
    (broadcastInDim S30000x128 ![0, 1] Facts₀.bcast_S30000x1_S30000x128_0_1
      (broadcastInDim S30000x1 ![0] Facts₀.bcast_S30000_S30000x1_0 inv))

open Cert.KernelIdeal

/-- The same sum of gathered rows times `inv`, at 256 columns. -/
def aggK [Facts₀] (x : FVec F S40000x256 .f32) (g s : IVec S600000x1 32)
    (inv : FVec F S30000 .f32) : FVec F S30000x256 .f32 :=
  mulf
    (Host.scatterAdd scatter_S30000x256_S600000x1_S600000x256_1_0_0_1
      (broadcastInDim S30000x256 ![] Facts₀.bcast_S_S30000x256 (constant S_ .f32 0x00000000#32)) s
      (Host.gather gather_S40000x256_S600000x1_S600000x256_1_0_n_n_0_1_1256 x g))
    (broadcastInDim S30000x256 ![0, 1] Facts₀.bcast_S30000x1_S30000x256_0_1
      (broadcastInDim S30000x1 ![0] Facts₀.bcast_S30000_S30000x1_0 inv))

/-- Columns `off … off + 127` of the wide aggregate are the narrow aggregate of those columns of the operand. -/
theorem fused_half [Facts₀] [Cert.ReferenceIdeal.Facts₀] (off : Nat) (hoff : off + 128 ≤ 256)
    (hsl : (⟨2, ![30000, 256]⟩ : Shape).Slices ![0, off] ⟨2, ![30000, 128]⟩)
    (cat : FVec Ideal S40000x256 .f32) (x : FVec Ideal S40000x128 .f32)
    (hcat : ∀ (r : Fin 40000) (c : Fin 128) (hc : off + c.val < 256), cat (ix2 r (⟨off + c.val, hc⟩ : Fin 256)) = x (ix2 r c))
    (g s : IVec S600000x1 32) (inv : FVec Ideal S30000 .f32) :
    extractStridedSlice S30000x128 ![0, off] (aggK cat g s inv) hsl = aggR x g s inv :=
  fused_generic (N := 40000) (E := 30000) (M := 600000) (C := 128) (C2 := 256) (by omega) off hoff
    Facts₀.gather_S40000x256_S600000x1_S600000x256_1_0_n_n_0_1_1256_wf
    Facts₀.scatter_S30000x256_S600000x1_S600000x256_1_0_0_1_wf
    Cert.ReferenceIdeal.Facts₀.gather_S40000x128_S600000x1_S600000x128_1_0_n_n_0_1_1128_wf
    Cert.ReferenceIdeal.Facts₀.scatter_S30000x128_S600000x1_S600000x128_1_0_0_1_wf
    Facts₀.bcast_S30000_S30000x1_0 Facts₀.bcast_S30000x1_S30000x256_0_1
    Cert.ReferenceIdeal.Facts₀.bcast_S30000_S30000x1_0 Cert.ReferenceIdeal.Facts₀.bcast_S30000x1_S30000x128_0_1
    hsl _ _ cat x (fun _ _ => rfl) hcat g s inv

theorem cat_left [Facts₀] (h l : FVec Ideal S40000x128 .f32)
    (r : Fin 40000) (c : Fin 128) (hc : 0 + c.val < 256) :
    concatenate S40000x256 1 [⟨S40000x128, h⟩, ⟨S40000x128, l⟩]
      Facts₀.concatenates_S40000x128_S40000x128_S40000x256_d1 (ix2 r (⟨0 + c.val, hc⟩ : Fin 256))
      = h (ix2 r c) :=
  concatenate_pair_apply_left 1 h l Facts₀.concatenates_S40000x128_S40000x128_S40000x256_d1
    (ix2 r (⟨0 + c.val, hc⟩ : Fin 256)) rfl (ix2 r c) (fun b => by
      match b with
      | ⟨0, _⟩ => rfl
      | ⟨1, _⟩ => show c.val = 0 + c.val; omega)

theorem cat_right [Facts₀] (h l : FVec Ideal S40000x128 .f32)
    (r : Fin 40000) (c : Fin 128) (hc : 128 + c.val < 256) :
    concatenate S40000x256 1 [⟨S40000x128, h⟩, ⟨S40000x128, l⟩]
      Facts₀.concatenates_S40000x128_S40000x128_S40000x256_d1 (ix2 r (⟨128 + c.val, hc⟩ : Fin 256))
      = l (ix2 r c) :=
  concatenate_pair_apply_right 1 h l Facts₀.concatenates_S40000x128_S40000x128_S40000x256_d1
    (ix2 r (⟨128 + c.val, hc⟩ : Fin 256)) rfl rfl (ix2 r c) (fun b => by
      match b with
      | ⟨0, _⟩ => exact fun _ => rfl
      | ⟨1, _⟩ => exact fun hne => absurd rfl hne)
    (by show c.val + 128 = 128 + c.val; omega)

theorem fused_left [Facts₀] [Cert.ReferenceIdeal.Facts₀]
    (h l : FVec Ideal S40000x128 .f32) (g s : IVec S600000x1 32) (inv : FVec Ideal S30000 .f32) :
    extractStridedSlice S30000x128 ![0, 0]
      (aggK (concatenate S40000x256 1 [⟨S40000x128, h⟩, ⟨S40000x128, l⟩]
        Facts₀.concatenates_S40000x128_S40000x128_S40000x256_d1) g s inv)
      Facts₀.slices_S30000x256_S30000x128_0_0 = aggR h g s inv :=
  fused_half 0 (by omega) _ _ h (cat_left h l) g s inv

theorem fused_right [Facts₀] [Cert.ReferenceIdeal.Facts₀]
    (h l : FVec Ideal S40000x128 .f32) (g s : IVec S600000x1 32) (inv : FVec Ideal S30000 .f32) :
    extractStridedSlice S30000x128 ![0, 128]
      (aggK (concatenate S40000x256 1 [⟨S40000x128, h⟩, ⟨S40000x128, l⟩]
        Facts₀.concatenates_S40000x128_S40000x128_S40000x256_d1) g s inv)
      Facts₀.slices_S30000x256_S30000x128_0_128 = aggR l g s inv :=
  fused_half 128 (by omega) _ _ l (cat_right h l) g s inv

end Halves

end Cert.Bridge.Fused
-- ==== Proof.BridgeRepK.lean ====
import proofs.«131905_j73031623901536_2_alg».proof.Proof.Gen.KernelIdeal.Launch
import proofs.«131905_j73031623901536_2_alg».proof.Proof.BridgeRepPure
import proofs.«131905_j73031623901536_2_alg».proof.Proof.BridgeFused
import Idealize.ShloMosaic.Lib.StableHlo.Run

noncomputable section
namespace Cert.Bridge.Rep

section Kernel
open Cert.KernelIdeal Cert.KernelIdeal.Gen
open Idealize.ShloMosaic Idealize.ShloMosaic.TcCoe Idealize.ShloMosaic.StableHlo Idealize.SL.Sem

variable {F : FTy → Type} [FloatOps F]

theorem k_v176 (V : Valuation τ sig (Elt F)) :
    after hostOps9_3 (after hostOps9_2 (after hostOps9_1 (after hostOps9 V))) (Proc.devRef .tc main_v176)
      = rowOf (V (Proc.devRef .tc main_arg3)) := by
  after_results_simp
  rfl

theorem k_v178 (V : Valuation τ sig (Elt F)) :
    after hostOps9_3 (after hostOps9_2 (after hostOps9_1 (after hostOps9 V))) (Proc.devRef .tc main_v178)
      = colOf (V (Proc.devRef .tc main_arg3)) := by
  after_results_simp
  rfl

theorem k_v191 (V : Valuation τ sig (Elt F)) :
    after hostOps9_3 (after hostOps9_2 (after hostOps9_1 (after hostOps9 V))) (Proc.devRef .tc main_v191)
      = invOf (cntOf (colOf (V (Proc.devRef .tc main_arg3)))) := by
  after_results_simp
  simp only [TRef.ofBuf, TRef.toBuf, cast_eq]
  rfl

theorem k_pass179 (W : Valuation τ sig (Elt F)) :
    after hostOps9_3 (after hostOps9_2 (after hostOps9_1 W)) (Proc.devRef .tc main_v179) = W (Proc.devRef .tc main_v179) := by
  after_results_simp

theorem k_v179 (V : Valuation τ sig (Elt F)) :
    after hostOps9_3 (after hostOps9_2 (after hostOps9_1 (after hostOps9 V))) (Proc.devRef .tc main_v179)
      = concatenate S40000x256 1 [⟨S40000x128, V (Proc.devRef .tc main_v174_1)⟩, ⟨S40000x128, V (Proc.devRef .tc main_v81_1)⟩]
          concatenates_S40000x128_S40000x128_S40000x256_d1 := by
  rw [k_pass179]
  after_results

theorem k_v205 (V : Valuation τ sig (Elt F)) :
    after hostOps9_4 V (Proc.devRef .tc main_v205)
      = extractStridedSlice S30000x128 ![0, 0]
          (Fused.aggK (V (Proc.devRef .tc main_v179)) (wrapOf (V (Proc.devRef .tc main_v176)))
            (broadcastInDim S600000x1 ![0] bcast_S600000_S600000x1_0 (V (Proc.devRef .tc main_v178))) (V (Proc.devRef .tc main_v191)))
          slices_S30000x256_S30000x128_0_0 := by
  after_results_simp
  rfl

theorem k_v206 (V : Valuation τ sig (Elt F)) :
    after hostOps9_4 V (Proc.devRef .tc main_v206)
      = extractStridedSlice S30000x128 ![0, 128]
          (Fused.aggK (V (Proc.devRef .tc main_v179)) (wrapOf (V (Proc.devRef .tc main_v176)))
            (broadcastInDim S600000x1 ![0] bcast_S600000_S600000x1_0 (V (Proc.devRef .tc main_v178))) (V (Proc.devRef .tc main_v191)))
          slices_S30000x256_S30000x128_0_128 := by
  after_results_simp
  rfl

end Kernel

end Cert.Bridge.Rep
-- ==== Proof.BridgeRepR.lean ====
import proofs.«131905_j73031623901536_2_alg».proof.Proof.RefRun
import proofs.«131905_j73031623901536_2_alg».proof.Proof.BridgeRepPure
import proofs.«131905_j73031623901536_2_alg».proof.Proof.BridgeFused
import Idealize.ShloMosaic.Lib.StableHlo.Run

noncomputable section
namespace Cert.Bridge.Rep

section Reference
open Cert.ReferenceIdeal Cert.ReferenceIdeal.Gen Cert.ReferenceIdeal.Hand
open Idealize.ShloMosaic Idealize.ShloMosaic.TcCoe Idealize.ShloMosaic.StableHlo Idealize.SL.Sem

variable {F : FTy → Type} [FloatOps F]

theorem r_v273 (X : Valuation τ sig (Elt F)) :
    after ops15 X (Proc.devRef .tc main_v273) = rowOf (X (Proc.devRef .tc main_arg3)) := by
  after_results_simp
  rfl

theorem r_v275 (X : Valuation τ sig (Elt F)) :
    after ops15 X (Proc.devRef .tc main_v275) = colOf (X (Proc.devRef .tc main_arg3)) := by
  after_results_simp
  rfl

theorem r_v279 (X : Valuation τ sig (Elt F)) :
    after ops15 X (Proc.devRef .tc main_v279) = cntOf (colOf (X (Proc.devRef .tc main_arg3))) := by
  after_results_simp
  rfl

theorem r_v281 (X : Valuation τ sig (Elt F)) :
    after ops15 X (Proc.devRef .tc main_v281)
      = cmpi .slt (rowOf (X (Proc.devRef .tc main_arg3)))
          (broadcastInDim S600000 ![] Facts₀.bcast_S_S600000 (constantI S_ 32 0#32)) := by
  after_results_simp
  rfl

theorem r_v300 (Z : Valuation τ sig (Elt F)) :
    after ops16 Z (Proc.devRef .tc main_v300)
      = Fused.aggR (Z (Proc.devRef .tc main_v271))
          (broadcastInDim S600000x1 ![0] Facts₀.bcast_S600000_S600000x1_0
            (select (Z (Proc.devRef .tc main_v281))
              (addi (Z (Proc.devRef .tc main_v273)) (broadcastInDim S600000 ![] Facts₀.bcast_S_S600000 (constantI S_ 32 40000#32)))
              (Z (Proc.devRef .tc main_v273))))
          (broadcastInDim S600000x1 ![0] Facts₀.bcast_S600000_S600000x1_0 (Z (Proc.devRef .tc main_v275)))
          (invOf (Z (Proc.devRef .tc main_v279))) := by
  after_results_simp
  simp only [TRef.ofBuf, TRef.toBuf, cast_eq]
  rfl

theorem ref_h (X : Valuation τ sig (Elt F)) :
    after ops16 (after ops15 X) (Proc.devRef .tc main_v300)
      = Fused.aggR (after ops15 X (Proc.devRef .tc main_v271)) (wrapOf (rowOf (X (Proc.devRef .tc main_arg3))))
          (broadcastInDim Cert.KernelIdeal.S600000x1 ![0] Cert.KernelIdeal.Facts₀.bcast_S600000_S600000x1_0 (colOf (X (Proc.devRef .tc main_arg3)))) (invOf (cntOf (colOf (X (Proc.devRef .tc main_arg3))))) := by
  rw [r_v300, r_v273, r_v275, r_v279, r_v281]
  rfl

theorem ref_l (Z : Valuation τ sig (Elt F)) :
    after ops18 (after ops17 (after ops16 Z)) (Proc.devRef .tc main_v329)
      = Fused.aggR (Z (Proc.devRef .tc main_v143)) (wrapOf (rowOf (Z (Proc.devRef .tc main_arg3))))
          (broadcastInDim Cert.KernelIdeal.S600000x1 ![0] Cert.KernelIdeal.Facts₀.bcast_S600000_S600000x1_0 (colOf (Z (Proc.devRef .tc main_arg3)))) (invOf (cntOf (colOf (Z (Proc.devRef .tc main_arg3))))) := by
  after_results_simp
  simp only [TRef.ofBuf, TRef.toBuf, cast_eq]
  rfl

/-- `ops00 … ops14` applied in turn. -/
abbrev pre14 (V : Valuation τ sig (Elt F)) : Valuation τ sig (Elt F) :=
  after ops14 (after ops13 (after ops12 (after ops11 (after ops10 (after ops09 (after ops08 (after ops07 (after ops06 (after ops05 (after ops04 (after ops03 (after ops02 (after ops01 (after ops00 (V)))))))))))))))

theorem after_ops_v300 (V : Valuation τ sig (Elt F)) :
    after ops V (Proc.devRef .tc main_v300) = after ops16 (after ops15 (pre14 V)) (Proc.devRef .tc main_v300) := by
  rw [after_ops, ops26_keep _ _ (by decide), ops25_keep _ _ (by decide), ops24_keep _ _ (by decide), ops23_keep _ _ (by decide), ops22_keep _ _ (by decide), ops21_keep _ _ (by decide), ops20_keep _ _ (by decide), ops19_keep _ _ (by decide), ops18_keep _ _ (by decide), ops17_keep _ _ (by decide)]

theorem after_ops_v143' (V : Valuation τ sig (Elt F)) :
    after ops V (Proc.devRef .tc main_v143) = after ops15 (pre14 V) (Proc.devRef .tc main_v143) := by
  rw [after_ops, ops26_keep _ _ (by decide), ops25_keep _ _ (by decide), ops24_keep _ _ (by decide), ops23_keep _ _ (by decide), ops22_keep _ _ (by decide), ops21_keep _ _ (by decide), ops20_keep _ _ (by decide), ops19_keep _ _ (by decide), ops18_keep _ _ (by decide), ops17_keep _ _ (by decide), ops16_keep _ _ (by decide)]

theorem after_ops_v271' (V : Valuation τ sig (Elt F)) :
    after ops V (Proc.devRef .tc main_v271) = after ops15 (pre14 V) (Proc.devRef .tc main_v271) := by
  rw [after_ops, ops26_keep _ _ (by decide), ops25_keep _ _ (by decide), ops24_keep _ _ (by decide), ops23_keep _ _ (by decide), ops22_keep _ _ (by decide), ops21_keep _ _ (by decide), ops20_keep _ _ (by decide), ops19_keep _ _ (by decide), ops18_keep _ _ (by decide), ops17_keep _ _ (by decide), ops16_keep _ _ (by decide)]

theorem after_ops_v329' (V : Valuation τ sig (Elt F)) :
    after ops V (Proc.devRef .tc main_v329) = after ops18 (after ops17 (after ops16 (after ops15 (pre14 V)))) (Proc.devRef .tc main_v329) := by
  rw [after_ops, ops26_keep _ _ (by decide), ops25_keep _ _ (by decide), ops24_keep _ _ (by decide), ops23_keep _ _ (by decide), ops22_keep _ _ (by decide), ops21_keep _ _ (by decide), ops20_keep _ _ (by decide), ops19_keep _ _ (by decide)]

theorem arg3_14 (V : Valuation τ sig (Elt F)) : pre14 V (Proc.devRef .tc main_arg3) = V (Proc.devRef .tc main_arg3) := by
  rw [pre14, ops14_keep _ _ (by decide), ops13_keep _ _ (by decide), ops12_keep _ _ (by decide), ops11_keep _ _ (by decide), ops10_keep _ _ (by decide), ops09_keep _ _ (by decide), ops08_keep _ _ (by decide), ops07_keep _ _ (by decide), ops06_keep _ _ (by decide), ops05_keep _ _ (by decide), ops04_keep _ _ (by decide), ops03_keep _ _ (by decide), ops02_keep _ _ (by decide), ops01_keep _ _ (by decide), ops00_keep _ _ (by decide)]

theorem arg3_15 (V : Valuation τ sig (Elt F)) : after ops15 (pre14 V) (Proc.devRef .tc main_arg3) = V (Proc.devRef .tc main_arg3) :=
  (ops15_keep _ _ (by decide)).trans (arg3_14 V)

end Reference

end Cert.Bridge.Rep
-- ==== Proof.BridgeRepCore.lean ====
import proofs.«131905_j73031623901536_2_alg».proof.Proof.BridgeRepK
import proofs.«131905_j73031623901536_2_alg».proof.Proof.BridgeRepR
import proofs.«131905_j73031623901536_2_alg».proof.Proof.BridgeFused

noncomputable section
namespace Cert.Bridge.Rep

open Idealize.ShloMosaic Idealize.ShloMosaic.TcCoe Idealize.ShloMosaic.StableHlo Idealize.SL.Sem

theorem rep_core
    (V30 : Valuation Cert.KernelIdeal.τ Cert.KernelIdeal.sig (Elt Ideal))
    (mR : (ℓ : Loc Cert.ReferenceIdeal.nD Cert.ReferenceIdeal.τ Cert.ReferenceIdeal.sig) → Buf (Elt Ideal) ℓ) (c : Dev Cert.ReferenceIdeal.nD)
    (hC : V30 (Proc.devRef .tc Cert.KernelIdeal.main_v174_1)
      = after Cert.ReferenceIdeal.Hand.ops (launchContents mR c) (Proc.devRef .tc Cert.ReferenceIdeal.main_v271))
    (hB : V30 (Proc.devRef .tc Cert.KernelIdeal.main_v81_1)
      = after Cert.ReferenceIdeal.Hand.ops (launchContents mR c) (Proc.devRef .tc Cert.ReferenceIdeal.main_v143))
    (hA : V30 (Proc.devRef .tc Cert.KernelIdeal.main_arg3) = launchContents mR c (Proc.devRef .tc Cert.ReferenceIdeal.main_arg3)) :
    after Cert.KernelIdeal.Gen.hostOps9_4 (after Cert.KernelIdeal.Gen.hostOps9_3 (after Cert.KernelIdeal.Gen.hostOps9_2 (after Cert.KernelIdeal.Gen.hostOps9_1 (after Cert.KernelIdeal.Gen.hostOps9 V30)))) (Proc.devRef .tc Cert.KernelIdeal.main_v205)
        = after Cert.ReferenceIdeal.Hand.ops (launchContents mR c) (Proc.devRef .tc Cert.ReferenceIdeal.main_v300)
      ∧ after Cert.KernelIdeal.Gen.hostOps9_4 (after Cert.KernelIdeal.Gen.hostOps9_3 (after Cert.KernelIdeal.Gen.hostOps9_2 (after Cert.KernelIdeal.Gen.hostOps9_1 (after Cert.KernelIdeal.Gen.hostOps9 V30)))) (Proc.devRef .tc Cert.KernelIdeal.main_v206)
        = after Cert.ReferenceIdeal.Hand.ops (launchContents mR c) (Proc.devRef .tc Cert.ReferenceIdeal.main_v329) := by
  constructor
  · rw [k_v205, k_v176, k_v178, k_v179, k_v191, hC, hB, hA, Fused.fused_left, after_ops_v300, ref_h, ← after_ops_v271', arg3_14]
  · rw [k_v206, k_v176, k_v178, k_v179, k_v191, hC, hB, hA, Fused.fused_right, after_ops_v329', ref_l, ← after_ops_v143', arg3_15]

end Cert.Bridge.Rep
-- ==== Proof.BridgeRep.lean ====
import proofs.«131905_j73031623901536_2_alg».proof.Proof.KILevels
import proofs.«131905_j73031623901536_2_alg».proof.Proof.KIKeeps
import proofs.«131905_j73031623901536_2_alg».proof.Proof.BridgeRepCore

noncomputable section
namespace Cert.Bridge

open Idealize.ShloMosaic Idealize.ShloMosaic.TcCoe Idealize.ShloMosaic.StableHlo Idealize.SL.Sem

theorem rep_bridge_kept
    (mK : (ℓ : Loc Cert.KernelIdeal.nD Cert.KernelIdeal.τ Cert.KernelIdeal.sig) → Buf (Elt Ideal) ℓ)
    (mR : (ℓ : Loc Cert.ReferenceIdeal.nD Cert.ReferenceIdeal.τ Cert.ReferenceIdeal.sig) → Buf (Elt Ideal) ℓ) (c : Dev Cert.KernelIdeal.nD)
    (harg3 : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3))
    (hC : Cert.KernelIdeal.Hand.W30 mK c (Proc.devRef .tc Cert.KernelIdeal.main_v174_1)
      = after Cert.ReferenceIdeal.Hand.ops (launchContents mR c) (Proc.devRef .tc Cert.ReferenceIdeal.main_v271))
    (hB : Cert.KernelIdeal.Hand.W14 mK c (Proc.devRef .tc Cert.KernelIdeal.main_v81_1)
      = after Cert.ReferenceIdeal.Hand.ops (launchContents mR c) (Proc.devRef .tc Cert.ReferenceIdeal.main_v143)) :
    Cert.KernelIdeal.Hand.W39 mK c (Proc.devRef .tc Cert.KernelIdeal.main_v205)
        = after Cert.ReferenceIdeal.Hand.ops (launchContents mR c) (Proc.devRef .tc Cert.ReferenceIdeal.main_v300)
      ∧ Cert.KernelIdeal.Hand.W39 mK c (Proc.devRef .tc Cert.KernelIdeal.main_v206)
        = after Cert.ReferenceIdeal.Hand.ops (launchContents mR c) (Proc.devRef .tc Cert.ReferenceIdeal.main_v329) := by
  have core := Rep.rep_core (Cert.KernelIdeal.Hand.W30 mK c) mR c hC ((Cert.KernelIdeal.Hand.keep_main_v81_1_14_30 mK c).trans hB) ((Cert.KernelIdeal.Hand.keep_main_arg3_0_30 mK c).trans harg3.symm)
  rw [Cert.KernelIdeal.Hand.keep_main_v205_35_39, Cert.KernelIdeal.Hand.keep_main_v206_35_39, Cert.KernelIdeal.Hand.W35_def, Cert.KernelIdeal.Hand.W34_def,
    Cert.KernelIdeal.Hand.W33_def, Cert.KernelIdeal.Hand.W32_def, Cert.KernelIdeal.Hand.W31_def]
  exact core

end Cert.Bridge
-- ==== Proof.KIMatValue9.lean ====
import proofs.«131905_j73031623901536_2_alg».proof.Proof.KIRegion9
import proofs.«131905_j73031623901536_2_alg».proof.Proof.KIMatBlock
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

-- Grid point t contributes rows 1000 t … 1000 t + 999 of the product, and these row blocks tile the rows.
theorem matmul_array9 (c : Dev nD) :
    (dat9 V c).arrAt 2 cfg9.N = rowsTimes (V c main_v206 : S30000x128.Idx → EReal) (V c main_v244 : S128x128.Idx → EReal) := by
  refine (dat9 V c).arrAt_eq_of_cover 2 _ (fun t _ => ?_)
    (cover_of_ranges win9_2 flush9_2 (fun i => ⟨i, rfl⟩) (rowTiles N_9 rfl win9_2.index rowIdx30 fun _ => rfl))
  show (cfg9.win 2).cut (grid9.coords t) ((dat9 V c).after 2 t) = _
  rw [after9_2]
  unfold out9_2
  funext y
  refine stored_eq_rowsTimes _ _ k9_pay1 (fun x0 x1 p q => ?_) (iblk9 V c 0 t) (iblk9 V c 1 t) _ _
    ((cfg9.win 2).blk t).view.emb (fun y k => ?_) (fun y k => ?_) y
  · unfold k9_pay1
    simp only [shapeCast_self]
    exact blockProduct_apply _ _ p q
  · show (V c main_v206 : S30000x128.Idx → EReal) (((cfg9.win 0).blk t).view.emb (ix2 (y 0) k)) = _
    exact congrArg _ (Shape.idx_ext₂ rfl (win9_0.rect_emb_val_of_index_zero t (1 : Fin 2) rfl _))
  · show (V c main_v244 : S128x128.Idx → EReal) (((cfg9.win 1).blk t).view.emb (ix2 k (y 1))) = _
    exact congrArg _ (Shape.idx_ext₂ (win9_1.rect_emb_val_of_index_zero t (0 : Fin 2) rfl _) rfl)

end Cert.KernelIdeal.Hand

end
-- ==== Proof.KIMatValue11.lean ====
import proofs.«131905_j73031623901536_2_alg».proof.Proof.KIRegion11
import proofs.«131905_j73031623901536_2_alg».proof.Proof.KIMatBlock
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

-- Grid point t contributes rows 1000 t … 1000 t + 999 of the product, and these row blocks tile the rows.
theorem matmul_array11 (c : Dev nD) :
    (dat11 V c).arrAt 2 cfg11.N = rowsTimes (V c main_v262_0 : S30000x128.Idx → EReal) (V c main_v264 : S128x128.Idx → EReal) := by
  refine (dat11 V c).arrAt_eq_of_cover 2 _ (fun t _ => ?_)
    (cover_of_ranges win11_2 flush11_2 (fun i => ⟨i, rfl⟩) (rowTiles N_11 rfl win11_2.index rowIdx30 fun _ => rfl))
  show (cfg11.win 2).cut (grid11.coords t) ((dat11 V c).after 2 t) = _
  rw [after11_2]
  unfold out11_2
  funext y
  refine stored_eq_rowsTimes _ _ k11_pay1 (fun x0 x1 p q => ?_) (iblk11 V c 0 t) (iblk11 V c 1 t) _ _
    ((cfg11.win 2).blk t).view.emb (fun y k => ?_) (fun y k => ?_) y
  · unfold k11_pay1
    simp only [shapeCast_self]
    exact blockProduct_apply _ _ p q
  · show (V c main_v262_0 : S30000x128.Idx → EReal) (((cfg11.win 0).blk t).view.emb (ix2 (y 0) k)) = _
    exact congrArg _ (Shape.idx_ext₂ rfl (win11_0.rect_emb_val_of_index_zero t (1 : Fin 2) rfl _))
  · show (V c main_v264 : S128x128.Idx → EReal) (((cfg11.win 1).blk t).view.emb (ix2 k (y 1))) = _
    exact congrArg _ (Shape.idx_ext₂ (win11_1.rect_emb_val_of_index_zero t (0 : Fin 2) rfl _) rfl)

end Cert.KernelIdeal.Hand

end
-- ==== Proof.KICombValue10.lean ====
import proofs.«131905_j73031623901536_2_alg».proof.Proof.KIRegion10
import proofs.«131905_j73031623901536_2_alg».proof.Proof.KICombPoint
import Idealize.ShloMosaic.Lib.Pipeline.Value
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem pay10_1_at (x0 : Vec Ideal S1000x128 .f32) (x1 : Vec Ideal S1x128 .f32) (x2 : Vec Ideal S1000x128 .f32)
    (j : S1000x128.Idx) : k10_pay1 x0 x1 x2 j = newX (x0 j) (x1 (ix2 0 (j 1))) (x2 j) := by
  unfold k10_pay1 newX
  simp only [shapeCast_self]
  rw [← bias_row_at broadcasts_S1x128_S1000x128 x1 j]
  rfl

theorem pay10_2_at (x0 : Vec Ideal S1000x128 .f32) (x1 : Vec Ideal S1x128 .f32) (x2 x3 : Vec Ideal S1000x128 .f32)
    (j : S1000x128.Idx) :
    k10_pay2 x0 x1 x2 x3 j = newR (x0 j) (x1 (ix2 0 (j 1))) (x2 j) (x3 j) (Ideal.ofBits .f32 0x3F000000#32) := by
  unfold k10_pay2 newR
  try simp only [shapeCast_self]
  rw [← pay10_1_at x0 x1 x2 j]
  rfl

variable (V : (c : Dev nD) → (b : Ref sig .tc) → Buf (Elt Ideal) ((c : Thread nD τ).loc b))

-- The bias row's one block is the row itself, and an entry's lane in the array is its lane in the block.
theorem bias10 (c : Dev nD) (t : Fin cfg10.N) (y : S1000x128.Idx) :
    iblk10 V c 1 t (ix2 0 (y 1)) = V c main_v261 (ix2 0 (((cfg10.win 5).blk t).view.emb y 1)) :=
  show V c main_v261 (((cfg10.win 1).blk t).view.emb (ix2 0 (y 1))) = _ from
    congrArg _ (Shape.idx_ext₂ (win10_1.rect_emb_val_of_index_zero t (0 : Fin 2) rfl _) rfl)

theorem final10_4 (c : Dev nD) :
    (dat10 V c).arrAt 4 cfg10.N = layerOut (V c main_v258) (V c main_v261) (V c main_v206) := by
  refine (dat10 V c).arrAt_eq_of_cover 4 _ (fun t _ => ?_)
    (cover_of_ranges win10_4 flush10_4 (fun i => ⟨i, rfl⟩) (rowTiles N_10 rfl win10_4.index rowIdx30 fun _ => rfl))
  show (cfg10.win 4).cut (grid10.coords t) ((dat10 V c).after 4 t) = _
  rw [after10_4]
  unfold out10_4
  funext y
  exact stored_eq_layerOut _ _ _ k10_pay1 pay10_1_at (iblk10 V c 0 t) (iblk10 V c 1 t) (iblk10 V c 2 t) _ _
    ((cfg10.win 4).blk t).view.emb (fun _ => rfl) (bias10 V c t) (fun _ => rfl) y

theorem final10_5 (c : Dev nD) :
    (dat10 V c).arrAt 5 cfg10.N
      = layerRes (Ideal.ofBits .f32 0x3F000000#32) (V c main_v258) (V c main_v261) (V c main_v206) (V c main_v206) := by
  refine (dat10 V c).arrAt_eq_of_cover 5 _ (fun t _ => ?_)
    (cover_of_ranges win10_5 flush10_5 (fun i => ⟨i, rfl⟩) (rowTiles N_10 rfl win10_5.index rowIdx30 fun _ => rfl))
  show (cfg10.win 5).cut (grid10.coords t) ((dat10 V c).after 5 t) = _
  rw [after10_5]
  unfold out10_5
  funext y
  exact stored_eq_layerRes _ _ _ _ _ k10_pay2 pay10_2_at (iblk10 V c 0 t) (iblk10 V c 1 t) (iblk10 V c 2 t)
    (iblk10 V c 3 t) _ _ ((cfg10.win 5).blk t).view.emb (fun _ => rfl) (bias10 V c t) (fun _ => rfl) (fun _ => rfl) y

end Cert.KernelIdeal.Hand

end
-- ==== Proof.KICombValue12.lean ====
import proofs.«131905_j73031623901536_2_alg».proof.Proof.KIRegion12
import proofs.«131905_j73031623901536_2_alg».proof.Proof.KICombPoint
import Idealize.ShloMosaic.Lib.Pipeline.Value
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem pay12_1_at (x0 : Vec Ideal S1000x128 .f32) (x1 : Vec Ideal S1x128 .f32) (x2 : Vec Ideal S1000x128 .f32)
    (j : S1000x128.Idx) : k12_pay1 x0 x1 x2 j = newX (x0 j) (x1 (ix2 0 (j 1))) (x2 j) := by
  unfold k12_pay1 newX
  simp only [shapeCast_self]
  rw [← bias_row_at broadcasts_S1x128_S1000x128 x1 j]
  rfl

theorem pay12_2_at (x0 : Vec Ideal S1000x128 .f32) (x1 : Vec Ideal S1x128 .f32) (x2 x3 : Vec Ideal S1000x128 .f32)
    (j : S1000x128.Idx) :
    k12_pay2 x0 x1 x2 x3 j = newR (x0 j) (x1 (ix2 0 (j 1))) (x2 j) (x3 j) (Ideal.ofBits .f32 0x3EAAAAAB#32) := by
  unfold k12_pay2 newR
  try simp only [shapeCast_self]
  rw [← pay12_1_at x0 x1 x2 j]
  rfl

variable (V : (c : Dev nD) → (b : Ref sig .tc) → Buf (Elt Ideal) ((c : Thread nD τ).loc b))

-- The bias row's one block is the row itself, and an entry's lane in the array is its lane in the block.
theorem bias12 (c : Dev nD) (t : Fin cfg12.N) (y : S1000x128.Idx) :
    iblk12 V c 1 t (ix2 0 (y 1)) = V c main_v281 (ix2 0 (((cfg12.win 5).blk t).view.emb y 1)) :=
  show V c main_v281 (((cfg12.win 1).blk t).view.emb (ix2 0 (y 1))) = _ from
    congrArg _ (Shape.idx_ext₂ (win12_1.rect_emb_val_of_index_zero t (0 : Fin 2) rfl _) rfl)

theorem final12_5 (c : Dev nD) :
    (dat12 V c).arrAt 5 cfg12.N
      = layerRes (Ideal.ofBits .f32 0x3EAAAAAB#32) (V c main_v278) (V c main_v281) (V c main_v262_0) (V c main_v262_1) := by
  refine (dat12 V c).arrAt_eq_of_cover 5 _ (fun t _ => ?_)
    (cover_of_ranges win12_5 flush12_5 (fun i => ⟨i, rfl⟩) (rowTiles N_12 rfl win12_5.index rowIdx30 fun _ => rfl))
  show (cfg12.win 5).cut (grid12.coords t) ((dat12 V c).after 5 t) = _
  rw [after12_5]
  unfold out12_5
  funext y
  exact stored_eq_layerRes _ _ _ _ _ k12_pay2 pay12_2_at (iblk12 V c 0 t) (iblk12 V c 1 t) (iblk12 V c 2 t)
    (iblk12 V c 3 t) _ _ ((cfg12.win 5).blk t).view.emb (fun _ => rfl) (bias12 V c t) (fun _ => rfl) (fun _ => rfl) y

end Cert.KernelIdeal.Hand

end
-- ==== Proof.RefRunReads.lean ====
import proofs.«131905_j73031623901536_2_alg».proof.Proof.RefRun

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- A buffer written in one chunk is left as it is by every later chunk. -/
theorem after_ops_v329 (V : Valuation τ sig (Elt F)) :
    after ops V (Proc.devRef .tc main_v329) = after ops18 (after ops17 (after ops16 (after ops15 (after ops14 (after ops13 (after ops12 (after ops11 (after ops10 (after ops09 (after ops08 (after ops07 (after ops06 (after ops05 (after ops04 (after ops03 (after ops02 (after ops01 (after ops00 (V))))))))))))))))))) (Proc.devRef .tc main_v329) := by
  rw [after_ops, ops26_keep _ _ (by decide), ops25_keep _ _ (by decide), ops24_keep _ _ (by decide), ops23_keep _ _ (by decide), ops22_keep _ _ (by decide), ops21_keep _ _ (by decide), ops20_keep _ _ (by decide), ops19_keep _ _ (by decide)]

theorem after_ops_v449 (V : Valuation τ sig (Elt F)) :
    after ops V (Proc.devRef .tc main_v449) = after ops26 (after ops25 (after ops24 (after ops23 (after ops22 (after ops21 (after ops20 (after ops19 (after ops18 (after ops17 (after ops16 (after ops15 (after ops14 (after ops13 (after ops12 (after ops11 (after ops10 (after ops09 (after ops08 (after ops07 (after ops06 (after ops05 (after ops04 (after ops03 (after ops02 (after ops01 (after ops00 (V))))))))))))))))))))))))))) (Proc.devRef .tc main_v449) :=
  congrFun (after_ops V) _

end Cert.ReferenceIdeal.Hand

end
-- ==== Proof.BridgeAgraphPure.lean ====
import proofs.«131905_j73031623901536_2_alg».proof.Proof.Gen.KernelIdeal
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F]

def agWrapM (mask : IVec S630000 1) (idx : IVec S630000 32) : IVec S630000x1 32 :=
  broadcastInDim S630000x1 ![0] bcast_S630000_S630000x1_0
    (select mask (addi idx (broadcastInDim S630000 ![] bcast_S_S630000 (constantI S_ 32 30000#32))) idx)

def agWrap (idx : IVec S630000 32) : IVec S630000x1 32 :=
  agWrapM (cmpi .slt idx (broadcastInDim S630000 ![] bcast_S_S630000 (constantI S_ 32 0#32))) idx

def agEnd0 (a4 : IVec S2x600000 32) : IVec S600000 32 :=
  shapeCast S600000 (extractStridedSlice S1x600000 ![0, 0] a4 slices_S2x600000_S1x600000_0_0) shapeCasts_S1x600000_S600000
def agEnd1 (a4 : IVec S2x600000 32) : IVec S600000 32 :=
  shapeCast S600000 (extractStridedSlice S1x600000 ![1, 0] a4 slices_S2x600000_S1x600000_1_0) shapeCasts_S1x600000_S600000

def agLoops (e : IVec S600000 32) (nodes : IVec S30000 32) : IVec S630000 32 :=
  concatenate S630000 0 [⟨S600000, e⟩, ⟨S30000, nodes⟩] concatenates_S600000_S30000_S630000_d0

def agRow2 (a4 : IVec S2x600000 32) : IVec S630000 32 := agLoops (agEnd0 a4) (iotaInDim S30000 32 0)

def agCol2 (a4 : IVec S2x600000 32) : IVec S630000 32 := agLoops (agEnd1 a4) (iotaInDim S30000 32 0)

def agEwOf (a5 : FVec F S600000 .f32) (ones : FVec F S30000 .f32) : FVec F S630000 .f32 :=
  concatenate S630000 0 [⟨S600000, a5⟩, ⟨S30000, ones⟩] concatenates_S600000_S30000_S630000_d0

def agEw2 (a5 : FVec F S600000 .f32) : FVec F S630000 .f32 :=
  agEwOf a5 (broadcastInDim S30000 ![] bcast_S_S30000 (constant S_ .f32 0x3F800000#32))

def agDeg (col2 : IVec S630000 32) (ew2 : FVec F S630000 .f32) : FVec F S30000 .f32 :=
  Host.scatterAdd scatter_S30000_S630000x1_S630000_n_0_0_1
    (broadcastInDim S30000 ![] bcast_S_S30000 (constant S_ .f32 0x00000000#32))
    (broadcastInDim S630000x1 ![0] bcast_S630000_S630000x1_0 col2) ew2

def agPos (deg : FVec F S30000 .f32) : IVec S30000 1 :=
  cmpf .ogt deg (broadcastInDim S30000 ![] bcast_S_S30000 (constant S_ .f32 0x00000000#32))

def agDis (pos1 pos2 : IVec S30000 1) (deg : FVec F S30000 .f32) (one zero : FVec F S_ .f32) : FVec F S30000 .f32 :=
  select pos1
    (Host.powf (select pos2 deg (broadcastInDim S30000 ![] bcast_S_S30000 one))
      (broadcastInDim S30000 ![] bcast_S_S30000 (constant S_ .f32 0xBF000000#32)))
    (broadcastInDim S30000 ![] bcast_S_S30000 zero)

def agAt (dis : FVec F S30000 .f32) (idx : IVec S630000x1 32) : FVec F S630000 .f32 :=
  Host.gather gather_S30000_S630000x1_S630000_n_0_n_n_0_1_1 dis idx

def agNormOf (dis : FVec F S30000 .f32) (row2 col2 : IVec S630000 32) (ew2 : FVec F S630000 .f32) : FVec F S630000 .f32 :=
  mulf (mulf (agAt dis (agWrap row2)) ew2) (agAt dis (agWrap col2))

def agRoot (col2 : IVec S630000 32) (ew2 : FVec F S630000 .f32) : FVec F S30000 .f32 :=
  agDis (agPos (agDeg col2 ew2)) (agPos (agDeg col2 ew2)) (agDeg col2 ew2) (constant S_ .f32 0x3F800000#32) (constant S_ .f32 0x00000000#32)

def agNorm (a4 : IVec S2x600000 32) (a5 : FVec F S600000 .f32) : FVec F S630000 .f32 :=
  agNormOf (agRoot (agCol2 a4) (agEw2 a5)) (agRow2 a4) (agCol2 a4) (agEw2 a5)

def agAggM (xw : FVec F S30000x128 .f32) (norm : FVec F S630000 .f32) (mask : IVec S630000 1) (row2 col2 : IVec S630000 32) :
    FVec F S30000x128 .f32 :=
  Host.scatterAdd scatter_S30000x128_S630000x1_S630000x128_1_0_0_1
    (broadcastInDim S30000x128 ![] bcast_S_S30000x128 (constant S_ .f32 0x00000000#32))
    (broadcastInDim S630000x1 ![0] bcast_S630000_S630000x1_0 col2)
    (mulf (Host.gather gather_S30000x128_S630000x1_S630000x128_1_0_n_n_0_1_1128 xw (agWrapM mask row2))
      (broadcastInDim S630000x128 ![0, 1] bcast_S630000x1_S630000x128_0_1
        (broadcastInDim S630000x1 ![0] bcast_S630000_S630000x1_0 norm)))

def agAgg (xw : FVec F S30000x128 .f32) (norm : FVec F S630000 .f32) (row2 col2 : IVec S630000 32) : FVec F S30000x128 .f32 :=
  agAggM xw norm (cmpi .slt row2 (broadcastInDim S630000 ![] bcast_S_S630000 (constantI S_ 32 0#32))) row2 col2

def agW0 (a13 : FVec F S2x128x128 .f32) : FVec F S128x128 .f32 :=
  shapeCast S128x128 (extractStridedSlice S1x128x128 ![0, 0, 0] a13 slices_S2x128x128_S1x128x128_0_0_0) shapeCasts_S1x128x128_S128x128
def agW1 (a13 : FVec F S2x128x128 .f32) : FVec F S128x128 .f32 :=
  shapeCast S128x128 (extractStridedSlice S1x128x128 ![1, 0, 0] a13 slices_S2x128x128_S1x128x128_1_0_0) shapeCasts_S1x128x128_S128x128
def agB0 (a14 : FVec F S2x128 .f32) : FVec F S128 .f32 :=
  shapeCast S128 (extractStridedSlice S1x128 ![0, 0] a14 slices_S2x128_S1x128_0_0) shapeCasts_S1x128_S128
def agB1 (a14 : FVec F S2x128 .f32) : FVec F S128 .f32 :=
  shapeCast S128 (extractStridedSlice S1x128 ![1, 0] a14 slices_S2x128_S1x128_1_0) shapeCasts_S1x128_S128

def agBiasK (b : FVec F S128 .f32) : FVec F S1x128 .f32 := shapeCast S1x128 b shapeCasts_S128_S1x128

macro "ag_results" : tactic =>
  `(tactic| (after_results_simp
             repeat (first
               | rw [nullary_result] | rw [unary_result] | rw [binary_result] | rw [ternary_result] | rw [quaternary_result]
               | rw [reshape_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Cert.Bridge

end
-- ==== Proof.BridgeAgraphK.lean ====
import proofs.«131905_j73031623901536_2_alg».proof.Proof.Gen.KernelIdeal.Launch
import proofs.«131905_j73031623901536_2_alg».proof.Proof.Gen.KernelIdeal
import proofs.«131905_j73031623901536_2_alg».proof.Proof.BridgeAgraphPure
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F]
variable (V : Valuation τ sig (Elt F))

set_option maxRecDepth 8192 in
theorem kAgg1 :
    StableHlo.after (hostOps10 (F := F)) V (Proc.devRef .tc main_v258)
      = agAgg (V (Proc.devRef .tc main_v245)) (V (Proc.devRef .tc main_v242)) (V (Proc.devRef .tc main_v212)) (V (Proc.devRef .tc main_v213)) := by
  after_results_simp
  rfl

set_option maxRecDepth 8192 in
theorem kBias0 :
    StableHlo.after (hostOps10 (F := F)) V (Proc.devRef .tc main_v261) = agBiasK (agB0 (V (Proc.devRef .tc main_arg14))) := by
  after_results_simp
  rfl

set_option maxRecDepth 8192 in
theorem kKeep10_206 :
    StableHlo.after (hostOps10 (F := F)) V (Proc.devRef .tc main_v206) = V (Proc.devRef .tc main_v206) := by
  after_results_simp

set_option maxRecDepth 8192 in
theorem kW1 :
    StableHlo.after (hostOps11 (F := F)) V (Proc.devRef .tc main_v264) = agW1 (V (Proc.devRef .tc main_arg13)) := by
  after_results_simp
  rfl

set_option maxRecDepth 8192 in
theorem kAgg2 :
    StableHlo.after (hostOps12 (F := F)) V (Proc.devRef .tc main_v278)
      = agAgg (V (Proc.devRef .tc main_v265)) (V (Proc.devRef .tc main_v242)) (V (Proc.devRef .tc main_v212)) (V (Proc.devRef .tc main_v213)) := by
  after_results_simp
  rfl

set_option maxRecDepth 8192 in
theorem kBias1 :
    StableHlo.after (hostOps12 (F := F)) V (Proc.devRef .tc main_v281) = agBiasK (agB1 (V (Proc.devRef .tc main_arg14))) := by
  after_results_simp
  rfl

set_option maxRecDepth 8192 in
theorem kPre4_212 :
    StableHlo.after (hostOps9_4 (F := F)) V (Proc.devRef .tc main_v212) = agRow2 (V (Proc.devRef .tc main_arg4)) := by
  ag_results
  rfl

set_option maxRecDepth 8192 in
theorem kPre4_213 :
    StableHlo.after (hostOps9_4 (F := F)) V (Proc.devRef .tc main_v213) = agCol2 (V (Proc.devRef .tc main_arg4)) := by
  ag_results
  rfl

set_option maxRecDepth 8192 in
theorem kPre4_215 :
    StableHlo.after (hostOps9_4 (F := F)) V (Proc.devRef .tc main_v215) = agEw2 (V (Proc.devRef .tc main_arg5)) := by
  ag_results
  rfl

set_option maxRecDepth 8192 in
theorem kPre4_218 :
    StableHlo.after (hostOps9_4 (F := F)) V (Proc.devRef .tc main_v218)
      = agDeg (StableHlo.after (hostOps9_4 (F := F)) V (Proc.devRef .tc main_v213)) (StableHlo.after (hostOps9_4 (F := F)) V (Proc.devRef .tc main_v215)) := by
  after_results_simp
  rfl

set_option maxRecDepth 8192 in
theorem kPre4_220 :
    StableHlo.after (hostOps9_4 (F := F)) V (Proc.devRef .tc main_v220)
      = agPos (StableHlo.after (hostOps9_4 (F := F)) V (Proc.devRef .tc main_v218)) := by
  after_results_simp
  rfl

set_option maxRecDepth 8192 in
theorem kPre4_222 :
    StableHlo.after (hostOps9_4 (F := F)) V (Proc.devRef .tc main_v222)
      = agPos (StableHlo.after (hostOps9_4 (F := F)) V (Proc.devRef .tc main_v218)) := by
  after_results_simp
  rfl

set_option maxRecDepth 8192 in
theorem kPre4_cst55 :
    StableHlo.after (hostOps9_4 (F := F)) V (Proc.devRef .tc main_cst_55) = constant S_ .f32 0x3F800000#32 := by
  after_results_simp

set_option maxRecDepth 8192 in
theorem kPre4_arg13 :
    StableHlo.after (hostOps9_4 (F := F)) V (Proc.devRef .tc main_arg13) = V (Proc.devRef .tc main_arg13) := by
  after_results_simp

set_option maxRecDepth 8192 in
theorem kTail_242 :
    StableHlo.after (hostOps9_8 (F := F)) (StableHlo.after hostOps9_7 (StableHlo.after hostOps9_6 (StableHlo.after hostOps9_5 V))) (Proc.devRef .tc main_v242)
      = agNormOf
          (agDis (V (Proc.devRef .tc main_v220)) (V (Proc.devRef .tc main_v222)) (V (Proc.devRef .tc main_v218))
            (V (Proc.devRef .tc main_cst_55)) (constant S_ .f32 0x00000000#32))
          (V (Proc.devRef .tc main_v212)) (V (Proc.devRef .tc main_v213)) (V (Proc.devRef .tc main_v215)) := by
  after_results_simp
  rfl

set_option maxRecDepth 8192 in
theorem kTail_212 :
    StableHlo.after (hostOps9_8 (F := F)) (StableHlo.after hostOps9_7 (StableHlo.after hostOps9_6 (StableHlo.after hostOps9_5 V))) (Proc.devRef .tc main_v212)
      = V (Proc.devRef .tc main_v212) := by
  after_results_simp

set_option maxRecDepth 8192 in
theorem kTail_213 :
    StableHlo.after (hostOps9_8 (F := F)) (StableHlo.after hostOps9_7 (StableHlo.after hostOps9_6 (StableHlo.after hostOps9_5 V))) (Proc.devRef .tc main_v213)
      = V (Proc.devRef .tc main_v213) := by
  after_results_simp

set_option maxRecDepth 8192 in
theorem kTail_244 :
    StableHlo.after (hostOps9_8 (F := F)) (StableHlo.after hostOps9_7 (StableHlo.after hostOps9_6 (StableHlo.after hostOps9_5 V))) (Proc.devRef .tc main_v244)
      = agW0 (V (Proc.devRef .tc main_arg13)) := by
  after_results_simp
  rfl

theorem kPre_242 :
    StableHlo.after (hostOps9_8 (F := F)) (StableHlo.after hostOps9_7 (StableHlo.after hostOps9_6 (StableHlo.after hostOps9_5 (StableHlo.after hostOps9_4 V)))) (Proc.devRef .tc main_v242)
      = agNorm (V (Proc.devRef .tc main_arg4)) (V (Proc.devRef .tc main_arg5)) := by
  rw [kTail_242, kPre4_220, kPre4_222, kPre4_218, kPre4_212, kPre4_213, kPre4_215, kPre4_cst55]
  rfl

theorem kPre_212 :
    StableHlo.after (hostOps9_8 (F := F)) (StableHlo.after hostOps9_7 (StableHlo.after hostOps9_6 (StableHlo.after hostOps9_5 (StableHlo.after hostOps9_4 V)))) (Proc.devRef .tc main_v212)
      = agRow2 (V (Proc.devRef .tc main_arg4)) := by
  rw [kTail_212, kPre4_212]

theorem kPre_213 :
    StableHlo.after (hostOps9_8 (F := F)) (StableHlo.after hostOps9_7 (StableHlo.after hostOps9_6 (StableHlo.after hostOps9_5 (StableHlo.after hostOps9_4 V)))) (Proc.devRef .tc main_v213)
      = agCol2 (V (Proc.devRef .tc main_arg4)) := by
  rw [kTail_213, kPre4_213]

theorem kPre_244 :
    StableHlo.after (hostOps9_8 (F := F)) (StableHlo.after hostOps9_7 (StableHlo.after hostOps9_6 (StableHlo.after hostOps9_5 (StableHlo.after hostOps9_4 V)))) (Proc.devRef .tc main_v244)
      = agW0 (V (Proc.devRef .tc main_arg13)) := by
  rw [kTail_244, kPre4_arg13]

end Cert.Bridge

end
-- ==== Proof.BridgeAgraphR.lean ====
import proofs.«131905_j73031623901536_2_alg».proof.Proof.RefRun
import proofs.«131905_j73031623901536_2_alg».proof.Proof.BridgeAgraphPure
import Idealize.ShloMosaic.Lib.StableHlo.Run

noncomputable section

namespace Cert.Bridge

open Idealize.ShloMosaic Idealize.ShloMosaic.TcCoe Idealize.SL.Sem Idealize.ShloMosaic.StableHlo
open Cert.ReferenceIdeal Cert.ReferenceIdeal.Gen Cert.ReferenceIdeal.Hand

variable {F : FTy → Type} [FloatOps F]
variable (V : Valuation τ sig (Elt F))

def agBiasR (b : FVec F S128 .f32) : FVec F S1x128 .f32 := broadcastInDim S1x128 ![1] bcast_S128_S1x128_1 b

def agRefX (agg : FVec F S30000x128 .f32) (biasRow : FVec F S1x128 .f32) (x : FVec F S30000x128 .f32) : FVec F S30000x128 .f32 :=
  addf
    (select
      (cmpf .oge (addf agg (broadcastInDim S30000x128 ![0, 1] bcast_S1x128_S30000x128_0_1 biasRow))
        (broadcastInDim S30000x128 ![] bcast_S_S30000x128 (constant S_ .f32 0x00000000#32)))
      (addf agg (broadcastInDim S30000x128 ![0, 1] bcast_S1x128_S30000x128_0_1 biasRow))
      (mulf (broadcastInDim S30000x128 ![] bcast_S_S30000x128 (constant S_ .f32 0x3C23D70A#32))
        (addf agg (broadcastInDim S30000x128 ![0, 1] bcast_S1x128_S30000x128_0_1 biasRow))))
    x

def agRefR (sbits : BitVec 32) (xnew r : FVec F S30000x128 .f32) : FVec F S30000x128 .f32 :=
  addf r (mulf xnew (broadcastInDim S30000x128 ![] bcast_S_S30000x128 (constant S_ .f32 sbits)))

def agDotR (x : FVec F S30000x128 .f32) (w : FVec F S128x128 .f32) : FVec F S30000x128 .f32 :=
  Host.dotGeneral dot_S30000x128_S128x128_S30000x128_1_0_0_1_n_n none x w

def agRefX1 (L : FVec F S30000x128 .f32) (a4 : IVec S2x600000 32) (a5 : FVec F S600000 .f32) (a13 : FVec F S2x128x128 .f32)
    (a14 : FVec F S2x128 .f32) : FVec F S30000x128 .f32 :=
  agRefX (agAgg (agDotR L (agW0 a13)) (agNorm a4 a5) (agRow2 a4) (agCol2 a4)) (agBiasR (agB0 a14)) L

def agRefStack (L : FVec F S30000x128 .f32) (a4 : IVec S2x600000 32) (a5 : FVec F S600000 .f32) (a13 : FVec F S2x128x128 .f32)
    (a14 : FVec F S2x128 .f32) : FVec F S30000x128 .f32 :=
  agRefR 0x3EAAAAAB#32
    (agRefX (agAgg (agDotR (agRefX1 L a4 a5 a13 a14) (agW1 a13)) (agNorm a4 a5) (agRow2 a4) (agCol2 a4)) (agBiasR (agB1 a14))
      (agRefX1 L a4 a5 a13 a14))
    (agRefR 0x3F000000#32 (agRefX1 L a4 a5 a13 a14) L)

set_option maxRecDepth 8192 in
theorem r18_331 :
    StableHlo.after (ops18 (F := F)) V (Proc.devRef .tc main_v331) = agEnd0 (V (Proc.devRef .tc main_arg4)) := by
  after_results_simp
  rfl
set_option maxRecDepth 8192 in
theorem r18_333 :
    StableHlo.after (ops18 (F := F)) V (Proc.devRef .tc main_v333) = agEnd1 (V (Proc.devRef .tc main_arg4)) := by
  after_results_simp
  rfl
set_option maxRecDepth 8192 in
theorem r18_337 :
    StableHlo.after (ops18 (F := F)) V (Proc.devRef .tc main_v337) = agB0 (V (Proc.devRef .tc main_arg14)) := by
  after_results_simp
  rfl
set_option maxRecDepth 8192 in
theorem r18_338 :
    StableHlo.after (ops18 (F := F)) V (Proc.devRef .tc main_v338)
      = agDotR (StableHlo.after (ops18 (F := F)) V (Proc.devRef .tc main_v329)) (agW0 (V (Proc.devRef .tc main_arg13))) := by
  after_results_simp
  rfl
set_option maxRecDepth 8192 in
theorem r18_339 :
    StableHlo.after (ops18 (F := F)) V (Proc.devRef .tc main_v339) = iotaInDim S30000 32 0 := by
  after_results_simp

set_option maxRecDepth 8192 in
theorem r19_340 :
    StableHlo.after (ops19 (F := F)) V (Proc.devRef .tc main_v340) = agLoops (V (Proc.devRef .tc main_v331)) (V (Proc.devRef .tc main_v339)) := by
  after_results_simp
  rfl

set_option maxRecDepth 8192 in
theorem r20_341 :
    StableHlo.after (ops20 (F := F)) V (Proc.devRef .tc main_v341) = agLoops (V (Proc.devRef .tc main_v333)) (V (Proc.devRef .tc main_v339)) := by
  after_results_simp
  rfl
set_option maxRecDepth 8192 in
theorem r20_342 :
    StableHlo.after (ops20 (F := F)) V (Proc.devRef .tc main_v342) = broadcastInDim S30000 ![] bcast_S_S30000 (constant S_ .f32 0x3F800000#32) := by
  after_results_simp

set_option maxRecDepth 8192 in
theorem r21_370 :
    StableHlo.after (ops21 (F := F)) V (Proc.devRef .tc main_v370)
      = agNormOf (agRoot (V (Proc.devRef .tc main_v341)) (agEwOf (V (Proc.devRef .tc main_arg5)) (V (Proc.devRef .tc main_v342))))
          (V (Proc.devRef .tc main_v340)) (V (Proc.devRef .tc main_v341)) (agEwOf (V (Proc.devRef .tc main_arg5)) (V (Proc.devRef .tc main_v342))) := by
  after_results_simp
  rfl
set_option maxRecDepth 8192 in
theorem r21_372 :
    StableHlo.after (ops21 (F := F)) V (Proc.devRef .tc main_v372)
      = cmpi .slt (V (Proc.devRef .tc main_v340)) (broadcastInDim S630000 ![] bcast_S_S630000 (constantI S_ 32 0#32)) := by
  after_results_simp

set_option maxRecDepth 8192 in
theorem r22_388 :
    StableHlo.after (ops22 (F := F)) V (Proc.devRef .tc main_v388)
      = agRefX (agAggM (V (Proc.devRef .tc main_v338)) (V (Proc.devRef .tc main_v370)) (V (Proc.devRef .tc main_v372)) (V (Proc.devRef .tc main_v340)) (V (Proc.devRef .tc main_v341)))
          (agBiasR (V (Proc.devRef .tc main_v337))) (V (Proc.devRef .tc main_v329)) := by
  after_results_simp
  rfl
set_option maxRecDepth 8192 in
theorem r22_391 :
    StableHlo.after (ops22 (F := F)) V (Proc.devRef .tc main_v391)
      = agRefR 0x3F000000#32 (StableHlo.after (ops22 (F := F)) V (Proc.devRef .tc main_v388)) (V (Proc.devRef .tc main_v329)) := by
  after_results_simp
  rfl
set_option maxRecDepth 8192 in
theorem r22_395 :
    StableHlo.after (ops22 (F := F)) V (Proc.devRef .tc main_v395) = agB1 (V (Proc.devRef .tc main_arg14)) := by
  after_results_simp
  rfl
set_option maxRecDepth 8192 in
theorem r22_396 :
    StableHlo.after (ops22 (F := F)) V (Proc.devRef .tc main_v396)
      = agDotR (StableHlo.after (ops22 (F := F)) V (Proc.devRef .tc main_v388)) (agW1 (V (Proc.devRef .tc main_arg13))) := by
  after_results_simp
  rfl
set_option maxRecDepth 8192 in
theorem r22_397 :
    StableHlo.after (ops22 (F := F)) V (Proc.devRef .tc main_v397) = iotaInDim S30000 32 0 := by
  after_results_simp

set_option maxRecDepth 8192 in
theorem r23_398 :
    StableHlo.after (ops23 (F := F)) V (Proc.devRef .tc main_v398) = agLoops (V (Proc.devRef .tc main_v331)) (V (Proc.devRef .tc main_v397)) := by
  after_results_simp
  rfl

set_option maxRecDepth 8192 in
theorem r24_399 :
    StableHlo.after (ops24 (F := F)) V (Proc.devRef .tc main_v399) = agLoops (V (Proc.devRef .tc main_v333)) (V (Proc.devRef .tc main_v397)) := by
  after_results_simp
  rfl
set_option maxRecDepth 8192 in
theorem r24_400 :
    StableHlo.after (ops24 (F := F)) V (Proc.devRef .tc main_v400) = broadcastInDim S30000 ![] bcast_S_S30000 (constant S_ .f32 0x3F800000#32) := by
  after_results_simp

set_option maxRecDepth 8192 in
theorem r25_412 :
    StableHlo.after (ops25 (F := F)) V (Proc.devRef .tc main_v412)
      = agRoot (V (Proc.devRef .tc main_v399)) (agEwOf (V (Proc.devRef .tc main_arg5)) (V (Proc.devRef .tc main_v400))) := by
  after_results_simp
  rfl
set_option maxRecDepth 8192 in
theorem r25_420 :
    StableHlo.after (ops25 (F := F)) V (Proc.devRef .tc main_v420)
      = mulf (agAt (StableHlo.after (ops25 (F := F)) V (Proc.devRef .tc main_v412)) (agWrap (V (Proc.devRef .tc main_v398))))
          (agEwOf (V (Proc.devRef .tc main_arg5)) (V (Proc.devRef .tc main_v400))) := by
  after_results_simp
  rfl

set_option maxRecDepth 8192 in
theorem r26_449 :
    StableHlo.after (ops26 (F := F)) V (Proc.devRef .tc main_v449)
      = agRefR 0x3EAAAAAB#32
          (agRefX
            (agAgg (V (Proc.devRef .tc main_v396)) (mulf (V (Proc.devRef .tc main_v420)) (agAt (V (Proc.devRef .tc main_v412)) (agWrap (V (Proc.devRef .tc main_v399)))))
              (V (Proc.devRef .tc main_v398)) (V (Proc.devRef .tc main_v399)))
            (agBiasR (V (Proc.devRef .tc main_v395))) (V (Proc.devRef .tc main_v388)))
          (V (Proc.devRef .tc main_v391)) := by
  after_results_simp
  rfl

set_option maxRecDepth 8192 in

theorem agR_result (X : Valuation τ sig (Elt F)) :
    StableHlo.after (ops26 (F := F)) (StableHlo.after ops25 (StableHlo.after ops24 (StableHlo.after ops23 (StableHlo.after ops22
        (StableHlo.after ops21 (StableHlo.after ops20 (StableHlo.after ops19 (StableHlo.after ops18 X)))))))) (Proc.devRef .tc main_v449)
      = agRefStack (StableHlo.after (ops18 (F := F)) X (Proc.devRef .tc main_v329)) (X (Proc.devRef .tc main_arg4)) (X (Proc.devRef .tc main_arg5))
          (X (Proc.devRef .tc main_arg13)) (X (Proc.devRef .tc main_arg14)) := by
  rw [r26_449]
  rw [r25_420, r25_412, ops25_keep _ main_v391 (by decide), ops25_keep _ main_v388 (by decide), ops25_keep _ main_v395 (by decide),
    ops25_keep _ main_v396 (by decide), ops25_keep _ main_v398 (by decide), ops25_keep _ main_v399 (by decide)]
  rw [r24_399, r24_400, ops24_keep _ main_v391 (by decide), ops24_keep _ main_v388 (by decide), ops24_keep _ main_v395 (by decide),
    ops24_keep _ main_v396 (by decide), ops24_keep _ main_v398 (by decide), ops24_keep _ main_arg5 (by decide)]
  rw [r23_398, ops23_keep _ main_v391 (by decide), ops23_keep _ main_v388 (by decide), ops23_keep _ main_v395 (by decide),
    ops23_keep _ main_v396 (by decide), ops23_keep _ main_arg5 (by decide), ops23_keep _ main_v333 (by decide), ops23_keep _ main_v397 (by decide)]
  rw [r22_391, r22_396, r22_388, r22_395, r22_397, ops22_keep _ main_arg5 (by decide), ops22_keep _ main_v333 (by decide),
    ops22_keep _ main_v331 (by decide)]
  rw [r21_370, r21_372, ops21_keep _ main_v338 (by decide), ops21_keep _ main_v340 (by decide), ops21_keep _ main_v341 (by decide),
    ops21_keep _ main_v337 (by decide), ops21_keep _ main_v329 (by decide), ops21_keep _ main_arg13 (by decide),
    ops21_keep _ main_arg14 (by decide), ops21_keep _ main_arg5 (by decide), ops21_keep _ main_v333 (by decide), ops21_keep _ main_v331 (by decide)]
  rw [r20_341, r20_342, ops20_keep _ main_v338 (by decide), ops20_keep _ main_v340 (by decide), ops20_keep _ main_v337 (by decide),
    ops20_keep _ main_v329 (by decide), ops20_keep _ main_arg13 (by decide), ops20_keep _ main_arg14 (by decide),
    ops20_keep _ main_arg5 (by decide), ops20_keep _ main_v333 (by decide), ops20_keep _ main_v331 (by decide)]
  rw [r19_340, ops19_keep _ main_v338 (by decide), ops19_keep _ main_v337 (by decide), ops19_keep _ main_v329 (by decide),
    ops19_keep _ main_arg13 (by decide), ops19_keep _ main_arg14 (by decide), ops19_keep _ main_arg5 (by decide),
    ops19_keep _ main_v333 (by decide), ops19_keep _ main_v331 (by decide), ops19_keep _ main_v339 (by decide)]
  rw [r18_338, r18_337, r18_333, r18_331, r18_339, ops18_keep _ main_arg13 (by decide), ops18_keep _ main_arg14 (by decide),
    ops18_keep _ main_arg5 (by decide)]
  rfl

end Cert.Bridge

end
-- ==== Proof.BridgeAgraph.lean ====
import proofs.«131905_j73031623901536_2_alg».proof.Proof.KILevels
import proofs.«131905_j73031623901536_2_alg».proof.Proof.KIKeeps
import proofs.«131905_j73031623901536_2_alg».proof.Proof.KIMatValue9
import proofs.«131905_j73031623901536_2_alg».proof.Proof.KIMatValue11
import proofs.«131905_j73031623901536_2_alg».proof.Proof.KICombValue10
import proofs.«131905_j73031623901536_2_alg».proof.Proof.KICombValue12
import proofs.«131905_j73031623901536_2_alg».proof.Proof.KICombPoint
import proofs.«131905_j73031623901536_2_alg».proof.Proof.KICombRef
import proofs.«131905_j73031623901536_2_alg».proof.Proof.KIMatBlock
import proofs.«131905_j73031623901536_2_alg».proof.Proof.RefDot
import proofs.«131905_j73031623901536_2_alg».proof.Proof.RefRun
import proofs.«131905_j73031623901536_2_alg».proof.Proof.RefRunReads
import proofs.«131905_j73031623901536_2_alg».proof.Proof.BridgeAgraphPure
import proofs.«131905_j73031623901536_2_alg».proof.Proof.BridgeAgraphK
import proofs.«131905_j73031623901536_2_alg».proof.Proof.BridgeAgraphR
import Idealize.ShloMosaic.Lib.StableHlo.Run
import Idealize.ShloMosaic.Lib.Pipeline.Value
import Idealize.ShloMosaic.Lib.ValueIdx

set_option maxRecDepth 8192

noncomputable section

namespace Cert.Bridge

open Idealize.ShloMosaic Idealize.ShloMosaic.TcCoe Idealize.SL.Sem Idealize.ShloMosaic.StableHlo

section RComp
open Cert.ReferenceIdeal Cert.ReferenceIdeal.Gen Cert.ReferenceIdeal.Hand

variable {F : FTy → Type} [FloatOps F]

theorem agPrefix_keep (V : Valuation τ sig (Elt F)) (r : Ref sig .tc)
    (h00 : r ∉ ops00_W) (h01 : r ∉ ops01_W) (h02 : r ∉ ops02_W) (h03 : r ∉ ops03_W) (h04 : r ∉ ops04_W) (h05 : r ∉ ops05_W)
    (h06 : r ∉ ops06_W) (h07 : r ∉ ops07_W) (h08 : r ∉ ops08_W) (h09 : r ∉ ops09_W) (h10 : r ∉ ops10_W) (h11 : r ∉ ops11_W)
    (h12 : r ∉ ops12_W) (h13 : r ∉ ops13_W) (h14 : r ∉ ops14_W) (h15 : r ∉ ops15_W) (h16 : r ∉ ops16_W) (h17 : r ∉ ops17_W) :
    StableHlo.after (ops17 (F := F)) (StableHlo.after ops16 (StableHlo.after ops15 (StableHlo.after ops14 (StableHlo.after ops13 (StableHlo.after ops12
      (StableHlo.after ops11 (StableHlo.after ops10 (StableHlo.after ops09 (StableHlo.after ops08 (StableHlo.after ops07 (StableHlo.after ops06
      (StableHlo.after ops05 (StableHlo.after ops04 (StableHlo.after ops03 (StableHlo.after ops02 (StableHlo.after ops01 (StableHlo.after ops00 V)))))))))))))))))
        (Proc.devRef .tc r) = V (Proc.devRef .tc r) := by
  rw [ops17_keep _ r h17, ops16_keep _ r h16, ops15_keep _ r h15, ops14_keep _ r h14, ops13_keep _ r h13, ops12_keep _ r h12,
    ops11_keep _ r h11, ops10_keep _ r h10, ops09_keep _ r h09, ops08_keep _ r h08, ops07_keep _ r h07, ops06_keep _ r h06,
    ops05_keep _ r h05, ops04_keep _ r h04, ops03_keep _ r h03, ops02_keep _ r h02, ops01_keep _ r h01, ops00_keep _ r h00]

theorem R_agraph (V : Valuation τ sig (Elt F)) :
    StableHlo.after ops V (Proc.devRef .tc main_v449)
      = agRefStack (StableHlo.after ops V (Proc.devRef .tc main_v329)) (V (Proc.devRef .tc main_arg4)) (V (Proc.devRef .tc main_arg5))
          (V (Proc.devRef .tc main_arg13)) (V (Proc.devRef .tc main_arg14)) := by
  rw [after_ops_v449, agR_result, ← after_ops_v329,
    agPrefix_keep V main_arg4 (by decide) (by decide) (by decide) (by decide) (by decide) (by decide) (by decide) (by decide) (by decide) (by decide) (by decide) (by decide) (by decide) (by decide) (by decide) (by decide) (by decide) (by decide),
    agPrefix_keep V main_arg5 (by decide) (by decide) (by decide) (by decide) (by decide) (by decide) (by decide) (by decide) (by decide) (by decide) (by decide) (by decide) (by decide) (by decide) (by decide) (by decide) (by decide) (by decide),
    agPrefix_keep V main_arg13 (by decide) (by decide) (by decide) (by decide) (by decide) (by decide) (by decide) (by decide) (by decide) (by decide) (by decide) (by decide) (by decide) (by decide) (by decide) (by decide) (by decide) (by decide),
    agPrefix_keep V main_arg14 (by decide) (by decide) (by decide) (by decide) (by decide) (by decide) (by decide) (by decide) (by decide) (by decide) (by decide) (by decide) (by decide) (by decide) (by decide) (by decide) (by decide) (by decide)]

end RComp

section Glue
open Cert.KernelIdeal.Hand Idealize.ShloMosaic.ValueIdx

variable {F : FTy → Type} [FloatOps F]

theorem agBiasR_eq (b : FVec F Cert.ReferenceIdeal.S128 .f32) : agBiasR b = agBiasK b := by
  funext i
  unfold agBiasR agBiasK
  have hi0 : (i 0).val = 0 := by have h := (i 0).isLt; change (i 0).val < 1 at h; omega
  have hk1 : ∀ a : Fin 1, ((ix1 (⟨(i 1).val, (i 1).isLt⟩ : Fin 128) : Cert.ReferenceIdeal.S128.Idx) a).val
      = if Cert.ReferenceIdeal.S128.size a = 1 then 0 else (i ((![1] : Fin 1 → Fin 2) a)).val := fun a => by
    have ha : a = 0 := Subsingleton.elim _ _
    subst ha
    rw [if_neg (by decide)]
    rfl
  rw [broadcastInDim_apply _ _ b i (ix1 (⟨(i 1).val, (i 1).isLt⟩ : Fin 128)) hk1,
      shapeCast_apply b _ i (ix1 (⟨(i 1).val, (i 1).isLt⟩ : Fin 128)) (by
        rw [Shape.rowMajor_val_one, Shape.rowMajor_val_two]
        show (i 1).val = (i 0).val * 128 + (i 1).val
        omega)]

theorem agDotR_eq (x : FVec Ideal Cert.ReferenceIdeal.S30000x128 .f32) (w : FVec Ideal Cert.ReferenceIdeal.S128x128 .f32) :
    agDotR (F := Ideal) x w = rowsTimes x w := by
  funext k
  obtain ⟨i, j, rfl⟩ : ∃ (i : Fin 30000) (j : Fin 128), k = ix2 i j := ⟨k 0, k 1, eq_ix2 k⟩
  exact ref_dot_30000 x w i j

theorem agRefX_eq (agg : FVec Ideal Cert.ReferenceIdeal.S30000x128 .f32) (brow : FVec Ideal Cert.ReferenceIdeal.S1x128 .f32) (x : FVec Ideal Cert.ReferenceIdeal.S30000x128 .f32) :
    agRefX (F := Ideal) agg brow x = layerOut agg brow x :=
  refLayerX_eq Cert.ReferenceIdeal.Gen.bcast_S1x128_S30000x128_0_1 Cert.ReferenceIdeal.Gen.bcast_S_S30000x128 agg brow x

theorem agRefR_eq (s : BitVec 32) (agg : FVec Ideal Cert.ReferenceIdeal.S30000x128 .f32) (brow : FVec Ideal Cert.ReferenceIdeal.S1x128 .f32)
    (x r : FVec Ideal Cert.ReferenceIdeal.S30000x128 .f32) :
    agRefR (F := Ideal) s (agRefX agg brow x) r = layerRes (Ideal.ofBits .f32 s) agg brow x r :=
  refLayerR_eq Cert.ReferenceIdeal.Gen.bcast_S1x128_S30000x128_0_1 Cert.ReferenceIdeal.Gen.bcast_S_S30000x128 s agg brow x r

end Glue

section KForm
open Cert.KernelIdeal Cert.KernelIdeal.Gen Cert.KernelIdeal.Hand

def agX1K (L : FVec Ideal S30000x128 .f32) (a4 : IVec S2x600000 32) (a5 : FVec Ideal S600000 .f32) (a13 : FVec Ideal S2x128x128 .f32)
    (a14 : FVec Ideal S2x128 .f32) : FVec Ideal S30000x128 .f32 :=
  layerOut (agAgg (rowsTimes L (agW0 a13)) (agNorm a4 a5) (agRow2 a4) (agCol2 a4)) (agBiasK (agB0 a14)) L

def agR1K (L : FVec Ideal S30000x128 .f32) (a4 : IVec S2x600000 32) (a5 : FVec Ideal S600000 .f32) (a13 : FVec Ideal S2x128x128 .f32)
    (a14 : FVec Ideal S2x128 .f32) : FVec Ideal S30000x128 .f32 :=
  layerRes (Ideal.ofBits .f32 0x3F000000#32) (agAgg (rowsTimes L (agW0 a13)) (agNorm a4 a5) (agRow2 a4) (agCol2 a4)) (agBiasK (agB0 a14)) L L

def agStackK (L : FVec Ideal S30000x128 .f32) (a4 : IVec S2x600000 32) (a5 : FVec Ideal S600000 .f32) (a13 : FVec Ideal S2x128x128 .f32)
    (a14 : FVec Ideal S2x128 .f32) : FVec Ideal S30000x128 .f32 :=
  layerRes (Ideal.ofBits .f32 0x3EAAAAAB#32)
    (agAgg (rowsTimes (agX1K L a4 a5 a13 a14) (agW1 a13)) (agNorm a4 a5) (agRow2 a4) (agCol2 a4)) (agBiasK (agB1 a14))
    (agX1K L a4 a5 a13 a14) (agR1K L a4 a5 a13 a14)

variable (m : (ℓ : Loc nD τ sig) → Buf (Elt Ideal) ℓ) (c : Dev nD)

abbrev agL : FVec Ideal S30000x128 .f32 := W39 m c (Proc.devRef .tc main_v206)
abbrev agA4 : IVec S2x600000 32 := W0 m c (Proc.devRef .tc main_arg4)
abbrev agA5 : FVec Ideal S600000 .f32 := W0 m c (Proc.devRef .tc main_arg5)
abbrev agA13 : FVec Ideal S2x128x128 .f32 := W0 m c (Proc.devRef .tc main_arg13)
abbrev agA14 : FVec Ideal S2x128 .f32 := W0 m c (Proc.devRef .tc main_arg14)

theorem w39_eq : W39 m c = StableHlo.after hostOps9_8 (StableHlo.after hostOps9_7 (StableHlo.after hostOps9_6 (StableHlo.after hostOps9_5
    (StableHlo.after hostOps9_4 (W34 m c))))) := by
  rw [W39_def, W38_def, W37_def, W36_def, W35_def]

theorem w39_norm : W39 m c (Proc.devRef .tc main_v242) = agNorm (agA4 m c) (agA5 m c) := by
  rw [w39_eq, kPre_242, keep_main_arg4_0_34, keep_main_arg5_0_34]
theorem w39_row2 : W39 m c (Proc.devRef .tc main_v212) = agRow2 (agA4 m c) := by
  rw [w39_eq, kPre_212, keep_main_arg4_0_34]
theorem w39_col2 : W39 m c (Proc.devRef .tc main_v213) = agCol2 (agA4 m c) := by
  rw [w39_eq, kPre_213, keep_main_arg4_0_34]
theorem w39_w0 : W39 m c (Proc.devRef .tc main_v244) = agW0 (agA13 m c) := by
  rw [w39_eq, kPre_244, keep_main_arg13_0_34]

theorem w40_xw : W40 m c (Proc.devRef .tc main_v245) = rowsTimes (agL m c) (agW0 (agA13 m c)) := by
  rw [W40_at_main_v245, matmul_array9]
  show rowsTimes (W39 m c (Proc.devRef .tc main_v206)) (W39 m c (Proc.devRef .tc main_v244)) = _
  rw [w39_w0]

theorem w41_agg : W41 m c (Proc.devRef .tc main_v258)
    = agAgg (rowsTimes (agL m c) (agW0 (agA13 m c))) (agNorm (agA4 m c) (agA5 m c)) (agRow2 (agA4 m c)) (agCol2 (agA4 m c)) := by
  rw [W41_def, kAgg1, w40_xw, keep_main_v242_39_40, keep_main_v212_39_40, keep_main_v213_39_40, w39_norm, w39_row2, w39_col2]
theorem w41_bias : W41 m c (Proc.devRef .tc main_v261) = agBiasK (agB0 (agA14 m c)) := by
  rw [W41_def, kBias0, keep_main_arg14_0_40]
theorem w41_L : W41 m c (Proc.devRef .tc main_v206) = agL m c := keep_main_v206_39_41 m c

theorem w42_x1 : W42 m c (Proc.devRef .tc main_v262_0) = agX1K (agL m c) (agA4 m c) (agA5 m c) (agA13 m c) (agA14 m c) := by
  rw [W42_at_main_v262_0, final10_4]
  show layerOut (W41 m c (Proc.devRef .tc main_v258)) (W41 m c (Proc.devRef .tc main_v261)) (W41 m c (Proc.devRef .tc main_v206)) = _
  rw [w41_agg, w41_bias, w41_L]
  rfl
theorem w42_r1 : W42 m c (Proc.devRef .tc main_v262_1) = agR1K (agL m c) (agA4 m c) (agA5 m c) (agA13 m c) (agA14 m c) := by
  rw [W42_at_main_v262_1, final10_5]
  show layerRes _ (W41 m c (Proc.devRef .tc main_v258)) (W41 m c (Proc.devRef .tc main_v261)) (W41 m c (Proc.devRef .tc main_v206))
    (W41 m c (Proc.devRef .tc main_v206)) = _
  rw [w41_agg, w41_bias, w41_L]
  rfl

theorem w43_w1 : W43 m c (Proc.devRef .tc main_v264) = agW1 (agA13 m c) := by
  rw [W43_def, kW1, keep_main_arg13_0_42]
theorem w43_x1 : W43 m c (Proc.devRef .tc main_v262_0) = agX1K (agL m c) (agA4 m c) (agA5 m c) (agA13 m c) (agA14 m c) := by
  rw [keep_main_v262_0_42_43, w42_x1]

theorem w44_xw : W44 m c (Proc.devRef .tc main_v265)
    = rowsTimes (agX1K (agL m c) (agA4 m c) (agA5 m c) (agA13 m c) (agA14 m c)) (agW1 (agA13 m c)) := by
  rw [W44_at_main_v265, matmul_array11]
  show rowsTimes (W43 m c (Proc.devRef .tc main_v262_0)) (W43 m c (Proc.devRef .tc main_v264)) = _
  rw [w43_x1, w43_w1]

theorem w45_agg : W45 m c (Proc.devRef .tc main_v278)
    = agAgg (rowsTimes (agX1K (agL m c) (agA4 m c) (agA5 m c) (agA13 m c) (agA14 m c)) (agW1 (agA13 m c)))
        (agNorm (agA4 m c) (agA5 m c)) (agRow2 (agA4 m c)) (agCol2 (agA4 m c)) := by
  rw [W45_def, kAgg2, w44_xw, keep_main_v242_39_44, keep_main_v212_39_44, keep_main_v213_39_44, w39_norm, w39_row2, w39_col2]
theorem w45_bias : W45 m c (Proc.devRef .tc main_v281) = agBiasK (agB1 (agA14 m c)) := by
  rw [W45_def, kBias1, keep_main_arg14_0_44]
theorem w45_x1 : W45 m c (Proc.devRef .tc main_v262_0) = agX1K (agL m c) (agA4 m c) (agA5 m c) (agA13 m c) (agA14 m c) := by
  rw [keep_main_v262_0_42_45, w42_x1]
theorem w45_r1 : W45 m c (Proc.devRef .tc main_v262_1) = agR1K (agL m c) (agA4 m c) (agA5 m c) (agA13 m c) (agA14 m c) := by
  rw [keep_main_v262_1_42_45, w42_r1]

theorem K_agraph : W46 m c (Proc.devRef .tc main_v282_1) = agStackK (agL m c) (agA4 m c) (agA5 m c) (agA13 m c) (agA14 m c) := by
  rw [W46_at_main_v282_1, final12_5]
  show layerRes _ (W45 m c (Proc.devRef .tc main_v278)) (W45 m c (Proc.devRef .tc main_v281)) (W45 m c (Proc.devRef .tc main_v262_0))
    (W45 m c (Proc.devRef .tc main_v262_1)) = _
  rw [w45_agg, w45_bias, w45_x1, w45_r1]
  rfl

end KForm

section Final
open Cert.KernelIdeal.Hand

theorem agRefStack_eq (L : FVec Ideal Cert.KernelIdeal.S30000x128 .f32) (a4 : IVec Cert.KernelIdeal.S2x600000 32) (a5 : FVec Ideal Cert.KernelIdeal.S600000 .f32)
    (a13 : FVec Ideal Cert.KernelIdeal.S2x128x128 .f32) (a14 : FVec Ideal Cert.KernelIdeal.S2x128 .f32) :
    agRefStack (F := Ideal) L a4 a5 a13 a14 = agStackK L a4 a5 a13 a14 := by
  unfold agRefStack agRefX1
  rw [agRefR_eq, agRefR_eq, agRefX_eq, agDotR_eq, agDotR_eq, agBiasR_eq, agBiasR_eq]
  rfl

theorem agraph_bridge
    (mK : (ℓ : Loc Cert.KernelIdeal.nD Cert.KernelIdeal.τ Cert.KernelIdeal.sig) → Buf (Elt Ideal) ℓ)
    (mR : (ℓ : Loc Cert.ReferenceIdeal.nD Cert.ReferenceIdeal.τ Cert.ReferenceIdeal.sig) → Buf (Elt Ideal) ℓ)
    (c : Dev Cert.KernelIdeal.nD)
    (h4 : mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4))
    (h5 : mR ((c.tc : Thread Cert.ReferenceIdeal.nD Cert.ReferenceIdeal.τ).loc Cert.ReferenceIdeal.main_arg5) = mK ((c.tc : Thread Cert.KernelIdeal.nD Cert.KernelIdeal.τ).loc Cert.KernelIdeal.main_arg5))
    (h13 : mR ((c.tc : Thread Cert.ReferenceIdeal.nD Cert.ReferenceIdeal.τ).loc Cert.ReferenceIdeal.main_arg13) = mK ((c.tc : Thread Cert.KernelIdeal.nD Cert.KernelIdeal.τ).loc Cert.KernelIdeal.main_arg13))
    (h14 : mR ((c.tc : Thread Cert.ReferenceIdeal.nD Cert.ReferenceIdeal.τ).loc Cert.ReferenceIdeal.main_arg14) = mK ((c.tc : Thread Cert.KernelIdeal.nD Cert.KernelIdeal.τ).loc Cert.KernelIdeal.main_arg14))
    (hD : W39 mK c (Proc.devRef .tc Cert.KernelIdeal.main_v206)
      = StableHlo.after Cert.ReferenceIdeal.Hand.ops (StableHlo.launchContents mR c) (Proc.devRef .tc Cert.ReferenceIdeal.main_v329)) :
    W46 mK c (Proc.devRef .tc Cert.KernelIdeal.main_v282_1)
      = StableHlo.after Cert.ReferenceIdeal.Hand.ops (StableHlo.launchContents mR c) (Proc.devRef .tc Cert.ReferenceIdeal.main_v449) := by
  rw [K_agraph, R_agraph, ← hD]
  have e4 : StableHlo.launchContents mR c (Proc.devRef .tc Cert.ReferenceIdeal.main_arg4) = agA4 mK c := h4
  have e5 : StableHlo.launchContents mR c (Proc.devRef .tc Cert.ReferenceIdeal.main_arg5) = agA5 mK c := h5
  have e13 : StableHlo.launchContents mR c (Proc.devRef .tc Cert.ReferenceIdeal.main_arg13) = agA13 mK c := h13
  have e14 : StableHlo.launchContents mR c (Proc.devRef .tc Cert.ReferenceIdeal.main_arg14) = agA14 mK c := h14
  rw [e4, e5, e13, e14]
  exact (agRefStack_eq _ _ _ _ _).symm

end Final

end Cert.Bridge

end
-- ==== Proof.BridgeAll.lean ====
import proofs.«131905_j73031623901536_2_alg».proof.Defs
import proofs.«131905_j73031623901536_2_alg».proof.Proof.Gen.KernelIdeal
import proofs.«131905_j73031623901536_2_alg».proof.Proof.Gen.ReferenceIdeal
import proofs.«131905_j73031623901536_2_alg».proof.Proof.Gen.Pre_finite_inputs
import proofs.«131905_j73031623901536_2_alg».proof.Proof.KIFrame
import proofs.«131905_j73031623901536_2_alg».proof.Proof.RefRun
import proofs.«131905_j73031623901536_2_alg».proof.Proof.KIKeeps
import proofs.«131905_j73031623901536_2_alg».proof.Proof.SlicesBridge
import proofs.«131905_j73031623901536_2_alg».proof.Proof.BridgeDdi
import proofs.«131905_j73031623901536_2_alg».proof.Proof.BridgeGate
import proofs.«131905_j73031623901536_2_alg».proof.Proof.BridgeHgat
import proofs.«131905_j73031623901536_2_alg».proof.Proof.BridgeRep
import proofs.«131905_j73031623901536_2_alg».proof.Proof.BridgeAgraph

set_option maxRecDepth 16384

noncomputable section

namespace Cert.Proof

open Idealize.ShloMosaic Idealize.ShloMosaic.TcCoe Idealize.SL.Sem

-- Each stage's results equal the reference's given the earlier stages'; a result written at one level is written at no later one; both runs end at those contents with the arguments as launched.
theorem algebraic : Cert.algebraic_KernelIdeal_ReferenceIdeal := by
  intro m g m' g' hp ha
  have stA := fun c : Dev Cert.KernelIdeal.nD => Cert.Bridge.Ddi.ddi_bridge m m' c (ha c).2.2.1 (ha c).2.2.2.2.2.2.1 (ha c).2.2.2.2.2.2.2.2.2.2.2.2.2.2.2.1 (ha c).2.2.2.2.2.2.2.2.2.2.2.2.2.2.2.2
  have stB := fun c : Dev Cert.KernelIdeal.nD => Cert.Bridge.gate_bridge m m' c (ha c).1 (ha c).2.1 (ha c).2.2.1 (ha c).2.2.2.2.2.2.2.1 (ha c).2.2.2.2.2.2.2.2.1 (ha c).2.2.2.2.2.2.2.2.2.1 (ha c).2.2.2.2.2.2.2.2.2.2.1
    (Cert.KernelIdeal.Hand.keep_main_v0_1_13 m c) (Cert.KernelIdeal.Hand.keep_main_arg7_0_12 m c) (Cert.KernelIdeal.Hand.keep_main_arg8_0_12 m c)
    (Cert.KernelIdeal.Hand.keep_main_arg9_0_12 m c) (Cert.KernelIdeal.Hand.keep_main_arg10_0_12 m c)
  have stC := fun c : Dev Cert.KernelIdeal.nD => Cert.Bridge.hgat_bridge m m' c (ha c).2.2.2.1 (ha c).2.2.2.2.2.2.2.2.2.2.2.1 (ha c).2.2.2.2.2.2.2.2.2.2.2.2.1 (stB c).1
  have stD := fun c : Dev Cert.KernelIdeal.nD => Cert.Bridge.rep_bridge_kept m m' c (ha c).2.2.2.1 (stC c) (stB c).2
  have stE := fun c : Dev Cert.KernelIdeal.nD => Cert.Bridge.agraph_bridge m m' c (ha c).2.2.2.2.1 (ha c).2.2.2.2.2.1 (ha c).2.2.2.2.2.2.2.2.2.2.2.2.2.1 (ha c).2.2.2.2.2.2.2.2.2.2.2.2.2.2.1 (stD c).2
  have stF := fun c : Dev Cert.KernelIdeal.nD => Cert.Bridge.slices_bridge m m' c (stC c) (Cert.KernelIdeal.Hand.keep_main_v174_1_30_46 m c)
  refine ⟨fun c => Cert.KernelIdeal.Hand.W47 m c (Proc.devRef .tc Cert.KernelIdeal.main_v205),
    fun c => Cert.KernelIdeal.Hand.W47 m c (Proc.devRef .tc Cert.KernelIdeal.main_v282_1),
    fun c => Cert.KernelIdeal.Hand.W47 m c (Proc.devRef .tc Cert.KernelIdeal.main_v283),
    fun c => Cert.KernelIdeal.Hand.W47 m c (Proc.devRef .tc Cert.KernelIdeal.main_v284),
    fun c => Cert.KernelIdeal.Hand.W47 m c (Proc.devRef .tc Cert.KernelIdeal.main_v285),
    fun c => Cert.KernelIdeal.Hand.W47 m c (Proc.devRef .tc Cert.KernelIdeal.main_v77_1), ?_, ?_⟩
  · open Cert.KernelIdeal Cert.KernelIdeal.Gen Cert.KernelIdeal.GenP Cert.KernelIdeal.Hand in
    exact (θ_run defs _ _).mono (fun r h c => ⟨h c _ (mem_uc main_v205 (by decide)), h c _ (mem_uc main_v282_1 (by decide)), h c _ (mem_uc main_v283 (by decide)), h c _ (mem_uc main_v284 (by decide)), h c _ (mem_uc main_v285 (by decide)), h c _ (mem_uc main_v77_1 (by decide)),
      (h c _ (mem_uc main_arg0 (by decide))).trans ((congrFun (V47_eq m c).symm _).trans (V47_main_arg0 m (OUTS m) c)),
      (h c _ (mem_uc main_arg1 (by decide))).trans ((congrFun (V47_eq m c).symm _).trans (V47_main_arg1 m (OUTS m) c)),
      (h c _ (mem_uc main_arg2 (by decide))).trans ((congrFun (V47_eq m c).symm _).trans (V47_main_arg2 m (OUTS m) c)),
      (h c _ (mem_uc main_arg3 (by decide))).trans ((congrFun (V47_eq m c).symm _).trans (V47_main_arg3 m (OUTS m) c)),
      (h c _ (mem_uc main_arg4 (by decide))).trans ((congrFun (V47_eq m c).symm _).trans (V47_main_arg4 m (OUTS m) c)),
      (h c _ (mem_uc main_arg5 (by decide))).trans ((congrFun (V47_eq m c).symm _).trans (V47_main_arg5 m (OUTS m) c)),
      (h c _ (mem_uc main_arg6 (by decide))).trans ((congrFun (V47_eq m c).symm _).trans (V47_main_arg6 m (OUTS m) c)),
      (h c _ (mem_uc main_arg7 (by decide))).trans ((congrFun (V47_eq m c).symm _).trans (V47_main_arg7 m (OUTS m) c)),
      (h c _ (mem_uc main_arg8 (by decide))).trans ((congrFun (V47_eq m c).symm _).trans (V47_main_arg8 m (OUTS m) c)),
      (h c _ (mem_uc main_arg9 (by decide))).trans ((congrFun (V47_eq m c).symm _).trans (V47_main_arg9 m (OUTS m) c)),
      (h c _ (mem_uc main_arg10 (by decide))).trans ((congrFun (V47_eq m c).symm _).trans (V47_main_arg10 m (OUTS m) c)),
      (h c _ (mem_uc main_arg11 (by decide))).trans ((congrFun (V47_eq m c).symm _).trans (V47_main_arg11 m (OUTS m) c)),
      (h c _ (mem_uc main_arg12 (by decide))).trans ((congrFun (V47_eq m c).symm _).trans (V47_main_arg12 m (OUTS m) c)),
      (h c _ (mem_uc main_arg13 (by decide))).trans ((congrFun (V47_eq m c).symm _).trans (V47_main_arg13 m (OUTS m) c)),
      (h c _ (mem_uc main_arg14 (by decide))).trans ((congrFun (V47_eq m c).symm _).trans (V47_main_arg14 m (OUTS m) c)),
      (h c _ (mem_uc main_arg15 (by decide))).trans ((congrFun (V47_eq m c).symm _).trans (V47_main_arg15 m (OUTS m) c)),
      (h c _ (mem_uc main_arg16 (by decide))).trans ((congrFun (V47_eq m c).symm _).trans (V47_main_arg16 m (OUTS m) c))⟩) (run_all m g)
  · open Cert.ReferenceIdeal Cert.ReferenceIdeal.Hand in
    exact (θ_run defs _ _).mono (fun r h c => ⟨
      (h c main_v300).trans (((Cert.KernelIdeal.Hand.keep_main_v205_35_47 m c).trans (Cert.KernelIdeal.Hand.keep_main_v205_35_39 m c).symm).trans (stD c).1).symm,
      (h c main_v449).trans ((Cert.KernelIdeal.Hand.keep_main_v282_1_46_47 m c).trans (stE c)).symm,
      (h c main_v450).trans (stF c).1.symm,
      (h c main_v451).trans (stF c).2.1.symm,
      (h c main_v452).trans (stF c).2.2.symm,
      (h c main_v121).trans ((Cert.KernelIdeal.Hand.keep_main_v77_1_12_47 m c).trans (stA c)).symm,
      (h c main_arg0).trans (args_kept0 _),
      (h c main_arg1).trans (args_kept1 _),
      (h c main_arg2).trans (args_kept2 _),
      (h c main_arg3).trans (args_kept3 _),
      (h c main_arg4).trans (args_kept4 _),
      (h c main_arg5).trans (args_kept5 _),
      (h c main_arg6).trans (args_kept6 _),
      (h c main_arg7).trans (args_kept7 _),
      (h c main_arg8).trans (args_kept8 _),
      (h c main_arg9).trans (args_kept9 _),
      (h c main_arg10).trans (args_kept10 _),
      (h c main_arg11).trans (args_kept11 _),
      (h c main_arg12).trans (args_kept12 _),
      (h c main_arg13).trans (args_kept13 _),
      (h c main_arg14).trans (args_kept14 _),
      (h c main_arg15).trans (args_kept15 _),
      (h c main_arg16).trans (args_kept16 _)⟩) (run_all m' g')

end Cert.Proof

end
-- ==== Proof.lean ====
/- Row-blocked matrix products equal the whole products row by row, and exact sums split along columns, so both programs compute one function of the inputs. -/
import proofs.«131905_j73031623901536_2_alg».proof.Defs
import proofs.«131905_j73031623901536_2_alg».proof.Proof.Gen.Kernel
import proofs.«131905_j73031623901536_2_alg».proof.Proof.Gen.KernelIdeal
import proofs.«131905_j73031623901536_2_alg».proof.Proof.Gen.ReferenceIdeal
import proofs.«131905_j73031623901536_2_alg».proof.Proof.Gen.Pre_finite_inputs
import proofs.«131905_j73031623901536_2_alg».proof.Proof.KFrame
import proofs.«131905_j73031623901536_2_alg».proof.Proof.KIFrame
import proofs.«131905_j73031623901536_2_alg».proof.Proof.RefRun
import proofs.«131905_j73031623901536_2_alg».proof.Proof.BridgeAll
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame_ri, preserves, Cert.Proof.algebraic⟩

end Cert.Proof

end
